-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35)) (m ((c.tc : Thread Cert.Kernel.nD Cert.Kernel.τ).loc Cert.Kernel.main_arg36))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)) →
    ∃ (v0 : (c : Dev Cert.KernelIdeal.nD) → Buf (Elt Ideal) ((c.tc : Thread Cert.KernelIdeal.nD Cert.KernelIdeal.τ).loc Cert.KernelIdeal.main_v200)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v200) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v258) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S1600000 : Shape := ⟨1, ![1600000]⟩
abbrev S400000 : Shape := ⟨1, ![400000]⟩
abbrev S100000 : Shape := ⟨1, ![100000]⟩
abbrev S25000 : Shape := ⟨1, ![25000]⟩
abbrev S32x128 : Shape := ⟨2, ![32, 128]⟩
abbrev S128 : Shape := ⟨1, ![128]⟩
abbrev S128x128 : Shape := ⟨2, ![128, 128]⟩
abbrev S256x5 : Shape := ⟨2, ![256, 5]⟩
abbrev S5 : Shape := ⟨1, ![5]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x5 : S_.BroadcastsInDim S256x5 (![] : Fin 0 → Fin S256x5.rank)
  reducesTo_S256x5_S_d0_1 : S256x5.ReducesTo [0, 1] S_
  bcast_S_S5 : S_.BroadcastsInDim S5 (![] : Fin 0 → Fin S5.rank)
  reducesTo_S5_S_d0 : S5.ReducesTo [0] S_

variable [Facts]

def fn_part6 {F : FTy → Type} [FloatOps F] (main_arg35 : FVec F S256x5 .f32) (main_arg36 : FVec F S5 .f32) (main_v98 : IVec S_ 1) (main_v101 : IVec S5 1) (main_c_39 : IVec S_ 1) : IVec S_ 1 :=
  let main_v102 : IVec S_ 1 := (fun x v => Host.reduce IntOp.andi x v reducesTo_S5_S_d0 h_S_) main_v101 main_c_39
  let main_v103 : IVec S_ 1 := andi main_v98 main_v102
  let main_v104 : FVec F S256x5 .f32 := Host.absf main_arg35
  let main_cst_40 : FVec F S_ .f32 := constant S_ .f32 0x7F800000#32
  let main_v105 : FVec F S256x5 .f32 := broadcastInDim S256x5 ![] bcast_S_S256x5 main_cst_40
  let main_v106 : IVec S256x5 1 := cmpf .olt main_v104 main_v105
  let main_c_41 : IVec S_ 1 := constantI S_ 1 1#1
  let main_v107 : IVec S_ 1 := (fun x v => Host.reduce IntOp.andi x v reducesTo_S256x5_S_d0_1 h_S_) main_v106 main_c_41
  let main_v108 : IVec S_ 1 := andi main_v103 main_v107
  let main_v109 : FVec F S5 .f32 := Host.absf main_arg36
  let main_cst_42 : FVec F S_ .f32 := constant S_ .f32 0x7F800000#32
  let main_v110 : FVec F S5 .f32 := broadcastInDim S5 ![] bcast_S_S5 main_cst_42
  let main_v111 : IVec S5 1 := cmpf .olt main_v109 main_v110
  let main_c_43 : IVec S_ 1 := constantI S_ 1 1#1
  let main_v112 : IVec S_ 1 := (fun x v => Host.reduce IntOp.andi x v reducesTo_S5_S_d0 h_S_) main_v111 main_c_43
  let main_v113 : IVec S_ 1 := andi main_v108 main_v112
  main_v113

def fn_part5 {F : FTy → Type} [FloatOps F] (main_arg32 : FVec F S5 .f32) (main_arg33 : FVec F S256x5 .f32) (main_arg34 : FVec F S5 .f32) (main_arg35 : FVec F S256x5 .f32) (main_arg36 : FVec F S5 .f32) (main_v83 : IVec S_ 1) (main_v84 : FVec F S256x5 .f32) (main_cst_32 : FVec F S_ .f32) : IVec S_ 1 :=
  let main_v85 : FVec F S256x5 .f32 := broadcastInDim S256x5 ![] bcast_S_S256x5 main_cst_32
  let main_v86 : IVec S256x5 1 := cmpf .olt main_v84 main_v85
  let main_c_33 : IVec S_ 1 := constantI S_ 1 1#1
  let main_v87 : IVec S_ 1 := (fun x v => Host.reduce IntOp.andi x v reducesTo_S256x5_S_d0_1 h_S_) main_v86 main_c_33
  let main_v88 : IVec S_ 1 := andi main_v83 main_v87
  let main_v89 : FVec F S5 .f32 := Host.absf main_arg32
  let main_cst_34 : FVec F S_ .f32 := constant S_ .f32 0x7F800000#32
  let main_v90 : FVec F S5 .f32 := broadcastInDim S5 ![] bcast_S_S5 main_cst_34
  let main_v91 : IVec S5 1 := cmpf .olt main_v89 main_v90
  let main_c_35 : IVec S_ 1 := constantI S_ 1 1#1
  let main_v92 : IVec S_ 1 := (fun x v => Host.reduce IntOp.andi x v reducesTo_S5_S_d0 h_S_) main_v91 main_c_35
  let main_v93 : IVec S_ 1 := andi main_v88 main_v92
  let main_v94 : FVec F S256x5 .f32 := Host.absf main_arg33
  let main_cst_36 : FVec F S_ .f32 := constant S_ .f32 0x7F800000#32
  let main_v95 : FVec F S256x5 .f32 := broadcastInDim S256x5 ![] bcast_S_S256x5 main_cst_36
  let main_v96 : IVec S256x5 1 := cmpf .olt main_v94 main_v95
  let main_c_37 : IVec S_ 1 := constantI S_ 1 1#1
  let main_v97 : IVec S_ 1 := (fun x v => Host.reduce IntOp.andi x v reducesTo_S256x5_S_d0_1 h_S_) main_v96 main_c_37
  let main_v98 : IVec S_ 1 := andi main_v93 main_v97
  let main_v99 : FVec F S5 .f32 := Host.absf main_arg34
  let main_cst_38 : FVec F S_ .f32 := constant S_ .f32 0x7F800000#32
  let main_v100 : FVec F S5 .f32 := broadcastInDim S5 ![] bcast_S_S5 main_cst_38
  let main_v101 : IVec S5 1 := cmpf .olt main_v99 main_v100
  let main_c_39 : IVec S_ 1 := constantI S_ 1 1#1
  fn_part6 (F := F) main_arg35 main_arg36 main_v98 main_v101 main_c_39

def fn_part4 {F : FTy → Type} [FloatOps F] (main_arg28 : FVec F S128 .f32) (main_arg29 : FVec F S128x128 .f32) (main_arg30 : FVec F S128 .f32) (main_arg31 : FVec F S256x5 .f32) (main_arg32 : FVec F S5 .f32) (main_arg33 : FVec F S256x5 .f32) (main_arg34 : FVec F S5 .f32) (main_arg35 : FVec F S256x5 .f32) (main_arg36 : FVec F S5 .f32) (main_v63 : IVec S_ 1) (main_v67 : IVec S_ 1) : IVec S_ 1 :=
  let main_v68 : IVec S_ 1 := andi main_v63 main_v67
  let main_v69 : FVec F S128 .f32 := Host.absf main_arg28
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg29
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg30
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S256x5 .f32 := Host.absf main_arg31
  let main_cst_32 : FVec F S_ .f32 := constant S_ .f32 0x7F800000#32
  fn_part5 (F := F) main_arg32 main_arg33 main_arg34 main_arg35 main_arg36 main_v83 main_v84 main_cst_32

def fn_part3 {F : FTy → Type} [FloatOps F] (main_arg25 : FVec F S128x128 .f32) (main_arg26 : FVec F S128 .f32) (main_arg27 : FVec F S128x128 .f32) (main_arg28 : FVec F S128 .f32) (main_arg29 : FVec F S128x128 .f32) (main_arg30 : FVec F S128 .f32) (main_arg31 : FVec F S256x5 .f32) (main_arg32 : FVec F S5 .f32) (main_arg33 : FVec F S256x5 .f32) (main_arg34 : FVec F S5 .f32) (main_arg35 : FVec F S256x5 .f32) (main_arg36 : FVec F S5 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg25
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg26
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg27
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg28 main_arg29 main_arg30 main_arg31 main_arg32 main_arg33 main_arg34 main_arg35 main_arg36 main_v63 main_v67

def fn_part2 {F : FTy → Type} [FloatOps F] (main_arg21 : FVec F S128x128 .f32) (main_arg22 : FVec F S128 .f32) (main_arg23 : FVec F S128x128 .f32) (main_arg24 : FVec F S128 .f32) (main_arg25 : FVec F S128x128 .f32) (main_arg26 : FVec F S128 .f32) (main_arg27 : FVec F S128x128 .f32) (main_arg28 : FVec F S128 .f32) (main_arg29 : FVec F S128x128 .f32) (main_arg30 : FVec F S128 .f32) (main_arg31 : FVec F S256x5 .f32) (main_arg32 : FVec F S5 .f32) (main_arg33 : FVec F S256x5 .f32) (main_arg34 : FVec F S5 .f32) (main_arg35 : FVec F S256x5 .f32) (main_arg36 : FVec F S5 .f32) (main_v33 : IVec S_ 1) : IVec S_ 1 :=
  let main_v34 : FVec F S128x128 .f32 := Host.absf main_arg21
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg22
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg23
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg24
  let main_cst_18 : FVec F S_ .f32 := constant S_ .f32 0x7F800000#32
  let main_v50 : FVec F S128 .f32 := broadcastInDim S128 ![] bcast_S_S128 main_cst_18
  fn_part3 (F := F) main_arg25 main_arg26 main_arg27 main_arg28 main_arg29 main_arg30 main_arg31 main_arg32 main_arg33 main_arg34 main_arg35 main_arg36 main_v48 main_v49 main_v50

def fn_part1 {F : FTy → Type} [FloatOps F] (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128x128 .f32) (main_arg26 : FVec F S128 .f32) (main_arg27 : FVec F S128x128 .f32) (main_arg28 : FVec F S128 .f32) (main_arg29 : FVec F S128x128 .f32) (main_arg30 : FVec F S128 .f32) (main_arg31 : FVec F S256x5 .f32) (main_arg32 : FVec F S5 .f32) (main_arg33 : FVec F S256x5 .f32) (main_arg34 : FVec F S5 .f32) (main_arg35 : FVec F S256x5 .f32) (main_arg36 : FVec F S5 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg18
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg19
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg20
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg21 main_arg22 main_arg23 main_arg24 main_arg25 main_arg26 main_arg27 main_arg28 main_arg29 main_arg30 main_arg31 main_arg32 main_arg33 main_arg34 main_arg35 main_arg36 main_v33

def fn {F : FTy → Type} [FloatOps F] (main_arg0 : FVec F S100000x32 .f32) (main_arg1 : IVec S1600000 32) (main_arg2 : IVec S1600000 32) (main_arg3 : IVec S400000 32) (main_arg4 : IVec S400000 32) (main_arg5 : IVec S100000 32) (main_arg6 : IVec S100000 32) (main_arg7 : IVec S100000 32) (main_arg8 : IVec S100000 32) (main_arg9 : IVec S25000 32) (main_arg10 : IVec S25000 32) (main_arg11 : IVec S100000 32) (main_arg12 : IVec S100000 32) (main_arg13 : IVec S400000 32) (main_arg14 : IVec S400000 32) (main_arg15 : FVec F S32x128 .f32) (main_arg16 : FVec F S128 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128x128 .f32) (main_arg26 : FVec F S128 .f32) (main_arg27 : FVec F S128x128 .f32) (main_arg28 : FVec F S128 .f32) (main_arg29 : FVec F S128x128 .f32) (main_arg30 : FVec F S128 .f32) (main_arg31 : FVec F S256x5 .f32) (main_arg32 : FVec F S5 .f32) (main_arg33 : FVec F S256x5 .f32) (main_arg34 : FVec F S5 .f32) (main_arg35 : FVec F S256x5 .f32) (main_arg36 : FVec F S5 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x128 .f32 := Host.absf main_arg15
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S128 .f32 := Host.absf main_arg16
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg17
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg18 main_arg19 main_arg20 main_arg21 main_arg22 main_arg23 main_arg24 main_arg25 main_arg26 main_arg27 main_arg28 main_arg29 main_arg30 main_arg31 main_arg32 main_arg33 main_arg34 main_arg35 main_arg36 main_v13 main_v16
-- ==== Kernel.lean ====
abbrev S100000x32 : Shape := ⟨2, ![100000, 32]⟩
abbrev S1600000 : Shape := ⟨1, ![1600000]⟩
abbrev S400000 : Shape := ⟨1, ![400000]⟩
abbrev S100000 : Shape := ⟨1, ![100000]⟩
abbrev S25000 : Shape := ⟨1, ![25000]⟩
abbrev S32x128 : Shape := ⟨2, ![32, 128]⟩
abbrev S128 : Shape := ⟨1, ![128]⟩
abbrev S128x128 : Shape := ⟨2, ![128, 128]⟩
abbrev S256x5 : Shape := ⟨2, ![256, 5]⟩
abbrev S5 : Shape := ⟨1, ![5]⟩
abbrev S1x128 : Shape := ⟨2, ![1, 128]⟩
abbrev S100000x128 : Shape := ⟨2, ![100000, 128]⟩
abbrev S10000x32 : Shape := ⟨2, ![10000, 32]⟩
abbrev S10000x128 : Shape := ⟨2, ![10000, 128]⟩
abbrev S_ : Shape := ⟨0, ![]⟩
abbrev S100000x1 : Shape := ⟨2, ![100000, 1]⟩
abbrev S25000x128 : Shape := ⟨2, ![25000, 128]⟩
abbrev S25000x1 : Shape := ⟨2, ![25000, 1]⟩
abbrev S5000x128 : Shape := ⟨2, ![5000, 128]⟩
abbrev S6250x128 : Shape := ⟨2, ![6250, 128]⟩
abbrev S6250 : Shape := ⟨1, ![6250]⟩
abbrev S6250x1 : Shape := ⟨2, ![6250, 1]⟩
abbrev S1600000x1 : Shape := ⟨2, ![1600000, 1]⟩
abbrev S1600000x128 : Shape := ⟨2, ![1600000, 128]⟩
abbrev S10000x1 : Shape := ⟨2, ![10000, 1]⟩
abbrev S400000x1 : Shape := ⟨2, ![400000, 1]⟩
abbrev S400000x128 : Shape := ⟨2, ![400000, 128]⟩
abbrev S5000x1 : Shape := ⟨2, ![5000, 1]⟩
abbrev S128x5 : Shape := ⟨2, ![128, 5]⟩
abbrev S1x5 : Shape := ⟨2, ![1, 5]⟩
abbrev S100000x5 : Shape := ⟨2, ![100000, 5]⟩
abbrev S10000x5 : Shape := ⟨2, ![10000, 5]⟩
abbrev S10000 : Shape := ⟨1, ![10000]⟩
abbrev S25000x5 : Shape := ⟨2, ![25000, 5]⟩
abbrev S5000x5 : Shape := ⟨2, ![5000, 5]⟩
abbrev S5000 : Shape := ⟨1, ![5000]⟩
abbrev S6250x5 : Shape := ⟨2, ![6250, 5]⟩
abbrev S131250x5 : Shape := ⟨2, ![131250, 5]⟩

abbrev nBuf : Space → Nat
  | .hbm => 313
  | .vmem => 73
  | .smem => 0
  | _ => 0

abbrev hbmTy0_0 (i : Nat) : BufTy := match i % 128 with
  | 0 => ⟨S100000x32, .f32⟩
  | 1 => ⟨S1600000, .i32⟩
  | 2 => ⟨S1600000, .i32⟩
  | 3 => ⟨S400000, .i32⟩
  | 4 => ⟨S400000, .i32⟩
  | 5 => ⟨S100000, .i32⟩
  | 6 => ⟨S100000, .i32⟩
  | 7 => ⟨S100000, .i32⟩
  | 8 => ⟨S100000, .i32⟩
  | 9 => ⟨S25000, .i32⟩
  | 10 => ⟨S25000, .i32⟩
  | 11 => ⟨S100000, .i32⟩
  | 12 => ⟨S100000, .i32⟩
  | 13 => ⟨S400000, .i32⟩
  | 14 => ⟨S400000, .i32⟩
  | 15 => ⟨S32x128, .f32⟩
  | 16 => ⟨S128, .f32⟩
  | 17 => ⟨S128x128, .f32⟩
  | 18 => ⟨S128, .f32⟩
  | 19 => ⟨S128x128, .f32⟩
  | 20 => ⟨S128, .f32⟩
  | 21 => ⟨S128x128, .f32⟩
  | 22 => ⟨S128, .f32⟩
  | 23 => ⟨S128x128, .f32⟩
  | 24 => ⟨S128, .f32⟩
  | 25 => ⟨S128x128, .f32⟩
  | 26 => ⟨S128, .f32⟩
  | 27 => ⟨S128x128, .f32⟩
  | 28 => ⟨S128, .f32⟩
  | 29 => ⟨S128x128, .f32⟩
  | 30 => ⟨S128, .f32⟩
  | 31 => ⟨S256x5, .f32⟩
  | 32 => ⟨S5, .f32⟩
  | 33 => ⟨S256x5, .f32⟩
  | 34 => ⟨S5, .f32⟩
  | 35 => ⟨S256x5, .f32⟩
  | 36 => ⟨S5, .f32⟩
  | 37 => ⟨S1x128, .f32⟩
  | 38 => ⟨S100000x128, .f32⟩
  | 39 => ⟨S1x128, .f32⟩
  | 40 => ⟨S100000x128, .f32⟩
  | 41 => ⟨S_, .i32⟩
  | 42 => ⟨S100000, .i32⟩
  | 43 => ⟨S100000, .i1⟩
  | 44 => ⟨S_, .i32⟩
  | 45 => ⟨S100000, .i32⟩
  | 46 => ⟨S100000, .i32⟩
  | 47 => ⟨S100000, .i32⟩
  | 48 => ⟨S100000x1, .i32⟩
  | 49 => ⟨S100000x128, .f32⟩
  | 50 => ⟨S_, .f32⟩
  | 51 => ⟨S25000x128, .f32⟩
  | 52 => ⟨S100000x1, .i32⟩
  | 53 => ⟨S25000x128, .f32⟩
  | 54 => ⟨S_, .f32⟩
  | 55 => ⟨S100000, .f32⟩
  | 56 => ⟨S_, .f32⟩
  | 57 => ⟨S25000, .f32⟩
  | 58 => ⟨S100000x1, .i32⟩
  | 59 => ⟨S25000, .f32⟩
  | 60 => ⟨S_, .f32⟩
  | 61 => ⟨S25000, .f32⟩
  | 62 => ⟨S25000, .f32⟩
  | 63 => ⟨S25000x1, .f32⟩
  | 64 => ⟨S25000x128, .f32⟩
  | 65 => ⟨S25000x128, .f32⟩
  | 66 => ⟨S1x128, .f32⟩
  | 67 => ⟨S25000x128, .f32⟩
  | 68 => ⟨S_, .i32⟩
  | 69 => ⟨S25000, .i32⟩
  | 70 => ⟨S25000, .i1⟩
  | 71 => ⟨S_, .i32⟩
  | 72 => ⟨S25000, .i32⟩
  | 73 => ⟨S25000, .i32⟩
  | 74 => ⟨S25000, .i32⟩
  | 75 => ⟨S25000x1, .i32⟩
  | 76 => ⟨S25000x128, .f32⟩
  | 77 => ⟨S_, .f32⟩
  | 78 => ⟨S6250x128, .f32⟩
  | 79 => ⟨S25000x1, .i32⟩
  | 80 => ⟨S6250x128, .f32⟩
  | 81 => ⟨S_, .f32⟩
  | 82 => ⟨S25000, .f32⟩
  | 83 => ⟨S_, .f32⟩
  | 84 => ⟨S6250, .f32⟩
  | 85 => ⟨S25000x1, .i32⟩
  | 86 => ⟨S6250, .f32⟩
  | 87 => ⟨S_, .f32⟩
  | 88 => ⟨S6250, .f32⟩
  | 89 => ⟨S6250, .f32⟩
  | 90 => ⟨S6250x1, .f32⟩
  | 91 => ⟨S6250x128, .f32⟩
  | 92 => ⟨S6250x128, .f32⟩
  | 93 => ⟨S_, .f32⟩
  | 94 => ⟨S1600000, .f32⟩
  | 95 => ⟨S_, .f32⟩
  | 96 => ⟨S100000, .f32⟩
  | 97 => ⟨S1600000x1, .i32⟩
  | 98 => ⟨S100000, .f32⟩
  | 99 => ⟨S_, .f32⟩
  | 100 => ⟨S1600000, .f32⟩
  | 101 => ⟨S_, .f32⟩
  | 102 => ⟨S100000, .f32⟩
  | 103 => ⟨S1600000x1, .i32⟩
  | 104 => ⟨S100000, .f32⟩
  | 105 => ⟨S_, .f32⟩
  | 106 => ⟨S100000, .f32⟩
  | 107 => ⟨S100000, .i1⟩
  | 108 => ⟨S_, .f32⟩
  | 109 => ⟨S100000, .f32⟩
  | 110 => ⟨S100000, .f32⟩
  | 111 => ⟨S_, .f32⟩
  | 112 => ⟨S_, .f32⟩
  | 113 => ⟨S100000, .f32⟩
  | 114 => ⟨S100000, .f32⟩
  | 115 => ⟨S_, .f32⟩
  | 116 => ⟨S100000, .f32⟩
  | 117 => ⟨S100000, .i1⟩
  | 118 => ⟨S_, .f32⟩
  | 119 => ⟨S100000, .f32⟩
  | 120 => ⟨S100000, .f32⟩
  | 121 => ⟨S_, .f32⟩
  | 122 => ⟨S_, .f32⟩
  | 123 => ⟨S100000, .f32⟩
  | 124 => ⟨S100000, .f32⟩
  | 125 => ⟨S100000x1, .f32⟩
  | 126 => ⟨S100000x128, .f32⟩
  | 127 => ⟨S100000x128, .f32⟩
  | _ => ⟨S100000x32, .f32⟩

abbrev hbmTy0_1 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000x128, .f32⟩
  | 9 => ⟨S_, .f32⟩
  | 10 => ⟨S100000x128, .f32⟩
  | 11 => ⟨S1600000x1, .i32⟩
  | 12 => ⟨S100000x128, .f32⟩
  | 13 => ⟨S1x128, .f32⟩
  | 14 => ⟨S100000x1, .f32⟩
  | 15 => ⟨S100000x128, .f32⟩
  | 16 => ⟨S_, .f32⟩
  | 17 => ⟨S400000, .f32⟩
  | 18 => ⟨S_, .f32⟩
  | 19 => ⟨S25000, .f32⟩
  | 20 => ⟨S400000x1, .i32⟩
  | 21 => ⟨S25000, .f32⟩
  | 22 => ⟨S_, .f32⟩
  | 23 => ⟨S400000, .f32⟩
  | 24 => ⟨S_, .f32⟩
  | 25 => ⟨S25000, .f32⟩
  | 26 => ⟨S400000x1, .i32⟩
  | 27 => ⟨S25000, .f32⟩
  | 28 => ⟨S_, .f32⟩
  | 29 => ⟨S25000, .f32⟩
  | 30 => ⟨S25000, .i1⟩
  | 31 => ⟨S_, .f32⟩
  | 32 => ⟨S25000, .f32⟩
  | 33 => ⟨S25000, .f32⟩
  | 34 => ⟨S_, .f32⟩
  | 35 => ⟨S_, .f32⟩
  | 36 => ⟨S25000, .f32⟩
  | 37 => ⟨S25000, .f32⟩
  | 38 => ⟨S_, .f32⟩
  | 39 => ⟨S25000, .f32⟩
  | 40 => ⟨S25000, .i1⟩
  | 41 => ⟨S_, .f32⟩
  | 42 => ⟨S25000, .f32⟩
  | 43 => ⟨S25000, .f32⟩
  | 44 => ⟨S_, .f32⟩
  | 45 => ⟨S_, .f32⟩
  | 46 => ⟨S25000, .f32⟩
  | 47 => ⟨S25000, .f32⟩
  | 48 => ⟨S25000x1, .f32⟩
  | 49 => ⟨S25000x128, .f32⟩
  | 50 => ⟨S25000x128, .f32⟩
  | 51 => ⟨S_, .i32⟩
  | 52 => ⟨S400000, .i32⟩
  | 53 => ⟨S400000, .i1⟩
  | 54 => ⟨S_, .i32⟩
  | 55 => ⟨S400000, .i32⟩
  | 56 => ⟨S400000, .i32⟩
  | 57 => ⟨S400000, .i32⟩
  | 58 => ⟨S400000x1, .i32⟩
  | 59 => ⟨S400000x128, .f32⟩
  | 60 => ⟨S_, .f32⟩
  | 61 => ⟨S25000x128, .f32⟩
  | 62 => ⟨S400000x1, .i32⟩
  | 63 => ⟨S25000x128, .f32⟩
  | 64 => ⟨S1x128, .f32⟩
  | 65 => ⟨S25000x1, .f32⟩
  | 66 => ⟨S25000x128, .f32⟩
  | 67 => ⟨S_, .f32⟩
  | 68 => ⟨S100000, .f32⟩
  | 69 => ⟨S_, .f32⟩
  | 70 => ⟨S6250, .f32⟩
  | 71 => ⟨S100000x1, .i32⟩
  | 72 => ⟨S6250, .f32⟩
  | 73 => ⟨S_, .f32⟩
  | 74 => ⟨S100000, .f32⟩
  | 75 => ⟨S_, .f32⟩
  | 76 => ⟨S6250, .f32⟩
  | 77 => ⟨S100000x1, .i32⟩
  | 78 => ⟨S6250, .f32⟩
  | 79 => ⟨S_, .f32⟩
  | 80 => ⟨S6250, .f32⟩
  | 81 => ⟨S6250, .i1⟩
  | 82 => ⟨S_, .f32⟩
  | 83 => ⟨S6250, .f32⟩
  | 84 => ⟨S6250, .f32⟩
  | 85 => ⟨S_, .f32⟩
  | 86 => ⟨S_, .f32⟩
  | 87 => ⟨S6250, .f32⟩
  | 88 => ⟨S6250, .f32⟩
  | 89 => ⟨S_, .f32⟩
  | 90 => ⟨S6250, .f32⟩
  | 91 => ⟨S6250, .i1⟩
  | 92 => ⟨S_, .f32⟩
  | 93 => ⟨S6250, .f32⟩
  | 94 => ⟨S6250, .f32⟩
  | 95 => ⟨S_, .f32⟩
  | 96 => ⟨S_, .f32⟩
  | 97 => ⟨S6250, .f32⟩
  | 98 => ⟨S6250, .f32⟩
  | 99 => ⟨S6250x1, .f32⟩
  | 100 => ⟨S6250x128, .f32⟩
  | 101 => ⟨S6250x128, .f32⟩
  | 102 => ⟨S_, .i32⟩
  | 103 => ⟨S100000, .i32⟩
  | 104 => ⟨S100000, .i1⟩
  | 105 => ⟨S_, .i32⟩
  | 106 => ⟨S100000, .i32⟩
  | 107 => ⟨S100000, .i32⟩
  | 108 => ⟨S100000, .i32⟩
  | 109 => ⟨S100000x1, .i32⟩
  | 110 => ⟨S100000x128, .f32⟩
  | 111 => ⟨S_, .f32⟩
  | 112 => ⟨S6250x128, .f32⟩
  | 113 => ⟨S100000x1, .i32⟩
  | 114 => ⟨S6250x128, .f32⟩
  | 115 => ⟨S1x128, .f32⟩
  | 116 => ⟨S6250x1, .f32⟩
  | 117 => ⟨S6250x128, .f32⟩
  | 118 => ⟨S1x128, .f32⟩
  | 119 => ⟨S6250x128, .f32⟩
  | 120 => ⟨S_, .i32⟩
  | 121 => ⟨S100000, .i32⟩
  | 122 => ⟨S100000, .i1⟩
  | 123 => ⟨S_, .i32⟩
  | 124 => ⟨S100000, .i32⟩
  | 125 => ⟨S100000, .i32⟩
  | 126 => ⟨S100000, .i32⟩
  | 127 => ⟨S100000x1, .i32⟩
  | _ => ⟨S100000x32, .f32⟩

abbrev hbmTy0_2 (i : Nat) : BufTy := match i % 128 with
  | 0 => ⟨S100000x128, .f32⟩
  | 1 => ⟨S_, .f32⟩
  | 2 => ⟨S25000x128, .f32⟩
  | 3 => ⟨S100000x1, .i32⟩
  | 4 => ⟨S25000x128, .f32⟩
  | 5 => ⟨S_, .f32⟩
  | 6 => ⟨S100000, .f32⟩
  | 7 => ⟨S_, .f32⟩
  | 8 => ⟨S25000, .f32⟩
  | 9 => ⟨S100000x1, .i32⟩
  | 10 => ⟨S25000, .f32⟩
  | 11 => ⟨S_, .f32⟩
  | 12 => ⟨S25000, .f32⟩
  | 13 => ⟨S25000, .f32⟩
  | 14 => ⟨S25000x1, .f32⟩
  | 15 => ⟨S25000x128, .f32⟩
  | 16 => ⟨S25000x128, .f32⟩
  | 17 => ⟨S1x128, .f32⟩
  | 18 => ⟨S25000x128, .f32⟩
  | 19 => ⟨S_, .i32⟩
  | 20 => ⟨S400000, .i32⟩
  | 21 => ⟨S400000, .i1⟩
  | 22 => ⟨S_, .i32⟩
  | 23 => ⟨S400000, .i32⟩
  | 24 => ⟨S400000, .i32⟩
  | 25 => ⟨S400000, .i32⟩
  | 26 => ⟨S400000x1, .i32⟩
  | 27 => ⟨S400000x128, .f32⟩
  | 28 => ⟨S_, .f32⟩
  | 29 => ⟨S100000x128, .f32⟩
  | 30 => ⟨S400000x1, .i32⟩
  | 31 => ⟨S100000x128, .f32⟩
  | 32 => ⟨S_, .f32⟩
  | 33 => ⟨S400000, .f32⟩
  | 34 => ⟨S_, .f32⟩
  | 35 => ⟨S100000, .f32⟩
  | 36 => ⟨S400000x1, .i32⟩
  | 37 => ⟨S100000, .f32⟩
  | 38 => ⟨S_, .f32⟩
  | 39 => ⟨S100000, .f32⟩
  | 40 => ⟨S100000, .f32⟩
  | 41 => ⟨S100000x1, .f32⟩
  | 42 => ⟨S100000x128, .f32⟩
  | 43 => ⟨S100000x128, .f32⟩
  | 44 => ⟨S128x5, .f32⟩
  | 45 => ⟨S128x5, .f32⟩
  | 46 => ⟨S1x5, .f32⟩
  | 47 => ⟨S100000x5, .f32⟩
  | 48 => ⟨S128x5, .f32⟩
  | 49 => ⟨S128x5, .f32⟩
  | 50 => ⟨S1x5, .f32⟩
  | 51 => ⟨S25000x5, .f32⟩
  | 52 => ⟨S128x5, .f32⟩
  | 53 => ⟨S128x5, .f32⟩
  | 54 => ⟨S1x5, .f32⟩
  | 55 => ⟨S6250x5, .f32⟩
  | 56 => ⟨S131250x5, .f32⟩
  | _ => ⟨S100000x32, .f32⟩

abbrev hbmTy (i : Nat) : BufTy := match i / 128 with
  | 0 => hbmTy0_0 i
  | 1 => hbmTy0_1 i
  | 2 => hbmTy0_2 i
  | _ => ⟨S100000x32, .f32⟩

abbrev bufTy : (tb : Table) → Fin (tcTables nBuf tb) → BufTy
  | .hbm, ⟨i, _⟩ => hbmTy i
  | .local _ .vmem, ⟨0, _⟩ => ⟨S10000x32, .f32⟩
  | .local _ .vmem, ⟨1, _⟩ => ⟨S10000x32, .f32⟩
  | .local _ .vmem, ⟨2, _⟩ => ⟨S32x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S128x128, .f32⟩
  | .local _ .vmem, ⟨9, _⟩ => ⟨S1x128, .f32⟩
  | .local _ .vmem, ⟨10, _⟩ => ⟨S10000x128, .f32⟩
  | .local _ .vmem, ⟨11, _⟩ => ⟨S10000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S10000x128, .f32⟩
  | .local _ .vmem, ⟨19, _⟩ => ⟨S10000x128, .f32⟩
  | .local _ .vmem, ⟨20, _⟩ => ⟨S10000x1, .f32⟩
  | .local _ .vmem, ⟨21, _⟩ => ⟨S10000x1, .f32⟩
  | .local _ .vmem, ⟨22, _⟩ => ⟨S128x128, .f32⟩
  | .local _ .vmem, ⟨23, _⟩ => ⟨S1x128, .f32⟩
  | .local _ .vmem, ⟨24, _⟩ => ⟨S10000x128, .f32⟩
  | .local _ .vmem, ⟨25, _⟩ => ⟨S10000x128, .f32⟩
  | .local _ .vmem, ⟨26, _⟩ => ⟨S5000x128, .f32⟩
  | .local _ .vmem, ⟨27, _⟩ => ⟨S5000x128, .f32⟩
  | .local _ .vmem, ⟨28, _⟩ => ⟨S5000x1, .f32⟩
  | .local _ .vmem, ⟨29, _⟩ => ⟨S5000x1, .f32⟩
  | .local _ .vmem, ⟨30, _⟩ => ⟨S128x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S6250x128, .f32⟩
  | .local _ .vmem, ⟨35, _⟩ => ⟨S6250x1, .f32⟩
  | .local _ .vmem, ⟨36, _⟩ => ⟨S128x128, .f32⟩
  | .local _ .vmem, ⟨37, _⟩ => ⟨S1x128, .f32⟩
  | .local _ .vmem, ⟨38, _⟩ => ⟨S6250x128, .f32⟩
  | .local _ .vmem, ⟨39, _⟩ => ⟨S6250x128, .f32⟩
  | .local _ .vmem, ⟨40, _⟩ => ⟨S128x128, .f32⟩
  | .local _ .vmem, ⟨41, _⟩ => ⟨S1x128, .f32⟩
  | .local _ .vmem, ⟨42, _⟩ => ⟨S6250x128, .f32⟩
  | .local _ .vmem, ⟨43, _⟩ => ⟨S5000x128, .f32⟩
  | .local _ .vmem, ⟨44, _⟩ => ⟨S5000x128, .f32⟩
  | .local _ .vmem, ⟨45, _⟩ => ⟨S128x128, .f32⟩
  | .local _ .vmem, ⟨46, _⟩ => ⟨S1x128, .f32⟩
  | .local _ .vmem, ⟨47, _⟩ => ⟨S5000x128, .f32⟩
  | .local _ .vmem, ⟨48, _⟩ => ⟨S5000x128, .f32⟩
  | .local _ .vmem, ⟨49, _⟩ => ⟨S10000x128, .f32⟩
  | .local _ .vmem, ⟨50, _⟩ => ⟨S10000x128, .f32⟩
  | .local _ .vmem, ⟨51, _⟩ => ⟨S10000x128, .f32⟩
  | .local _ .vmem, ⟨52, _⟩ => ⟨S10000x128, .f32⟩
  | .local _ .vmem, ⟨53, _⟩ => ⟨S128x5, .f32⟩
  | .local _ .vmem, ⟨54, _⟩ => ⟨S128x5, .f32⟩
  | .local _ .vmem, ⟨55, _⟩ => ⟨S1x5, .f32⟩
  | .local _ .vmem, ⟨56, _⟩ => ⟨S10000x5, .f32⟩
  | .local _ .vmem, ⟨57, _⟩ => ⟨S10000x5, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S5000x128, .f32⟩
  | .local _ .vmem, ⟨62, _⟩ => ⟨S128x5, .f32⟩
  | .local _ .vmem, ⟨63, _⟩ => ⟨S128x5, .f32⟩
  | .local _ .vmem, ⟨64, _⟩ => ⟨S1x5, .f32⟩
  | .local _ .vmem, ⟨65, _⟩ => ⟨S5000x5, .f32⟩
  | .local _ .vmem, ⟨66, _⟩ => ⟨S5000x5, .f32⟩
  | .local _ .vmem, ⟨67, _⟩ => ⟨S6250x128, .f32⟩
  | .local _ .vmem, ⟨68, _⟩ => ⟨S6250x128, .f32⟩
  | .local _ .vmem, ⟨69, _⟩ => ⟨S128x5, .f32⟩
  | .local _ .vmem, ⟨70, _⟩ => ⟨S128x5, .f32⟩
  | .local _ .vmem, ⟨71, _⟩ => ⟨S1x5, .f32⟩
  | .local _ .vmem, ⟨72, _⟩ => ⟨S6250x5, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | _, _ => false

abbrev semScoped : Fin 0 → Bool
  | ⟨_, h⟩ => absurd h (Nat.not_lt_zero _)

abbrev dmaSemScoped : Fin 73 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | _ => false

abbrev sig : RefSig :=
  ofTc nBuf bufTy 0 73 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_v0 : Ref sig .tc := ⟨.hbm, 37, rfl⟩
abbrev main_v1 : Ref sig .tc := ⟨.hbm, 38, rfl⟩
abbrev main_v2 : Ref sig .tc := ⟨.hbm, 39, rfl⟩
abbrev main_v3 : Ref sig .tc := ⟨.hbm, 40, rfl⟩
abbrev main_c : Ref sig .tc := ⟨.hbm, 41, rfl⟩
abbrev main_v4 : Ref sig .tc := ⟨.hbm, 42, rfl⟩
abbrev main_v5 : Ref sig .tc := ⟨.hbm, 43, rfl⟩
abbrev main_c_0 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_cst : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_cst_1 : Ref sig .tc := ⟨.hbm, 54, rfl⟩
abbrev main_v14 : Ref sig .tc := ⟨.hbm, 55, rfl⟩
abbrev main_cst_2 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_cst_3 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_c_4 : Ref sig .tc := ⟨.hbm, 68, rfl⟩
abbrev main_v25 : Ref sig .tc := ⟨.hbm, 69, rfl⟩
abbrev main_v26 : Ref sig .tc := ⟨.hbm, 70, rfl⟩
abbrev main_c_5 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_cst_6 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_cst_7 : Ref sig .tc := ⟨.hbm, 81, rfl⟩
abbrev main_v35 : Ref sig .tc := ⟨.hbm, 82, rfl⟩
abbrev main_cst_8 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_cst_9 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_cst_10 : Ref sig .tc := ⟨.hbm, 93, rfl⟩
abbrev main_v44 : Ref sig .tc := ⟨.hbm, 94, rfl⟩
abbrev main_cst_11 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_cst_12 : Ref sig .tc := ⟨.hbm, 99, rfl⟩
abbrev main_v48 : Ref sig .tc := ⟨.hbm, 100, rfl⟩
abbrev main_cst_13 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_cst_14 : Ref sig .tc := ⟨.hbm, 105, rfl⟩
abbrev main_v52 : Ref sig .tc := ⟨.hbm, 106, rfl⟩
abbrev main_v53 : Ref sig .tc := ⟨.hbm, 107, rfl⟩
abbrev main_cst_15 : Ref sig .tc := ⟨.hbm, 108, rfl⟩
abbrev main_v54 : Ref sig .tc := ⟨.hbm, 109, rfl⟩
abbrev main_v55 : Ref sig .tc := ⟨.hbm, 110, rfl⟩
abbrev main_cst_16 : Ref sig .tc := ⟨.hbm, 111, rfl⟩
abbrev main_call0_v0 : Ref sig .tc := ⟨.hbm, 112, rfl⟩
abbrev main_call0_v1 : Ref sig .tc := ⟨.hbm, 113, rfl⟩
abbrev main_v56 : Ref sig .tc := ⟨.hbm, 114, rfl⟩
abbrev main_cst_17 : Ref sig .tc := ⟨.hbm, 115, rfl⟩
abbrev main_v57 : Ref sig .tc := ⟨.hbm, 116, rfl⟩
abbrev main_v58 : Ref sig .tc := ⟨.hbm, 117, rfl⟩
abbrev main_cst_18 : Ref sig .tc := ⟨.hbm, 118, rfl⟩
abbrev main_v59 : Ref sig .tc := ⟨.hbm, 119, rfl⟩
abbrev main_v60 : Ref sig .tc := ⟨.hbm, 120, rfl⟩
abbrev main_cst_19 : Ref sig .tc := ⟨.hbm, 121, rfl⟩
abbrev main_call1_v0 : Ref sig .tc := ⟨.hbm, 122, rfl⟩
abbrev main_call1_v1 : Ref sig .tc := ⟨.hbm, 123, rfl⟩
abbrev main_v61 : Ref sig .tc := ⟨.hbm, 124, rfl⟩
abbrev main_v62 : Ref sig .tc := ⟨.hbm, 125, rfl⟩
abbrev main_v63 : Ref sig .tc := ⟨.hbm, 126, rfl⟩
abbrev main_v64 : Ref sig .tc := ⟨.hbm, 127, rfl⟩
abbrev main_c_20 : Ref sig .tc := ⟨.hbm, 128, rfl⟩
abbrev main_v65 : Ref sig .tc := ⟨.hbm, 129, rfl⟩
abbrev main_v66 : Ref sig .tc := ⟨.hbm, 130, rfl⟩
abbrev main_c_21 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_cst_22 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_cst_23 : Ref sig .tc := ⟨.hbm, 144, rfl⟩
abbrev main_v78 : Ref sig .tc := ⟨.hbm, 145, rfl⟩
abbrev main_cst_24 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_cst_25 : Ref sig .tc := ⟨.hbm, 150, rfl⟩
abbrev main_v82 : Ref sig .tc := ⟨.hbm, 151, rfl⟩
abbrev main_cst_26 : Ref sig .tc := ⟨.hbm, 152, rfl⟩
abbrev main_v83 : Ref sig .tc := ⟨.hbm, 153, rfl⟩
abbrev main_v84 : Ref sig .tc := ⟨.hbm, 154, rfl⟩
abbrev main_v85 : Ref sig .tc := ⟨.hbm, 155, rfl⟩
abbrev main_cst_27 : Ref sig .tc := ⟨.hbm, 156, rfl⟩
abbrev main_v86 : Ref sig .tc := ⟨.hbm, 157, rfl⟩
abbrev main_v87 : Ref sig .tc := ⟨.hbm, 158, rfl⟩
abbrev main_cst_28 : Ref sig .tc := ⟨.hbm, 159, rfl⟩
abbrev main_v88 : Ref sig .tc := ⟨.hbm, 160, rfl⟩
abbrev main_v89 : Ref sig .tc := ⟨.hbm, 161, rfl⟩
abbrev main_cst_29 : Ref sig .tc := ⟨.hbm, 162, rfl⟩
abbrev main_call2_v0 : Ref sig .tc := ⟨.hbm, 163, rfl⟩
abbrev main_call2_v1 : Ref sig .tc := ⟨.hbm, 164, rfl⟩
abbrev main_v90 : Ref sig .tc := ⟨.hbm, 165, rfl⟩
abbrev main_cst_30 : Ref sig .tc := ⟨.hbm, 166, rfl⟩
abbrev main_v91 : Ref sig .tc := ⟨.hbm, 167, rfl⟩
abbrev main_v92 : Ref sig .tc := ⟨.hbm, 168, rfl⟩
abbrev main_cst_31 : Ref sig .tc := ⟨.hbm, 169, rfl⟩
abbrev main_v93 : Ref sig .tc := ⟨.hbm, 170, rfl⟩
abbrev main_v94 : Ref sig .tc := ⟨.hbm, 171, rfl⟩
abbrev main_cst_32 : Ref sig .tc := ⟨.hbm, 172, rfl⟩
abbrev main_call3_v0 : Ref sig .tc := ⟨.hbm, 173, rfl⟩
abbrev main_call3_v1 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_c_33 : Ref sig .tc := ⟨.hbm, 179, rfl⟩
abbrev main_v99 : Ref sig .tc := ⟨.hbm, 180, rfl⟩
abbrev main_v100 : Ref sig .tc := ⟨.hbm, 181, rfl⟩
abbrev main_c_34 : Ref sig .tc := ⟨.hbm, 182, rfl⟩
abbrev main_v101 : Ref sig .tc := ⟨.hbm, 183, rfl⟩
abbrev main_v102 : Ref sig .tc := ⟨.hbm, 184, rfl⟩
abbrev main_v103 : Ref sig .tc := ⟨.hbm, 185, rfl⟩
abbrev main_v104 : Ref sig .tc := ⟨.hbm, 186, rfl⟩
abbrev main_v105 : Ref sig .tc := ⟨.hbm, 187, rfl⟩
abbrev main_cst_35 : Ref sig .tc := ⟨.hbm, 188, rfl⟩
abbrev main_v106 : Ref sig .tc := ⟨.hbm, 189, rfl⟩
abbrev main_v107 : Ref sig .tc := ⟨.hbm, 190, rfl⟩
abbrev main_v108 : Ref sig .tc := ⟨.hbm, 191, rfl⟩
abbrev main_v109 : Ref sig .tc := ⟨.hbm, 192, rfl⟩
abbrev main_v110 : Ref sig .tc := ⟨.hbm, 193, rfl⟩
abbrev main_v111 : Ref sig .tc := ⟨.hbm, 194, rfl⟩
abbrev main_cst_36 : Ref sig .tc := ⟨.hbm, 195, rfl⟩
abbrev main_v112 : Ref sig .tc := ⟨.hbm, 196, rfl⟩
abbrev main_cst_37 : Ref sig .tc := ⟨.hbm, 197, rfl⟩
abbrev main_v113 : Ref sig .tc := ⟨.hbm, 198, rfl⟩
abbrev main_v114 : Ref sig .tc := ⟨.hbm, 199, rfl⟩
abbrev main_v115 : Ref sig .tc := ⟨.hbm, 200, rfl⟩
abbrev main_cst_38 : Ref sig .tc := ⟨.hbm, 201, rfl⟩
abbrev main_v116 : Ref sig .tc := ⟨.hbm, 202, rfl⟩
abbrev main_cst_39 : Ref sig .tc := ⟨.hbm, 203, rfl⟩
abbrev main_v117 : Ref sig .tc := ⟨.hbm, 204, rfl⟩
abbrev main_v118 : Ref sig .tc := ⟨.hbm, 205, rfl⟩
abbrev main_v119 : Ref sig .tc := ⟨.hbm, 206, rfl⟩
abbrev main_cst_40 : Ref sig .tc := ⟨.hbm, 207, rfl⟩
abbrev main_v120 : Ref sig .tc := ⟨.hbm, 208, rfl⟩
abbrev main_v121 : Ref sig .tc := ⟨.hbm, 209, rfl⟩
abbrev main_cst_41 : Ref sig .tc := ⟨.hbm, 210, rfl⟩
abbrev main_v122 : Ref sig .tc := ⟨.hbm, 211, rfl⟩
abbrev main_v123 : Ref sig .tc := ⟨.hbm, 212, rfl⟩
abbrev main_cst_42 : Ref sig .tc := ⟨.hbm, 213, rfl⟩
abbrev main_call4_v0 : Ref sig .tc := ⟨.hbm, 214, rfl⟩
abbrev main_call4_v1 : Ref sig .tc := ⟨.hbm, 215, rfl⟩
abbrev main_v124 : Ref sig .tc := ⟨.hbm, 216, rfl⟩
abbrev main_cst_43 : Ref sig .tc := ⟨.hbm, 217, rfl⟩
abbrev main_v125 : Ref sig .tc := ⟨.hbm, 218, rfl⟩
abbrev main_v126 : Ref sig .tc := ⟨.hbm, 219, rfl⟩
abbrev main_cst_44 : Ref sig .tc := ⟨.hbm, 220, rfl⟩
abbrev main_v127 : Ref sig .tc := ⟨.hbm, 221, rfl⟩
abbrev main_v128 : Ref sig .tc := ⟨.hbm, 222, rfl⟩
abbrev main_cst_45 : Ref sig .tc := ⟨.hbm, 223, rfl⟩
abbrev main_call5_v0 : Ref sig .tc := ⟨.hbm, 224, rfl⟩
abbrev main_call5_v1 : Ref sig .tc := ⟨.hbm, 225, rfl⟩
abbrev main_v129 : Ref sig .tc := ⟨.hbm, 226, rfl⟩
abbrev main_v130 : Ref sig .tc := ⟨.hbm, 227, rfl⟩
abbrev main_v131 : Ref sig .tc := ⟨.hbm, 228, rfl⟩
abbrev main_v132 : Ref sig .tc := ⟨.hbm, 229, rfl⟩
abbrev main_c_46 : Ref sig .tc := ⟨.hbm, 230, rfl⟩
abbrev main_v133 : Ref sig .tc := ⟨.hbm, 231, rfl⟩
abbrev main_v134 : Ref sig .tc := ⟨.hbm, 232, rfl⟩
abbrev main_c_47 : Ref sig .tc := ⟨.hbm, 233, rfl⟩
abbrev main_v135 : Ref sig .tc := ⟨.hbm, 234, rfl⟩
abbrev main_v136 : Ref sig .tc := ⟨.hbm, 235, rfl⟩
abbrev main_v137 : Ref sig .tc := ⟨.hbm, 236, rfl⟩
abbrev main_v138 : Ref sig .tc := ⟨.hbm, 237, rfl⟩
abbrev main_v139 : Ref sig .tc := ⟨.hbm, 238, rfl⟩
abbrev main_cst_48 : Ref sig .tc := ⟨.hbm, 239, rfl⟩
abbrev main_v140 : Ref sig .tc := ⟨.hbm, 240, rfl⟩
abbrev main_v141 : Ref sig .tc := ⟨.hbm, 241, rfl⟩
abbrev main_v142 : Ref sig .tc := ⟨.hbm, 242, rfl⟩
abbrev main_v143 : Ref sig .tc := ⟨.hbm, 243, rfl⟩
abbrev main_v144 : Ref sig .tc := ⟨.hbm, 244, rfl⟩
abbrev main_v145 : Ref sig .tc := ⟨.hbm, 245, rfl⟩
abbrev main_v146 : Ref sig .tc := ⟨.hbm, 246, rfl⟩
abbrev main_v147 : Ref sig .tc := ⟨.hbm, 247, rfl⟩
abbrev main_c_49 : Ref sig .tc := ⟨.hbm, 248, rfl⟩
abbrev main_v148 : Ref sig .tc := ⟨.hbm, 249, rfl⟩
abbrev main_v149 : Ref sig .tc := ⟨.hbm, 250, rfl⟩
abbrev main_c_50 : Ref sig .tc := ⟨.hbm, 251, rfl⟩
abbrev main_v150 : Ref sig .tc := ⟨.hbm, 252, rfl⟩
abbrev main_v151 : Ref sig .tc := ⟨.hbm, 253, rfl⟩
abbrev main_v152 : Ref sig .tc := ⟨.hbm, 254, rfl⟩
abbrev main_v153 : Ref sig .tc := ⟨.hbm, 255, rfl⟩
abbrev main_v154 : Ref sig .tc := ⟨.hbm, 256, rfl⟩
abbrev main_cst_51 : Ref sig .tc := ⟨.hbm, 257, rfl⟩
abbrev main_v155 : Ref sig .tc := ⟨.hbm, 258, rfl⟩
abbrev main_v156 : Ref sig .tc := ⟨.hbm, 259, rfl⟩
abbrev main_v157 : Ref sig .tc := ⟨.hbm, 260, rfl⟩
abbrev main_cst_52 : Ref sig .tc := ⟨.hbm, 261, rfl⟩
abbrev main_v158 : Ref sig .tc := ⟨.hbm, 262, rfl⟩
abbrev main_cst_53 : Ref sig .tc := ⟨.hbm, 263, rfl⟩
abbrev main_v159 : Ref sig .tc := ⟨.hbm, 264, rfl⟩
abbrev main_v160 : Ref sig .tc := ⟨.hbm, 265, rfl⟩
abbrev main_v161 : Ref sig .tc := ⟨.hbm, 266, rfl⟩
abbrev main_cst_54 : Ref sig .tc := ⟨.hbm, 267, rfl⟩
abbrev main_v162 : Ref sig .tc := ⟨.hbm, 268, rfl⟩
abbrev main_v163 : Ref sig .tc := ⟨.hbm, 269, rfl⟩
abbrev main_v164 : Ref sig .tc := ⟨.hbm, 270, rfl⟩
abbrev main_v165 : Ref sig .tc := ⟨.hbm, 271, rfl⟩
abbrev main_v166 : Ref sig .tc := ⟨.hbm, 272, rfl⟩
abbrev main_v167 : Ref sig .tc := ⟨.hbm, 273, rfl⟩
abbrev main_v168 : Ref sig .tc := ⟨.hbm, 274, rfl⟩
abbrev main_c_55 : Ref sig .tc := ⟨.hbm, 275, rfl⟩
abbrev main_v169 : Ref sig .tc := ⟨.hbm, 276, rfl⟩
abbrev main_v170 : Ref sig .tc := ⟨.hbm, 277, rfl⟩
abbrev main_c_56 : Ref sig .tc := ⟨.hbm, 278, rfl⟩
abbrev main_v171 : Ref sig .tc := ⟨.hbm, 279, rfl⟩
abbrev main_v172 : Ref sig .tc := ⟨.hbm, 280, rfl⟩
abbrev main_v173 : Ref sig .tc := ⟨.hbm, 281, rfl⟩
abbrev main_v174 : Ref sig .tc := ⟨.hbm, 282, rfl⟩
abbrev main_v175 : Ref sig .tc := ⟨.hbm, 283, rfl⟩
abbrev main_cst_57 : Ref sig .tc := ⟨.hbm, 284, rfl⟩
abbrev main_v176 : Ref sig .tc := ⟨.hbm, 285, rfl⟩
abbrev main_v177 : Ref sig .tc := ⟨.hbm, 286, rfl⟩
abbrev main_v178 : Ref sig .tc := ⟨.hbm, 287, rfl⟩
abbrev main_cst_58 : Ref sig .tc := ⟨.hbm, 288, rfl⟩
abbrev main_v179 : Ref sig .tc := ⟨.hbm, 289, rfl⟩
abbrev main_cst_59 : Ref sig .tc := ⟨.hbm, 290, rfl⟩
abbrev main_v180 : Ref sig .tc := ⟨.hbm, 291, rfl⟩
abbrev main_v181 : Ref sig .tc := ⟨.hbm, 292, rfl⟩
abbrev main_v182 : Ref sig .tc := ⟨.hbm, 293, rfl⟩
abbrev main_cst_60 : Ref sig .tc := ⟨.hbm, 294, rfl⟩
abbrev main_v183 : Ref sig .tc := ⟨.hbm, 295, rfl⟩
abbrev main_v184 : Ref sig .tc := ⟨.hbm, 296, rfl⟩
abbrev main_v185 : Ref sig .tc := ⟨.hbm, 297, rfl⟩
abbrev main_v186 : Ref sig .tc := ⟨.hbm, 298, rfl⟩
abbrev main_v187 : Ref sig .tc := ⟨.hbm, 299, rfl⟩
abbrev main_v188 : Ref sig .tc := ⟨.hbm, 300, rfl⟩
abbrev main_v189 : Ref sig .tc := ⟨.hbm, 301, rfl⟩
abbrev main_v190 : Ref sig .tc := ⟨.hbm, 302, rfl⟩
abbrev main_v191 : Ref sig .tc := ⟨.hbm, 303, rfl⟩
abbrev main_v192 : Ref sig .tc := ⟨.hbm, 304, rfl⟩
abbrev main_v193 : Ref sig .tc := ⟨.hbm, 305, rfl⟩
abbrev main_v194 : Ref sig .tc := ⟨.hbm, 306, rfl⟩
abbrev main_v195 : Ref sig .tc := ⟨.hbm, 307, rfl⟩
abbrev main_v196 : Ref sig .tc := ⟨.hbm, 308, rfl⟩
abbrev main_v197 : Ref sig .tc := ⟨.hbm, 309, rfl⟩
abbrev main_v198 : Ref sig .tc := ⟨.hbm, 310, rfl⟩
abbrev main_v199 : Ref sig .tc := ⟨.hbm, 311, rfl⟩
abbrev main_v200 : Ref sig .tc := ⟨.hbm, 312, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg4_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg4_0 : Ref sig .tc := ⟨.vmem, 32, rfl⟩
abbrev cc4_stg4_1 : Ref sig .tc := ⟨.vmem, 33, rfl⟩
abbrev cc5_stg0_0 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg4_0 : Ref sig .tc := ⟨.vmem, 38, rfl⟩
abbrev cc6_stg0_0 : Ref sig .tc := ⟨.vmem, 39, rfl⟩
abbrev cc6_stg1_0 : Ref sig .tc := ⟨.vmem, 40, rfl⟩
abbrev cc6_stg2_0 : Ref sig .tc := ⟨.vmem, 41, rfl⟩
abbrev cc6_stg3_0 : Ref sig .tc := ⟨.vmem, 42, rfl⟩
abbrev cc7_stg0_0 : Ref sig .tc := ⟨.vmem, 43, rfl⟩
abbrev cc7_stg0_1 : Ref sig .tc := ⟨.vmem, 44, rfl⟩
abbrev cc7_stg1_0 : Ref sig .tc := ⟨.vmem, 45, rfl⟩
abbrev cc7_stg2_0 : Ref sig .tc := ⟨.vmem, 46, rfl⟩
abbrev cc7_stg3_0 : Ref sig .tc := ⟨.vmem, 47, rfl⟩
abbrev cc7_stg3_1 : Ref sig .tc := ⟨.vmem, 48, rfl⟩
abbrev cc8_stg0_0 : Ref sig .tc := ⟨.vmem, 49, rfl⟩
abbrev cc8_stg0_1 : Ref sig .tc := ⟨.vmem, 50, rfl⟩
abbrev cc8_stg1_0 : Ref sig .tc := ⟨.vmem, 51, rfl⟩
abbrev cc8_stg1_1 : Ref sig .tc := ⟨.vmem, 52, rfl⟩
abbrev cc8_stg2_0 : Ref sig .tc := ⟨.vmem, 53, rfl⟩
abbrev cc8_stg3_0 : Ref sig .tc := ⟨.vmem, 54, rfl⟩
abbrev cc8_stg4_0 : Ref sig .tc := ⟨.vmem, 55, rfl⟩
abbrev cc8_stg5_0 : Ref sig .tc := ⟨.vmem, 56, rfl⟩
abbrev cc8_stg5_1 : Ref sig .tc := ⟨.vmem, 57, rfl⟩
abbrev cc9_stg0_0 : Ref sig .tc := ⟨.vmem, 58, rfl⟩
abbrev cc9_stg0_1 : Ref sig .tc := ⟨.vmem, 59, rfl⟩
abbrev cc9_stg1_0 : Ref sig .tc := ⟨.vmem, 60, rfl⟩
abbrev cc9_stg1_1 : Ref sig .tc := ⟨.vmem, 61, rfl⟩
abbrev cc9_stg2_0 : Ref sig .tc := ⟨.vmem, 62, rfl⟩
abbrev cc9_stg3_0 : Ref sig .tc := ⟨.vmem, 63, rfl⟩
abbrev cc9_stg4_0 : Ref sig .tc := ⟨.vmem, 64, rfl⟩
abbrev cc9_stg5_0 : Ref sig .tc := ⟨.vmem, 65, rfl⟩
abbrev cc9_stg5_1 : Ref sig .tc := ⟨.vmem, 66, rfl⟩
abbrev cc10_stg0_0 : Ref sig .tc := ⟨.vmem, 67, rfl⟩
abbrev cc10_stg1_0 : Ref sig .tc := ⟨.vmem, 68, rfl⟩
abbrev cc10_stg2_0 : Ref sig .tc := ⟨.vmem, 69, rfl⟩
abbrev cc10_stg3_0 : Ref sig .tc := ⟨.vmem, 70, rfl⟩
abbrev cc10_stg4_0 : Ref sig .tc := ⟨.vmem, 71, rfl⟩
abbrev cc10_stg5_0 : Ref sig .tc := ⟨.vmem, 72, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem3_0 : DmaSem sig := 23
abbrev cc3_sem4_0 : DmaSem sig := 24
abbrev cc3_sem4_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem3_0 : DmaSem sig := 31
abbrev cc4_sem4_0 : DmaSem sig := 32
abbrev cc4_sem4_1 : DmaSem sig := 33
abbrev cc5_sem0_0 : DmaSem sig := 34
abbrev cc5_sem1_0 : DmaSem sig := 35
abbrev cc5_sem2_0 : DmaSem sig := 36
abbrev cc5_sem3_0 : DmaSem sig := 37
abbrev cc5_sem4_0 : DmaSem sig := 38
abbrev cc6_sem0_0 : DmaSem sig := 39
abbrev cc6_sem1_0 : DmaSem sig := 40
abbrev cc6_sem2_0 : DmaSem sig := 41
abbrev cc6_sem3_0 : DmaSem sig := 42
abbrev cc7_sem0_0 : DmaSem sig := 43
abbrev cc7_sem0_1 : DmaSem sig := 44
abbrev cc7_sem1_0 : DmaSem sig := 45
abbrev cc7_sem2_0 : DmaSem sig := 46
abbrev cc7_sem3_0 : DmaSem sig := 47
abbrev cc7_sem3_1 : DmaSem sig := 48
abbrev cc8_sem0_0 : DmaSem sig := 49
abbrev cc8_sem0_1 : DmaSem sig := 50
abbrev cc8_sem1_0 : DmaSem sig := 51
abbrev cc8_sem1_1 : DmaSem sig := 52
abbrev cc8_sem2_0 : DmaSem sig := 53
abbrev cc8_sem3_0 : DmaSem sig := 54
abbrev cc8_sem4_0 : DmaSem sig := 55
abbrev cc8_sem5_0 : DmaSem sig := 56
abbrev cc8_sem5_1 : DmaSem sig := 57
abbrev cc9_sem0_0 : DmaSem sig := 58
abbrev cc9_sem0_1 : DmaSem sig := 59
abbrev cc9_sem1_0 : DmaSem sig := 60
abbrev cc9_sem1_1 : DmaSem sig := 61
abbrev cc9_sem2_0 : DmaSem sig := 62
abbrev cc9_sem3_0 : DmaSem sig := 63
abbrev cc9_sem4_0 : DmaSem sig := 64
abbrev cc9_sem5_0 : DmaSem sig := 65
abbrev cc9_sem5_1 : DmaSem sig := 66
abbrev cc10_sem0_0 : DmaSem sig := 67
abbrev cc10_sem1_0 : DmaSem sig := 68
abbrev cc10_sem2_0 : DmaSem sig := 69
abbrev cc10_sem3_0 : DmaSem sig := 70
abbrev cc10_sem4_0 : DmaSem sig := 71
abbrev cc10_sem5_0 : DmaSem sig := 72

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S6250x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S6250x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S6250x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S6250x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S6250x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![true]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S10000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x5 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S128x5 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x5 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S10000x5 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![5], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S128x5 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S128x5 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x5 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S5000x5 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![1], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 1 → Memref sig .tc .vmem S6250x128 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![true]

abbrev stage10_1 : Fin 1 → Memref sig .tc .vmem S6250x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![true]

abbrev stage10_2 : Fin 1 → Memref sig .tc .vmem S128x5 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S128x5 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x5 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S6250x5 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![true]

class Facts₀ : Prop where
  shapeCasts_S128_S1x128 : S128.ShapeCasts S1x128
  inb_S10000x32_S10000x32_0_0 : ∀ a, (![0, 0] : Fin 2 → Nat) a + S10000x32.size a ≤ S10000x32.size a
  h_S10000x32 : 0 < S10000x32.numel
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  bcast_S_S100000 : S_.BroadcastsInDim S100000 (![] : Fin 0 → Fin S100000.rank)
  bcast_S100000_S100000x1_0 : S100000.BroadcastsInDim S100000x1 (![0] : Fin 1 → Fin S100000x1.rank)
  bcast_S_S25000x128 : S_.BroadcastsInDim S25000x128 (![] : Fin 0 → Fin S25000x128.rank)
  bcast_S_S25000 : S_.BroadcastsInDim S25000 (![] : Fin 0 → Fin S25000.rank)
  bcast_S25000_S25000x1_0 : S25000.BroadcastsInDim S25000x1 (![0] : Fin 1 → Fin S25000x1.rank)
  bcast_S25000x1_S25000x128_0_1 : S25000x1.BroadcastsInDim S25000x128 (![0, 1] : Fin 2 → Fin S25000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  bcast_S_S6250x128 : S_.BroadcastsInDim S6250x128 (![] : Fin 0 → Fin S6250x128.rank)
  bcast_S_S6250 : S_.BroadcastsInDim S6250 (![] : Fin 0 → Fin S6250.rank)
  bcast_S6250_S6250x1_0 : S6250.BroadcastsInDim S6250x1 (![0] : Fin 1 → Fin S6250x1.rank)
  bcast_S6250x1_S6250x128_0_1 : S6250x1.BroadcastsInDim S6250x128 (![0, 1] : Fin 2 → Fin S6250x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  shapeCasts_S100000_S100000x1 : S100000.ShapeCasts S100000x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S400000 : S_.BroadcastsInDim S400000 (![] : Fin 0 → Fin S400000.rank)
  bcast_S400000_S400000x1_0 : S400000.BroadcastsInDim S400000x1 (![0] : Fin 1 → Fin S400000x1.rank)
  shapeCasts_S25000_S25000x1 : S25000.ShapeCasts S25000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  shapeCasts_S6250_S6250x1 : S6250.ShapeCasts S6250x1
  inb_S6250x128_S6250x128_0_0 : ∀ a, (![0, 0] : Fin 2 → Nat) a + S6250x128.size a ≤ S6250x128.size a
  h_S6250x128 : 0 < S6250x128.numel
  shapeCasts_S6250x128_S6250x128 : S6250x128.ShapeCasts S6250x128
  inb_S6250x1_S6250x1_0_0 : ∀ a, (![0, 0] : Fin 2 → Nat) a + S6250x1.size a ≤ S6250x1.size a
  h_S6250x1 : 0 < S6250x1.numel
  shapeCasts_S6250x1_S6250x1 : S6250x1.ShapeCasts S6250x1
  broadcasts_S6250x1_S6250x128 : S6250x1.Broadcasts S6250x128
  broadcasts_S1x128_S6250x128 : S1x128.Broadcasts S6250x128
  slices_S256x5_S128x5_0_0 : S256x5.Slices ![0, 0] S128x5
  slices_S256x5_S128x5_128_0 : S256x5.Slices ![128, 0] S128x5
  shapeCasts_S5_S1x5 : S5.ShapeCasts S1x5
  inb_S128x5_S128x5_0_0 : ∀ a, (![0, 0] : Fin 2 → Nat) a + S128x5.size a ≤ S128x5.size a
  h_S128x5 : 0 < S128x5.numel
  shapeCasts_S128x5_S128x5 : S128x5.ShapeCasts S128x5
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S10000x5 : S1x5.Broadcasts S10000x5
  reduces_S10000x5_S10000 : S10000x5.Reduces [1] S10000
  shapeCasts_S10000_S10000x1 : S10000.ShapeCasts S10000x1
  broadcasts_S10000x1_S10000x5 : S10000x1.Broadcasts S10000x5
  inb_S10000x5_S10000x5_0_0 : ∀ a, (![0, 0] : Fin 2 → Nat) a + S10000x5.size a ≤ S10000x5.size a
  h_S10000x5 : 0 < S10000x5.numel
  broadcasts_S1x5_S5000x5 : S1x5.Broadcasts S5000x5
  reduces_S5000x5_S5000 : S5000x5.Reduces [1] S5000
  shapeCasts_S5000_S5000x1 : S5000.ShapeCasts S5000x1
  broadcasts_S5000x1_S5000x5 : S5000x1.Broadcasts S5000x5
  inb_S5000x5_S5000x5_0_0 : ∀ a, (![0, 0] : Fin 2 → Nat) a + S5000x5.size a ≤ S5000x5.size a
  h_S5000x5 : 0 < S5000x5.numel
  broadcasts_S1x5_S6250x5 : S1x5.Broadcasts S6250x5
  reduces_S6250x5_S6250 : S6250x5.Reduces [1] S6250
  broadcasts_S6250x1_S6250x5 : S6250x1.Broadcasts S6250x5
  inb_S6250x5_S6250x5_0_0 : ∀ a, (![0, 0] : Fin 2 → Nat) a + S6250x5.size a ≤ S6250x5.size a
  h_S6250x5 : 0 < S6250x5.numel
  concatenates_S100000x5_S25000x5_S6250x5_S131250x5_d0 : Shape.Concatenates [S100000x5, S25000x5, S6250x5] S131250x5 0
  dot_S10000x32_S32x128_S10000x128_1_0_0_1_n_n_wf : DotDims.WF S10000x32 S32x128 S10000x128 [1] [0] [0] [1] [] []
  dot_S10000x128_S128x128_S10000x128_1_0_0_1_n_n_wf : DotDims.WF S10000x128 S128x128 S10000x128 [1] [0] [0] [1] [] []
  gather_S100000x128_S100000x1_S100000x128_1_0_n_n_0_1_1128_wf : GatherDims.WF S100000x128 S100000x1 S100000x128 [1] [0] [] [0] [] 1 ![1, 128]
  scatter_S25000x128_S100000x1_S100000x128_1_0_0_1_wf : ScatterDims.WF S25000x128 S100000x1 S100000x128 [1] [0] [0] 1
  scatter_S25000_S100000x1_S100000_n_0_0_1_wf : ScatterDims.WF S25000 S100000x1 S100000 [] [0] [0] 1
  dot_S5000x128_S128x128_S5000x128_1_0_0_1_n_n_wf : DotDims.WF S5000x128 S128x128 S5000x128 [1] [0] [0] [1] [] []
  gather_S25000x128_S25000x1_S25000x128_1_0_n_n_0_1_1128_wf : GatherDims.WF S25000x128 S25000x1 S25000x128 [1] [0] [] [0] [] 1 ![1, 128]
  scatter_S6250x128_S25000x1_S25000x128_1_0_0_1_wf : ScatterDims.WF S6250x128 S25000x1 S25000x128 [1] [0] [0] 1
  scatter_S6250_S25000x1_S25000_n_0_0_1_wf : ScatterDims.WF S6250 S25000x1 S25000 [] [0] [0] 1
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S25000_S400000x1_S400000_n_0_0_1_wf : ScatterDims.WF S25000 S400000x1 S400000 [] [0] [0] 1
  gather_S25000x128_S400000x1_S400000x128_1_0_n_n_0_1_1128_wf : GatherDims.WF S25000x128 S400000x1 S400000x128 [1] [0] [] [0] [] 1 ![1, 128]
  scatter_S25000x128_S400000x1_S400000x128_1_0_0_1_wf : ScatterDims.WF S25000x128 S400000x1 S400000x128 [1] [0] [0] 1
  scatter_S6250_S100000x1_S100000_n_0_0_1_wf : ScatterDims.WF S6250 S100000x1 S100000 [] [0] [0] 1
  gather_S6250x128_S100000x1_S100000x128_1_0_n_n_0_1_1128_wf : GatherDims.WF S6250x128 S100000x1 S100000x128 [1] [0] [] [0] [] 1 ![1, 128]
  scatter_S6250x128_S100000x1_S100000x128_1_0_0_1_wf : ScatterDims.WF S6250x128 S100000x1 S100000x128 [1] [0] [0] 1
  dot_S6250x128_S128x128_S6250x128_1_0_0_1_n_n_wf : DotDims.WF S6250x128 S128x128 S6250x128 [1] [0] [0] [1] [] []
  scatter_S100000x128_S400000x1_S400000x128_1_0_0_1_wf : ScatterDims.WF S100000x128 S400000x1 S400000x128 [1] [0] [0] 1
  scatter_S100000_S400000x1_S400000_n_0_0_1_wf : ScatterDims.WF S100000 S400000x1 S400000 [] [0] [0] 1
  dot_S10000x128_S128x5_S10000x5_1_0_0_1_n_n_wf : DotDims.WF S10000x128 S128x5 S10000x5 [1] [0] [0] [1] [] []
  dot_S5000x128_S128x5_S5000x5_1_0_0_1_n_n_wf : DotDims.WF S5000x128 S128x5 S5000x5 [1] [0] [0] [1] [] []
  dot_S6250x128_S128x5_S6250x5_1_0_0_1_n_n_wf : DotDims.WF S6250x128 S128x5 S6250x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S25000x128.size a
  hwx2_0 : ∀ i : grid2.Coords, EltTy.bits .f32 = 32 ∨ (Rect.block (s := S25000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S25000x128.size a
  hwx2_3 : ∀ i : grid2.Coords, EltTy.bits .f32 = 32 ∨ (Rect.block (s := S25000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S100000x1.size a
  hwx3_1 : ∀ i : grid3.Coords, EltTy.bits .f32 = 32 ∨ (Rect.block (s := S100000x1) S10000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x128.size a ≤ S100000x128.size a
  hwx3_4 : ∀ i : grid3.Coords, EltTy.bits .f32 = 32 ∨ (Rect.block (s := S100000x128) S10000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S25000x128.size a
  hwx4_0 : ∀ i : grid4.Coords, EltTy.bits .f32 = 32 ∨ (Rect.block (s := S25000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S25000x1.size a
  hwx4_1 : ∀ i : grid4.Coords, EltTy.bits .f32 = 32 ∨ (Rect.block (s := S25000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S25000x128.size a
  hwx4_4 : ∀ i : grid4.Coords, EltTy.bits .f32 = 32 ∨ (Rect.block (s := S25000x128) S5000x128.size (cc4_transform_4 i) (hinb4_4 i)).WholeWords (EltTy.packing .f32)
  hrank5 : 0 < grid5.rank
  hstage5_0 : ∀ j, (stage5_0 j).IsWhole
  nbuf5_0 : grid5.bufCount reads5_0 false = 1
  hreads5_0 : ∀ i i' : grid5.Coords, (∀ a, reads5_0 a = true → i a = i' a) → cc5_transform_0 i = cc5_transform_0 i'
  hinb5_0 : ∀ (i : grid5.Coords) a, (cc5_transform_0 i a + 1) * S6250x128.size a ≤ S6250x128.size a
  hwx5_0 : ∀ i : grid5.Coords, EltTy.bits .f32 = 32 ∨ (Rect.block (s := S6250x128) S6250x128.size (cc5_transform_0 i) (hinb5_0 i)).WholeWords (EltTy.packing .f32)
  hstage5_1 : ∀ j, (stage5_1 j).IsWhole
  nbuf5_1 : grid5.bufCount reads5_1 false = 1
  hreads5_1 : ∀ i i' : grid5.Coords, (∀ a, reads5_1 a = true → i a = i' a) → cc5_transform_1 i = cc5_transform_1 i'
  hinb5_1 : ∀ (i : grid5.Coords) a, (cc5_transform_1 i a + 1) * S6250x1.size a ≤ S6250x1.size a
  hwx5_1 : ∀ i : grid5.Coords, EltTy.bits .f32 = 32 ∨ (Rect.block (s := S6250x1) S6250x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 1
  hreads5_4 : ∀ i i' : grid5.Coords, (∀ a, reads5_4 a = true → i a = i' a) → cc5_transform_4 i = cc5_transform_4 i'
  hinb5_4 : ∀ (i : grid5.Coords) a, (cc5_transform_4 i a + 1) * S6250x128.size a ≤ S6250x128.size a
  hwx5_4 : ∀ i : grid5.Coords, EltTy.bits .f32 = 32 ∨ (Rect.block (s := S6250x128) S6250x128.size (cc5_transform_4 i) (hinb5_4 i)).WholeWords (EltTy.packing .f32)
  hrank6 : 0 < grid6.rank
  hstage6_0 : ∀ j, (stage6_0 j).IsWhole
  nbuf6_0 : grid6.bufCount reads6_0 false = 1
  hreads6_0 : ∀ i i' : grid6.Coords, (∀ a, reads6_0 a = true → i a = i' a) → cc6_transform_0 i = cc6_transform_0 i'
  hinb6_0 : ∀ (i : grid6.Coords) a, (cc6_transform_0 i a + 1) * S6250x128.size a ≤ S6250x128.size a
  hwx6_0 : ∀ i : grid6.Coords, EltTy.bits .f32 = 32 ∨ (Rect.block (s := S6250x128) S6250x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 1
  hreads6_3 : ∀ i i' : grid6.Coords, (∀ a, reads6_3 a = true → i a = i' a) → cc6_transform_3 i = cc6_transform_3 i'
  hinb6_3 : ∀ (i : grid6.Coords) a, (cc6_transform_3 i a + 1) * S6250x128.size a ≤ S6250x128.size a
  hwx6_3 : ∀ i : grid6.Coords, EltTy.bits .f32 = 32 ∨ (Rect.block (s := S6250x128) S6250x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S25000x128.size a
  hwx7_0 : ∀ i : grid7.Coords, EltTy.bits .f32 = 32 ∨ (Rect.block (s := S25000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x128.size a ≤ S25000x128.size a
  hwx7_3 : ∀ i : grid7.Coords, EltTy.bits .f32 = 32 ∨ (Rect.block (s := S25000x128) S5000x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x128.size a ≤ S100000x128.size a
  hwx8_0 : ∀ i : grid8.Coords, EltTy.bits .f32 = 32 ∨ (Rect.block (s := S100000x128) S10000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S10000x128.size a ≤ S100000x128.size a
  hwx8_1 : ∀ i : grid8.Coords, EltTy.bits .f32 = 32 ∨ (Rect.block (s := S100000x128) S10000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x5.size a ≤ S128x5.size a
  hwx8_2 : ∀ i : grid8.Coords, EltTy.bits .f32 = 32 ∨ (Rect.block (s := S128x5) S128x5.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x5.size a ≤ S128x5.size a
  hwx8_3 : ∀ i : grid8.Coords, EltTy.bits .f32 = 32 ∨ (Rect.block (s := S128x5) S128x5.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x5.size a ≤ S1x5.size a
  hwx8_4 : ∀ i : grid8.Coords, EltTy.bits .f32 = 32 ∨ (Rect.block (s := S1x5) S1x5.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S10000x5.size a ≤ S100000x5.size a
  hwx8_5 : ∀ i : grid8.Coords, EltTy.bits .f32 = 32 ∨ (Rect.block (s := S100000x5) S10000x5.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S25000x128.size a
  hwx9_0 : ∀ i : grid9.Coords, EltTy.bits .f32 = 32 ∨ (Rect.block (s := S25000x128) S5000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x128.size a ≤ S25000x128.size a
  hwx9_1 : ∀ i : grid9.Coords, EltTy.bits .f32 = 32 ∨ (Rect.block (s := S25000x128) S5000x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S128x5.size a ≤ S128x5.size a
  hwx9_2 : ∀ i : grid9.Coords, EltTy.bits .f32 = 32 ∨ (Rect.block (s := S128x5) S128x5.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S128x5.size a ≤ S128x5.size a
  hwx9_3 : ∀ i : grid9.Coords, EltTy.bits .f32 = 32 ∨ (Rect.block (s := S128x5) S128x5.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x5.size a ≤ S1x5.size a
  hwx9_4 : ∀ i : grid9.Coords, EltTy.bits .f32 = 32 ∨ (Rect.block (s := S1x5) S1x5.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S5000x5.size a ≤ S25000x5.size a
  hwx9_5 : ∀ i : grid9.Coords, EltTy.bits .f32 = 32 ∨ (Rect.block (s := S25000x5) S5000x5.size (cc9_transform_5 i) (hinb9_5 i)).WholeWords (EltTy.packing .f32)
  hrank10 : 0 < grid10.rank
  hstage10_0 : ∀ j, (stage10_0 j).IsWhole
  nbuf10_0 : grid10.bufCount reads10_0 false = 1
  hreads10_0 : ∀ i i' : grid10.Coords, (∀ a, reads10_0 a = true → i a = i' a) → cc10_transform_0 i = cc10_transform_0 i'
  hinb10_0 : ∀ (i : grid10.Coords) a, (cc10_transform_0 i a + 1) * S6250x128.size a ≤ S6250x128.size a
  hwx10_0 : ∀ i : grid10.Coords, EltTy.bits .f32 = 32 ∨ (Rect.block (s := S6250x128) S6250x128.size (cc10_transform_0 i) (hinb10_0 i)).WholeWords (EltTy.packing .f32)
  hstage10_1 : ∀ j, (stage10_1 j).IsWhole
  nbuf10_1 : grid10.bufCount reads10_1 false = 1
  hreads10_1 : ∀ i i' : grid10.Coords, (∀ a, reads10_1 a = true → i a = i' a) → cc10_transform_1 i = cc10_transform_1 i'
  hinb10_1 : ∀ (i : grid10.Coords) a, (cc10_transform_1 i a + 1) * S6250x128.size a ≤ S6250x128.size a
  hwx10_1 : ∀ i : grid10.Coords, EltTy.bits .f32 = 32 ∨ (Rect.block (s := S6250x128) S6250x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S128x5.size a ≤ S128x5.size a
  hwx10_2 : ∀ i : grid10.Coords, EltTy.bits .f32 = 32 ∨ (Rect.block (s := S128x5) S128x5.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S128x5.size a ≤ S128x5.size a
  hwx10_3 : ∀ i : grid10.Coords, EltTy.bits .f32 = 32 ∨ (Rect.block (s := S128x5) S128x5.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x5.size a ≤ S1x5.size a
  hwx10_4 : ∀ i : grid10.Coords, EltTy.bits .f32 = 32 ∨ (Rect.block (s := S1x5) S1x5.size (cc10_transform_4 i) (hinb10_4 i)).WholeWords (EltTy.packing .f32)
  hstage10_5 : ∀ j, (stage10_5 j).IsWhole
  nbuf10_5 : grid10.bufCount reads10_5 false = 1
  hreads10_5 : ∀ i i' : grid10.Coords, (∀ a, reads10_5 a = true → i a = i' a) → cc10_transform_5 i = cc10_transform_5 i'
  hinb10_5 : ∀ (i : grid10.Coords) a, (cc10_transform_5 i a + 1) * S6250x5.size a ≤ S6250x5.size a
  hwx10_5 : ∀ i : grid10.Coords, EltTy.bits .f32 = 32 ∨ (Rect.block (s := S6250x5) S6250x5.size (cc10_transform_5 i) (hinb10_5 i)).WholeWords (EltTy.packing .f32)

variable [Facts₀]

def dot_S10000x32_S32x128_S10000x128_1_0_0_1_n_n : DotDims S10000x32 S32x128 S10000x128 where
  lhsContracting := [1]
  rhsContracting := [0]
  lhsNonContracting := [0]
  rhsNonContracting := [1]
  lhsBatch := []
  rhsBatch := []
  wf := dot_S10000x32_S32x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def scatter_S25000x128_S100000x1_S100000x128_1_0_0_1 : ScatterDims S25000x128 S100000x1 S100000x128 where
  updateWindowDims := [1]
  insertedWindowDims := [0]
  scatterDimsToOperandDims := [0]
  indexVectorDim := 1
  wf := scatter_S25000x128_S100000x1_S100000x128_1_0_0_1_wf
def scatter_S25000_S100000x1_S100000_n_0_0_1 : ScatterDims S25000 S100000x1 S100000 where
  updateWindowDims := []
  insertedWindowDims := [0]
  scatterDimsToOperandDims := [0]
  indexVectorDim := 1
  wf := scatter_S25000_S100000x1_S100000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S25000x128_S25000x1_S25000x128_1_0_n_n_0_1_1128 : GatherDims S25000x128 S25000x1 S25000x128 where
  offsetDims := [1]
  collapsedSliceDims := [0]
  operandBatchingDims := []
  startIndicesBatchingDims := []
  startIndexMap := [0]
  indexVectorDim := 1
  sliceSizes := ![1, 128]
  wf := gather_S25000x128_S25000x1_S25000x128_1_0_n_n_0_1_1128_wf
def scatter_S6250x128_S25000x1_S25000x128_1_0_0_1 : ScatterDims S6250x128 S25000x1 S25000x128 where
  updateWindowDims := [1]
  insertedWindowDims := [0]
  scatterDimsToOperandDims := [0]
  indexVectorDim := 1
  wf := scatter_S6250x128_S25000x1_S25000x128_1_0_0_1_wf
def scatter_S6250_S25000x1_S25000_n_0_0_1 : ScatterDims S6250 S25000x1 S25000 where
  updateWindowDims := []
  insertedWindowDims := [0]
  scatterDimsToOperandDims := [0]
  indexVectorDim := 1
  wf := scatter_S6250_S25000x1_S25000_n_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S25000_S400000x1_S400000_n_0_0_1 : ScatterDims S25000 S400000x1 S400000 where
  updateWindowDims := []
  insertedWindowDims := [0]
  scatterDimsToOperandDims := [0]
  indexVectorDim := 1
  wf := scatter_S25000_S400000x1_S400000_n_0_0_1_wf
def gather_S25000x128_S400000x1_S400000x128_1_0_n_n_0_1_1128 : GatherDims S25000x128 S400000x1 S400000x128 where
  offsetDims := [1]
  collapsedSliceDims := [0]
  operandBatchingDims := []
  startIndicesBatchingDims := []
  startIndexMap := [0]
  indexVectorDim := 1
  sliceSizes := ![1, 128]
  wf := gather_S25000x128_S400000x1_S400000x128_1_0_n_n_0_1_1128_wf
def scatter_S25000x128_S400000x1_S400000x128_1_0_0_1 : ScatterDims S25000x128 S400000x1 S400000x128 where
  updateWindowDims := [1]
  insertedWindowDims := [0]
  scatterDimsToOperandDims := [0]
  indexVectorDim := 1
  wf := scatter_S25000x128_S400000x1_S400000x128_1_0_0_1_wf
def scatter_S6250_S100000x1_S100000_n_0_0_1 : ScatterDims S6250 S100000x1 S100000 where
  updateWindowDims := []
  insertedWindowDims := [0]
  scatterDimsToOperandDims := [0]
  indexVectorDim := 1
  wf := scatter_S6250_S100000x1_S100000_n_0_0_1_wf
def gather_S6250x128_S100000x1_S100000x128_1_0_n_n_0_1_1128 : GatherDims S6250x128 S100000x1 S100000x128 where
  offsetDims := [1]
  collapsedSliceDims := [0]
  operandBatchingDims := []
  startIndicesBatchingDims := []
  startIndexMap := [0]
  indexVectorDim := 1
  sliceSizes := ![1, 128]
  wf := gather_S6250x128_S100000x1_S100000x128_1_0_n_n_0_1_1128_wf
def scatter_S6250x128_S100000x1_S100000x128_1_0_0_1 : ScatterDims S6250x128 S100000x1 S100000x128 where
  updateWindowDims := [1]
  insertedWindowDims := [0]
  scatterDimsToOperandDims := [0]
  indexVectorDim := 1
  wf := scatter_S6250x128_S100000x1_S100000x128_1_0_0_1_wf
def dot_S6250x128_S128x128_S6250x128_1_0_0_1_n_n : DotDims S6250x128 S128x128 S6250x128 where
  lhsContracting := [1]
  rhsContracting := [0]
  lhsNonContracting := [0]
  rhsNonContracting := [1]
  lhsBatch := []
  rhsBatch := []
  wf := dot_S6250x128_S128x128_S6250x128_1_0_0_1_n_n_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def dot_S10000x128_S128x5_S10000x5_1_0_0_1_n_n : DotDims S10000x128 S128x5 S10000x5 where
  lhsContracting := [1]
  rhsContracting := [0]
  lhsNonContracting := [0]
  rhsNonContracting := [1]
  lhsBatch := []
  rhsBatch := []
  wf := dot_S10000x128_S128x5_S10000x5_1_0_0_1_n_n_wf
def dot_S5000x128_S128x5_S5000x5_1_0_0_1_n_n : DotDims S5000x128 S128x5 S5000x5 where
  lhsContracting := [1]
  rhsContracting := [0]
  lhsNonContracting := [0]
  rhsNonContracting := [1]
  lhsBatch := []
  rhsBatch := []
  wf := dot_S5000x128_S128x5_S5000x5_1_0_0_1_n_n_wf
def dot_S6250x128_S128x5_S6250x5_1_0_0_1_n_n : DotDims S6250x128 S128x5 S6250x5 where
  lhsContracting := [1]
  rhsContracting := [0]
  lhsNonContracting := [0]
  rhsNonContracting := [1]
  lhsBatch := []
  rhsBatch := []
  wf := dot_S6250x128_S128x5_S6250x5_1_0_0_1_n_n_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg15) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg23) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v22) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg25) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v23) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v24) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v74) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v76) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg17) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v75) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v77) S10000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v108) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v110) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg19) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v109) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v111) S5000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v142) S6250x128.size cc5_transform_0 reads5_0 false false 1 stage5_0 sem5_0
    hrank5 hreads5_0 hinb5_0 nbuf5_0 (Memref.isWhole_whole _) hwx5_0 hstage5_0

abbrev win5_1 : Pipeline.Window sig grid5 :=
  Pipeline.Window.ofSpec (Memref.whole main_v144) S6250x1.size cc5_transform_1 reads5_1 false false 1 stage5_1 sem5_1
    hrank5 hreads5_1 hinb5_1 nbuf5_1 (Memref.isWhole_whole _) hwx5_1 hstage5_1

abbrev win5_2 : Pipeline.Window sig grid5 :=
  Pipeline.Window.ofSpec (Memref.whole main_arg21) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v143) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v145) S6250x128.size cc5_transform_4 reads5_4 true false 1 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v145) S6250x128.size cc6_transform_0 reads6_0 false false 1 stage6_0 sem6_0
    hrank6 hreads6_0 hinb6_0 nbuf6_0 (Memref.isWhole_whole _) hwx6_0 hstage6_0

abbrev win6_1 : Pipeline.Window sig grid6 :=
  Pipeline.Window.ofSpec (Memref.whole main_arg27) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v146) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v147) S6250x128.size cc6_transform_3 reads6_3 true false 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v166) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg29) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v167) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v168) S5000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v77) S10000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v187) S10000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v188) S128x5.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v189) S128x5.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v190) S1x5.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v191) S10000x5.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v111) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v166) S5000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v192) S128x5.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v193) S128x5.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v194) S1x5.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v195) S5000x5.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v145) S6250x128.size cc10_transform_0 reads10_0 false false 1 stage10_0 sem10_0
    hrank10 hreads10_0 hinb10_0 nbuf10_0 (Memref.isWhole_whole _) hwx10_0 hstage10_0

abbrev win10_1 : Pipeline.Window sig grid10 :=
  Pipeline.Window.ofSpec (Memref.whole main_v145) S6250x128.size cc10_transform_1 reads10_1 false false 1 stage10_1 sem10_1
    hrank10 hreads10_1 hinb10_1 nbuf10_1 (Memref.isWhole_whole _) hwx10_1 hstage10_1

abbrev win10_2 : Pipeline.Window sig grid10 :=
  Pipeline.Window.ofSpec (Memref.whole main_v196) S128x5.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v197) S128x5.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v198) S1x5.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v199) S6250x5.size cc10_transform_5 reads10_5 true false 1 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

class Facts : Prop extends Facts₀ where

variable [Facts]
-- ==== ReferenceIdeal.lean ====
abbrev S100000x32 : Shape := ⟨2, ![100000, 32]⟩
abbrev S1600000 : Shape := ⟨1, ![1600000]⟩
abbrev S400000 : Shape := ⟨1, ![400000]⟩
abbrev S100000 : Shape := ⟨1, ![100000]⟩
abbrev S25000 : Shape := ⟨1, ![25000]⟩
abbrev S32x128 : Shape := ⟨2, ![32, 128]⟩
abbrev S128 : Shape := ⟨1, ![128]⟩
abbrev S128x128 : Shape := ⟨2, ![128, 128]⟩
abbrev S256x5 : Shape := ⟨2, ![256, 5]⟩
abbrev S5 : Shape := ⟨1, ![5]⟩
abbrev S100000x128 : Shape := ⟨2, ![100000, 128]⟩
abbrev S1x128 : Shape := ⟨2, ![1, 128]⟩
abbrev S_ : Shape := ⟨0, ![]⟩
abbrev S100000x1 : Shape := ⟨2, ![100000, 1]⟩
abbrev S25000x128 : Shape := ⟨2, ![25000, 128]⟩
abbrev S25000x1 : Shape := ⟨2, ![25000, 1]⟩
abbrev S6250x128 : Shape := ⟨2, ![6250, 128]⟩
abbrev S6250 : Shape := ⟨1, ![6250]⟩
abbrev S6250x1 : Shape := ⟨2, ![6250, 1]⟩
abbrev S1600000x1 : Shape := ⟨2, ![1600000, 1]⟩
abbrev S1600000x128 : Shape := ⟨2, ![1600000, 128]⟩
abbrev S400000x1 : Shape := ⟨2, ![400000, 1]⟩
abbrev S400000x128 : Shape := ⟨2, ![400000, 128]⟩
abbrev S100000x256 : Shape := ⟨2, ![100000, 256]⟩
abbrev S100000x5 : Shape := ⟨2, ![100000, 5]⟩
abbrev S1x5 : Shape := ⟨2, ![1, 5]⟩
abbrev S25000x256 : Shape := ⟨2, ![25000, 256]⟩
abbrev S25000x5 : Shape := ⟨2, ![25000, 5]⟩
abbrev S6250x256 : Shape := ⟨2, ![6250, 256]⟩
abbrev S6250x5 : Shape := ⟨2, ![6250, 5]⟩
abbrev S131250x5 : Shape := ⟨2, ![131250, 5]⟩

abbrev nBuf : Space → Nat
  | .hbm => 380
  | .vmem => 0
  | .smem => 0
  | _ => 0

abbrev hbmTy0_0 (i : Nat) : BufTy := match i % 128 with
  | 0 => ⟨S100000x32, .f32⟩
  | 1 => ⟨S1600000, .i32⟩
  | 2 => ⟨S1600000, .i32⟩
  | 3 => ⟨S400000, .i32⟩
  | 4 => ⟨S400000, .i32⟩
  | 5 => ⟨S100000, .i32⟩
  | 6 => ⟨S100000, .i32⟩
  | 7 => ⟨S100000, .i32⟩
  | 8 => ⟨S100000, .i32⟩
  | 9 => ⟨S25000, .i32⟩
  | 10 => ⟨S25000, .i32⟩
  | 11 => ⟨S100000, .i32⟩
  | 12 => ⟨S100000, .i32⟩
  | 13 => ⟨S400000, .i32⟩
  | 14 => ⟨S400000, .i32⟩
  | 15 => ⟨S32x128, .f32⟩
  | 16 => ⟨S128, .f32⟩
  | 17 => ⟨S128x128, .f32⟩
  | 18 => ⟨S128, .f32⟩
  | 19 => ⟨S128x128, .f32⟩
  | 20 => ⟨S128, .f32⟩
  | 21 => ⟨S128x128, .f32⟩
  | 22 => ⟨S128, .f32⟩
  | 23 => ⟨S128x128, .f32⟩
  | 24 => ⟨S128, .f32⟩
  | 25 => ⟨S128x128, .f32⟩
  | 26 => ⟨S128, .f32⟩
  | 27 => ⟨S128x128, .f32⟩
  | 28 => ⟨S128, .f32⟩
  | 29 => ⟨S128x128, .f32⟩
  | 30 => ⟨S128, .f32⟩
  | 31 => ⟨S256x5, .f32⟩
  | 32 => ⟨S5, .f32⟩
  | 33 => ⟨S256x5, .f32⟩
  | 34 => ⟨S5, .f32⟩
  | 35 => ⟨S256x5, .f32⟩
  | 36 => ⟨S5, .f32⟩
  | 37 => ⟨S100000x128, .f32⟩
  | 38 => ⟨S1x128, .f32⟩
  | 39 => ⟨S100000x128, .f32⟩
  | 40 => ⟨S100000x128, .f32⟩
  | 41 => ⟨S100000x128, .f32⟩
  | 42 => ⟨S1x128, .f32⟩
  | 43 => ⟨S100000x128, .f32⟩
  | 44 => ⟨S100000x128, .f32⟩
  | 45 => ⟨S_, .i32⟩
  | 46 => ⟨S100000, .i32⟩
  | 47 => ⟨S100000, .i1⟩
  | 48 => ⟨S_, .i32⟩
  | 49 => ⟨S100000, .i32⟩
  | 50 => ⟨S100000, .i32⟩
  | 51 => ⟨S100000, .i32⟩
  | 52 => ⟨S100000x1, .i32⟩
  | 53 => ⟨S100000x128, .f32⟩
  | 54 => ⟨S_, .f32⟩
  | 55 => ⟨S25000x128, .f32⟩
  | 56 => ⟨S100000x1, .i32⟩
  | 57 => ⟨S25000x128, .f32⟩
  | 58 => ⟨S_, .f32⟩
  | 59 => ⟨S100000, .f32⟩
  | 60 => ⟨S_, .f32⟩
  | 61 => ⟨S25000, .f32⟩
  | 62 => ⟨S100000x1, .i32⟩
  | 63 => ⟨S25000, .f32⟩
  | 64 => ⟨S_, .f32⟩
  | 65 => ⟨S25000, .f32⟩
  | 66 => ⟨S25000, .f32⟩
  | 67 => ⟨S25000x1, .f32⟩
  | 68 => ⟨S25000x128, .f32⟩
  | 69 => ⟨S25000x128, .f32⟩
  | 70 => ⟨S25000x128, .f32⟩
  | 71 => ⟨S1x128, .f32⟩
  | 72 => ⟨S25000x128, .f32⟩
  | 73 => ⟨S25000x128, .f32⟩
  | 74 => ⟨S_, .i32⟩
  | 75 => ⟨S25000, .i32⟩
  | 76 => ⟨S25000, .i1⟩
  | 77 => ⟨S_, .i32⟩
  | 78 => ⟨S25000, .i32⟩
  | 79 => ⟨S25000, .i32⟩
  | 80 => ⟨S25000, .i32⟩
  | 81 => ⟨S25000x1, .i32⟩
  | 82 => ⟨S25000x128, .f32⟩
  | 83 => ⟨S_, .f32⟩
  | 84 => ⟨S6250x128, .f32⟩
  | 85 => ⟨S25000x1, .i32⟩
  | 86 => ⟨S6250x128, .f32⟩
  | 87 => ⟨S_, .f32⟩
  | 88 => ⟨S25000, .f32⟩
  | 89 => ⟨S_, .f32⟩
  | 90 => ⟨S6250, .f32⟩
  | 91 => ⟨S25000x1, .i32⟩
  | 92 => ⟨S6250, .f32⟩
  | 93 => ⟨S_, .f32⟩
  | 94 => ⟨S6250, .f32⟩
  | 95 => ⟨S6250, .f32⟩
  | 96 => ⟨S6250x1, .f32⟩
  | 97 => ⟨S6250x128, .f32⟩
  | 98 => ⟨S6250x128, .f32⟩
  | 99 => ⟨S_, .f32⟩
  | 100 => ⟨S1600000, .f32⟩
  | 101 => ⟨S_, .f32⟩
  | 102 => ⟨S100000, .f32⟩
  | 103 => ⟨S1600000x1, .i32⟩
  | 104 => ⟨S100000, .f32⟩
  | 105 => ⟨S_, .f32⟩
  | 106 => ⟨S1600000, .f32⟩
  | 107 => ⟨S_, .f32⟩
  | 108 => ⟨S100000, .f32⟩
  | 109 => ⟨S1600000x1, .i32⟩
  | 110 => ⟨S100000, .f32⟩
  | 111 => ⟨S_, .f32⟩
  | 112 => ⟨S100000, .f32⟩
  | 113 => ⟨S100000, .i1⟩
  | 114 => ⟨S_, .f32⟩
  | 115 => ⟨S100000, .f32⟩
  | 116 => ⟨S100000, .f32⟩
  | 117 => ⟨S_, .f32⟩
  | 118 => ⟨S_, .f32⟩
  | 119 => ⟨S100000, .f32⟩
  | 120 => ⟨S100000, .f32⟩
  | 121 => ⟨S_, .f32⟩
  | 122 => ⟨S100000, .f32⟩
  | 123 => ⟨S100000, .i1⟩
  | 124 => ⟨S_, .f32⟩
  | 125 => ⟨S100000, .f32⟩
  | 126 => ⟨S100000, .f32⟩
  | 127 => ⟨S_, .f32⟩
  | _ => ⟨S100000x32, .f32⟩

abbrev hbmTy0_1 (i : Nat) : BufTy := match i % 128 with
  | 0 => ⟨S_, .f32⟩
  | 1 => ⟨S100000, .f32⟩
  | 2 => ⟨S100000, .f32⟩
  | 3 => ⟨S100000x1, .f32⟩
  | 4 => ⟨S100000x128, .f32⟩
  | 5 => ⟨S100000x128, .f32⟩
  | 6 => ⟨S_, .i32⟩
  | 7 => ⟨S1600000, .i32⟩
  | 8 => ⟨S1600000, .i1⟩
  | 9 => ⟨S_, .i32⟩
  | 10 => ⟨S1600000, .i32⟩
  | 11 => ⟨S1600000, .i32⟩
  | 12 => ⟨S1600000, .i32⟩
  | 13 => ⟨S1600000x1, .i32⟩
  | 14 => ⟨S1600000x128, .f32⟩
  | 15 => ⟨S_, .f32⟩
  | 16 => ⟨S100000x128, .f32⟩
  | 17 => ⟨S1600000x1, .i32⟩
  | 18 => ⟨S100000x128, .f32⟩
  | 19 => ⟨S100000x1, .f32⟩
  | 20 => ⟨S100000x128, .f32⟩
  | 21 => ⟨S100000x128, .f32⟩
  | 22 => ⟨S100000x128, .f32⟩
  | 23 => ⟨S1x128, .f32⟩
  | 24 => ⟨S100000x128, .f32⟩
  | 25 => ⟨S100000x128, .f32⟩
  | 26 => ⟨S_, .f32⟩
  | 27 => ⟨S400000, .f32⟩
  | 28 => ⟨S_, .f32⟩
  | 29 => ⟨S25000, .f32⟩
  | 30 => ⟨S400000x1, .i32⟩
  | 31 => ⟨S25000, .f32⟩
  | 32 => ⟨S_, .f32⟩
  | 33 => ⟨S400000, .f32⟩
  | 34 => ⟨S_, .f32⟩
  | 35 => ⟨S25000, .f32⟩
  | 36 => ⟨S400000x1, .i32⟩
  | 37 => ⟨S25000, .f32⟩
  | 38 => ⟨S_, .f32⟩
  | 39 => ⟨S25000, .f32⟩
  | 40 => ⟨S25000, .i1⟩
  | 41 => ⟨S_, .f32⟩
  | 42 => ⟨S25000, .f32⟩
  | 43 => ⟨S25000, .f32⟩
  | 44 => ⟨S_, .f32⟩
  | 45 => ⟨S_, .f32⟩
  | 46 => ⟨S25000, .f32⟩
  | 47 => ⟨S25000, .f32⟩
  | 48 => ⟨S_, .f32⟩
  | 49 => ⟨S25000, .f32⟩
  | 50 => ⟨S25000, .i1⟩
  | 51 => ⟨S_, .f32⟩
  | 52 => ⟨S25000, .f32⟩
  | 53 => ⟨S25000, .f32⟩
  | 54 => ⟨S_, .f32⟩
  | 55 => ⟨S_, .f32⟩
  | 56 => ⟨S25000, .f32⟩
  | 57 => ⟨S25000, .f32⟩
  | 58 => ⟨S25000x1, .f32⟩
  | 59 => ⟨S25000x128, .f32⟩
  | 60 => ⟨S25000x128, .f32⟩
  | 61 => ⟨S_, .i32⟩
  | 62 => ⟨S400000, .i32⟩
  | 63 => ⟨S400000, .i1⟩
  | 64 => ⟨S_, .i32⟩
  | 65 => ⟨S400000, .i32⟩
  | 66 => ⟨S400000, .i32⟩
  | 67 => ⟨S400000, .i32⟩
  | 68 => ⟨S400000x1, .i32⟩
  | 69 => ⟨S400000x128, .f32⟩
  | 70 => ⟨S_, .f32⟩
  | 71 => ⟨S25000x128, .f32⟩
  | 72 => ⟨S400000x1, .i32⟩
  | 73 => ⟨S25000x128, .f32⟩
  | 74 => ⟨S25000x1, .f32⟩
  | 75 => ⟨S25000x128, .f32⟩
  | 76 => ⟨S25000x128, .f32⟩
  | 77 => ⟨S25000x128, .f32⟩
  | 78 => ⟨S1x128, .f32⟩
  | 79 => ⟨S25000x128, .f32⟩
  | 80 => ⟨S25000x128, .f32⟩
  | 81 => ⟨S_, .f32⟩
  | 82 => ⟨S100000, .f32⟩
  | 83 => ⟨S_, .f32⟩
  | 84 => ⟨S6250, .f32⟩
  | 85 => ⟨S100000x1, .i32⟩
  | 86 => ⟨S6250, .f32⟩
  | 87 => ⟨S_, .f32⟩
  | 88 => ⟨S100000, .f32⟩
  | 89 => ⟨S_, .f32⟩
  | 90 => ⟨S6250, .f32⟩
  | 91 => ⟨S100000x1, .i32⟩
  | 92 => ⟨S6250, .f32⟩
  | 93 => ⟨S_, .f32⟩
  | 94 => ⟨S6250, .f32⟩
  | 95 => ⟨S6250, .i1⟩
  | 96 => ⟨S_, .f32⟩
  | 97 => ⟨S6250, .f32⟩
  | 98 => ⟨S6250, .f32⟩
  | 99 => ⟨S_, .f32⟩
  | 100 => ⟨S_, .f32⟩
  | 101 => ⟨S6250, .f32⟩
  | 102 => ⟨S6250, .f32⟩
  | 103 => ⟨S_, .f32⟩
  | 104 => ⟨S6250, .f32⟩
  | 105 => ⟨S6250, .i1⟩
  | 106 => ⟨S_, .f32⟩
  | 107 => ⟨S6250, .f32⟩
  | 108 => ⟨S6250, .f32⟩
  | 109 => ⟨S_, .f32⟩
  | 110 => ⟨S_, .f32⟩
  | 111 => ⟨S6250, .f32⟩
  | 112 => ⟨S6250, .f32⟩
  | 113 => ⟨S6250x1, .f32⟩
  | 114 => ⟨S6250x128, .f32⟩
  | 115 => ⟨S6250x128, .f32⟩
  | 116 => ⟨S_, .i32⟩
  | 117 => ⟨S100000, .i32⟩
  | 118 => ⟨S100000, .i1⟩
  | 119 => ⟨S_, .i32⟩
  | 120 => ⟨S100000, .i32⟩
  | 121 => ⟨S100000, .i32⟩
  | 122 => ⟨S100000, .i32⟩
  | 123 => ⟨S100000x1, .i32⟩
  | 124 => ⟨S100000x128, .f32⟩
  | 125 => ⟨S_, .f32⟩
  | 126 => ⟨S6250x128, .f32⟩
  | 127 => ⟨S100000x1, .i32⟩
  | _ => ⟨S100000x32, .f32⟩

abbrev hbmTy0_2 (i : Nat) : BufTy := match i % 128 with
  | 0 => ⟨S6250x128, .f32⟩
  | 1 => ⟨S6250x1, .f32⟩
  | 2 => ⟨S6250x128, .f32⟩
  | 3 => ⟨S6250x128, .f32⟩
  | 4 => ⟨S6250x128, .f32⟩
  | 5 => ⟨S1x128, .f32⟩
  | 6 => ⟨S6250x128, .f32⟩
  | 7 => ⟨S6250x128, .f32⟩
  | 8 => ⟨S6250x128, .f32⟩
  | 9 => ⟨S1x128, .f32⟩
  | 10 => ⟨S6250x128, .f32⟩
  | 11 => ⟨S6250x128, .f32⟩
  | 12 => ⟨S_, .i32⟩
  | 13 => ⟨S100000, .i32⟩
  | 14 => ⟨S100000, .i1⟩
  | 15 => ⟨S_, .i32⟩
  | 16 => ⟨S100000, .i32⟩
  | 17 => ⟨S100000, .i32⟩
  | 18 => ⟨S100000, .i32⟩
  | 19 => ⟨S100000x1, .i32⟩
  | 20 => ⟨S100000x128, .f32⟩
  | 21 => ⟨S_, .f32⟩
  | 22 => ⟨S25000x128, .f32⟩
  | 23 => ⟨S100000x1, .i32⟩
  | 24 => ⟨S25000x128, .f32⟩
  | 25 => ⟨S_, .f32⟩
  | 26 => ⟨S100000, .f32⟩
  | 27 => ⟨S_, .f32⟩
  | 28 => ⟨S25000, .f32⟩
  | 29 => ⟨S100000x1, .i32⟩
  | 30 => ⟨S25000, .f32⟩
  | 31 => ⟨S_, .f32⟩
  | 32 => ⟨S25000, .f32⟩
  | 33 => ⟨S25000, .f32⟩
  | 34 => ⟨S25000x1, .f32⟩
  | 35 => ⟨S25000x128, .f32⟩
  | 36 => ⟨S25000x128, .f32⟩
  | 37 => ⟨S25000x128, .f32⟩
  | 38 => ⟨S1x128, .f32⟩
  | 39 => ⟨S25000x128, .f32⟩
  | 40 => ⟨S25000x128, .f32⟩
  | 41 => ⟨S_, .i32⟩
  | 42 => ⟨S400000, .i32⟩
  | 43 => ⟨S400000, .i1⟩
  | 44 => ⟨S_, .i32⟩
  | 45 => ⟨S400000, .i32⟩
  | 46 => ⟨S400000, .i32⟩
  | 47 => ⟨S400000, .i32⟩
  | 48 => ⟨S400000x1, .i32⟩
  | 49 => ⟨S400000x128, .f32⟩
  | 50 => ⟨S_, .f32⟩
  | 51 => ⟨S100000x128, .f32⟩
  | 52 => ⟨S400000x1, .i32⟩
  | 53 => ⟨S100000x128, .f32⟩
  | 54 => ⟨S_, .f32⟩
  | 55 => ⟨S400000, .f32⟩
  | 56 => ⟨S_, .f32⟩
  | 57 => ⟨S100000, .f32⟩
  | 58 => ⟨S400000x1, .i32⟩
  | 59 => ⟨S100000, .f32⟩
  | 60 => ⟨S_, .f32⟩
  | 61 => ⟨S100000, .f32⟩
  | 62 => ⟨S100000, .f32⟩
  | 63 => ⟨S100000x1, .f32⟩
  | 64 => ⟨S100000x128, .f32⟩
  | 65 => ⟨S100000x128, .f32⟩
  | 66 => ⟨S100000x256, .f32⟩
  | 67 => ⟨S100000x5, .f32⟩
  | 68 => ⟨S1x5, .f32⟩
  | 69 => ⟨S100000x5, .f32⟩
  | 70 => ⟨S100000x5, .f32⟩
  | 71 => ⟨S_, .f32⟩
  | 72 => ⟨S100000, .f32⟩
  | 73 => ⟨S_, .f32⟩
  | 74 => ⟨S100000, .f32⟩
  | 75 => ⟨S100000, .f32⟩
  | 76 => ⟨S100000x1, .f32⟩
  | 77 => ⟨S100000x5, .f32⟩
  | 78 => ⟨S100000x5, .f32⟩
  | 79 => ⟨S100000x5, .f32⟩
  | 80 => ⟨S_, .f32⟩
  | 81 => ⟨S100000, .f32⟩
  | 82 => ⟨S100000x1, .f32⟩
  | 83 => ⟨S100000x5, .f32⟩
  | 84 => ⟨S100000x5, .f32⟩
  | 85 => ⟨S25000x256, .f32⟩
  | 86 => ⟨S25000x5, .f32⟩
  | 87 => ⟨S1x5, .f32⟩
  | 88 => ⟨S25000x5, .f32⟩
  | 89 => ⟨S25000x5, .f32⟩
  | 90 => ⟨S_, .f32⟩
  | 91 => ⟨S25000, .f32⟩
  | 92 => ⟨S_, .f32⟩
  | 93 => ⟨S25000, .f32⟩
  | 94 => ⟨S25000, .f32⟩
  | 95 => ⟨S25000x1, .f32⟩
  | 96 => ⟨S25000x5, .f32⟩
  | 97 => ⟨S25000x5, .f32⟩
  | 98 => ⟨S25000x5, .f32⟩
  | 99 => ⟨S_, .f32⟩
  | 100 => ⟨S25000, .f32⟩
  | 101 => ⟨S25000x1, .f32⟩
  | 102 => ⟨S25000x5, .f32⟩
  | 103 => ⟨S25000x5, .f32⟩
  | 104 => ⟨S6250x256, .f32⟩
  | 105 => ⟨S6250x5, .f32⟩
  | 106 => ⟨S1x5, .f32⟩
  | 107 => ⟨S6250x5, .f32⟩
  | 108 => ⟨S6250x5, .f32⟩
  | 109 => ⟨S_, .f32⟩
  | 110 => ⟨S6250, .f32⟩
  | 111 => ⟨S_, .f32⟩
  | 112 => ⟨S6250, .f32⟩
  | 113 => ⟨S6250, .f32⟩
  | 114 => ⟨S6250x1, .f32⟩
  | 115 => ⟨S6250x5, .f32⟩
  | 116 => ⟨S6250x5, .f32⟩
  | 117 => ⟨S6250x5, .f32⟩
  | 118 => ⟨S_, .f32⟩
  | 119 => ⟨S6250, .f32⟩
  | 120 => ⟨S6250x1, .f32⟩
  | 121 => ⟨S6250x5, .f32⟩
  | 122 => ⟨S6250x5, .f32⟩
  | 123 => ⟨S131250x5, .f32⟩
  | _ => ⟨S100000x32, .f32⟩

abbrev hbmTy (i : Nat) : BufTy := match i / 128 with
  | 0 => hbmTy0_0 i
  | 1 => hbmTy0_1 i
  | 2 => hbmTy0_2 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_v0 : Ref sig .tc := ⟨.hbm, 37, rfl⟩
abbrev main_v1 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_c : Ref sig .tc := ⟨.hbm, 45, rfl⟩
abbrev main_v8 : Ref sig .tc := ⟨.hbm, 46, rfl⟩
abbrev main_v9 : Ref sig .tc := ⟨.hbm, 47, rfl⟩
abbrev main_c_0 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_cst : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_cst_1 : Ref sig .tc := ⟨.hbm, 58, rfl⟩
abbrev main_v18 : Ref sig .tc := ⟨.hbm, 59, rfl⟩
abbrev main_cst_2 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_cst_3 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_c_4 : Ref sig .tc := ⟨.hbm, 74, rfl⟩
abbrev main_v31 : Ref sig .tc := ⟨.hbm, 75, rfl⟩
abbrev main_v32 : Ref sig .tc := ⟨.hbm, 76, rfl⟩
abbrev main_c_5 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_cst_6 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_cst_7 : Ref sig .tc := ⟨.hbm, 87, rfl⟩
abbrev main_v41 : Ref sig .tc := ⟨.hbm, 88, rfl⟩
abbrev main_cst_8 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_cst_9 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_cst_10 : Ref sig .tc := ⟨.hbm, 99, rfl⟩
abbrev main_v50 : Ref sig .tc := ⟨.hbm, 100, rfl⟩
abbrev main_cst_11 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_cst_12 : Ref sig .tc := ⟨.hbm, 105, rfl⟩
abbrev main_v54 : Ref sig .tc := ⟨.hbm, 106, rfl⟩
abbrev main_cst_13 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_cst_14 : Ref sig .tc := ⟨.hbm, 111, rfl⟩
abbrev main_v58 : Ref sig .tc := ⟨.hbm, 112, rfl⟩
abbrev main_v59 : Ref sig .tc := ⟨.hbm, 113, rfl⟩
abbrev main_cst_15 : Ref sig .tc := ⟨.hbm, 114, rfl⟩
abbrev main_v60 : Ref sig .tc := ⟨.hbm, 115, rfl⟩
abbrev main_v61 : Ref sig .tc := ⟨.hbm, 116, rfl⟩
abbrev main_cst_16 : Ref sig .tc := ⟨.hbm, 117, rfl⟩
abbrev main_call0_v0 : Ref sig .tc := ⟨.hbm, 118, rfl⟩
abbrev main_call0_v1 : Ref sig .tc := ⟨.hbm, 119, rfl⟩
abbrev main_v62 : Ref sig .tc := ⟨.hbm, 120, rfl⟩
abbrev main_cst_17 : Ref sig .tc := ⟨.hbm, 121, rfl⟩
abbrev main_v63 : Ref sig .tc := ⟨.hbm, 122, rfl⟩
abbrev main_v64 : Ref sig .tc := ⟨.hbm, 123, rfl⟩
abbrev main_cst_18 : Ref sig .tc := ⟨.hbm, 124, rfl⟩
abbrev main_v65 : Ref sig .tc := ⟨.hbm, 125, rfl⟩
abbrev main_v66 : Ref sig .tc := ⟨.hbm, 126, rfl⟩
abbrev main_cst_19 : Ref sig .tc := ⟨.hbm, 127, rfl⟩
abbrev main_call1_v0 : Ref sig .tc := ⟨.hbm, 128, rfl⟩
abbrev main_call1_v1 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_c_20 : Ref sig .tc := ⟨.hbm, 134, rfl⟩
abbrev main_v71 : Ref sig .tc := ⟨.hbm, 135, rfl⟩
abbrev main_v72 : Ref sig .tc := ⟨.hbm, 136, rfl⟩
abbrev main_c_21 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_cst_22 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_cst_23 : Ref sig .tc := ⟨.hbm, 154, rfl⟩
abbrev main_v88 : Ref sig .tc := ⟨.hbm, 155, rfl⟩
abbrev main_cst_24 : Ref sig .tc := ⟨.hbm, 156, rfl⟩
abbrev main_v89 : Ref sig .tc := ⟨.hbm, 157, rfl⟩
abbrev main_v90 : Ref sig .tc := ⟨.hbm, 158, rfl⟩
abbrev main_v91 : Ref sig .tc := ⟨.hbm, 159, rfl⟩
abbrev main_cst_25 : Ref sig .tc := ⟨.hbm, 160, rfl⟩
abbrev main_v92 : Ref sig .tc := ⟨.hbm, 161, rfl⟩
abbrev main_cst_26 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_cst_27 : Ref sig .tc := ⟨.hbm, 166, rfl⟩
abbrev main_v96 : Ref sig .tc := ⟨.hbm, 167, rfl⟩
abbrev main_v97 : Ref sig .tc := ⟨.hbm, 168, rfl⟩
abbrev main_cst_28 : Ref sig .tc := ⟨.hbm, 169, rfl⟩
abbrev main_v98 : Ref sig .tc := ⟨.hbm, 170, rfl⟩
abbrev main_v99 : Ref sig .tc := ⟨.hbm, 171, rfl⟩
abbrev main_cst_29 : Ref sig .tc := ⟨.hbm, 172, rfl⟩
abbrev main_call2_v0 : Ref sig .tc := ⟨.hbm, 173, rfl⟩
abbrev main_call2_v1 : Ref sig .tc := ⟨.hbm, 174, rfl⟩
abbrev main_v100 : Ref sig .tc := ⟨.hbm, 175, rfl⟩
abbrev main_cst_30 : Ref sig .tc := ⟨.hbm, 176, rfl⟩
abbrev main_v101 : Ref sig .tc := ⟨.hbm, 177, rfl⟩
abbrev main_v102 : Ref sig .tc := ⟨.hbm, 178, rfl⟩
abbrev main_cst_31 : Ref sig .tc := ⟨.hbm, 179, rfl⟩
abbrev main_v103 : Ref sig .tc := ⟨.hbm, 180, rfl⟩
abbrev main_v104 : Ref sig .tc := ⟨.hbm, 181, rfl⟩
abbrev main_cst_32 : Ref sig .tc := ⟨.hbm, 182, rfl⟩
abbrev main_call3_v0 : Ref sig .tc := ⟨.hbm, 183, rfl⟩
abbrev main_call3_v1 : Ref sig .tc := ⟨.hbm, 184, rfl⟩
abbrev main_v105 : Ref sig .tc := ⟨.hbm, 185, rfl⟩
abbrev main_v106 : Ref sig .tc := ⟨.hbm, 186, rfl⟩
abbrev main_v107 : Ref sig .tc := ⟨.hbm, 187, rfl⟩
abbrev main_v108 : Ref sig .tc := ⟨.hbm, 188, rfl⟩
abbrev main_c_33 : Ref sig .tc := ⟨.hbm, 189, rfl⟩
abbrev main_v109 : Ref sig .tc := ⟨.hbm, 190, rfl⟩
abbrev main_v110 : Ref sig .tc := ⟨.hbm, 191, rfl⟩
abbrev main_c_34 : Ref sig .tc := ⟨.hbm, 192, rfl⟩
abbrev main_v111 : Ref sig .tc := ⟨.hbm, 193, rfl⟩
abbrev main_v112 : Ref sig .tc := ⟨.hbm, 194, rfl⟩
abbrev main_v113 : Ref sig .tc := ⟨.hbm, 195, rfl⟩
abbrev main_v114 : Ref sig .tc := ⟨.hbm, 196, rfl⟩
abbrev main_v115 : Ref sig .tc := ⟨.hbm, 197, rfl⟩
abbrev main_cst_35 : Ref sig .tc := ⟨.hbm, 198, rfl⟩
abbrev main_v116 : Ref sig .tc := ⟨.hbm, 199, rfl⟩
abbrev main_v117 : Ref sig .tc := ⟨.hbm, 200, rfl⟩
abbrev main_v118 : Ref sig .tc := ⟨.hbm, 201, rfl⟩
abbrev main_v119 : Ref sig .tc := ⟨.hbm, 202, rfl⟩
abbrev main_v120 : Ref sig .tc := ⟨.hbm, 203, rfl⟩
abbrev main_v121 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_v125 : Ref sig .tc := ⟨.hbm, 208, rfl⟩
abbrev main_cst_36 : Ref sig .tc := ⟨.hbm, 209, rfl⟩
abbrev main_v126 : Ref sig .tc := ⟨.hbm, 210, rfl⟩
abbrev main_cst_37 : Ref sig .tc := ⟨.hbm, 211, rfl⟩
abbrev main_v127 : Ref sig .tc := ⟨.hbm, 212, rfl⟩
abbrev main_v128 : Ref sig .tc := ⟨.hbm, 213, rfl⟩
abbrev main_v129 : Ref sig .tc := ⟨.hbm, 214, rfl⟩
abbrev main_cst_38 : Ref sig .tc := ⟨.hbm, 215, rfl⟩
abbrev main_v130 : Ref sig .tc := ⟨.hbm, 216, rfl⟩
abbrev main_cst_39 : Ref sig .tc := ⟨.hbm, 217, rfl⟩
abbrev main_v131 : Ref sig .tc := ⟨.hbm, 218, rfl⟩
abbrev main_v132 : Ref sig .tc := ⟨.hbm, 219, rfl⟩
abbrev main_v133 : Ref sig .tc := ⟨.hbm, 220, rfl⟩
abbrev main_cst_40 : Ref sig .tc := ⟨.hbm, 221, rfl⟩
abbrev main_v134 : Ref sig .tc := ⟨.hbm, 222, rfl⟩
abbrev main_v135 : Ref sig .tc := ⟨.hbm, 223, rfl⟩
abbrev main_cst_41 : Ref sig .tc := ⟨.hbm, 224, rfl⟩
abbrev main_v136 : Ref sig .tc := ⟨.hbm, 225, rfl⟩
abbrev main_v137 : Ref sig .tc := ⟨.hbm, 226, rfl⟩
abbrev main_cst_42 : Ref sig .tc := ⟨.hbm, 227, rfl⟩
abbrev main_call4_v0 : Ref sig .tc := ⟨.hbm, 228, rfl⟩
abbrev main_call4_v1 : Ref sig .tc := ⟨.hbm, 229, rfl⟩
abbrev main_v138 : Ref sig .tc := ⟨.hbm, 230, rfl⟩
abbrev main_cst_43 : Ref sig .tc := ⟨.hbm, 231, rfl⟩
abbrev main_v139 : Ref sig .tc := ⟨.hbm, 232, rfl⟩
abbrev main_v140 : Ref sig .tc := ⟨.hbm, 233, rfl⟩
abbrev main_cst_44 : Ref sig .tc := ⟨.hbm, 234, rfl⟩
abbrev main_v141 : Ref sig .tc := ⟨.hbm, 235, rfl⟩
abbrev main_v142 : Ref sig .tc := ⟨.hbm, 236, rfl⟩
abbrev main_cst_45 : Ref sig .tc := ⟨.hbm, 237, rfl⟩
abbrev main_call5_v0 : Ref sig .tc := ⟨.hbm, 238, rfl⟩
abbrev main_call5_v1 : Ref sig .tc := ⟨.hbm, 239, rfl⟩
abbrev main_v143 : Ref sig .tc := ⟨.hbm, 240, rfl⟩
abbrev main_v144 : Ref sig .tc := ⟨.hbm, 241, rfl⟩
abbrev main_v145 : Ref sig .tc := ⟨.hbm, 242, rfl⟩
abbrev main_v146 : Ref sig .tc := ⟨.hbm, 243, rfl⟩
abbrev main_c_46 : Ref sig .tc := ⟨.hbm, 244, rfl⟩
abbrev main_v147 : Ref sig .tc := ⟨.hbm, 245, rfl⟩
abbrev main_v148 : Ref sig .tc := ⟨.hbm, 246, rfl⟩
abbrev main_c_47 : Ref sig .tc := ⟨.hbm, 247, rfl⟩
abbrev main_v149 : Ref sig .tc := ⟨.hbm, 248, rfl⟩
abbrev main_v150 : Ref sig .tc := ⟨.hbm, 249, rfl⟩
abbrev main_v151 : Ref sig .tc := ⟨.hbm, 250, rfl⟩
abbrev main_v152 : Ref sig .tc := ⟨.hbm, 251, rfl⟩
abbrev main_v153 : Ref sig .tc := ⟨.hbm, 252, rfl⟩
abbrev main_cst_48 : Ref sig .tc := ⟨.hbm, 253, rfl⟩
abbrev main_v154 : Ref sig .tc := ⟨.hbm, 254, rfl⟩
abbrev main_v155 : Ref sig .tc := ⟨.hbm, 255, rfl⟩
abbrev main_v156 : Ref sig .tc := ⟨.hbm, 256, rfl⟩
abbrev main_v157 : Ref sig .tc := ⟨.hbm, 257, rfl⟩
abbrev main_v158 : Ref sig .tc := ⟨.hbm, 258, rfl⟩
abbrev main_v159 : Ref sig .tc := ⟨.hbm, 259, rfl⟩
abbrev main_v160 : Ref sig .tc := ⟨.hbm, 260, rfl⟩
abbrev main_v161 : Ref sig .tc := ⟨.hbm, 261, rfl⟩
abbrev main_v162 : Ref sig .tc := ⟨.hbm, 262, rfl⟩
abbrev main_v163 : Ref sig .tc := ⟨.hbm, 263, rfl⟩
abbrev main_v164 : Ref sig .tc := ⟨.hbm, 264, rfl⟩
abbrev main_v165 : Ref sig .tc := ⟨.hbm, 265, rfl⟩
abbrev main_v166 : Ref sig .tc := ⟨.hbm, 266, rfl⟩
abbrev main_v167 : Ref sig .tc := ⟨.hbm, 267, rfl⟩
abbrev main_c_49 : Ref sig .tc := ⟨.hbm, 268, rfl⟩
abbrev main_v168 : Ref sig .tc := ⟨.hbm, 269, rfl⟩
abbrev main_v169 : Ref sig .tc := ⟨.hbm, 270, rfl⟩
abbrev main_c_50 : Ref sig .tc := ⟨.hbm, 271, rfl⟩
abbrev main_v170 : Ref sig .tc := ⟨.hbm, 272, rfl⟩
abbrev main_v171 : Ref sig .tc := ⟨.hbm, 273, rfl⟩
abbrev main_v172 : Ref sig .tc := ⟨.hbm, 274, rfl⟩
abbrev main_v173 : Ref sig .tc := ⟨.hbm, 275, rfl⟩
abbrev main_v174 : Ref sig .tc := ⟨.hbm, 276, rfl⟩
abbrev main_cst_51 : Ref sig .tc := ⟨.hbm, 277, rfl⟩
abbrev main_v175 : Ref sig .tc := ⟨.hbm, 278, rfl⟩
abbrev main_v176 : Ref sig .tc := ⟨.hbm, 279, rfl⟩
abbrev main_v177 : Ref sig .tc := ⟨.hbm, 280, rfl⟩
abbrev main_cst_52 : Ref sig .tc := ⟨.hbm, 281, rfl⟩
abbrev main_v178 : Ref sig .tc := ⟨.hbm, 282, rfl⟩
abbrev main_cst_53 : Ref sig .tc := ⟨.hbm, 283, rfl⟩
abbrev main_v179 : Ref sig .tc := ⟨.hbm, 284, rfl⟩
abbrev main_v180 : Ref sig .tc := ⟨.hbm, 285, rfl⟩
abbrev main_v181 : Ref sig .tc := ⟨.hbm, 286, rfl⟩
abbrev main_cst_54 : Ref sig .tc := ⟨.hbm, 287, rfl⟩
abbrev main_v182 : Ref sig .tc := ⟨.hbm, 288, rfl⟩
abbrev main_v183 : Ref sig .tc := ⟨.hbm, 289, rfl⟩
abbrev main_v184 : Ref sig .tc := ⟨.hbm, 290, rfl⟩
abbrev main_v185 : Ref sig .tc := ⟨.hbm, 291, rfl⟩
abbrev main_v186 : Ref sig .tc := ⟨.hbm, 292, rfl⟩
abbrev main_v187 : Ref sig .tc := ⟨.hbm, 293, rfl⟩
abbrev main_v188 : Ref sig .tc := ⟨.hbm, 294, rfl⟩
abbrev main_v189 : Ref sig .tc := ⟨.hbm, 295, rfl⟩
abbrev main_v190 : Ref sig .tc := ⟨.hbm, 296, rfl⟩
abbrev main_c_55 : Ref sig .tc := ⟨.hbm, 297, rfl⟩
abbrev main_v191 : Ref sig .tc := ⟨.hbm, 298, rfl⟩
abbrev main_v192 : Ref sig .tc := ⟨.hbm, 299, rfl⟩
abbrev main_c_56 : Ref sig .tc := ⟨.hbm, 300, rfl⟩
abbrev main_v193 : Ref sig .tc := ⟨.hbm, 301, rfl⟩
abbrev main_v194 : Ref sig .tc := ⟨.hbm, 302, rfl⟩
abbrev main_v195 : Ref sig .tc := ⟨.hbm, 303, rfl⟩
abbrev main_v196 : Ref sig .tc := ⟨.hbm, 304, rfl⟩
abbrev main_v197 : Ref sig .tc := ⟨.hbm, 305, rfl⟩
abbrev main_cst_57 : Ref sig .tc := ⟨.hbm, 306, rfl⟩
abbrev main_v198 : Ref sig .tc := ⟨.hbm, 307, rfl⟩
abbrev main_v199 : Ref sig .tc := ⟨.hbm, 308, rfl⟩
abbrev main_v200 : Ref sig .tc := ⟨.hbm, 309, rfl⟩
abbrev main_cst_58 : Ref sig .tc := ⟨.hbm, 310, rfl⟩
abbrev main_v201 : Ref sig .tc := ⟨.hbm, 311, rfl⟩
abbrev main_cst_59 : Ref sig .tc := ⟨.hbm, 312, rfl⟩
abbrev main_v202 : Ref sig .tc := ⟨.hbm, 313, rfl⟩
abbrev main_v203 : Ref sig .tc := ⟨.hbm, 314, rfl⟩
abbrev main_v204 : Ref sig .tc := ⟨.hbm, 315, rfl⟩
abbrev main_cst_60 : Ref sig .tc := ⟨.hbm, 316, rfl⟩
abbrev main_v205 : Ref sig .tc := ⟨.hbm, 317, rfl⟩
abbrev main_v206 : Ref sig .tc := ⟨.hbm, 318, rfl⟩
abbrev main_v207 : Ref sig .tc := ⟨.hbm, 319, rfl⟩
abbrev main_v208 : Ref sig .tc := ⟨.hbm, 320, rfl⟩
abbrev main_v209 : Ref sig .tc := ⟨.hbm, 321, rfl⟩
abbrev main_v210 : Ref sig .tc := ⟨.hbm, 322, rfl⟩
abbrev main_v211 : Ref sig .tc := ⟨.hbm, 323, rfl⟩
abbrev main_v212 : Ref sig .tc := ⟨.hbm, 324, rfl⟩
abbrev main_v213 : Ref sig .tc := ⟨.hbm, 325, rfl⟩
abbrev main_v214 : Ref sig .tc := ⟨.hbm, 326, rfl⟩
abbrev main_cst_61 : Ref sig .tc := ⟨.hbm, 327, rfl⟩
abbrev main_v215 : Ref sig .tc := ⟨.hbm, 328, rfl⟩
abbrev main_cst_62 : Ref sig .tc := ⟨.hbm, 329, rfl⟩
abbrev main_v216 : Ref sig .tc := ⟨.hbm, 330, rfl⟩
abbrev main_v217 : Ref sig .tc := ⟨.hbm, 331, rfl⟩
abbrev main_v218 : Ref sig .tc := ⟨.hbm, 332, rfl⟩
abbrev main_v219 : Ref sig .tc := ⟨.hbm, 333, rfl⟩
abbrev main_v220 : Ref sig .tc := ⟨.hbm, 334, rfl⟩
abbrev main_v221 : Ref sig .tc := ⟨.hbm, 335, rfl⟩
abbrev main_cst_63 : Ref sig .tc := ⟨.hbm, 336, rfl⟩
abbrev main_v222 : Ref sig .tc := ⟨.hbm, 337, rfl⟩
abbrev main_v223 : Ref sig .tc := ⟨.hbm, 338, rfl⟩
abbrev main_v224 : Ref sig .tc := ⟨.hbm, 339, rfl⟩
abbrev main_v225 : Ref sig .tc := ⟨.hbm, 340, rfl⟩
abbrev main_v226 : Ref sig .tc := ⟨.hbm, 341, rfl⟩
abbrev main_v227 : Ref sig .tc := ⟨.hbm, 342, rfl⟩
abbrev main_v228 : Ref sig .tc := ⟨.hbm, 343, rfl⟩
abbrev main_v229 : Ref sig .tc := ⟨.hbm, 344, rfl⟩
abbrev main_v230 : Ref sig .tc := ⟨.hbm, 345, rfl⟩
abbrev main_cst_64 : Ref sig .tc := ⟨.hbm, 346, rfl⟩
abbrev main_v231 : Ref sig .tc := ⟨.hbm, 347, rfl⟩
abbrev main_cst_65 : Ref sig .tc := ⟨.hbm, 348, rfl⟩
abbrev main_v232 : Ref sig .tc := ⟨.hbm, 349, rfl⟩
abbrev main_v233 : Ref sig .tc := ⟨.hbm, 350, rfl⟩
abbrev main_v234 : Ref sig .tc := ⟨.hbm, 351, rfl⟩
abbrev main_v235 : Ref sig .tc := ⟨.hbm, 352, rfl⟩
abbrev main_v236 : Ref sig .tc := ⟨.hbm, 353, rfl⟩
abbrev main_v237 : Ref sig .tc := ⟨.hbm, 354, rfl⟩
abbrev main_cst_66 : Ref sig .tc := ⟨.hbm, 355, rfl⟩
abbrev main_v238 : Ref sig .tc := ⟨.hbm, 356, rfl⟩
abbrev main_v239 : Ref sig .tc := ⟨.hbm, 357, rfl⟩
abbrev main_v240 : Ref sig .tc := ⟨.hbm, 358, rfl⟩
abbrev main_v241 : Ref sig .tc := ⟨.hbm, 359, rfl⟩
abbrev main_v242 : Ref sig .tc := ⟨.hbm, 360, rfl⟩
abbrev main_v243 : Ref sig .tc := ⟨.hbm, 361, rfl⟩
abbrev main_v244 : Ref sig .tc := ⟨.hbm, 362, rfl⟩
abbrev main_v245 : Ref sig .tc := ⟨.hbm, 363, rfl⟩
abbrev main_v246 : Ref sig .tc := ⟨.hbm, 364, rfl⟩
abbrev main_cst_67 : Ref sig .tc := ⟨.hbm, 365, rfl⟩
abbrev main_v247 : Ref sig .tc := ⟨.hbm, 366, rfl⟩
abbrev main_cst_68 : Ref sig .tc := ⟨.hbm, 367, rfl⟩
abbrev main_v248 : Ref sig .tc := ⟨.hbm, 368, rfl⟩
abbrev main_v249 : Ref sig .tc := ⟨.hbm, 369, rfl⟩
abbrev main_v250 : Ref sig .tc := ⟨.hbm, 370, rfl⟩
abbrev main_v251 : Ref sig .tc := ⟨.hbm, 371, rfl⟩
abbrev main_v252 : Ref sig .tc := ⟨.hbm, 372, rfl⟩
abbrev main_v253 : Ref sig .tc := ⟨.hbm, 373, rfl⟩
abbrev main_cst_69 : Ref sig .tc := ⟨.hbm, 374, rfl⟩
abbrev main_v254 : Ref sig .tc := ⟨.hbm, 375, rfl⟩
abbrev main_v255 : Ref sig .tc := ⟨.hbm, 376, rfl⟩
abbrev main_v256 : Ref sig .tc := ⟨.hbm, 377, rfl⟩
abbrev main_v257 : Ref sig .tc := ⟨.hbm, 378, rfl⟩
abbrev main_v258 : Ref sig .tc := ⟨.hbm, 379, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S25000x128 : S_.BroadcastsInDim S25000x128 (![] : Fin 0 → Fin S25000x128.rank)
  bcast_S_S25000 : S_.BroadcastsInDim S25000 (![] : Fin 0 → Fin S25000.rank)
  bcast_S25000_S25000x1_0 : S25000.BroadcastsInDim S25000x1 (![0] : Fin 1 → Fin S25000x1.rank)
  bcast_S25000x1_S25000x128_0_1 : S25000x1.BroadcastsInDim S25000x128 (![0, 1] : Fin 2 → Fin S25000x128.rank)
  bcast_S1x128_S25000x128_0_1 : S1x128.BroadcastsInDim S25000x128 (![0, 1] : Fin 2 → Fin S25000x128.rank)
  bcast_S_S6250x128 : S_.BroadcastsInDim S6250x128 (![] : Fin 0 → Fin S6250x128.rank)
  bcast_S_S6250 : S_.BroadcastsInDim S6250 (![] : Fin 0 → Fin S6250.rank)
  bcast_S6250_S6250x1_0 : S6250.BroadcastsInDim S6250x1 (![0] : Fin 1 → Fin S6250x1.rank)
  bcast_S6250x1_S6250x128_0_1 : S6250x1.BroadcastsInDim S6250x128 (![0, 1] : Fin 2 → Fin S6250x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S_S400000 : S_.BroadcastsInDim S400000 (![] : Fin 0 → Fin S400000.rank)
  bcast_S400000_S400000x1_0 : S400000.BroadcastsInDim S400000x1 (![0] : Fin 1 → Fin S400000x1.rank)
  bcast_S1x128_S6250x128_0_1 : S1x128.BroadcastsInDim S6250x128 (![0, 1] : Fin 2 → Fin S6250x128.rank)
  concatenates_S100000x128_S100000x128_S100000x256_d1 : Shape.Concatenates [S100000x128, S100000x128] S100000x256 1
  bcast_S5_S1x5_1 : S5.BroadcastsInDim S1x5 (![1] : Fin 1 → Fin S1x5.rank)
  bcast_S1x5_S100000x5_0_1 : S1x5.BroadcastsInDim S100000x5 (![0, 1] : Fin 2 → Fin S100000x5.rank)
  reducesTo_S100000x5_S100000_d1 : S100000x5.ReducesTo [1] S100000
  h_S_ : 0 < S_.numel
  bcast_S100000x1_S100000x5_0_1 : S100000x1.BroadcastsInDim S100000x5 (![0, 1] : Fin 2 → Fin S100000x5.rank)
  concatenates_S25000x128_S25000x128_S25000x256_d1 : Shape.Concatenates [S25000x128, S25000x128] S25000x256 1
  bcast_S1x5_S25000x5_0_1 : S1x5.BroadcastsInDim S25000x5 (![0, 1] : Fin 2 → Fin S25000x5.rank)
  reducesTo_S25000x5_S25000_d1 : S25000x5.ReducesTo [1] S25000
  bcast_S25000x1_S25000x5_0_1 : S25000x1.BroadcastsInDim S25000x5 (![0, 1] : Fin 2 → Fin S25000x5.rank)
  concatenates_S6250x128_S6250x128_S6250x256_d1 : Shape.Concatenates [S6250x128, S6250x128] S6250x256 1
  bcast_S1x5_S6250x5_0_1 : S1x5.BroadcastsInDim S6250x5 (![0, 1] : Fin 2 → Fin S6250x5.rank)
  reducesTo_S6250x5_S6250_d1 : S6250x5.ReducesTo [1] S6250
  bcast_S6250x1_S6250x5_0_1 : S6250x1.BroadcastsInDim S6250x5 (![0, 1] : Fin 2 → Fin S6250x5.rank)
  concatenates_S100000x5_S25000x5_S6250x5_S131250x5_d0 : Shape.Concatenates [S100000x5, S25000x5, S6250x5] S131250x5 0
  dot_S100000x32_S32x128_S100000x128_1_0_0_1_n_n_wf : DotDims.WF S100000x32 S32x128 S100000x128 [1] [0] [0] [1] [] []
  dot_S100000x128_S128x128_S100000x128_1_0_0_1_n_n_wf : DotDims.WF S100000x128 S128x128 S100000x128 [1] [0] [0] [1] [] []
  gather_S100000x128_S100000x1_S100000x128_1_0_n_n_0_1_1128_wf : GatherDims.WF S100000x128 S100000x1 S100000x128 [1] [0] [] [0] [] 1 ![1, 128]
  scatter_S25000x128_S100000x1_S100000x128_1_0_0_1_wf : ScatterDims.WF S25000x128 S100000x1 S100000x128 [1] [0] [0] 1
  scatter_S25000_S100000x1_S100000_n_0_0_1_wf : ScatterDims.WF S25000 S100000x1 S100000 [] [0] [0] 1
  dot_S25000x128_S128x128_S25000x128_1_0_0_1_n_n_wf : DotDims.WF S25000x128 S128x128 S25000x128 [1] [0] [0] [1] [] []
  gather_S25000x128_S25000x1_S25000x128_1_0_n_n_0_1_1128_wf : GatherDims.WF S25000x128 S25000x1 S25000x128 [1] [0] [] [0] [] 1 ![1, 128]
  scatter_S6250x128_S25000x1_S25000x128_1_0_0_1_wf : ScatterDims.WF S6250x128 S25000x1 S25000x128 [1] [0] [0] 1
  scatter_S6250_S25000x1_S25000_n_0_0_1_wf : ScatterDims.WF S6250 S25000x1 S25000 [] [0] [0] 1
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S25000_S400000x1_S400000_n_0_0_1_wf : ScatterDims.WF S25000 S400000x1 S400000 [] [0] [0] 1
  gather_S25000x128_S400000x1_S400000x128_1_0_n_n_0_1_1128_wf : GatherDims.WF S25000x128 S400000x1 S400000x128 [1] [0] [] [0] [] 1 ![1, 128]
  scatter_S25000x128_S400000x1_S400000x128_1_0_0_1_wf : ScatterDims.WF S25000x128 S400000x1 S400000x128 [1] [0] [0] 1
  scatter_S6250_S100000x1_S100000_n_0_0_1_wf : ScatterDims.WF S6250 S100000x1 S100000 [] [0] [0] 1
  gather_S6250x128_S100000x1_S100000x128_1_0_n_n_0_1_1128_wf : GatherDims.WF S6250x128 S100000x1 S100000x128 [1] [0] [] [0] [] 1 ![1, 128]
  scatter_S6250x128_S100000x1_S100000x128_1_0_0_1_wf : ScatterDims.WF S6250x128 S100000x1 S100000x128 [1] [0] [0] 1
  dot_S6250x128_S128x128_S6250x128_1_0_0_1_n_n_wf : DotDims.WF S6250x128 S128x128 S6250x128 [1] [0] [0] [1] [] []
  scatter_S100000x128_S400000x1_S400000x128_1_0_0_1_wf : ScatterDims.WF S100000x128 S400000x1 S400000x128 [1] [0] [0] 1
  scatter_S100000_S400000x1_S400000_n_0_0_1_wf : ScatterDims.WF S100000 S400000x1 S400000 [] [0] [0] 1
  dot_S100000x256_S256x5_S100000x5_1_0_0_1_n_n_wf : DotDims.WF S100000x256 S256x5 S100000x5 [1] [0] [0] [1] [] []
  dot_S25000x256_S256x5_S25000x5_1_0_0_1_n_n_wf : DotDims.WF S25000x256 S256x5 S25000x5 [1] [0] [0] [1] [] []
  dot_S6250x256_S256x5_S6250x5_1_0_0_1_n_n_wf : DotDims.WF S6250x256 S256x5 S6250x5 [1] [0] [0] [1] [] []

variable [Facts₀]

def dot_S100000x32_S32x128_S100000x128_1_0_0_1_n_n : DotDims S100000x32 S32x128 S100000x128 where
  lhsContracting := [1]
  rhsContracting := [0]
  lhsNonContracting := [0]
  rhsNonContracting := [1]
  lhsBatch := []
  rhsBatch := []
  wf := dot_S100000x32_S32x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def scatter_S25000x128_S100000x1_S100000x128_1_0_0_1 : ScatterDims S25000x128 S100000x1 S100000x128 where
  updateWindowDims := [1]
  insertedWindowDims := [0]
  scatterDimsToOperandDims := [0]
  indexVectorDim := 1
  wf := scatter_S25000x128_S100000x1_S100000x128_1_0_0_1_wf
def scatter_S25000_S100000x1_S100000_n_0_0_1 : ScatterDims S25000 S100000x1 S100000 where
  updateWindowDims := []
  insertedWindowDims := [0]
  scatterDimsToOperandDims := [0]
  indexVectorDim := 1
  wf := scatter_S25000_S100000x1_S100000_n_0_0_1_wf
def dot_S25000x128_S128x128_S25000x128_1_0_0_1_n_n : DotDims S25000x128 S128x128 S25000x128 where
  lhsContracting := [1]
  rhsContracting := [0]
  lhsNonContracting := [0]
  rhsNonContracting := [1]
  lhsBatch := []
  rhsBatch := []
  wf := dot_S25000x128_S128x128_S25000x128_1_0_0_1_n_n_wf
def gather_S25000x128_S25000x1_S25000x128_1_0_n_n_0_1_1128 : GatherDims S25000x128 S25000x1 S25000x128 where
  offsetDims := [1]
  collapsedSliceDims := [0]
  operandBatchingDims := []
  startIndicesBatchingDims := []
  startIndexMap := [0]
  indexVectorDim := 1
  sliceSizes := ![1, 128]
  wf := gather_S25000x128_S25000x1_S25000x128_1_0_n_n_0_1_1128_wf
def scatter_S6250x128_S25000x1_S25000x128_1_0_0_1 : ScatterDims S6250x128 S25000x1 S25000x128 where
  updateWindowDims := [1]
  insertedWindowDims := [0]
  scatterDimsToOperandDims := [0]
  indexVectorDim := 1
  wf := scatter_S6250x128_S25000x1_S25000x128_1_0_0_1_wf
def scatter_S6250_S25000x1_S25000_n_0_0_1 : ScatterDims S6250 S25000x1 S25000 where
  updateWindowDims := []
  insertedWindowDims := [0]
  scatterDimsToOperandDims := [0]
  indexVectorDim := 1
  wf := scatter_S6250_S25000x1_S25000_n_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S25000_S400000x1_S400000_n_0_0_1 : ScatterDims S25000 S400000x1 S400000 where
  updateWindowDims := []
  insertedWindowDims := [0]
  scatterDimsToOperandDims := [0]
  indexVectorDim := 1
  wf := scatter_S25000_S400000x1_S400000_n_0_0_1_wf
def gather_S25000x128_S400000x1_S400000x128_1_0_n_n_0_1_1128 : GatherDims S25000x128 S400000x1 S400000x128 where
  offsetDims := [1]
  collapsedSliceDims := [0]
  operandBatchingDims := []
  startIndicesBatchingDims := []
  startIndexMap := [0]
  indexVectorDim := 1
  sliceSizes := ![1, 128]
  wf := gather_S25000x128_S400000x1_S400000x128_1_0_n_n_0_1_1128_wf
def scatter_S25000x128_S400000x1_S400000x128_1_0_0_1 : ScatterDims S25000x128 S400000x1 S400000x128 where
  updateWindowDims := [1]
  insertedWindowDims := [0]
  scatterDimsToOperandDims := [0]
  indexVectorDim := 1
  wf := scatter_S25000x128_S400000x1_S400000x128_1_0_0_1_wf
def scatter_S6250_S100000x1_S100000_n_0_0_1 : ScatterDims S6250 S100000x1 S100000 where
  updateWindowDims := []
  insertedWindowDims := [0]
  scatterDimsToOperandDims := [0]
  indexVectorDim := 1
  wf := scatter_S6250_S100000x1_S100000_n_0_0_1_wf
def gather_S6250x128_S100000x1_S100000x128_1_0_n_n_0_1_1128 : GatherDims S6250x128 S100000x1 S100000x128 where
  offsetDims := [1]
  collapsedSliceDims := [0]
  operandBatchingDims := []
  startIndicesBatchingDims := []
  startIndexMap := [0]
  indexVectorDim := 1
  sliceSizes := ![1, 128]
  wf := gather_S6250x128_S100000x1_S100000x128_1_0_n_n_0_1_1128_wf
def scatter_S6250x128_S100000x1_S100000x128_1_0_0_1 : ScatterDims S6250x128 S100000x1 S100000x128 where
  updateWindowDims := [1]
  insertedWindowDims := [0]
  scatterDimsToOperandDims := [0]
  indexVectorDim := 1
  wf := scatter_S6250x128_S100000x1_S100000x128_1_0_0_1_wf
def dot_S6250x128_S128x128_S6250x128_1_0_0_1_n_n : DotDims S6250x128 S128x128 S6250x128 where
  lhsContracting := [1]
  rhsContracting := [0]
  lhsNonContracting := [0]
  rhsNonContracting := [1]
  lhsBatch := []
  rhsBatch := []
  wf := dot_S6250x128_S128x128_S6250x128_1_0_0_1_n_n_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def dot_S100000x256_S256x5_S100000x5_1_0_0_1_n_n : DotDims S100000x256 S256x5 S100000x5 where
  lhsContracting := [1]
  rhsContracting := [0]
  lhsNonContracting := [0]
  rhsNonContracting := [1]
  lhsBatch := []
  rhsBatch := []
  wf := dot_S100000x256_S256x5_S100000x5_1_0_0_1_n_n_wf
def dot_S25000x256_S256x5_S25000x5_1_0_0_1_n_n : DotDims S25000x256 S256x5 S25000x5 where
  lhsContracting := [1]
  rhsContracting := [0]
  lhsNonContracting := [0]
  rhsNonContracting := [1]
  lhsBatch := []
  rhsBatch := []
  wf := dot_S25000x256_S256x5_S25000x5_1_0_0_1_n_n_wf
def dot_S6250x256_S256x5_S6250x5_1_0_0_1_n_n : DotDims S6250x256 S256x5 S6250x5 where
  lhsContracting := [1]
  rhsContracting := [0]
  lhsNonContracting := [0]
  rhsNonContracting := [1]
  lhsBatch := []
  rhsBatch := []
  wf := dot_S6250x256_S256x5_S6250x5_1_0_0_1_n_n_wf

class Facts : Prop extends Facts₀ where

variable [Facts]
-- ==== Proof.K.Def0.lean ====
/-
  A linear layer's region (a block of rows of the input features times the whole weight matrix, plus the bias row),
  as data: what each window's block is at a grid point, what the body's one store leaves in the output window's buffer
  as a function of the three input blocks, and the pipeline's proof data built from them. The contents the region is
  entered with are a parameter.
-/
import proofs.«162078_j40114994545134_1_alg».proof.Proof.Gen.Kernel.Launch
import proofs.«162078_j40114994545134_1_alg».proof.Proof.Gen.Kernel.Skeleton
import proofs.«162078_j40114994545134_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev r0_x : Rect S10000x32 := Rect.unit (s := S10000x32) ![0, 0] S10000x32.size inb_S10000x32_S10000x32_0_0
abbrev r0_w : Rect S32x128 := Rect.unit (s := S32x128) ![0, 0] S32x128.size inb_S32x128_S32x128_0_0
abbrev r0_b : Rect S1x128 := Rect.unit (s := S1x128) ![0, 0] S1x128.size inb_S1x128_S1x128_0_0
abbrev r0_o : Rect S10000x128 := Rect.unit (s := S10000x128) ![0, 0] S10000x128.size inb_S10000x128_S10000x128_0_0

/-- The output window's buffer after the body: its one store, of the product-plus-bias of the three loaded blocks. -/
def out0_3 (x0 : Vec F S10000x32 .f32) (x1 : Vec F S32x128 .f32) (x2 : Vec F S1x128 .f32) : Vec F S10000x128 .f32 :=
  View.canon [⟨r0_o, k0_pay1 (View.ld x0 r0_x) (View.ld x1 r0_w) (View.ld x2 r0_b)⟩]

/-- The proof data: the arrays as entered; after the body each input's buffer at its block, the output's at `out0_3` of
    the input blocks; the untouched scoped rest as invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

end Cert.Kernel.Hand

end
-- ==== Proof.K.Def1.lean ====
/-
  A linear layer's region (a block of rows of the input features times the whole weight matrix, plus the bias row),
  as data: what each window's block is at a grid point, what the body's one store leaves in the output window's buffer
  as a function of the three input blocks, and the pipeline's proof data built from them. The contents the region is
  entered with are a parameter.
-/
import proofs.«162078_j40114994545134_1_alg».proof.Proof.Gen.Kernel.Launch
import proofs.«162078_j40114994545134_1_alg».proof.Proof.Gen.Kernel.Skeleton
import proofs.«162078_j40114994545134_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles the body loads and stores through. -/
abbrev r1_x : Rect S10000x128 := Rect.unit (s := S10000x128) ![0, 0] S10000x128.size inb_S10000x128_S10000x128_0_0
abbrev r1_w : Rect S128x128 := Rect.unit (s := S128x128) ![0, 0] S128x128.size inb_S128x128_S128x128_0_0
abbrev r1_b : Rect S1x128 := Rect.unit (s := S1x128) ![0, 0] S1x128.size inb_S1x128_S1x128_0_0
abbrev r1_o : Rect S10000x128 := Rect.unit (s := S10000x128) ![0, 0] S10000x128.size inb_S10000x128_S10000x128_0_0

/-- The output window's buffer after the body: its one store, of the product-plus-bias of the three loaded blocks. -/
def out1_3 (x0 : Vec F S10000x128 .f32) (x1 : Vec F S128x128 .f32) (x2 : Vec F S1x128 .f32) : Vec F S10000x128 .f32 :=
  View.canon [⟨r1_o, k1_pay1 (View.ld x0 r1_x) (View.ld x1 r1_w) (View.ld x2 r1_b)⟩]

/-- The proof data: the arrays as entered; after the body each input's buffer at its block, the output's at `out1_3` of
    the input blocks; the untouched scoped rest as invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

end Cert.Kernel.Hand

end
-- ==== Proof.K.Def2.lean ====
/-
  A linear layer's region (a block of rows of the input features times the whole weight matrix, plus the bias row),
  as data: what each window's block is at a grid point, what the body's one store leaves in the output window's buffer
  as a function of the three input blocks, and the pipeline's proof data built from them. The contents the region is
  entered with are a parameter.
-/
import proofs.«162078_j40114994545134_1_alg».proof.Proof.Gen.Kernel.Launch
import proofs.«162078_j40114994545134_1_alg».proof.Proof.Gen.Kernel.Skeleton
import proofs.«162078_j40114994545134_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole-buffer rectangles the body loads and stores through. -/
abbrev r2_x : Rect S5000x128 := Rect.unit (s := S5000x128) ![0, 0] S5000x128.size inb_S5000x128_S5000x128_0_0
abbrev r2_w : Rect S128x128 := Rect.unit (s := S128x128) ![0, 0] S128x128.size inb_S128x128_S128x128_0_0
abbrev r2_b : Rect S1x128 := Rect.unit (s := S1x128) ![0, 0] S1x128.size inb_S1x128_S1x128_0_0
abbrev r2_o : Rect S5000x128 := Rect.unit (s := S5000x128) ![0, 0] S5000x128.size inb_S5000x128_S5000x128_0_0

/-- The output window's buffer after the body: its one store, of the product-plus-bias of the three loaded blocks. -/
def out2_3 (x0 : Vec F S5000x128 .f32) (x1 : Vec F S128x128 .f32) (x2 : Vec F S1x128 .f32) : Vec F S5000x128 .f32 :=
  View.canon [⟨r2_o, k2_pay1 (View.ld x0 r2_x) (View.ld x1 r2_w) (View.ld x2 r2_b)⟩]

/-- The proof data: the arrays as entered; after the body each input's buffer at its block, the output's at `out2_3` of
    the input blocks; the untouched scoped rest as invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

end Cert.Kernel.Hand

end
-- ==== Proof.K.Def3.lean ====
/-
  A graph-convolution layer's region (a block of rows of aggregated features, each row scaled by its node's in-degree
  factor, times the whole weight matrix, plus the bias row), as data: the windows' blocks at a grid point, what the
  body's one store leaves in the output window's buffer as a function of the four input blocks, and the pipeline's
  proof data built from them. The contents the region is entered with are a parameter.
-/
import proofs.«162078_j40114994545134_1_alg».proof.Proof.Gen.Kernel.Launch
import proofs.«162078_j40114994545134_1_alg».proof.Proof.Gen.Kernel.Skeleton
import proofs.«162078_j40114994545134_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The whole-buffer rectangles the body loads and stores through. -/
abbrev r3_x : Rect S10000x128 := Rect.unit (s := S10000x128) ![0, 0] S10000x128.size inb_S10000x128_S10000x128_0_0
abbrev r3_s : Rect S10000x1 := Rect.unit (s := S10000x1) ![0, 0] S10000x1.size inb_S10000x1_S10000x1_0_0
abbrev r3_w : Rect S128x128 := Rect.unit (s := S128x128) ![0, 0] S128x128.size inb_S128x128_S128x128_0_0
abbrev r3_b : Rect S1x128 := Rect.unit (s := S1x128) ![0, 0] S1x128.size inb_S1x128_S1x128_0_0

/-- The output window's buffer after the body: its one store, of the scaled product plus bias of the four loaded blocks. -/
def out3_4 (x0 : Vec F S10000x128 .f32) (x1 : Vec F S10000x1 .f32) (x2 : Vec F S128x128 .f32) (x3 : Vec F S1x128 .f32) :
    Vec F S10000x128 .f32 :=
  View.canon [⟨r3_x, k3_pay1 (View.ld x0 r3_x) (View.ld x1 r3_s) (View.ld x2 r3_w) (View.ld x3 r3_b)⟩]

/-- The proof data: the arrays as entered; after the body each input's buffer at its block, the output's at `out3_4` of
    the input blocks; the untouched scoped rest as invariant; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by dsimp only [dat3]

end Cert.Kernel.Hand

end
-- ==== Proof.K.Def4.lean ====
/-
  A graph-convolution layer's region (a block of rows of aggregated features, each row scaled by its node's in-degree
  factor, times the whole weight matrix, plus the bias row), as data: the windows' blocks at a grid point, what the
  body's one store leaves in the output window's buffer as a function of the four input blocks, and the pipeline's
  proof data built from them. The contents the region is entered with are a parameter.
-/
import proofs.«162078_j40114994545134_1_alg».proof.Proof.Gen.Kernel.Launch
import proofs.«162078_j40114994545134_1_alg».proof.Proof.Gen.Kernel.Skeleton
import proofs.«162078_j40114994545134_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The whole-buffer rectangles the body loads and stores through. -/
abbrev r4_x : Rect S5000x128 := Rect.unit (s := S5000x128) ![0, 0] S5000x128.size inb_S5000x128_S5000x128_0_0
abbrev r4_s : Rect S5000x1 := Rect.unit (s := S5000x1) ![0, 0] S5000x1.size inb_S5000x1_S5000x1_0_0
abbrev r4_w : Rect S128x128 := Rect.unit (s := S128x128) ![0, 0] S128x128.size inb_S128x128_S128x128_0_0
abbrev r4_b : Rect S1x128 := Rect.unit (s := S1x128) ![0, 0] S1x128.size inb_S1x128_S1x128_0_0

/-- The output window's buffer after the body: its one store, of the scaled product plus bias of the four loaded blocks. -/
def out4_4 (x0 : Vec F S5000x128 .f32) (x1 : Vec F S5000x1 .f32) (x2 : Vec F S128x128 .f32) (x3 : Vec F S1x128 .f32) :
    Vec F S5000x128 .f32 :=
  View.canon [⟨r4_x, k4_pay1 (View.ld x0 r4_x) (View.ld x1 r4_s) (View.ld x2 r4_w) (View.ld x3 r4_b)⟩]

/-- The proof data: the arrays as entered; after the body each input's buffer at its block, the output's at `out4_4` of
    the input blocks; the untouched scoped rest as invariant; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = out4_4 (iblk4 V c 0 t) (iblk4 V c 1 t) (iblk4 V c 2 t) (iblk4 V c 3 t) := by dsimp only [dat4]

end Cert.Kernel.Hand

end
-- ==== Proof.K.Def5.lean ====
/-
  A graph-convolution layer's region (a block of rows of aggregated features, each row scaled by its node's in-degree
  factor, times the whole weight matrix, plus the bias row), as data: the windows' blocks at a grid point, what the
  body's one store leaves in the output window's buffer as a function of the four input blocks, and the pipeline's
  proof data built from them. The contents the region is entered with are a parameter.
-/
import proofs.«162078_j40114994545134_1_alg».proof.Proof.Gen.Kernel.Launch
import proofs.«162078_j40114994545134_1_alg».proof.Proof.Gen.Kernel.Skeleton
import proofs.«162078_j40114994545134_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The whole-buffer rectangles the body loads and stores through. -/
abbrev r5_x : Rect S6250x128 := Rect.unit (s := S6250x128) ![0, 0] S6250x128.size inb_S6250x128_S6250x128_0_0
abbrev r5_s : Rect S6250x1 := Rect.unit (s := S6250x1) ![0, 0] S6250x1.size inb_S6250x1_S6250x1_0_0
abbrev r5_w : Rect S128x128 := Rect.unit (s := S128x128) ![0, 0] S128x128.size inb_S128x128_S128x128_0_0
abbrev r5_b : Rect S1x128 := Rect.unit (s := S1x128) ![0, 0] S1x128.size inb_S1x128_S1x128_0_0

/-- The output window's buffer after the body: its one store, of the scaled product plus bias of the four loaded blocks. -/
def out5_4 (x0 : Vec F S6250x128 .f32) (x1 : Vec F S6250x1 .f32) (x2 : Vec F S128x128 .f32) (x3 : Vec F S1x128 .f32) :
    Vec F S6250x128 .f32 :=
  View.canon [⟨r5_x, k5_pay1 (View.ld x0 r5_x) (View.ld x1 r5_s) (View.ld x2 r5_w) (View.ld x3 r5_b)⟩]

/-- The proof data: the arrays as entered; after the body each input's buffer at its block, the output's at `out5_4` of
    the input blocks; the untouched scoped rest as invariant; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) :
    (dat5 V c).after 4 t = out5_4 (iblk5 V c 0 t) (iblk5 V c 1 t) (iblk5 V c 2 t) (iblk5 V c 3 t) := by dsimp only [dat5]

end Cert.Kernel.Hand

end
-- ==== Proof.K.Def6.lean ====
/-
  A linear layer's region (a block of rows of the input features times the whole weight matrix, plus the bias row),
  as data: what each window's block is at a grid point, what the body's one store leaves in the output window's buffer
  as a function of the three input blocks, and the pipeline's proof data built from them. The contents the region is
  entered with are a parameter.
-/
import proofs.«162078_j40114994545134_1_alg».proof.Proof.Gen.Kernel.Launch
import proofs.«162078_j40114994545134_1_alg».proof.Proof.Gen.Kernel.Skeleton
import proofs.«162078_j40114994545134_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The whole-buffer rectangles the body loads and stores through. -/
abbrev r6_x : Rect S6250x128 := Rect.unit (s := S6250x128) ![0, 0] S6250x128.size inb_S6250x128_S6250x128_0_0
abbrev r6_w : Rect S128x128 := Rect.unit (s := S128x128) ![0, 0] S128x128.size inb_S128x128_S128x128_0_0
abbrev r6_b : Rect S1x128 := Rect.unit (s := S1x128) ![0, 0] S1x128.size inb_S1x128_S1x128_0_0
abbrev r6_o : Rect S6250x128 := Rect.unit (s := S6250x128) ![0, 0] S6250x128.size inb_S6250x128_S6250x128_0_0

/-- The output window's buffer after the body: its one store, of the product-plus-bias of the three loaded blocks. -/
def out6_3 (x0 : Vec F S6250x128 .f32) (x1 : Vec F S128x128 .f32) (x2 : Vec F S1x128 .f32) : Vec F S6250x128 .f32 :=
  View.canon [⟨r6_o, k6_pay1 (View.ld x0 r6_x) (View.ld x1 r6_w) (View.ld x2 r6_b)⟩]

/-- The proof data: the arrays as entered; after the body each input's buffer at its block, the output's at `out6_3` of
    the input blocks; the untouched scoped rest as invariant; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6_3 (iblk6 V c 0 t) (iblk6 V c 1 t) (iblk6 V c 2 t) := by dsimp only [dat6]

end Cert.Kernel.Hand

end
-- ==== Proof.K.Def7.lean ====
/-
  A linear layer's region (a block of rows of the input features times the whole weight matrix, plus the bias row),
  as data: what each window's block is at a grid point, what the body's one store leaves in the output window's buffer
  as a function of the three input blocks, and the pipeline's proof data built from them. The contents the region is
  entered with are a parameter.
-/
import proofs.«162078_j40114994545134_1_alg».proof.Proof.Gen.Kernel.Launch
import proofs.«162078_j40114994545134_1_alg».proof.Proof.Gen.Kernel.Skeleton
import proofs.«162078_j40114994545134_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The whole-buffer rectangles the body loads and stores through. -/
abbrev r7_x : Rect S5000x128 := Rect.unit (s := S5000x128) ![0, 0] S5000x128.size inb_S5000x128_S5000x128_0_0
abbrev r7_w : Rect S128x128 := Rect.unit (s := S128x128) ![0, 0] S128x128.size inb_S128x128_S128x128_0_0
abbrev r7_b : Rect S1x128 := Rect.unit (s := S1x128) ![0, 0] S1x128.size inb_S1x128_S1x128_0_0
abbrev r7_o : Rect S5000x128 := Rect.unit (s := S5000x128) ![0, 0] S5000x128.size inb_S5000x128_S5000x128_0_0

/-- The output window's buffer after the body: its one store, of the product-plus-bias of the three loaded blocks. -/
def out7_3 (x0 : Vec F S5000x128 .f32) (x1 : Vec F S128x128 .f32) (x2 : Vec F S1x128 .f32) : Vec F S5000x128 .f32 :=
  View.canon [⟨r7_o, k7_pay1 (View.ld x0 r7_x) (View.ld x1 r7_w) (View.ld x2 r7_b)⟩]

/-- The proof data: the arrays as entered; after the body each input's buffer at its block, the output's at `out7_3` of
    the input blocks; the untouched scoped rest as invariant; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) :
    (dat7 V c).after 3 t = out7_3 (iblk7 V c 0 t) (iblk7 V c 1 t) (iblk7 V c 2 t) := by dsimp only [dat7]

end Cert.Kernel.Hand

end
-- ==== Proof.K.Def8.lean ====
/-
  An output head's region (a block of rows of graph-convolution features and one of decoded features, each times its
  half of the head weight, summed with the bias row, then a softmax along each row), as data: the windows' blocks at a
  grid point, what the body's one store leaves in the output window's buffer as a function of the five input blocks,
  and the pipeline's proof data built from them. The contents the region is entered with are a parameter.
-/
import proofs.«162078_j40114994545134_1_alg».proof.Proof.Gen.Kernel.Launch
import proofs.«162078_j40114994545134_1_alg».proof.Proof.Gen.Kernel.Skeleton
import proofs.«162078_j40114994545134_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The whole-buffer rectangles the body loads and stores through. -/
abbrev r8_x : Rect S10000x128 := Rect.unit (s := S10000x128) ![0, 0] S10000x128.size inb_S10000x128_S10000x128_0_0
abbrev r8_w : Rect S128x5 := Rect.unit (s := S128x5) ![0, 0] S128x5.size inb_S128x5_S128x5_0_0
abbrev r8_b : Rect S1x5 := Rect.unit (s := S1x5) ![0, 0] S1x5.size inb_S1x5_S1x5_0_0
abbrev r8_o : Rect S10000x5 := Rect.unit (s := S10000x5) ![0, 0] S10000x5.size inb_S10000x5_S10000x5_0_0

/-- The output window's buffer after the body: its one store, the row softmax of the two products plus bias. -/
def out8_5 (x0 x1 : Vec F S10000x128 .f32) (x2 x3 : Vec F S128x5 .f32) (x4 : Vec F S1x5 .f32) : Vec F S10000x5 .f32 :=
  View.canon [⟨r8_o, k8_pay1 (View.ld x0 r8_x) (View.ld x1 r8_x) (View.ld x2 r8_w) (View.ld x3 r8_w) (View.ld x4 r8_b)⟩]

/-- The proof data: the arrays as entered; after the body each input's buffer at its block, the output's at `out8_5` of
    the input blocks; the untouched scoped rest as invariant; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) :
    (dat8 V c).after 5 t = out8_5 (iblk8 V c 0 t) (iblk8 V c 1 t) (iblk8 V c 2 t) (iblk8 V c 3 t) (iblk8 V c 4 t) := by
  dsimp only [dat8]

end Cert.Kernel.Hand

end
-- ==== Proof.K.Def9.lean ====
/-
  An output head's region (a block of rows of graph-convolution features and one of decoded features, each times its
  half of the head weight, summed with the bias row, then a softmax along each row), as data: the windows' blocks at a
  grid point, what the body's one store leaves in the output window's buffer as a function of the five input blocks,
  and the pipeline's proof data built from them. The contents the region is entered with are a parameter.
-/
import proofs.«162078_j40114994545134_1_alg».proof.Proof.Gen.Kernel.Launch
import proofs.«162078_j40114994545134_1_alg».proof.Proof.Gen.Kernel.Skeleton
import proofs.«162078_j40114994545134_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The whole-buffer rectangles the body loads and stores through. -/
abbrev r9_x : Rect S5000x128 := Rect.unit (s := S5000x128) ![0, 0] S5000x128.size inb_S5000x128_S5000x128_0_0
abbrev r9_w : Rect S128x5 := Rect.unit (s := S128x5) ![0, 0] S128x5.size inb_S128x5_S128x5_0_0
abbrev r9_b : Rect S1x5 := Rect.unit (s := S1x5) ![0, 0] S1x5.size inb_S1x5_S1x5_0_0
abbrev r9_o : Rect S5000x5 := Rect.unit (s := S5000x5) ![0, 0] S5000x5.size inb_S5000x5_S5000x5_0_0

/-- The output window's buffer after the body: its one store, the row softmax of the two products plus bias. -/
def out9_5 (x0 x1 : Vec F S5000x128 .f32) (x2 x3 : Vec F S128x5 .f32) (x4 : Vec F S1x5 .f32) : Vec F S5000x5 .f32 :=
  View.canon [⟨r9_o, k9_pay1 (View.ld x0 r9_x) (View.ld x1 r9_x) (View.ld x2 r9_w) (View.ld x3 r9_w) (View.ld x4 r9_b)⟩]

/-- The proof data: the arrays as entered; after the body each input's buffer at its block, the output's at `out9_5` of
    the input blocks; the untouched scoped rest as invariant; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) :
    (dat9 V c).after 5 t = out9_5 (iblk9 V c 0 t) (iblk9 V c 1 t) (iblk9 V c 2 t) (iblk9 V c 3 t) (iblk9 V c 4 t) := by
  dsimp only [dat9]

end Cert.Kernel.Hand

end
-- ==== Proof.K.Def10.lean ====
/-
  The coarsest scale's output head, as data. Its first two windows stage blocks of ONE array (the head is applied to the
  same features on both sides: a block of rows times one half of the head weight, the same block times the other half,
  summed with the bias row, then a softmax along each row). The windows' blocks at a grid point, what the body's one
  store leaves in the output window's buffer as a function of the five input blocks, and the pipeline's proof data
  built from them; the contents the region is entered with are a parameter. The two windows on the shared array hold
  it at the two halves of the full share, which compose to the full share; every other input array, and the output's,
  is held whole.
-/
import proofs.«162078_j40114994545134_1_alg».proof.Proof.Gen.Kernel.Launch
import proofs.«162078_j40114994545134_1_alg».proof.Proof.Gen.Kernel.Skeleton
import proofs.«162078_j40114994545134_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- The whole-buffer rectangles the body loads and stores through. -/
abbrev r10_x : Rect S6250x128 := Rect.unit (s := S6250x128) ![0, 0] S6250x128.size inb_S6250x128_S6250x128_0_0
abbrev r10_w : Rect S128x5 := Rect.unit (s := S128x5) ![0, 0] S128x5.size inb_S128x5_S128x5_0_0
abbrev r10_b : Rect S1x5 := Rect.unit (s := S1x5) ![0, 0] S1x5.size inb_S1x5_S1x5_0_0
abbrev r10_o : Rect S6250x5 := Rect.unit (s := S6250x5) ![0, 0] S6250x5.size inb_S6250x5_S6250x5_0_0

/-- The output window's buffer after the body: its one store, the row softmax of the two products plus bias. -/
def out10_5 (x0 x1 : Vec F S6250x128 .f32) (x2 x3 : Vec F S128x5 .f32) (x4 : Vec F S1x5 .f32) : Vec F S6250x5 .f32 :=
  View.canon [⟨r10_o, k10_pay1 (View.ld x0 r10_x) (View.ld x1 r10_x) (View.ld x2 r10_w) (View.ld x3 r10_w) (View.ld x4 r10_b)⟩]

/-- The proof data: the arrays as entered; after the body each input's buffer at its block, the output's at `out10_5` of
    the input blocks; the untouched scoped rest as invariant; nothing owed; the shared array's full share dealt in
    halves to the two windows on it, the other input arrays at the full share. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => out10_5 (iblk10 V c 0 t) (iblk10 V c 1 t) (iblk10 V c 2 t) (iblk10 V c 3 t) (iblk10 V c 4 t)
  Φ _ := Pipeline.ΦA spec10 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) :
    (dat10 V c).after 5 t = out10_5 (iblk10 V c 0 t) (iblk10 V c 1 t) (iblk10 V c 2 t) (iblk10 V c 3 t) (iblk10 V c 4 t) := by
  dsimp only [dat10]

/-- The share each array is held at: the two halves for the two windows on the shared array, full elsewhere (an
    output's is full by definition). -/
theorem share10_0 (c : Dev nD) : (dat10 V c).share 0 = fullShare.left := by
  unfold Dat.share; rw [if_neg (by decide)]; dsimp only [dat10]
theorem share10_1 (c : Dev nD) : (dat10 V c).share 1 = fullShare.right := by
  unfold Dat.share; rw [if_neg (by decide)]; dsimp only [dat10]
theorem share10_2 (c : Dev nD) : (dat10 V c).share 2 = fullShare := by
  unfold Dat.share; rw [if_neg (by decide)]; dsimp only [dat10]
theorem share10_3 (c : Dev nD) : (dat10 V c).share 3 = fullShare := by
  unfold Dat.share; rw [if_neg (by decide)]; dsimp only [dat10]
theorem share10_4 (c : Dev nD) : (dat10 V c).share 4 = fullShare := by
  unfold Dat.share; rw [if_neg (by decide)]; dsimp only [dat10]
theorem share10_5 (c : Dev nD) : (dat10 V c).share 5 = fullShare := by
  unfold Dat.share; rw [if_pos (by decide)]

end Cert.Kernel.Hand

end
-- ==== Proof.K.RegionsP.lean ====
import proofs.«162078_j40114994545134_1_alg».proof.Proof.Gen.Kernel.Launch
import Idealize.ShloMosaic.Lib.Pipeline.Frame
import Idealize.ShloMosaic.Lib.Pipeline.Regions

set_option maxRecDepth 2056

noncomputable section

namespace Cert.Kernel.GenP

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

abbrev Outs : Type := ℕ → (r : Ref sig .tc) → (c : Dev nD) → Buf (Elt F) ((c : Thread nD τ).loc r)

variable (m : (ℓ : Loc nD τ sig) → Buf (Elt F) ℓ) (outs : Outs (F := F))

abbrev V0 (c : Dev nD) : Valuation τ sig (Elt F) := fun b => m (c, b)

abbrev V1 (c : Dev nD) : Valuation τ sig (Elt F) := StableHlo.after hostOps0 (V0 m c)

abbrev V2 (c : Dev nD) : Valuation τ sig (Elt F) := Function.update (V1 m c) main_v1 (outs 2 main_v1 c)

abbrev V3 (c : Dev nD) : Valuation τ sig (Elt F) := StableHlo.after hostOps1 (V2 m outs c)

abbrev V4 (c : Dev nD) : Valuation τ sig (Elt F) := Function.update (V3 m outs c) main_v3 (outs 4 main_v3 c)

abbrev V5 (c : Dev nD) : Valuation τ sig (Elt F) := StableHlo.after hostOps2 (V4 m outs c)

abbrev V6 (c : Dev nD) : Valuation τ sig (Elt F) := Function.update (V5 m outs c) main_v24 (outs 6 main_v24 c)

abbrev V7 (c : Dev nD) : Valuation τ sig (Elt F) := StableHlo.after hostOps3 (V6 m outs c)

abbrev V8 (c : Dev nD) : Valuation τ sig (Elt F) := StableHlo.after hostOps3_1 (V7 m outs c)

abbrev V9 (c : Dev nD) : Valuation τ sig (Elt F) := StableHlo.after hostOps3_2 (V8 m outs c)

abbrev V10 (c : Dev nD) : Valuation τ sig (Elt F) := StableHlo.after hostOps3_3 (V9 m outs c)

abbrev V11 (c : Dev nD) : Valuation τ sig (Elt F) := StableHlo.after hostOps3_4 (V10 m outs c)

abbrev V12 (c : Dev nD) : Valuation τ sig (Elt F) := Function.update (V11 m outs c) main_v77 (outs 12 main_v77 c)

abbrev V13 (c : Dev nD) : Valuation τ sig (Elt F) := StableHlo.after hostOps4 (V12 m outs c)

abbrev V14 (c : Dev nD) : Valuation τ sig (Elt F) := StableHlo.after hostOps4_1 (V13 m outs c)

abbrev V15 (c : Dev nD) : Valuation τ sig (Elt F) := StableHlo.after hostOps4_2 (V14 m outs c)

abbrev V16 (c : Dev nD) : Valuation τ sig (Elt F) := StableHlo.after hostOps4_3 (V15 m outs c)

abbrev V17 (c : Dev nD) : Valuation τ sig (Elt F) := StableHlo.after hostOps4_4 (V16 m outs c)

abbrev V18 (c : Dev nD) : Valuation τ sig (Elt F) := Function.update (V17 m outs c) main_v111 (outs 18 main_v111 c)

abbrev V19 (c : Dev nD) : Valuation τ sig (Elt F) := StableHlo.after hostOps5 (V18 m outs c)

abbrev V20 (c : Dev nD) : Valuation τ sig (Elt F) := StableHlo.after hostOps5_1 (V19 m outs c)

abbrev V21 (c : Dev nD) : Valuation τ sig (Elt F) := StableHlo.after hostOps5_2 (V20 m outs c)

abbrev V22 (c : Dev nD) : Valuation τ sig (Elt F) := StableHlo.after hostOps5_3 (V21 m outs c)

abbrev V23 (c : Dev nD) : Valuation τ sig (Elt F) := StableHlo.after hostOps5_4 (V22 m outs c)

abbrev V24 (c : Dev nD) : Valuation τ sig (Elt F) := Function.update (V23 m outs c) main_v145 (outs 24 main_v145 c)

abbrev V25 (c : Dev nD) : Valuation τ sig (Elt F) := StableHlo.after hostOps6 (V24 m outs c)

abbrev V26 (c : Dev nD) : Valuation τ sig (Elt F) := Function.update (V25 m outs c) main_v147 (outs 26 main_v147 c)

abbrev V27 (c : Dev nD) : Valuation τ sig (Elt F) := StableHlo.after hostOps7 (V26 m outs c)

abbrev V28 (c : Dev nD) : Valuation τ sig (Elt F) := Function.update (V27 m outs c) main_v168 (outs 28 main_v168 c)

abbrev V29 (c : Dev nD) : Valuation τ sig (Elt F) := StableHlo.after hostOps8 (V28 m outs c)

abbrev V30 (c : Dev nD) : Valuation τ sig (Elt F) := Function.update (V29 m outs c) main_v191 (outs 30 main_v191 c)

abbrev V31 (c : Dev nD) : Valuation τ sig (Elt F) := StableHlo.after hostOps9 (V30 m outs c)

abbrev V32 (c : Dev nD) : Valuation τ sig (Elt F) := Function.update (V31 m outs c) main_v195 (outs 32 main_v195 c)

abbrev V33 (c : Dev nD) : Valuation τ sig (Elt F) := StableHlo.after hostOps10 (V32 m outs c)

abbrev V34 (c : Dev nD) : Valuation τ sig (Elt F) := Function.update (V33 m outs c) main_v199 (outs 34 main_v199 c)

abbrev V35 (c : Dev nD) : Valuation τ sig (Elt F) := StableHlo.after hostOps11 (V34 m outs c)

theorem hostOps0_fresh : (hostOps0 : List (HloOp τ sig (Elt F))).Forall fun op => op.fresh = ∅ := by
  simp only [List.Forall]; repeat' constructor

abbrev hostOps0_W : List (Ref sig .tc) := [main_v0]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
theorem hostOps1_fresh : (hostOps1 : List (HloOp τ sig (Elt F))).Forall fun op => op.fresh = ∅ := by
  simp only [List.Forall]; repeat' constructor

abbrev hostOps1_W : List (Ref sig .tc) := [main_v2]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
theorem hostOps2_fresh : (hostOps2 : List (HloOp τ sig (Elt F))).Forall fun op => op.fresh = ∅ := by
  simp only [List.Forall]; repeat' constructor

abbrev hostOps2_W : List (Ref sig .tc) := [main_c, main_v4, main_v5, main_c_0, main_v6, main_v7, main_v8, main_v9, main_v10, main_cst, main_v11, main_v12, main_v13, main_cst_1, main_v14, main_cst_2, main_v15, main_v16, main_v17, main_cst_3, main_v18, main_v19, main_v20, main_v21, main_v22, main_v23]
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
theorem hostOps3_fresh : (hostOps3 : List (HloOp τ sig (Elt F))).Forall fun op => op.fresh = ∅ := by
  simp only [List.Forall]; repeat' constructor

abbrev hostOps3_W : List (Ref sig .tc) := [main_c_4, main_v25, main_v26, main_c_5, main_v27, main_v28, main_v29, main_v30, main_v31, main_cst_6, main_v32, main_v33, main_v34, main_cst_7, main_v35, main_cst_8, main_v36, main_v37, main_v38, main_cst_9, main_v39, main_v40, main_v41, main_v42, main_v43, main_cst_10, main_v44, main_cst_11, main_v45, main_v46, main_v47, main_cst_12, main_v48, main_cst_13, main_v49, main_v50, main_v51, main_cst_14, main_v52, main_v53, main_cst_15, main_v54, main_v55, main_cst_16]
theorem hostOps3_writes : (hostOps3 : List (HloOp τ sig (Elt F))).Forall fun op => op.writes ⊆ (hostOps3_W.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
theorem hostOps3_1_fresh : (hostOps3_1 : List (HloOp τ sig (Elt F))).Forall fun op => op.fresh = ∅ := by
  simp only [List.Forall]; repeat' constructor

abbrev hostOps3_1_W : List (Ref sig .tc) := [main_call0_v0, main_call0_v1, main_v56]
theorem hostOps3_1_writes : (hostOps3_1 : List (HloOp τ sig (Elt F))).Forall fun op => op.writes ⊆ (hostOps3_1_W.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
theorem hostOps3_2_fresh : (hostOps3_2 : List (HloOp τ sig (Elt F))).Forall fun op => op.fresh = ∅ := by
  simp only [List.Forall]; repeat' constructor

abbrev hostOps3_2_W : List (Ref sig .tc) := [main_cst_17, main_v57, main_v58, main_cst_18, main_v59, main_v60, main_cst_19]
theorem hostOps3_2_writes : (hostOps3_2 : List (HloOp τ sig (Elt F))).Forall fun op => op.writes ⊆ (hostOps3_2_W.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
theorem hostOps3_3_fresh : (hostOps3_3 : List (HloOp τ sig (Elt F))).Forall fun op => op.fresh = ∅ := by
  simp only [List.Forall]; repeat' constructor

abbrev hostOps3_3_W : List (Ref sig .tc) := [main_call1_v0, main_call1_v1, main_v61]
theorem hostOps3_3_writes : (hostOps3_3 : List (HloOp τ sig (Elt F))).Forall fun op => op.writes ⊆ (hostOps3_3_W.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
theorem hostOps3_4_fresh : (hostOps3_4 : List (HloOp τ sig (Elt F))).Forall fun op => op.fresh = ∅ := by
  simp only [List.Forall]; repeat' constructor

abbrev hostOps3_4_W : List (Ref sig .tc) := [main_v62, main_v63, main_v64, main_c_20, main_v65, main_v66, main_c_21, main_v67, main_v68, main_v69, main_v70, main_v71, main_cst_22, main_v72, main_v73, main_v74, main_v75, main_v76]
theorem hostOps3_4_writes : (hostOps3_4 : List (HloOp τ sig (Elt F))).Forall fun op => op.writes ⊆ (hostOps3_4_W.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
theorem hostOps4_fresh : (hostOps4 : List (HloOp τ sig (Elt F))).Forall fun op => op.fresh = ∅ := by
  simp only [List.Forall]; repeat' constructor

abbrev hostOps4_W : List (Ref sig .tc) := [main_cst_23, main_v78, main_cst_24, main_v79, main_v80, main_v81, main_cst_25, main_v82, main_cst_26, main_v83, main_v84, main_v85, main_cst_27, main_v86, main_v87, main_cst_28, main_v88, main_v89, main_cst_29]
theorem hostOps4_writes : (hostOps4 : List (HloOp τ sig (Elt F))).Forall fun op => op.writes ⊆ (hostOps4_W.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
theorem hostOps4_1_fresh : (hostOps4_1 : List (HloOp τ sig (Elt F))).Forall fun op => op.fresh = ∅ := by
  simp only [List.Forall]; repeat' constructor

abbrev hostOps4_1_W : List (Ref sig .tc) := [main_call2_v0, main_call2_v1, main_v90]
theorem hostOps4_1_writes : (hostOps4_1 : List (HloOp τ sig (Elt F))).Forall fun op => op.writes ⊆ (hostOps4_1_W.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
theorem hostOps4_2_fresh : (hostOps4_2 : List (HloOp τ sig (Elt F))).Forall fun op => op.fresh = ∅ := by
  simp only [List.Forall]; repeat' constructor

abbrev hostOps4_2_W : List (Ref sig .tc) := [main_cst_30, main_v91, main_v92, main_cst_31, main_v93, main_v94, main_cst_32]
theorem hostOps4_2_writes : (hostOps4_2 : List (HloOp τ sig (Elt F))).Forall fun op => op.writes ⊆ (hostOps4_2_W.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
theorem hostOps4_3_fresh : (hostOps4_3 : List (HloOp τ sig (Elt F))).Forall fun op => op.fresh = ∅ := by
  simp only [List.Forall]; repeat' constructor

abbrev hostOps4_3_W : List (Ref sig .tc) := [main_call3_v0, main_call3_v1, main_v95]
theorem hostOps4_3_writes : (hostOps4_3 : List (HloOp τ sig (Elt F))).Forall fun op => op.writes ⊆ (hostOps4_3_W.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
theorem hostOps4_4_fresh : (hostOps4_4 : List (HloOp τ sig (Elt F))).Forall fun op => op.fresh = ∅ := by
  simp only [List.Forall]; repeat' constructor

abbrev hostOps4_4_W : List (Ref sig .tc) := [main_v96, main_v97, main_v98, main_c_33, main_v99, main_v100, main_c_34, main_v101, main_v102, main_v103, main_v104, main_v105, main_cst_35, main_v106, main_v107, main_v108, main_v109, main_v110]
theorem hostOps4_4_writes : (hostOps4_4 : List (HloOp τ sig (Elt F))).Forall fun op => op.writes ⊆ (hostOps4_4_W.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
theorem hostOps5_fresh : (hostOps5 : List (HloOp τ sig (Elt F))).Forall fun op => op.fresh = ∅ := by
  simp only [List.Forall]; repeat' constructor

abbrev hostOps5_W : List (Ref sig .tc) := [main_cst_36, main_v112, main_cst_37, main_v113, main_v114, main_v115, main_cst_38, main_v116, main_cst_39, main_v117, main_v118, main_v119, main_cst_40, main_v120, main_v121, main_cst_41, main_v122, main_v123, main_cst_42]
theorem hostOps5_writes : (hostOps5 : List (HloOp τ sig (Elt F))).Forall fun op => op.writes ⊆ (hostOps5_W.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
theorem hostOps5_1_fresh : (hostOps5_1 : List (HloOp τ sig (Elt F))).Forall fun op => op.fresh = ∅ := by
  simp only [List.Forall]; repeat' constructor

abbrev hostOps5_1_W : List (Ref sig .tc) := [main_call4_v0, main_call4_v1, main_v124]
theorem hostOps5_1_writes : (hostOps5_1 : List (HloOp τ sig (Elt F))).Forall fun op => op.writes ⊆ (hostOps5_1_W.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
theorem hostOps5_2_fresh : (hostOps5_2 : List (HloOp τ sig (Elt F))).Forall fun op => op.fresh = ∅ := by
  simp only [List.Forall]; repeat' constructor

abbrev hostOps5_2_W : List (Ref sig .tc) := [main_cst_43, main_v125, main_v126, main_cst_44, main_v127, main_v128, main_cst_45]
theorem hostOps5_2_writes : (hostOps5_2 : List (HloOp τ sig (Elt F))).Forall fun op => op.writes ⊆ (hostOps5_2_W.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
theorem hostOps5_3_fresh : (hostOps5_3 : List (HloOp τ sig (Elt F))).Forall fun op => op.fresh = ∅ := by
  simp only [List.Forall]; repeat' constructor

abbrev hostOps5_3_W : List (Ref sig .tc) := [main_call5_v0, main_call5_v1, main_v129]
theorem hostOps5_3_writes : (hostOps5_3 : List (HloOp τ sig (Elt F))).Forall fun op => op.writes ⊆ (hostOps5_3_W.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
theorem hostOps5_4_fresh : (hostOps5_4 : List (HloOp τ sig (Elt F))).Forall fun op => op.fresh = ∅ := by
  simp only [List.Forall]; repeat' constructor

abbrev hostOps5_4_W : List (Ref sig .tc) := [main_v130, main_v131, main_v132, main_c_46, main_v133, main_v134, main_c_47, main_v135, main_v136, main_v137, main_v138, main_v139, main_cst_48, main_v140, main_v141, main_v142, main_v143, main_v144]
theorem hostOps5_4_writes : (hostOps5_4 : List (HloOp τ sig (Elt F))).Forall fun op => op.writes ⊆ (hostOps5_4_W.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
theorem hostOps6_fresh : (hostOps6 : List (HloOp τ sig (Elt F))).Forall fun op => op.fresh = ∅ := by
  simp only [List.Forall]; repeat' constructor

abbrev hostOps6_W : List (Ref sig .tc) := [main_v146]
theorem hostOps6_writes : (hostOps6 : List (HloOp τ sig (Elt F))).Forall fun op => op.writes ⊆ (hostOps6_W.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
theorem hostOps7_fresh : (hostOps7 : List (HloOp τ sig (Elt F))).Forall fun op => op.fresh = ∅ := by
  simp only [List.Forall]; repeat' constructor

abbrev hostOps7_W : List (Ref sig .tc) := [main_c_49, main_v148, main_v149, main_c_50, main_v150, main_v151, main_v152, main_v153, main_v154, main_cst_51, main_v155, main_v156, main_v157, main_cst_52, main_v158, main_cst_53, main_v159, main_v160, main_v161, main_cst_54, main_v162, main_v163, main_v164, main_v165, main_v166, main_v167]
theorem hostOps7_writes : (hostOps7 : List (HloOp τ sig (Elt F))).Forall fun op => op.writes ⊆ (hostOps7_W.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
theorem hostOps8_fresh : (hostOps8 : List (HloOp τ sig (Elt F))).Forall fun op => op.fresh = ∅ := by
  simp only [List.Forall]; repeat' constructor

abbrev hostOps8_W : List (Ref sig .tc) := [main_c_55, main_v169, main_v170, main_c_56, main_v171, main_v172, main_v173, main_v174, main_v175, main_cst_57, main_v176, main_v177, main_v178, main_cst_58, main_v179, main_cst_59, main_v180, main_v181, main_v182, main_cst_60, main_v183, main_v184, main_v185, main_v186, main_v187, main_v188, main_v189, main_v190]
theorem hostOps8_writes : (hostOps8 : List (HloOp τ sig (Elt F))).Forall fun op => op.writes ⊆ (hostOps8_W.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
theorem hostOps9_fresh : (hostOps9 : List (HloOp τ sig (Elt F))).Forall fun op => op.fresh = ∅ := by
  simp only [List.Forall]; repeat' constructor

abbrev hostOps9_W : List (Ref sig .tc) := [main_v192, main_v193, main_v194]
theorem hostOps9_writes : (hostOps9 : List (HloOp τ sig (Elt F))).Forall fun op => op.writes ⊆ (hostOps9_W.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
theorem hostOps10_fresh : (hostOps10 : List (HloOp τ sig (Elt F))).Forall fun op => op.fresh = ∅ := by
  simp only [List.Forall]; repeat' constructor

abbrev hostOps10_W : List (Ref sig .tc) := [main_v196, main_v197, main_v198]
theorem hostOps10_writes : (hostOps10 : List (HloOp τ sig (Elt F))).Forall fun op => op.writes ⊆ (hostOps10_W.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
theorem hostOps11_fresh : (hostOps11 : List (HloOp τ sig (Elt F))).Forall fun op => op.fresh = ∅ := by
  simp only [List.Forall]; repeat' constructor

abbrev hostOps11_W : List (Ref sig .tc) := [main_v200]
theorem hostOps11_writes : (hostOps11 : List (HloOp τ sig (Elt F))).Forall fun op => op.writes ⊆ (hostOps11_W.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)

theorem V1_of (c : Dev nD) (r : Ref sig .tc) (h : r ∉ hostOps0_W) : V1 m c r = V0 m c r :=
  StableHlo.after_of_writes_sub hostOps0 _ hostOps0_writes h
theorem V2_of (c : Dev nD) (r : Ref sig .tc) (h : r ∉ ([main_v1] : List (Ref sig .tc))) : V2 m outs c r = V1 m c r := by
  simp only [V2, Function.update_of_ne (StableHlo.devRef_ne_of_ne (List.ne_of_not_mem_cons h) : (Proc.devRef .tc r : DevRef τ sig) ≠ Proc.devRef .tc main_v1)]
theorem V3_of (c : Dev nD) (r : Ref sig .tc) (h : r ∉ hostOps1_W) : V3 m outs c r = V2 m outs c r :=
  StableHlo.after_of_writes_sub hostOps1 _ hostOps1_writes h
theorem V4_of (c : Dev nD) (r : Ref sig .tc) (h : r ∉ ([main_v3] : List (Ref sig .tc))) : V4 m outs c r = V3 m outs c r := by
  simp only [V4, Function.update_of_ne (StableHlo.devRef_ne_of_ne (List.ne_of_not_mem_cons h) : (Proc.devRef .tc r : DevRef τ sig) ≠ Proc.devRef .tc main_v3)]
theorem V5_of (c : Dev nD) (r : Ref sig .tc) (h : r ∉ hostOps2_W) : V5 m outs c r = V4 m outs c r :=
  StableHlo.after_of_writes_sub hostOps2 _ hostOps2_writes h
theorem V6_of (c : Dev nD) (r : Ref sig .tc) (h : r ∉ ([main_v24] : List (Ref sig .tc))) : V6 m outs c r = V5 m outs c r := by
  simp only [V6, Function.update_of_ne (StableHlo.devRef_ne_of_ne (List.ne_of_not_mem_cons h) : (Proc.devRef .tc r : DevRef τ sig) ≠ Proc.devRef .tc main_v24)]
theorem V7_of (c : Dev nD) (r : Ref sig .tc) (h : r ∉ hostOps3_W) : V7 m outs c r = V6 m outs c r :=
  StableHlo.after_of_writes_sub hostOps3 _ hostOps3_writes h
theorem V8_of (c : Dev nD) (r : Ref sig .tc) (h : r ∉ hostOps3_1_W) : V8 m outs c r = V7 m outs c r :=
  StableHlo.after_of_writes_sub hostOps3_1 _ hostOps3_1_writes h
theorem V9_of (c : Dev nD) (r : Ref sig .tc) (h : r ∉ hostOps3_2_W) : V9 m outs c r = V8 m outs c r :=
  StableHlo.after_of_writes_sub hostOps3_2 _ hostOps3_2_writes h
theorem V10_of (c : Dev nD) (r : Ref sig .tc) (h : r ∉ hostOps3_3_W) : V10 m outs c r = V9 m outs c r :=
  StableHlo.after_of_writes_sub hostOps3_3 _ hostOps3_3_writes h
theorem V11_of (c : Dev nD) (r : Ref sig .tc) (h : r ∉ hostOps3_4_W) : V11 m outs c r = V10 m outs c r :=
  StableHlo.after_of_writes_sub hostOps3_4 _ hostOps3_4_writes h
theorem V12_of (c : Dev nD) (r : Ref sig .tc) (h : r ∉ ([main_v77] : List (Ref sig .tc))) : V12 m outs c r = V11 m outs c r := by
  simp only [V12, Function.update_of_ne (StableHlo.devRef_ne_of_ne (List.ne_of_not_mem_cons h) : (Proc.devRef .tc r : DevRef τ sig) ≠ Proc.devRef .tc main_v77)]
theorem V13_of (c : Dev nD) (r : Ref sig .tc) (h : r ∉ hostOps4_W) : V13 m outs c r = V12 m outs c r :=
  StableHlo.after_of_writes_sub hostOps4 _ hostOps4_writes h
theorem V14_of (c : Dev nD) (r : Ref sig .tc) (h : r ∉ hostOps4_1_W) : V14 m outs c r = V13 m outs c r :=
  StableHlo.after_of_writes_sub hostOps4_1 _ hostOps4_1_writes h
theorem V15_of (c : Dev nD) (r : Ref sig .tc) (h : r ∉ hostOps4_2_W) : V15 m outs c r = V14 m outs c r :=
  StableHlo.after_of_writes_sub hostOps4_2 _ hostOps4_2_writes h
theorem V16_of (c : Dev nD) (r : Ref sig .tc) (h : r ∉ hostOps4_3_W) : V16 m outs c r = V15 m outs c r :=
  StableHlo.after_of_writes_sub hostOps4_3 _ hostOps4_3_writes h
theorem V17_of (c : Dev nD) (r : Ref sig .tc) (h : r ∉ hostOps4_4_W) : V17 m outs c r = V16 m outs c r :=
  StableHlo.after_of_writes_sub hostOps4_4 _ hostOps4_4_writes h
theorem V18_of (c : Dev nD) (r : Ref sig .tc) (h : r ∉ ([main_v111] : List (Ref sig .tc))) : V18 m outs c r = V17 m outs c r := by
  simp only [V18, Function.update_of_ne (StableHlo.devRef_ne_of_ne (List.ne_of_not_mem_cons h) : (Proc.devRef .tc r : DevRef τ sig) ≠ Proc.devRef .tc main_v111)]
theorem V19_of (c : Dev nD) (r : Ref sig .tc) (h : r ∉ hostOps5_W) : V19 m outs c r = V18 m outs c r :=
  StableHlo.after_of_writes_sub hostOps5 _ hostOps5_writes h
theorem V20_of (c : Dev nD) (r : Ref sig .tc) (h : r ∉ hostOps5_1_W) : V20 m outs c r = V19 m outs c r :=
  StableHlo.after_of_writes_sub hostOps5_1 _ hostOps5_1_writes h
theorem V21_of (c : Dev nD) (r : Ref sig .tc) (h : r ∉ hostOps5_2_W) : V21 m outs c r = V20 m outs c r :=
  StableHlo.after_of_writes_sub hostOps5_2 _ hostOps5_2_writes h
theorem V22_of (c : Dev nD) (r : Ref sig .tc) (h : r ∉ hostOps5_3_W) : V22 m outs c r = V21 m outs c r :=
  StableHlo.after_of_writes_sub hostOps5_3 _ hostOps5_3_writes h
theorem V23_of (c : Dev nD) (r : Ref sig .tc) (h : r ∉ hostOps5_4_W) : V23 m outs c r = V22 m outs c r :=
  StableHlo.after_of_writes_sub hostOps5_4 _ hostOps5_4_writes h
theorem V24_of (c : Dev nD) (r : Ref sig .tc) (h : r ∉ ([main_v145] : List (Ref sig .tc))) : V24 m outs c r = V23 m outs c r := by
  simp only [V24, Function.update_of_ne (StableHlo.devRef_ne_of_ne (List.ne_of_not_mem_cons h) : (Proc.devRef .tc r : DevRef τ sig) ≠ Proc.devRef .tc main_v145)]
theorem V25_of (c : Dev nD) (r : Ref sig .tc) (h : r ∉ hostOps6_W) : V25 m outs c r = V24 m outs c r :=
  StableHlo.after_of_writes_sub hostOps6 _ hostOps6_writes h
theorem V26_of (c : Dev nD) (r : Ref sig .tc) (h : r ∉ ([main_v147] : List (Ref sig .tc))) : V26 m outs c r = V25 m outs c r := by
  simp only [V26, Function.update_of_ne (StableHlo.devRef_ne_of_ne (List.ne_of_not_mem_cons h) : (Proc.devRef .tc r : DevRef τ sig) ≠ Proc.devRef .tc main_v147)]
theorem V27_of (c : Dev nD) (r : Ref sig .tc) (h : r ∉ hostOps7_W) : V27 m outs c r = V26 m outs c r :=
  StableHlo.after_of_writes_sub hostOps7 _ hostOps7_writes h
theorem V28_of (c : Dev nD) (r : Ref sig .tc) (h : r ∉ ([main_v168] : List (Ref sig .tc))) : V28 m outs c r = V27 m outs c r := by
  simp only [V28, Function.update_of_ne (StableHlo.devRef_ne_of_ne (List.ne_of_not_mem_cons h) : (Proc.devRef .tc r : DevRef τ sig) ≠ Proc.devRef .tc main_v168)]
theorem V29_of (c : Dev nD) (r : Ref sig .tc) (h : r ∉ hostOps8_W) : V29 m outs c r = V28 m outs c r :=
  StableHlo.after_of_writes_sub hostOps8 _ hostOps8_writes h
theorem V30_of (c : Dev nD) (r : Ref sig .tc) (h : r ∉ ([main_v191] : List (Ref sig .tc))) : V30 m outs c r = V29 m outs c r := by
  simp only [V30, Function.update_of_ne (StableHlo.devRef_ne_of_ne (List.ne_of_not_mem_cons h) : (Proc.devRef .tc r : DevRef τ sig) ≠ Proc.devRef .tc main_v191)]
theorem V31_of (c : Dev nD) (r : Ref sig .tc) (h : r ∉ hostOps9_W) : V31 m outs c r = V30 m outs c r :=
  StableHlo.after_of_writes_sub hostOps9 _ hostOps9_writes h
theorem V32_of (c : Dev nD) (r : Ref sig .tc) (h : r ∉ ([main_v195] : List (Ref sig .tc))) : V32 m outs c r = V31 m outs c r := by
  simp only [V32, Function.update_of_ne (StableHlo.devRef_ne_of_ne (List.ne_of_not_mem_cons h) : (Proc.devRef .tc r : DevRef τ sig) ≠ Proc.devRef .tc main_v195)]
theorem V33_of (c : Dev nD) (r : Ref sig .tc) (h : r ∉ hostOps10_W) : V33 m outs c r = V32 m outs c r :=
  StableHlo.after_of_writes_sub hostOps10 _ hostOps10_writes h
theorem V34_of (c : Dev nD) (r : Ref sig .tc) (h : r ∉ ([main_v199] : List (Ref sig .tc))) : V34 m outs c r = V33 m outs c r := by
  simp only [V34, Function.update_of_ne (StableHlo.devRef_ne_of_ne (List.ne_of_not_mem_cons h) : (Proc.devRef .tc r : DevRef τ sig) ≠ Proc.devRef .tc main_v199)]
theorem V35_of (c : Dev nD) (r : Ref sig .tc) (h : r ∉ hostOps11_W) : V35 m outs c r = V34 m outs c r :=
  StableHlo.after_of_writes_sub hostOps11 _ hostOps11_writes h

-- the references written by each item, in the order of the run
abbrev written : List (List (Ref sig .tc)) :=
  [hostOps0_W, [main_v1], hostOps1_W, [main_v3], hostOps2_W, [main_v24], hostOps3_W, hostOps3_1_W, hostOps3_2_W, hostOps3_3_W, hostOps3_4_W, [main_v77], hostOps4_W, hostOps4_1_W, hostOps4_2_W, hostOps4_3_W, hostOps4_4_W, [main_v111], hostOps5_W, hostOps5_1_W, hostOps5_2_W, hostOps5_3_W, hostOps5_4_W, [main_v145], hostOps6_W, [main_v147], hostOps7_W, [main_v168], hostOps8_W, [main_v191], hostOps9_W, [main_v195], hostOps10_W, [main_v199], hostOps11_W]

-- a reference no item writes holds at the end what it held at launch
theorem V35_keep (c : Dev nD) (r : Ref sig .tc) (h : ∀ W ∈ written, r ∉ W) :
    V35 m outs c r = m ((c : Thread nD τ).loc r) :=
  (V35_of m outs c r (h _ (by decide))).trans <| (V34_of m outs c r (h _ (by decide))).trans <| (V33_of m outs c r (h _ (by decide))).trans <|
  (V32_of m outs c r (h _ (by decide))).trans <| (V31_of m outs c r (h _ (by decide))).trans <| (V30_of m outs c r (h _ (by decide))).trans <|
  (V29_of m outs c r (h _ (by decide))).trans <| (V28_of m outs c r (h _ (by decide))).trans <| (V27_of m outs c r (h _ (by decide))).trans <|
  (V26_of m outs c r (h _ (by decide))).trans <| (V25_of m outs c r (h _ (by decide))).trans <| (V24_of m outs c r (h _ (by decide))).trans <|
  (V23_of m outs c r (h _ (by decide))).trans <| (V22_of m outs c r (h _ (by decide))).trans <| (V21_of m outs c r (h _ (by decide))).trans <|
  (V20_of m outs c r (h _ (by decide))).trans <| (V19_of m outs c r (h _ (by decide))).trans <| (V18_of m outs c r (h _ (by decide))).trans <|
  (V17_of m outs c r (h _ (by decide))).trans <| (V16_of m outs c r (h _ (by decide))).trans <| (V15_of m outs c r (h _ (by decide))).trans <|
  (V14_of m outs c r (h _ (by decide))).trans <| (V13_of m outs c r (h _ (by decide))).trans <| (V12_of m outs c r (h _ (by decide))).trans <|
  (V11_of m outs c r (h _ (by decide))).trans <| (V10_of m outs c r (h _ (by decide))).trans <| (V9_of m outs c r (h _ (by decide))).trans <|
  (V8_of m outs c r (h _ (by decide))).trans <| (V7_of m outs c r (h _ (by decide))).trans <| (V6_of m outs c r (h _ (by decide))).trans <|
  (V5_of m outs c r (h _ (by decide))).trans <| (V4_of m outs c r (h _ (by decide))).trans <| (V3_of m outs c r (h _ (by decide))).trans <|
  (V2_of m outs c r (h _ (by decide))).trans <|
  (V1_of m c r (h _ (by decide))).trans rfl

section Segs

variable {Ix : Type} [DecidableEq Ix] {U : Type} [URA U] {Lvl : Type} [Preorder Lvl]
variable (𝒱₀ : Variants) (L : GSem nD τ sig → Finset Ix) (lv : GSem nD τ sig → Ix → Lvl)
variable (E : Fin 12 → Dev nD → sProp (MT nD τ sig Ix (Elt F) ℕ U Lvl))

def seg0 : HostSeg (Ix := Ix) (Name := ℕ) (U := U) (Lvl := Lvl) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) (E 0)

def seg2 : HostSeg (Ix := Ix) (Name := ℕ) (U := U) (Lvl := Lvl) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V2 m outs) (E 1)

def seg4 : HostSeg (Ix := Ix) (Name := ℕ) (U := U) (Lvl := Lvl) (pcfgs (F := F)) defs₀ 𝒱₀ L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (V4 m outs) (E 2)

def seg6 : HostSeg (Ix := Ix) (Name := ℕ) (U := U) (Lvl := Lvl) (pcfgs (F := F)) defs₀ 𝒱₀ L lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (V6 m outs) (E 3)

def seg7 : HostSeg (Ix := Ix) (Name := ℕ) (U := U) (Lvl := Lvl) (pcfgs (F := F)) defs₀ 𝒱₀ L lv :=
  HostSeg.ofOps _ _ _ _ _ (Pipeline.ucRefs τ sig) hostOps3_1
    (fun op h => Pipeline.sub_ucRefs op ((List.forall_iff_forall_mem.mp hostOps3_1_sub) op h))
    (fun op h => (List.forall_iff_forall_mem.mp hostOps3_1_fresh) op h) (V7 m outs) (E 3)

def seg8 : HostSeg (Ix := Ix) (Name := ℕ) (U := U) (Lvl := Lvl) (pcfgs (F := F)) defs₀ 𝒱₀ L lv :=
  HostSeg.ofOps _ _ _ _ _ (Pipeline.ucRefs τ sig) hostOps3_2
    (fun op h => Pipeline.sub_ucRefs op ((List.forall_iff_forall_mem.mp hostOps3_2_sub) op h))
    (fun op h => (List.forall_iff_forall_mem.mp hostOps3_2_fresh) op h) (V8 m outs) (E 3)

def seg9 : HostSeg (Ix := Ix) (Name := ℕ) (U := U) (Lvl := Lvl) (pcfgs (F := F)) defs₀ 𝒱₀ L lv :=
  HostSeg.ofOps _ _ _ _ _ (Pipeline.ucRefs τ sig) hostOps3_3
    (fun op h => Pipeline.sub_ucRefs op ((List.forall_iff_forall_mem.mp hostOps3_3_sub) op h))
    (fun op h => (List.forall_iff_forall_mem.mp hostOps3_3_fresh) op h) (V9 m outs) (E 3)

def seg10 : HostSeg (Ix := Ix) (Name := ℕ) (U := U) (Lvl := Lvl) (pcfgs (F := F)) defs₀ 𝒱₀ L lv :=
  HostSeg.ofOps _ _ _ _ _ (Pipeline.ucRefs τ sig) hostOps3_4
    (fun op h => Pipeline.sub_ucRefs op ((List.forall_iff_forall_mem.mp hostOps3_4_sub) op h))
    (fun op h => (List.forall_iff_forall_mem.mp hostOps3_4_fresh) op h) (V10 m outs) (E 3)

def seg12 : HostSeg (Ix := Ix) (Name := ℕ) (U := U) (Lvl := Lvl) (pcfgs (F := F)) defs₀ 𝒱₀ L lv :=
  HostSeg.ofOps _ _ _ _ _ (Pipeline.ucRefs τ sig) hostOps4
    (fun op h => Pipeline.sub_ucRefs op ((List.forall_iff_forall_mem.mp hostOps4_sub) op h))
    (fun op h => (List.forall_iff_forall_mem.mp hostOps4_fresh) op h) (V12 m outs) (E 4)

def seg13 : HostSeg (Ix := Ix) (Name := ℕ) (U := U) (Lvl := Lvl) (pcfgs (F := F)) defs₀ 𝒱₀ L lv :=
  HostSeg.ofOps _ _ _ _ _ (Pipeline.ucRefs τ sig) hostOps4_1
    (fun op h => Pipeline.sub_ucRefs op ((List.forall_iff_forall_mem.mp hostOps4_1_sub) op h))
    (fun op h => (List.forall_iff_forall_mem.mp hostOps4_1_fresh) op h) (V13 m outs) (E 4)

def seg14 : HostSeg (Ix := Ix) (Name := ℕ) (U := U) (Lvl := Lvl) (pcfgs (F := F)) defs₀ 𝒱₀ L lv :=
  HostSeg.ofOps _ _ _ _ _ (Pipeline.ucRefs τ sig) hostOps4_2
    (fun op h => Pipeline.sub_ucRefs op ((List.forall_iff_forall_mem.mp hostOps4_2_sub) op h))
    (fun op h => (List.forall_iff_forall_mem.mp hostOps4_2_fresh) op h) (V14 m outs) (E 4)

def seg15 : HostSeg (Ix := Ix) (Name := ℕ) (U := U) (Lvl := Lvl) (pcfgs (F := F)) defs₀ 𝒱₀ L lv :=
  HostSeg.ofOps _ _ _ _ _ (Pipeline.ucRefs τ sig) hostOps4_3
    (fun op h => Pipeline.sub_ucRefs op ((List.forall_iff_forall_mem.mp hostOps4_3_sub) op h))
    (fun op h => (List.forall_iff_forall_mem.mp hostOps4_3_fresh) op h) (V15 m outs) (E 4)

def seg16 : HostSeg (Ix := Ix) (Name := ℕ) (U := U) (Lvl := Lvl) (pcfgs (F := F)) defs₀ 𝒱₀ L lv :=
  HostSeg.ofOps _ _ _ _ _ (Pipeline.ucRefs τ sig) hostOps4_4
    (fun op h => Pipeline.sub_ucRefs op ((List.forall_iff_forall_mem.mp hostOps4_4_sub) op h))
    (fun op h => (List.forall_iff_forall_mem.mp hostOps4_4_fresh) op h) (V16 m outs) (E 4)

def seg18 : HostSeg (Ix := Ix) (Name := ℕ) (U := U) (Lvl := Lvl) (pcfgs (F := F)) defs₀ 𝒱₀ L lv :=
  HostSeg.ofOps _ _ _ _ _ (Pipeline.ucRefs τ sig) hostOps5
    (fun op h => Pipeline.sub_ucRefs op ((List.forall_iff_forall_mem.mp hostOps5_sub) op h))
    (fun op h => (List.forall_iff_forall_mem.mp hostOps5_fresh) op h) (V18 m outs) (E 5)

def seg19 : HostSeg (Ix := Ix) (Name := ℕ) (U := U) (Lvl := Lvl) (pcfgs (F := F)) defs₀ 𝒱₀ L lv :=
  HostSeg.ofOps _ _ _ _ _ (Pipeline.ucRefs τ sig) hostOps5_1
    (fun op h => Pipeline.sub_ucRefs op ((List.forall_iff_forall_mem.mp hostOps5_1_sub) op h))
    (fun op h => (List.forall_iff_forall_mem.mp hostOps5_1_fresh) op h) (V19 m outs) (E 5)

def seg20 : HostSeg (Ix := Ix) (Name := ℕ) (U := U) (Lvl := Lvl) (pcfgs (F := F)) defs₀ 𝒱₀ L lv :=
  HostSeg.ofOps _ _ _ _ _ (Pipeline.ucRefs τ sig) hostOps5_2
    (fun op h => Pipeline.sub_ucRefs op ((List.forall_iff_forall_mem.mp hostOps5_2_sub) op h))
    (fun op h => (List.forall_iff_forall_mem.mp hostOps5_2_fresh) op h) (V20 m outs) (E 5)

def seg21 : HostSeg (Ix := Ix) (Name := ℕ) (U := U) (Lvl := Lvl) (pcfgs (F := F)) defs₀ 𝒱₀ L lv :=
  HostSeg.ofOps _ _ _ _ _ (Pipeline.ucRefs τ sig) hostOps5_3
    (fun op h => Pipeline.sub_ucRefs op ((List.forall_iff_forall_mem.mp hostOps5_3_sub) op h))
    (fun op h => (List.forall_iff_forall_mem.mp hostOps5_3_fresh) op h) (V21 m outs) (E 5)

def seg22 : HostSeg (Ix := Ix) (Name := ℕ) (U := U) (Lvl := Lvl) (pcfgs (F := F)) defs₀ 𝒱₀ L lv :=
  HostSeg.ofOps _ _ _ _ _ (Pipeline.ucRefs τ sig) hostOps5_4
    (fun op h => Pipeline.sub_ucRefs op ((List.forall_iff_forall_mem.mp hostOps5_4_sub) op h))
    (fun op h => (List.forall_iff_forall_mem.mp hostOps5_4_fresh) op h) (V22 m outs) (E 5)

def seg24 : HostSeg (Ix := Ix) (Name := ℕ) (U := U) (Lvl := Lvl) (pcfgs (F := F)) defs₀ 𝒱₀ L lv :=
  HostSeg.ofOps _ _ _ _ _ (Pipeline.ucRefs τ sig) hostOps6
    (fun op h => Pipeline.sub_ucRefs op ((List.forall_iff_forall_mem.mp hostOps6_sub) op h))
    (fun op h => (List.forall_iff_forall_mem.mp hostOps6_fresh) op h) (V24 m outs) (E 6)

def seg26 : HostSeg (Ix := Ix) (Name := ℕ) (U := U) (Lvl := Lvl) (pcfgs (F := F)) defs₀ 𝒱₀ L lv :=
  HostSeg.ofOps _ _ _ _ _ (Pipeline.ucRefs τ sig) hostOps7
    (fun op h => Pipeline.sub_ucRefs op ((List.forall_iff_forall_mem.mp hostOps7_sub) op h))
    (fun op h => (List.forall_iff_forall_mem.mp hostOps7_fresh) op h) (V26 m outs) (E 7)

def seg28 : HostSeg (Ix := Ix) (Name := ℕ) (U := U) (Lvl := Lvl) (pcfgs (F := F)) defs₀ 𝒱₀ L lv :=
  HostSeg.ofOps _ _ _ _ _ (Pipeline.ucRefs τ sig) hostOps8
    (fun op h => Pipeline.sub_ucRefs op ((List.forall_iff_forall_mem.mp hostOps8_sub) op h))
    (fun op h => (List.forall_iff_forall_mem.mp hostOps8_fresh) op h) (V28 m outs) (E 8)

def seg30 : HostSeg (Ix := Ix) (Name := ℕ) (U := U) (Lvl := Lvl) (pcfgs (F := F)) defs₀ 𝒱₀ L lv :=
  HostSeg.ofOps _ _ _ _ _ (Pipeline.ucRefs τ sig) hostOps9
    (fun op h => Pipeline.sub_ucRefs op ((List.forall_iff_forall_mem.mp hostOps9_sub) op h))
    (fun op h => (List.forall_iff_forall_mem.mp hostOps9_fresh) op h) (V30 m outs) (E 9)

def seg32 : HostSeg (Ix := Ix) (Name := ℕ) (U := U) (Lvl := Lvl) (pcfgs (F := F)) defs₀ 𝒱₀ L lv :=
  HostSeg.ofOps _ _ _ _ _ (Pipeline.ucRefs τ sig) hostOps10
    (fun op h => Pipeline.sub_ucRefs op ((List.forall_iff_forall_mem.mp hostOps10_sub) op h))
    (fun op h => (List.forall_iff_forall_mem.mp hostOps10_fresh) op h) (V32 m outs) (E 10)

def seg34 : HostSeg (Ix := Ix) (Name := ℕ) (U := U) (Lvl := Lvl) (pcfgs (F := F)) defs₀ 𝒱₀ L lv :=
  HostSeg.ofOps _ _ _ _ _ (Pipeline.ucRefs τ sig) hostOps11
    (fun op h => Pipeline.sub_ucRefs op ((List.forall_iff_forall_mem.mp hostOps11_sub) op h))
    (fun op h => (List.forall_iff_forall_mem.mp hostOps11_fresh) op h) (V34 m outs) (E 11)

end Segs

section

variable {Ix : Type} [DecidableEq Ix] {U : Type} [URA U] {Lvl : Type} [Preorder Lvl]

abbrev adm : (p : Fin 11) → (pcfgs (F := F) p).Adm := fun p => (cfgs p).toPCfg_adm

abbrev segs (𝒱₀ : Variants) (L : GSem nD τ sig → Finset Ix) (lv : GSem nD τ sig → Ix → Lvl) (E : Fin 12 → Dev nD → sProp (MT nD τ sig Ix (Elt F) ℕ U Lvl)) (ι : Ix)
    (pdats : (p : Fin 11) → (c : Dev nD) → Dat τ (Elt F) Ix ℕ U Lvl (cfgs p) c) (R0 : RegionSeg (pcfgs (F := F)) adm pdats ι defs₀ 𝒱₀ L lv 0) (R1 : RegionSeg (pcfgs (F := F)) adm pdats ι defs₀ 𝒱₀ L lv 1) (R2 : RegionSeg (pcfgs (F := F)) adm pdats ι defs₀ 𝒱₀ L lv 2) (R3 : RegionSeg (pcfgs (F := F)) adm pdats ι defs₀ 𝒱₀ L lv 3) (R4 : RegionSeg (pcfgs (F := F)) adm pdats ι defs₀ 𝒱₀ L lv 4) (R5 : RegionSeg (pcfgs (F := F)) adm pdats ι defs₀ 𝒱₀ L lv 5) (R6 : RegionSeg (pcfgs (F := F)) adm pdats ι defs₀ 𝒱₀ L lv 6) (R7 : RegionSeg (pcfgs (F := F)) adm pdats ι defs₀ 𝒱₀ L lv 7) (R8 : RegionSeg (pcfgs (F := F)) adm pdats ι defs₀ 𝒱₀ L lv 8) (R9 : RegionSeg (pcfgs (F := F)) adm pdats ι defs₀ 𝒱₀ L lv 9) (R10 : RegionSeg (pcfgs (F := F)) adm pdats ι defs₀ 𝒱₀ L lv 10) (c : Dev nD) :
    List (Seg (pcfgs (F := F)) adm pdats ι defs₀ 𝒱₀ L lv) :=
  [.host (seg0 m 𝒱₀ L lv E), .region R0, .host (seg2 m outs 𝒱₀ L lv E), .region R1, .host (seg4 m outs 𝒱₀ L lv E), .region R2, .host (seg6 m outs 𝒱₀ L lv E), .host (seg7 m outs 𝒱₀ L lv E), .host (seg8 m outs 𝒱₀ L lv E), .host (seg9 m outs 𝒱₀ L lv E), .host (seg10 m outs 𝒱₀ L lv E), .region R3, .host (seg12 m outs 𝒱₀ L lv E), .host (seg13 m outs 𝒱₀ L lv E), .host (seg14 m outs 𝒱₀ L lv E), .host (seg15 m outs 𝒱₀ L lv E), .host (seg16 m outs 𝒱₀ L lv E), .region R4, .host (seg18 m outs 𝒱₀ L lv E), .host (seg19 m outs 𝒱₀ L lv E), .host (seg20 m outs 𝒱₀ L lv E), .host (seg21 m outs 𝒱₀ L lv E), .host (seg22 m outs 𝒱₀ L lv E), .region R5, .host (seg24 m outs 𝒱₀ L lv E), .region R6, .host (seg26 m outs 𝒱₀ L lv E), .region R7, .host (seg28 m outs 𝒱₀ L lv E), .region R8, .host (seg30 m outs 𝒱₀ L lv E), .region R9, .host (seg32 m outs 𝒱₀ L lv E), .region R10, .host (seg34 m outs 𝒱₀ L lv E)]

end

end Cert.Kernel.GenP

end
-- ==== Proof.K.Data.lean ====
/-
  The contents of the TensorCore's unscoped buffers at every boundary between two items of the program, from the
  launch to the return: after a stretch of host operations, those operations applied to what was there; after a
  kernel region, the region's output array replaced by what the region's pipeline leaves in it (the fold of its
  write-backs over the grid) and every other buffer as it was. With them, every pipeline's proof data at its own
  region's entry contents, and the contents the regions leave, as the function of the item number that the
  conditional frame is stated over.
-/
import proofs.«162078_j40114994545134_1_alg».proof.Proof.K.Def0
import proofs.«162078_j40114994545134_1_alg».proof.Proof.K.Def1
import proofs.«162078_j40114994545134_1_alg».proof.Proof.K.Def2
import proofs.«162078_j40114994545134_1_alg».proof.Proof.K.Def3
import proofs.«162078_j40114994545134_1_alg».proof.Proof.K.Def4
import proofs.«162078_j40114994545134_1_alg».proof.Proof.K.Def5
import proofs.«162078_j40114994545134_1_alg».proof.Proof.K.Def6
import proofs.«162078_j40114994545134_1_alg».proof.Proof.K.Def7
import proofs.«162078_j40114994545134_1_alg».proof.Proof.K.Def8
import proofs.«162078_j40114994545134_1_alg».proof.Proof.K.Def9
import proofs.«162078_j40114994545134_1_alg».proof.Proof.K.Def10
import proofs.«162078_j40114994545134_1_alg».proof.Proof.K.RegionsP
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Cert.Kernel.GenP

variable (m : (ℓ : Loc nD τ sig) → Buf (Elt F) ℓ)

/-- A boundary's contents read at the TensorCore's references: the form the regions' proof data take. -/
abbrev rd (W : Dev nD → Valuation τ sig (Elt F)) : (c : Dev nD) → (b : Ref sig .tc) → Buf (Elt F) ((c : Thread nD τ).loc b) :=
  fun c b => W c b

/-- After item 0, the host stretch `hostOps0`. -/
def T1 (c : Dev nD) : Valuation τ sig (Elt F) := StableHlo.after hostOps0 (V0 m c)
/-- What region 0 leaves in its output array `main_v1`. -/
def o0 (c : Dev nD) : Buf (Elt F) ((c : Thread nD τ).loc main_v1) := (dat0 (rd (T1 m)) c).arrAt 3 cfg0.N
/-- After item 1, region 0. -/
def T2 (c : Dev nD) : Valuation τ sig (Elt F) := Function.update (T1 m c) main_v1 (o0 m c)
/-- After item 2, the host stretch `hostOps1`. -/
def T3 (c : Dev nD) : Valuation τ sig (Elt F) := StableHlo.after hostOps1 (T2 m c)
/-- What region 1 leaves in its output array `main_v3`. -/
def o1 (c : Dev nD) : Buf (Elt F) ((c : Thread nD τ).loc main_v3) := (dat1 (rd (T3 m)) c).arrAt 3 cfg1.N
/-- After item 3, region 1. -/
def T4 (c : Dev nD) : Valuation τ sig (Elt F) := Function.update (T3 m c) main_v3 (o1 m c)
/-- After item 4, the host stretch `hostOps2`. -/
def T5 (c : Dev nD) : Valuation τ sig (Elt F) := StableHlo.after hostOps2 (T4 m c)
/-- What region 2 leaves in its output array `main_v24`. -/
def o2 (c : Dev nD) : Buf (Elt F) ((c : Thread nD τ).loc main_v24) := (dat2 (rd (T5 m)) c).arrAt 3 cfg2.N
/-- After item 5, region 2. -/
def T6 (c : Dev nD) : Valuation τ sig (Elt F) := Function.update (T5 m c) main_v24 (o2 m c)
/-- After item 6, the host stretch `hostOps3`. -/
def T7 (c : Dev nD) : Valuation τ sig (Elt F) := StableHlo.after hostOps3 (T6 m c)
/-- After item 7, the host stretch `hostOps3_1`. -/
def T8 (c : Dev nD) : Valuation τ sig (Elt F) := StableHlo.after hostOps3_1 (T7 m c)
/-- After item 8, the host stretch `hostOps3_2`. -/
def T9 (c : Dev nD) : Valuation τ sig (Elt F) := StableHlo.after hostOps3_2 (T8 m c)
/-- After item 9, the host stretch `hostOps3_3`. -/
def T10 (c : Dev nD) : Valuation τ sig (Elt F) := StableHlo.after hostOps3_3 (T9 m c)
/-- After item 10, the host stretch `hostOps3_4`. -/
def T11 (c : Dev nD) : Valuation τ sig (Elt F) := StableHlo.after hostOps3_4 (T10 m c)
/-- What region 3 leaves in its output array `main_v77`. -/
def o3 (c : Dev nD) : Buf (Elt F) ((c : Thread nD τ).loc main_v77) := (dat3 (rd (T11 m)) c).arrAt 4 cfg3.N
/-- After item 11, region 3. -/
def T12 (c : Dev nD) : Valuation τ sig (Elt F) := Function.update (T11 m c) main_v77 (o3 m c)
/-- After item 12, the host stretch `hostOps4`. -/
def T13 (c : Dev nD) : Valuation τ sig (Elt F) := StableHlo.after hostOps4 (T12 m c)
/-- After item 13, the host stretch `hostOps4_1`. -/
def T14 (c : Dev nD) : Valuation τ sig (Elt F) := StableHlo.after hostOps4_1 (T13 m c)
/-- After item 14, the host stretch `hostOps4_2`. -/
def T15 (c : Dev nD) : Valuation τ sig (Elt F) := StableHlo.after hostOps4_2 (T14 m c)
/-- After item 15, the host stretch `hostOps4_3`. -/
def T16 (c : Dev nD) : Valuation τ sig (Elt F) := StableHlo.after hostOps4_3 (T15 m c)
/-- After item 16, the host stretch `hostOps4_4`. -/
def T17 (c : Dev nD) : Valuation τ sig (Elt F) := StableHlo.after hostOps4_4 (T16 m c)
/-- What region 4 leaves in its output array `main_v111`. -/
def o4 (c : Dev nD) : Buf (Elt F) ((c : Thread nD τ).loc main_v111) := (dat4 (rd (T17 m)) c).arrAt 4 cfg4.N
/-- After item 17, region 4. -/
def T18 (c : Dev nD) : Valuation τ sig (Elt F) := Function.update (T17 m c) main_v111 (o4 m c)
/-- After item 18, the host stretch `hostOps5`. -/
def T19 (c : Dev nD) : Valuation τ sig (Elt F) := StableHlo.after hostOps5 (T18 m c)
/-- After item 19, the host stretch `hostOps5_1`. -/
def T20 (c : Dev nD) : Valuation τ sig (Elt F) := StableHlo.after hostOps5_1 (T19 m c)
/-- After item 20, the host stretch `hostOps5_2`. -/
def T21 (c : Dev nD) : Valuation τ sig (Elt F) := StableHlo.after hostOps5_2 (T20 m c)
/-- After item 21, the host stretch `hostOps5_3`. -/
def T22 (c : Dev nD) : Valuation τ sig (Elt F) := StableHlo.after hostOps5_3 (T21 m c)
/-- After item 22, the host stretch `hostOps5_4`. -/
def T23 (c : Dev nD) : Valuation τ sig (Elt F) := StableHlo.after hostOps5_4 (T22 m c)
/-- What region 5 leaves in its output array `main_v145`. -/
def o5 (c : Dev nD) : Buf (Elt F) ((c : Thread nD τ).loc main_v145) := (dat5 (rd (T23 m)) c).arrAt 4 cfg5.N
/-- After item 23, region 5. -/
def T24 (c : Dev nD) : Valuation τ sig (Elt F) := Function.update (T23 m c) main_v145 (o5 m c)
/-- After item 24, the host stretch `hostOps6`. -/
def T25 (c : Dev nD) : Valuation τ sig (Elt F) := StableHlo.after hostOps6 (T24 m c)
/-- What region 6 leaves in its output array `main_v147`. -/
def o6 (c : Dev nD) : Buf (Elt F) ((c : Thread nD τ).loc main_v147) := (dat6 (rd (T25 m)) c).arrAt 3 cfg6.N
/-- After item 25, region 6. -/
def T26 (c : Dev nD) : Valuation τ sig (Elt F) := Function.update (T25 m c) main_v147 (o6 m c)
/-- After item 26, the host stretch `hostOps7`. -/
def T27 (c : Dev nD) : Valuation τ sig (Elt F) := StableHlo.after hostOps7 (T26 m c)
/-- What region 7 leaves in its output array `main_v168`. -/
def o7 (c : Dev nD) : Buf (Elt F) ((c : Thread nD τ).loc main_v168) := (dat7 (rd (T27 m)) c).arrAt 3 cfg7.N
/-- After item 27, region 7. -/
def T28 (c : Dev nD) : Valuation τ sig (Elt F) := Function.update (T27 m c) main_v168 (o7 m c)
/-- After item 28, the host stretch `hostOps8`. -/
def T29 (c : Dev nD) : Valuation τ sig (Elt F) := StableHlo.after hostOps8 (T28 m c)
/-- What region 8 leaves in its output array `main_v191`. -/
def o8 (c : Dev nD) : Buf (Elt F) ((c : Thread nD τ).loc main_v191) := (dat8 (rd (T29 m)) c).arrAt 5 cfg8.N
/-- After item 29, region 8. -/
def T30 (c : Dev nD) : Valuation τ sig (Elt F) := Function.update (T29 m c) main_v191 (o8 m c)
/-- After item 30, the host stretch `hostOps9`. -/
def T31 (c : Dev nD) : Valuation τ sig (Elt F) := StableHlo.after hostOps9 (T30 m c)
/-- What region 9 leaves in its output array `main_v195`. -/
def o9 (c : Dev nD) : Buf (Elt F) ((c : Thread nD τ).loc main_v195) := (dat9 (rd (T31 m)) c).arrAt 5 cfg9.N
/-- After item 31, region 9. -/
def T32 (c : Dev nD) : Valuation τ sig (Elt F) := Function.update (T31 m c) main_v195 (o9 m c)
/-- After item 32, the host stretch `hostOps10`. -/
def T33 (c : Dev nD) : Valuation τ sig (Elt F) := StableHlo.after hostOps10 (T32 m c)
/-- What region 10 leaves in its output array `main_v199`. -/
def o10 (c : Dev nD) : Buf (Elt F) ((c : Thread nD τ).loc main_v199) := (dat10 (rd (T33 m)) c).arrAt 5 cfg10.N
/-- After item 33, region 10. -/
def T34 (c : Dev nD) : Valuation τ sig (Elt F) := Function.update (T33 m c) main_v199 (o10 m c)
/-- After item 34, the host stretch `hostOps11`. -/
def T35 (c : Dev nD) : Valuation τ sig (Elt F) := StableHlo.after hostOps11 (T34 m c)

/-- Every pipeline's proof data, each at its region's entry contents. -/
def pdats : (p : Fin 11) → (c : Dev nD) → Dat τ (Elt F) Unit ℕ (UR sig nD τ) ℕ (Pipeline.pin (pcfgs (F := F)) adm p) c
  | ⟨0, _⟩ => fun c => dat0 (rd (T1 m)) c
  | ⟨1, _⟩ => fun c => dat1 (rd (T3 m)) c
  | ⟨2, _⟩ => fun c => dat2 (rd (T5 m)) c
  | ⟨3, _⟩ => fun c => dat3 (rd (T11 m)) c
  | ⟨4, _⟩ => fun c => dat4 (rd (T17 m)) c
  | ⟨5, _⟩ => fun c => dat5 (rd (T23 m)) c
  | ⟨6, _⟩ => fun c => dat6 (rd (T25 m)) c
  | ⟨7, _⟩ => fun c => dat7 (rd (T27 m)) c
  | ⟨8, _⟩ => fun c => dat8 (rd (T29 m)) c
  | ⟨9, _⟩ => fun c => dat9 (rd (T31 m)) c
  | ⟨10, _⟩ => fun c => dat10 (rd (T33 m)) c

/-- The contents the regions leave, by item number: after item J−1 a region's boundary contents; no other point is read. -/
def outs : Outs (F := F) := fun J r c =>
  match J with
  | 2 => T2 m c r
  | 4 => T4 m c r
  | 6 => T6 m c r
  | 12 => T12 m c r
  | 18 => T18 m c r
  | 24 => T24 m c r
  | 26 => T26 m c r
  | 28 => T28 m c r
  | 30 => T30 m c r
  | 32 => T32 m c r
  | 34 => T34 m c r
  | _ => V0 m c r

/-! The generated boundary contents, over `outs`, are these. -/

theorem V1_eq (c : Dev nD) : V1 m c = T1 m c := rfl
theorem V2_eq (c : Dev nD) : V2 m (outs m) c = T2 m c := by
  show Function.update (V1 m c) main_v1 (T2 m c main_v1) = T2 m c
  rw [V1_eq]; unfold T2; rw [Function.update_self]
theorem V3_eq (c : Dev nD) : V3 m (outs m) c = T3 m c := by
  show StableHlo.after hostOps1 (V2 m (outs m) c) = StableHlo.after hostOps1 (T2 m c)
  rw [V2_eq]
theorem V4_eq (c : Dev nD) : V4 m (outs m) c = T4 m c := by
  show Function.update (V3 m (outs m) c) main_v3 (T4 m c main_v3) = T4 m c
  rw [V3_eq]; unfold T4; rw [Function.update_self]
theorem V5_eq (c : Dev nD) : V5 m (outs m) c = T5 m c := by
  show StableHlo.after hostOps2 (V4 m (outs m) c) = StableHlo.after hostOps2 (T4 m c)
  rw [V4_eq]
theorem V6_eq (c : Dev nD) : V6 m (outs m) c = T6 m c := by
  show Function.update (V5 m (outs m) c) main_v24 (T6 m c main_v24) = T6 m c
  rw [V5_eq]; unfold T6; rw [Function.update_self]
theorem V7_eq (c : Dev nD) : V7 m (outs m) c = T7 m c := by
  show StableHlo.after hostOps3 (V6 m (outs m) c) = StableHlo.after hostOps3 (T6 m c)
  rw [V6_eq]
theorem V8_eq (c : Dev nD) : V8 m (outs m) c = T8 m c := by
  show StableHlo.after hostOps3_1 (V7 m (outs m) c) = StableHlo.after hostOps3_1 (T7 m c)
  rw [V7_eq]
theorem V9_eq (c : Dev nD) : V9 m (outs m) c = T9 m c := by
  show StableHlo.after hostOps3_2 (V8 m (outs m) c) = StableHlo.after hostOps3_2 (T8 m c)
  rw [V8_eq]
theorem V10_eq (c : Dev nD) : V10 m (outs m) c = T10 m c := by
  show StableHlo.after hostOps3_3 (V9 m (outs m) c) = StableHlo.after hostOps3_3 (T9 m c)
  rw [V9_eq]
theorem V11_eq (c : Dev nD) : V11 m (outs m) c = T11 m c := by
  show StableHlo.after hostOps3_4 (V10 m (outs m) c) = StableHlo.after hostOps3_4 (T10 m c)
  rw [V10_eq]
theorem V12_eq (c : Dev nD) : V12 m (outs m) c = T12 m c := by
  show Function.update (V11 m (outs m) c) main_v77 (T12 m c main_v77) = T12 m c
  rw [V11_eq]; unfold T12; rw [Function.update_self]
theorem V13_eq (c : Dev nD) : V13 m (outs m) c = T13 m c := by
  show StableHlo.after hostOps4 (V12 m (outs m) c) = StableHlo.after hostOps4 (T12 m c)
  rw [V12_eq]
theorem V14_eq (c : Dev nD) : V14 m (outs m) c = T14 m c := by
  show StableHlo.after hostOps4_1 (V13 m (outs m) c) = StableHlo.after hostOps4_1 (T13 m c)
  rw [V13_eq]
theorem V15_eq (c : Dev nD) : V15 m (outs m) c = T15 m c := by
  show StableHlo.after hostOps4_2 (V14 m (outs m) c) = StableHlo.after hostOps4_2 (T14 m c)
  rw [V14_eq]
theorem V16_eq (c : Dev nD) : V16 m (outs m) c = T16 m c := by
  show StableHlo.after hostOps4_3 (V15 m (outs m) c) = StableHlo.after hostOps4_3 (T15 m c)
  rw [V15_eq]
theorem V17_eq (c : Dev nD) : V17 m (outs m) c = T17 m c := by
  show StableHlo.after hostOps4_4 (V16 m (outs m) c) = StableHlo.after hostOps4_4 (T16 m c)
  rw [V16_eq]
theorem V18_eq (c : Dev nD) : V18 m (outs m) c = T18 m c := by
  show Function.update (V17 m (outs m) c) main_v111 (T18 m c main_v111) = T18 m c
  rw [V17_eq]; unfold T18; rw [Function.update_self]
theorem V19_eq (c : Dev nD) : V19 m (outs m) c = T19 m c := by
  show StableHlo.after hostOps5 (V18 m (outs m) c) = StableHlo.after hostOps5 (T18 m c)
  rw [V18_eq]
theorem V20_eq (c : Dev nD) : V20 m (outs m) c = T20 m c := by
  show StableHlo.after hostOps5_1 (V19 m (outs m) c) = StableHlo.after hostOps5_1 (T19 m c)
  rw [V19_eq]
theorem V21_eq (c : Dev nD) : V21 m (outs m) c = T21 m c := by
  show StableHlo.after hostOps5_2 (V20 m (outs m) c) = StableHlo.after hostOps5_2 (T20 m c)
  rw [V20_eq]
theorem V22_eq (c : Dev nD) : V22 m (outs m) c = T22 m c := by
  show StableHlo.after hostOps5_3 (V21 m (outs m) c) = StableHlo.after hostOps5_3 (T21 m c)
  rw [V21_eq]
theorem V23_eq (c : Dev nD) : V23 m (outs m) c = T23 m c := by
  show StableHlo.after hostOps5_4 (V22 m (outs m) c) = StableHlo.after hostOps5_4 (T22 m c)
  rw [V22_eq]
theorem V24_eq (c : Dev nD) : V24 m (outs m) c = T24 m c := by
  show Function.update (V23 m (outs m) c) main_v145 (T24 m c main_v145) = T24 m c
  rw [V23_eq]; unfold T24; rw [Function.update_self]
theorem V25_eq (c : Dev nD) : V25 m (outs m) c = T25 m c := by
  show StableHlo.after hostOps6 (V24 m (outs m) c) = StableHlo.after hostOps6 (T24 m c)
  rw [V24_eq]
theorem V26_eq (c : Dev nD) : V26 m (outs m) c = T26 m c := by
  show Function.update (V25 m (outs m) c) main_v147 (T26 m c main_v147) = T26 m c
  rw [V25_eq]; unfold T26; rw [Function.update_self]
theorem V27_eq (c : Dev nD) : V27 m (outs m) c = T27 m c := by
  show StableHlo.after hostOps7 (V26 m (outs m) c) = StableHlo.after hostOps7 (T26 m c)
  rw [V26_eq]
theorem V28_eq (c : Dev nD) : V28 m (outs m) c = T28 m c := by
  show Function.update (V27 m (outs m) c) main_v168 (T28 m c main_v168) = T28 m c
  rw [V27_eq]; unfold T28; rw [Function.update_self]
theorem V29_eq (c : Dev nD) : V29 m (outs m) c = T29 m c := by
  show StableHlo.after hostOps8 (V28 m (outs m) c) = StableHlo.after hostOps8 (T28 m c)
  rw [V28_eq]
theorem V30_eq (c : Dev nD) : V30 m (outs m) c = T30 m c := by
  show Function.update (V29 m (outs m) c) main_v191 (T30 m c main_v191) = T30 m c
  rw [V29_eq]; unfold T30; rw [Function.update_self]
theorem V31_eq (c : Dev nD) : V31 m (outs m) c = T31 m c := by
  show StableHlo.after hostOps9 (V30 m (outs m) c) = StableHlo.after hostOps9 (T30 m c)
  rw [V30_eq]
theorem V32_eq (c : Dev nD) : V32 m (outs m) c = T32 m c := by
  show Function.update (V31 m (outs m) c) main_v195 (T32 m c main_v195) = T32 m c
  rw [V31_eq]; unfold T32; rw [Function.update_self]
theorem V33_eq (c : Dev nD) : V33 m (outs m) c = T33 m c := by
  show StableHlo.after hostOps10 (V32 m (outs m) c) = StableHlo.after hostOps10 (T32 m c)
  rw [V32_eq]
theorem V34_eq (c : Dev nD) : V34 m (outs m) c = T34 m c := by
  show Function.update (V33 m (outs m) c) main_v199 (T34 m c main_v199) = T34 m c
  rw [V33_eq]; unfold T34; rw [Function.update_self]
theorem V35_eq (c : Dev nD) : V35 m (outs m) c = T35 m c := by
  show StableHlo.after hostOps11 (V34 m (outs m) c) = StableHlo.after hostOps11 (T34 m c)
  rw [V34_eq]

/-! What rides beside the buffers through every item. -/

/-- No core owes another anything: no level is assigned. -/
abbrev Lf : GSem nD τ sig → Finset Unit := fun _ => ∅
abbrev lvf : GSem nD τ sig → Unit → ℕ := fun _ _ => 0

/-- The core's generator register at some state, and the core owing nothing. -/
abbrev Rst (c : Dev nD) : sProp 𝕄 :=
  iprop((∃ r, prngReg c r) ∗ ∃ W, owes (c : Thread nD τ) (0 : CellTallies nD τ sig Unit) W)

/-- An unscoped TensorCore reference is among those a boundary's state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.K.SegLib.lean ====
import proofs.«162078_j40114994545134_1_alg».proof.Proof.K.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Cert.Kernel.GenP

variable (m : (ℓ : Loc nD τ sig) → Buf (Elt F) ℓ)

-- a region whose arrays are split out of the unscoped buffers at entry and joined back at exit, one of them replaced
set_option backward.isDefEq.respectTransparency.types false in

def mkReg (p : Fin 11) (lf : Pipeline.LaunchFacts (nD := nD) (τ := τ) cfgs p) (Tin Tout : Dev nD → Valuation τ sig (Elt F))
    (hbody : ∀ c, Pipeline.BodyObligationLoose (pdats m p c) defs₀ Variants.none () Set.univ)
    (howed : ∀ c t, (pdats m p c).owed t = 0) (hrec : ∀ c t, (pdats m p c).recorded t = Set.univ)
    (hshare : ∀ c w, (pdats m p c).share w = fullShare)
    (hA : ∀ c w, (pdats m p c).A w = rd Tin c (Pipeline.arrRef (Pipeline.pin (pcfgs (F := F)) adm p).spec w))
    (hΦ : ∀ c i, (pdats m p c).Φ i = Pipeline.ΦA (Pipeline.pin (pcfgs (F := F)) adm p).spec c)
    (hF : ∀ c w, (pdats m p c).arrAt w (Pipeline.pin (pcfgs (F := F)) adm p).N = rd Tout c (Pipeline.arrRef (Pipeline.pin (pcfgs (F := F)) adm p).spec w))
    (hrest : ∀ c b, b ∉ Finset.univ.image (Pipeline.arrRef (Pipeline.pin (pcfgs (F := F)) adm p).spec) → rd Tout c b = rd Tin c b) :
    Pipeline.RegionSeg (pcfgs (F := F)) adm (pdats m) () defs₀ Variants.none Lf lvf p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ Lf lvf p howed
  pre c := iprop(StableHlo.held (c : Thread nD τ) (Pipeline.ucRefs τ sig) (Tin c) ∗ Rst c)
  post c := iprop(StableHlo.held (c : Thread nD τ) (Pipeline.ucRefs τ sig) (Tout c) ∗ Rst c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (rd Tin c)
  hentry c := by
    rw [Pipeline.ownSems0_none]
    have hsplit := Pipeline.arrays_of_unscopedBufs (p := p) (pcfgs (F := F)) adm (pdats m) lf.win lf.arr_whole c
      (hshare c) (rd Tin c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c 0]
      icases HO with ⟨%W, HO⟩; iexists W; isplitr; · ipureintro; exact fun _ _ => Or.inl (by rw [hrec c 0]; trivial)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) (hshare c)
      (rd Tin c) (rd Tout c) ((pdats m p c).arrAt · (Pipeline.pin (pcfgs (F := F)) adm p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c (Fin.last _)]
    icases HO with ⟨%W, -, HO⟩; iexists W; iexact HO

end Cert.Kernel.Hand

end
-- ==== Proof.K.Reg0.lean ====
/-
  A linear layer's region, the frame half: the body's one store covers the output window's buffer; the body's
  triple on whole staging memrefs (three loads of the inputs, a load of the output block whose value is not used, one
  store of the product-plus-bias); every input window's current buffer holds its block at every grid point, fetched
  there or not; and the pipeline's body obligation at a generic point.
-/
import proofs.«162078_j40114994545134_1_alg».proof.Proof.K.Def0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's store covers the output buffer -/

/-- The one store is of the whole block, so its rectangle tiles the buffer and every index lies in it. -/
theorem cover0_3 (p0 : Vec F S10000x128 .f32) (y : S10000x128.Idx) :
    ∃ pc ∈ ([⟨r0_o, p0⟩] : List (View.Piece (Elt F) S10000x128 .f32)), y ∈ pc.1.set :=
  View.cover_of_tiled [⟨r0_o, p0⟩] S10000x128.size (by rfl) y

/-! ## The body's triple -/

set_option maxHeartbeats 1000000 in
/-- The body on whole staging memrefs, the inputs' at read contents `x0`, `x1`, `x2` and the output's at anything, runs
    to the continuation holding the inputs' as they were and the output's at `out0_3` of them: the three input loads
    return the buffers' reads through the whole-block rectangles, the load of the output block is not used, and the
    one store overwrites every index of the output buffer (`cover0_3`), so what was there before does not matter. -/
theorem sound_kernel0 (c : Dev nD) (E : Set ℕ) (i : grid0.Coords)
    (arg0 : Memref sig .tc .vmem S10000x32 .f32) (harg0 : arg0.IsWhole)
    (arg1 : Memref sig .tc .vmem S32x128 .f32) (harg1 : arg1.IsWhole)
    (arg2 : Memref sig .tc .vmem S1x128 .f32) (harg2 : arg2.IsWhole)
    (arg3 : Memref sig .tc .vmem S10000x128 .f32) (harg3 : arg3.IsWhole)
    (x0 : Vec F S10000x32 .f32) (x1 : Vec F S32x128 .f32) (x2 : Vec F S1x128 .f32) (K : PUnit → sProp 𝕄) :
    iprop(owns (c : Thread nD τ) arg0 fullShare x0 ∗ owns (c : Thread nD τ) arg1 fullShare x1
        ∗ owns (c : Thread nD τ) arg2 fullShare x2 ∗ (∃ d, owns (c : Thread nD τ) arg3 fullShare d)
        ∗ (iprop(owns (c : Thread nD τ) arg0 fullShare x0 ∗ owns (c : Thread nD τ) arg1 fullShare x1
            ∗ owns (c : Thread nD τ) arg2 fullShare x2 ∗ owns (c : Thread nD τ) arg3 fullShare (out0_3 x0 x1 x2)) -∗ K ⟨⟩))
      ⊢ wp frame (wpE (defs₀ (F := F)) Variants.none c none) E (cc0__linear_kernel i arg0 harg0 arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The input windows' buffers before the body -/

/-- Input window 0's current staging buffer holds its block at every point, for any proof data whose array is the
    entry contents' and whose body leaves the block in place: at a point where it is fetched it is the fetched block,
    and where it is not the block index has not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for input window 1 (the weight: fetched at the first point only, its block index constant). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same for input window 2 (the bias row: fetched at the first point only, its block index constant). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Each input's current staging buffer holds its block at every point of the region's own proof data. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, the core's debt, and every window's current staging
    memref at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns: the same invariant and debt, every window's memref at the proof data's `after`. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_0` … `before0_2`), so the body's triple
    applies; the invariant and the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/-
  A linear layer's region, the frame half: the body's one store covers the output window's buffer; the body's
  triple on whole staging memrefs (three loads of the inputs, a load of the output block whose value is not used, one
  store of the product-plus-bias); every input window's current buffer holds its block at every grid point, fetched
  there or not; and the pipeline's body obligation at a generic point.
-/
import proofs.«162078_j40114994545134_1_alg».proof.Proof.K.Def1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's store covers the output buffer -/

/-- The one store is of the whole block, so its rectangle tiles the buffer and every index lies in it. -/
theorem cover1_3 (p0 : Vec F S10000x128 .f32) (y : S10000x128.Idx) :
    ∃ pc ∈ ([⟨r1_o, p0⟩] : List (View.Piece (Elt F) S10000x128 .f32)), y ∈ pc.1.set :=
  View.cover_of_tiled [⟨r1_o, p0⟩] S10000x128.size (by rfl) y

/-! ## The body's triple -/

set_option maxHeartbeats 1000000 in
/-- The body on whole staging memrefs, the inputs' at read contents `x0`, `x1`, `x2` and the output's at anything, runs
    to the continuation holding the inputs' as they were and the output's at `out1_3` of them: the three input loads
    return the buffers' reads through the whole-block rectangles, the load of the output block is not used, and the
    one store overwrites every index of the output buffer (`cover1_3`), so what was there before does not matter. -/
theorem sound_kernel1 (c : Dev nD) (E : Set ℕ) (i : grid1.Coords)
    (arg0 : Memref sig .tc .vmem S10000x128 .f32) (harg0 : arg0.IsWhole)
    (arg1 : Memref sig .tc .vmem S128x128 .f32) (harg1 : arg1.IsWhole)
    (arg2 : Memref sig .tc .vmem S1x128 .f32) (harg2 : arg2.IsWhole)
    (arg3 : Memref sig .tc .vmem S10000x128 .f32) (harg3 : arg3.IsWhole)
    (x0 : Vec F S10000x128 .f32) (x1 : Vec F S128x128 .f32) (x2 : Vec F S1x128 .f32) (K : PUnit → sProp 𝕄) :
    iprop(owns (c : Thread nD τ) arg0 fullShare x0 ∗ owns (c : Thread nD τ) arg1 fullShare x1
        ∗ owns (c : Thread nD τ) arg2 fullShare x2 ∗ (∃ d, owns (c : Thread nD τ) arg3 fullShare d)
        ∗ (iprop(owns (c : Thread nD τ) arg0 fullShare x0 ∗ owns (c : Thread nD τ) arg1 fullShare x1
            ∗ owns (c : Thread nD τ) arg2 fullShare x2 ∗ owns (c : Thread nD τ) arg3 fullShare (out1_3 x0 x1 x2)) -∗ K ⟨⟩))
      ⊢ wp frame (wpE (defs₀ (F := F)) Variants.none c none) E (cc1__linear_kernel i arg0 harg0 arg1 harg1 arg2 harg2 arg3 harg3) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The input windows' buffers before the body -/

/-- Input window 0's current staging buffer holds its block at every point, for any proof data whose array is the
    entry contents' and whose body leaves the block in place: at a point where it is fetched it is the fetched block,
    and where it is not the block index has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same for input window 1 (the weight: fetched at the first point only, its block index constant). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The same for input window 2 (the bias row: fetched at the first point only, its block index constant). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Each input's current staging buffer holds its block at every point of the region's own proof data. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`: the invariant, the core's debt, and every window's current staging
    memref at what the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns: the same invariant and debt, every window's memref at the proof data's `after`. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_0` … `before1_2`), so the body's triple
    applies; the invariant and the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
/-
  A linear layer's region, the frame half: the body's one store covers the output window's buffer; the body's
  triple on whole staging memrefs (three loads of the inputs, a load of the output block whose value is not used, one
  store of the product-plus-bias); every input window's current buffer holds its block at every grid point, fetched
  there or not; and the pipeline's body obligation at a generic point.
-/
import proofs.«162078_j40114994545134_1_alg».proof.Proof.K.Def2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's store covers the output buffer -/

/-- The one store is of the whole block, so its rectangle tiles the buffer and every index lies in it. -/
theorem cover2_3 (p0 : Vec F S5000x128 .f32) (y : S5000x128.Idx) :
    ∃ pc ∈ ([⟨r2_o, p0⟩] : List (View.Piece (Elt F) S5000x128 .f32)), y ∈ pc.1.set :=
  View.cover_of_tiled [⟨r2_o, p0⟩] S5000x128.size (by rfl) y

/-! ## The body's triple -/

set_option maxHeartbeats 1000000 in
/-- The body on whole staging memrefs, the inputs' at read contents `x0`, `x1`, `x2` and the output's at anything, runs
    to the continuation holding the inputs' as they were and the output's at `out2_3` of them: the three input loads
    return the buffers' reads through the whole-block rectangles, the load of the output block is not used, and the
    one store overwrites every index of the output buffer (`cover2_3`), so what was there before does not matter. -/
theorem sound_kernel2 (c : Dev nD) (E : Set ℕ) (i : grid2.Coords)
    (arg0 : Memref sig .tc .vmem S5000x128 .f32) (harg0 : arg0.IsWhole)
    (arg1 : Memref sig .tc .vmem S128x128 .f32) (harg1 : arg1.IsWhole)
    (arg2 : Memref sig .tc .vmem S1x128 .f32) (harg2 : arg2.IsWhole)
    (arg3 : Memref sig .tc .vmem S5000x128 .f32) (harg3 : arg3.IsWhole)
    (x0 : Vec F S5000x128 .f32) (x1 : Vec F S128x128 .f32) (x2 : Vec F S1x128 .f32) (K : PUnit → sProp 𝕄) :
    iprop(owns (c : Thread nD τ) arg0 fullShare x0 ∗ owns (c : Thread nD τ) arg1 fullShare x1
        ∗ owns (c : Thread nD τ) arg2 fullShare x2 ∗ (∃ d, owns (c : Thread nD τ) arg3 fullShare d)
        ∗ (iprop(owns (c : Thread nD τ) arg0 fullShare x0 ∗ owns (c : Thread nD τ) arg1 fullShare x1
            ∗ owns (c : Thread nD τ) arg2 fullShare x2 ∗ owns (c : Thread nD τ) arg3 fullShare (out2_3 x0 x1 x2)) -∗ K ⟨⟩))
      ⊢ wp frame (wpE (defs₀ (F := F)) Variants.none c none) E (cc2__linear_kernel i arg0 harg0 arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The input windows' buffers before the body -/

/-- Input window 0's current staging buffer holds its block at every point, for any proof data whose array is the
    entry contents' and whose body leaves the block in place: at a point where it is fetched it is the fetched block,
    and where it is not the block index has not moved since the last fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The same for input window 1 (the weight: fetched at the first point only, its block index constant). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The same for input window 2 (the bias row: fetched at the first point only, its block index constant). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Each input's current staging buffer holds its block at every point of the region's own proof data. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`: the invariant, the core's debt, and every window's current staging
    memref at what the pipeline left in it, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns: the same invariant and debt, every window's memref at the proof data's `after`. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks (`before2_0` … `before2_2`), so the body's triple
    applies; the invariant and the core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3.lean ====
/-
  The scaled linear layer's region whose data `Def3` gives, its body: run on whole staging buffers that hold the four
  input blocks, the body reads each of them whole, reads the output buffer (a value it does not use) and stores the
  scaled product plus bias over the whole output buffer once; so it leaves the inputs as they were and the output buffer
  at `out3_4` of them. With each input's staging buffer holding that input's block at every grid point, this is the
  pipeline's body obligation for the proof data `dat3`.
-/
import proofs.«162078_j40114994545134_1_alg».proof.Proof.K.Def3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' staging buffers before the body -/

/-- Input window 0's current staging buffer holds its block at every point, whether the block is fetched there or was
    fetched earlier and has not moved since, for any proof data whose array is the entry contents' (`hA`) and whose
    body leaves the block in place (`hafter`). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, whether the block is fetched there or was
    fetched earlier and has not moved since, for any proof data whose array is the entry contents' (`hA`) and whose
    body leaves the block in place (`hafter`). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, whether the block is fetched there or was
    fetched earlier and has not moved since, for any proof data whose array is the entry contents' (`hA`) and whose
    body leaves the block in place (`hafter`). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, whether the block is fetched there or was
    fetched earlier and has not moved since, for any proof data whose array is the entry contents' (`hA`) and whose
    body leaves the block in place (`hafter`). -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The output window's one store covers its buffer -/

/-- The store's rectangle is the whole buffer, so it covers it. -/
theorem cover3_4 (p0 : Vec F S10000x128 .f32) (y : S10000x128.Idx) :
    ∃ pc ∈ ([⟨r3_x, p0⟩] : List (View.Piece (Elt F) S10000x128 .f32)), y ∈ pc.1.set :=
  View.cover_of_tiled [⟨r3_x, p0⟩] S10000x128.size (by rfl) y

/-! ## The body's triple -/

set_option maxHeartbeats 1000000 in
/-- The body on whole staging buffers, the inputs' at read contents `x0 … x3` and the output's at anything, runs to the
    continuation holding the inputs' as they were and the output's at `out3_4` of the inputs': every load reads the
    whole of its buffer, and the one store writes the whole of the output's, so what was there before does not show. -/
theorem sound_kernel3 (c : Dev nD) (E : Set ℕ) (i : grid3.Coords)
    (arg1 : Memref sig .tc .vmem S10000x128 .f32) (harg1 : arg1.IsWhole)
    (arg2 : Memref sig .tc .vmem S10000x1 .f32) (harg2 : arg2.IsWhole)
    (arg3 : Memref sig .tc .vmem S128x128 .f32) (harg3 : arg3.IsWhole)
    (arg4 : Memref sig .tc .vmem S1x128 .f32) (harg4 : arg4.IsWhole)
    (arg5 : Memref sig .tc .vmem S10000x128 .f32) (harg5 : arg5.IsWhole)
    (x0 : Vec F S10000x128 .f32) (x1 : Vec F S10000x1 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out3_4 x0 x1 x2 x3)) -∗ K ⟨⟩))
      ⊢ wp frame (wpE (defs₀ (F := F)) Variants.none c none) E (cc3__scaled_linear_kernel i arg1 harg1 arg2 harg2 arg3 harg3 arg4 harg4 arg5 harg5) K := by
  simp only [cc3__scaled_linear_kernel_eq_skeleton]; unfold cc3__scaled_linear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The inputs' staging buffers at the proof data -/

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' buffers hold their blocks (`before3_w`), so `sound_kernel3` applies; the invariant
    and what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Reg4.lean ====
/-
  The scaled linear layer's region whose data `Def4` gives, its body: run on whole staging buffers that hold the four
  input blocks, the body reads each of them whole, reads the output buffer (a value it does not use) and stores the
  scaled product plus bias over the whole output buffer once; so it leaves the inputs as they were and the output buffer
  at `out4_4` of them. With each input's staging buffer holding that input's block at every grid point, this is the
  pipeline's body obligation for the proof data `dat4`.
-/
import proofs.«162078_j40114994545134_1_alg».proof.Proof.K.Def4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' staging buffers before the body -/

/-- Input window 0's current staging buffer holds its block at every point, whether the block is fetched there or was
    fetched earlier and has not moved since, for any proof data whose array is the entry contents' (`hA`) and whose
    body leaves the block in place (`hafter`). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, whether the block is fetched there or was
    fetched earlier and has not moved since, for any proof data whose array is the entry contents' (`hA`) and whose
    body leaves the block in place (`hafter`). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's current staging buffer holds its block at every point, whether the block is fetched there or was
    fetched earlier and has not moved since, for any proof data whose array is the entry contents' (`hA`) and whose
    body leaves the block in place (`hafter`). -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3's current staging buffer holds its block at every point, whether the block is fetched there or was
    fetched earlier and has not moved since, for any proof data whose array is the entry contents' (`hA`) and whose
    body leaves the block in place (`hafter`). -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The output window's one store covers its buffer -/

/-- The store's rectangle is the whole buffer, so it covers it. -/
theorem cover4_4 (p0 : Vec F S5000x128 .f32) (y : S5000x128.Idx) :
    ∃ pc ∈ ([⟨r4_x, p0⟩] : List (View.Piece (Elt F) S5000x128 .f32)), y ∈ pc.1.set :=
  View.cover_of_tiled [⟨r4_x, p0⟩] S5000x128.size (by rfl) y

/-! ## The body's triple -/

set_option maxHeartbeats 1000000 in
/-- The body on whole staging buffers, the inputs' at read contents `x0 … x3` and the output's at anything, runs to the
    continuation holding the inputs' as they were and the output's at `out4_4` of the inputs': every load reads the
    whole of its buffer, and the one store writes the whole of the output's, so what was there before does not show. -/
theorem sound_kernel4 (c : Dev nD) (E : Set ℕ) (i : grid4.Coords)
    (arg1 : Memref sig .tc .vmem S5000x128 .f32) (harg1 : arg1.IsWhole)
    (arg2 : Memref sig .tc .vmem S5000x1 .f32) (harg2 : arg2.IsWhole)
    (arg3 : Memref sig .tc .vmem S128x128 .f32) (harg3 : arg3.IsWhole)
    (arg4 : Memref sig .tc .vmem S1x128 .f32) (harg4 : arg4.IsWhole)
    (arg5 : Memref sig .tc .vmem S5000x128 .f32) (harg5 : arg5.IsWhole)
    (x0 : Vec F S5000x128 .f32) (x1 : Vec F S5000x1 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out4_4 x0 x1 x2 x3)) -∗ K ⟨⟩))
      ⊢ wp frame (wpE (defs₀ (F := F)) Variants.none c none) E (cc4__scaled_linear_kernel i arg1 harg1 arg2 harg2 arg3 harg3 arg4 harg4 arg5 harg5) K := by
  simp only [cc4__scaled_linear_kernel_eq_skeleton]; unfold cc4__scaled_linear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-! ## The inputs' staging buffers at the proof data -/

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' buffers hold their blocks (`before4_w`), so `sound_kernel4` applies; the invariant
    and what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Reg5.lean ====
/-
  The scaled linear layer's region whose data `Def5` gives, its body: run on whole staging buffers that hold the four
  input blocks, the body reads each of them whole, reads the output buffer (a value it does not use) and stores the
  scaled product plus bias over the whole output buffer once; so it leaves the inputs as they were and the output buffer
  at `out5_4` of them. With each input's staging buffer holding that input's block at every grid point, this is the
  pipeline's body obligation for the proof data `dat5`.
-/
import proofs.«162078_j40114994545134_1_alg».proof.Proof.K.Def5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' staging buffers before the body -/

/-- Input window 0's current staging buffer holds its block at every point, whether the block is fetched there or was
    fetched earlier and has not moved since, for any proof data whose array is the entry contents' (`hA`) and whose
    body leaves the block in place (`hafter`). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, whether the block is fetched there or was
    fetched earlier and has not moved since, for any proof data whose array is the entry contents' (`hA`) and whose
    body leaves the block in place (`hafter`). -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block at every point, whether the block is fetched there or was
    fetched earlier and has not moved since, for any proof data whose array is the entry contents' (`hA`) and whose
    body leaves the block in place (`hafter`). -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's current staging buffer holds its block at every point, whether the block is fetched there or was
    fetched earlier and has not moved since, for any proof data whose array is the entry contents' (`hA`) and whose
    body leaves the block in place (`hafter`). -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-! ## The output window's one store covers its buffer -/

/-- The store's rectangle is the whole buffer, so it covers it. -/
theorem cover5_4 (p0 : Vec F S6250x128 .f32) (y : S6250x128.Idx) :
    ∃ pc ∈ ([⟨r5_x, p0⟩] : List (View.Piece (Elt F) S6250x128 .f32)), y ∈ pc.1.set :=
  View.cover_of_tiled [⟨r5_x, p0⟩] S6250x128.size (by rfl) y

/-! ## The body's triple -/

set_option maxHeartbeats 1000000 in
/-- The body on whole staging buffers, the inputs' at read contents `x0 … x3` and the output's at anything, runs to the
    continuation holding the inputs' as they were and the output's at `out5_4` of the inputs': every load reads the
    whole of its buffer, and the one store writes the whole of the output's, so what was there before does not show. -/
theorem sound_kernel5 (c : Dev nD) (E : Set ℕ) (i : grid5.Coords)
    (arg1 : Memref sig .tc .vmem S6250x128 .f32) (harg1 : arg1.IsWhole)
    (arg2 : Memref sig .tc .vmem S6250x1 .f32) (harg2 : arg2.IsWhole)
    (arg3 : Memref sig .tc .vmem S128x128 .f32) (harg3 : arg3.IsWhole)
    (arg4 : Memref sig .tc .vmem S1x128 .f32) (harg4 : arg4.IsWhole)
    (arg5 : Memref sig .tc .vmem S6250x128 .f32) (harg5 : arg5.IsWhole)
    (x0 : Vec F S6250x128 .f32) (x1 : Vec F S6250x1 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out5_4 x0 x1 x2 x3)) -∗ K ⟨⟩))
      ⊢ wp frame (wpE (defs₀ (F := F)) Variants.none c none) E (cc5__scaled_linear_kernel i arg1 harg1 arg2 harg2 arg3 harg3 arg4 harg4 arg5 harg5) K := by
  simp only [cc5__scaled_linear_kernel_eq_skeleton]; unfold cc5__scaled_linear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

/-! ## The inputs' staging buffers at the proof data -/

/-- Each input's current staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the inputs' buffers hold their blocks (`before5_w`), so `sound_kernel5` applies; the invariant
    and what the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Reg6.lean ====
/-
  A linear layer's region, the frame half: the body's one store covers the output window's buffer; the body's
  triple on whole staging memrefs (three loads of the inputs, a load of the output block whose value is not used, one
  store of the product-plus-bias); every input window's current buffer holds its block at every grid point, fetched
  there or not; and the pipeline's body obligation at a generic point.
-/
import proofs.«162078_j40114994545134_1_alg».proof.Proof.K.Def6

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's store covers the output buffer -/

/-- The one store is of the whole block, so its rectangle tiles the buffer and every index lies in it. -/
theorem cover6_3 (p0 : Vec F S6250x128 .f32) (y : S6250x128.Idx) :
    ∃ pc ∈ ([⟨r6_o, p0⟩] : List (View.Piece (Elt F) S6250x128 .f32)), y ∈ pc.1.set :=
  View.cover_of_tiled [⟨r6_o, p0⟩] S6250x128.size (by rfl) y

/-! ## The body's triple -/

set_option maxHeartbeats 1000000 in
/-- The body on whole staging memrefs, the inputs' at read contents `x0`, `x1`, `x2` and the output's at anything, runs
    to the continuation holding the inputs' as they were and the output's at `out6_3` of them: the three input loads
    return the buffers' reads through the whole-block rectangles, the load of the output block is not used, and the
    one store overwrites every index of the output buffer (`cover6_3`), so what was there before does not matter. -/
theorem sound_kernel6 (c : Dev nD) (E : Set ℕ) (i : grid6.Coords)
    (arg0 : Memref sig .tc .vmem S6250x128 .f32) (harg0 : arg0.IsWhole)
    (arg1 : Memref sig .tc .vmem S128x128 .f32) (harg1 : arg1.IsWhole)
    (arg2 : Memref sig .tc .vmem S1x128 .f32) (harg2 : arg2.IsWhole)
    (arg3 : Memref sig .tc .vmem S6250x128 .f32) (harg3 : arg3.IsWhole)
    (x0 : Vec F S6250x128 .f32) (x1 : Vec F S128x128 .f32) (x2 : Vec F S1x128 .f32) (K : PUnit → sProp 𝕄) :
    iprop(owns (c : Thread nD τ) arg0 fullShare x0 ∗ owns (c : Thread nD τ) arg1 fullShare x1
        ∗ owns (c : Thread nD τ) arg2 fullShare x2 ∗ (∃ d, owns (c : Thread nD τ) arg3 fullShare d)
        ∗ (iprop(owns (c : Thread nD τ) arg0 fullShare x0 ∗ owns (c : Thread nD τ) arg1 fullShare x1
            ∗ owns (c : Thread nD τ) arg2 fullShare x2 ∗ owns (c : Thread nD τ) arg3 fullShare (out6_3 x0 x1 x2)) -∗ K ⟨⟩))
      ⊢ wp frame (wpE (defs₀ (F := F)) Variants.none c none) E (cc6__linear_kernel i arg0 harg0 arg1 harg1 arg2 harg2 arg3 harg3) K := by
  simp only [cc6__linear_kernel_eq_skeleton]; unfold cc6__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-! ## The input windows' buffers before the body -/

/-- Input window 0's current staging buffer holds its block at every point, for any proof data whose array is the
    entry contents' and whose body leaves the block in place: at a point where it is fetched it is the fetched block,
    and where it is not the block index has not moved since the last fetch. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- The same for input window 1 (the weight: fetched at the first point only, its block index constant). -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- The same for input window 2 (the bias row: fetched at the first point only, its block index constant). -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Each input's current staging buffer holds its block at every point of the region's own proof data. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

/-- What the body is called with at point `t`: the invariant, the core's debt, and every window's current staging
    memref at what the pipeline left in it, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns: the same invariant and debt, every window's memref at the proof data's `after`. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' memrefs hold their blocks (`before6_0` … `before6_2`), so the body's triple
    applies; the invariant and the core's debt pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.Reg7.lean ====
/-
  A linear layer's region, the frame half: the body's one store covers the output window's buffer; the body's
  triple on whole staging memrefs (three loads of the inputs, a load of the output block whose value is not used, one
  store of the product-plus-bias); every input window's current buffer holds its block at every grid point, fetched
  there or not; and the pipeline's body obligation at a generic point.
-/
import proofs.«162078_j40114994545134_1_alg».proof.Proof.K.Def7

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's store covers the output buffer -/

/-- The one store is of the whole block, so its rectangle tiles the buffer and every index lies in it. -/
theorem cover7_3 (p0 : Vec F S5000x128 .f32) (y : S5000x128.Idx) :
    ∃ pc ∈ ([⟨r7_o, p0⟩] : List (View.Piece (Elt F) S5000x128 .f32)), y ∈ pc.1.set :=
  View.cover_of_tiled [⟨r7_o, p0⟩] S5000x128.size (by rfl) y

/-! ## The body's triple -/

set_option maxHeartbeats 1000000 in
/-- The body on whole staging memrefs, the inputs' at read contents `x0`, `x1`, `x2` and the output's at anything, runs
    to the continuation holding the inputs' as they were and the output's at `out7_3` of them: the three input loads
    return the buffers' reads through the whole-block rectangles, the load of the output block is not used, and the
    one store overwrites every index of the output buffer (`cover7_3`), so what was there before does not matter. -/
theorem sound_kernel7 (c : Dev nD) (E : Set ℕ) (i : grid7.Coords)
    (arg0 : Memref sig .tc .vmem S5000x128 .f32) (harg0 : arg0.IsWhole)
    (arg1 : Memref sig .tc .vmem S128x128 .f32) (harg1 : arg1.IsWhole)
    (arg2 : Memref sig .tc .vmem S1x128 .f32) (harg2 : arg2.IsWhole)
    (arg3 : Memref sig .tc .vmem S5000x128 .f32) (harg3 : arg3.IsWhole)
    (x0 : Vec F S5000x128 .f32) (x1 : Vec F S128x128 .f32) (x2 : Vec F S1x128 .f32) (K : PUnit → sProp 𝕄) :
    iprop(owns (c : Thread nD τ) arg0 fullShare x0 ∗ owns (c : Thread nD τ) arg1 fullShare x1
        ∗ owns (c : Thread nD τ) arg2 fullShare x2 ∗ (∃ d, owns (c : Thread nD τ) arg3 fullShare d)
        ∗ (iprop(owns (c : Thread nD τ) arg0 fullShare x0 ∗ owns (c : Thread nD τ) arg1 fullShare x1
            ∗ owns (c : Thread nD τ) arg2 fullShare x2 ∗ owns (c : Thread nD τ) arg3 fullShare (out7_3 x0 x1 x2)) -∗ K ⟨⟩))
      ⊢ wp frame (wpE (defs₀ (F := F)) Variants.none c none) E (cc7__linear_kernel i arg0 harg0 arg1 harg1 arg2 harg2 arg3 harg3) K := by
  simp only [cc7__linear_kernel_eq_skeleton]; unfold cc7__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

/-! ## The input windows' buffers before the body -/

/-- Input window 0's current staging buffer holds its block at every point, for any proof data whose array is the
    entry contents' and whose body leaves the block in place: at a point where it is fetched it is the fetched block,
    and where it is not the block index has not moved since the last fetch. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- The same for input window 1 (the weight: fetched at the first point only, its block index constant). -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- The same for input window 2 (the bias row: fetched at the first point only, its block index constant). -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Each input's current staging buffer holds its block at every point of the region's own proof data. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point `t`: the invariant, the core's debt, and every window's current staging
    memref at what the pipeline left in it, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns: the same invariant and debt, every window's memref at the proof data's `after`. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' memrefs hold their blocks (`before7_0` … `before7_2`), so the body's triple
    applies; the invariant and the core's debt pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.K.Reg8.lean ====
/-
  An output head's region, the frame half: each input window's current staging buffer holds that window's block
  at every grid point; the body's one store covers the output block; the body, run on whole staging memrefs, leaves
  the five inputs as they were and the output at `out8_5` of them; hence the pipeline's body obligation for the
  proof data `dat8`, at any contents `V` the region is entered with.
-/
import proofs.«162078_j40114994545134_1_alg».proof.Proof.K.Def8
import proofs.«162078_j40114994545134_1_alg».proof.Proof.Gen.Kernel.Launch
import proofs.«162078_j40114994545134_1_alg».proof.Proof.Gen.Kernel.Skeleton
import proofs.«162078_j40114994545134_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' current buffers -/

/-- Input window 0's current staging buffer holds its block at every point, for any proof data whose array is the
    entry contents and whose body leaves the block in place: the window is an input, never idle and uncut, so the
    buffer is what was last fetched, and an unfetched point's block index has not moved. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- The same for input window 1. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
/-- The same for input window 2 (fetched at the first point only: its block is the same at every point). -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
/-- The same for input window 3 (fetched at the first point only). -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
/-- The same for input window 4 (fetched at the first point only). -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-! ## The output window's one store covers its buffer -/

/-- The one stored rectangle is the whole output block, so every index of the block lies in it. -/
theorem cover8_5 (p0 : Vec F S10000x5 .f32) (y : S10000x5.Idx) :
    ∃ pc ∈ ([⟨r8_o, p0⟩] : List (View.Piece (Elt F) S10000x5 .f32)), y ∈ pc.1.set :=
  View.cover_of_tiled [⟨r8_o, p0⟩] S10000x5.size (by rfl) y

/-! ## The body's triple -/

set_option maxHeartbeats 1000000 in
/-- The body on whole staging memrefs, the five inputs' at read contents `x0 … x4` and the output's at anything, runs
    to the continuation holding the inputs' as they were and the output's at `out8_5` of the inputs: five whole-block
    loads, a load of the output block whose value is unused, and one whole-block store of the payload. -/
theorem sound_kernel8 (c : Dev nD) (E : Set ℕ) (i : grid8.Coords)
    (arg1 : Memref sig .tc .vmem S10000x128 .f32) (harg1 : arg1.IsWhole) (arg2 : Memref sig .tc .vmem S10000x128 .f32) (harg2 : arg2.IsWhole)
    (arg3 : Memref sig .tc .vmem S128x5 .f32) (harg3 : arg3.IsWhole) (arg4 : Memref sig .tc .vmem S128x5 .f32) (harg4 : arg4.IsWhole)
    (arg5 : Memref sig .tc .vmem S1x5 .f32) (harg5 : arg5.IsWhole) (arg6 : Memref sig .tc .vmem S10000x5 .f32) (harg6 : arg6.IsWhole)
    (x0 : Vec F S10000x128 .f32) (x1 : Vec F S10000x128 .f32) (x2 : Vec F S128x5 .f32) (x3 : Vec F S128x5 .f32) (x4 : Vec F S1x5 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out8_5 x0 x1 x2 x3 x4)) -∗ K ⟨⟩))
      ⊢ wp frame (wpE (defs₀ (F := F)) Variants.none c none) E
          (cc8__head_kernel i arg1 harg1 arg2 harg2 arg3 harg3 arg4 harg4 arg5 harg5 arg6 harg6) K := by
  simp only [cc8__head_kernel_eq_skeleton]; unfold cc8__head_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-! ## The inputs' buffers under the region's proof data -/

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-! ## The body obligation, at a generic point -/

/-- What the body is called with at point `t`: the invariant, what the core owes, and each window's current staging
    buffer at what it then holds, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- The body at any point: the inputs' memrefs hold their blocks (`before8_w`), so `sound_kernel8` applies; the
    invariant and what the core owes pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ (grid8.coords t) _ _ _ _ _ _ _ _ _ _ _ _
    (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.K.Reg9.lean ====
/-
  An output head's region, the frame half: each input window's current staging buffer holds that window's block
  at every grid point; the body's one store covers the output block; the body, run on whole staging memrefs, leaves
  the five inputs as they were and the output at `out9_5` of them; hence the pipeline's body obligation for the
  proof data `dat9`, at any contents `V` the region is entered with.
-/
import proofs.«162078_j40114994545134_1_alg».proof.Proof.K.Def9
import proofs.«162078_j40114994545134_1_alg».proof.Proof.Gen.Kernel.Launch
import proofs.«162078_j40114994545134_1_alg».proof.Proof.Gen.Kernel.Skeleton
import proofs.«162078_j40114994545134_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' current buffers -/

/-- Input window 0's current staging buffer holds its block at every point, for any proof data whose array is the
    entry contents and whose body leaves the block in place: the window is an input, never idle and uncut, so the
    buffer is what was last fetched, and an unfetched point's block index has not moved. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
/-- The same for input window 1. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
/-- The same for input window 2 (fetched at the first point only: its block is the same at every point). -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)
/-- The same for input window 3 (fetched at the first point only). -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)
/-- The same for input window 4 (fetched at the first point only). -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-! ## The output window's one store covers its buffer -/

/-- The one stored rectangle is the whole output block, so every index of the block lies in it. -/
theorem cover9_5 (p0 : Vec F S5000x5 .f32) (y : S5000x5.Idx) :
    ∃ pc ∈ ([⟨r9_o, p0⟩] : List (View.Piece (Elt F) S5000x5 .f32)), y ∈ pc.1.set :=
  View.cover_of_tiled [⟨r9_o, p0⟩] S5000x5.size (by rfl) y

/-! ## The body's triple -/

set_option maxHeartbeats 1000000 in
/-- The body on whole staging memrefs, the five inputs' at read contents `x0 … x4` and the output's at anything, runs
    to the continuation holding the inputs' as they were and the output's at `out9_5` of the inputs: five whole-block
    loads, a load of the output block whose value is unused, and one whole-block store of the payload. -/
theorem sound_kernel9 (c : Dev nD) (E : Set ℕ) (i : grid9.Coords)
    (arg1 : Memref sig .tc .vmem S5000x128 .f32) (harg1 : arg1.IsWhole) (arg2 : Memref sig .tc .vmem S5000x128 .f32) (harg2 : arg2.IsWhole)
    (arg3 : Memref sig .tc .vmem S128x5 .f32) (harg3 : arg3.IsWhole) (arg4 : Memref sig .tc .vmem S128x5 .f32) (harg4 : arg4.IsWhole)
    (arg5 : Memref sig .tc .vmem S1x5 .f32) (harg5 : arg5.IsWhole) (arg6 : Memref sig .tc .vmem S5000x5 .f32) (harg6 : arg6.IsWhole)
    (x0 : Vec F S5000x128 .f32) (x1 : Vec F S5000x128 .f32) (x2 : Vec F S128x5 .f32) (x3 : Vec F S128x5 .f32) (x4 : Vec F S1x5 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out9_5 x0 x1 x2 x3 x4)) -∗ K ⟨⟩))
      ⊢ wp frame (wpE (defs₀ (F := F)) Variants.none c none) E
          (cc9__head_kernel i arg1 harg1 arg2 harg2 arg3 harg3 arg4 harg4 arg5 harg5 arg6 harg6) K := by
  simp only [cc9__head_kernel_eq_skeleton]; unfold cc9__head_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover9_5 _)

/-! ## The inputs' buffers under the region's proof data -/

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d

/-! ## The body obligation, at a generic point -/

/-- What the body is called with at point `t`: the invariant, what the core owes, and each window's current staging
    buffer at what it then holds, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

/-- The body at any point: the inputs' memrefs hold their blocks (`before9_w`), so `sound_kernel9` applies; the
    invariant and what the core owes pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5]
  iintro ⟨HΦ, Ho, ⟨%d0, H0⟩, ⟨%d1, H1⟩, ⟨%d2, H2⟩, ⟨%d3, H3⟩, ⟨%d4, H4⟩, ⟨%d5, H5⟩⟩
  iapply (sound_kernel9 c Set.univ (grid9.coords t) _ _ _ _ _ _ _ _ _ _ _ _
    (iblk9 V c 0 t) (iblk9 V c 1 t) (iblk9 V c 2 t) (iblk9 V c 3 t) (iblk9 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Hand

end
-- ==== Proof.K.Segs.lean ====
import proofs.«162078_j40114994545134_1_alg».proof.Proof.K.SegLib
import proofs.«162078_j40114994545134_1_alg».proof.Proof.K.Reg0
import proofs.«162078_j40114994545134_1_alg».proof.Proof.K.Reg1
import proofs.«162078_j40114994545134_1_alg».proof.Proof.K.Reg2
import proofs.«162078_j40114994545134_1_alg».proof.Proof.K.Reg3
import proofs.«162078_j40114994545134_1_alg».proof.Proof.K.Reg4
import proofs.«162078_j40114994545134_1_alg».proof.Proof.K.Reg5
import proofs.«162078_j40114994545134_1_alg».proof.Proof.K.Reg6
import proofs.«162078_j40114994545134_1_alg».proof.Proof.K.Reg7
import proofs.«162078_j40114994545134_1_alg».proof.Proof.K.Reg8
import proofs.«162078_j40114994545134_1_alg».proof.Proof.K.Reg9

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Cert.Kernel.GenP

variable (m : (ℓ : Loc nD τ sig) → Buf (Elt F) ℓ)

theorem atOut0 (c : Dev nD) : T2 m c (Proc.devRef .tc main_v1) = o0 m c := by
  unfold T2; exact Function.update_self _ _ _

theorem offOut0 (c : Dev nD) (b : Ref sig .tc) (hb : b ≠ main_v1) :
    T2 m c (Proc.devRef .tc b) = T1 m c (Proc.devRef .tc b) := by
  unfold T2; exact Function.update_of_ne (StableHlo.devRef_ne_of_ne hb) _ _

theorem hF0 (c : Dev nD) (w : Fin cfg0.W) : (dat0 (rd (T1 m)) c).arrAt w cfg0.N = rd (T2 m) c (Pipeline.arrRef spec0 w) :=
  match w with
  | ⟨0, _⟩ => ((dat0 (rd (T1 m)) c).arrAt_in 0 rfl _).trans ((A_eq0 (rd (T1 m)) c 0).trans (offOut0 m c _ (by decide)).symm)
  | ⟨1, _⟩ => ((dat0 (rd (T1 m)) c).arrAt_in 1 rfl _).trans ((A_eq0 (rd (T1 m)) c 1).trans (offOut0 m c _ (by decide)).symm)
  | ⟨2, _⟩ => ((dat0 (rd (T1 m)) c).arrAt_in 2 rfl _).trans ((A_eq0 (rd (T1 m)) c 2).trans (offOut0 m c _ (by decide)).symm)
  | ⟨3, _⟩ => (atOut0 m c).symm

theorem hrest0 (c : Dev nD) : ∀ b, b ∉ Finset.univ.image (Pipeline.arrRef spec0) → rd (T2 m) c b = rd (T1 m) c b :=
  fun b hb => offOut0 m c b fun e => hb (Finset.mem_image.mpr ⟨3, Finset.mem_univ _, (rfl : Pipeline.arrRef spec0 3 = main_v1).trans e.symm⟩)

set_option backward.isDefEq.respectTransparency.types false in
def reg0 : Pipeline.RegionSeg (pcfgs (F := F)) adm (pdats m) () defs₀ Variants.none Lf lvf 0 :=
  mkReg m 0 launch0 (T1 m) (T2 m) (fun c => (body_obligation0 (rd (T1 m)) c).loose) (fun _ _ => rfl) (fun _ _ => rfl)
    (fun c => (pdats m 0 c).share_full fun _ => rfl) (fun _ _ => rfl) (fun _ _ => rfl) (hF0 m) (hrest0 m)

theorem reg0_pre (c : Dev nD) :
    (reg0 m).pre c = iprop(StableHlo.held (c : Thread nD τ) (Pipeline.ucRefs τ sig) (T1 m c) ∗ Rst c) := rfl
theorem reg0_post (c : Dev nD) :
    (reg0 m).post c = iprop(StableHlo.held (c : Thread nD τ) (Pipeline.ucRefs τ sig) (T2 m c) ∗ Rst c) := rfl

theorem atOut1 (c : Dev nD) : T4 m c (Proc.devRef .tc main_v3) = o1 m c := by
  unfold T4; exact Function.update_self _ _ _

theorem offOut1 (c : Dev nD) (b : Ref sig .tc) (hb : b ≠ main_v3) :
    T4 m c (Proc.devRef .tc b) = T3 m c (Proc.devRef .tc b) := by
  unfold T4; exact Function.update_of_ne (StableHlo.devRef_ne_of_ne hb) _ _

theorem hF1 (c : Dev nD) (w : Fin cfg1.W) : (dat1 (rd (T3 m)) c).arrAt w cfg1.N = rd (T4 m) c (Pipeline.arrRef spec1 w) :=
  match w with
  | ⟨0, _⟩ => ((dat1 (rd (T3 m)) c).arrAt_in 0 rfl _).trans ((A_eq1 (rd (T3 m)) c 0).trans (offOut1 m c _ (by decide)).symm)
  | ⟨1, _⟩ => ((dat1 (rd (T3 m)) c).arrAt_in 1 rfl _).trans ((A_eq1 (rd (T3 m)) c 1).trans (offOut1 m c _ (by decide)).symm)
  | ⟨2, _⟩ => ((dat1 (rd (T3 m)) c).arrAt_in 2 rfl _).trans ((A_eq1 (rd (T3 m)) c 2).trans (offOut1 m c _ (by decide)).symm)
  | ⟨3, _⟩ => (atOut1 m c).symm

theorem hrest1 (c : Dev nD) : ∀ b, b ∉ Finset.univ.image (Pipeline.arrRef spec1) → rd (T4 m) c b = rd (T3 m) c b :=
  fun b hb => offOut1 m c b fun e => hb (Finset.mem_image.mpr ⟨3, Finset.mem_univ _, (rfl : Pipeline.arrRef spec1 3 = main_v3).trans e.symm⟩)

set_option backward.isDefEq.respectTransparency.types false in
def reg1 : Pipeline.RegionSeg (pcfgs (F := F)) adm (pdats m) () defs₀ Variants.none Lf lvf 1 :=
  mkReg m 1 launch1 (T3 m) (T4 m) (fun c => (body_obligation1 (rd (T3 m)) c).loose) (fun _ _ => rfl) (fun _ _ => rfl)
    (fun c => (pdats m 1 c).share_full fun _ => rfl) (fun _ _ => rfl) (fun _ _ => rfl) (hF1 m) (hrest1 m)

theorem reg1_pre (c : Dev nD) :
    (reg1 m).pre c = iprop(StableHlo.held (c : Thread nD τ) (Pipeline.ucRefs τ sig) (T3 m c) ∗ Rst c) := rfl
theorem reg1_post (c : Dev nD) :
    (reg1 m).post c = iprop(StableHlo.held (c : Thread nD τ) (Pipeline.ucRefs τ sig) (T4 m c) ∗ Rst c) := rfl

theorem atOut2 (c : Dev nD) : T6 m c (Proc.devRef .tc main_v24) = o2 m c := by
  unfold T6; exact Function.update_self _ _ _

theorem offOut2 (c : Dev nD) (b : Ref sig .tc) (hb : b ≠ main_v24) :
    T6 m c (Proc.devRef .tc b) = T5 m c (Proc.devRef .tc b) := by
  unfold T6; exact Function.update_of_ne (StableHlo.devRef_ne_of_ne hb) _ _

theorem hF2 (c : Dev nD) (w : Fin cfg2.W) : (dat2 (rd (T5 m)) c).arrAt w cfg2.N = rd (T6 m) c (Pipeline.arrRef spec2 w) :=
  match w with
  | ⟨0, _⟩ => ((dat2 (rd (T5 m)) c).arrAt_in 0 rfl _).trans ((A_eq2 (rd (T5 m)) c 0).trans (offOut2 m c _ (by decide)).symm)
  | ⟨1, _⟩ => ((dat2 (rd (T5 m)) c).arrAt_in 1 rfl _).trans ((A_eq2 (rd (T5 m)) c 1).trans (offOut2 m c _ (by decide)).symm)
  | ⟨2, _⟩ => ((dat2 (rd (T5 m)) c).arrAt_in 2 rfl _).trans ((A_eq2 (rd (T5 m)) c 2).trans (offOut2 m c _ (by decide)).symm)
  | ⟨3, _⟩ => (atOut2 m c).symm

theorem hrest2 (c : Dev nD) : ∀ b, b ∉ Finset.univ.image (Pipeline.arrRef spec2) → rd (T6 m) c b = rd (T5 m) c b :=
  fun b hb => offOut2 m c b fun e => hb (Finset.mem_image.mpr ⟨3, Finset.mem_univ _, (rfl : Pipeline.arrRef spec2 3 = main_v24).trans e.symm⟩)

set_option backward.isDefEq.respectTransparency.types false in
def reg2 : Pipeline.RegionSeg (pcfgs (F := F)) adm (pdats m) () defs₀ Variants.none Lf lvf 2 :=
  mkReg m 2 launch2 (T5 m) (T6 m) (fun c => (body_obligation2 (rd (T5 m)) c).loose) (fun _ _ => rfl) (fun _ _ => rfl)
    (fun c => (pdats m 2 c).share_full fun _ => rfl) (fun _ _ => rfl) (fun _ _ => rfl) (hF2 m) (hrest2 m)

theorem reg2_pre (c : Dev nD) :
    (reg2 m).pre c = iprop(StableHlo.held (c : Thread nD τ) (Pipeline.ucRefs τ sig) (T5 m c) ∗ Rst c) := rfl
theorem reg2_post (c : Dev nD) :
    (reg2 m).post c = iprop(StableHlo.held (c : Thread nD τ) (Pipeline.ucRefs τ sig) (T6 m c) ∗ Rst c) := rfl

theorem atOut3 (c : Dev nD) : T12 m c (Proc.devRef .tc main_v77) = o3 m c := by
  unfold T12; exact Function.update_self _ _ _

theorem offOut3 (c : Dev nD) (b : Ref sig .tc) (hb : b ≠ main_v77) :
    T12 m c (Proc.devRef .tc b) = T11 m c (Proc.devRef .tc b) := by
  unfold T12; exact Function.update_of_ne (StableHlo.devRef_ne_of_ne hb) _ _

theorem hF3 (c : Dev nD) (w : Fin cfg3.W) : (dat3 (rd (T11 m)) c).arrAt w cfg3.N = rd (T12 m) c (Pipeline.arrRef spec3 w) :=
  match w with
  | ⟨0, _⟩ => ((dat3 (rd (T11 m)) c).arrAt_in 0 rfl _).trans ((A_eq3 (rd (T11 m)) c 0).trans (offOut3 m c _ (by decide)).symm)
  | ⟨1, _⟩ => ((dat3 (rd (T11 m)) c).arrAt_in 1 rfl _).trans ((A_eq3 (rd (T11 m)) c 1).trans (offOut3 m c _ (by decide)).symm)
  | ⟨2, _⟩ => ((dat3 (rd (T11 m)) c).arrAt_in 2 rfl _).trans ((A_eq3 (rd (T11 m)) c 2).trans (offOut3 m c _ (by decide)).symm)
  | ⟨3, _⟩ => ((dat3 (rd (T11 m)) c).arrAt_in 3 rfl _).trans ((A_eq3 (rd (T11 m)) c 3).trans (offOut3 m c _ (by decide)).symm)
  | ⟨4, _⟩ => (atOut3 m c).symm

theorem hrest3 (c : Dev nD) : ∀ b, b ∉ Finset.univ.image (Pipeline.arrRef spec3) → rd (T12 m) c b = rd (T11 m) c b :=
  fun b hb => offOut3 m c b fun e => hb (Finset.mem_image.mpr ⟨4, Finset.mem_univ _, (rfl : Pipeline.arrRef spec3 4 = main_v77).trans e.symm⟩)

set_option backward.isDefEq.respectTransparency.types false in
def reg3 : Pipeline.RegionSeg (pcfgs (F := F)) adm (pdats m) () defs₀ Variants.none Lf lvf 3 :=
  mkReg m 3 launch3 (T11 m) (T12 m) (fun c => (body_obligation3 (rd (T11 m)) c).loose) (fun _ _ => rfl) (fun _ _ => rfl)
    (fun c => (pdats m 3 c).share_full fun _ => rfl) (fun _ _ => rfl) (fun _ _ => rfl) (hF3 m) (hrest3 m)

theorem reg3_pre (c : Dev nD) :
    (reg3 m).pre c = iprop(StableHlo.held (c : Thread nD τ) (Pipeline.ucRefs τ sig) (T11 m c) ∗ Rst c) := rfl
theorem reg3_post (c : Dev nD) :
    (reg3 m).post c = iprop(StableHlo.held (c : Thread nD τ) (Pipeline.ucRefs τ sig) (T12 m c) ∗ Rst c) := rfl

theorem atOut4 (c : Dev nD) : T18 m c (Proc.devRef .tc main_v111) = o4 m c := by
  unfold T18; exact Function.update_self _ _ _

theorem offOut4 (c : Dev nD) (b : Ref sig .tc) (hb : b ≠ main_v111) :
    T18 m c (Proc.devRef .tc b) = T17 m c (Proc.devRef .tc b) := by
  unfold T18; exact Function.update_of_ne (StableHlo.devRef_ne_of_ne hb) _ _

theorem hF4 (c : Dev nD) (w : Fin cfg4.W) : (dat4 (rd (T17 m)) c).arrAt w cfg4.N = rd (T18 m) c (Pipeline.arrRef spec4 w) :=
  match w with
  | ⟨0, _⟩ => ((dat4 (rd (T17 m)) c).arrAt_in 0 rfl _).trans ((A_eq4 (rd (T17 m)) c 0).trans (offOut4 m c _ (by decide)).symm)
  | ⟨1, _⟩ => ((dat4 (rd (T17 m)) c).arrAt_in 1 rfl _).trans ((A_eq4 (rd (T17 m)) c 1).trans (offOut4 m c _ (by decide)).symm)
  | ⟨2, _⟩ => ((dat4 (rd (T17 m)) c).arrAt_in 2 rfl _).trans ((A_eq4 (rd (T17 m)) c 2).trans (offOut4 m c _ (by decide)).symm)
  | ⟨3, _⟩ => ((dat4 (rd (T17 m)) c).arrAt_in 3 rfl _).trans ((A_eq4 (rd (T17 m)) c 3).trans (offOut4 m c _ (by decide)).symm)
  | ⟨4, _⟩ => (atOut4 m c).symm

theorem hrest4 (c : Dev nD) : ∀ b, b ∉ Finset.univ.image (Pipeline.arrRef spec4) → rd (T18 m) c b = rd (T17 m) c b :=
  fun b hb => offOut4 m c b fun e => hb (Finset.mem_image.mpr ⟨4, Finset.mem_univ _, (rfl : Pipeline.arrRef spec4 4 = main_v111).trans e.symm⟩)

set_option backward.isDefEq.respectTransparency.types false in
def reg4 : Pipeline.RegionSeg (pcfgs (F := F)) adm (pdats m) () defs₀ Variants.none Lf lvf 4 :=
  mkReg m 4 launch4 (T17 m) (T18 m) (fun c => (body_obligation4 (rd (T17 m)) c).loose) (fun _ _ => rfl) (fun _ _ => rfl)
    (fun c => (pdats m 4 c).share_full fun _ => rfl) (fun _ _ => rfl) (fun _ _ => rfl) (hF4 m) (hrest4 m)

theorem reg4_pre (c : Dev nD) :
    (reg4 m).pre c = iprop(StableHlo.held (c : Thread nD τ) (Pipeline.ucRefs τ sig) (T17 m c) ∗ Rst c) := rfl
theorem reg4_post (c : Dev nD) :
    (reg4 m).post c = iprop(StableHlo.held (c : Thread nD τ) (Pipeline.ucRefs τ sig) (T18 m c) ∗ Rst c) := rfl

theorem atOut5 (c : Dev nD) : T24 m c (Proc.devRef .tc main_v145) = o5 m c := by
  unfold T24; exact Function.update_self _ _ _

theorem offOut5 (c : Dev nD) (b : Ref sig .tc) (hb : b ≠ main_v145) :
    T24 m c (Proc.devRef .tc b) = T23 m c (Proc.devRef .tc b) := by
  unfold T24; exact Function.update_of_ne (StableHlo.devRef_ne_of_ne hb) _ _

set_option maxHeartbeats 1000000 in

theorem hF5 (c : Dev nD) (w : Fin cfg5.W) : (dat5 (rd (T23 m)) c).arrAt w cfg5.N = rd (T24 m) c (Pipeline.arrRef spec5 w) :=
  match w with
  | ⟨0, _⟩ => ((dat5 (rd (T23 m)) c).arrAt_in 0 rfl _).trans ((A_eq5 (rd (T23 m)) c 0).trans (offOut5 m c _ (by decide)).symm)
  | ⟨1, _⟩ => ((dat5 (rd (T23 m)) c).arrAt_in 1 rfl _).trans ((A_eq5 (rd (T23 m)) c 1).trans (offOut5 m c _ (by decide)).symm)
  | ⟨2, _⟩ => ((dat5 (rd (T23 m)) c).arrAt_in 2 rfl _).trans ((A_eq5 (rd (T23 m)) c 2).trans (offOut5 m c _ (by decide)).symm)
  | ⟨3, _⟩ => ((dat5 (rd (T23 m)) c).arrAt_in 3 rfl _).trans ((A_eq5 (rd (T23 m)) c 3).trans (offOut5 m c _ (by decide)).symm)
  | ⟨4, _⟩ => (atOut5 m c).symm

theorem hrest5 (c : Dev nD) : ∀ b, b ∉ Finset.univ.image (Pipeline.arrRef spec5) → rd (T24 m) c b = rd (T23 m) c b :=
  fun b hb => offOut5 m c b fun e => hb (Finset.mem_image.mpr ⟨4, Finset.mem_univ _, (rfl : Pipeline.arrRef spec5 4 = main_v145).trans e.symm⟩)

set_option backward.isDefEq.respectTransparency.types false in
def reg5 : Pipeline.RegionSeg (pcfgs (F := F)) adm (pdats m) () defs₀ Variants.none Lf lvf 5 :=
  mkReg m 5 launch5 (T23 m) (T24 m) (fun c => (body_obligation5 (rd (T23 m)) c).loose) (fun _ _ => rfl) (fun _ _ => rfl)
    (fun c => (pdats m 5 c).share_full fun _ => rfl) (fun _ _ => rfl) (fun _ _ => rfl) (hF5 m) (hrest5 m)

theorem reg5_pre (c : Dev nD) :
    (reg5 m).pre c = iprop(StableHlo.held (c : Thread nD τ) (Pipeline.ucRefs τ sig) (T23 m c) ∗ Rst c) := rfl
theorem reg5_post (c : Dev nD) :
    (reg5 m).post c = iprop(StableHlo.held (c : Thread nD τ) (Pipeline.ucRefs τ sig) (T24 m c) ∗ Rst c) := rfl

theorem atOut6 (c : Dev nD) : T26 m c (Proc.devRef .tc main_v147) = o6 m c := by
  unfold T26; exact Function.update_self _ _ _

theorem offOut6 (c : Dev nD) (b : Ref sig .tc) (hb : b ≠ main_v147) :
    T26 m c (Proc.devRef .tc b) = T25 m c (Proc.devRef .tc b) := by
  unfold T26; exact Function.update_of_ne (StableHlo.devRef_ne_of_ne hb) _ _

theorem hF6 (c : Dev nD) (w : Fin cfg6.W) : (dat6 (rd (T25 m)) c).arrAt w cfg6.N = rd (T26 m) c (Pipeline.arrRef spec6 w) :=
  match w with
  | ⟨0, _⟩ => ((dat6 (rd (T25 m)) c).arrAt_in 0 rfl _).trans ((A_eq6 (rd (T25 m)) c 0).trans (offOut6 m c _ (by decide)).symm)
  | ⟨1, _⟩ => ((dat6 (rd (T25 m)) c).arrAt_in 1 rfl _).trans ((A_eq6 (rd (T25 m)) c 1).trans (offOut6 m c _ (by decide)).symm)
  | ⟨2, _⟩ => ((dat6 (rd (T25 m)) c).arrAt_in 2 rfl _).trans ((A_eq6 (rd (T25 m)) c 2).trans (offOut6 m c _ (by decide)).symm)
  | ⟨3, _⟩ => (atOut6 m c).symm

theorem hrest6 (c : Dev nD) : ∀ b, b ∉ Finset.univ.image (Pipeline.arrRef spec6) → rd (T26 m) c b = rd (T25 m) c b :=
  fun b hb => offOut6 m c b fun e => hb (Finset.mem_image.mpr ⟨3, Finset.mem_univ _, (rfl : Pipeline.arrRef spec6 3 = main_v147).trans e.symm⟩)

set_option backward.isDefEq.respectTransparency.types false in
def reg6 : Pipeline.RegionSeg (pcfgs (F := F)) adm (pdats m) () defs₀ Variants.none Lf lvf 6 :=
  mkReg m 6 launch6 (T25 m) (T26 m) (fun c => (body_obligation6 (rd (T25 m)) c).loose) (fun _ _ => rfl) (fun _ _ => rfl)
    (fun c => (pdats m 6 c).share_full fun _ => rfl) (fun _ _ => rfl) (fun _ _ => rfl) (hF6 m) (hrest6 m)

theorem reg6_pre (c : Dev nD) :
    (reg6 m).pre c = iprop(StableHlo.held (c : Thread nD τ) (Pipeline.ucRefs τ sig) (T25 m c) ∗ Rst c) := rfl
theorem reg6_post (c : Dev nD) :
    (reg6 m).post c = iprop(StableHlo.held (c : Thread nD τ) (Pipeline.ucRefs τ sig) (T26 m c) ∗ Rst c) := rfl

theorem atOut7 (c : Dev nD) : T28 m c (Proc.devRef .tc main_v168) = o7 m c := by
  unfold T28; exact Function.update_self _ _ _

theorem offOut7 (c : Dev nD) (b : Ref sig .tc) (hb : b ≠ main_v168) :
    T28 m c (Proc.devRef .tc b) = T27 m c (Proc.devRef .tc b) := by
  unfold T28; exact Function.update_of_ne (StableHlo.devRef_ne_of_ne hb) _ _

theorem hF7 (c : Dev nD) (w : Fin cfg7.W) : (dat7 (rd (T27 m)) c).arrAt w cfg7.N = rd (T28 m) c (Pipeline.arrRef spec7 w) :=
  match w with
  | ⟨0, _⟩ => ((dat7 (rd (T27 m)) c).arrAt_in 0 rfl _).trans ((A_eq7 (rd (T27 m)) c 0).trans (offOut7 m c _ (by decide)).symm)
  | ⟨1, _⟩ => ((dat7 (rd (T27 m)) c).arrAt_in 1 rfl _).trans ((A_eq7 (rd (T27 m)) c 1).trans (offOut7 m c _ (by decide)).symm)
  | ⟨2, _⟩ => ((dat7 (rd (T27 m)) c).arrAt_in 2 rfl _).trans ((A_eq7 (rd (T27 m)) c 2).trans (offOut7 m c _ (by decide)).symm)
  | ⟨3, _⟩ => (atOut7 m c).symm

theorem hrest7 (c : Dev nD) : ∀ b, b ∉ Finset.univ.image (Pipeline.arrRef spec7) → rd (T28 m) c b = rd (T27 m) c b :=
  fun b hb => offOut7 m c b fun e => hb (Finset.mem_image.mpr ⟨3, Finset.mem_univ _, (rfl : Pipeline.arrRef spec7 3 = main_v168).trans e.symm⟩)

set_option backward.isDefEq.respectTransparency.types false in
def reg7 : Pipeline.RegionSeg (pcfgs (F := F)) adm (pdats m) () defs₀ Variants.none Lf lvf 7 :=
  mkReg m 7 launch7 (T27 m) (T28 m) (fun c => (body_obligation7 (rd (T27 m)) c).loose) (fun _ _ => rfl) (fun _ _ => rfl)
    (fun c => (pdats m 7 c).share_full fun _ => rfl) (fun _ _ => rfl) (fun _ _ => rfl) (hF7 m) (hrest7 m)

theorem reg7_pre (c : Dev nD) :
    (reg7 m).pre c = iprop(StableHlo.held (c : Thread nD τ) (Pipeline.ucRefs τ sig) (T27 m c) ∗ Rst c) := rfl
theorem reg7_post (c : Dev nD) :
    (reg7 m).post c = iprop(StableHlo.held (c : Thread nD τ) (Pipeline.ucRefs τ sig) (T28 m c) ∗ Rst c) := rfl

theorem atOut8 (c : Dev nD) : T30 m c (Proc.devRef .tc main_v191) = o8 m c := by
  unfold T30; exact Function.update_self _ _ _

theorem offOut8 (c : Dev nD) (b : Ref sig .tc) (hb : b ≠ main_v191) :
    T30 m c (Proc.devRef .tc b) = T29 m c (Proc.devRef .tc b) := by
  unfold T30; exact Function.update_of_ne (StableHlo.devRef_ne_of_ne hb) _ _

theorem hF8 (c : Dev nD) (w : Fin cfg8.W) : (dat8 (rd (T29 m)) c).arrAt w cfg8.N = rd (T30 m) c (Pipeline.arrRef spec8 w) :=
  match w with
  | ⟨0, _⟩ => ((dat8 (rd (T29 m)) c).arrAt_in 0 rfl _).trans ((A_eq8 (rd (T29 m)) c 0).trans (offOut8 m c _ (by decide)).symm)
  | ⟨1, _⟩ => ((dat8 (rd (T29 m)) c).arrAt_in 1 rfl _).trans ((A_eq8 (rd (T29 m)) c 1).trans (offOut8 m c _ (by decide)).symm)
  | ⟨2, _⟩ => ((dat8 (rd (T29 m)) c).arrAt_in 2 rfl _).trans ((A_eq8 (rd (T29 m)) c 2).trans (offOut8 m c _ (by decide)).symm)
  | ⟨3, _⟩ => ((dat8 (rd (T29 m)) c).arrAt_in 3 rfl _).trans ((A_eq8 (rd (T29 m)) c 3).trans (offOut8 m c _ (by decide)).symm)
  | ⟨4, _⟩ => ((dat8 (rd (T29 m)) c).arrAt_in 4 rfl _).trans ((A_eq8 (rd (T29 m)) c 4).trans (offOut8 m c _ (by decide)).symm)
  | ⟨5, _⟩ => (atOut8 m c).symm

theorem hrest8 (c : Dev nD) : ∀ b, b ∉ Finset.univ.image (Pipeline.arrRef spec8) → rd (T30 m) c b = rd (T29 m) c b :=
  fun b hb => offOut8 m c b fun e => hb (Finset.mem_image.mpr ⟨5, Finset.mem_univ _, (rfl : Pipeline.arrRef spec8 5 = main_v191).trans e.symm⟩)

set_option backward.isDefEq.respectTransparency.types false in
def reg8 : Pipeline.RegionSeg (pcfgs (F := F)) adm (pdats m) () defs₀ Variants.none Lf lvf 8 :=
  mkReg m 8 launch8 (T29 m) (T30 m) (fun c => (body_obligation8 (rd (T29 m)) c).loose) (fun _ _ => rfl) (fun _ _ => rfl)
    (fun c => (pdats m 8 c).share_full fun _ => rfl) (fun _ _ => rfl) (fun _ _ => rfl) (hF8 m) (hrest8 m)

theorem reg8_pre (c : Dev nD) :
    (reg8 m).pre c = iprop(StableHlo.held (c : Thread nD τ) (Pipeline.ucRefs τ sig) (T29 m c) ∗ Rst c) := rfl
theorem reg8_post (c : Dev nD) :
    (reg8 m).post c = iprop(StableHlo.held (c : Thread nD τ) (Pipeline.ucRefs τ sig) (T30 m c) ∗ Rst c) := rfl

theorem atOut9 (c : Dev nD) : T32 m c (Proc.devRef .tc main_v195) = o9 m c := by
  unfold T32; exact Function.update_self _ _ _

theorem offOut9 (c : Dev nD) (b : Ref sig .tc) (hb : b ≠ main_v195) :
    T32 m c (Proc.devRef .tc b) = T31 m c (Proc.devRef .tc b) := by
  unfold T32; exact Function.update_of_ne (StableHlo.devRef_ne_of_ne hb) _ _

theorem hF9 (c : Dev nD) (w : Fin cfg9.W) : (dat9 (rd (T31 m)) c).arrAt w cfg9.N = rd (T32 m) c (Pipeline.arrRef spec9 w) :=
  match w with
  | ⟨0, _⟩ => ((dat9 (rd (T31 m)) c).arrAt_in 0 rfl _).trans ((A_eq9 (rd (T31 m)) c 0).trans (offOut9 m c _ (by decide)).symm)
  | ⟨1, _⟩ => ((dat9 (rd (T31 m)) c).arrAt_in 1 rfl _).trans ((A_eq9 (rd (T31 m)) c 1).trans (offOut9 m c _ (by decide)).symm)
  | ⟨2, _⟩ => ((dat9 (rd (T31 m)) c).arrAt_in 2 rfl _).trans ((A_eq9 (rd (T31 m)) c 2).trans (offOut9 m c _ (by decide)).symm)
  | ⟨3, _⟩ => ((dat9 (rd (T31 m)) c).arrAt_in 3 rfl _).trans ((A_eq9 (rd (T31 m)) c 3).trans (offOut9 m c _ (by decide)).symm)
  | ⟨4, _⟩ => ((dat9 (rd (T31 m)) c).arrAt_in 4 rfl _).trans ((A_eq9 (rd (T31 m)) c 4).trans (offOut9 m c _ (by decide)).symm)
  | ⟨5, _⟩ => (atOut9 m c).symm

theorem hrest9 (c : Dev nD) : ∀ b, b ∉ Finset.univ.image (Pipeline.arrRef spec9) → rd (T32 m) c b = rd (T31 m) c b :=
  fun b hb => offOut9 m c b fun e => hb (Finset.mem_image.mpr ⟨5, Finset.mem_univ _, (rfl : Pipeline.arrRef spec9 5 = main_v195).trans e.symm⟩)

set_option backward.isDefEq.respectTransparency.types false in
def reg9 : Pipeline.RegionSeg (pcfgs (F := F)) adm (pdats m) () defs₀ Variants.none Lf lvf 9 :=
  mkReg m 9 launch9 (T31 m) (T32 m) (fun c => (body_obligation9 (rd (T31 m)) c).loose) (fun _ _ => rfl) (fun _ _ => rfl)
    (fun c => (pdats m 9 c).share_full fun _ => rfl) (fun _ _ => rfl) (fun _ _ => rfl) (hF9 m) (hrest9 m)

theorem reg9_pre (c : Dev nD) :
    (reg9 m).pre c = iprop(StableHlo.held (c : Thread nD τ) (Pipeline.ucRefs τ sig) (T31 m c) ∗ Rst c) := rfl
theorem reg9_post (c : Dev nD) :
    (reg9 m).post c = iprop(StableHlo.held (c : Thread nD τ) (Pipeline.ucRefs τ sig) (T32 m c) ∗ Rst c) := rfl

end Cert.Kernel.Hand

end
-- ==== Proof.K.Reg10.lean ====
/-
  An output head's region, the frame half: each input window's current staging buffer holds that window's block
  at every grid point; the body's one store covers the output block; the body, run on whole staging memrefs, leaves
  the five inputs as they were and the output at `out10_5` of them; hence the pipeline's body obligation for the
  proof data `dat10`, at any contents `V` the region is entered with.
-/
import proofs.«162078_j40114994545134_1_alg».proof.Proof.K.Def10
import proofs.«162078_j40114994545134_1_alg».proof.Proof.Gen.Kernel.Launch
import proofs.«162078_j40114994545134_1_alg».proof.Proof.Gen.Kernel.Skeleton
import proofs.«162078_j40114994545134_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' current buffers -/

/-- Input window 0's current staging buffer holds its block at every point, for any proof data whose array is the
    entry contents and whose body leaves the block in place: the window is an input, never idle and uncut, so the
    buffer is what was last fetched, and an unfetched point's block index has not moved. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
/-- The same for input window 1. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
/-- The same for input window 2 (fetched at the first point only: its block is the same at every point). -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)
/-- The same for input window 3 (fetched at the first point only). -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)
/-- The same for input window 4 (fetched at the first point only). -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-! ## The output window's one store covers its buffer -/

/-- The one stored rectangle is the whole output block, so every index of the block lies in it. -/
theorem cover10_5 (p0 : Vec F S6250x5 .f32) (y : S6250x5.Idx) :
    ∃ pc ∈ ([⟨r10_o, p0⟩] : List (View.Piece (Elt F) S6250x5 .f32)), y ∈ pc.1.set :=
  View.cover_of_tiled [⟨r10_o, p0⟩] S6250x5.size (by rfl) y

/-! ## The body's triple -/

set_option maxHeartbeats 1000000 in
/-- The body on whole staging memrefs, the five inputs' at read contents `x0 … x4` and the output's at anything, runs
    to the continuation holding the inputs' as they were and the output's at `out10_5` of the inputs: five whole-block
    loads, a load of the output block whose value is unused, and one whole-block store of the payload. -/
theorem sound_kernel10 (c : Dev nD) (E : Set ℕ) (i : grid10.Coords)
    (arg1 : Memref sig .tc .vmem S6250x128 .f32) (harg1 : arg1.IsWhole) (arg2 : Memref sig .tc .vmem S6250x128 .f32) (harg2 : arg2.IsWhole)
    (arg3 : Memref sig .tc .vmem S128x5 .f32) (harg3 : arg3.IsWhole) (arg4 : Memref sig .tc .vmem S128x5 .f32) (harg4 : arg4.IsWhole)
    (arg5 : Memref sig .tc .vmem S1x5 .f32) (harg5 : arg5.IsWhole) (arg6 : Memref sig .tc .vmem S6250x5 .f32) (harg6 : arg6.IsWhole)
    (x0 : Vec F S6250x128 .f32) (x1 : Vec F S6250x128 .f32) (x2 : Vec F S128x5 .f32) (x3 : Vec F S128x5 .f32) (x4 : Vec F S1x5 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out10_5 x0 x1 x2 x3 x4)) -∗ K ⟨⟩))
      ⊢ wp frame (wpE (defs₀ (F := F)) Variants.none c none) E
          (cc10__head_kernel i arg1 harg1 arg2 harg2 arg3 harg3 arg4 harg4 arg5 harg5 arg6 harg6) K := by
  simp only [cc10__head_kernel_eq_skeleton]; unfold cc10__head_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover10_5 _)

/-! ## The inputs' buffers under the region's proof data -/

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d

/-! ## The body obligation, at a generic point -/

/-- What the body is called with at point `t`: the invariant, what the core owes, and each window's current staging
    buffer at what it then holds, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t))

/-- The body at any point: the inputs' memrefs hold their blocks (`before10_w`), so `sound_kernel10` applies; the
    invariant and what the core owes pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4]
  rw [show (dat10 V c).Φ t.succ = (dat10 V c).Φ t.castSucc from rfl,
    show (dat10 V c).owesAt () t.succ = (dat10 V c).owesAt () t.castSucc from rfl,
    after10_0, after10_1, after10_2, after10_3, after10_4, after10_5]
  iintro ⟨HΦ, Ho, ⟨%d0, H0⟩, ⟨%d1, H1⟩, ⟨%d2, H2⟩, ⟨%d3, H3⟩, ⟨%d4, H4⟩, ⟨%d5, H5⟩⟩
  iapply (sound_kernel10 c Set.univ (grid10.coords t) _ _ _ _ _ _ _ _ _ _ _ _
    (iblk10 V c 0 t) (iblk10 V c 1 t) (iblk10 V c 2 t) (iblk10 V c 3 t) (iblk10 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.Kernel.Hand

end
-- ==== Proof.K.Seg10.lean ====
/-
  The coarsest scale's output head as a segment of the program's run: entered from every unscoped buffer at the
  contents the host stretch before it leaves, left at those contents with the region's output array replaced by what
  the pipeline's write-backs leave in it. Two of the region's windows stage blocks of one array, so the buffers behind
  its arrays are fewer than its windows: at entry that array's buffer, held whole at the full share among the unscoped
  buffers, is dealt to the two windows at the two halves of the full share, at the same contents; both windows are
  inputs, so the array is never written, and at exit the two halves, still at those contents, join to the full share
  again. Every other array is its one window's, at the full share. The generator register goes into the pipeline's
  invariant and comes back; nothing is owed; the kernel has no semaphore of its own.
-/
import proofs.«162078_j40114994545134_1_alg».proof.Proof.K.Data
import proofs.«162078_j40114994545134_1_alg».proof.Proof.K.Reg10

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Cert.Kernel.GenP

/-! ## The arrays' buffers, dealt to the windows and gathered back

Five distinct buffers stand behind the six windows' arrays: the first behind windows 0 and 1. Held whole at the full
share, that buffer is the two windows' arrays at the two halves of the full share, at the same contents; each other
buffer is its one window's array. -/

section Deal

variable (V : (c : Dev nD) → (b : Ref sig .tc) → Buf (Elt F) ((c : Thread nD τ).loc b))

/-- The references behind the windows' arrays. -/
theorem image_arrRef10 : Finset.univ.image (Pipeline.arrRef spec10) = {main_v145, main_v196, main_v197, main_v198, main_v199} := by
  decide

/-- The buffers behind the arrays, one by one. -/
theorem arrBufs10_eq (c : Dev nD) (X : (b : Ref sig .tc) → Buf (Elt F) ((c : Thread nD τ).loc b)) :
    (Pipeline.arrBufs spec10 c X : sProp 𝕄)
      = iprop((((c : Thread nD τ).loc main_v145) ↦{fullShare} X main_v145) ∗ (((c : Thread nD τ).loc main_v196) ↦{fullShare} X main_v196)
        ∗ (((c : Thread nD τ).loc main_v197) ↦{fullShare} X main_v197) ∗ (((c : Thread nD τ).loc main_v198) ↦{fullShare} X main_v198)
        ∗ (((c : Thread nD τ).loc main_v199) ↦{fullShare} X main_v199)) := by
  unfold Pipeline.arrBufs
  rw [image_arrRef10, BI.bigSep_insert (by decide), BI.bigSep_insert (by decide), BI.bigSep_insert (by decide),
    BI.bigSep_insert (by decide), BI.bigSep_singleton]
  rfl

/-- A window's array is a whole buffer, held at the window's share. -/
theorem arr10_0 (c : Dev nD) (G : Buf (Elt F) ((cfg10.win 0).arr.view.loc (c : Thread nD τ))) :
    ((cfg10.win 0).arr.view.loc (c : Thread nD τ) ↦[(cfg10.win 0).arr.view.set]{(dat10 V c).share 0} G : sProp 𝕄)
      = (((c : Thread nD τ).loc main_v145) ↦{fullShare.left} G) := by
  rw [share10_0, (arr_whole10 0).set_eq_univ]
theorem arr10_1 (c : Dev nD) (G : Buf (Elt F) ((cfg10.win 1).arr.view.loc (c : Thread nD τ))) :
    ((cfg10.win 1).arr.view.loc (c : Thread nD τ) ↦[(cfg10.win 1).arr.view.set]{(dat10 V c).share 1} G : sProp 𝕄)
      = (((c : Thread nD τ).loc main_v145) ↦{fullShare.right} G) := by
  rw [share10_1, (arr_whole10 1).set_eq_univ]
theorem arr10_2 (c : Dev nD) (G : Buf (Elt F) ((cfg10.win 2).arr.view.loc (c : Thread nD τ))) :
    ((cfg10.win 2).arr.view.loc (c : Thread nD τ) ↦[(cfg10.win 2).arr.view.set]{(dat10 V c).share 2} G : sProp 𝕄)
      = (((c : Thread nD τ).loc main_v196) ↦{fullShare} G) := by
  rw [share10_2, (arr_whole10 2).set_eq_univ]
theorem arr10_3 (c : Dev nD) (G : Buf (Elt F) ((cfg10.win 3).arr.view.loc (c : Thread nD τ))) :
    ((cfg10.win 3).arr.view.loc (c : Thread nD τ) ↦[(cfg10.win 3).arr.view.set]{(dat10 V c).share 3} G : sProp 𝕄)
      = (((c : Thread nD τ).loc main_v197) ↦{fullShare} G) := by
  rw [share10_3, (arr_whole10 3).set_eq_univ]
theorem arr10_4 (c : Dev nD) (G : Buf (Elt F) ((cfg10.win 4).arr.view.loc (c : Thread nD τ))) :
    ((cfg10.win 4).arr.view.loc (c : Thread nD τ) ↦[(cfg10.win 4).arr.view.set]{(dat10 V c).share 4} G : sProp 𝕄)
      = (((c : Thread nD τ).loc main_v198) ↦{fullShare} G) := by
  rw [share10_4, (arr_whole10 4).set_eq_univ]
theorem arr10_5 (c : Dev nD) (G : Buf (Elt F) ((cfg10.win 5).arr.view.loc (c : Thread nD τ))) :
    ((cfg10.win 5).arr.view.loc (c : Thread nD τ) ↦[(cfg10.win 5).arr.view.set]{(dat10 V c).share 5} G : sProp 𝕄)
      = (((c : Thread nD τ).loc main_v199) ↦{fullShare} G) := by
  rw [share10_5, (arr_whole10 5).set_eq_univ]

/-- The windows' arrays, one by one. -/
theorem arrays10_eq (c : Dev nD) (G : (w : Fin cfg10.W) → Buf (Elt F) ((cfg10.win w).arr.view.loc (c : Thread nD τ))) :
    (dat10 V c).arrays G
      = iprop((((c : Thread nD τ).loc main_v145) ↦{fullShare.left} G 0) ∗ (((c : Thread nD τ).loc main_v145) ↦{fullShare.right} G 1)
        ∗ (((c : Thread nD τ).loc main_v196) ↦{fullShare} G 2) ∗ (((c : Thread nD τ).loc main_v197) ↦{fullShare} G 3)
        ∗ (((c : Thread nD τ).loc main_v198) ↦{fullShare} G 4) ∗ (((c : Thread nD τ).loc main_v199) ↦{fullShare} G 5)) := by
  unfold Dat.arrays
  rw [bigSep_W10]
  exact congrArg₂ BI.sep (arr10_0 V c _) (congrArg₂ BI.sep (arr10_1 V c _) (congrArg₂ BI.sep (arr10_2 V c _)
    (congrArg₂ BI.sep (arr10_3 V c _) (congrArg₂ BI.sep (arr10_4 V c _) (arr10_5 V c _)))))

/-- The core's unscoped buffers at contents `X` are the buffers behind the windows' arrays and the rest. -/
theorem unscopedBufs_split10 (c : Dev nD) (X : (b : Ref sig .tc) → Buf (Elt F) ((c : Thread nD τ).loc b)) :
    (unscopedBufs c X : sProp 𝕄) = iprop(Pipeline.arrBufs spec10 c X ∗ Pipeline.unscopedRest spec10 c X) :=
  Pipeline.unscopedBufs_split₀ (fun _ : Unit => cfg10) () winFacts₀10.arr_unscoped c X

/-- DEALT: the buffers behind the arrays, each whole at the full share at contents `X`, are the windows' arrays at
    contents `G` that read `X` at each window's reference — the shared buffer's full share split in its halves. -/
theorem arrays_of_arrBufs10 (c : Dev nD) (X : (b : Ref sig .tc) → Buf (Elt F) ((c : Thread nD τ).loc b))
    (G : (w : Fin cfg10.W) → Buf (Elt F) ((cfg10.win w).arr.view.loc (c : Thread nD τ))) (hG : ∀ w, G w = X (Pipeline.arrRef spec10 w)) :
    (Pipeline.arrBufs spec10 c X : sProp 𝕄) ⊢ (dat10 V c).arrays G := by
  rw [arrBufs10_eq, arrays10_eq, hG 0, hG 1, hG 2, hG 3, hG 4, hG 5]
  have hhalves := (pointsTo_share (ℓ := (c : Thread nD τ).loc main_v145) (I := Finset.univ) (f := X main_v145)
    (Ix := Unit) (Name := ℕ) (U := UR sig nD τ) (Lvl := ℕ) (PosShare.mem_left_op_right fullShare)).1
  iintro ⟨H0, H2, H3, H4, H5⟩
  ihave H := hhalves $$ H0
  icases H with ⟨Hl, Hr⟩
  isplitl [Hl]; · iexact Hl
  isplitl [Hr]; · iexact Hr
  isplitl [H2]; · iexact H2
  isplitl [H3]; · iexact H3
  isplitl [H4]; · iexact H4
  iexact H5

/-- GATHERED: the inverse — the two halves, at the same contents, join to the shared buffer's full share. -/
theorem arrBufs_of_arrays10 (c : Dev nD) (X : (b : Ref sig .tc) → Buf (Elt F) ((c : Thread nD τ).loc b))
    (G : (w : Fin cfg10.W) → Buf (Elt F) ((cfg10.win w).arr.view.loc (c : Thread nD τ))) (hG : ∀ w, G w = X (Pipeline.arrRef spec10 w)) :
    (dat10 V c).arrays G ⊢ (Pipeline.arrBufs spec10 c X : sProp 𝕄) := by
  rw [arrBufs10_eq, arrays10_eq, hG 0, hG 1, hG 2, hG 3, hG 4, hG 5]
  have hwhole := (pointsTo_share (ℓ := (c : Thread nD τ).loc main_v145) (I := Finset.univ) (f := X main_v145)
    (Ix := Unit) (Name := ℕ) (U := UR sig nD τ) (Lvl := ℕ) (PosShare.mem_left_op_right fullShare)).2
  iintro ⟨Hl, Hr, H2, H3, H4, H5⟩
  isplitl [Hl Hr]
  · iapply hwhole
    isplitl [Hl]; · iexact Hl
    iexact Hr
  isplitl [H2]; · iexact H2
  isplitl [H3]; · iexact H3
  isplitl [H4]; · iexact H4
  iexact H5

/-- ENTRY, the arrays' part: the core's unscoped buffers at `X` are the windows' arrays at contents read off `X`, and
    the unscoped rest. -/
theorem arrays_of_unscopedBufs10 (c : Dev nD) (X : (b : Ref sig .tc) → Buf (Elt F) ((c : Thread nD τ).loc b))
    (G : (w : Fin cfg10.W) → Buf (Elt F) ((cfg10.win w).arr.view.loc (c : Thread nD τ))) (hG : ∀ w, G w = X (Pipeline.arrRef spec10 w)) :
    (unscopedBufs c X : sProp 𝕄) ⊢ iprop((dat10 V c).arrays G ∗ Pipeline.unscopedRest spec10 c X) := by
  rw [unscopedBufs_split10]
  exact sep_mono (arrays_of_arrBufs10 V c X G hG) .rfl

/-- EXIT, the arrays' part: the windows' arrays at contents `G` and the unscoped rest at `X` are the core's unscoped
    buffers at any contents `X'` that have the arrays at `G` and agree with `X` off them. -/
theorem unscopedBufs_of_arrays10 (c : Dev nD) (X X' : (b : Ref sig .tc) → Buf (Elt F) ((c : Thread nD τ).loc b))
    (G : (w : Fin cfg10.W) → Buf (Elt F) ((cfg10.win w).arr.view.loc (c : Thread nD τ))) (hG : ∀ w, G w = X' (Pipeline.arrRef spec10 w))
    (hrest : ∀ b, b ∉ Finset.univ.image (Pipeline.arrRef spec10) → X' b = X b) :
    iprop((dat10 V c).arrays G ∗ Pipeline.unscopedRest spec10 c X) ⊢ (unscopedBufs c X' : sProp 𝕄) := by
  rw [unscopedBufs_split10 c X']
  refine sep_mono (arrBufs_of_arrays10 V c X' G hG) (Entails.of_eq ?_)
  unfold Pipeline.unscopedRest
  exact bigSep_congr fun b hb => by rw [hrest b (Finset.mem_sdiff.mp hb).2]

end Deal

variable (m : (ℓ : Loc nD τ sig) → Buf (Elt F) ℓ)

/-! ## The exit contents at the region's arrays and off them -/

/-- The exit contents at the output array are what the pipeline leaves there, -/
theorem atOut10 (c : Dev nD) : T34 m c (Proc.devRef .tc main_v199) = o10 m c := by
  unfold T34; exact Function.update_self _ _ _
/-- and at every other reference they are the entry contents. -/
theorem offOut10 (c : Dev nD) (b : Ref sig .tc) (hb : b ≠ main_v199) :
    T34 m c (Proc.devRef .tc b) = T33 m c (Proc.devRef .tc b) := by
  unfold T34; exact Function.update_of_ne (StableHlo.devRef_ne_of_ne hb) _ _

set_option maxHeartbeats 1000000 in
/-- At the region's exit each of its arrays holds what the pipeline leaves: an input window's array is never written,
    so it holds the entry contents, which the exit contents keep off the output array (the two windows on the shared
    array read the same reference there); the output window's array is the one the exit contents replace. -/
theorem hF10 (c : Dev nD) (w : Fin cfg10.W) : (dat10 (rd (T33 m)) c).arrAt w cfg10.N = rd (T34 m) c (Pipeline.arrRef spec10 w) :=
  match w with
  | ⟨0, _⟩ => ((dat10 (rd (T33 m)) c).arrAt_in 0 rfl _).trans ((A_eq10 (rd (T33 m)) c 0).trans (offOut10 m c _ (by decide)).symm)
  | ⟨1, _⟩ => ((dat10 (rd (T33 m)) c).arrAt_in 1 rfl _).trans ((A_eq10 (rd (T33 m)) c 1).trans (offOut10 m c _ (by decide)).symm)
  | ⟨2, _⟩ => ((dat10 (rd (T33 m)) c).arrAt_in 2 rfl _).trans ((A_eq10 (rd (T33 m)) c 2).trans (offOut10 m c _ (by decide)).symm)
  | ⟨3, _⟩ => ((dat10 (rd (T33 m)) c).arrAt_in 3 rfl _).trans ((A_eq10 (rd (T33 m)) c 3).trans (offOut10 m c _ (by decide)).symm)
  | ⟨4, _⟩ => ((dat10 (rd (T33 m)) c).arrAt_in 4 rfl _).trans ((A_eq10 (rd (T33 m)) c 4).trans (offOut10 m c _ (by decide)).symm)
  | ⟨5, _⟩ => (atOut10 m c).symm
/-- Every buffer that is none of the region's arrays holds at exit what it held at entry: it is not the output array. -/
theorem hrest10 (c : Dev nD) : ∀ b, b ∉ Finset.univ.image (Pipeline.arrRef spec10) → rd (T34 m) c b = rd (T33 m) c b :=
  fun b hb => offOut10 m c b fun e => hb (Finset.mem_image.mpr ⟨5, Finset.mem_univ _, (rfl : Pipeline.arrRef spec10 5 = main_v199).trans e.symm⟩)

/-! ## The region as a segment -/

-- a library lemma stated over the pinned configuration unifies with the printed one only when unification may unfold
-- plain definitions in a metavariable's type
set_option backward.isDefEq.respectTransparency.types false in
/-- The region over the thread state: entered from every unscoped buffer at `T33`, left at `T34`. -/
def reg10 : Pipeline.RegionSeg (pcfgs (F := F)) adm (pdats m) () defs₀ Variants.none Lf lvf 10 where
  win := winFacts₀10
  block_pos := block_pos10
  stage_whole := stage_whole10
  K := PEmpty
  osem k := k.elim
  ho := Pipeline.OwnSemFacts.none _
  hbody c := (body_obligation10 (rd (T33 m)) c).loose
  hwaits := Pipeline.hwaits_of_owed_zero _ _ _ _ Lf lvf 10 fun _ _ => rfl
  pre c := iprop(StableHlo.held (c : Thread nD τ) (Pipeline.ucRefs τ sig) (T33 m c) ∗ Rst c)
  post c := iprop(StableHlo.held (c : Thread nD τ) (Pipeline.ucRefs τ sig) (T34 m c) ∗ Rst c)
  X c := iprop(∃ r, prngReg c r)
  Y c := iprop(∃ r, prngReg c r)
  Z c := Pipeline.unscopedRest (Ix := Unit) (Name := ℕ) (U := UR sig nD τ) (Lvl := ℕ) spec10 c (rd (T33 m) c)
  hentry c := by
    rw [Pipeline.ownSems0_none]
    have hsplit := arrays_of_unscopedBufs10 (rd (T33 m)) c (rd (T33 m) c) ((pdats m 10 c).arrAt · 0) fun w => A_eq10 (rd (T33 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := unscopedBufs_of_arrays10 (rd (T33 m)) c (rd (T33 m) c) (rd (T34 m) c) ((pdats m 10 c).arrAt · cfg10.N)
      (hF10 m c) (hrest10 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

theorem reg10_pre (c : Dev nD) :
    (reg10 m).pre c = iprop(StableHlo.held (c : Thread nD τ) (Pipeline.ucRefs τ sig) (T33 m c) ∗ Rst c) := rfl
theorem reg10_post (c : Dev nD) :
    (reg10 m).post c = iprop(StableHlo.held (c : Thread nD τ) (Pipeline.ucRefs τ sig) (T34 m c) ∗ Rst c) := rfl

end Cert.Kernel.Hand

end
-- ==== Proof.K.Run.lean ====
import proofs.«162078_j40114994545134_1_alg».proof.Proof.K.Segs
import proofs.«162078_j40114994545134_1_alg».proof.Proof.K.Seg10
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Cert.Kernel.GenP
open Idealize.ShloMosaic.Pipeline (Seg HostSeg RegionSeg)

variable (m : (ℓ : Loc nD τ sig) → Buf (Elt F) ℓ)

set_option backward.isDefEq.respectTransparency.types false in

theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 11) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 12 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE11 : ∀ c : Dev nD, E 11 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V11 m outs c) ∗ E 3 c) ⊢ R3.pre c)
    (hpost3 : ∀ c : Dev nD, R3.post c ⊢ iprop(StableHlo.held (c : Thread nD τ) (Pipeline.ucRefs τ sig) (V12 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V17 m outs c) ∗ E 4 c) ⊢ R4.pre c)
    (hpost4 : ∀ c : Dev nD, R4.post c ⊢ iprop(StableHlo.held (c : Thread nD τ) (Pipeline.ucRefs τ sig) (V18 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V23 m outs c) ∗ E 5 c) ⊢ R5.pre c)
    (hpost5 : ∀ c : Dev nD, R5.post c ⊢ iprop(StableHlo.held (c : Thread nD τ) (Pipeline.ucRefs τ sig) (V24 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V25 m outs c) ∗ E 6 c) ⊢ R6.pre c)
    (hpost6 : ∀ c : Dev nD, R6.post c ⊢ iprop(StableHlo.held (c : Thread nD τ) (Pipeline.ucRefs τ sig) (V26 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V27 m outs c) ∗ E 7 c) ⊢ R7.pre c)
    (hpost7 : ∀ c : Dev nD, R7.post c ⊢ iprop(StableHlo.held (c : Thread nD τ) (Pipeline.ucRefs τ sig) (V28 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V29 m outs c) ∗ E 8 c) ⊢ R8.pre c)
    (hpost8 : ∀ c : Dev nD, R8.post c ⊢ iprop(StableHlo.held (c : Thread nD τ) (Pipeline.ucRefs τ sig) (V30 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V31 m outs c) ∗ E 9 c) ⊢ R9.pre c)
    (hpost9 : ∀ c : Dev nD, R9.post c ⊢ iprop(StableHlo.held (c : Thread nD τ) (Pipeline.ucRefs τ sig) (V32 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V33 m outs c) ∗ E 10 c) ⊢ R10.pre c)
    (hpost10 : ∀ c : Dev nD, R10.post c ⊢ iprop(StableHlo.held (c : Thread nD τ) (Pipeline.ucRefs τ sig) (V34 m outs c) ∗ E 11 c)) :
    θ_run defs (onTc (τ := τ) (main (F := F))) ⟨m, fun _ => 0, ρ⟩ (fun r => ∀ c : Dev nD,
      r.2.mem ((c.tc : Thread nD τ).loc main_v200) = V35 m outs c main_v200
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10)
    (fun c Q => by
      rewrite [main_chain c, Seg.run_eq_chain,
        show (segs m outs 𝒱₀ L lv E ι pdats R0 R1 R2 R3 R4 R5 R6 R7 R8 R9 R10 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          StableHlo.seq hostOps3_1,
          StableHlo.seq hostOps3_2,
          StableHlo.seq hostOps3_3,
          StableHlo.seq hostOps3_4,
          Prog.lift (.customCall (Pipeline.entry 3) ()),
          StableHlo.seq hostOps4,
          StableHlo.seq hostOps4_1,
          StableHlo.seq hostOps4_2,
          StableHlo.seq hostOps4_3,
          StableHlo.seq hostOps4_4,
          Prog.lift (.customCall (Pipeline.entry 4) ()),
          StableHlo.seq hostOps5,
          StableHlo.seq hostOps5_1,
          StableHlo.seq hostOps5_2,
          StableHlo.seq hostOps5_3,
          StableHlo.seq hostOps5_4,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11 ] from rfl]
      with_reducible exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V35 m outs c))
    (hch := fun c => ⟨.rfl, hpre0 c, hpost0 c, hpre1 c, hpost1 c, hpre2 c, hpost2 c, .rfl, .rfl, .rfl, .rfl, hpre3 c, hpost3 c, .rfl, .rfl, .rfl, .rfl, hpre4 c, hpost4 c, .rfl, .rfl, .rfl, .rfl, hpre5 c, hpost5 c, hpre6 c, hpost6 c, hpre7 c, hpost7 c, hpre8 c, hpost8 c, hpre9 c, hpost9 c, hpre10 c, hpost10 c, sep_mono .rfl (hE11 c)⟩)
    (hinit := ?_) (QY := fun c s => s.mem ((c.tc : Thread nD τ).loc main_v200) = V35 m outs c main_v200 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17) ∧ s.mem ((c.tc : Thread nD τ).loc main_arg18) = m ((c.tc : Thread nD τ).loc main_arg18) ∧ s.mem ((c.tc : Thread nD τ).loc main_arg19) = m ((c.tc : Thread nD τ).loc main_arg19) ∧ s.mem ((c.tc : Thread nD τ).loc main_arg20) = m ((c.tc : Thread nD τ).loc main_arg20) ∧ s.mem ((c.tc : Thread nD τ).loc main_arg21) = m ((c.tc : Thread nD τ).loc main_arg21) ∧ s.mem ((c.tc : Thread nD τ).loc main_arg22) = m ((c.tc : Thread nD τ).loc main_arg22) ∧ s.mem ((c.tc : Thread nD τ).loc main_arg23) = m ((c.tc : Thread nD τ).loc main_arg23) ∧ s.mem ((c.tc : Thread nD τ).loc main_arg24) = m ((c.tc : Thread nD τ).loc main_arg24) ∧ s.mem ((c.tc : Thread nD τ).loc main_arg25) = m ((c.tc : Thread nD τ).loc main_arg25) ∧ s.mem ((c.tc : Thread nD τ).loc main_arg26) = m ((c.tc : Thread nD τ).loc main_arg26) ∧ s.mem ((c.tc : Thread nD τ).loc main_arg27) = m ((c.tc : Thread nD τ).loc main_arg27) ∧ s.mem ((c.tc : Thread nD τ).loc main_arg28) = m ((c.tc : Thread nD τ).loc main_arg28) ∧ s.mem ((c.tc : Thread nD τ).loc main_arg29) = m ((c.tc : Thread nD τ).loc main_arg29) ∧ s.mem ((c.tc : Thread nD τ).loc main_arg30) = m ((c.tc : Thread nD τ).loc main_arg30) ∧ s.mem ((c.tc : Thread nD τ).loc main_arg31) = m ((c.tc : Thread nD τ).loc main_arg31) ∧ s.mem ((c.tc : Thread nD τ).loc main_arg32) = m ((c.tc : Thread nD τ).loc main_arg32) ∧ s.mem ((c.tc : Thread nD τ).loc main_arg33) = m ((c.tc : Thread nD τ).loc main_arg33) ∧ s.mem ((c.tc : Thread nD τ).loc main_arg34) = m ((c.tc : Thread nD τ).loc main_arg34) ∧ s.mem ((c.tc : Thread nD τ).loc main_arg35) = m ((c.tc : Thread nD τ).loc main_arg35) ∧ s.mem ((c.tc : Thread nD τ).loc main_arg36) = m ((c.tc : Thread nD τ).loc main_arg36))
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (V35 m outs c) s') $$ [Hh HSI]
    · isplitl [Hh] <;> iassumption
    icases Hr with ⟨%h, HSI⟩
    imodintro
    isplitr
    · ipureintro
      exact ⟨h (Proc.devRef .tc main_v200) (Finset.mem_filter.mpr ⟨StableHlo.devRef_mem_tcRefs main_v200, by decide⟩),
        (h (Proc.devRef .tc main_arg0) (Finset.mem_filter.mpr ⟨StableHlo.devRef_mem_tcRefs main_arg0, by decide⟩)).trans (V35_keep m outs c main_arg0 (by decide)),
        (h (Proc.devRef .tc main_arg1) (Finset.mem_filter.mpr ⟨StableHlo.devRef_mem_tcRefs main_arg1, by decide⟩)).trans (V35_keep m outs c main_arg1 (by decide)),
        (h (Proc.devRef .tc main_arg2) (Finset.mem_filter.mpr ⟨StableHlo.devRef_mem_tcRefs main_arg2, by decide⟩)).trans (V35_keep m outs c main_arg2 (by decide)),
        (h (Proc.devRef .tc main_arg3) (Finset.mem_filter.mpr ⟨StableHlo.devRef_mem_tcRefs main_arg3, by decide⟩)).trans (V35_keep m outs c main_arg3 (by decide)),
        (h (Proc.devRef .tc main_arg4) (Finset.mem_filter.mpr ⟨StableHlo.devRef_mem_tcRefs main_arg4, by decide⟩)).trans (V35_keep m outs c main_arg4 (by decide)),
        (h (Proc.devRef .tc main_arg5) (Finset.mem_filter.mpr ⟨StableHlo.devRef_mem_tcRefs main_arg5, by decide⟩)).trans (V35_keep m outs c main_arg5 (by decide)),
        (h (Proc.devRef .tc main_arg6) (Finset.mem_filter.mpr ⟨StableHlo.devRef_mem_tcRefs main_arg6, by decide⟩)).trans (V35_keep m outs c main_arg6 (by decide)),
        (h (Proc.devRef .tc main_arg7) (Finset.mem_filter.mpr ⟨StableHlo.devRef_mem_tcRefs main_arg7, by decide⟩)).trans (V35_keep m outs c main_arg7 (by decide)),
        (h (Proc.devRef .tc main_arg8) (Finset.mem_filter.mpr ⟨StableHlo.devRef_mem_tcRefs main_arg8, by decide⟩)).trans (V35_keep m outs c main_arg8 (by decide)),
        (h (Proc.devRef .tc main_arg9) (Finset.mem_filter.mpr ⟨StableHlo.devRef_mem_tcRefs main_arg9, by decide⟩)).trans (V35_keep m outs c main_arg9 (by decide)),
        (h (Proc.devRef .tc main_arg10) (Finset.mem_filter.mpr ⟨StableHlo.devRef_mem_tcRefs main_arg10, by decide⟩)).trans (V35_keep m outs c main_arg10 (by decide)),
        (h (Proc.devRef .tc main_arg11) (Finset.mem_filter.mpr ⟨StableHlo.devRef_mem_tcRefs main_arg11, by decide⟩)).trans (V35_keep m outs c main_arg11 (by decide)),
        (h (Proc.devRef .tc main_arg12) (Finset.mem_filter.mpr ⟨StableHlo.devRef_mem_tcRefs main_arg12, by decide⟩)).trans (V35_keep m outs c main_arg12 (by decide)),
        (h (Proc.devRef .tc main_arg13) (Finset.mem_filter.mpr ⟨StableHlo.devRef_mem_tcRefs main_arg13, by decide⟩)).trans (V35_keep m outs c main_arg13 (by decide)),
        (h (Proc.devRef .tc main_arg14) (Finset.mem_filter.mpr ⟨StableHlo.devRef_mem_tcRefs main_arg14, by decide⟩)).trans (V35_keep m outs c main_arg14 (by decide)),
        (h (Proc.devRef .tc main_arg15) (Finset.mem_filter.mpr ⟨StableHlo.devRef_mem_tcRefs main_arg15, by decide⟩)).trans (V35_keep m outs c main_arg15 (by decide)),
        (h (Proc.devRef .tc main_arg16) (Finset.mem_filter.mpr ⟨StableHlo.devRef_mem_tcRefs main_arg16, by decide⟩)).trans (V35_keep m outs c main_arg16 (by decide)),
        (h (Proc.devRef .tc main_arg17) (Finset.mem_filter.mpr ⟨StableHlo.devRef_mem_tcRefs main_arg17, by decide⟩)).trans (V35_keep m outs c main_arg17 (by decide)),
        (h (Proc.devRef .tc main_arg18) (Finset.mem_filter.mpr ⟨StableHlo.devRef_mem_tcRefs main_arg18, by decide⟩)).trans (V35_keep m outs c main_arg18 (by decide)),
        (h (Proc.devRef .tc main_arg19) (Finset.mem_filter.mpr ⟨StableHlo.devRef_mem_tcRefs main_arg19, by decide⟩)).trans (V35_keep m outs c main_arg19 (by decide)),
        (h (Proc.devRef .tc main_arg20) (Finset.mem_filter.mpr ⟨StableHlo.devRef_mem_tcRefs main_arg20, by decide⟩)).trans (V35_keep m outs c main_arg20 (by decide)),
        (h (Proc.devRef .tc main_arg21) (Finset.mem_filter.mpr ⟨StableHlo.devRef_mem_tcRefs main_arg21, by decide⟩)).trans (V35_keep m outs c main_arg21 (by decide)),
        (h (Proc.devRef .tc main_arg22) (Finset.mem_filter.mpr ⟨StableHlo.devRef_mem_tcRefs main_arg22, by decide⟩)).trans (V35_keep m outs c main_arg22 (by decide)),
        (h (Proc.devRef .tc main_arg23) (Finset.mem_filter.mpr ⟨StableHlo.devRef_mem_tcRefs main_arg23, by decide⟩)).trans (V35_keep m outs c main_arg23 (by decide)),
        (h (Proc.devRef .tc main_arg24) (Finset.mem_filter.mpr ⟨StableHlo.devRef_mem_tcRefs main_arg24, by decide⟩)).trans (V35_keep m outs c main_arg24 (by decide)),
        (h (Proc.devRef .tc main_arg25) (Finset.mem_filter.mpr ⟨StableHlo.devRef_mem_tcRefs main_arg25, by decide⟩)).trans (V35_keep m outs c main_arg25 (by decide)),
        (h (Proc.devRef .tc main_arg26) (Finset.mem_filter.mpr ⟨StableHlo.devRef_mem_tcRefs main_arg26, by decide⟩)).trans (V35_keep m outs c main_arg26 (by decide)),
        (h (Proc.devRef .tc main_arg27) (Finset.mem_filter.mpr ⟨StableHlo.devRef_mem_tcRefs main_arg27, by decide⟩)).trans (V35_keep m outs c main_arg27 (by decide)),
        (h (Proc.devRef .tc main_arg28) (Finset.mem_filter.mpr ⟨StableHlo.devRef_mem_tcRefs main_arg28, by decide⟩)).trans (V35_keep m outs c main_arg28 (by decide)),
        (h (Proc.devRef .tc main_arg29) (Finset.mem_filter.mpr ⟨StableHlo.devRef_mem_tcRefs main_arg29, by decide⟩)).trans (V35_keep m outs c main_arg29 (by decide)),
        (h (Proc.devRef .tc main_arg30) (Finset.mem_filter.mpr ⟨StableHlo.devRef_mem_tcRefs main_arg30, by decide⟩)).trans (V35_keep m outs c main_arg30 (by decide)),
        (h (Proc.devRef .tc main_arg31) (Finset.mem_filter.mpr ⟨StableHlo.devRef_mem_tcRefs main_arg31, by decide⟩)).trans (V35_keep m outs c main_arg31 (by decide)),
        (h (Proc.devRef .tc main_arg32) (Finset.mem_filter.mpr ⟨StableHlo.devRef_mem_tcRefs main_arg32, by decide⟩)).trans (V35_keep m outs c main_arg32 (by decide)),
        (h (Proc.devRef .tc main_arg33) (Finset.mem_filter.mpr ⟨StableHlo.devRef_mem_tcRefs main_arg33, by decide⟩)).trans (V35_keep m outs c main_arg33 (by decide)),
        (h (Proc.devRef .tc main_arg34) (Finset.mem_filter.mpr ⟨StableHlo.devRef_mem_tcRefs main_arg34, by decide⟩)).trans (V35_keep m outs c main_arg34 (by decide)),
        (h (Proc.devRef .tc main_arg35) (Finset.mem_filter.mpr ⟨StableHlo.devRef_mem_tcRefs main_arg35, by decide⟩)).trans (V35_keep m outs c main_arg35 (by decide)),
        (h (Proc.devRef .tc main_arg36) (Finset.mem_filter.mpr ⟨StableHlo.devRef_mem_tcRefs main_arg36, by decide⟩)).trans (V35_keep m outs c main_arg36 (by decide))⟩
    · iexact HSI

set_option backward.isDefEq.respectTransparency.types false in

theorem run_main (ρ : Dev nD → PrngReg) :
    θ_run defs (onTc (τ := τ) (main (F := F))) ⟨m, fun _ => 0, ρ⟩ (fun r => ∀ c : Dev nD,
      r.2.mem ((c.tc : Thread nD τ).loc main_v200) = T35 m c main_v200
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)) := by
  have h := run_cond m (Ix := Unit) (U := UR sig nD τ) (Lvl := ℕ) emb₁ () Variants.none Lf lvf (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := by
      refine Pipeline.initEach Lf lvf fun c => ?_
      iintro ⟨⟨-, HO, -, Hp, -⟩, -⟩
      imodintro
      isplitl [Hp]; · iexists _; iexact Hp
      iexists ∅; iexact HO)
    (hE11 := fun c => by iintro ⟨-, H⟩; iexact H)
    (reg0 m) (fun c => by rw [V1_eq, reg0_pre]) (fun c => by rw [V2_eq, reg0_post])
    (reg1 m) (fun c => by rw [V3_eq, reg1_pre]) (fun c => by rw [V4_eq, reg1_post])
    (reg2 m) (fun c => by rw [V5_eq, reg2_pre]) (fun c => by rw [V6_eq, reg2_post])
    (reg3 m) (fun c => by rw [V11_eq, reg3_pre]) (fun c => by rw [V12_eq, reg3_post])
    (reg4 m) (fun c => by rw [V17_eq, reg4_pre]) (fun c => by rw [V18_eq, reg4_post])
    (reg5 m) (fun c => by rw [V23_eq, reg5_pre]) (fun c => by rw [V24_eq, reg5_post])
    (reg6 m) (fun c => by rw [V25_eq, reg6_pre]) (fun c => by rw [V26_eq, reg6_post])
    (reg7 m) (fun c => by rw [V27_eq, reg7_pre]) (fun c => by rw [V28_eq, reg7_post])
    (reg8 m) (fun c => by rw [V29_eq, reg8_pre]) (fun c => by rw [V30_eq, reg8_post])
    (reg9 m) (fun c => by rw [V31_eq, reg9_pre]) (fun c => by rw [V32_eq, reg9_post])
    (reg10 m) (fun c => by rw [V33_eq, reg10_pre]) (fun c => by rw [V34_eq, reg10_post])
  exact (θ_run defs _ _).mono (fun r hr c => by rw [← V35_eq]; exact hr c) h

end Cert.Kernel.Hand

end
-- ==== Proof.KI.Def0.lean ====
import proofs.«162078_j40114994545134_1_alg».proof.Proof.Gen.KernelIdeal.Launch
import proofs.«162078_j40114994545134_1_alg».proof.Proof.Gen.KernelIdeal.Skeleton
import proofs.«162078_j40114994545134_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S10000x32 := Rect.unit (s := S10000x32) ![0, 0] S10000x32.size inb_S10000x32_S10000x32_0_0
abbrev r0_w : Rect S32x128 := Rect.unit (s := S32x128) ![0, 0] S32x128.size inb_S32x128_S32x128_0_0
abbrev r0_b : Rect S1x128 := Rect.unit (s := S1x128) ![0, 0] S1x128.size inb_S1x128_S1x128_0_0
abbrev r0_o : Rect S10000x128 := Rect.unit (s := S10000x128) ![0, 0] S10000x128.size inb_S10000x128_S10000x128_0_0

def out0_3 (x0 : Vec F S10000x32 .f32) (x1 : Vec F S32x128 .f32) (x2 : Vec F S1x128 .f32) : Vec F S10000x128 .f32 :=
  View.canon [⟨r0_o, k0_pay1 (View.ld x0 r0_x) (View.ld x1 r0_w) (View.ld x2 r0_b)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

end Cert.KernelIdeal.Hand

end
-- ==== Proof.KI.Def1.lean ====
/-
  A linear layer's region (a block of rows of the input features times the whole weight matrix, plus the bias row),
  as data: what each window's block is at a grid point, what the body's one store leaves in the output window's buffer
  as a function of the three input blocks, and the pipeline's proof data built from them. The contents the region is
  entered with are a parameter.
-/
import proofs.«162078_j40114994545134_1_alg».proof.Proof.Gen.KernelIdeal.Launch
import proofs.«162078_j40114994545134_1_alg».proof.Proof.Gen.KernelIdeal.Skeleton
import proofs.«162078_j40114994545134_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles the body loads and stores through. -/
abbrev r1_x : Rect S10000x128 := Rect.unit (s := S10000x128) ![0, 0] S10000x128.size inb_S10000x128_S10000x128_0_0
abbrev r1_w : Rect S128x128 := Rect.unit (s := S128x128) ![0, 0] S128x128.size inb_S128x128_S128x128_0_0
abbrev r1_b : Rect S1x128 := Rect.unit (s := S1x128) ![0, 0] S1x128.size inb_S1x128_S1x128_0_0
abbrev r1_o : Rect S10000x128 := Rect.unit (s := S10000x128) ![0, 0] S10000x128.size inb_S10000x128_S10000x128_0_0

/-- The output window's buffer after the body: its one store, of the product-plus-bias of the three loaded blocks. -/
def out1_3 (x0 : Vec F S10000x128 .f32) (x1 : Vec F S128x128 .f32) (x2 : Vec F S1x128 .f32) : Vec F S10000x128 .f32 :=
  View.canon [⟨r1_o, k1_pay1 (View.ld x0 r1_x) (View.ld x1 r1_w) (View.ld x2 r1_b)⟩]

/-- The proof data: the arrays as entered; after the body each input's buffer at its block, the output's at `out1_3` of
    the input blocks; the untouched scoped rest as invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

end Cert.KernelIdeal.Hand

end
-- ==== Proof.KI.Def2.lean ====
/-
  A linear layer's region (a block of rows of the input features times the whole weight matrix, plus the bias row),
  as data: what each window's block is at a grid point, what the body's one store leaves in the output window's buffer
  as a function of the three input blocks, and the pipeline's proof data built from them. The contents the region is
  entered with are a parameter.
-/
import proofs.«162078_j40114994545134_1_alg».proof.Proof.Gen.KernelIdeal.Launch
import proofs.«162078_j40114994545134_1_alg».proof.Proof.Gen.KernelIdeal.Skeleton
import proofs.«162078_j40114994545134_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole-buffer rectangles the body loads and stores through. -/
abbrev r2_x : Rect S5000x128 := Rect.unit (s := S5000x128) ![0, 0] S5000x128.size inb_S5000x128_S5000x128_0_0
abbrev r2_w : Rect S128x128 := Rect.unit (s := S128x128) ![0, 0] S128x128.size inb_S128x128_S128x128_0_0
abbrev r2_b : Rect S1x128 := Rect.unit (s := S1x128) ![0, 0] S1x128.size inb_S1x128_S1x128_0_0
abbrev r2_o : Rect S5000x128 := Rect.unit (s := S5000x128) ![0, 0] S5000x128.size inb_S5000x128_S5000x128_0_0

/-- The output window's buffer after the body: its one store, of the product-plus-bias of the three loaded blocks. -/
def out2_3 (x0 : Vec F S5000x128 .f32) (x1 : Vec F S128x128 .f32) (x2 : Vec F S1x128 .f32) : Vec F S5000x128 .f32 :=
  View.canon [⟨r2_o, k2_pay1 (View.ld x0 r2_x) (View.ld x1 r2_w) (View.ld x2 r2_b)⟩]

/-- The proof data: the arrays as entered; after the body each input's buffer at its block, the output's at `out2_3` of
    the input blocks; the untouched scoped rest as invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

end Cert.KernelIdeal.Hand

end
-- ==== Proof.KI.Def3.lean ====
import proofs.«162078_j40114994545134_1_alg».proof.Proof.Gen.KernelIdeal.Launch
import proofs.«162078_j40114994545134_1_alg».proof.Proof.Gen.KernelIdeal.Skeleton
import proofs.«162078_j40114994545134_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_x : Rect S10000x128 := Rect.unit (s := S10000x128) ![0, 0] S10000x128.size inb_S10000x128_S10000x128_0_0
abbrev r3_s : Rect S10000x1 := Rect.unit (s := S10000x1) ![0, 0] S10000x1.size inb_S10000x1_S10000x1_0_0
abbrev r3_w : Rect S128x128 := Rect.unit (s := S128x128) ![0, 0] S128x128.size inb_S128x128_S128x128_0_0
abbrev r3_b : Rect S1x128 := Rect.unit (s := S1x128) ![0, 0] S1x128.size inb_S1x128_S1x128_0_0

def out3_4 (x0 : Vec F S10000x128 .f32) (x1 : Vec F S10000x1 .f32) (x2 : Vec F S128x128 .f32) (x3 : Vec F S1x128 .f32) :
    Vec F S10000x128 .f32 :=
  View.canon [⟨r3_x, k3_pay1 (View.ld x0 r3_x) (View.ld x1 r3_s) (View.ld x2 r3_w) (View.ld x3 r3_b)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by dsimp only [dat3]

end Cert.KernelIdeal.Hand

end
-- ==== Proof.KI.Def4.lean ====
/-
  A graph-convolution layer's region (a block of rows of aggregated features, each row scaled by its node's in-degree
  factor, times the whole weight matrix, plus the bias row), as data: the windows' blocks at a grid point, what the
  body's one store leaves in the output window's buffer as a function of the four input blocks, and the pipeline's
  proof data built from them. The contents the region is entered with are a parameter.
-/
import proofs.«162078_j40114994545134_1_alg».proof.Proof.Gen.KernelIdeal.Launch
import proofs.«162078_j40114994545134_1_alg».proof.Proof.Gen.KernelIdeal.Skeleton
import proofs.«162078_j40114994545134_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The whole-buffer rectangles the body loads and stores through. -/
abbrev r4_x : Rect S5000x128 := Rect.unit (s := S5000x128) ![0, 0] S5000x128.size inb_S5000x128_S5000x128_0_0
abbrev r4_s : Rect S5000x1 := Rect.unit (s := S5000x1) ![0, 0] S5000x1.size inb_S5000x1_S5000x1_0_0
abbrev r4_w : Rect S128x128 := Rect.unit (s := S128x128) ![0, 0] S128x128.size inb_S128x128_S128x128_0_0
abbrev r4_b : Rect S1x128 := Rect.unit (s := S1x128) ![0, 0] S1x128.size inb_S1x128_S1x128_0_0

/-- The output window's buffer after the body: its one store, of the scaled product plus bias of the four loaded blocks. -/
def out4_4 (x0 : Vec F S5000x128 .f32) (x1 : Vec F S5000x1 .f32) (x2 : Vec F S128x128 .f32) (x3 : Vec F S1x128 .f32) :
    Vec F S5000x128 .f32 :=
  View.canon [⟨r4_x, k4_pay1 (View.ld x0 r4_x) (View.ld x1 r4_s) (View.ld x2 r4_w) (View.ld x3 r4_b)⟩]

/-- The proof data: the arrays as entered; after the body each input's buffer at its block, the output's at `out4_4` of
    the input blocks; the untouched scoped rest as invariant; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = out4_4 (iblk4 V c 0 t) (iblk4 V c 1 t) (iblk4 V c 2 t) (iblk4 V c 3 t) := by dsimp only [dat4]

end Cert.KernelIdeal.Hand

end
-- ==== Proof.KI.Def5.lean ====
/-
  A graph-convolution layer's region (a block of rows of aggregated features, each row scaled by its node's in-degree
  factor, times the whole weight matrix, plus the bias row), as data: the windows' blocks at a grid point, what the
  body's one store leaves in the output window's buffer as a function of the four input blocks, and the pipeline's
  proof data built from them. The contents the region is entered with are a parameter.
-/
import proofs.«162078_j40114994545134_1_alg».proof.Proof.Gen.KernelIdeal.Launch
import proofs.«162078_j40114994545134_1_alg».proof.Proof.Gen.KernelIdeal.Skeleton
import proofs.«162078_j40114994545134_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The whole-buffer rectangles the body loads and stores through. -/
abbrev r5_x : Rect S6250x128 := Rect.unit (s := S6250x128) ![0, 0] S6250x128.size inb_S6250x128_S6250x128_0_0
abbrev r5_s : Rect S6250x1 := Rect.unit (s := S6250x1) ![0, 0] S6250x1.size inb_S6250x1_S6250x1_0_0
abbrev r5_w : Rect S128x128 := Rect.unit (s := S128x128) ![0, 0] S128x128.size inb_S128x128_S128x128_0_0
abbrev r5_b : Rect S1x128 := Rect.unit (s := S1x128) ![0, 0] S1x128.size inb_S1x128_S1x128_0_0

/-- The output window's buffer after the body: its one store, of the scaled product plus bias of the four loaded blocks. -/
def out5_4 (x0 : Vec F S6250x128 .f32) (x1 : Vec F S6250x1 .f32) (x2 : Vec F S128x128 .f32) (x3 : Vec F S1x128 .f32) :
    Vec F S6250x128 .f32 :=
  View.canon [⟨r5_x, k5_pay1 (View.ld x0 r5_x) (View.ld x1 r5_s) (View.ld x2 r5_w) (View.ld x3 r5_b)⟩]

/-- The proof data: the arrays as entered; after the body each input's buffer at its block, the output's at `out5_4` of
    the input blocks; the untouched scoped rest as invariant; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) :
    (dat5 V c).after 4 t = out5_4 (iblk5 V c 0 t) (iblk5 V c 1 t) (iblk5 V c 2 t) (iblk5 V c 3 t) := by dsimp only [dat5]

end Cert.KernelIdeal.Hand

end
-- ==== Proof.KI.Def6.lean ====
/-
  A linear layer's region (a block of rows of the input features times the whole weight matrix, plus the bias row),
  as data: what each window's block is at a grid point, what the body's one store leaves in the output window's buffer
  as a function of the three input blocks, and the pipeline's proof data built from them. The contents the region is
  entered with are a parameter.
-/
import proofs.«162078_j40114994545134_1_alg».proof.Proof.Gen.KernelIdeal.Launch
import proofs.«162078_j40114994545134_1_alg».proof.Proof.Gen.KernelIdeal.Skeleton
import proofs.«162078_j40114994545134_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The whole-buffer rectangles the body loads and stores through. -/
abbrev r6_x : Rect S6250x128 := Rect.unit (s := S6250x128) ![0, 0] S6250x128.size inb_S6250x128_S6250x128_0_0
abbrev r6_w : Rect S128x128 := Rect.unit (s := S128x128) ![0, 0] S128x128.size inb_S128x128_S128x128_0_0
abbrev r6_b : Rect S1x128 := Rect.unit (s := S1x128) ![0, 0] S1x128.size inb_S1x128_S1x128_0_0
abbrev r6_o : Rect S6250x128 := Rect.unit (s := S6250x128) ![0, 0] S6250x128.size inb_S6250x128_S6250x128_0_0

/-- The output window's buffer after the body: its one store, of the product-plus-bias of the three loaded blocks. -/
def out6_3 (x0 : Vec F S6250x128 .f32) (x1 : Vec F S128x128 .f32) (x2 : Vec F S1x128 .f32) : Vec F S6250x128 .f32 :=
  View.canon [⟨r6_o, k6_pay1 (View.ld x0 r6_x) (View.ld x1 r6_w) (View.ld x2 r6_b)⟩]

/-- The proof data: the arrays as entered; after the body each input's buffer at its block, the output's at `out6_3` of
    the input blocks; the untouched scoped rest as invariant; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6_3 (iblk6 V c 0 t) (iblk6 V c 1 t) (iblk6 V c 2 t) := by dsimp only [dat6]

end Cert.KernelIdeal.Hand

end
-- ==== Proof.KI.Def7.lean ====
/-
  A linear layer's region (a block of rows of the input features times the whole weight matrix, plus the bias row),
  as data: what each window's block is at a grid point, what the body's one store leaves in the output window's buffer
  as a function of the three input blocks, and the pipeline's proof data built from them. The contents the region is
  entered with are a parameter.
-/
import proofs.«162078_j40114994545134_1_alg».proof.Proof.Gen.KernelIdeal.Launch
import proofs.«162078_j40114994545134_1_alg».proof.Proof.Gen.KernelIdeal.Skeleton
import proofs.«162078_j40114994545134_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The whole-buffer rectangles the body loads and stores through. -/
abbrev r7_x : Rect S5000x128 := Rect.unit (s := S5000x128) ![0, 0] S5000x128.size inb_S5000x128_S5000x128_0_0
abbrev r7_w : Rect S128x128 := Rect.unit (s := S128x128) ![0, 0] S128x128.size inb_S128x128_S128x128_0_0
abbrev r7_b : Rect S1x128 := Rect.unit (s := S1x128) ![0, 0] S1x128.size inb_S1x128_S1x128_0_0
abbrev r7_o : Rect S5000x128 := Rect.unit (s := S5000x128) ![0, 0] S5000x128.size inb_S5000x128_S5000x128_0_0

/-- The output window's buffer after the body: its one store, of the product-plus-bias of the three loaded blocks. -/
def out7_3 (x0 : Vec F S5000x128 .f32) (x1 : Vec F S128x128 .f32) (x2 : Vec F S1x128 .f32) : Vec F S5000x128 .f32 :=
  View.canon [⟨r7_o, k7_pay1 (View.ld x0 r7_x) (View.ld x1 r7_w) (View.ld x2 r7_b)⟩]

/-- The proof data: the arrays as entered; after the body each input's buffer at its block, the output's at `out7_3` of
    the input blocks; the untouched scoped rest as invariant; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) :
    (dat7 V c).after 3 t = out7_3 (iblk7 V c 0 t) (iblk7 V c 1 t) (iblk7 V c 2 t) := by dsimp only [dat7]

end Cert.KernelIdeal.Hand

end
-- ==== Proof.KI.Def8.lean ====
import proofs.«162078_j40114994545134_1_alg».proof.Proof.Gen.KernelIdeal.Launch
import proofs.«162078_j40114994545134_1_alg».proof.Proof.Gen.KernelIdeal.Skeleton
import proofs.«162078_j40114994545134_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev r8_x : Rect S10000x128 := Rect.unit (s := S10000x128) ![0, 0] S10000x128.size inb_S10000x128_S10000x128_0_0
abbrev r8_w : Rect S128x5 := Rect.unit (s := S128x5) ![0, 0] S128x5.size inb_S128x5_S128x5_0_0
abbrev r8_b : Rect S1x5 := Rect.unit (s := S1x5) ![0, 0] S1x5.size inb_S1x5_S1x5_0_0
abbrev r8_o : Rect S10000x5 := Rect.unit (s := S10000x5) ![0, 0] S10000x5.size inb_S10000x5_S10000x5_0_0

def out8_5 (x0 x1 : Vec F S10000x128 .f32) (x2 x3 : Vec F S128x5 .f32) (x4 : Vec F S1x5 .f32) : Vec F S10000x5 .f32 :=
  View.canon [⟨r8_o, k8_pay1 (View.ld x0 r8_x) (View.ld x1 r8_x) (View.ld x2 r8_w) (View.ld x3 r8_w) (View.ld x4 r8_b)⟩]

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) :
    (dat8 V c).after 5 t = out8_5 (iblk8 V c 0 t) (iblk8 V c 1 t) (iblk8 V c 2 t) (iblk8 V c 3 t) (iblk8 V c 4 t) := by
  dsimp only [dat8]

end Cert.KernelIdeal.Hand

end
-- ==== Proof.KI.Def9.lean ====
/-
  An output head's region (a block of rows of graph-convolution features and one of decoded features, each times its
  half of the head weight, summed with the bias row, then a softmax along each row), as data: the windows' blocks at a
  grid point, what the body's one store leaves in the output window's buffer as a function of the five input blocks,
  and the pipeline's proof data built from them. The contents the region is entered with are a parameter.
-/
import proofs.«162078_j40114994545134_1_alg».proof.Proof.Gen.KernelIdeal.Launch
import proofs.«162078_j40114994545134_1_alg».proof.Proof.Gen.KernelIdeal.Skeleton
import proofs.«162078_j40114994545134_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The whole-buffer rectangles the body loads and stores through. -/
abbrev r9_x : Rect S5000x128 := Rect.unit (s := S5000x128) ![0, 0] S5000x128.size inb_S5000x128_S5000x128_0_0
abbrev r9_w : Rect S128x5 := Rect.unit (s := S128x5) ![0, 0] S128x5.size inb_S128x5_S128x5_0_0
abbrev r9_b : Rect S1x5 := Rect.unit (s := S1x5) ![0, 0] S1x5.size inb_S1x5_S1x5_0_0
abbrev r9_o : Rect S5000x5 := Rect.unit (s := S5000x5) ![0, 0] S5000x5.size inb_S5000x5_S5000x5_0_0

/-- The output window's buffer after the body: its one store, the row softmax of the two products plus bias. -/
def out9_5 (x0 x1 : Vec F S5000x128 .f32) (x2 x3 : Vec F S128x5 .f32) (x4 : Vec F S1x5 .f32) : Vec F S5000x5 .f32 :=
  View.canon [⟨r9_o, k9_pay1 (View.ld x0 r9_x) (View.ld x1 r9_x) (View.ld x2 r9_w) (View.ld x3 r9_w) (View.ld x4 r9_b)⟩]

/-- The proof data: the arrays as entered; after the body each input's buffer at its block, the output's at `out9_5` of
    the input blocks; the untouched scoped rest as invariant; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) :
    (dat9 V c).after 5 t = out9_5 (iblk9 V c 0 t) (iblk9 V c 1 t) (iblk9 V c 2 t) (iblk9 V c 3 t) (iblk9 V c 4 t) := by
  dsimp only [dat9]

end Cert.KernelIdeal.Hand

end
-- ==== Proof.KI.Def10.lean ====
import proofs.«162078_j40114994545134_1_alg».proof.Proof.Gen.KernelIdeal.Launch
import proofs.«162078_j40114994545134_1_alg».proof.Proof.Gen.KernelIdeal.Skeleton
import proofs.«162078_j40114994545134_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

abbrev r10_x : Rect S6250x128 := Rect.unit (s := S6250x128) ![0, 0] S6250x128.size inb_S6250x128_S6250x128_0_0
abbrev r10_w : Rect S128x5 := Rect.unit (s := S128x5) ![0, 0] S128x5.size inb_S128x5_S128x5_0_0
abbrev r10_b : Rect S1x5 := Rect.unit (s := S1x5) ![0, 0] S1x5.size inb_S1x5_S1x5_0_0
abbrev r10_o : Rect S6250x5 := Rect.unit (s := S6250x5) ![0, 0] S6250x5.size inb_S6250x5_S6250x5_0_0

def out10_5 (x0 x1 : Vec F S6250x128 .f32) (x2 x3 : Vec F S128x5 .f32) (x4 : Vec F S1x5 .f32) : Vec F S6250x5 .f32 :=
  View.canon [⟨r10_o, k10_pay1 (View.ld x0 r10_x) (View.ld x1 r10_x) (View.ld x2 r10_w) (View.ld x3 r10_w) (View.ld x4 r10_b)⟩]

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => out10_5 (iblk10 V c 0 t) (iblk10 V c 1 t) (iblk10 V c 2 t) (iblk10 V c 3 t) (iblk10 V c 4 t)
  Φ _ := Pipeline.ΦA spec10 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) :
    (dat10 V c).after 5 t = out10_5 (iblk10 V c 0 t) (iblk10 V c 1 t) (iblk10 V c 2 t) (iblk10 V c 3 t) (iblk10 V c 4 t) := by
  dsimp only [dat10]

theorem share10_0 (c : Dev nD) : (dat10 V c).share 0 = fullShare.left := by
  unfold Dat.share; rw [if_neg (by decide)]; dsimp only [dat10]
theorem share10_1 (c : Dev nD) : (dat10 V c).share 1 = fullShare.right := by
  unfold Dat.share; rw [if_neg (by decide)]; dsimp only [dat10]
theorem share10_2 (c : Dev nD) : (dat10 V c).share 2 = fullShare := by
  unfold Dat.share; rw [if_neg (by decide)]; dsimp only [dat10]
theorem share10_3 (c : Dev nD) : (dat10 V c).share 3 = fullShare := by
  unfold Dat.share; rw [if_neg (by decide)]; dsimp only [dat10]
theorem share10_4 (c : Dev nD) : (dat10 V c).share 4 = fullShare := by
  unfold Dat.share; rw [if_neg (by decide)]; dsimp only [dat10]
theorem share10_5 (c : Dev nD) : (dat10 V c).share 5 = fullShare := by
  unfold Dat.share; rw [if_pos (by decide)]

end Cert.KernelIdeal.Hand

end
-- ==== Proof.KI.RegionsP.lean ====
import proofs.«162078_j40114994545134_1_alg».proof.Proof.Gen.KernelIdeal.Launch
import Idealize.ShloMosaic.Lib.Pipeline.Frame
import Idealize.ShloMosaic.Lib.Pipeline.Regions

set_option maxRecDepth 2056

noncomputable section

namespace Cert.KernelIdeal.GenP

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

abbrev Outs : Type := ℕ → (r : Ref sig .tc) → (c : Dev nD) → Buf (Elt F) ((c : Thread nD τ).loc r)

variable (m : (ℓ : Loc nD τ sig) → Buf (Elt F) ℓ) (outs : Outs (F := F))

abbrev V0 (c : Dev nD) : Valuation τ sig (Elt F) := fun b => m (c, b)

abbrev V1 (c : Dev nD) : Valuation τ sig (Elt F) := StableHlo.after hostOps0 (V0 m c)

abbrev V2 (c : Dev nD) : Valuation τ sig (Elt F) := Function.update (V1 m c) main_v1 (outs 2 main_v1 c)

abbrev V3 (c : Dev nD) : Valuation τ sig (Elt F) := StableHlo.after hostOps1 (V2 m outs c)

abbrev V4 (c : Dev nD) : Valuation τ sig (Elt F) := Function.update (V3 m outs c) main_v3 (outs 4 main_v3 c)

abbrev V5 (c : Dev nD) : Valuation τ sig (Elt F) := StableHlo.after hostOps2 (V4 m outs c)

abbrev V6 (c : Dev nD) : Valuation τ sig (Elt F) := Function.update (V5 m outs c) main_v24 (outs 6 main_v24 c)

abbrev V7 (c : Dev nD) : Valuation τ sig (Elt F) := StableHlo.after hostOps3 (V6 m outs c)

abbrev V8 (c : Dev nD) : Valuation τ sig (Elt F) := StableHlo.after hostOps3_1 (V7 m outs c)

abbrev V9 (c : Dev nD) : Valuation τ sig (Elt F) := StableHlo.after hostOps3_2 (V8 m outs c)

abbrev V10 (c : Dev nD) : Valuation τ sig (Elt F) := StableHlo.after hostOps3_3 (V9 m outs c)

abbrev V11 (c : Dev nD) : Valuation τ sig (Elt F) := StableHlo.after hostOps3_4 (V10 m outs c)

abbrev V12 (c : Dev nD) : Valuation τ sig (Elt F) := Function.update (V11 m outs c) main_v77 (outs 12 main_v77 c)

abbrev V13 (c : Dev nD) : Valuation τ sig (Elt F) := StableHlo.after hostOps4 (V12 m outs c)

abbrev V14 (c : Dev nD) : Valuation τ sig (Elt F) := StableHlo.after hostOps4_1 (V13 m outs c)

abbrev V15 (c : Dev nD) : Valuation τ sig (Elt F) := StableHlo.after hostOps4_2 (V14 m outs c)

abbrev V16 (c : Dev nD) : Valuation τ sig (Elt F) := StableHlo.after hostOps4_3 (V15 m outs c)

abbrev V17 (c : Dev nD) : Valuation τ sig (Elt F) := StableHlo.after hostOps4_4 (V16 m outs c)

abbrev V18 (c : Dev nD) : Valuation τ sig (Elt F) := Function.update (V17 m outs c) main_v111 (outs 18 main_v111 c)

abbrev V19 (c : Dev nD) : Valuation τ sig (Elt F) := StableHlo.after hostOps5 (V18 m outs c)

abbrev V20 (c : Dev nD) : Valuation τ sig (Elt F) := StableHlo.after hostOps5_1 (V19 m outs c)

abbrev V21 (c : Dev nD) : Valuation τ sig (Elt F) := StableHlo.after hostOps5_2 (V20 m outs c)

abbrev V22 (c : Dev nD) : Valuation τ sig (Elt F) := StableHlo.after hostOps5_3 (V21 m outs c)

abbrev V23 (c : Dev nD) : Valuation τ sig (Elt F) := StableHlo.after hostOps5_4 (V22 m outs c)

abbrev V24 (c : Dev nD) : Valuation τ sig (Elt F) := Function.update (V23 m outs c) main_v145 (outs 24 main_v145 c)

abbrev V25 (c : Dev nD) : Valuation τ sig (Elt F) := StableHlo.after hostOps6 (V24 m outs c)

abbrev V26 (c : Dev nD) : Valuation τ sig (Elt F) := Function.update (V25 m outs c) main_v147 (outs 26 main_v147 c)

abbrev V27 (c : Dev nD) : Valuation τ sig (Elt F) := StableHlo.after hostOps7 (V26 m outs c)

abbrev V28 (c : Dev nD) : Valuation τ sig (Elt F) := Function.update (V27 m outs c) main_v168 (outs 28 main_v168 c)

abbrev V29 (c : Dev nD) : Valuation τ sig (Elt F) := StableHlo.after hostOps8 (V28 m outs c)

abbrev V30 (c : Dev nD) : Valuation τ sig (Elt F) := Function.update (V29 m outs c) main_v191 (outs 30 main_v191 c)

abbrev V31 (c : Dev nD) : Valuation τ sig (Elt F) := StableHlo.after hostOps9 (V30 m outs c)

abbrev V32 (c : Dev nD) : Valuation τ sig (Elt F) := Function.update (V31 m outs c) main_v195 (outs 32 main_v195 c)

abbrev V33 (c : Dev nD) : Valuation τ sig (Elt F) := StableHlo.after hostOps10 (V32 m outs c)

abbrev V34 (c : Dev nD) : Valuation τ sig (Elt F) := Function.update (V33 m outs c) main_v199 (outs 34 main_v199 c)

abbrev V35 (c : Dev nD) : Valuation τ sig (Elt F) := StableHlo.after hostOps11 (V34 m outs c)

theorem hostOps0_fresh : (hostOps0 : List (HloOp τ sig (Elt F))).Forall fun op => op.fresh = ∅ := by
  simp only [List.Forall]; repeat' constructor

abbrev hostOps0_W : List (Ref sig .tc) := [main_v0]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
theorem hostOps1_fresh : (hostOps1 : List (HloOp τ sig (Elt F))).Forall fun op => op.fresh = ∅ := by
  simp only [List.Forall]; repeat' constructor

abbrev hostOps1_W : List (Ref sig .tc) := [main_v2]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
theorem hostOps2_fresh : (hostOps2 : List (HloOp τ sig (Elt F))).Forall fun op => op.fresh = ∅ := by
  simp only [List.Forall]; repeat' constructor

abbrev hostOps2_W : List (Ref sig .tc) := [main_c, main_v4, main_v5, main_c_0, main_v6, main_v7, main_v8, main_v9, main_v10, main_cst, main_v11, main_v12, main_v13, main_cst_1, main_v14, main_cst_2, main_v15, main_v16, main_v17, main_cst_3, main_v18, main_v19, main_v20, main_v21, main_v22, main_v23]
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
theorem hostOps3_fresh : (hostOps3 : List (HloOp τ sig (Elt F))).Forall fun op => op.fresh = ∅ := by
  simp only [List.Forall]; repeat' constructor

abbrev hostOps3_W : List (Ref sig .tc) := [main_c_4, main_v25, main_v26, main_c_5, main_v27, main_v28, main_v29, main_v30, main_v31, main_cst_6, main_v32, main_v33, main_v34, main_cst_7, main_v35, main_cst_8, main_v36, main_v37, main_v38, main_cst_9, main_v39, main_v40, main_v41, main_v42, main_v43, main_cst_10, main_v44, main_cst_11, main_v45, main_v46, main_v47, main_cst_12, main_v48, main_cst_13, main_v49, main_v50, main_v51, main_cst_14, main_v52, main_v53, main_cst_15, main_v54, main_v55, main_cst_16]
theorem hostOps3_writes : (hostOps3 : List (HloOp τ sig (Elt F))).Forall fun op => op.writes ⊆ (hostOps3_W.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
theorem hostOps3_1_fresh : (hostOps3_1 : List (HloOp τ sig (Elt F))).Forall fun op => op.fresh = ∅ := by
  simp only [List.Forall]; repeat' constructor

abbrev hostOps3_1_W : List (Ref sig .tc) := [main_call0_v0, main_call0_v1, main_v56]
theorem hostOps3_1_writes : (hostOps3_1 : List (HloOp τ sig (Elt F))).Forall fun op => op.writes ⊆ (hostOps3_1_W.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
theorem hostOps3_2_fresh : (hostOps3_2 : List (HloOp τ sig (Elt F))).Forall fun op => op.fresh = ∅ := by
  simp only [List.Forall]; repeat' constructor

abbrev hostOps3_2_W : List (Ref sig .tc) := [main_cst_17, main_v57, main_v58, main_cst_18, main_v59, main_v60, main_cst_19]
theorem hostOps3_2_writes : (hostOps3_2 : List (HloOp τ sig (Elt F))).Forall fun op => op.writes ⊆ (hostOps3_2_W.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
theorem hostOps3_3_fresh : (hostOps3_3 : List (HloOp τ sig (Elt F))).Forall fun op => op.fresh = ∅ := by
  simp only [List.Forall]; repeat' constructor

abbrev hostOps3_3_W : List (Ref sig .tc) := [main_call1_v0, main_call1_v1, main_v61]
theorem hostOps3_3_writes : (hostOps3_3 : List (HloOp τ sig (Elt F))).Forall fun op => op.writes ⊆ (hostOps3_3_W.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
theorem hostOps3_4_fresh : (hostOps3_4 : List (HloOp τ sig (Elt F))).Forall fun op => op.fresh = ∅ := by
  simp only [List.Forall]; repeat' constructor

abbrev hostOps3_4_W : List (Ref sig .tc) := [main_v62, main_v63, main_v64, main_c_20, main_v65, main_v66, main_c_21, main_v67, main_v68, main_v69, main_v70, main_v71, main_cst_22, main_v72, main_v73, main_v74, main_v75, main_v76]
theorem hostOps3_4_writes : (hostOps3_4 : List (HloOp τ sig (Elt F))).Forall fun op => op.writes ⊆ (hostOps3_4_W.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
theorem hostOps4_fresh : (hostOps4 : List (HloOp τ sig (Elt F))).Forall fun op => op.fresh = ∅ := by
  simp only [List.Forall]; repeat' constructor

abbrev hostOps4_W : List (Ref sig .tc) := [main_cst_23, main_v78, main_cst_24, main_v79, main_v80, main_v81, main_cst_25, main_v82, main_cst_26, main_v83, main_v84, main_v85, main_cst_27, main_v86, main_v87, main_cst_28, main_v88, main_v89, main_cst_29]
theorem hostOps4_writes : (hostOps4 : List (HloOp τ sig (Elt F))).Forall fun op => op.writes ⊆ (hostOps4_W.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
theorem hostOps4_1_fresh : (hostOps4_1 : List (HloOp τ sig (Elt F))).Forall fun op => op.fresh = ∅ := by
  simp only [List.Forall]; repeat' constructor

abbrev hostOps4_1_W : List (Ref sig .tc) := [main_call2_v0, main_call2_v1, main_v90]
theorem hostOps4_1_writes : (hostOps4_1 : List (HloOp τ sig (Elt F))).Forall fun op => op.writes ⊆ (hostOps4_1_W.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
theorem hostOps4_2_fresh : (hostOps4_2 : List (HloOp τ sig (Elt F))).Forall fun op => op.fresh = ∅ := by
  simp only [List.Forall]; repeat' constructor

abbrev hostOps4_2_W : List (Ref sig .tc) := [main_cst_30, main_v91, main_v92, main_cst_31, main_v93, main_v94, main_cst_32]
theorem hostOps4_2_writes : (hostOps4_2 : List (HloOp τ sig (Elt F))).Forall fun op => op.writes ⊆ (hostOps4_2_W.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
theorem hostOps4_3_fresh : (hostOps4_3 : List (HloOp τ sig (Elt F))).Forall fun op => op.fresh = ∅ := by
  simp only [List.Forall]; repeat' constructor

abbrev hostOps4_3_W : List (Ref sig .tc) := [main_call3_v0, main_call3_v1, main_v95]
theorem hostOps4_3_writes : (hostOps4_3 : List (HloOp τ sig (Elt F))).Forall fun op => op.writes ⊆ (hostOps4_3_W.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
theorem hostOps4_4_fresh : (hostOps4_4 : List (HloOp τ sig (Elt F))).Forall fun op => op.fresh = ∅ := by
  simp only [List.Forall]; repeat' constructor

abbrev hostOps4_4_W : List (Ref sig .tc) := [main_v96, main_v97, main_v98, main_c_33, main_v99, main_v100, main_c_34, main_v101, main_v102, main_v103, main_v104, main_v105, main_cst_35, main_v106, main_v107, main_v108, main_v109, main_v110]
theorem hostOps4_4_writes : (hostOps4_4 : List (HloOp τ sig (Elt F))).Forall fun op => op.writes ⊆ (hostOps4_4_W.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
theorem hostOps5_fresh : (hostOps5 : List (HloOp τ sig (Elt F))).Forall fun op => op.fresh = ∅ := by
  simp only [List.Forall]; repeat' constructor

abbrev hostOps5_W : List (Ref sig .tc) := [main_cst_36, main_v112, main_cst_37, main_v113, main_v114, main_v115, main_cst_38, main_v116, main_cst_39, main_v117, main_v118, main_v119, main_cst_40, main_v120, main_v121, main_cst_41, main_v122, main_v123, main_cst_42]
theorem hostOps5_writes : (hostOps5 : List (HloOp τ sig (Elt F))).Forall fun op => op.writes ⊆ (hostOps5_W.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
theorem hostOps5_1_fresh : (hostOps5_1 : List (HloOp τ sig (Elt F))).Forall fun op => op.fresh = ∅ := by
  simp only [List.Forall]; repeat' constructor

abbrev hostOps5_1_W : List (Ref sig .tc) := [main_call4_v0, main_call4_v1, main_v124]
theorem hostOps5_1_writes : (hostOps5_1 : List (HloOp τ sig (Elt F))).Forall fun op => op.writes ⊆ (hostOps5_1_W.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
theorem hostOps5_2_fresh : (hostOps5_2 : List (HloOp τ sig (Elt F))).Forall fun op => op.fresh = ∅ := by
  simp only [List.Forall]; repeat' constructor

abbrev hostOps5_2_W : List (Ref sig .tc) := [main_cst_43, main_v125, main_v126, main_cst_44, main_v127, main_v128, main_cst_45]
theorem hostOps5_2_writes : (hostOps5_2 : List (HloOp τ sig (Elt F))).Forall fun op => op.writes ⊆ (hostOps5_2_W.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
theorem hostOps5_3_fresh : (hostOps5_3 : List (HloOp τ sig (Elt F))).Forall fun op => op.fresh = ∅ := by
  simp only [List.Forall]; repeat' constructor

abbrev hostOps5_3_W : List (Ref sig .tc) := [main_call5_v0, main_call5_v1, main_v129]
theorem hostOps5_3_writes : (hostOps5_3 : List (HloOp τ sig (Elt F))).Forall fun op => op.writes ⊆ (hostOps5_3_W.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
theorem hostOps5_4_fresh : (hostOps5_4 : List (HloOp τ sig (Elt F))).Forall fun op => op.fresh = ∅ := by
  simp only [List.Forall]; repeat' constructor

abbrev hostOps5_4_W : List (Ref sig .tc) := [main_v130, main_v131, main_v132, main_c_46, main_v133, main_v134, main_c_47, main_v135, main_v136, main_v137, main_v138, main_v139, main_cst_48, main_v140, main_v141, main_v142, main_v143, main_v144]
theorem hostOps5_4_writes : (hostOps5_4 : List (HloOp τ sig (Elt F))).Forall fun op => op.writes ⊆ (hostOps5_4_W.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
theorem hostOps6_fresh : (hostOps6 : List (HloOp τ sig (Elt F))).Forall fun op => op.fresh = ∅ := by
  simp only [List.Forall]; repeat' constructor

abbrev hostOps6_W : List (Ref sig .tc) := [main_v146]
theorem hostOps6_writes : (hostOps6 : List (HloOp τ sig (Elt F))).Forall fun op => op.writes ⊆ (hostOps6_W.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
theorem hostOps7_fresh : (hostOps7 : List (HloOp τ sig (Elt F))).Forall fun op => op.fresh = ∅ := by
  simp only [List.Forall]; repeat' constructor

abbrev hostOps7_W : List (Ref sig .tc) := [main_c_49, main_v148, main_v149, main_c_50, main_v150, main_v151, main_v152, main_v153, main_v154, main_cst_51, main_v155, main_v156, main_v157, main_cst_52, main_v158, main_cst_53, main_v159, main_v160, main_v161, main_cst_54, main_v162, main_v163, main_v164, main_v165, main_v166, main_v167]
theorem hostOps7_writes : (hostOps7 : List (HloOp τ sig (Elt F))).Forall fun op => op.writes ⊆ (hostOps7_W.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
theorem hostOps8_fresh : (hostOps8 : List (HloOp τ sig (Elt F))).Forall fun op => op.fresh = ∅ := by
  simp only [List.Forall]; repeat' constructor

abbrev hostOps8_W : List (Ref sig .tc) := [main_c_55, main_v169, main_v170, main_c_56, main_v171, main_v172, main_v173, main_v174, main_v175, main_cst_57, main_v176, main_v177, main_v178, main_cst_58, main_v179, main_cst_59, main_v180, main_v181, main_v182, main_cst_60, main_v183, main_v184, main_v185, main_v186, main_v187, main_v188, main_v189, main_v190]
theorem hostOps8_writes : (hostOps8 : List (HloOp τ sig (Elt F))).Forall fun op => op.writes ⊆ (hostOps8_W.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
theorem hostOps9_fresh : (hostOps9 : List (HloOp τ sig (Elt F))).Forall fun op => op.fresh = ∅ := by
  simp only [List.Forall]; repeat' constructor

abbrev hostOps9_W : List (Ref sig .tc) := [main_v192, main_v193, main_v194]
theorem hostOps9_writes : (hostOps9 : List (HloOp τ sig (Elt F))).Forall fun op => op.writes ⊆ (hostOps9_W.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
theorem hostOps10_fresh : (hostOps10 : List (HloOp τ sig (Elt F))).Forall fun op => op.fresh = ∅ := by
  simp only [List.Forall]; repeat' constructor

abbrev hostOps10_W : List (Ref sig .tc) := [main_v196, main_v197, main_v198]
theorem hostOps10_writes : (hostOps10 : List (HloOp τ sig (Elt F))).Forall fun op => op.writes ⊆ (hostOps10_W.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
theorem hostOps11_fresh : (hostOps11 : List (HloOp τ sig (Elt F))).Forall fun op => op.fresh = ∅ := by
  simp only [List.Forall]; repeat' constructor

abbrev hostOps11_W : List (Ref sig .tc) := [main_v200]
theorem hostOps11_writes : (hostOps11 : List (HloOp τ sig (Elt F))).Forall fun op => op.writes ⊆ (hostOps11_W.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)

theorem V1_of (c : Dev nD) (r : Ref sig .tc) (h : r ∉ hostOps0_W) : V1 m c r = V0 m c r :=
  StableHlo.after_of_writes_sub hostOps0 _ hostOps0_writes h
theorem V2_of (c : Dev nD) (r : Ref sig .tc) (h : r ∉ ([main_v1] : List (Ref sig .tc))) : V2 m outs c r = V1 m c r := by
  simp only [V2, Function.update_of_ne (StableHlo.devRef_ne_of_ne (List.ne_of_not_mem_cons h) : (Proc.devRef .tc r : DevRef τ sig) ≠ Proc.devRef .tc main_v1)]
theorem V3_of (c : Dev nD) (r : Ref sig .tc) (h : r ∉ hostOps1_W) : V3 m outs c r = V2 m outs c r :=
  StableHlo.after_of_writes_sub hostOps1 _ hostOps1_writes h
theorem V4_of (c : Dev nD) (r : Ref sig .tc) (h : r ∉ ([main_v3] : List (Ref sig .tc))) : V4 m outs c r = V3 m outs c r := by
  simp only [V4, Function.update_of_ne (StableHlo.devRef_ne_of_ne (List.ne_of_not_mem_cons h) : (Proc.devRef .tc r : DevRef τ sig) ≠ Proc.devRef .tc main_v3)]
theorem V5_of (c : Dev nD) (r : Ref sig .tc) (h : r ∉ hostOps2_W) : V5 m outs c r = V4 m outs c r :=
  StableHlo.after_of_writes_sub hostOps2 _ hostOps2_writes h
theorem V6_of (c : Dev nD) (r : Ref sig .tc) (h : r ∉ ([main_v24] : List (Ref sig .tc))) : V6 m outs c r = V5 m outs c r := by
  simp only [V6, Function.update_of_ne (StableHlo.devRef_ne_of_ne (List.ne_of_not_mem_cons h) : (Proc.devRef .tc r : DevRef τ sig) ≠ Proc.devRef .tc main_v24)]
theorem V7_of (c : Dev nD) (r : Ref sig .tc) (h : r ∉ hostOps3_W) : V7 m outs c r = V6 m outs c r :=
  StableHlo.after_of_writes_sub hostOps3 _ hostOps3_writes h
theorem V8_of (c : Dev nD) (r : Ref sig .tc) (h : r ∉ hostOps3_1_W) : V8 m outs c r = V7 m outs c r :=
  StableHlo.after_of_writes_sub hostOps3_1 _ hostOps3_1_writes h
theorem V9_of (c : Dev nD) (r : Ref sig .tc) (h : r ∉ hostOps3_2_W) : V9 m outs c r = V8 m outs c r :=
  StableHlo.after_of_writes_sub hostOps3_2 _ hostOps3_2_writes h
theorem V10_of (c : Dev nD) (r : Ref sig .tc) (h : r ∉ hostOps3_3_W) : V10 m outs c r = V9 m outs c r :=
  StableHlo.after_of_writes_sub hostOps3_3 _ hostOps3_3_writes h
theorem V11_of (c : Dev nD) (r : Ref sig .tc) (h : r ∉ hostOps3_4_W) : V11 m outs c r = V10 m outs c r :=
  StableHlo.after_of_writes_sub hostOps3_4 _ hostOps3_4_writes h
theorem V12_of (c : Dev nD) (r : Ref sig .tc) (h : r ∉ ([main_v77] : List (Ref sig .tc))) : V12 m outs c r = V11 m outs c r := by
  simp only [V12, Function.update_of_ne (StableHlo.devRef_ne_of_ne (List.ne_of_not_mem_cons h) : (Proc.devRef .tc r : DevRef τ sig) ≠ Proc.devRef .tc main_v77)]
theorem V13_of (c : Dev nD) (r : Ref sig .tc) (h : r ∉ hostOps4_W) : V13 m outs c r = V12 m outs c r :=
  StableHlo.after_of_writes_sub hostOps4 _ hostOps4_writes h
theorem V14_of (c : Dev nD) (r : Ref sig .tc) (h : r ∉ hostOps4_1_W) : V14 m outs c r = V13 m outs c r :=
  StableHlo.after_of_writes_sub hostOps4_1 _ hostOps4_1_writes h
theorem V15_of (c : Dev nD) (r : Ref sig .tc) (h : r ∉ hostOps4_2_W) : V15 m outs c r = V14 m outs c r :=
  StableHlo.after_of_writes_sub hostOps4_2 _ hostOps4_2_writes h
theorem V16_of (c : Dev nD) (r : Ref sig .tc) (h : r ∉ hostOps4_3_W) : V16 m outs c r = V15 m outs c r :=
  StableHlo.after_of_writes_sub hostOps4_3 _ hostOps4_3_writes h
theorem V17_of (c : Dev nD) (r : Ref sig .tc) (h : r ∉ hostOps4_4_W) : V17 m outs c r = V16 m outs c r :=
  StableHlo.after_of_writes_sub hostOps4_4 _ hostOps4_4_writes h
theorem V18_of (c : Dev nD) (r : Ref sig .tc) (h : r ∉ ([main_v111] : List (Ref sig .tc))) : V18 m outs c r = V17 m outs c r := by
  simp only [V18, Function.update_of_ne (StableHlo.devRef_ne_of_ne (List.ne_of_not_mem_cons h) : (Proc.devRef .tc r : DevRef τ sig) ≠ Proc.devRef .tc main_v111)]
theorem V19_of (c : Dev nD) (r : Ref sig .tc) (h : r ∉ hostOps5_W) : V19 m outs c r = V18 m outs c r :=
  StableHlo.after_of_writes_sub hostOps5 _ hostOps5_writes h
theorem V20_of (c : Dev nD) (r : Ref sig .tc) (h : r ∉ hostOps5_1_W) : V20 m outs c r = V19 m outs c r :=
  StableHlo.after_of_writes_sub hostOps5_1 _ hostOps5_1_writes h
theorem V21_of (c : Dev nD) (r : Ref sig .tc) (h : r ∉ hostOps5_2_W) : V21 m outs c r = V20 m outs c r :=
  StableHlo.after_of_writes_sub hostOps5_2 _ hostOps5_2_writes h
theorem V22_of (c : Dev nD) (r : Ref sig .tc) (h : r ∉ hostOps5_3_W) : V22 m outs c r = V21 m outs c r :=
  StableHlo.after_of_writes_sub hostOps5_3 _ hostOps5_3_writes h
theorem V23_of (c : Dev nD) (r : Ref sig .tc) (h : r ∉ hostOps5_4_W) : V23 m outs c r = V22 m outs c r :=
  StableHlo.after_of_writes_sub hostOps5_4 _ hostOps5_4_writes h
theorem V24_of (c : Dev nD) (r : Ref sig .tc) (h : r ∉ ([main_v145] : List (Ref sig .tc))) : V24 m outs c r = V23 m outs c r := by
  simp only [V24, Function.update_of_ne (StableHlo.devRef_ne_of_ne (List.ne_of_not_mem_cons h) : (Proc.devRef .tc r : DevRef τ sig) ≠ Proc.devRef .tc main_v145)]
theorem V25_of (c : Dev nD) (r : Ref sig .tc) (h : r ∉ hostOps6_W) : V25 m outs c r = V24 m outs c r :=
  StableHlo.after_of_writes_sub hostOps6 _ hostOps6_writes h
theorem V26_of (c : Dev nD) (r : Ref sig .tc) (h : r ∉ ([main_v147] : List (Ref sig .tc))) : V26 m outs c r = V25 m outs c r := by
  simp only [V26, Function.update_of_ne (StableHlo.devRef_ne_of_ne (List.ne_of_not_mem_cons h) : (Proc.devRef .tc r : DevRef τ sig) ≠ Proc.devRef .tc main_v147)]
theorem V27_of (c : Dev nD) (r : Ref sig .tc) (h : r ∉ hostOps7_W) : V27 m outs c r = V26 m outs c r :=
  StableHlo.after_of_writes_sub hostOps7 _ hostOps7_writes h
theorem V28_of (c : Dev nD) (r : Ref sig .tc) (h : r ∉ ([main_v168] : List (Ref sig .tc))) : V28 m outs c r = V27 m outs c r := by
  simp only [V28, Function.update_of_ne (StableHlo.devRef_ne_of_ne (List.ne_of_not_mem_cons h) : (Proc.devRef .tc r : DevRef τ sig) ≠ Proc.devRef .tc main_v168)]
theorem V29_of (c : Dev nD) (r : Ref sig .tc) (h : r ∉ hostOps8_W) : V29 m outs c r = V28 m outs c r :=
  StableHlo.after_of_writes_sub hostOps8 _ hostOps8_writes h
theorem V30_of (c : Dev nD) (r : Ref sig .tc) (h : r ∉ ([main_v191] : List (Ref sig .tc))) : V30 m outs c r = V29 m outs c r := by
  simp only [V30, Function.update_of_ne (StableHlo.devRef_ne_of_ne (List.ne_of_not_mem_cons h) : (Proc.devRef .tc r : DevRef τ sig) ≠ Proc.devRef .tc main_v191)]
theorem V31_of (c : Dev nD) (r : Ref sig .tc) (h : r ∉ hostOps9_W) : V31 m outs c r = V30 m outs c r :=
  StableHlo.after_of_writes_sub hostOps9 _ hostOps9_writes h
theorem V32_of (c : Dev nD) (r : Ref sig .tc) (h : r ∉ ([main_v195] : List (Ref sig .tc))) : V32 m outs c r = V31 m outs c r := by
  simp only [V32, Function.update_of_ne (StableHlo.devRef_ne_of_ne (List.ne_of_not_mem_cons h) : (Proc.devRef .tc r : DevRef τ sig) ≠ Proc.devRef .tc main_v195)]
theorem V33_of (c : Dev nD) (r : Ref sig .tc) (h : r ∉ hostOps10_W) : V33 m outs c r = V32 m outs c r :=
  StableHlo.after_of_writes_sub hostOps10 _ hostOps10_writes h
theorem V34_of (c : Dev nD) (r : Ref sig .tc) (h : r ∉ ([main_v199] : List (Ref sig .tc))) : V34 m outs c r = V33 m outs c r := by
  simp only [V34, Function.update_of_ne (StableHlo.devRef_ne_of_ne (List.ne_of_not_mem_cons h) : (Proc.devRef .tc r : DevRef τ sig) ≠ Proc.devRef .tc main_v199)]
theorem V35_of (c : Dev nD) (r : Ref sig .tc) (h : r ∉ hostOps11_W) : V35 m outs c r = V34 m outs c r :=
  StableHlo.after_of_writes_sub hostOps11 _ hostOps11_writes h

-- the references written by each item, in the order of the run
abbrev written : List (List (Ref sig .tc)) :=
  [hostOps0_W, [main_v1], hostOps1_W, [main_v3], hostOps2_W, [main_v24], hostOps3_W, hostOps3_1_W, hostOps3_2_W, hostOps3_3_W, hostOps3_4_W, [main_v77], hostOps4_W, hostOps4_1_W, hostOps4_2_W, hostOps4_3_W, hostOps4_4_W, [main_v111], hostOps5_W, hostOps5_1_W, hostOps5_2_W, hostOps5_3_W, hostOps5_4_W, [main_v145], hostOps6_W, [main_v147], hostOps7_W, [main_v168], hostOps8_W, [main_v191], hostOps9_W, [main_v195], hostOps10_W, [main_v199], hostOps11_W]

-- a reference no item writes holds at the end what it held at launch
theorem V35_keep (c : Dev nD) (r : Ref sig .tc) (h : ∀ W ∈ written, r ∉ W) :
    V35 m outs c r = m ((c : Thread nD τ).loc r) :=
  (V35_of m outs c r (h _ (by decide))).trans <| (V34_of m outs c r (h _ (by decide))).trans <| (V33_of m outs c r (h _ (by decide))).trans <|
  (V32_of m outs c r (h _ (by decide))).trans <| (V31_of m outs c r (h _ (by decide))).trans <| (V30_of m outs c r (h _ (by decide))).trans <|
  (V29_of m outs c r (h _ (by decide))).trans <| (V28_of m outs c r (h _ (by decide))).trans <| (V27_of m outs c r (h _ (by decide))).trans <|
  (V26_of m outs c r (h _ (by decide))).trans <| (V25_of m outs c r (h _ (by decide))).trans <| (V24_of m outs c r (h _ (by decide))).trans <|
  (V23_of m outs c r (h _ (by decide))).trans <| (V22_of m outs c r (h _ (by decide))).trans <| (V21_of m outs c r (h _ (by decide))).trans <|
  (V20_of m outs c r (h _ (by decide))).trans <| (V19_of m outs c r (h _ (by decide))).trans <| (V18_of m outs c r (h _ (by decide))).trans <|
  (V17_of m outs c r (h _ (by decide))).trans <| (V16_of m outs c r (h _ (by decide))).trans <| (V15_of m outs c r (h _ (by decide))).trans <|
  (V14_of m outs c r (h _ (by decide))).trans <| (V13_of m outs c r (h _ (by decide))).trans <| (V12_of m outs c r (h _ (by decide))).trans <|
  (V11_of m outs c r (h _ (by decide))).trans <| (V10_of m outs c r (h _ (by decide))).trans <| (V9_of m outs c r (h _ (by decide))).trans <|
  (V8_of m outs c r (h _ (by decide))).trans <| (V7_of m outs c r (h _ (by decide))).trans <| (V6_of m outs c r (h _ (by decide))).trans <|
  (V5_of m outs c r (h _ (by decide))).trans <| (V4_of m outs c r (h _ (by decide))).trans <| (V3_of m outs c r (h _ (by decide))).trans <|
  (V2_of m outs c r (h _ (by decide))).trans <|
  (V1_of m c r (h _ (by decide))).trans rfl

section Segs

variable {Ix : Type} [DecidableEq Ix] {U : Type} [URA U] {Lvl : Type} [Preorder Lvl]
variable (𝒱₀ : Variants) (L : GSem nD τ sig → Finset Ix) (lv : GSem nD τ sig → Ix → Lvl)
variable (E : Fin 12 → Dev nD → sProp (MT nD τ sig Ix (Elt F) ℕ U Lvl))

def seg0 : HostSeg (Ix := Ix) (Name := ℕ) (U := U) (Lvl := Lvl) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) (E 0)

def seg2 : HostSeg (Ix := Ix) (Name := ℕ) (U := U) (Lvl := Lvl) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V2 m outs) (E 1)

def seg4 : HostSeg (Ix := Ix) (Name := ℕ) (U := U) (Lvl := Lvl) (pcfgs (F := F)) defs₀ 𝒱₀ L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (V4 m outs) (E 2)

def seg6 : HostSeg (Ix := Ix) (Name := ℕ) (U := U) (Lvl := Lvl) (pcfgs (F := F)) defs₀ 𝒱₀ L lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (V6 m outs) (E 3)

def seg7 : HostSeg (Ix := Ix) (Name := ℕ) (U := U) (Lvl := Lvl) (pcfgs (F := F)) defs₀ 𝒱₀ L lv :=
  HostSeg.ofOps _ _ _ _ _ (Pipeline.ucRefs τ sig) hostOps3_1
    (fun op h => Pipeline.sub_ucRefs op ((List.forall_iff_forall_mem.mp hostOps3_1_sub) op h))
    (fun op h => (List.forall_iff_forall_mem.mp hostOps3_1_fresh) op h) (V7 m outs) (E 3)

def seg8 : HostSeg (Ix := Ix) (Name := ℕ) (U := U) (Lvl := Lvl) (pcfgs (F := F)) defs₀ 𝒱₀ L lv :=
  HostSeg.ofOps _ _ _ _ _ (Pipeline.ucRefs τ sig) hostOps3_2
    (fun op h => Pipeline.sub_ucRefs op ((List.forall_iff_forall_mem.mp hostOps3_2_sub) op h))
    (fun op h => (List.forall_iff_forall_mem.mp hostOps3_2_fresh) op h) (V8 m outs) (E 3)

def seg9 : HostSeg (Ix := Ix) (Name := ℕ) (U := U) (Lvl := Lvl) (pcfgs (F := F)) defs₀ 𝒱₀ L lv :=
  HostSeg.ofOps _ _ _ _ _ (Pipeline.ucRefs τ sig) hostOps3_3
    (fun op h => Pipeline.sub_ucRefs op ((List.forall_iff_forall_mem.mp hostOps3_3_sub) op h))
    (fun op h => (List.forall_iff_forall_mem.mp hostOps3_3_fresh) op h) (V9 m outs) (E 3)

def seg10 : HostSeg (Ix := Ix) (Name := ℕ) (U := U) (Lvl := Lvl) (pcfgs (F := F)) defs₀ 𝒱₀ L lv :=
  HostSeg.ofOps _ _ _ _ _ (Pipeline.ucRefs τ sig) hostOps3_4
    (fun op h => Pipeline.sub_ucRefs op ((List.forall_iff_forall_mem.mp hostOps3_4_sub) op h))
    (fun op h => (List.forall_iff_forall_mem.mp hostOps3_4_fresh) op h) (V10 m outs) (E 3)

def seg12 : HostSeg (Ix := Ix) (Name := ℕ) (U := U) (Lvl := Lvl) (pcfgs (F := F)) defs₀ 𝒱₀ L lv :=
  HostSeg.ofOps _ _ _ _ _ (Pipeline.ucRefs τ sig) hostOps4
    (fun op h => Pipeline.sub_ucRefs op ((List.forall_iff_forall_mem.mp hostOps4_sub) op h))
    (fun op h => (List.forall_iff_forall_mem.mp hostOps4_fresh) op h) (V12 m outs) (E 4)

def seg13 : HostSeg (Ix := Ix) (Name := ℕ) (U := U) (Lvl := Lvl) (pcfgs (F := F)) defs₀ 𝒱₀ L lv :=
  HostSeg.ofOps _ _ _ _ _ (Pipeline.ucRefs τ sig) hostOps4_1
    (fun op h => Pipeline.sub_ucRefs op ((List.forall_iff_forall_mem.mp hostOps4_1_sub) op h))
    (fun op h => (List.forall_iff_forall_mem.mp hostOps4_1_fresh) op h) (V13 m outs) (E 4)

def seg14 : HostSeg (Ix := Ix) (Name := ℕ) (U := U) (Lvl := Lvl) (pcfgs (F := F)) defs₀ 𝒱₀ L lv :=
  HostSeg.ofOps _ _ _ _ _ (Pipeline.ucRefs τ sig) hostOps4_2
    (fun op h => Pipeline.sub_ucRefs op ((List.forall_iff_forall_mem.mp hostOps4_2_sub) op h))
    (fun op h => (List.forall_iff_forall_mem.mp hostOps4_2_fresh) op h) (V14 m outs) (E 4)

def seg15 : HostSeg (Ix := Ix) (Name := ℕ) (U := U) (Lvl := Lvl) (pcfgs (F := F)) defs₀ 𝒱₀ L lv :=
  HostSeg.ofOps _ _ _ _ _ (Pipeline.ucRefs τ sig) hostOps4_3
    (fun op h => Pipeline.sub_ucRefs op ((List.forall_iff_forall_mem.mp hostOps4_3_sub) op h))
    (fun op h => (List.forall_iff_forall_mem.mp hostOps4_3_fresh) op h) (V15 m outs) (E 4)

def seg16 : HostSeg (Ix := Ix) (Name := ℕ) (U := U) (Lvl := Lvl) (pcfgs (F := F)) defs₀ 𝒱₀ L lv :=
  HostSeg.ofOps _ _ _ _ _ (Pipeline.ucRefs τ sig) hostOps4_4
    (fun op h => Pipeline.sub_ucRefs op ((List.forall_iff_forall_mem.mp hostOps4_4_sub) op h))
    (fun op h => (List.forall_iff_forall_mem.mp hostOps4_4_fresh) op h) (V16 m outs) (E 4)

def seg18 : HostSeg (Ix := Ix) (Name := ℕ) (U := U) (Lvl := Lvl) (pcfgs (F := F)) defs₀ 𝒱₀ L lv :=
  HostSeg.ofOps _ _ _ _ _ (Pipeline.ucRefs τ sig) hostOps5
    (fun op h => Pipeline.sub_ucRefs op ((List.forall_iff_forall_mem.mp hostOps5_sub) op h))
    (fun op h => (List.forall_iff_forall_mem.mp hostOps5_fresh) op h) (V18 m outs) (E 5)

def seg19 : HostSeg (Ix := Ix) (Name := ℕ) (U := U) (Lvl := Lvl) (pcfgs (F := F)) defs₀ 𝒱₀ L lv :=
  HostSeg.ofOps _ _ _ _ _ (Pipeline.ucRefs τ sig) hostOps5_1
    (fun op h => Pipeline.sub_ucRefs op ((List.forall_iff_forall_mem.mp hostOps5_1_sub) op h))
    (fun op h => (List.forall_iff_forall_mem.mp hostOps5_1_fresh) op h) (V19 m outs) (E 5)

def seg20 : HostSeg (Ix := Ix) (Name := ℕ) (U := U) (Lvl := Lvl) (pcfgs (F := F)) defs₀ 𝒱₀ L lv :=
  HostSeg.ofOps _ _ _ _ _ (Pipeline.ucRefs τ sig) hostOps5_2
    (fun op h => Pipeline.sub_ucRefs op ((List.forall_iff_forall_mem.mp hostOps5_2_sub) op h))
    (fun op h => (List.forall_iff_forall_mem.mp hostOps5_2_fresh) op h) (V20 m outs) (E 5)

def seg21 : HostSeg (Ix := Ix) (Name := ℕ) (U := U) (Lvl := Lvl) (pcfgs (F := F)) defs₀ 𝒱₀ L lv :=
  HostSeg.ofOps _ _ _ _ _ (Pipeline.ucRefs τ sig) hostOps5_3
    (fun op h => Pipeline.sub_ucRefs op ((List.forall_iff_forall_mem.mp hostOps5_3_sub) op h))
    (fun op h => (List.forall_iff_forall_mem.mp hostOps5_3_fresh) op h) (V21 m outs) (E 5)

def seg22 : HostSeg (Ix := Ix) (Name := ℕ) (U := U) (Lvl := Lvl) (pcfgs (F := F)) defs₀ 𝒱₀ L lv :=
  HostSeg.ofOps _ _ _ _ _ (Pipeline.ucRefs τ sig) hostOps5_4
    (fun op h => Pipeline.sub_ucRefs op ((List.forall_iff_forall_mem.mp hostOps5_4_sub) op h))
    (fun op h => (List.forall_iff_forall_mem.mp hostOps5_4_fresh) op h) (V22 m outs) (E 5)

def seg24 : HostSeg (Ix := Ix) (Name := ℕ) (U := U) (Lvl := Lvl) (pcfgs (F := F)) defs₀ 𝒱₀ L lv :=
  HostSeg.ofOps _ _ _ _ _ (Pipeline.ucRefs τ sig) hostOps6
    (fun op h => Pipeline.sub_ucRefs op ((List.forall_iff_forall_mem.mp hostOps6_sub) op h))
    (fun op h => (List.forall_iff_forall_mem.mp hostOps6_fresh) op h) (V24 m outs) (E 6)

def seg26 : HostSeg (Ix := Ix) (Name := ℕ) (U := U) (Lvl := Lvl) (pcfgs (F := F)) defs₀ 𝒱₀ L lv :=
  HostSeg.ofOps _ _ _ _ _ (Pipeline.ucRefs τ sig) hostOps7
    (fun op h => Pipeline.sub_ucRefs op ((List.forall_iff_forall_mem.mp hostOps7_sub) op h))
    (fun op h => (List.forall_iff_forall_mem.mp hostOps7_fresh) op h) (V26 m outs) (E 7)

def seg28 : HostSeg (Ix := Ix) (Name := ℕ) (U := U) (Lvl := Lvl) (pcfgs (F := F)) defs₀ 𝒱₀ L lv :=
  HostSeg.ofOps _ _ _ _ _ (Pipeline.ucRefs τ sig) hostOps8
    (fun op h => Pipeline.sub_ucRefs op ((List.forall_iff_forall_mem.mp hostOps8_sub) op h))
    (fun op h => (List.forall_iff_forall_mem.mp hostOps8_fresh) op h) (V28 m outs) (E 8)

def seg30 : HostSeg (Ix := Ix) (Name := ℕ) (U := U) (Lvl := Lvl) (pcfgs (F := F)) defs₀ 𝒱₀ L lv :=
  HostSeg.ofOps _ _ _ _ _ (Pipeline.ucRefs τ sig) hostOps9
    (fun op h => Pipeline.sub_ucRefs op ((List.forall_iff_forall_mem.mp hostOps9_sub) op h))
    (fun op h => (List.forall_iff_forall_mem.mp hostOps9_fresh) op h) (V30 m outs) (E 9)

def seg32 : HostSeg (Ix := Ix) (Name := ℕ) (U := U) (Lvl := Lvl) (pcfgs (F := F)) defs₀ 𝒱₀ L lv :=
  HostSeg.ofOps _ _ _ _ _ (Pipeline.ucRefs τ sig) hostOps10
    (fun op h => Pipeline.sub_ucRefs op ((List.forall_iff_forall_mem.mp hostOps10_sub) op h))
    (fun op h => (List.forall_iff_forall_mem.mp hostOps10_fresh) op h) (V32 m outs) (E 10)

def seg34 : HostSeg (Ix := Ix) (Name := ℕ) (U := U) (Lvl := Lvl) (pcfgs (F := F)) defs₀ 𝒱₀ L lv :=
  HostSeg.ofOps _ _ _ _ _ (Pipeline.ucRefs τ sig) hostOps11
    (fun op h => Pipeline.sub_ucRefs op ((List.forall_iff_forall_mem.mp hostOps11_sub) op h))
    (fun op h => (List.forall_iff_forall_mem.mp hostOps11_fresh) op h) (V34 m outs) (E 11)

end Segs

section

variable {Ix : Type} [DecidableEq Ix] {U : Type} [URA U] {Lvl : Type} [Preorder Lvl]

abbrev adm : (p : Fin 11) → (pcfgs (F := F) p).Adm := fun p => (cfgs p).toPCfg_adm

abbrev segs (𝒱₀ : Variants) (L : GSem nD τ sig → Finset Ix) (lv : GSem nD τ sig → Ix → Lvl) (E : Fin 12 → Dev nD → sProp (MT nD τ sig Ix (Elt F) ℕ U Lvl)) (ι : Ix)
    (pdats : (p : Fin 11) → (c : Dev nD) → Dat τ (Elt F) Ix ℕ U Lvl (cfgs p) c) (R0 : RegionSeg (pcfgs (F := F)) adm pdats ι defs₀ 𝒱₀ L lv 0) (R1 : RegionSeg (pcfgs (F := F)) adm pdats ι defs₀ 𝒱₀ L lv 1) (R2 : RegionSeg (pcfgs (F := F)) adm pdats ι defs₀ 𝒱₀ L lv 2) (R3 : RegionSeg (pcfgs (F := F)) adm pdats ι defs₀ 𝒱₀ L lv 3) (R4 : RegionSeg (pcfgs (F := F)) adm pdats ι defs₀ 𝒱₀ L lv 4) (R5 : RegionSeg (pcfgs (F := F)) adm pdats ι defs₀ 𝒱₀ L lv 5) (R6 : RegionSeg (pcfgs (F := F)) adm pdats ι defs₀ 𝒱₀ L lv 6) (R7 : RegionSeg (pcfgs (F := F)) adm pdats ι defs₀ 𝒱₀ L lv 7) (R8 : RegionSeg (pcfgs (F := F)) adm pdats ι defs₀ 𝒱₀ L lv 8) (R9 : RegionSeg (pcfgs (F := F)) adm pdats ι defs₀ 𝒱₀ L lv 9) (R10 : RegionSeg (pcfgs (F := F)) adm pdats ι defs₀ 𝒱₀ L lv 10) (c : Dev nD) :
    List (Seg (pcfgs (F := F)) adm pdats ι defs₀ 𝒱₀ L lv) :=
  [.host (seg0 m 𝒱₀ L lv E), .region R0, .host (seg2 m outs 𝒱₀ L lv E), .region R1, .host (seg4 m outs 𝒱₀ L lv E), .region R2, .host (seg6 m outs 𝒱₀ L lv E), .host (seg7 m outs 𝒱₀ L lv E), .host (seg8 m outs 𝒱₀ L lv E), .host (seg9 m outs 𝒱₀ L lv E), .host (seg10 m outs 𝒱₀ L lv E), .region R3, .host (seg12 m outs 𝒱₀ L lv E), .host (seg13 m outs 𝒱₀ L lv E), .host (seg14 m outs 𝒱₀ L lv E), .host (seg15 m outs 𝒱₀ L lv E), .host (seg16 m outs 𝒱₀ L lv E), .region R4, .host (seg18 m outs 𝒱₀ L lv E), .host (seg19 m outs 𝒱₀ L lv E), .host (seg20 m outs 𝒱₀ L lv E), .host (seg21 m outs 𝒱₀ L lv E), .host (seg22 m outs 𝒱₀ L lv E), .region R5, .host (seg24 m outs 𝒱₀ L lv E), .region R6, .host (seg26 m outs 𝒱₀ L lv E), .region R7, .host (seg28 m outs 𝒱₀ L lv E), .region R8, .host (seg30 m outs 𝒱₀ L lv E), .region R9, .host (seg32 m outs 𝒱₀ L lv E), .region R10, .host (seg34 m outs 𝒱₀ L lv E)]

end

end Cert.KernelIdeal.GenP

end
-- ==== Proof.KI.Data.lean ====
/-
  The contents of the TensorCore's unscoped buffers at every boundary between two items of the program, from the
  launch to the return: after a stretch of host operations, those operations applied to what was there; after a
  kernel region, the region's output array replaced by what the region's pipeline leaves in it (the fold of its
  write-backs over the grid) and every other buffer as it was. With them, every pipeline's proof data at its own
  region's entry contents, and the contents the regions leave, as the function of the item number that the
  conditional frame is stated over.
-/
import proofs.«162078_j40114994545134_1_alg».proof.Proof.KI.Def0
import proofs.«162078_j40114994545134_1_alg».proof.Proof.KI.Def1
import proofs.«162078_j40114994545134_1_alg».proof.Proof.KI.Def2
import proofs.«162078_j40114994545134_1_alg».proof.Proof.KI.Def3
import proofs.«162078_j40114994545134_1_alg».proof.Proof.KI.Def4
import proofs.«162078_j40114994545134_1_alg».proof.Proof.KI.Def5
import proofs.«162078_j40114994545134_1_alg».proof.Proof.KI.Def6
import proofs.«162078_j40114994545134_1_alg».proof.Proof.KI.Def7
import proofs.«162078_j40114994545134_1_alg».proof.Proof.KI.Def8
import proofs.«162078_j40114994545134_1_alg».proof.Proof.KI.Def9
import proofs.«162078_j40114994545134_1_alg».proof.Proof.KI.Def10
import proofs.«162078_j40114994545134_1_alg».proof.Proof.KI.RegionsP
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.GenP

variable (m : (ℓ : Loc nD τ sig) → Buf (Elt F) ℓ)

/-- A boundary's contents read at the TensorCore's references: the form the regions' proof data take. -/
abbrev rd (W : Dev nD → Valuation τ sig (Elt F)) : (c : Dev nD) → (b : Ref sig .tc) → Buf (Elt F) ((c : Thread nD τ).loc b) :=
  fun c b => W c b

/-- After item 0, the host stretch `hostOps0`. -/
def T1 (c : Dev nD) : Valuation τ sig (Elt F) := StableHlo.after hostOps0 (V0 m c)
/-- What region 0 leaves in its output array `main_v1`. -/
def o0 (c : Dev nD) : Buf (Elt F) ((c : Thread nD τ).loc main_v1) := (dat0 (rd (T1 m)) c).arrAt 3 cfg0.N
/-- After item 1, region 0. -/
def T2 (c : Dev nD) : Valuation τ sig (Elt F) := Function.update (T1 m c) main_v1 (o0 m c)
/-- After item 2, the host stretch `hostOps1`. -/
def T3 (c : Dev nD) : Valuation τ sig (Elt F) := StableHlo.after hostOps1 (T2 m c)
/-- What region 1 leaves in its output array `main_v3`. -/
def o1 (c : Dev nD) : Buf (Elt F) ((c : Thread nD τ).loc main_v3) := (dat1 (rd (T3 m)) c).arrAt 3 cfg1.N
/-- After item 3, region 1. -/
def T4 (c : Dev nD) : Valuation τ sig (Elt F) := Function.update (T3 m c) main_v3 (o1 m c)
/-- After item 4, the host stretch `hostOps2`. -/
def T5 (c : Dev nD) : Valuation τ sig (Elt F) := StableHlo.after hostOps2 (T4 m c)
/-- What region 2 leaves in its output array `main_v24`. -/
def o2 (c : Dev nD) : Buf (Elt F) ((c : Thread nD τ).loc main_v24) := (dat2 (rd (T5 m)) c).arrAt 3 cfg2.N
/-- After item 5, region 2. -/
def T6 (c : Dev nD) : Valuation τ sig (Elt F) := Function.update (T5 m c) main_v24 (o2 m c)
/-- After item 6, the host stretch `hostOps3`. -/
def T7 (c : Dev nD) : Valuation τ sig (Elt F) := StableHlo.after hostOps3 (T6 m c)
/-- After item 7, the host stretch `hostOps3_1`. -/
def T8 (c : Dev nD) : Valuation τ sig (Elt F) := StableHlo.after hostOps3_1 (T7 m c)
/-- After item 8, the host stretch `hostOps3_2`. -/
def T9 (c : Dev nD) : Valuation τ sig (Elt F) := StableHlo.after hostOps3_2 (T8 m c)
/-- After item 9, the host stretch `hostOps3_3`. -/
def T10 (c : Dev nD) : Valuation τ sig (Elt F) := StableHlo.after hostOps3_3 (T9 m c)
/-- After item 10, the host stretch `hostOps3_4`. -/
def T11 (c : Dev nD) : Valuation τ sig (Elt F) := StableHlo.after hostOps3_4 (T10 m c)
/-- What region 3 leaves in its output array `main_v77`. -/
def o3 (c : Dev nD) : Buf (Elt F) ((c : Thread nD τ).loc main_v77) := (dat3 (rd (T11 m)) c).arrAt 4 cfg3.N
/-- After item 11, region 3. -/
def T12 (c : Dev nD) : Valuation τ sig (Elt F) := Function.update (T11 m c) main_v77 (o3 m c)
/-- After item 12, the host stretch `hostOps4`. -/
def T13 (c : Dev nD) : Valuation τ sig (Elt F) := StableHlo.after hostOps4 (T12 m c)
/-- After item 13, the host stretch `hostOps4_1`. -/
def T14 (c : Dev nD) : Valuation τ sig (Elt F) := StableHlo.after hostOps4_1 (T13 m c)
/-- After item 14, the host stretch `hostOps4_2`. -/
def T15 (c : Dev nD) : Valuation τ sig (Elt F) := StableHlo.after hostOps4_2 (T14 m c)
/-- After item 15, the host stretch `hostOps4_3`. -/
def T16 (c : Dev nD) : Valuation τ sig (Elt F) := StableHlo.after hostOps4_3 (T15 m c)
/-- After item 16, the host stretch `hostOps4_4`. -/
def T17 (c : Dev nD) : Valuation τ sig (Elt F) := StableHlo.after hostOps4_4 (T16 m c)
/-- What region 4 leaves in its output array `main_v111`. -/
def o4 (c : Dev nD) : Buf (Elt F) ((c : Thread nD τ).loc main_v111) := (dat4 (rd (T17 m)) c).arrAt 4 cfg4.N
/-- After item 17, region 4. -/
def T18 (c : Dev nD) : Valuation τ sig (Elt F) := Function.update (T17 m c) main_v111 (o4 m c)
/-- After item 18, the host stretch `hostOps5`. -/
def T19 (c : Dev nD) : Valuation τ sig (Elt F) := StableHlo.after hostOps5 (T18 m c)
/-- After item 19, the host stretch `hostOps5_1`. -/
def T20 (c : Dev nD) : Valuation τ sig (Elt F) := StableHlo.after hostOps5_1 (T19 m c)
/-- After item 20, the host stretch `hostOps5_2`. -/
def T21 (c : Dev nD) : Valuation τ sig (Elt F) := StableHlo.after hostOps5_2 (T20 m c)
/-- After item 21, the host stretch `hostOps5_3`. -/
def T22 (c : Dev nD) : Valuation τ sig (Elt F) := StableHlo.after hostOps5_3 (T21 m c)
/-- After item 22, the host stretch `hostOps5_4`. -/
def T23 (c : Dev nD) : Valuation τ sig (Elt F) := StableHlo.after hostOps5_4 (T22 m c)
/-- What region 5 leaves in its output array `main_v145`. -/
def o5 (c : Dev nD) : Buf (Elt F) ((c : Thread nD τ).loc main_v145) := (dat5 (rd (T23 m)) c).arrAt 4 cfg5.N
/-- After item 23, region 5. -/
def T24 (c : Dev nD) : Valuation τ sig (Elt F) := Function.update (T23 m c) main_v145 (o5 m c)
/-- After item 24, the host stretch `hostOps6`. -/
def T25 (c : Dev nD) : Valuation τ sig (Elt F) := StableHlo.after hostOps6 (T24 m c)
/-- What region 6 leaves in its output array `main_v147`. -/
def o6 (c : Dev nD) : Buf (Elt F) ((c : Thread nD τ).loc main_v147) := (dat6 (rd (T25 m)) c).arrAt 3 cfg6.N
/-- After item 25, region 6. -/
def T26 (c : Dev nD) : Valuation τ sig (Elt F) := Function.update (T25 m c) main_v147 (o6 m c)
/-- After item 26, the host stretch `hostOps7`. -/
def T27 (c : Dev nD) : Valuation τ sig (Elt F) := StableHlo.after hostOps7 (T26 m c)
/-- What region 7 leaves in its output array `main_v168`. -/
def o7 (c : Dev nD) : Buf (Elt F) ((c : Thread nD τ).loc main_v168) := (dat7 (rd (T27 m)) c).arrAt 3 cfg7.N
/-- After item 27, region 7. -/
def T28 (c : Dev nD) : Valuation τ sig (Elt F) := Function.update (T27 m c) main_v168 (o7 m c)
/-- After item 28, the host stretch `hostOps8`. -/
def T29 (c : Dev nD) : Valuation τ sig (Elt F) := StableHlo.after hostOps8 (T28 m c)
/-- What region 8 leaves in its output array `main_v191`. -/
def o8 (c : Dev nD) : Buf (Elt F) ((c : Thread nD τ).loc main_v191) := (dat8 (rd (T29 m)) c).arrAt 5 cfg8.N
/-- After item 29, region 8. -/
def T30 (c : Dev nD) : Valuation τ sig (Elt F) := Function.update (T29 m c) main_v191 (o8 m c)
/-- After item 30, the host stretch `hostOps9`. -/
def T31 (c : Dev nD) : Valuation τ sig (Elt F) := StableHlo.after hostOps9 (T30 m c)
/-- What region 9 leaves in its output array `main_v195`. -/
def o9 (c : Dev nD) : Buf (Elt F) ((c : Thread nD τ).loc main_v195) := (dat9 (rd (T31 m)) c).arrAt 5 cfg9.N
/-- After item 31, region 9. -/
def T32 (c : Dev nD) : Valuation τ sig (Elt F) := Function.update (T31 m c) main_v195 (o9 m c)
/-- After item 32, the host stretch `hostOps10`. -/
def T33 (c : Dev nD) : Valuation τ sig (Elt F) := StableHlo.after hostOps10 (T32 m c)
/-- What region 10 leaves in its output array `main_v199`. -/
def o10 (c : Dev nD) : Buf (Elt F) ((c : Thread nD τ).loc main_v199) := (dat10 (rd (T33 m)) c).arrAt 5 cfg10.N
/-- After item 33, region 10. -/
def T34 (c : Dev nD) : Valuation τ sig (Elt F) := Function.update (T33 m c) main_v199 (o10 m c)
/-- After item 34, the host stretch `hostOps11`. -/
def T35 (c : Dev nD) : Valuation τ sig (Elt F) := StableHlo.after hostOps11 (T34 m c)

/-- Every pipeline's proof data, each at its region's entry contents. -/
def pdats : (p : Fin 11) → (c : Dev nD) → Dat τ (Elt F) Unit ℕ (UR sig nD τ) ℕ (Pipeline.pin (pcfgs (F := F)) adm p) c
  | ⟨0, _⟩ => fun c => dat0 (rd (T1 m)) c
  | ⟨1, _⟩ => fun c => dat1 (rd (T3 m)) c
  | ⟨2, _⟩ => fun c => dat2 (rd (T5 m)) c
  | ⟨3, _⟩ => fun c => dat3 (rd (T11 m)) c
  | ⟨4, _⟩ => fun c => dat4 (rd (T17 m)) c
  | ⟨5, _⟩ => fun c => dat5 (rd (T23 m)) c
  | ⟨6, _⟩ => fun c => dat6 (rd (T25 m)) c
  | ⟨7, _⟩ => fun c => dat7 (rd (T27 m)) c
  | ⟨8, _⟩ => fun c => dat8 (rd (T29 m)) c
  | ⟨9, _⟩ => fun c => dat9 (rd (T31 m)) c
  | ⟨10, _⟩ => fun c => dat10 (rd (T33 m)) c

/-- The contents the regions leave, by item number: after item J−1 a region's boundary contents; no other point is read. -/
def outs : Outs (F := F) := fun J r c =>
  match J with
  | 2 => T2 m c r
  | 4 => T4 m c r
  | 6 => T6 m c r
  | 12 => T12 m c r
  | 18 => T18 m c r
  | 24 => T24 m c r
  | 26 => T26 m c r
  | 28 => T28 m c r
  | 30 => T30 m c r
  | 32 => T32 m c r
  | 34 => T34 m c r
  | _ => V0 m c r

/-! The generated boundary contents, over `outs`, are these. -/

theorem V1_eq (c : Dev nD) : V1 m c = T1 m c := rfl
theorem V2_eq (c : Dev nD) : V2 m (outs m) c = T2 m c := by
  show Function.update (V1 m c) main_v1 (T2 m c main_v1) = T2 m c
  rw [V1_eq]; unfold T2; rw [Function.update_self]
theorem V3_eq (c : Dev nD) : V3 m (outs m) c = T3 m c := by
  show StableHlo.after hostOps1 (V2 m (outs m) c) = StableHlo.after hostOps1 (T2 m c)
  rw [V2_eq]
theorem V4_eq (c : Dev nD) : V4 m (outs m) c = T4 m c := by
  show Function.update (V3 m (outs m) c) main_v3 (T4 m c main_v3) = T4 m c
  rw [V3_eq]; unfold T4; rw [Function.update_self]
theorem V5_eq (c : Dev nD) : V5 m (outs m) c = T5 m c := by
  show StableHlo.after hostOps2 (V4 m (outs m) c) = StableHlo.after hostOps2 (T4 m c)
  rw [V4_eq]
theorem V6_eq (c : Dev nD) : V6 m (outs m) c = T6 m c := by
  show Function.update (V5 m (outs m) c) main_v24 (T6 m c main_v24) = T6 m c
  rw [V5_eq]; unfold T6; rw [Function.update_self]
theorem V7_eq (c : Dev nD) : V7 m (outs m) c = T7 m c := by
  show StableHlo.after hostOps3 (V6 m (outs m) c) = StableHlo.after hostOps3 (T6 m c)
  rw [V6_eq]
theorem V8_eq (c : Dev nD) : V8 m (outs m) c = T8 m c := by
  show StableHlo.after hostOps3_1 (V7 m (outs m) c) = StableHlo.after hostOps3_1 (T7 m c)
  rw [V7_eq]
theorem V9_eq (c : Dev nD) : V9 m (outs m) c = T9 m c := by
  show StableHlo.after hostOps3_2 (V8 m (outs m) c) = StableHlo.after hostOps3_2 (T8 m c)
  rw [V8_eq]
theorem V10_eq (c : Dev nD) : V10 m (outs m) c = T10 m c := by
  show StableHlo.after hostOps3_3 (V9 m (outs m) c) = StableHlo.after hostOps3_3 (T9 m c)
  rw [V9_eq]
theorem V11_eq (c : Dev nD) : V11 m (outs m) c = T11 m c := by
  show StableHlo.after hostOps3_4 (V10 m (outs m) c) = StableHlo.after hostOps3_4 (T10 m c)
  rw [V10_eq]
theorem V12_eq (c : Dev nD) : V12 m (outs m) c = T12 m c := by
  show Function.update (V11 m (outs m) c) main_v77 (T12 m c main_v77) = T12 m c
  rw [V11_eq]; unfold T12; rw [Function.update_self]
theorem V13_eq (c : Dev nD) : V13 m (outs m) c = T13 m c := by
  show StableHlo.after hostOps4 (V12 m (outs m) c) = StableHlo.after hostOps4 (T12 m c)
  rw [V12_eq]
theorem V14_eq (c : Dev nD) : V14 m (outs m) c = T14 m c := by
  show StableHlo.after hostOps4_1 (V13 m (outs m) c) = StableHlo.after hostOps4_1 (T13 m c)
  rw [V13_eq]
theorem V15_eq (c : Dev nD) : V15 m (outs m) c = T15 m c := by
  show StableHlo.after hostOps4_2 (V14 m (outs m) c) = StableHlo.after hostOps4_2 (T14 m c)
  rw [V14_eq]
theorem V16_eq (c : Dev nD) : V16 m (outs m) c = T16 m c := by
  show StableHlo.after hostOps4_3 (V15 m (outs m) c) = StableHlo.after hostOps4_3 (T15 m c)
  rw [V15_eq]
theorem V17_eq (c : Dev nD) : V17 m (outs m) c = T17 m c := by
  show StableHlo.after hostOps4_4 (V16 m (outs m) c) = StableHlo.after hostOps4_4 (T16 m c)
  rw [V16_eq]
theorem V18_eq (c : Dev nD) : V18 m (outs m) c = T18 m c := by
  show Function.update (V17 m (outs m) c) main_v111 (T18 m c main_v111) = T18 m c
  rw [V17_eq]; unfold T18; rw [Function.update_self]
theorem V19_eq (c : Dev nD) : V19 m (outs m) c = T19 m c := by
  show StableHlo.after hostOps5 (V18 m (outs m) c) = StableHlo.after hostOps5 (T18 m c)
  rw [V18_eq]
theorem V20_eq (c : Dev nD) : V20 m (outs m) c = T20 m c := by
  show StableHlo.after hostOps5_1 (V19 m (outs m) c) = StableHlo.after hostOps5_1 (T19 m c)
  rw [V19_eq]
theorem V21_eq (c : Dev nD) : V21 m (outs m) c = T21 m c := by
  show StableHlo.after hostOps5_2 (V20 m (outs m) c) = StableHlo.after hostOps5_2 (T20 m c)
  rw [V20_eq]
theorem V22_eq (c : Dev nD) : V22 m (outs m) c = T22 m c := by
  show StableHlo.after hostOps5_3 (V21 m (outs m) c) = StableHlo.after hostOps5_3 (T21 m c)
  rw [V21_eq]
theorem V23_eq (c : Dev nD) : V23 m (outs m) c = T23 m c := by
  show StableHlo.after hostOps5_4 (V22 m (outs m) c) = StableHlo.after hostOps5_4 (T22 m c)
  rw [V22_eq]
theorem V24_eq (c : Dev nD) : V24 m (outs m) c = T24 m c := by
  show Function.update (V23 m (outs m) c) main_v145 (T24 m c main_v145) = T24 m c
  rw [V23_eq]; unfold T24; rw [Function.update_self]
theorem V25_eq (c : Dev nD) : V25 m (outs m) c = T25 m c := by
  show StableHlo.after hostOps6 (V24 m (outs m) c) = StableHlo.after hostOps6 (T24 m c)
  rw [V24_eq]
theorem V26_eq (c : Dev nD) : V26 m (outs m) c = T26 m c := by
  show Function.update (V25 m (outs m) c) main_v147 (T26 m c main_v147) = T26 m c
  rw [V25_eq]; unfold T26; rw [Function.update_self]
theorem V27_eq (c : Dev nD) : V27 m (outs m) c = T27 m c := by
  show StableHlo.after hostOps7 (V26 m (outs m) c) = StableHlo.after hostOps7 (T26 m c)
  rw [V26_eq]
theorem V28_eq (c : Dev nD) : V28 m (outs m) c = T28 m c := by
  show Function.update (V27 m (outs m) c) main_v168 (T28 m c main_v168) = T28 m c
  rw [V27_eq]; unfold T28; rw [Function.update_self]
theorem V29_eq (c : Dev nD) : V29 m (outs m) c = T29 m c := by
  show StableHlo.after hostOps8 (V28 m (outs m) c) = StableHlo.after hostOps8 (T28 m c)
  rw [V28_eq]
theorem V30_eq (c : Dev nD) : V30 m (outs m) c = T30 m c := by
  show Function.update (V29 m (outs m) c) main_v191 (T30 m c main_v191) = T30 m c
  rw [V29_eq]; unfold T30; rw [Function.update_self]
theorem V31_eq (c : Dev nD) : V31 m (outs m) c = T31 m c := by
  show StableHlo.after hostOps9 (V30 m (outs m) c) = StableHlo.after hostOps9 (T30 m c)
  rw [V30_eq]
theorem V32_eq (c : Dev nD) : V32 m (outs m) c = T32 m c := by
  show Function.update (V31 m (outs m) c) main_v195 (T32 m c main_v195) = T32 m c
  rw [V31_eq]; unfold T32; rw [Function.update_self]
theorem V33_eq (c : Dev nD) : V33 m (outs m) c = T33 m c := by
  show StableHlo.after hostOps10 (V32 m (outs m) c) = StableHlo.after hostOps10 (T32 m c)
  rw [V32_eq]
theorem V34_eq (c : Dev nD) : V34 m (outs m) c = T34 m c := by
  show Function.update (V33 m (outs m) c) main_v199 (T34 m c main_v199) = T34 m c
  rw [V33_eq]; unfold T34; rw [Function.update_self]
theorem V35_eq (c : Dev nD) : V35 m (outs m) c = T35 m c := by
  show StableHlo.after hostOps11 (V34 m (outs m) c) = StableHlo.after hostOps11 (T34 m c)
  rw [V34_eq]

/-! What rides beside the buffers through every item. -/

/-- No core owes another anything: no level is assigned. -/
abbrev Lf : GSem nD τ sig → Finset Unit := fun _ => ∅
abbrev lvf : GSem nD τ sig → Unit → ℕ := fun _ _ => 0

/-- The core's generator register at some state, and the core owing nothing. -/
abbrev Rst (c : Dev nD) : sProp 𝕄 :=
  iprop((∃ r, prngReg c r) ∗ ∃ W, owes (c : Thread nD τ) (0 : CellTallies nD τ sig Unit) W)

/-- An unscoped TensorCore reference is among those a boundary's state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.KI.SegLib.lean ====
import proofs.«162078_j40114994545134_1_alg».proof.Proof.KI.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.GenP

variable (m : (ℓ : Loc nD τ sig) → Buf (Elt F) ℓ)

-- a region whose arrays are split out of the unscoped buffers at entry and joined back at exit, one of them replaced
set_option backward.isDefEq.respectTransparency.types false in

def mkReg (p : Fin 11) (lf : Pipeline.LaunchFacts (nD := nD) (τ := τ) cfgs p) (Tin Tout : Dev nD → Valuation τ sig (Elt F))
    (hbody : ∀ c, Pipeline.BodyObligationLoose (pdats m p c) defs₀ Variants.none () Set.univ)
    (howed : ∀ c t, (pdats m p c).owed t = 0) (hrec : ∀ c t, (pdats m p c).recorded t = Set.univ)
    (hshare : ∀ c w, (pdats m p c).share w = fullShare)
    (hA : ∀ c w, (pdats m p c).A w = rd Tin c (Pipeline.arrRef (Pipeline.pin (pcfgs (F := F)) adm p).spec w))
    (hΦ : ∀ c i, (pdats m p c).Φ i = Pipeline.ΦA (Pipeline.pin (pcfgs (F := F)) adm p).spec c)
    (hF : ∀ c w, (pdats m p c).arrAt w (Pipeline.pin (pcfgs (F := F)) adm p).N = rd Tout c (Pipeline.arrRef (Pipeline.pin (pcfgs (F := F)) adm p).spec w))
    (hrest : ∀ c b, b ∉ Finset.univ.image (Pipeline.arrRef (Pipeline.pin (pcfgs (F := F)) adm p).spec) → rd Tout c b = rd Tin c b) :
    Pipeline.RegionSeg (pcfgs (F := F)) adm (pdats m) () defs₀ Variants.none Lf lvf p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ Lf lvf p howed
  pre c := iprop(StableHlo.held (c : Thread nD τ) (Pipeline.ucRefs τ sig) (Tin c) ∗ Rst c)
  post c := iprop(StableHlo.held (c : Thread nD τ) (Pipeline.ucRefs τ sig) (Tout c) ∗ Rst c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (rd Tin c)
  hentry c := by
    rw [Pipeline.ownSems0_none]
    have hsplit := Pipeline.arrays_of_unscopedBufs (p := p) (pcfgs (F := F)) adm (pdats m) lf.win lf.arr_whole c
      (hshare c) (rd Tin c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c 0]
      icases HO with ⟨%W, HO⟩; iexists W; isplitr; · ipureintro; exact fun _ _ => Or.inl (by rw [hrec c 0]; trivial)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) (hshare c)
      (rd Tin c) (rd Tout c) ((pdats m p c).arrAt · (Pipeline.pin (pcfgs (F := F)) adm p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c (Fin.last _)]
    icases HO with ⟨%W, -, HO⟩; iexists W; iexact HO

end Cert.KernelIdeal.Hand

end
-- ==== Proof.KI.Reg0.lean ====
import proofs.«162078_j40114994545134_1_alg».proof.Proof.KI.Def0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem cover0_3 (p0 : Vec F S10000x128 .f32) (y : S10000x128.Idx) :
    ∃ pc ∈ ([⟨r0_o, p0⟩] : List (View.Piece (Elt F) S10000x128 .f32)), y ∈ pc.1.set :=
  View.cover_of_tiled [⟨r0_o, p0⟩] S10000x128.size (by rfl) y

set_option maxHeartbeats 1000000 in

theorem sound_kernel0 (c : Dev nD) (E : Set ℕ) (i : grid0.Coords)
    (arg0 : Memref sig .tc .vmem S10000x32 .f32) (harg0 : arg0.IsWhole)
    (arg1 : Memref sig .tc .vmem S32x128 .f32) (harg1 : arg1.IsWhole)
    (arg2 : Memref sig .tc .vmem S1x128 .f32) (harg2 : arg2.IsWhole)
    (arg3 : Memref sig .tc .vmem S10000x128 .f32) (harg3 : arg3.IsWhole)
    (x0 : Vec F S10000x32 .f32) (x1 : Vec F S32x128 .f32) (x2 : Vec F S1x128 .f32) (K : PUnit → sProp 𝕄) :
    iprop(owns (c : Thread nD τ) arg0 fullShare x0 ∗ owns (c : Thread nD τ) arg1 fullShare x1
        ∗ owns (c : Thread nD τ) arg2 fullShare x2 ∗ (∃ d, owns (c : Thread nD τ) arg3 fullShare d)
        ∗ (iprop(owns (c : Thread nD τ) arg0 fullShare x0 ∗ owns (c : Thread nD τ) arg1 fullShare x1
            ∗ owns (c : Thread nD τ) arg2 fullShare x2 ∗ owns (c : Thread nD τ) arg3 fullShare (out0_3 x0 x1 x2)) -∗ K ⟨⟩))
      ⊢ wp frame (wpE (defs₀ (F := F)) Variants.none c none) E (cc0__linear_kernel i arg0 harg0 arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  A linear layer's region, the frame half: the body's one store covers the output window's buffer; the body's
  triple on whole staging memrefs (three loads of the inputs, a load of the output block whose value is not used, one
  store of the product-plus-bias); every input window's current buffer holds its block at every grid point, fetched
  there or not; and the pipeline's body obligation at a generic point.
-/
import proofs.«162078_j40114994545134_1_alg».proof.Proof.KI.Def1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's store covers the output buffer -/

/-- The one store is of the whole block, so its rectangle tiles the buffer and every index lies in it. -/
theorem cover1_3 (p0 : Vec F S10000x128 .f32) (y : S10000x128.Idx) :
    ∃ pc ∈ ([⟨r1_o, p0⟩] : List (View.Piece (Elt F) S10000x128 .f32)), y ∈ pc.1.set :=
  View.cover_of_tiled [⟨r1_o, p0⟩] S10000x128.size (by rfl) y

/-! ## The body's triple -/

set_option maxHeartbeats 1000000 in
/-- The body on whole staging memrefs, the inputs' at read contents `x0`, `x1`, `x2` and the output's at anything, runs
    to the continuation holding the inputs' as they were and the output's at `out1_3` of them: the three input loads
    return the buffers' reads through the whole-block rectangles, the load of the output block is not used, and the
    one store overwrites every index of the output buffer (`cover1_3`), so what was there before does not matter. -/
theorem sound_kernel1 (c : Dev nD) (E : Set ℕ) (i : grid1.Coords)
    (arg0 : Memref sig .tc .vmem S10000x128 .f32) (harg0 : arg0.IsWhole)
    (arg1 : Memref sig .tc .vmem S128x128 .f32) (harg1 : arg1.IsWhole)
    (arg2 : Memref sig .tc .vmem S1x128 .f32) (harg2 : arg2.IsWhole)
    (arg3 : Memref sig .tc .vmem S10000x128 .f32) (harg3 : arg3.IsWhole)
    (x0 : Vec F S10000x128 .f32) (x1 : Vec F S128x128 .f32) (x2 : Vec F S1x128 .f32) (K : PUnit → sProp 𝕄) :
    iprop(owns (c : Thread nD τ) arg0 fullShare x0 ∗ owns (c : Thread nD τ) arg1 fullShare x1
        ∗ owns (c : Thread nD τ) arg2 fullShare x2 ∗ (∃ d, owns (c : Thread nD τ) arg3 fullShare d)
        ∗ (iprop(owns (c : Thread nD τ) arg0 fullShare x0 ∗ owns (c : Thread nD τ) arg1 fullShare x1
            ∗ owns (c : Thread nD τ) arg2 fullShare x2 ∗ owns (c : Thread nD τ) arg3 fullShare (out1_3 x0 x1 x2)) -∗ K ⟨⟩))
      ⊢ wp frame (wpE (defs₀ (F := F)) Variants.none c none) E (cc1__linear_kernel i arg0 harg0 arg1 harg1 arg2 harg2 arg3 harg3) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The input windows' buffers before the body -/

/-- Input window 0's current staging buffer holds its block at every point, for any proof data whose array is the
    entry contents' and whose body leaves the block in place: at a point where it is fetched it is the fetched block,
    and where it is not the block index has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same for input window 1 (the weight: fetched at the first point only, its block index constant). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The same for input window 2 (the bias row: fetched at the first point only, its block index constant). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Each input's current staging buffer holds its block at every point of the region's own proof data. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`: the invariant, the core's debt, and every window's current staging
    memref at what the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns: the same invariant and debt, every window's memref at the proof data's `after`. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_0` … `before1_2`), so the body's triple
    applies; the invariant and the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/-
  A linear layer's region, the frame half: the body's one store covers the output window's buffer; the body's
  triple on whole staging memrefs (three loads of the inputs, a load of the output block whose value is not used, one
  store of the product-plus-bias); every input window's current buffer holds its block at every grid point, fetched
  there or not; and the pipeline's body obligation at a generic point.
-/
import proofs.«162078_j40114994545134_1_alg».proof.Proof.KI.Def2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's store covers the output buffer -/

/-- The one store is of the whole block, so its rectangle tiles the buffer and every index lies in it. -/
theorem cover2_3 (p0 : Vec F S5000x128 .f32) (y : S5000x128.Idx) :
    ∃ pc ∈ ([⟨r2_o, p0⟩] : List (View.Piece (Elt F) S5000x128 .f32)), y ∈ pc.1.set :=
  View.cover_of_tiled [⟨r2_o, p0⟩] S5000x128.size (by rfl) y

/-! ## The body's triple -/

set_option maxHeartbeats 1000000 in
/-- The body on whole staging memrefs, the inputs' at read contents `x0`, `x1`, `x2` and the output's at anything, runs
    to the continuation holding the inputs' as they were and the output's at `out2_3` of them: the three input loads
    return the buffers' reads through the whole-block rectangles, the load of the output block is not used, and the
    one store overwrites every index of the output buffer (`cover2_3`), so what was there before does not matter. -/
theorem sound_kernel2 (c : Dev nD) (E : Set ℕ) (i : grid2.Coords)
    (arg0 : Memref sig .tc .vmem S5000x128 .f32) (harg0 : arg0.IsWhole)
    (arg1 : Memref sig .tc .vmem S128x128 .f32) (harg1 : arg1.IsWhole)
    (arg2 : Memref sig .tc .vmem S1x128 .f32) (harg2 : arg2.IsWhole)
    (arg3 : Memref sig .tc .vmem S5000x128 .f32) (harg3 : arg3.IsWhole)
    (x0 : Vec F S5000x128 .f32) (x1 : Vec F S128x128 .f32) (x2 : Vec F S1x128 .f32) (K : PUnit → sProp 𝕄) :
    iprop(owns (c : Thread nD τ) arg0 fullShare x0 ∗ owns (c : Thread nD τ) arg1 fullShare x1
        ∗ owns (c : Thread nD τ) arg2 fullShare x2 ∗ (∃ d, owns (c : Thread nD τ) arg3 fullShare d)
        ∗ (iprop(owns (c : Thread nD τ) arg0 fullShare x0 ∗ owns (c : Thread nD τ) arg1 fullShare x1
            ∗ owns (c : Thread nD τ) arg2 fullShare x2 ∗ owns (c : Thread nD τ) arg3 fullShare (out2_3 x0 x1 x2)) -∗ K ⟨⟩))
      ⊢ wp frame (wpE (defs₀ (F := F)) Variants.none c none) E (cc2__linear_kernel i arg0 harg0 arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The input windows' buffers before the body -/

/-- Input window 0's current staging buffer holds its block at every point, for any proof data whose array is the
    entry contents' and whose body leaves the block in place: at a point where it is fetched it is the fetched block,
    and where it is not the block index has not moved since the last fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The same for input window 1 (the weight: fetched at the first point only, its block index constant). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The same for input window 2 (the bias row: fetched at the first point only, its block index constant). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Each input's current staging buffer holds its block at every point of the region's own proof data. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`: the invariant, the core's debt, and every window's current staging
    memref at what the pipeline left in it, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns: the same invariant and debt, every window's memref at the proof data's `after`. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks (`before2_0` … `before2_2`), so the body's triple
    applies; the invariant and the core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
import proofs.«162078_j40114994545134_1_alg».proof.Proof.KI.Def3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem cover3_4 (p0 : Vec F S10000x128 .f32) (y : S10000x128.Idx) :
    ∃ pc ∈ ([⟨r3_x, p0⟩] : List (View.Piece (Elt F) S10000x128 .f32)), y ∈ pc.1.set :=
  View.cover_of_tiled [⟨r3_x, p0⟩] S10000x128.size (by rfl) y

set_option maxHeartbeats 1000000 in

theorem sound_kernel3 (c : Dev nD) (E : Set ℕ) (i : grid3.Coords)
    (arg1 : Memref sig .tc .vmem S10000x128 .f32) (harg1 : arg1.IsWhole)
    (arg2 : Memref sig .tc .vmem S10000x1 .f32) (harg2 : arg2.IsWhole)
    (arg3 : Memref sig .tc .vmem S128x128 .f32) (harg3 : arg3.IsWhole)
    (arg4 : Memref sig .tc .vmem S1x128 .f32) (harg4 : arg4.IsWhole)
    (arg5 : Memref sig .tc .vmem S10000x128 .f32) (harg5 : arg5.IsWhole)
    (x0 : Vec F S10000x128 .f32) (x1 : Vec F S10000x1 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out3_4 x0 x1 x2 x3)) -∗ K ⟨⟩))
      ⊢ wp frame (wpE (defs₀ (F := F)) Variants.none c none) E (cc3__scaled_linear_kernel i arg1 harg1 arg2 harg2 arg3 harg3 arg4 harg4 arg5 harg5) K := by
  simp only [cc3__scaled_linear_kernel_eq_skeleton]; unfold cc3__scaled_linear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg4.lean ====
/-
  The scaled linear layer's region whose data `Def4` gives, its body: run on whole staging buffers that hold the four
  input blocks, the body reads each of them whole, reads the output buffer (a value it does not use) and stores the
  scaled product plus bias over the whole output buffer once; so it leaves the inputs as they were and the output buffer
  at `out4_4` of them. With each input's staging buffer holding that input's block at every grid point, this is the
  pipeline's body obligation for the proof data `dat4`.
-/
import proofs.«162078_j40114994545134_1_alg».proof.Proof.KI.Def4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' staging buffers before the body -/

/-- Input window 0's current staging buffer holds its block at every point, whether the block is fetched there or was
    fetched earlier and has not moved since, for any proof data whose array is the entry contents' (`hA`) and whose
    body leaves the block in place (`hafter`). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, whether the block is fetched there or was
    fetched earlier and has not moved since, for any proof data whose array is the entry contents' (`hA`) and whose
    body leaves the block in place (`hafter`). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's current staging buffer holds its block at every point, whether the block is fetched there or was
    fetched earlier and has not moved since, for any proof data whose array is the entry contents' (`hA`) and whose
    body leaves the block in place (`hafter`). -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3's current staging buffer holds its block at every point, whether the block is fetched there or was
    fetched earlier and has not moved since, for any proof data whose array is the entry contents' (`hA`) and whose
    body leaves the block in place (`hafter`). -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The output window's one store covers its buffer -/

/-- The store's rectangle is the whole buffer, so it covers it. -/
theorem cover4_4 (p0 : Vec F S5000x128 .f32) (y : S5000x128.Idx) :
    ∃ pc ∈ ([⟨r4_x, p0⟩] : List (View.Piece (Elt F) S5000x128 .f32)), y ∈ pc.1.set :=
  View.cover_of_tiled [⟨r4_x, p0⟩] S5000x128.size (by rfl) y

/-! ## The body's triple -/

set_option maxHeartbeats 1000000 in
/-- The body on whole staging buffers, the inputs' at read contents `x0 … x3` and the output's at anything, runs to the
    continuation holding the inputs' as they were and the output's at `out4_4` of the inputs': every load reads the
    whole of its buffer, and the one store writes the whole of the output's, so what was there before does not show. -/
theorem sound_kernel4 (c : Dev nD) (E : Set ℕ) (i : grid4.Coords)
    (arg1 : Memref sig .tc .vmem S5000x128 .f32) (harg1 : arg1.IsWhole)
    (arg2 : Memref sig .tc .vmem S5000x1 .f32) (harg2 : arg2.IsWhole)
    (arg3 : Memref sig .tc .vmem S128x128 .f32) (harg3 : arg3.IsWhole)
    (arg4 : Memref sig .tc .vmem S1x128 .f32) (harg4 : arg4.IsWhole)
    (arg5 : Memref sig .tc .vmem S5000x128 .f32) (harg5 : arg5.IsWhole)
    (x0 : Vec F S5000x128 .f32) (x1 : Vec F S5000x1 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out4_4 x0 x1 x2 x3)) -∗ K ⟨⟩))
      ⊢ wp frame (wpE (defs₀ (F := F)) Variants.none c none) E (cc4__scaled_linear_kernel i arg1 harg1 arg2 harg2 arg3 harg3 arg4 harg4 arg5 harg5) K := by
  simp only [cc4__scaled_linear_kernel_eq_skeleton]; unfold cc4__scaled_linear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-! ## The inputs' staging buffers at the proof data -/

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' buffers hold their blocks (`before4_w`), so `sound_kernel4` applies; the invariant
    and what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Reg5.lean ====
/-
  The scaled linear layer's region whose data `Def5` gives, its body: run on whole staging buffers that hold the four
  input blocks, the body reads each of them whole, reads the output buffer (a value it does not use) and stores the
  scaled product plus bias over the whole output buffer once; so it leaves the inputs as they were and the output buffer
  at `out5_4` of them. With each input's staging buffer holding that input's block at every grid point, this is the
  pipeline's body obligation for the proof data `dat5`.
-/
import proofs.«162078_j40114994545134_1_alg».proof.Proof.KI.Def5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' staging buffers before the body -/

/-- Input window 0's current staging buffer holds its block at every point, whether the block is fetched there or was
    fetched earlier and has not moved since, for any proof data whose array is the entry contents' (`hA`) and whose
    body leaves the block in place (`hafter`). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, whether the block is fetched there or was
    fetched earlier and has not moved since, for any proof data whose array is the entry contents' (`hA`) and whose
    body leaves the block in place (`hafter`). -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block at every point, whether the block is fetched there or was
    fetched earlier and has not moved since, for any proof data whose array is the entry contents' (`hA`) and whose
    body leaves the block in place (`hafter`). -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's current staging buffer holds its block at every point, whether the block is fetched there or was
    fetched earlier and has not moved since, for any proof data whose array is the entry contents' (`hA`) and whose
    body leaves the block in place (`hafter`). -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-! ## The output window's one store covers its buffer -/

/-- The store's rectangle is the whole buffer, so it covers it. -/
theorem cover5_4 (p0 : Vec F S6250x128 .f32) (y : S6250x128.Idx) :
    ∃ pc ∈ ([⟨r5_x, p0⟩] : List (View.Piece (Elt F) S6250x128 .f32)), y ∈ pc.1.set :=
  View.cover_of_tiled [⟨r5_x, p0⟩] S6250x128.size (by rfl) y

/-! ## The body's triple -/

set_option maxHeartbeats 1000000 in
/-- The body on whole staging buffers, the inputs' at read contents `x0 … x3` and the output's at anything, runs to the
    continuation holding the inputs' as they were and the output's at `out5_4` of the inputs': every load reads the
    whole of its buffer, and the one store writes the whole of the output's, so what was there before does not show. -/
theorem sound_kernel5 (c : Dev nD) (E : Set ℕ) (i : grid5.Coords)
    (arg1 : Memref sig .tc .vmem S6250x128 .f32) (harg1 : arg1.IsWhole)
    (arg2 : Memref sig .tc .vmem S6250x1 .f32) (harg2 : arg2.IsWhole)
    (arg3 : Memref sig .tc .vmem S128x128 .f32) (harg3 : arg3.IsWhole)
    (arg4 : Memref sig .tc .vmem S1x128 .f32) (harg4 : arg4.IsWhole)
    (arg5 : Memref sig .tc .vmem S6250x128 .f32) (harg5 : arg5.IsWhole)
    (x0 : Vec F S6250x128 .f32) (x1 : Vec F S6250x1 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out5_4 x0 x1 x2 x3)) -∗ K ⟨⟩))
      ⊢ wp frame (wpE (defs₀ (F := F)) Variants.none c none) E (cc5__scaled_linear_kernel i arg1 harg1 arg2 harg2 arg3 harg3 arg4 harg4 arg5 harg5) K := by
  simp only [cc5__scaled_linear_kernel_eq_skeleton]; unfold cc5__scaled_linear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

/-! ## The inputs' staging buffers at the proof data -/

/-- Each input's current staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the inputs' buffers hold their blocks (`before5_w`), so `sound_kernel5` applies; the invariant
    and what the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Reg6.lean ====
/-
  A linear layer's region, the frame half: the body's one store covers the output window's buffer; the body's
  triple on whole staging memrefs (three loads of the inputs, a load of the output block whose value is not used, one
  store of the product-plus-bias); every input window's current buffer holds its block at every grid point, fetched
  there or not; and the pipeline's body obligation at a generic point.
-/
import proofs.«162078_j40114994545134_1_alg».proof.Proof.KI.Def6

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's store covers the output buffer -/

/-- The one store is of the whole block, so its rectangle tiles the buffer and every index lies in it. -/
theorem cover6_3 (p0 : Vec F S6250x128 .f32) (y : S6250x128.Idx) :
    ∃ pc ∈ ([⟨r6_o, p0⟩] : List (View.Piece (Elt F) S6250x128 .f32)), y ∈ pc.1.set :=
  View.cover_of_tiled [⟨r6_o, p0⟩] S6250x128.size (by rfl) y

/-! ## The body's triple -/

set_option maxHeartbeats 1000000 in
/-- The body on whole staging memrefs, the inputs' at read contents `x0`, `x1`, `x2` and the output's at anything, runs
    to the continuation holding the inputs' as they were and the output's at `out6_3` of them: the three input loads
    return the buffers' reads through the whole-block rectangles, the load of the output block is not used, and the
    one store overwrites every index of the output buffer (`cover6_3`), so what was there before does not matter. -/
theorem sound_kernel6 (c : Dev nD) (E : Set ℕ) (i : grid6.Coords)
    (arg0 : Memref sig .tc .vmem S6250x128 .f32) (harg0 : arg0.IsWhole)
    (arg1 : Memref sig .tc .vmem S128x128 .f32) (harg1 : arg1.IsWhole)
    (arg2 : Memref sig .tc .vmem S1x128 .f32) (harg2 : arg2.IsWhole)
    (arg3 : Memref sig .tc .vmem S6250x128 .f32) (harg3 : arg3.IsWhole)
    (x0 : Vec F S6250x128 .f32) (x1 : Vec F S128x128 .f32) (x2 : Vec F S1x128 .f32) (K : PUnit → sProp 𝕄) :
    iprop(owns (c : Thread nD τ) arg0 fullShare x0 ∗ owns (c : Thread nD τ) arg1 fullShare x1
        ∗ owns (c : Thread nD τ) arg2 fullShare x2 ∗ (∃ d, owns (c : Thread nD τ) arg3 fullShare d)
        ∗ (iprop(owns (c : Thread nD τ) arg0 fullShare x0 ∗ owns (c : Thread nD τ) arg1 fullShare x1
            ∗ owns (c : Thread nD τ) arg2 fullShare x2 ∗ owns (c : Thread nD τ) arg3 fullShare (out6_3 x0 x1 x2)) -∗ K ⟨⟩))
      ⊢ wp frame (wpE (defs₀ (F := F)) Variants.none c none) E (cc6__linear_kernel i arg0 harg0 arg1 harg1 arg2 harg2 arg3 harg3) K := by
  simp only [cc6__linear_kernel_eq_skeleton]; unfold cc6__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-! ## The input windows' buffers before the body -/

/-- Input window 0's current staging buffer holds its block at every point, for any proof data whose array is the
    entry contents' and whose body leaves the block in place: at a point where it is fetched it is the fetched block,
    and where it is not the block index has not moved since the last fetch. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- The same for input window 1 (the weight: fetched at the first point only, its block index constant). -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- The same for input window 2 (the bias row: fetched at the first point only, its block index constant). -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Each input's current staging buffer holds its block at every point of the region's own proof data. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

/-- What the body is called with at point `t`: the invariant, the core's debt, and every window's current staging
    memref at what the pipeline left in it, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns: the same invariant and debt, every window's memref at the proof data's `after`. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' memrefs hold their blocks (`before6_0` … `before6_2`), so the body's triple
    applies; the invariant and the core's debt pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Reg7.lean ====
/-
  A linear layer's region, the frame half: the body's one store covers the output window's buffer; the body's
  triple on whole staging memrefs (three loads of the inputs, a load of the output block whose value is not used, one
  store of the product-plus-bias); every input window's current buffer holds its block at every grid point, fetched
  there or not; and the pipeline's body obligation at a generic point.
-/
import proofs.«162078_j40114994545134_1_alg».proof.Proof.KI.Def7

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's store covers the output buffer -/

/-- The one store is of the whole block, so its rectangle tiles the buffer and every index lies in it. -/
theorem cover7_3 (p0 : Vec F S5000x128 .f32) (y : S5000x128.Idx) :
    ∃ pc ∈ ([⟨r7_o, p0⟩] : List (View.Piece (Elt F) S5000x128 .f32)), y ∈ pc.1.set :=
  View.cover_of_tiled [⟨r7_o, p0⟩] S5000x128.size (by rfl) y

/-! ## The body's triple -/

set_option maxHeartbeats 1000000 in
/-- The body on whole staging memrefs, the inputs' at read contents `x0`, `x1`, `x2` and the output's at anything, runs
    to the continuation holding the inputs' as they were and the output's at `out7_3` of them: the three input loads
    return the buffers' reads through the whole-block rectangles, the load of the output block is not used, and the
    one store overwrites every index of the output buffer (`cover7_3`), so what was there before does not matter. -/
theorem sound_kernel7 (c : Dev nD) (E : Set ℕ) (i : grid7.Coords)
    (arg0 : Memref sig .tc .vmem S5000x128 .f32) (harg0 : arg0.IsWhole)
    (arg1 : Memref sig .tc .vmem S128x128 .f32) (harg1 : arg1.IsWhole)
    (arg2 : Memref sig .tc .vmem S1x128 .f32) (harg2 : arg2.IsWhole)
    (arg3 : Memref sig .tc .vmem S5000x128 .f32) (harg3 : arg3.IsWhole)
    (x0 : Vec F S5000x128 .f32) (x1 : Vec F S128x128 .f32) (x2 : Vec F S1x128 .f32) (K : PUnit → sProp 𝕄) :
    iprop(owns (c : Thread nD τ) arg0 fullShare x0 ∗ owns (c : Thread nD τ) arg1 fullShare x1
        ∗ owns (c : Thread nD τ) arg2 fullShare x2 ∗ (∃ d, owns (c : Thread nD τ) arg3 fullShare d)
        ∗ (iprop(owns (c : Thread nD τ) arg0 fullShare x0 ∗ owns (c : Thread nD τ) arg1 fullShare x1
            ∗ owns (c : Thread nD τ) arg2 fullShare x2 ∗ owns (c : Thread nD τ) arg3 fullShare (out7_3 x0 x1 x2)) -∗ K ⟨⟩))
      ⊢ wp frame (wpE (defs₀ (F := F)) Variants.none c none) E (cc7__linear_kernel i arg0 harg0 arg1 harg1 arg2 harg2 arg3 harg3) K := by
  simp only [cc7__linear_kernel_eq_skeleton]; unfold cc7__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

/-! ## The input windows' buffers before the body -/

/-- Input window 0's current staging buffer holds its block at every point, for any proof data whose array is the
    entry contents' and whose body leaves the block in place: at a point where it is fetched it is the fetched block,
    and where it is not the block index has not moved since the last fetch. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- The same for input window 1 (the weight: fetched at the first point only, its block index constant). -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- The same for input window 2 (the bias row: fetched at the first point only, its block index constant). -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Each input's current staging buffer holds its block at every point of the region's own proof data. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point `t`: the invariant, the core's debt, and every window's current staging
    memref at what the pipeline left in it, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns: the same invariant and debt, every window's memref at the proof data's `after`. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' memrefs hold their blocks (`before7_0` … `before7_2`), so the body's triple
    applies; the invariant and the core's debt pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI.Reg8.lean ====
import proofs.«162078_j40114994545134_1_alg».proof.Proof.KI.Def8
import proofs.«162078_j40114994545134_1_alg».proof.Proof.Gen.KernelIdeal.Launch
import proofs.«162078_j40114994545134_1_alg».proof.Proof.Gen.KernelIdeal.Skeleton
import proofs.«162078_j40114994545134_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

theorem cover8_5 (p0 : Vec F S10000x5 .f32) (y : S10000x5.Idx) :
    ∃ pc ∈ ([⟨r8_o, p0⟩] : List (View.Piece (Elt F) S10000x5 .f32)), y ∈ pc.1.set :=
  View.cover_of_tiled [⟨r8_o, p0⟩] S10000x5.size (by rfl) y

set_option maxHeartbeats 1000000 in

theorem sound_kernel8 (c : Dev nD) (E : Set ℕ) (i : grid8.Coords)
    (arg1 : Memref sig .tc .vmem S10000x128 .f32) (harg1 : arg1.IsWhole) (arg2 : Memref sig .tc .vmem S10000x128 .f32) (harg2 : arg2.IsWhole)
    (arg3 : Memref sig .tc .vmem S128x5 .f32) (harg3 : arg3.IsWhole) (arg4 : Memref sig .tc .vmem S128x5 .f32) (harg4 : arg4.IsWhole)
    (arg5 : Memref sig .tc .vmem S1x5 .f32) (harg5 : arg5.IsWhole) (arg6 : Memref sig .tc .vmem S10000x5 .f32) (harg6 : arg6.IsWhole)
    (x0 : Vec F S10000x128 .f32) (x1 : Vec F S10000x128 .f32) (x2 : Vec F S128x5 .f32) (x3 : Vec F S128x5 .f32) (x4 : Vec F S1x5 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out8_5 x0 x1 x2 x3 x4)) -∗ K ⟨⟩))
      ⊢ wp frame (wpE (defs₀ (F := F)) Variants.none c none) E
          (cc8__head_kernel i arg1 harg1 arg2 harg2 arg3 harg3 arg4 harg4 arg5 harg5 arg6 harg6) K := by
  simp only [cc8__head_kernel_eq_skeleton]; unfold cc8__head_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ (grid8.coords t) _ _ _ _ _ _ _ _ _ _ _ _
    (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KI.Reg9.lean ====
/-
  An output head's region, the frame half: each input window's current staging buffer holds that window's block
  at every grid point; the body's one store covers the output block; the body, run on whole staging memrefs, leaves
  the five inputs as they were and the output at `out9_5` of them; hence the pipeline's body obligation for the
  proof data `dat9`, at any contents `V` the region is entered with.
-/
import proofs.«162078_j40114994545134_1_alg».proof.Proof.KI.Def9
import proofs.«162078_j40114994545134_1_alg».proof.Proof.Gen.KernelIdeal.Launch
import proofs.«162078_j40114994545134_1_alg».proof.Proof.Gen.KernelIdeal.Skeleton
import proofs.«162078_j40114994545134_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' current buffers -/

/-- Input window 0's current staging buffer holds its block at every point, for any proof data whose array is the
    entry contents and whose body leaves the block in place: the window is an input, never idle and uncut, so the
    buffer is what was last fetched, and an unfetched point's block index has not moved. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
/-- The same for input window 1. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
/-- The same for input window 2 (fetched at the first point only: its block is the same at every point). -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)
/-- The same for input window 3 (fetched at the first point only). -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)
/-- The same for input window 4 (fetched at the first point only). -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-! ## The output window's one store covers its buffer -/

/-- The one stored rectangle is the whole output block, so every index of the block lies in it. -/
theorem cover9_5 (p0 : Vec F S5000x5 .f32) (y : S5000x5.Idx) :
    ∃ pc ∈ ([⟨r9_o, p0⟩] : List (View.Piece (Elt F) S5000x5 .f32)), y ∈ pc.1.set :=
  View.cover_of_tiled [⟨r9_o, p0⟩] S5000x5.size (by rfl) y

/-! ## The body's triple -/

set_option maxHeartbeats 1000000 in
/-- The body on whole staging memrefs, the five inputs' at read contents `x0 … x4` and the output's at anything, runs
    to the continuation holding the inputs' as they were and the output's at `out9_5` of the inputs: five whole-block
    loads, a load of the output block whose value is unused, and one whole-block store of the payload. -/
theorem sound_kernel9 (c : Dev nD) (E : Set ℕ) (i : grid9.Coords)
    (arg1 : Memref sig .tc .vmem S5000x128 .f32) (harg1 : arg1.IsWhole) (arg2 : Memref sig .tc .vmem S5000x128 .f32) (harg2 : arg2.IsWhole)
    (arg3 : Memref sig .tc .vmem S128x5 .f32) (harg3 : arg3.IsWhole) (arg4 : Memref sig .tc .vmem S128x5 .f32) (harg4 : arg4.IsWhole)
    (arg5 : Memref sig .tc .vmem S1x5 .f32) (harg5 : arg5.IsWhole) (arg6 : Memref sig .tc .vmem S5000x5 .f32) (harg6 : arg6.IsWhole)
    (x0 : Vec F S5000x128 .f32) (x1 : Vec F S5000x128 .f32) (x2 : Vec F S128x5 .f32) (x3 : Vec F S128x5 .f32) (x4 : Vec F S1x5 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out9_5 x0 x1 x2 x3 x4)) -∗ K ⟨⟩))
      ⊢ wp frame (wpE (defs₀ (F := F)) Variants.none c none) E
          (cc9__head_kernel i arg1 harg1 arg2 harg2 arg3 harg3 arg4 harg4 arg5 harg5 arg6 harg6) K := by
  simp only [cc9__head_kernel_eq_skeleton]; unfold cc9__head_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover9_5 _)

/-! ## The inputs' buffers under the region's proof data -/

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d

/-! ## The body obligation, at a generic point -/

/-- What the body is called with at point `t`: the invariant, what the core owes, and each window's current staging
    buffer at what it then holds, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

/-- The body at any point: the inputs' memrefs hold their blocks (`before9_w`), so `sound_kernel9` applies; the
    invariant and what the core owes pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5]
  iintro ⟨HΦ, Ho, ⟨%d0, H0⟩, ⟨%d1, H1⟩, ⟨%d2, H2⟩, ⟨%d3, H3⟩, ⟨%d4, H4⟩, ⟨%d5, H5⟩⟩
  iapply (sound_kernel9 c Set.univ (grid9.coords t) _ _ _ _ _ _ _ _ _ _ _ _
    (iblk9 V c 0 t) (iblk9 V c 1 t) (iblk9 V c 2 t) (iblk9 V c 3 t) (iblk9 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Hand

end
-- ==== Proof.KI.Segs.lean ====
import proofs.«162078_j40114994545134_1_alg».proof.Proof.KI.SegLib
import proofs.«162078_j40114994545134_1_alg».proof.Proof.KI.Reg0
import proofs.«162078_j40114994545134_1_alg».proof.Proof.KI.Reg1
import proofs.«162078_j40114994545134_1_alg».proof.Proof.KI.Reg2
import proofs.«162078_j40114994545134_1_alg».proof.Proof.KI.Reg3
import proofs.«162078_j40114994545134_1_alg».proof.Proof.KI.Reg4
import proofs.«162078_j40114994545134_1_alg».proof.Proof.KI.Reg5
import proofs.«162078_j40114994545134_1_alg».proof.Proof.KI.Reg6
import proofs.«162078_j40114994545134_1_alg».proof.Proof.KI.Reg7
import proofs.«162078_j40114994545134_1_alg».proof.Proof.KI.Reg8
import proofs.«162078_j40114994545134_1_alg».proof.Proof.KI.Reg9

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.GenP

variable (m : (ℓ : Loc nD τ sig) → Buf (Elt F) ℓ)

theorem atOut0 (c : Dev nD) : T2 m c (Proc.devRef .tc main_v1) = o0 m c := by
  unfold T2; exact Function.update_self _ _ _

theorem offOut0 (c : Dev nD) (b : Ref sig .tc) (hb : b ≠ main_v1) :
    T2 m c (Proc.devRef .tc b) = T1 m c (Proc.devRef .tc b) := by
  unfold T2; exact Function.update_of_ne (StableHlo.devRef_ne_of_ne hb) _ _

theorem hF0 (c : Dev nD) (w : Fin cfg0.W) : (dat0 (rd (T1 m)) c).arrAt w cfg0.N = rd (T2 m) c (Pipeline.arrRef spec0 w) :=
  match w with
  | ⟨0, _⟩ => ((dat0 (rd (T1 m)) c).arrAt_in 0 rfl _).trans ((A_eq0 (rd (T1 m)) c 0).trans (offOut0 m c _ (by decide)).symm)
  | ⟨1, _⟩ => ((dat0 (rd (T1 m)) c).arrAt_in 1 rfl _).trans ((A_eq0 (rd (T1 m)) c 1).trans (offOut0 m c _ (by decide)).symm)
  | ⟨2, _⟩ => ((dat0 (rd (T1 m)) c).arrAt_in 2 rfl _).trans ((A_eq0 (rd (T1 m)) c 2).trans (offOut0 m c _ (by decide)).symm)
  | ⟨3, _⟩ => (atOut0 m c).symm

theorem hrest0 (c : Dev nD) : ∀ b, b ∉ Finset.univ.image (Pipeline.arrRef spec0) → rd (T2 m) c b = rd (T1 m) c b :=
  fun b hb => offOut0 m c b fun e => hb (Finset.mem_image.mpr ⟨3, Finset.mem_univ _, (rfl : Pipeline.arrRef spec0 3 = main_v1).trans e.symm⟩)

set_option backward.isDefEq.respectTransparency.types false in
def reg0 : Pipeline.RegionSeg (pcfgs (F := F)) adm (pdats m) () defs₀ Variants.none Lf lvf 0 :=
  mkReg m 0 launch0 (T1 m) (T2 m) (fun c => (body_obligation0 (rd (T1 m)) c).loose) (fun _ _ => rfl) (fun _ _ => rfl)
    (fun c => (pdats m 0 c).share_full fun _ => rfl) (fun _ _ => rfl) (fun _ _ => rfl) (hF0 m) (hrest0 m)

theorem reg0_pre (c : Dev nD) :
    (reg0 m).pre c = iprop(StableHlo.held (c : Thread nD τ) (Pipeline.ucRefs τ sig) (T1 m c) ∗ Rst c) := rfl
theorem reg0_post (c : Dev nD) :
    (reg0 m).post c = iprop(StableHlo.held (c : Thread nD τ) (Pipeline.ucRefs τ sig) (T2 m c) ∗ Rst c) := rfl

theorem atOut1 (c : Dev nD) : T4 m c (Proc.devRef .tc main_v3) = o1 m c := by
  unfold T4; exact Function.update_self _ _ _

theorem offOut1 (c : Dev nD) (b : Ref sig .tc) (hb : b ≠ main_v3) :
    T4 m c (Proc.devRef .tc b) = T3 m c (Proc.devRef .tc b) := by
  unfold T4; exact Function.update_of_ne (StableHlo.devRef_ne_of_ne hb) _ _

theorem hF1 (c : Dev nD) (w : Fin cfg1.W) : (dat1 (rd (T3 m)) c).arrAt w cfg1.N = rd (T4 m) c (Pipeline.arrRef spec1 w) :=
  match w with
  | ⟨0, _⟩ => ((dat1 (rd (T3 m)) c).arrAt_in 0 rfl _).trans ((A_eq1 (rd (T3 m)) c 0).trans (offOut1 m c _ (by decide)).symm)
  | ⟨1, _⟩ => ((dat1 (rd (T3 m)) c).arrAt_in 1 rfl _).trans ((A_eq1 (rd (T3 m)) c 1).trans (offOut1 m c _ (by decide)).symm)
  | ⟨2, _⟩ => ((dat1 (rd (T3 m)) c).arrAt_in 2 rfl _).trans ((A_eq1 (rd (T3 m)) c 2).trans (offOut1 m c _ (by decide)).symm)
  | ⟨3, _⟩ => (atOut1 m c).symm

theorem hrest1 (c : Dev nD) : ∀ b, b ∉ Finset.univ.image (Pipeline.arrRef spec1) → rd (T4 m) c b = rd (T3 m) c b :=
  fun b hb => offOut1 m c b fun e => hb (Finset.mem_image.mpr ⟨3, Finset.mem_univ _, (rfl : Pipeline.arrRef spec1 3 = main_v3).trans e.symm⟩)

set_option backward.isDefEq.respectTransparency.types false in
def reg1 : Pipeline.RegionSeg (pcfgs (F := F)) adm (pdats m) () defs₀ Variants.none Lf lvf 1 :=
  mkReg m 1 launch1 (T3 m) (T4 m) (fun c => (body_obligation1 (rd (T3 m)) c).loose) (fun _ _ => rfl) (fun _ _ => rfl)
    (fun c => (pdats m 1 c).share_full fun _ => rfl) (fun _ _ => rfl) (fun _ _ => rfl) (hF1 m) (hrest1 m)

theorem reg1_pre (c : Dev nD) :
    (reg1 m).pre c = iprop(StableHlo.held (c : Thread nD τ) (Pipeline.ucRefs τ sig) (T3 m c) ∗ Rst c) := rfl
theorem reg1_post (c : Dev nD) :
    (reg1 m).post c = iprop(StableHlo.held (c : Thread nD τ) (Pipeline.ucRefs τ sig) (T4 m c) ∗ Rst c) := rfl

theorem atOut2 (c : Dev nD) : T6 m c (Proc.devRef .tc main_v24) = o2 m c := by
  unfold T6; exact Function.update_self _ _ _

theorem offOut2 (c : Dev nD) (b : Ref sig .tc) (hb : b ≠ main_v24) :
    T6 m c (Proc.devRef .tc b) = T5 m c (Proc.devRef .tc b) := by
  unfold T6; exact Function.update_of_ne (StableHlo.devRef_ne_of_ne hb) _ _

theorem hF2 (c : Dev nD) (w : Fin cfg2.W) : (dat2 (rd (T5 m)) c).arrAt w cfg2.N = rd (T6 m) c (Pipeline.arrRef spec2 w) :=
  match w with
  | ⟨0, _⟩ => ((dat2 (rd (T5 m)) c).arrAt_in 0 rfl _).trans ((A_eq2 (rd (T5 m)) c 0).trans (offOut2 m c _ (by decide)).symm)
  | ⟨1, _⟩ => ((dat2 (rd (T5 m)) c).arrAt_in 1 rfl _).trans ((A_eq2 (rd (T5 m)) c 1).trans (offOut2 m c _ (by decide)).symm)
  | ⟨2, _⟩ => ((dat2 (rd (T5 m)) c).arrAt_in 2 rfl _).trans ((A_eq2 (rd (T5 m)) c 2).trans (offOut2 m c _ (by decide)).symm)
  | ⟨3, _⟩ => (atOut2 m c).symm

theorem hrest2 (c : Dev nD) : ∀ b, b ∉ Finset.univ.image (Pipeline.arrRef spec2) → rd (T6 m) c b = rd (T5 m) c b :=
  fun b hb => offOut2 m c b fun e => hb (Finset.mem_image.mpr ⟨3, Finset.mem_univ _, (rfl : Pipeline.arrRef spec2 3 = main_v24).trans e.symm⟩)

set_option backward.isDefEq.respectTransparency.types false in
def reg2 : Pipeline.RegionSeg (pcfgs (F := F)) adm (pdats m) () defs₀ Variants.none Lf lvf 2 :=
  mkReg m 2 launch2 (T5 m) (T6 m) (fun c => (body_obligation2 (rd (T5 m)) c).loose) (fun _ _ => rfl) (fun _ _ => rfl)
    (fun c => (pdats m 2 c).share_full fun _ => rfl) (fun _ _ => rfl) (fun _ _ => rfl) (hF2 m) (hrest2 m)

theorem reg2_pre (c : Dev nD) :
    (reg2 m).pre c = iprop(StableHlo.held (c : Thread nD τ) (Pipeline.ucRefs τ sig) (T5 m c) ∗ Rst c) := rfl
theorem reg2_post (c : Dev nD) :
    (reg2 m).post c = iprop(StableHlo.held (c : Thread nD τ) (Pipeline.ucRefs τ sig) (T6 m c) ∗ Rst c) := rfl

theorem atOut3 (c : Dev nD) : T12 m c (Proc.devRef .tc main_v77) = o3 m c := by
  unfold T12; exact Function.update_self _ _ _

theorem offOut3 (c : Dev nD) (b : Ref sig .tc) (hb : b ≠ main_v77) :
    T12 m c (Proc.devRef .tc b) = T11 m c (Proc.devRef .tc b) := by
  unfold T12; exact Function.update_of_ne (StableHlo.devRef_ne_of_ne hb) _ _

theorem hF3 (c : Dev nD) (w : Fin cfg3.W) : (dat3 (rd (T11 m)) c).arrAt w cfg3.N = rd (T12 m) c (Pipeline.arrRef spec3 w) :=
  match w with
  | ⟨0, _⟩ => ((dat3 (rd (T11 m)) c).arrAt_in 0 rfl _).trans ((A_eq3 (rd (T11 m)) c 0).trans (offOut3 m c _ (by decide)).symm)
  | ⟨1, _⟩ => ((dat3 (rd (T11 m)) c).arrAt_in 1 rfl _).trans ((A_eq3 (rd (T11 m)) c 1).trans (offOut3 m c _ (by decide)).symm)
  | ⟨2, _⟩ => ((dat3 (rd (T11 m)) c).arrAt_in 2 rfl _).trans ((A_eq3 (rd (T11 m)) c 2).trans (offOut3 m c _ (by decide)).symm)
  | ⟨3, _⟩ => ((dat3 (rd (T11 m)) c).arrAt_in 3 rfl _).trans ((A_eq3 (rd (T11 m)) c 3).trans (offOut3 m c _ (by decide)).symm)
  | ⟨4, _⟩ => (atOut3 m c).symm

theorem hrest3 (c : Dev nD) : ∀ b, b ∉ Finset.univ.image (Pipeline.arrRef spec3) → rd (T12 m) c b = rd (T11 m) c b :=
  fun b hb => offOut3 m c b fun e => hb (Finset.mem_image.mpr ⟨4, Finset.mem_univ _, (rfl : Pipeline.arrRef spec3 4 = main_v77).trans e.symm⟩)

set_option backward.isDefEq.respectTransparency.types false in
def reg3 : Pipeline.RegionSeg (pcfgs (F := F)) adm (pdats m) () defs₀ Variants.none Lf lvf 3 :=
  mkReg m 3 launch3 (T11 m) (T12 m) (fun c => (body_obligation3 (rd (T11 m)) c).loose) (fun _ _ => rfl) (fun _ _ => rfl)
    (fun c => (pdats m 3 c).share_full fun _ => rfl) (fun _ _ => rfl) (fun _ _ => rfl) (hF3 m) (hrest3 m)

theorem reg3_pre (c : Dev nD) :
    (reg3 m).pre c = iprop(StableHlo.held (c : Thread nD τ) (Pipeline.ucRefs τ sig) (T11 m c) ∗ Rst c) := rfl
theorem reg3_post (c : Dev nD) :
    (reg3 m).post c = iprop(StableHlo.held (c : Thread nD τ) (Pipeline.ucRefs τ sig) (T12 m c) ∗ Rst c) := rfl

theorem atOut4 (c : Dev nD) : T18 m c (Proc.devRef .tc main_v111) = o4 m c := by
  unfold T18; exact Function.update_self _ _ _

theorem offOut4 (c : Dev nD) (b : Ref sig .tc) (hb : b ≠ main_v111) :
    T18 m c (Proc.devRef .tc b) = T17 m c (Proc.devRef .tc b) := by
  unfold T18; exact Function.update_of_ne (StableHlo.devRef_ne_of_ne hb) _ _

theorem hF4 (c : Dev nD) (w : Fin cfg4.W) : (dat4 (rd (T17 m)) c).arrAt w cfg4.N = rd (T18 m) c (Pipeline.arrRef spec4 w) :=
  match w with
  | ⟨0, _⟩ => ((dat4 (rd (T17 m)) c).arrAt_in 0 rfl _).trans ((A_eq4 (rd (T17 m)) c 0).trans (offOut4 m c _ (by decide)).symm)
  | ⟨1, _⟩ => ((dat4 (rd (T17 m)) c).arrAt_in 1 rfl _).trans ((A_eq4 (rd (T17 m)) c 1).trans (offOut4 m c _ (by decide)).symm)
  | ⟨2, _⟩ => ((dat4 (rd (T17 m)) c).arrAt_in 2 rfl _).trans ((A_eq4 (rd (T17 m)) c 2).trans (offOut4 m c _ (by decide)).symm)
  | ⟨3, _⟩ => ((dat4 (rd (T17 m)) c).arrAt_in 3 rfl _).trans ((A_eq4 (rd (T17 m)) c 3).trans (offOut4 m c _ (by decide)).symm)
  | ⟨4, _⟩ => (atOut4 m c).symm

theorem hrest4 (c : Dev nD) : ∀ b, b ∉ Finset.univ.image (Pipeline.arrRef spec4) → rd (T18 m) c b = rd (T17 m) c b :=
  fun b hb => offOut4 m c b fun e => hb (Finset.mem_image.mpr ⟨4, Finset.mem_univ _, (rfl : Pipeline.arrRef spec4 4 = main_v111).trans e.symm⟩)

set_option backward.isDefEq.respectTransparency.types false in
def reg4 : Pipeline.RegionSeg (pcfgs (F := F)) adm (pdats m) () defs₀ Variants.none Lf lvf 4 :=
  mkReg m 4 launch4 (T17 m) (T18 m) (fun c => (body_obligation4 (rd (T17 m)) c).loose) (fun _ _ => rfl) (fun _ _ => rfl)
    (fun c => (pdats m 4 c).share_full fun _ => rfl) (fun _ _ => rfl) (fun _ _ => rfl) (hF4 m) (hrest4 m)

theorem reg4_pre (c : Dev nD) :
    (reg4 m).pre c = iprop(StableHlo.held (c : Thread nD τ) (Pipeline.ucRefs τ sig) (T17 m c) ∗ Rst c) := rfl
theorem reg4_post (c : Dev nD) :
    (reg4 m).post c = iprop(StableHlo.held (c : Thread nD τ) (Pipeline.ucRefs τ sig) (T18 m c) ∗ Rst c) := rfl

theorem atOut5 (c : Dev nD) : T24 m c (Proc.devRef .tc main_v145) = o5 m c := by
  unfold T24; exact Function.update_self _ _ _

theorem offOut5 (c : Dev nD) (b : Ref sig .tc) (hb : b ≠ main_v145) :
    T24 m c (Proc.devRef .tc b) = T23 m c (Proc.devRef .tc b) := by
  unfold T24; exact Function.update_of_ne (StableHlo.devRef_ne_of_ne hb) _ _

set_option maxHeartbeats 1000000 in

theorem hF5 (c : Dev nD) (w : Fin cfg5.W) : (dat5 (rd (T23 m)) c).arrAt w cfg5.N = rd (T24 m) c (Pipeline.arrRef spec5 w) :=
  match w with
  | ⟨0, _⟩ => ((dat5 (rd (T23 m)) c).arrAt_in 0 rfl _).trans ((A_eq5 (rd (T23 m)) c 0).trans (offOut5 m c _ (by decide)).symm)
  | ⟨1, _⟩ => ((dat5 (rd (T23 m)) c).arrAt_in 1 rfl _).trans ((A_eq5 (rd (T23 m)) c 1).trans (offOut5 m c _ (by decide)).symm)
  | ⟨2, _⟩ => ((dat5 (rd (T23 m)) c).arrAt_in 2 rfl _).trans ((A_eq5 (rd (T23 m)) c 2).trans (offOut5 m c _ (by decide)).symm)
  | ⟨3, _⟩ => ((dat5 (rd (T23 m)) c).arrAt_in 3 rfl _).trans ((A_eq5 (rd (T23 m)) c 3).trans (offOut5 m c _ (by decide)).symm)
  | ⟨4, _⟩ => (atOut5 m c).symm

theorem hrest5 (c : Dev nD) : ∀ b, b ∉ Finset.univ.image (Pipeline.arrRef spec5) → rd (T24 m) c b = rd (T23 m) c b :=
  fun b hb => offOut5 m c b fun e => hb (Finset.mem_image.mpr ⟨4, Finset.mem_univ _, (rfl : Pipeline.arrRef spec5 4 = main_v145).trans e.symm⟩)

set_option backward.isDefEq.respectTransparency.types false in
def reg5 : Pipeline.RegionSeg (pcfgs (F := F)) adm (pdats m) () defs₀ Variants.none Lf lvf 5 :=
  mkReg m 5 launch5 (T23 m) (T24 m) (fun c => (body_obligation5 (rd (T23 m)) c).loose) (fun _ _ => rfl) (fun _ _ => rfl)
    (fun c => (pdats m 5 c).share_full fun _ => rfl) (fun _ _ => rfl) (fun _ _ => rfl) (hF5 m) (hrest5 m)

theorem reg5_pre (c : Dev nD) :
    (reg5 m).pre c = iprop(StableHlo.held (c : Thread nD τ) (Pipeline.ucRefs τ sig) (T23 m c) ∗ Rst c) := rfl
theorem reg5_post (c : Dev nD) :
    (reg5 m).post c = iprop(StableHlo.held (c : Thread nD τ) (Pipeline.ucRefs τ sig) (T24 m c) ∗ Rst c) := rfl

theorem atOut6 (c : Dev nD) : T26 m c (Proc.devRef .tc main_v147) = o6 m c := by
  unfold T26; exact Function.update_self _ _ _

theorem offOut6 (c : Dev nD) (b : Ref sig .tc) (hb : b ≠ main_v147) :
    T26 m c (Proc.devRef .tc b) = T25 m c (Proc.devRef .tc b) := by
  unfold T26; exact Function.update_of_ne (StableHlo.devRef_ne_of_ne hb) _ _

theorem hF6 (c : Dev nD) (w : Fin cfg6.W) : (dat6 (rd (T25 m)) c).arrAt w cfg6.N = rd (T26 m) c (Pipeline.arrRef spec6 w) :=
  match w with
  | ⟨0, _⟩ => ((dat6 (rd (T25 m)) c).arrAt_in 0 rfl _).trans ((A_eq6 (rd (T25 m)) c 0).trans (offOut6 m c _ (by decide)).symm)
  | ⟨1, _⟩ => ((dat6 (rd (T25 m)) c).arrAt_in 1 rfl _).trans ((A_eq6 (rd (T25 m)) c 1).trans (offOut6 m c _ (by decide)).symm)
  | ⟨2, _⟩ => ((dat6 (rd (T25 m)) c).arrAt_in 2 rfl _).trans ((A_eq6 (rd (T25 m)) c 2).trans (offOut6 m c _ (by decide)).symm)
  | ⟨3, _⟩ => (atOut6 m c).symm

theorem hrest6 (c : Dev nD) : ∀ b, b ∉ Finset.univ.image (Pipeline.arrRef spec6) → rd (T26 m) c b = rd (T25 m) c b :=
  fun b hb => offOut6 m c b fun e => hb (Finset.mem_image.mpr ⟨3, Finset.mem_univ _, (rfl : Pipeline.arrRef spec6 3 = main_v147).trans e.symm⟩)

set_option backward.isDefEq.respectTransparency.types false in
def reg6 : Pipeline.RegionSeg (pcfgs (F := F)) adm (pdats m) () defs₀ Variants.none Lf lvf 6 :=
  mkReg m 6 launch6 (T25 m) (T26 m) (fun c => (body_obligation6 (rd (T25 m)) c).loose) (fun _ _ => rfl) (fun _ _ => rfl)
    (fun c => (pdats m 6 c).share_full fun _ => rfl) (fun _ _ => rfl) (fun _ _ => rfl) (hF6 m) (hrest6 m)

theorem reg6_pre (c : Dev nD) :
    (reg6 m).pre c = iprop(StableHlo.held (c : Thread nD τ) (Pipeline.ucRefs τ sig) (T25 m c) ∗ Rst c) := rfl
theorem reg6_post (c : Dev nD) :
    (reg6 m).post c = iprop(StableHlo.held (c : Thread nD τ) (Pipeline.ucRefs τ sig) (T26 m c) ∗ Rst c) := rfl

theorem atOut7 (c : Dev nD) : T28 m c (Proc.devRef .tc main_v168) = o7 m c := by
  unfold T28; exact Function.update_self _ _ _

theorem offOut7 (c : Dev nD) (b : Ref sig .tc) (hb : b ≠ main_v168) :
    T28 m c (Proc.devRef .tc b) = T27 m c (Proc.devRef .tc b) := by
  unfold T28; exact Function.update_of_ne (StableHlo.devRef_ne_of_ne hb) _ _

theorem hF7 (c : Dev nD) (w : Fin cfg7.W) : (dat7 (rd (T27 m)) c).arrAt w cfg7.N = rd (T28 m) c (Pipeline.arrRef spec7 w) :=
  match w with
  | ⟨0, _⟩ => ((dat7 (rd (T27 m)) c).arrAt_in 0 rfl _).trans ((A_eq7 (rd (T27 m)) c 0).trans (offOut7 m c _ (by decide)).symm)
  | ⟨1, _⟩ => ((dat7 (rd (T27 m)) c).arrAt_in 1 rfl _).trans ((A_eq7 (rd (T27 m)) c 1).trans (offOut7 m c _ (by decide)).symm)
  | ⟨2, _⟩ => ((dat7 (rd (T27 m)) c).arrAt_in 2 rfl _).trans ((A_eq7 (rd (T27 m)) c 2).trans (offOut7 m c _ (by decide)).symm)
  | ⟨3, _⟩ => (atOut7 m c).symm

theorem hrest7 (c : Dev nD) : ∀ b, b ∉ Finset.univ.image (Pipeline.arrRef spec7) → rd (T28 m) c b = rd (T27 m) c b :=
  fun b hb => offOut7 m c b fun e => hb (Finset.mem_image.mpr ⟨3, Finset.mem_univ _, (rfl : Pipeline.arrRef spec7 3 = main_v168).trans e.symm⟩)

set_option backward.isDefEq.respectTransparency.types false in
def reg7 : Pipeline.RegionSeg (pcfgs (F := F)) adm (pdats m) () defs₀ Variants.none Lf lvf 7 :=
  mkReg m 7 launch7 (T27 m) (T28 m) (fun c => (body_obligation7 (rd (T27 m)) c).loose) (fun _ _ => rfl) (fun _ _ => rfl)
    (fun c => (pdats m 7 c).share_full fun _ => rfl) (fun _ _ => rfl) (fun _ _ => rfl) (hF7 m) (hrest7 m)

theorem reg7_pre (c : Dev nD) :
    (reg7 m).pre c = iprop(StableHlo.held (c : Thread nD τ) (Pipeline.ucRefs τ sig) (T27 m c) ∗ Rst c) := rfl
theorem reg7_post (c : Dev nD) :
    (reg7 m).post c = iprop(StableHlo.held (c : Thread nD τ) (Pipeline.ucRefs τ sig) (T28 m c) ∗ Rst c) := rfl

theorem atOut8 (c : Dev nD) : T30 m c (Proc.devRef .tc main_v191) = o8 m c := by
  unfold T30; exact Function.update_self _ _ _

theorem offOut8 (c : Dev nD) (b : Ref sig .tc) (hb : b ≠ main_v191) :
    T30 m c (Proc.devRef .tc b) = T29 m c (Proc.devRef .tc b) := by
  unfold T30; exact Function.update_of_ne (StableHlo.devRef_ne_of_ne hb) _ _

theorem hF8 (c : Dev nD) (w : Fin cfg8.W) : (dat8 (rd (T29 m)) c).arrAt w cfg8.N = rd (T30 m) c (Pipeline.arrRef spec8 w) :=
  match w with
  | ⟨0, _⟩ => ((dat8 (rd (T29 m)) c).arrAt_in 0 rfl _).trans ((A_eq8 (rd (T29 m)) c 0).trans (offOut8 m c _ (by decide)).symm)
  | ⟨1, _⟩ => ((dat8 (rd (T29 m)) c).arrAt_in 1 rfl _).trans ((A_eq8 (rd (T29 m)) c 1).trans (offOut8 m c _ (by decide)).symm)
  | ⟨2, _⟩ => ((dat8 (rd (T29 m)) c).arrAt_in 2 rfl _).trans ((A_eq8 (rd (T29 m)) c 2).trans (offOut8 m c _ (by decide)).symm)
  | ⟨3, _⟩ => ((dat8 (rd (T29 m)) c).arrAt_in 3 rfl _).trans ((A_eq8 (rd (T29 m)) c 3).trans (offOut8 m c _ (by decide)).symm)
  | ⟨4, _⟩ => ((dat8 (rd (T29 m)) c).arrAt_in 4 rfl _).trans ((A_eq8 (rd (T29 m)) c 4).trans (offOut8 m c _ (by decide)).symm)
  | ⟨5, _⟩ => (atOut8 m c).symm

theorem hrest8 (c : Dev nD) : ∀ b, b ∉ Finset.univ.image (Pipeline.arrRef spec8) → rd (T30 m) c b = rd (T29 m) c b :=
  fun b hb => offOut8 m c b fun e => hb (Finset.mem_image.mpr ⟨5, Finset.mem_univ _, (rfl : Pipeline.arrRef spec8 5 = main_v191).trans e.symm⟩)

set_option backward.isDefEq.respectTransparency.types false in
def reg8 : Pipeline.RegionSeg (pcfgs (F := F)) adm (pdats m) () defs₀ Variants.none Lf lvf 8 :=
  mkReg m 8 launch8 (T29 m) (T30 m) (fun c => (body_obligation8 (rd (T29 m)) c).loose) (fun _ _ => rfl) (fun _ _ => rfl)
    (fun c => (pdats m 8 c).share_full fun _ => rfl) (fun _ _ => rfl) (fun _ _ => rfl) (hF8 m) (hrest8 m)

theorem reg8_pre (c : Dev nD) :
    (reg8 m).pre c = iprop(StableHlo.held (c : Thread nD τ) (Pipeline.ucRefs τ sig) (T29 m c) ∗ Rst c) := rfl
theorem reg8_post (c : Dev nD) :
    (reg8 m).post c = iprop(StableHlo.held (c : Thread nD τ) (Pipeline.ucRefs τ sig) (T30 m c) ∗ Rst c) := rfl

theorem atOut9 (c : Dev nD) : T32 m c (Proc.devRef .tc main_v195) = o9 m c := by
  unfold T32; exact Function.update_self _ _ _

theorem offOut9 (c : Dev nD) (b : Ref sig .tc) (hb : b ≠ main_v195) :
    T32 m c (Proc.devRef .tc b) = T31 m c (Proc.devRef .tc b) := by
  unfold T32; exact Function.update_of_ne (StableHlo.devRef_ne_of_ne hb) _ _

theorem hF9 (c : Dev nD) (w : Fin cfg9.W) : (dat9 (rd (T31 m)) c).arrAt w cfg9.N = rd (T32 m) c (Pipeline.arrRef spec9 w) :=
  match w with
  | ⟨0, _⟩ => ((dat9 (rd (T31 m)) c).arrAt_in 0 rfl _).trans ((A_eq9 (rd (T31 m)) c 0).trans (offOut9 m c _ (by decide)).symm)
  | ⟨1, _⟩ => ((dat9 (rd (T31 m)) c).arrAt_in 1 rfl _).trans ((A_eq9 (rd (T31 m)) c 1).trans (offOut9 m c _ (by decide)).symm)
  | ⟨2, _⟩ => ((dat9 (rd (T31 m)) c).arrAt_in 2 rfl _).trans ((A_eq9 (rd (T31 m)) c 2).trans (offOut9 m c _ (by decide)).symm)
  | ⟨3, _⟩ => ((dat9 (rd (T31 m)) c).arrAt_in 3 rfl _).trans ((A_eq9 (rd (T31 m)) c 3).trans (offOut9 m c _ (by decide)).symm)
  | ⟨4, _⟩ => ((dat9 (rd (T31 m)) c).arrAt_in 4 rfl _).trans ((A_eq9 (rd (T31 m)) c 4).trans (offOut9 m c _ (by decide)).symm)
  | ⟨5, _⟩ => (atOut9 m c).symm

theorem hrest9 (c : Dev nD) : ∀ b, b ∉ Finset.univ.image (Pipeline.arrRef spec9) → rd (T32 m) c b = rd (T31 m) c b :=
  fun b hb => offOut9 m c b fun e => hb (Finset.mem_image.mpr ⟨5, Finset.mem_univ _, (rfl : Pipeline.arrRef spec9 5 = main_v195).trans e.symm⟩)

set_option backward.isDefEq.respectTransparency.types false in
def reg9 : Pipeline.RegionSeg (pcfgs (F := F)) adm (pdats m) () defs₀ Variants.none Lf lvf 9 :=
  mkReg m 9 launch9 (T31 m) (T32 m) (fun c => (body_obligation9 (rd (T31 m)) c).loose) (fun _ _ => rfl) (fun _ _ => rfl)
    (fun c => (pdats m 9 c).share_full fun _ => rfl) (fun _ _ => rfl) (fun _ _ => rfl) (hF9 m) (hrest9 m)

theorem reg9_pre (c : Dev nD) :
    (reg9 m).pre c = iprop(StableHlo.held (c : Thread nD τ) (Pipeline.ucRefs τ sig) (T31 m c) ∗ Rst c) := rfl
theorem reg9_post (c : Dev nD) :
    (reg9 m).post c = iprop(StableHlo.held (c : Thread nD τ) (Pipeline.ucRefs τ sig) (T32 m c) ∗ Rst c) := rfl

end Cert.KernelIdeal.Hand

end
-- ==== Proof.KI.Reg10.lean ====
/-
  An output head's region, the frame half: each input window's current staging buffer holds that window's block
  at every grid point; the body's one store covers the output block; the body, run on whole staging memrefs, leaves
  the five inputs as they were and the output at `out10_5` of them; hence the pipeline's body obligation for the
  proof data `dat10`, at any contents `V` the region is entered with.
-/
import proofs.«162078_j40114994545134_1_alg».proof.Proof.KI.Def10
import proofs.«162078_j40114994545134_1_alg».proof.Proof.Gen.KernelIdeal.Launch
import proofs.«162078_j40114994545134_1_alg».proof.Proof.Gen.KernelIdeal.Skeleton
import proofs.«162078_j40114994545134_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' current buffers -/

/-- Input window 0's current staging buffer holds its block at every point, for any proof data whose array is the
    entry contents and whose body leaves the block in place: the window is an input, never idle and uncut, so the
    buffer is what was last fetched, and an unfetched point's block index has not moved. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
/-- The same for input window 1. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
/-- The same for input window 2 (fetched at the first point only: its block is the same at every point). -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)
/-- The same for input window 3 (fetched at the first point only). -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)
/-- The same for input window 4 (fetched at the first point only). -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-! ## The output window's one store covers its buffer -/

/-- The one stored rectangle is the whole output block, so every index of the block lies in it. -/
theorem cover10_5 (p0 : Vec F S6250x5 .f32) (y : S6250x5.Idx) :
    ∃ pc ∈ ([⟨r10_o, p0⟩] : List (View.Piece (Elt F) S6250x5 .f32)), y ∈ pc.1.set :=
  View.cover_of_tiled [⟨r10_o, p0⟩] S6250x5.size (by rfl) y

/-! ## The body's triple -/

set_option maxHeartbeats 1000000 in
/-- The body on whole staging memrefs, the five inputs' at read contents `x0 … x4` and the output's at anything, runs
    to the continuation holding the inputs' as they were and the output's at `out10_5` of the inputs: five whole-block
    loads, a load of the output block whose value is unused, and one whole-block store of the payload. -/
theorem sound_kernel10 (c : Dev nD) (E : Set ℕ) (i : grid10.Coords)
    (arg1 : Memref sig .tc .vmem S6250x128 .f32) (harg1 : arg1.IsWhole) (arg2 : Memref sig .tc .vmem S6250x128 .f32) (harg2 : arg2.IsWhole)
    (arg3 : Memref sig .tc .vmem S128x5 .f32) (harg3 : arg3.IsWhole) (arg4 : Memref sig .tc .vmem S128x5 .f32) (harg4 : arg4.IsWhole)
    (arg5 : Memref sig .tc .vmem S1x5 .f32) (harg5 : arg5.IsWhole) (arg6 : Memref sig .tc .vmem S6250x5 .f32) (harg6 : arg6.IsWhole)
    (x0 : Vec F S6250x128 .f32) (x1 : Vec F S6250x128 .f32) (x2 : Vec F S128x5 .f32) (x3 : Vec F S128x5 .f32) (x4 : Vec F S1x5 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out10_5 x0 x1 x2 x3 x4)) -∗ K ⟨⟩))
      ⊢ wp frame (wpE (defs₀ (F := F)) Variants.none c none) E
          (cc10__head_kernel i arg1 harg1 arg2 harg2 arg3 harg3 arg4 harg4 arg5 harg5 arg6 harg6) K := by
  simp only [cc10__head_kernel_eq_skeleton]; unfold cc10__head_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover10_5 _)

/-! ## The inputs' buffers under the region's proof data -/

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d

/-! ## The body obligation, at a generic point -/

/-- What the body is called with at point `t`: the invariant, what the core owes, and each window's current staging
    buffer at what it then holds, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t))

/-- The body at any point: the inputs' memrefs hold their blocks (`before10_w`), so `sound_kernel10` applies; the
    invariant and what the core owes pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4]
  rw [show (dat10 V c).Φ t.succ = (dat10 V c).Φ t.castSucc from rfl,
    show (dat10 V c).owesAt () t.succ = (dat10 V c).owesAt () t.castSucc from rfl,
    after10_0, after10_1, after10_2, after10_3, after10_4, after10_5]
  iintro ⟨HΦ, Ho, ⟨%d0, H0⟩, ⟨%d1, H1⟩, ⟨%d2, H2⟩, ⟨%d3, H3⟩, ⟨%d4, H4⟩, ⟨%d5, H5⟩⟩
  iapply (sound_kernel10 c Set.univ (grid10.coords t) _ _ _ _ _ _ _ _ _ _ _ _
    (iblk10 V c 0 t) (iblk10 V c 1 t) (iblk10 V c 2 t) (iblk10 V c 3 t) (iblk10 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.KernelIdeal.Hand

end
-- ==== Proof.KI.Seg10.lean ====
import proofs.«162078_j40114994545134_1_alg».proof.Proof.KI.Data
import proofs.«162078_j40114994545134_1_alg».proof.Proof.KI.Reg10

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.GenP

section Deal

variable (V : (c : Dev nD) → (b : Ref sig .tc) → Buf (Elt F) ((c : Thread nD τ).loc b))

theorem image_arrRef10 : Finset.univ.image (Pipeline.arrRef spec10) = {main_v145, main_v196, main_v197, main_v198, main_v199} := by
  decide

theorem arrBufs10_eq (c : Dev nD) (X : (b : Ref sig .tc) → Buf (Elt F) ((c : Thread nD τ).loc b)) :
    (Pipeline.arrBufs spec10 c X : sProp 𝕄)
      = iprop((((c : Thread nD τ).loc main_v145) ↦{fullShare} X main_v145) ∗ (((c : Thread nD τ).loc main_v196) ↦{fullShare} X main_v196)
        ∗ (((c : Thread nD τ).loc main_v197) ↦{fullShare} X main_v197) ∗ (((c : Thread nD τ).loc main_v198) ↦{fullShare} X main_v198)
        ∗ (((c : Thread nD τ).loc main_v199) ↦{fullShare} X main_v199)) := by
  unfold Pipeline.arrBufs
  rw [image_arrRef10, BI.bigSep_insert (by decide), BI.bigSep_insert (by decide), BI.bigSep_insert (by decide),
    BI.bigSep_insert (by decide), BI.bigSep_singleton]
  rfl

theorem arr10_0 (c : Dev nD) (G : Buf (Elt F) ((cfg10.win 0).arr.view.loc (c : Thread nD τ))) :
    ((cfg10.win 0).arr.view.loc (c : Thread nD τ) ↦[(cfg10.win 0).arr.view.set]{(dat10 V c).share 0} G : sProp 𝕄)
      = (((c : Thread nD τ).loc main_v145) ↦{fullShare.left} G) := by
  rw [share10_0, (arr_whole10 0).set_eq_univ]
theorem arr10_1 (c : Dev nD) (G : Buf (Elt F) ((cfg10.win 1).arr.view.loc (c : Thread nD τ))) :
    ((cfg10.win 1).arr.view.loc (c : Thread nD τ) ↦[(cfg10.win 1).arr.view.set]{(dat10 V c).share 1} G : sProp 𝕄)
      = (((c : Thread nD τ).loc main_v145) ↦{fullShare.right} G) := by
  rw [share10_1, (arr_whole10 1).set_eq_univ]
theorem arr10_2 (c : Dev nD) (G : Buf (Elt F) ((cfg10.win 2).arr.view.loc (c : Thread nD τ))) :
    ((cfg10.win 2).arr.view.loc (c : Thread nD τ) ↦[(cfg10.win 2).arr.view.set]{(dat10 V c).share 2} G : sProp 𝕄)
      = (((c : Thread nD τ).loc main_v196) ↦{fullShare} G) := by
  rw [share10_2, (arr_whole10 2).set_eq_univ]
theorem arr10_3 (c : Dev nD) (G : Buf (Elt F) ((cfg10.win 3).arr.view.loc (c : Thread nD τ))) :
    ((cfg10.win 3).arr.view.loc (c : Thread nD τ) ↦[(cfg10.win 3).arr.view.set]{(dat10 V c).share 3} G : sProp 𝕄)
      = (((c : Thread nD τ).loc main_v197) ↦{fullShare} G) := by
  rw [share10_3, (arr_whole10 3).set_eq_univ]
theorem arr10_4 (c : Dev nD) (G : Buf (Elt F) ((cfg10.win 4).arr.view.loc (c : Thread nD τ))) :
    ((cfg10.win 4).arr.view.loc (c : Thread nD τ) ↦[(cfg10.win 4).arr.view.set]{(dat10 V c).share 4} G : sProp 𝕄)
      = (((c : Thread nD τ).loc main_v198) ↦{fullShare} G) := by
  rw [share10_4, (arr_whole10 4).set_eq_univ]
theorem arr10_5 (c : Dev nD) (G : Buf (Elt F) ((cfg10.win 5).arr.view.loc (c : Thread nD τ))) :
    ((cfg10.win 5).arr.view.loc (c : Thread nD τ) ↦[(cfg10.win 5).arr.view.set]{(dat10 V c).share 5} G : sProp 𝕄)
      = (((c : Thread nD τ).loc main_v199) ↦{fullShare} G) := by
  rw [share10_5, (arr_whole10 5).set_eq_univ]

theorem arrays10_eq (c : Dev nD) (G : (w : Fin cfg10.W) → Buf (Elt F) ((cfg10.win w).arr.view.loc (c : Thread nD τ))) :
    (dat10 V c).arrays G
      = iprop((((c : Thread nD τ).loc main_v145) ↦{fullShare.left} G 0) ∗ (((c : Thread nD τ).loc main_v145) ↦{fullShare.right} G 1)
        ∗ (((c : Thread nD τ).loc main_v196) ↦{fullShare} G 2) ∗ (((c : Thread nD τ).loc main_v197) ↦{fullShare} G 3)
        ∗ (((c : Thread nD τ).loc main_v198) ↦{fullShare} G 4) ∗ (((c : Thread nD τ).loc main_v199) ↦{fullShare} G 5)) := by
  unfold Dat.arrays
  rw [bigSep_W10]
  exact congrArg₂ BI.sep (arr10_0 V c _) (congrArg₂ BI.sep (arr10_1 V c _) (congrArg₂ BI.sep (arr10_2 V c _)
    (congrArg₂ BI.sep (arr10_3 V c _) (congrArg₂ BI.sep (arr10_4 V c _) (arr10_5 V c _)))))

theorem unscopedBufs_split10 (c : Dev nD) (X : (b : Ref sig .tc) → Buf (Elt F) ((c : Thread nD τ).loc b)) :
    (unscopedBufs c X : sProp 𝕄) = iprop(Pipeline.arrBufs spec10 c X ∗ Pipeline.unscopedRest spec10 c X) :=
  Pipeline.unscopedBufs_split₀ (fun _ : Unit => cfg10) () winFacts₀10.arr_unscoped c X

theorem arrays_of_arrBufs10 (c : Dev nD) (X : (b : Ref sig .tc) → Buf (Elt F) ((c : Thread nD τ).loc b))
    (G : (w : Fin cfg10.W) → Buf (Elt F) ((cfg10.win w).arr.view.loc (c : Thread nD τ))) (hG : ∀ w, G w = X (Pipeline.arrRef spec10 w)) :
    (Pipeline.arrBufs spec10 c X : sProp 𝕄) ⊢ (dat10 V c).arrays G := by
  rw [arrBufs10_eq, arrays10_eq, hG 0, hG 1, hG 2, hG 3, hG 4, hG 5]
  have hhalves := (pointsTo_share (ℓ := (c : Thread nD τ).loc main_v145) (I := Finset.univ) (f := X main_v145)
    (Ix := Unit) (Name := ℕ) (U := UR sig nD τ) (Lvl := ℕ) (PosShare.mem_left_op_right fullShare)).1
  iintro ⟨H0, H2, H3, H4, H5⟩
  ihave H := hhalves $$ H0
  icases H with ⟨Hl, Hr⟩
  isplitl [Hl]; · iexact Hl
  isplitl [Hr]; · iexact Hr
  isplitl [H2]; · iexact H2
  isplitl [H3]; · iexact H3
  isplitl [H4]; · iexact H4
  iexact H5

theorem arrBufs_of_arrays10 (c : Dev nD) (X : (b : Ref sig .tc) → Buf (Elt F) ((c : Thread nD τ).loc b))
    (G : (w : Fin cfg10.W) → Buf (Elt F) ((cfg10.win w).arr.view.loc (c : Thread nD τ))) (hG : ∀ w, G w = X (Pipeline.arrRef spec10 w)) :
    (dat10 V c).arrays G ⊢ (Pipeline.arrBufs spec10 c X : sProp 𝕄) := by
  rw [arrBufs10_eq, arrays10_eq, hG 0, hG 1, hG 2, hG 3, hG 4, hG 5]
  have hwhole := (pointsTo_share (ℓ := (c : Thread nD τ).loc main_v145) (I := Finset.univ) (f := X main_v145)
    (Ix := Unit) (Name := ℕ) (U := UR sig nD τ) (Lvl := ℕ) (PosShare.mem_left_op_right fullShare)).2
  iintro ⟨Hl, Hr, H2, H3, H4, H5⟩
  isplitl [Hl Hr]
  · iapply hwhole
    isplitl [Hl]; · iexact Hl
    iexact Hr
  isplitl [H2]; · iexact H2
  isplitl [H3]; · iexact H3
  isplitl [H4]; · iexact H4
  iexact H5

theorem arrays_of_unscopedBufs10 (c : Dev nD) (X : (b : Ref sig .tc) → Buf (Elt F) ((c : Thread nD τ).loc b))
    (G : (w : Fin cfg10.W) → Buf (Elt F) ((cfg10.win w).arr.view.loc (c : Thread nD τ))) (hG : ∀ w, G w = X (Pipeline.arrRef spec10 w)) :
    (unscopedBufs c X : sProp 𝕄) ⊢ iprop((dat10 V c).arrays G ∗ Pipeline.unscopedRest spec10 c X) := by
  rw [unscopedBufs_split10]
  exact sep_mono (arrays_of_arrBufs10 V c X G hG) .rfl

theorem unscopedBufs_of_arrays10 (c : Dev nD) (X X' : (b : Ref sig .tc) → Buf (Elt F) ((c : Thread nD τ).loc b))
    (G : (w : Fin cfg10.W) → Buf (Elt F) ((cfg10.win w).arr.view.loc (c : Thread nD τ))) (hG : ∀ w, G w = X' (Pipeline.arrRef spec10 w))
    (hrest : ∀ b, b ∉ Finset.univ.image (Pipeline.arrRef spec10) → X' b = X b) :
    iprop((dat10 V c).arrays G ∗ Pipeline.unscopedRest spec10 c X) ⊢ (unscopedBufs c X' : sProp 𝕄) := by
  rw [unscopedBufs_split10 c X']
  refine sep_mono (arrBufs_of_arrays10 V c X' G hG) (Entails.of_eq ?_)
  unfold Pipeline.unscopedRest
  exact bigSep_congr fun b hb => by rw [hrest b (Finset.mem_sdiff.mp hb).2]

end Deal

variable (m : (ℓ : Loc nD τ sig) → Buf (Elt F) ℓ)

theorem atOut10 (c : Dev nD) : T34 m c (Proc.devRef .tc main_v199) = o10 m c := by
  unfold T34; exact Function.update_self _ _ _

theorem offOut10 (c : Dev nD) (b : Ref sig .tc) (hb : b ≠ main_v199) :
    T34 m c (Proc.devRef .tc b) = T33 m c (Proc.devRef .tc b) := by
  unfold T34; exact Function.update_of_ne (StableHlo.devRef_ne_of_ne hb) _ _

set_option maxHeartbeats 1000000 in

theorem hF10 (c : Dev nD) (w : Fin cfg10.W) : (dat10 (rd (T33 m)) c).arrAt w cfg10.N = rd (T34 m) c (Pipeline.arrRef spec10 w) :=
  match w with
  | ⟨0, _⟩ => ((dat10 (rd (T33 m)) c).arrAt_in 0 rfl _).trans ((A_eq10 (rd (T33 m)) c 0).trans (offOut10 m c _ (by decide)).symm)
  | ⟨1, _⟩ => ((dat10 (rd (T33 m)) c).arrAt_in 1 rfl _).trans ((A_eq10 (rd (T33 m)) c 1).trans (offOut10 m c _ (by decide)).symm)
  | ⟨2, _⟩ => ((dat10 (rd (T33 m)) c).arrAt_in 2 rfl _).trans ((A_eq10 (rd (T33 m)) c 2).trans (offOut10 m c _ (by decide)).symm)
  | ⟨3, _⟩ => ((dat10 (rd (T33 m)) c).arrAt_in 3 rfl _).trans ((A_eq10 (rd (T33 m)) c 3).trans (offOut10 m c _ (by decide)).symm)
  | ⟨4, _⟩ => ((dat10 (rd (T33 m)) c).arrAt_in 4 rfl _).trans ((A_eq10 (rd (T33 m)) c 4).trans (offOut10 m c _ (by decide)).symm)
  | ⟨5, _⟩ => (atOut10 m c).symm

theorem hrest10 (c : Dev nD) : ∀ b, b ∉ Finset.univ.image (Pipeline.arrRef spec10) → rd (T34 m) c b = rd (T33 m) c b :=
  fun b hb => offOut10 m c b fun e => hb (Finset.mem_image.mpr ⟨5, Finset.mem_univ _, (rfl : Pipeline.arrRef spec10 5 = main_v199).trans e.symm⟩)

set_option backward.isDefEq.respectTransparency.types false in

def reg10 : Pipeline.RegionSeg (pcfgs (F := F)) adm (pdats m) () defs₀ Variants.none Lf lvf 10 where
  win := winFacts₀10
  block_pos := block_pos10
  stage_whole := stage_whole10
  K := PEmpty
  osem k := k.elim
  ho := Pipeline.OwnSemFacts.none _
  hbody c := (body_obligation10 (rd (T33 m)) c).loose
  hwaits := Pipeline.hwaits_of_owed_zero _ _ _ _ Lf lvf 10 fun _ _ => rfl
  pre c := iprop(StableHlo.held (c : Thread nD τ) (Pipeline.ucRefs τ sig) (T33 m c) ∗ Rst c)
  post c := iprop(StableHlo.held (c : Thread nD τ) (Pipeline.ucRefs τ sig) (T34 m c) ∗ Rst c)
  X c := iprop(∃ r, prngReg c r)
  Y c := iprop(∃ r, prngReg c r)
  Z c := Pipeline.unscopedRest (Ix := Unit) (Name := ℕ) (U := UR sig nD τ) (Lvl := ℕ) spec10 c (rd (T33 m) c)
  hentry c := by
    rw [Pipeline.ownSems0_none]
    have hsplit := arrays_of_unscopedBufs10 (rd (T33 m)) c (rd (T33 m) c) ((pdats m 10 c).arrAt · 0) fun w => A_eq10 (rd (T33 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := unscopedBufs_of_arrays10 (rd (T33 m)) c (rd (T33 m) c) (rd (T34 m) c) ((pdats m 10 c).arrAt · cfg10.N)
      (hF10 m c) (hrest10 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

theorem reg10_pre (c : Dev nD) :
    (reg10 m).pre c = iprop(StableHlo.held (c : Thread nD τ) (Pipeline.ucRefs τ sig) (T33 m c) ∗ Rst c) := rfl
theorem reg10_post (c : Dev nD) :
    (reg10 m).post c = iprop(StableHlo.held (c : Thread nD τ) (Pipeline.ucRefs τ sig) (T34 m c) ∗ Rst c) := rfl

end Cert.KernelIdeal.Hand

end
-- ==== Proof.KI.Run.lean ====
import proofs.«162078_j40114994545134_1_alg».proof.Proof.KI.Segs
import proofs.«162078_j40114994545134_1_alg».proof.Proof.KI.Seg10
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.GenP
open Idealize.ShloMosaic.Pipeline (Seg HostSeg RegionSeg)

variable (m : (ℓ : Loc nD τ sig) → Buf (Elt F) ℓ)

set_option backward.isDefEq.respectTransparency.types false in

theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 11) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 12 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE11 : ∀ c : Dev nD, E 11 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V11 m outs c) ∗ E 3 c) ⊢ R3.pre c)
    (hpost3 : ∀ c : Dev nD, R3.post c ⊢ iprop(StableHlo.held (c : Thread nD τ) (Pipeline.ucRefs τ sig) (V12 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V17 m outs c) ∗ E 4 c) ⊢ R4.pre c)
    (hpost4 : ∀ c : Dev nD, R4.post c ⊢ iprop(StableHlo.held (c : Thread nD τ) (Pipeline.ucRefs τ sig) (V18 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V23 m outs c) ∗ E 5 c) ⊢ R5.pre c)
    (hpost5 : ∀ c : Dev nD, R5.post c ⊢ iprop(StableHlo.held (c : Thread nD τ) (Pipeline.ucRefs τ sig) (V24 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V25 m outs c) ∗ E 6 c) ⊢ R6.pre c)
    (hpost6 : ∀ c : Dev nD, R6.post c ⊢ iprop(StableHlo.held (c : Thread nD τ) (Pipeline.ucRefs τ sig) (V26 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V27 m outs c) ∗ E 7 c) ⊢ R7.pre c)
    (hpost7 : ∀ c : Dev nD, R7.post c ⊢ iprop(StableHlo.held (c : Thread nD τ) (Pipeline.ucRefs τ sig) (V28 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V29 m outs c) ∗ E 8 c) ⊢ R8.pre c)
    (hpost8 : ∀ c : Dev nD, R8.post c ⊢ iprop(StableHlo.held (c : Thread nD τ) (Pipeline.ucRefs τ sig) (V30 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V31 m outs c) ∗ E 9 c) ⊢ R9.pre c)
    (hpost9 : ∀ c : Dev nD, R9.post c ⊢ iprop(StableHlo.held (c : Thread nD τ) (Pipeline.ucRefs τ sig) (V32 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V33 m outs c) ∗ E 10 c) ⊢ R10.pre c)
    (hpost10 : ∀ c : Dev nD, R10.post c ⊢ iprop(StableHlo.held (c : Thread nD τ) (Pipeline.ucRefs τ sig) (V34 m outs c) ∗ E 11 c)) :
    θ_run defs (onTc (τ := τ) (main (F := F))) ⟨m, fun _ => 0, ρ⟩ (fun r => ∀ c : Dev nD,
      r.2.mem ((c.tc : Thread nD τ).loc main_v200) = V35 m outs c main_v200
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10)
    (fun c Q => by
      rewrite [main_chain c, Seg.run_eq_chain,
        show (segs m outs 𝒱₀ L lv E ι pdats R0 R1 R2 R3 R4 R5 R6 R7 R8 R9 R10 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          StableHlo.seq hostOps3_1,
          StableHlo.seq hostOps3_2,
          StableHlo.seq hostOps3_3,
          StableHlo.seq hostOps3_4,
          Prog.lift (.customCall (Pipeline.entry 3) ()),
          StableHlo.seq hostOps4,
          StableHlo.seq hostOps4_1,
          StableHlo.seq hostOps4_2,
          StableHlo.seq hostOps4_3,
          StableHlo.seq hostOps4_4,
          Prog.lift (.customCall (Pipeline.entry 4) ()),
          StableHlo.seq hostOps5,
          StableHlo.seq hostOps5_1,
          StableHlo.seq hostOps5_2,
          StableHlo.seq hostOps5_3,
          StableHlo.seq hostOps5_4,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11 ] from rfl]
      with_reducible exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V35 m outs c))
    (hch := fun c => ⟨.rfl, hpre0 c, hpost0 c, hpre1 c, hpost1 c, hpre2 c, hpost2 c, .rfl, .rfl, .rfl, .rfl, hpre3 c, hpost3 c, .rfl, .rfl, .rfl, .rfl, hpre4 c, hpost4 c, .rfl, .rfl, .rfl, .rfl, hpre5 c, hpost5 c, hpre6 c, hpost6 c, hpre7 c, hpost7 c, hpre8 c, hpost8 c, hpre9 c, hpost9 c, hpre10 c, hpost10 c, sep_mono .rfl (hE11 c)⟩)
    (hinit := ?_) (QY := fun c s => s.mem ((c.tc : Thread nD τ).loc main_v200) = V35 m outs c main_v200 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17) ∧ s.mem ((c.tc : Thread nD τ).loc main_arg18) = m ((c.tc : Thread nD τ).loc main_arg18) ∧ s.mem ((c.tc : Thread nD τ).loc main_arg19) = m ((c.tc : Thread nD τ).loc main_arg19) ∧ s.mem ((c.tc : Thread nD τ).loc main_arg20) = m ((c.tc : Thread nD τ).loc main_arg20) ∧ s.mem ((c.tc : Thread nD τ).loc main_arg21) = m ((c.tc : Thread nD τ).loc main_arg21) ∧ s.mem ((c.tc : Thread nD τ).loc main_arg22) = m ((c.tc : Thread nD τ).loc main_arg22) ∧ s.mem ((c.tc : Thread nD τ).loc main_arg23) = m ((c.tc : Thread nD τ).loc main_arg23) ∧ s.mem ((c.tc : Thread nD τ).loc main_arg24) = m ((c.tc : Thread nD τ).loc main_arg24) ∧ s.mem ((c.tc : Thread nD τ).loc main_arg25) = m ((c.tc : Thread nD τ).loc main_arg25) ∧ s.mem ((c.tc : Thread nD τ).loc main_arg26) = m ((c.tc : Thread nD τ).loc main_arg26) ∧ s.mem ((c.tc : Thread nD τ).loc main_arg27) = m ((c.tc : Thread nD τ).loc main_arg27) ∧ s.mem ((c.tc : Thread nD τ).loc main_arg28) = m ((c.tc : Thread nD τ).loc main_arg28) ∧ s.mem ((c.tc : Thread nD τ).loc main_arg29) = m ((c.tc : Thread nD τ).loc main_arg29) ∧ s.mem ((c.tc : Thread nD τ).loc main_arg30) = m ((c.tc : Thread nD τ).loc main_arg30) ∧ s.mem ((c.tc : Thread nD τ).loc main_arg31) = m ((c.tc : Thread nD τ).loc main_arg31) ∧ s.mem ((c.tc : Thread nD τ).loc main_arg32) = m ((c.tc : Thread nD τ).loc main_arg32) ∧ s.mem ((c.tc : Thread nD τ).loc main_arg33) = m ((c.tc : Thread nD τ).loc main_arg33) ∧ s.mem ((c.tc : Thread nD τ).loc main_arg34) = m ((c.tc : Thread nD τ).loc main_arg34) ∧ s.mem ((c.tc : Thread nD τ).loc main_arg35) = m ((c.tc : Thread nD τ).loc main_arg35) ∧ s.mem ((c.tc : Thread nD τ).loc main_arg36) = m ((c.tc : Thread nD τ).loc main_arg36))
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (V35 m outs c) s') $$ [Hh HSI]
    · isplitl [Hh] <;> iassumption
    icases Hr with ⟨%h, HSI⟩
    imodintro
    isplitr
    · ipureintro
      exact ⟨h (Proc.devRef .tc main_v200) (Finset.mem_filter.mpr ⟨StableHlo.devRef_mem_tcRefs main_v200, by decide⟩),
        (h (Proc.devRef .tc main_arg0) (Finset.mem_filter.mpr ⟨StableHlo.devRef_mem_tcRefs main_arg0, by decide⟩)).trans (V35_keep m outs c main_arg0 (by decide)),
        (h (Proc.devRef .tc main_arg1) (Finset.mem_filter.mpr ⟨StableHlo.devRef_mem_tcRefs main_arg1, by decide⟩)).trans (V35_keep m outs c main_arg1 (by decide)),
        (h (Proc.devRef .tc main_arg2) (Finset.mem_filter.mpr ⟨StableHlo.devRef_mem_tcRefs main_arg2, by decide⟩)).trans (V35_keep m outs c main_arg2 (by decide)),
        (h (Proc.devRef .tc main_arg3) (Finset.mem_filter.mpr ⟨StableHlo.devRef_mem_tcRefs main_arg3, by decide⟩)).trans (V35_keep m outs c main_arg3 (by decide)),
        (h (Proc.devRef .tc main_arg4) (Finset.mem_filter.mpr ⟨StableHlo.devRef_mem_tcRefs main_arg4, by decide⟩)).trans (V35_keep m outs c main_arg4 (by decide)),
        (h (Proc.devRef .tc main_arg5) (Finset.mem_filter.mpr ⟨StableHlo.devRef_mem_tcRefs main_arg5, by decide⟩)).trans (V35_keep m outs c main_arg5 (by decide)),
        (h (Proc.devRef .tc main_arg6) (Finset.mem_filter.mpr ⟨StableHlo.devRef_mem_tcRefs main_arg6, by decide⟩)).trans (V35_keep m outs c main_arg6 (by decide)),
        (h (Proc.devRef .tc main_arg7) (Finset.mem_filter.mpr ⟨StableHlo.devRef_mem_tcRefs main_arg7, by decide⟩)).trans (V35_keep m outs c main_arg7 (by decide)),
        (h (Proc.devRef .tc main_arg8) (Finset.mem_filter.mpr ⟨StableHlo.devRef_mem_tcRefs main_arg8, by decide⟩)).trans (V35_keep m outs c main_arg8 (by decide)),
        (h (Proc.devRef .tc main_arg9) (Finset.mem_filter.mpr ⟨StableHlo.devRef_mem_tcRefs main_arg9, by decide⟩)).trans (V35_keep m outs c main_arg9 (by decide)),
        (h (Proc.devRef .tc main_arg10) (Finset.mem_filter.mpr ⟨StableHlo.devRef_mem_tcRefs main_arg10, by decide⟩)).trans (V35_keep m outs c main_arg10 (by decide)),
        (h (Proc.devRef .tc main_arg11) (Finset.mem_filter.mpr ⟨StableHlo.devRef_mem_tcRefs main_arg11, by decide⟩)).trans (V35_keep m outs c main_arg11 (by decide)),
        (h (Proc.devRef .tc main_arg12) (Finset.mem_filter.mpr ⟨StableHlo.devRef_mem_tcRefs main_arg12, by decide⟩)).trans (V35_keep m outs c main_arg12 (by decide)),
        (h (Proc.devRef .tc main_arg13) (Finset.mem_filter.mpr ⟨StableHlo.devRef_mem_tcRefs main_arg13, by decide⟩)).trans (V35_keep m outs c main_arg13 (by decide)),
        (h (Proc.devRef .tc main_arg14) (Finset.mem_filter.mpr ⟨StableHlo.devRef_mem_tcRefs main_arg14, by decide⟩)).trans (V35_keep m outs c main_arg14 (by decide)),
        (h (Proc.devRef .tc main_arg15) (Finset.mem_filter.mpr ⟨StableHlo.devRef_mem_tcRefs main_arg15, by decide⟩)).trans (V35_keep m outs c main_arg15 (by decide)),
        (h (Proc.devRef .tc main_arg16) (Finset.mem_filter.mpr ⟨StableHlo.devRef_mem_tcRefs main_arg16, by decide⟩)).trans (V35_keep m outs c main_arg16 (by decide)),
        (h (Proc.devRef .tc main_arg17) (Finset.mem_filter.mpr ⟨StableHlo.devRef_mem_tcRefs main_arg17, by decide⟩)).trans (V35_keep m outs c main_arg17 (by decide)),
        (h (Proc.devRef .tc main_arg18) (Finset.mem_filter.mpr ⟨StableHlo.devRef_mem_tcRefs main_arg18, by decide⟩)).trans (V35_keep m outs c main_arg18 (by decide)),
        (h (Proc.devRef .tc main_arg19) (Finset.mem_filter.mpr ⟨StableHlo.devRef_mem_tcRefs main_arg19, by decide⟩)).trans (V35_keep m outs c main_arg19 (by decide)),
        (h (Proc.devRef .tc main_arg20) (Finset.mem_filter.mpr ⟨StableHlo.devRef_mem_tcRefs main_arg20, by decide⟩)).trans (V35_keep m outs c main_arg20 (by decide)),
        (h (Proc.devRef .tc main_arg21) (Finset.mem_filter.mpr ⟨StableHlo.devRef_mem_tcRefs main_arg21, by decide⟩)).trans (V35_keep m outs c main_arg21 (by decide)),
        (h (Proc.devRef .tc main_arg22) (Finset.mem_filter.mpr ⟨StableHlo.devRef_mem_tcRefs main_arg22, by decide⟩)).trans (V35_keep m outs c main_arg22 (by decide)),
        (h (Proc.devRef .tc main_arg23) (Finset.mem_filter.mpr ⟨StableHlo.devRef_mem_tcRefs main_arg23, by decide⟩)).trans (V35_keep m outs c main_arg23 (by decide)),
        (h (Proc.devRef .tc main_arg24) (Finset.mem_filter.mpr ⟨StableHlo.devRef_mem_tcRefs main_arg24, by decide⟩)).trans (V35_keep m outs c main_arg24 (by decide)),
        (h (Proc.devRef .tc main_arg25) (Finset.mem_filter.mpr ⟨StableHlo.devRef_mem_tcRefs main_arg25, by decide⟩)).trans (V35_keep m outs c main_arg25 (by decide)),
        (h (Proc.devRef .tc main_arg26) (Finset.mem_filter.mpr ⟨StableHlo.devRef_mem_tcRefs main_arg26, by decide⟩)).trans (V35_keep m outs c main_arg26 (by decide)),
        (h (Proc.devRef .tc main_arg27) (Finset.mem_filter.mpr ⟨StableHlo.devRef_mem_tcRefs main_arg27, by decide⟩)).trans (V35_keep m outs c main_arg27 (by decide)),
        (h (Proc.devRef .tc main_arg28) (Finset.mem_filter.mpr ⟨StableHlo.devRef_mem_tcRefs main_arg28, by decide⟩)).trans (V35_keep m outs c main_arg28 (by decide)),
        (h (Proc.devRef .tc main_arg29) (Finset.mem_filter.mpr ⟨StableHlo.devRef_mem_tcRefs main_arg29, by decide⟩)).trans (V35_keep m outs c main_arg29 (by decide)),
        (h (Proc.devRef .tc main_arg30) (Finset.mem_filter.mpr ⟨StableHlo.devRef_mem_tcRefs main_arg30, by decide⟩)).trans (V35_keep m outs c main_arg30 (by decide)),
        (h (Proc.devRef .tc main_arg31) (Finset.mem_filter.mpr ⟨StableHlo.devRef_mem_tcRefs main_arg31, by decide⟩)).trans (V35_keep m outs c main_arg31 (by decide)),
        (h (Proc.devRef .tc main_arg32) (Finset.mem_filter.mpr ⟨StableHlo.devRef_mem_tcRefs main_arg32, by decide⟩)).trans (V35_keep m outs c main_arg32 (by decide)),
        (h (Proc.devRef .tc main_arg33) (Finset.mem_filter.mpr ⟨StableHlo.devRef_mem_tcRefs main_arg33, by decide⟩)).trans (V35_keep m outs c main_arg33 (by decide)),
        (h (Proc.devRef .tc main_arg34) (Finset.mem_filter.mpr ⟨StableHlo.devRef_mem_tcRefs main_arg34, by decide⟩)).trans (V35_keep m outs c main_arg34 (by decide)),
        (h (Proc.devRef .tc main_arg35) (Finset.mem_filter.mpr ⟨StableHlo.devRef_mem_tcRefs main_arg35, by decide⟩)).trans (V35_keep m outs c main_arg35 (by decide)),
        (h (Proc.devRef .tc main_arg36) (Finset.mem_filter.mpr ⟨StableHlo.devRef_mem_tcRefs main_arg36, by decide⟩)).trans (V35_keep m outs c main_arg36 (by decide))⟩
    · iexact HSI

set_option backward.isDefEq.respectTransparency.types false in

theorem run_main (ρ : Dev nD → PrngReg) :
    θ_run defs (onTc (τ := τ) (main (F := F))) ⟨m, fun _ => 0, ρ⟩ (fun r => ∀ c : Dev nD,
      r.2.mem ((c.tc : Thread nD τ).loc main_v200) = T35 m c main_v200
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)) := by
  have h := run_cond m (Ix := Unit) (U := UR sig nD τ) (Lvl := ℕ) emb₁ () Variants.none Lf lvf (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := by
      refine Pipeline.initEach Lf lvf fun c => ?_
      iintro ⟨⟨-, HO, -, Hp, -⟩, -⟩
      imodintro
      isplitl [Hp]; · iexists _; iexact Hp
      iexists ∅; iexact HO)
    (hE11 := fun c => by iintro ⟨-, H⟩; iexact H)
    (reg0 m) (fun c => by rw [V1_eq, reg0_pre]) (fun c => by rw [V2_eq, reg0_post])
    (reg1 m) (fun c => by rw [V3_eq, reg1_pre]) (fun c => by rw [V4_eq, reg1_post])
    (reg2 m) (fun c => by rw [V5_eq, reg2_pre]) (fun c => by rw [V6_eq, reg2_post])
    (reg3 m) (fun c => by rw [V11_eq, reg3_pre]) (fun c => by rw [V12_eq, reg3_post])
    (reg4 m) (fun c => by rw [V17_eq, reg4_pre]) (fun c => by rw [V18_eq, reg4_post])
    (reg5 m) (fun c => by rw [V23_eq, reg5_pre]) (fun c => by rw [V24_eq, reg5_post])
    (reg6 m) (fun c => by rw [V25_eq, reg6_pre]) (fun c => by rw [V26_eq, reg6_post])
    (reg7 m) (fun c => by rw [V27_eq, reg7_pre]) (fun c => by rw [V28_eq, reg7_post])
    (reg8 m) (fun c => by rw [V29_eq, reg8_pre]) (fun c => by rw [V30_eq, reg8_post])
    (reg9 m) (fun c => by rw [V31_eq, reg9_pre]) (fun c => by rw [V32_eq, reg9_post])
    (reg10 m) (fun c => by rw [V33_eq, reg10_pre]) (fun c => by rw [V34_eq, reg10_post])
  exact (θ_run defs _ _).mono (fun r hr c => by rw [← V35_eq]; exact hr c) h

end Cert.KernelIdeal.Hand

end
-- ==== Proof.LibAfter.lean ====
import Idealize.ShloMosaic.Lib.StableHlo.Run

noncomputable section

namespace Cert.LibAfter

open Idealize.ShloMosaic Idealize.ShloMosaic.StableHlo

variable {τ : Topo} {sig : RefSig} {Val : EltTy → Type}

theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

def WritesIn (ops : List (HloOp τ sig Val)) (W : List (Ref sig .tc)) : Prop :=
  ops.Forall fun op => op.writes ⊆ (W.map (Proc.devRef (τ := τ) .tc)).toFinset

theorem keep {ops : List (HloOp τ sig Val)} {W : List (Ref sig .tc)} (h : WritesIn ops W) (V : Valuation τ sig Val)
    {r : Ref sig .tc} (hr : r ∉ W) : after ops V (Proc.devRef .tc r) = V (Proc.devRef .tc r) :=
  after_of_writes_sub ops V h hr

theorem singleton_sub {W : List (Ref sig .tc)} {y : Ref sig .tc} (hy : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, hy, rfl⟩))

end Cert.LibAfter

end
-- ==== Proof.Ref.Chunks.lean ====
import proofs.«162078_j40114994545134_1_alg».proof.Proof.Gen.ReferenceIdeal
import Idealize.ShloMosaic.Lib.StableHlo.Run
import proofs.«162078_j40114994545134_1_alg».proof.Proof.LibAfter

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev rc0 : List (HloOp τ sig (Elt F)) :=
  [ binary main_arg0 main_arg15 main_v0 ((fun l r => Host.dotGeneral dot_S100000x32_S32x128_S100000x128_1_0_0_1_n_n none l r) : (⟨S100000x32, .f32⟩ : BufTy).Contents (Elt F) → (⟨S32x128, .f32⟩ : BufTy).Contents (Elt F) → (⟨S100000x128, .f32⟩ : BufTy).Contents (Elt F)),
    unary main_arg16 main_v1 (broadcastInDim S1x128 ![1] bcast_S128_S1x128_1 : (⟨S128, .f32⟩ : BufTy).Contents (Elt F) → (⟨S1x128, .f32⟩ : BufTy).Contents (Elt F)),
    unary main_v1 main_v2 (broadcastInDim S100000x128 ![0, 1] bcast_S1x128_S100000x128_0_1 : (⟨S1x128, .f32⟩ : BufTy).Contents (Elt F) → (⟨S100000x128, .f32⟩ : BufTy).Contents (Elt F)),
    binary main_v0 main_v2 main_v3 (addf : (⟨S100000x128, .f32⟩ : BufTy).Contents (Elt F) → (⟨S100000x128, .f32⟩ : BufTy).Contents (Elt F) → (⟨S100000x128, .f32⟩ : BufTy).Contents (Elt F)) ]

abbrev rc1 : List (HloOp τ sig (Elt F)) :=
  [ binary main_v3 main_arg23 main_v4 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg24 main_v5 (broadcastInDim S1x128 ![1] bcast_S128_S1x128_1 : (⟨S128, .f32⟩ : BufTy).Contents (Elt F) → (⟨S1x128, .f32⟩ : BufTy).Contents (Elt F)),
    unary main_v5 main_v6 (broadcastInDim S100000x128 ![0, 1] bcast_S1x128_S100000x128_0_1 : (⟨S1x128, .f32⟩ : BufTy).Contents (Elt F) → (⟨S100000x128, .f32⟩ : BufTy).Contents (Elt F)),
    binary main_v4 main_v6 main_v7 (addf : (⟨S100000x128, .f32⟩ : BufTy).Contents (Elt F) → (⟨S100000x128, .f32⟩ : BufTy).Contents (Elt F) → (⟨S100000x128, .f32⟩ : BufTy).Contents (Elt F)) ]

abbrev rc2 : List (HloOp τ sig (Elt F)) :=
  [ nullary main_c (constantI S_ 32 0#32),
    unary main_c main_v8 (broadcastInDim S100000 ![] bcast_S_S100000 : (⟨S_, .i32⟩ : BufTy).Contents (Elt F) → (⟨S100000, .i32⟩ : BufTy).Contents (Elt F)),
    binary main_arg7 main_v8 main_v9 (cmpi .slt : (⟨S100000, .i32⟩ : BufTy).Contents (Elt F) → (⟨S100000, .i32⟩ : BufTy).Contents (Elt F) → (⟨S100000, .i1⟩ : BufTy).Contents (Elt F)),
    nullary main_c_0 (constantI S_ 32 100000#32),
    unary main_c_0 main_v10 (broadcastInDim S100000 ![] bcast_S_S100000 : (⟨S_, .i32⟩ : BufTy).Contents (Elt F) → (⟨S100000, .i32⟩ : BufTy).Contents (Elt F)),
    binary main_arg7 main_v10 main_v11 (addi : (⟨S100000, .i32⟩ : BufTy).Contents (Elt F) → (⟨S100000, .i32⟩ : BufTy).Contents (Elt F) → (⟨S100000, .i32⟩ : BufTy).Contents (Elt F)),
    ternary main_v9 main_v11 main_arg7 main_v12 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v12 main_v13 (broadcastInDim S100000x1 ![0] bcast_S100000_S100000x1_0 : (⟨S100000, .i32⟩ : BufTy).Contents (Elt F) → (⟨S100000x1, .i32⟩ : BufTy).Contents (Elt F)),
    binary main_v7 main_v13 main_v14 ((fun x i => Host.gather gather_S100000x128_S100000x1_S100000x128_1_0_n_n_0_1_1128 x i) : (⟨S100000x128, .f32⟩ : BufTy).Contents (Elt F) → (⟨S100000x1, .i32⟩ : BufTy).Contents (Elt F) → (⟨S100000x128, .f32⟩ : BufTy).Contents (Elt F)),
    nullary main_cst (constant S_ .f32 0x00000000#32),
    unary main_cst main_v15 (broadcastInDim S25000x128 ![] bcast_S_S25000x128 : (⟨S_, .f32⟩ : BufTy).Contents (Elt F) → (⟨S25000x128, .f32⟩ : BufTy).Contents (Elt F)),
    unary main_arg8 main_v16 (broadcastInDim S100000x1 ![0] bcast_S100000_S100000x1_0 : (⟨S100000, .i32⟩ : BufTy).Contents (Elt F) → (⟨S100000x1, .i32⟩ : BufTy).Contents (Elt F)),
    ternary main_v15 main_v16 main_v14 main_v17 ((fun x i u => Host.scatterAdd scatter_S25000x128_S100000x1_S100000x128_1_0_0_1 x i u) : (⟨S25000x128, .f32⟩ : BufTy).Contents (Elt F) → (⟨S100000x1, .i32⟩ : BufTy).Contents (Elt F) → (⟨S100000x128, .f32⟩ : BufTy).Contents (Elt F) → (⟨S25000x128, .f32⟩ : BufTy).Contents (Elt F)),
    nullary main_cst_1 (constant S_ .f32 0x3F800000#32),
    unary main_cst_1 main_v18 (broadcastInDim S100000 ![] bcast_S_S100000 : (⟨S_, .f32⟩ : BufTy).Contents (Elt F) → (⟨S100000, .f32⟩ : BufTy).Contents (Elt F)),
    nullary main_cst_2 (constant S_ .f32 0x00000000#32),
    unary main_cst_2 main_v19 (broadcastInDim S25000 ![] bcast_S_S25000 : (⟨S_, .f32⟩ : BufTy).Contents (Elt F) → (⟨S25000, .f32⟩ : BufTy).Contents (Elt F)),
    unary main_arg8 main_v20 (broadcastInDim S100000x1 ![0] bcast_S100000_S100000x1_0 : (⟨S100000, .i32⟩ : BufTy).Contents (Elt F) → (⟨S100000x1, .i32⟩ : BufTy).Contents (Elt F)),
    ternary main_v19 main_v20 main_v18 main_v21 ((fun x i u => Host.scatterAdd scatter_S25000_S100000x1_S100000_n_0_0_1 x i u) : (⟨S25000, .f32⟩ : BufTy).Contents (Elt F) → (⟨S100000x1, .i32⟩ : BufTy).Contents (Elt F) → (⟨S100000, .f32⟩ : BufTy).Contents (Elt F) → (⟨S25000, .f32⟩ : BufTy).Contents (Elt F)),
    nullary main_cst_3 (constant S_ .f32 0x3F800000#32),
    unary main_cst_3 main_v22 (broadcastInDim S25000 ![] bcast_S_S25000 : (⟨S_, .f32⟩ : BufTy).Contents (Elt F) → (⟨S25000, .f32⟩ : BufTy).Contents (Elt F)),
    binary main_v21 main_v22 main_v23 (maximumf : (⟨S25000, .f32⟩ : BufTy).Contents (Elt F) → (⟨S25000, .f32⟩ : BufTy).Contents (Elt F) → (⟨S25000, .f32⟩ : BufTy).Contents (Elt F)),
    unary main_v23 main_v24 (broadcastInDim S25000x1 ![0] bcast_S25000_S25000x1_0 : (⟨S25000, .f32⟩ : BufTy).Contents (Elt F) → (⟨S25000x1, .f32⟩ : BufTy).Contents (Elt F)),
    unary main_v24 main_v25 (broadcastInDim S25000x128 ![0, 1] bcast_S25000x1_S25000x128_0_1 : (⟨S25000x1, .f32⟩ : BufTy).Contents (Elt F) → (⟨S25000x128, .f32⟩ : BufTy).Contents (Elt F)),
    binary main_v17 main_v25 main_v26 (Host.divf : (⟨S25000x128, .f32⟩ : BufTy).Contents (Elt F) → (⟨S25000x128, .f32⟩ : BufTy).Contents (Elt F) → (⟨S25000x128, .f32⟩ : BufTy).Contents (Elt F)) ]

abbrev rc3 : List (HloOp τ sig (Elt F)) :=
  [ binary main_v26 main_arg25 main_v27 ((fun l r => Host.dotGeneral dot_S25000x128_S128x128_S25000x128_1_0_0_1_n_n none l r) : (⟨S25000x128, .f32⟩ : BufTy).Contents (Elt F) → (⟨S128x128, .f32⟩ : BufTy).Contents (Elt F) → (⟨S25000x128, .f32⟩ : BufTy).Contents (Elt F)),
    unary main_arg26 main_v28 (broadcastInDim S1x128 ![1] bcast_S128_S1x128_1 : (⟨S128, .f32⟩ : BufTy).Contents (Elt F) → (⟨S1x128, .f32⟩ : BufTy).Contents (Elt F)),
    unary main_v28 main_v29 (broadcastInDim S25000x128 ![0, 1] bcast_S1x128_S25000x128_0_1 : (⟨S1x128, .f32⟩ : BufTy).Contents (Elt F) → (⟨S25000x128, .f32⟩ : BufTy).Contents (Elt F)),
    binary main_v27 main_v29 main_v30 (addf : (⟨S25000x128, .f32⟩ : BufTy).Contents (Elt F) → (⟨S25000x128, .f32⟩ : BufTy).Contents (Elt F) → (⟨S25000x128, .f32⟩ : BufTy).Contents (Elt F)) ]

abbrev rc4a : List (HloOp τ sig (Elt F)) :=
  [ nullary main_c_4 (constantI S_ 32 0#32),
    unary main_c_4 main_v31 (broadcastInDim S25000 ![] bcast_S_S25000 : (⟨S_, .i32⟩ : BufTy).Contents (Elt F) → (⟨S25000, .i32⟩ : BufTy).Contents (Elt F)),
    binary main_arg9 main_v31 main_v32 (cmpi .slt : (⟨S25000, .i32⟩ : BufTy).Contents (Elt F) → (⟨S25000, .i32⟩ : BufTy).Contents (Elt F) → (⟨S25000, .i1⟩ : BufTy).Contents (Elt F)),
    nullary main_c_5 (constantI S_ 32 25000#32),
    unary main_c_5 main_v33 (broadcastInDim S25000 ![] bcast_S_S25000 : (⟨S_, .i32⟩ : BufTy).Contents (Elt F) → (⟨S25000, .i32⟩ : BufTy).Contents (Elt F)),
    binary main_arg9 main_v33 main_v34 (addi : (⟨S25000, .i32⟩ : BufTy).Contents (Elt F) → (⟨S25000, .i32⟩ : BufTy).Contents (Elt F) → (⟨S25000, .i32⟩ : BufTy).Contents (Elt F)),
    ternary main_v32 main_v34 main_arg9 main_v35 (select : (⟨S25000, .i1⟩ : BufTy).Contents (Elt F) → (⟨S25000, .i32⟩ : BufTy).Contents (Elt F) → (⟨S25000, .i32⟩ : BufTy).Contents (Elt F) → (⟨S25000, .i32⟩ : BufTy).Contents (Elt F)),
    unary main_v35 main_v36 (broadcastInDim S25000x1 ![0] bcast_S25000_S25000x1_0 : (⟨S25000, .i32⟩ : BufTy).Contents (Elt F) → (⟨S25000x1, .i32⟩ : BufTy).Contents (Elt F)),
    binary main_v30 main_v36 main_v37 ((fun x i => Host.gather gather_S25000x128_S25000x1_S25000x128_1_0_n_n_0_1_1128 x i) : (⟨S25000x128, .f32⟩ : BufTy).Contents (Elt F) → (⟨S25000x1, .i32⟩ : BufTy).Contents (Elt F) → (⟨S25000x128, .f32⟩ : BufTy).Contents (Elt F)),
    nullary main_cst_6 (constant S_ .f32 0x00000000#32),
    unary main_cst_6 main_v38 (broadcastInDim S6250x128 ![] bcast_S_S6250x128 : (⟨S_, .f32⟩ : BufTy).Contents (Elt F) → (⟨S6250x128, .f32⟩ : BufTy).Contents (Elt F)),
    unary main_arg10 main_v39 (broadcastInDim S25000x1 ![0] bcast_S25000_S25000x1_0 : (⟨S25000, .i32⟩ : BufTy).Contents (Elt F) → (⟨S25000x1, .i32⟩ : BufTy).Contents (Elt F)),
    ternary main_v38 main_v39 main_v37 main_v40 ((fun x i u => Host.scatterAdd scatter_S6250x128_S25000x1_S25000x128_1_0_0_1 x i u) : (⟨S6250x128, .f32⟩ : BufTy).Contents (Elt F) → (⟨S25000x1, .i32⟩ : BufTy).Contents (Elt F) → (⟨S25000x128, .f32⟩ : BufTy).Contents (Elt F) → (⟨S6250x128, .f32⟩ : BufTy).Contents (Elt F)),
    nullary main_cst_7 (constant S_ .f32 0x3F800000#32),
    unary main_cst_7 main_v41 (broadcastInDim S25000 ![] bcast_S_S25000 : (⟨S_, .f32⟩ : BufTy).Contents (Elt F) → (⟨S25000, .f32⟩ : BufTy).Contents (Elt F)),
    nullary main_cst_8 (constant S_ .f32 0x00000000#32),
    unary main_cst_8 main_v42 (broadcastInDim S6250 ![] bcast_S_S6250 : (⟨S_, .f32⟩ : BufTy).Contents (Elt F) → (⟨S6250, .f32⟩ : BufTy).Contents (Elt F)),
    unary main_arg10 main_v43 (broadcastInDim S25000x1 ![0] bcast_S25000_S25000x1_0 : (⟨S25000, .i32⟩ : BufTy).Contents (Elt F) → (⟨S25000x1, .i32⟩ : BufTy).Contents (Elt F)),
    ternary main_v42 main_v43 main_v41 main_v44 ((fun x i u => Host.scatterAdd scatter_S6250_S25000x1_S25000_n_0_0_1 x i u) : (⟨S6250, .f32⟩ : BufTy).Contents (Elt F) → (⟨S25000x1, .i32⟩ : BufTy).Contents (Elt F) → (⟨S25000, .f32⟩ : BufTy).Contents (Elt F) → (⟨S6250, .f32⟩ : BufTy).Contents (Elt F)),
    nullary main_cst_9 (constant S_ .f32 0x3F800000#32),
    unary main_cst_9 main_v45 (broadcastInDim S6250 ![] bcast_S_S6250 : (⟨S_, .f32⟩ : BufTy).Contents (Elt F) → (⟨S6250, .f32⟩ : BufTy).Contents (Elt F)),
    binary main_v44 main_v45 main_v46 (maximumf : (⟨S6250, .f32⟩ : BufTy).Contents (Elt F) → (⟨S6250, .f32⟩ : BufTy).Contents (Elt F) → (⟨S6250, .f32⟩ : BufTy).Contents (Elt F)),
    unary main_v46 main_v47 (broadcastInDim S6250x1 ![0] bcast_S6250_S6250x1_0 : (⟨S6250, .f32⟩ : BufTy).Contents (Elt F) → (⟨S6250x1, .f32⟩ : BufTy).Contents (Elt F)) ]

abbrev rc4b : List (HloOp τ sig (Elt F)) :=
  [ unary main_v47 main_v48 (broadcastInDim S6250x128 ![0, 1] bcast_S6250x1_S6250x128_0_1 : (⟨S6250x1, .f32⟩ : BufTy).Contents (Elt F) → (⟨S6250x128, .f32⟩ : BufTy).Contents (Elt F)),
    binary main_v40 main_v48 main_v49 (Host.divf : (⟨S6250x128, .f32⟩ : BufTy).Contents (Elt F) → (⟨S6250x128, .f32⟩ : BufTy).Contents (Elt F) → (⟨S6250x128, .f32⟩ : BufTy).Contents (Elt F)) ]

abbrev rc5 : List (HloOp τ sig (Elt F)) :=
  [ nullary main_cst_10 (constant S_ .f32 0x3F800000#32),
    unary main_cst_10 main_v50 (broadcastInDim S1600000 ![] bcast_S_S1600000 : (⟨S_, .f32⟩ : BufTy).Contents (Elt F) → (⟨S1600000, .f32⟩ : BufTy).Contents (Elt F)),
    nullary main_cst_11 (constant S_ .f32 0x00000000#32),
    unary main_cst_11 main_v51 (broadcastInDim S100000 ![] bcast_S_S100000 : (⟨S_, .f32⟩ : BufTy).Contents (Elt F) → (⟨S100000, .f32⟩ : BufTy).Contents (Elt F)),
    unary main_arg1 main_v52 (broadcastInDim S1600000x1 ![0] bcast_S1600000_S1600000x1_0 : (⟨S1600000, .i32⟩ : BufTy).Contents (Elt F) → (⟨S1600000x1, .i32⟩ : BufTy).Contents (Elt F)),
    ternary main_v51 main_v52 main_v50 main_v53 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_12 (constant S_ .f32 0x3F800000#32),
    unary main_cst_12 main_v54 (broadcastInDim S1600000 ![] bcast_S_S1600000 : (⟨S_, .f32⟩ : BufTy).Contents (Elt F) → (⟨S1600000, .f32⟩ : BufTy).Contents (Elt F)),
    nullary main_cst_13 (constant S_ .f32 0x00000000#32),
    unary main_cst_13 main_v55 (broadcastInDim S100000 ![] bcast_S_S100000 : (⟨S_, .f32⟩ : BufTy).Contents (Elt F) → (⟨S100000, .f32⟩ : BufTy).Contents (Elt F)),
    unary main_arg2 main_v56 (broadcastInDim S1600000x1 ![0] bcast_S1600000_S1600000x1_0 : (⟨S1600000, .i32⟩ : BufTy).Contents (Elt F) → (⟨S1600000x1, .i32⟩ : BufTy).Contents (Elt F)),
    ternary main_v55 main_v56 main_v54 main_v57 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_14 (constant S_ .f32 0x00000000#32),
    unary main_cst_14 main_v58 (broadcastInDim S100000 ![] bcast_S_S100000 : (⟨S_, .f32⟩ : BufTy).Contents (Elt F) → (⟨S100000, .f32⟩ : BufTy).Contents (Elt F)),
    binary main_v53 main_v58 main_v59 (cmpf (F := F) .ogt : (⟨S100000, .f32⟩ : BufTy).Contents (Elt F) → (⟨S100000, .f32⟩ : BufTy).Contents (Elt F) → (⟨S100000, .i1⟩ : BufTy).Contents (Elt F)),
    nullary main_cst_15 (constant S_ .f32 0xBF000000#32),
    unary main_cst_15 main_v60 (broadcastInDim S100000 ![] bcast_S_S100000 : (⟨S_, .f32⟩ : BufTy).Contents (Elt F) → (⟨S100000, .f32⟩ : BufTy).Contents (Elt F)),
    binary main_v53 main_v60 main_v61 (Host.powf : (⟨S100000, .f32⟩ : BufTy).Contents (Elt F) → (⟨S100000, .f32⟩ : BufTy).Contents (Elt F) → (⟨S100000, .f32⟩ : BufTy).Contents (Elt F)),
    nullary main_cst_16 (constant S_ .f32 0x00000000#32),
    TRef.unary (TRef.of (T := ⟨S_, .f32⟩) main_cst_16) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v59) (TRef.of (T := ⟨S100000, .f32⟩) main_v61) (TRef.of (T := ⟨S100000, .f32⟩) main_call0_v1) (TRef.of (T := ⟨S100000, .f32⟩) main_v62) select,
    nullary main_cst_17 (constant S_ .f32 0x00000000#32),
    unary main_cst_17 main_v63 (broadcastInDim S100000 ![] bcast_S_S100000 : (⟨S_, .f32⟩ : BufTy).Contents (Elt F) → (⟨S100000, .f32⟩ : BufTy).Contents (Elt F)),
    binary main_v57 main_v63 main_v64 (cmpf (F := F) .ogt : (⟨S100000, .f32⟩ : BufTy).Contents (Elt F) → (⟨S100000, .f32⟩ : BufTy).Contents (Elt F) → (⟨S100000, .i1⟩ : BufTy).Contents (Elt F)),
    nullary main_cst_18 (constant S_ .f32 0xBF000000#32),
    unary main_cst_18 main_v65 (broadcastInDim S100000 ![] bcast_S_S100000 : (⟨S_, .f32⟩ : BufTy).Contents (Elt F) → (⟨S100000, .f32⟩ : BufTy).Contents (Elt F)),
    binary main_v57 main_v65 main_v66 (Host.powf : (⟨S100000, .f32⟩ : BufTy).Contents (Elt F) → (⟨S100000, .f32⟩ : BufTy).Contents (Elt F) → (⟨S100000, .f32⟩ : BufTy).Contents (Elt F)),
    nullary main_cst_19 (constant S_ .f32 0x00000000#32),
    TRef.unary (TRef.of (T := ⟨S_, .f32⟩) main_cst_19) (TRef.of (T := ⟨S_, .f32⟩) main_call1_v0) id,
    TRef.unary (TRef.of (T := ⟨S_, .f32⟩) main_call1_v0) (TRef.of (T := ⟨S100000, .f32⟩) main_call1_v1) (broadcastInDim S100000 ![] bcast_S_S100000),
    TRef.ternary (TRef.of (T := ⟨S100000, .i1⟩) main_v64) (TRef.of (T := ⟨S100000, .f32⟩) main_v66) (TRef.of (T := ⟨S100000, .f32⟩) main_call1_v1) (TRef.of (T := ⟨S100000, .f32⟩) main_v67) select,
    unary main_v62 main_v68 (broadcastInDim S100000x1 ![0] bcast_S100000_S100000x1_0 : (⟨S100000, .f32⟩ : BufTy).Contents (Elt F) → (⟨S100000x1, .f32⟩ : BufTy).Contents (Elt F)),
    unary main_v68 main_v69 (broadcastInDim S100000x128 ![0, 1] bcast_S100000x1_S100000x128_0_1 : (⟨S100000x1, .f32⟩ : BufTy).Contents (Elt F) → (⟨S100000x128, .f32⟩ : BufTy).Contents (Elt F)),
    binary main_v3 main_v69 main_v70 (mulf : (⟨S100000x128, .f32⟩ : BufTy).Contents (Elt F) → (⟨S100000x128, .f32⟩ : BufTy).Contents (Elt F) → (⟨S100000x128, .f32⟩ : BufTy).Contents (Elt F)),
    nullary main_c_20 (constantI S_ 32 0#32),
    unary main_c_20 main_v71 (broadcastInDim S1600000 ![] bcast_S_S1600000 : (⟨S_, .i32⟩ : BufTy).Contents (Elt F) → (⟨S1600000, .i32⟩ : BufTy).Contents (Elt F)),
    binary main_arg1 main_v71 main_v72 (cmpi .slt : (⟨S1600000, .i32⟩ : BufTy).Contents (Elt F) → (⟨S1600000, .i32⟩ : BufTy).Contents (Elt F) → (⟨S1600000, .i1⟩ : BufTy).Contents (Elt F)),
    nullary main_c_21 (constantI S_ 32 100000#32),
    unary main_c_21 main_v73 (broadcastInDim S1600000 ![] bcast_S_S1600000 : (⟨S_, .i32⟩ : BufTy).Contents (Elt F) → (⟨S1600000, .i32⟩ : BufTy).Contents (Elt F)),
    binary main_arg1 main_v73 main_v74 (addi : (⟨S1600000, .i32⟩ : BufTy).Contents (Elt F) → (⟨S1600000, .i32⟩ : BufTy).Contents (Elt F) → (⟨S1600000, .i32⟩ : BufTy).Contents (Elt F)),
    ternary main_v72 main_v74 main_arg1 main_v75 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v75 main_v76 (broadcastInDim S1600000x1 ![0] bcast_S1600000_S1600000x1_0 : (⟨S1600000, .i32⟩ : BufTy).Contents (Elt F) → (⟨S1600000x1, .i32⟩ : BufTy).Contents (Elt F)),
    binary main_v70 main_v76 main_v77 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_22 (constant S_ .f32 0x00000000#32),
    unary main_cst_22 main_v78 (broadcastInDim S100000x128 ![] bcast_S_S100000x128 : (⟨S_, .f32⟩ : BufTy).Contents (Elt F) → (⟨S100000x128, .f32⟩ : BufTy).Contents (Elt F)),
    unary main_arg2 main_v79 (broadcastInDim S1600000x1 ![0] bcast_S1600000_S1600000x1_0 : (⟨S1600000, .i32⟩ : BufTy).Contents (Elt F) → (⟨S1600000x1, .i32⟩ : BufTy).Contents (Elt F)),
    ternary main_v78 main_v79 main_v77 main_v80 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v67 main_v81 (broadcastInDim S100000x1 ![0] bcast_S100000_S100000x1_0 : (⟨S100000, .f32⟩ : BufTy).Contents (Elt F) → (⟨S100000x1, .f32⟩ : BufTy).Contents (Elt F)),
    unary main_v81 main_v82 (broadcastInDim S100000x128 ![0, 1] bcast_S100000x1_S100000x128_0_1 : (⟨S100000x1, .f32⟩ : BufTy).Contents (Elt F) → (⟨S100000x128, .f32⟩ : BufTy).Contents (Elt F)),
    binary main_v80 main_v82 main_v83 (mulf : (⟨S100000x128, .f32⟩ : BufTy).Contents (Elt F) → (⟨S100000x128, .f32⟩ : BufTy).Contents (Elt F) → (⟨S100000x128, .f32⟩ : BufTy).Contents (Elt F)),
    binary main_v83 main_arg17 main_v84 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg18 main_v85 (broadcastInDim S1x128 ![1] bcast_S128_S1x128_1 : (⟨S128, .f32⟩ : BufTy).Contents (Elt F) → (⟨S1x128, .f32⟩ : BufTy).Contents (Elt F)),
    unary main_v85 main_v86 (broadcastInDim S100000x128 ![0, 1] bcast_S1x128_S100000x128_0_1 : (⟨S1x128, .f32⟩ : BufTy).Contents (Elt F) → (⟨S100000x128, .f32⟩ : BufTy).Contents (Elt F)),
    binary main_v84 main_v86 main_v87 (addf : (⟨S100000x128, .f32⟩ : BufTy).Contents (Elt F) → (⟨S100000x128, .f32⟩ : BufTy).Contents (Elt F) → (⟨S100000x128, .f32⟩ : BufTy).Contents (Elt F)) ]

abbrev rc6a : List (HloOp τ sig (Elt F)) :=
  [ nullary main_cst_23 (constant S_ .f32 0x3F800000#32),
    unary main_cst_23 main_v88 (broadcastInDim S400000 ![] bcast_S_S400000 : (⟨S_, .f32⟩ : BufTy).Contents (Elt F) → (⟨S400000, .f32⟩ : BufTy).Contents (Elt F)),
    nullary main_cst_24 (constant S_ .f32 0x00000000#32),
    unary main_cst_24 main_v89 (broadcastInDim S25000 ![] bcast_S_S25000 : (⟨S_, .f32⟩ : BufTy).Contents (Elt F) → (⟨S25000, .f32⟩ : BufTy).Contents (Elt F)),
    unary main_arg3 main_v90 (broadcastInDim S400000x1 ![0] bcast_S400000_S400000x1_0 : (⟨S400000, .i32⟩ : BufTy).Contents (Elt F) → (⟨S400000x1, .i32⟩ : BufTy).Contents (Elt F)),
    ternary main_v89 main_v90 main_v88 main_v91 ((fun x i u => Host.scatterAdd scatter_S25000_S400000x1_S400000_n_0_0_1 x i u) : (⟨S25000, .f32⟩ : BufTy).Contents (Elt F) → (⟨S400000x1, .i32⟩ : BufTy).Contents (Elt F) → (⟨S400000, .f32⟩ : BufTy).Contents (Elt F) → (⟨S25000, .f32⟩ : BufTy).Contents (Elt F)),
    nullary main_cst_25 (constant S_ .f32 0x3F800000#32) ]

abbrev rc6b : List (HloOp τ sig (Elt F)) :=
  [ unary main_cst_25 main_v92 (broadcastInDim S400000 ![] bcast_S_S400000 : (⟨S_, .f32⟩ : BufTy).Contents (Elt F) → (⟨S400000, .f32⟩ : BufTy).Contents (Elt F)),
    nullary main_cst_26 (constant S_ .f32 0x00000000#32),
    unary main_cst_26 main_v93 (broadcastInDim S25000 ![] bcast_S_S25000 : (⟨S_, .f32⟩ : BufTy).Contents (Elt F) → (⟨S25000, .f32⟩ : BufTy).Contents (Elt F)),
    unary main_arg4 main_v94 (broadcastInDim S400000x1 ![0] bcast_S400000_S400000x1_0 : (⟨S400000, .i32⟩ : BufTy).Contents (Elt F) → (⟨S400000x1, .i32⟩ : BufTy).Contents (Elt F)),
    ternary main_v93 main_v94 main_v92 main_v95 ((fun x i u => Host.scatterAdd scatter_S25000_S400000x1_S400000_n_0_0_1 x i u) : (⟨S25000, .f32⟩ : BufTy).Contents (Elt F) → (⟨S400000x1, .i32⟩ : BufTy).Contents (Elt F) → (⟨S400000, .f32⟩ : BufTy).Contents (Elt F) → (⟨S25000, .f32⟩ : BufTy).Contents (Elt F)),
    nullary main_cst_27 (constant S_ .f32 0x00000000#32),
    unary main_cst_27 main_v96 (broadcastInDim S25000 ![] bcast_S_S25000 : (⟨S_, .f32⟩ : BufTy).Contents (Elt F) → (⟨S25000, .f32⟩ : BufTy).Contents (Elt F)),
    binary main_v91 main_v96 main_v97 (cmpf (F := F) .ogt : (⟨S25000, .f32⟩ : BufTy).Contents (Elt F) → (⟨S25000, .f32⟩ : BufTy).Contents (Elt F) → (⟨S25000, .i1⟩ : BufTy).Contents (Elt F)),
    nullary main_cst_28 (constant S_ .f32 0xBF000000#32),
    unary main_cst_28 main_v98 (broadcastInDim S25000 ![] bcast_S_S25000 : (⟨S_, .f32⟩ : BufTy).Contents (Elt F) → (⟨S25000, .f32⟩ : BufTy).Contents (Elt F)),
    binary main_v91 main_v98 main_v99 (Host.powf : (⟨S25000, .f32⟩ : BufTy).Contents (Elt F) → (⟨S25000, .f32⟩ : BufTy).Contents (Elt F) → (⟨S25000, .f32⟩ : BufTy).Contents (Elt F)),
    nullary main_cst_29 (constant S_ .f32 0x00000000#32),
    TRef.unary (TRef.of (T := ⟨S_, .f32⟩) main_cst_29) (TRef.of (T := ⟨S_, .f32⟩) main_call2_v0) id,
    TRef.unary (TRef.of (T := ⟨S_, .f32⟩) main_call2_v0) (TRef.of (T := ⟨S25000, .f32⟩) main_call2_v1) (broadcastInDim S25000 ![] bcast_S_S25000),
    TRef.ternary (TRef.of (T := ⟨S25000, .i1⟩) main_v97) (TRef.of (T := ⟨S25000, .f32⟩) main_v99) (TRef.of (T := ⟨S25000, .f32⟩) main_call2_v1) (TRef.of (T := ⟨S25000, .f32⟩) main_v100) select,
    nullary main_cst_30 (constant S_ .f32 0x00000000#32),
    unary main_cst_30 main_v101 (broadcastInDim S25000 ![] bcast_S_S25000 : (⟨S_, .f32⟩ : BufTy).Contents (Elt F) → (⟨S25000, .f32⟩ : BufTy).Contents (Elt F)),
    binary main_v95 main_v101 main_v102 (cmpf (F := F) .ogt : (⟨S25000, .f32⟩ : BufTy).Contents (Elt F) → (⟨S25000, .f32⟩ : BufTy).Contents (Elt F) → (⟨S25000, .i1⟩ : BufTy).Contents (Elt F)),
    nullary main_cst_31 (constant S_ .f32 0xBF000000#32),
    unary main_cst_31 main_v103 (broadcastInDim S25000 ![] bcast_S_S25000 : (⟨S_, .f32⟩ : BufTy).Contents (Elt F) → (⟨S25000, .f32⟩ : BufTy).Contents (Elt F)),
    binary main_v95 main_v103 main_v104 (Host.powf : (⟨S25000, .f32⟩ : BufTy).Contents (Elt F) → (⟨S25000, .f32⟩ : BufTy).Contents (Elt F) → (⟨S25000, .f32⟩ : BufTy).Contents (Elt F)),
    nullary main_cst_32 (constant S_ .f32 0x00000000#32),
    TRef.unary (TRef.of (T := ⟨S_, .f32⟩) main_cst_32) (TRef.of (T := ⟨S_, .f32⟩) main_call3_v0) id,
    TRef.unary (TRef.of (T := ⟨S_, .f32⟩) main_call3_v0) (TRef.of (T := ⟨S25000, .f32⟩) main_call3_v1) (broadcastInDim S25000 ![] bcast_S_S25000),
    TRef.ternary (TRef.of (T := ⟨S25000, .i1⟩) main_v102) (TRef.of (T := ⟨S25000, .f32⟩) main_v104) (TRef.of (T := ⟨S25000, .f32⟩) main_call3_v1) (TRef.of (T := ⟨S25000, .f32⟩) main_v105) select,
    unary main_v100 main_v106 (broadcastInDim S25000x1 ![0] bcast_S25000_S25000x1_0 : (⟨S25000, .f32⟩ : BufTy).Contents (Elt F) → (⟨S25000x1, .f32⟩ : BufTy).Contents (Elt F)),
    unary main_v106 main_v107 (broadcastInDim S25000x128 ![0, 1] bcast_S25000x1_S25000x128_0_1 : (⟨S25000x1, .f32⟩ : BufTy).Contents (Elt F) → (⟨S25000x128, .f32⟩ : BufTy).Contents (Elt F)),
    binary main_v26 main_v107 main_v108 (mulf : (⟨S25000x128, .f32⟩ : BufTy).Contents (Elt F) → (⟨S25000x128, .f32⟩ : BufTy).Contents (Elt F) → (⟨S25000x128, .f32⟩ : BufTy).Contents (Elt F)),
    nullary main_c_33 (constantI S_ 32 0#32),
    unary main_c_33 main_v109 (broadcastInDim S400000 ![] bcast_S_S400000 : (⟨S_, .i32⟩ : BufTy).Contents (Elt F) → (⟨S400000, .i32⟩ : BufTy).Contents (Elt F)),
    binary main_arg3 main_v109 main_v110 (cmpi .slt : (⟨S400000, .i32⟩ : BufTy).Contents (Elt F) → (⟨S400000, .i32⟩ : BufTy).Contents (Elt F) → (⟨S400000, .i1⟩ : BufTy).Contents (Elt F)),
    nullary main_c_34 (constantI S_ 32 25000#32),
    unary main_c_34 main_v111 (broadcastInDim S400000 ![] bcast_S_S400000 : (⟨S_, .i32⟩ : BufTy).Contents (Elt F) → (⟨S400000, .i32⟩ : BufTy).Contents (Elt F)),
    binary main_arg3 main_v111 main_v112 (addi : (⟨S400000, .i32⟩ : BufTy).Contents (Elt F) → (⟨S400000, .i32⟩ : BufTy).Contents (Elt F) → (⟨S400000, .i32⟩ : BufTy).Contents (Elt F)),
    ternary main_v110 main_v112 main_arg3 main_v113 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v113 main_v114 (broadcastInDim S400000x1 ![0] bcast_S400000_S400000x1_0 : (⟨S400000, .i32⟩ : BufTy).Contents (Elt F) → (⟨S400000x1, .i32⟩ : BufTy).Contents (Elt F)),
    binary main_v108 main_v114 main_v115 ((fun x i => Host.gather gather_S25000x128_S400000x1_S400000x128_1_0_n_n_0_1_1128 x i) : (⟨S25000x128, .f32⟩ : BufTy).Contents (Elt F) → (⟨S400000x1, .i32⟩ : BufTy).Contents (Elt F) → (⟨S400000x128, .f32⟩ : BufTy).Contents (Elt F)),
    nullary main_cst_35 (constant S_ .f32 0x00000000#32),
    unary main_cst_35 main_v116 (broadcastInDim S25000x128 ![] bcast_S_S25000x128 : (⟨S_, .f32⟩ : BufTy).Contents (Elt F) → (⟨S25000x128, .f32⟩ : BufTy).Contents (Elt F)),
    unary main_arg4 main_v117 (broadcastInDim S400000x1 ![0] bcast_S400000_S400000x1_0 : (⟨S400000, .i32⟩ : BufTy).Contents (Elt F) → (⟨S400000x1, .i32⟩ : BufTy).Contents (Elt F)),
    ternary main_v116 main_v117 main_v115 main_v118 ((fun x i u => Host.scatterAdd scatter_S25000x128_S400000x1_S400000x128_1_0_0_1 x i u) : (⟨S25000x128, .f32⟩ : BufTy).Contents (Elt F) → (⟨S400000x1, .i32⟩ : BufTy).Contents (Elt F) → (⟨S400000x128, .f32⟩ : BufTy).Contents (Elt F) → (⟨S25000x128, .f32⟩ : BufTy).Contents (Elt F)),
    unary main_v105 main_v119 (broadcastInDim S25000x1 ![0] bcast_S25000_S25000x1_0 : (⟨S25000, .f32⟩ : BufTy).Contents (Elt F) → (⟨S25000x1, .f32⟩ : BufTy).Contents (Elt F)),
    unary main_v119 main_v120 (broadcastInDim S25000x128 ![0, 1] bcast_S25000x1_S25000x128_0_1 : (⟨S25000x1, .f32⟩ : BufTy).Contents (Elt F) → (⟨S25000x128, .f32⟩ : BufTy).Contents (Elt F)),
    binary main_v118 main_v120 main_v121 (mulf : (⟨S25000x128, .f32⟩ : BufTy).Contents (Elt F) → (⟨S25000x128, .f32⟩ : BufTy).Contents (Elt F) → (⟨S25000x128, .f32⟩ : BufTy).Contents (Elt F)),
    binary main_v121 main_arg19 main_v122 ((fun l r => Host.dotGeneral dot_S25000x128_S128x128_S25000x128_1_0_0_1_n_n none l r) : (⟨S25000x128, .f32⟩ : BufTy).Contents (Elt F) → (⟨S128x128, .f32⟩ : BufTy).Contents (Elt F) → (⟨S25000x128, .f32⟩ : BufTy).Contents (Elt F)),
    unary main_arg20 main_v123 (broadcastInDim S1x128 ![1] bcast_S128_S1x128_1 : (⟨S128, .f32⟩ : BufTy).Contents (Elt F) → (⟨S1x128, .f32⟩ : BufTy).Contents (Elt F)),
    unary main_v123 main_v124 (broadcastInDim S25000x128 ![0, 1] bcast_S1x128_S25000x128_0_1 : (⟨S1x128, .f32⟩ : BufTy).Contents (Elt F) → (⟨S25000x128, .f32⟩ : BufTy).Contents (Elt F)),
    binary main_v122 main_v124 main_v125 (addf : (⟨S25000x128, .f32⟩ : BufTy).Contents (Elt F) → (⟨S25000x128, .f32⟩ : BufTy).Contents (Elt F) → (⟨S25000x128, .f32⟩ : BufTy).Contents (Elt F)) ]

abbrev rc7a : List (HloOp τ sig (Elt F)) :=
  [ nullary main_cst_36 (constant S_ .f32 0x3F800000#32),
    unary main_cst_36 main_v126 (broadcastInDim S100000 ![] bcast_S_S100000 : (⟨S_, .f32⟩ : BufTy).Contents (Elt F) → (⟨S100000, .f32⟩ : BufTy).Contents (Elt F)),
    nullary main_cst_37 (constant S_ .f32 0x00000000#32),
    unary main_cst_37 main_v127 (broadcastInDim S6250 ![] bcast_S_S6250 : (⟨S_, .f32⟩ : BufTy).Contents (Elt F) → (⟨S6250, .f32⟩ : BufTy).Contents (Elt F)),
    unary main_arg5 main_v128 (broadcastInDim S100000x1 ![0] bcast_S100000_S100000x1_0 : (⟨S100000, .i32⟩ : BufTy).Contents (Elt F) → (⟨S100000x1, .i32⟩ : BufTy).Contents (Elt F)),
    ternary main_v127 main_v128 main_v126 main_v129 ((fun x i u => Host.scatterAdd scatter_S6250_S100000x1_S100000_n_0_0_1 x i u) : (⟨S6250, .f32⟩ : BufTy).Contents (Elt F) → (⟨S100000x1, .i32⟩ : BufTy).Contents (Elt F) → (⟨S100000, .f32⟩ : BufTy).Contents (Elt F) → (⟨S6250, .f32⟩ : BufTy).Contents (Elt F)),
    nullary main_cst_38 (constant S_ .f32 0x3F800000#32),
    unary main_cst_38 main_v130 (broadcastInDim S100000 ![] bcast_S_S100000 : (⟨S_, .f32⟩ : BufTy).Contents (Elt F) → (⟨S100000, .f32⟩ : BufTy).Contents (Elt F)),
    nullary main_cst_39 (constant S_ .f32 0x00000000#32),
    unary main_cst_39 main_v131 (broadcastInDim S6250 ![] bcast_S_S6250 : (⟨S_, .f32⟩ : BufTy).Contents (Elt F) → (⟨S6250, .f32⟩ : BufTy).Contents (Elt F)),
    unary main_arg6 main_v132 (broadcastInDim S100000x1 ![0] bcast_S100000_S100000x1_0 : (⟨S100000, .i32⟩ : BufTy).Contents (Elt F) → (⟨S100000x1, .i32⟩ : BufTy).Contents (Elt F)),
    ternary main_v131 main_v132 main_v130 main_v133 ((fun x i u => Host.scatterAdd scatter_S6250_S100000x1_S100000_n_0_0_1 x i u) : (⟨S6250, .f32⟩ : BufTy).Contents (Elt F) → (⟨S100000x1, .i32⟩ : BufTy).Contents (Elt F) → (⟨S100000, .f32⟩ : BufTy).Contents (Elt F) → (⟨S6250, .f32⟩ : BufTy).Contents (Elt F)),
    nullary main_cst_40 (constant S_ .f32 0x00000000#32),
    unary main_cst_40 main_v134 (broadcastInDim S6250 ![] bcast_S_S6250 : (⟨S_, .f32⟩ : BufTy).Contents (Elt F) → (⟨S6250, .f32⟩ : BufTy).Contents (Elt F)),
    binary main_v129 main_v134 main_v135 (cmpf (F := F) .ogt : (⟨S6250, .f32⟩ : BufTy).Contents (Elt F) → (⟨S6250, .f32⟩ : BufTy).Contents (Elt F) → (⟨S6250, .i1⟩ : BufTy).Contents (Elt F)),
    nullary main_cst_41 (constant S_ .f32 0xBF000000#32) ]

abbrev rc7b : List (HloOp τ sig (Elt F)) :=
  [ unary main_cst_41 main_v136 (broadcastInDim S6250 ![] bcast_S_S6250 : (⟨S_, .f32⟩ : BufTy).Contents (Elt F) → (⟨S6250, .f32⟩ : BufTy).Contents (Elt F)),
    binary main_v129 main_v136 main_v137 (Host.powf : (⟨S6250, .f32⟩ : BufTy).Contents (Elt F) → (⟨S6250, .f32⟩ : BufTy).Contents (Elt F) → (⟨S6250, .f32⟩ : BufTy).Contents (Elt F)),
    nullary main_cst_42 (constant S_ .f32 0x00000000#32),
    TRef.unary (TRef.of (T := ⟨S_, .f32⟩) main_cst_42) (TRef.of (T := ⟨S_, .f32⟩) main_call4_v0) id,
    TRef.unary (TRef.of (T := ⟨S_, .f32⟩) main_call4_v0) (TRef.of (T := ⟨S6250, .f32⟩) main_call4_v1) (broadcastInDim S6250 ![] bcast_S_S6250),
    TRef.ternary (TRef.of (T := ⟨S6250, .i1⟩) main_v135) (TRef.of (T := ⟨S6250, .f32⟩) main_v137) (TRef.of (T := ⟨S6250, .f32⟩) main_call4_v1) (TRef.of (T := ⟨S6250, .f32⟩) main_v138) select,
    nullary main_cst_43 (constant S_ .f32 0x00000000#32),
    unary main_cst_43 main_v139 (broadcastInDim S6250 ![] bcast_S_S6250 : (⟨S_, .f32⟩ : BufTy).Contents (Elt F) → (⟨S6250, .f32⟩ : BufTy).Contents (Elt F)),
    binary main_v133 main_v139 main_v140 (cmpf (F := F) .ogt : (⟨S6250, .f32⟩ : BufTy).Contents (Elt F) → (⟨S6250, .f32⟩ : BufTy).Contents (Elt F) → (⟨S6250, .i1⟩ : BufTy).Contents (Elt F)),
    nullary main_cst_44 (constant S_ .f32 0xBF000000#32),
    unary main_cst_44 main_v141 (broadcastInDim S6250 ![] bcast_S_S6250 : (⟨S_, .f32⟩ : BufTy).Contents (Elt F) → (⟨S6250, .f32⟩ : BufTy).Contents (Elt F)),
    binary main_v133 main_v141 main_v142 (Host.powf : (⟨S6250, .f32⟩ : BufTy).Contents (Elt F) → (⟨S6250, .f32⟩ : BufTy).Contents (Elt F) → (⟨S6250, .f32⟩ : BufTy).Contents (Elt F)),
    nullary main_cst_45 (constant S_ .f32 0x00000000#32),
    TRef.unary (TRef.of (T := ⟨S_, .f32⟩) main_cst_45) (TRef.of (T := ⟨S_, .f32⟩) main_call5_v0) id,
    TRef.unary (TRef.of (T := ⟨S_, .f32⟩) main_call5_v0) (TRef.of (T := ⟨S6250, .f32⟩) main_call5_v1) (broadcastInDim S6250 ![] bcast_S_S6250),
    TRef.ternary (TRef.of (T := ⟨S6250, .i1⟩) main_v140) (TRef.of (T := ⟨S6250, .f32⟩) main_v142) (TRef.of (T := ⟨S6250, .f32⟩) main_call5_v1) (TRef.of (T := ⟨S6250, .f32⟩) main_v143) select,
    unary main_v138 main_v144 (broadcastInDim S6250x1 ![0] bcast_S6250_S6250x1_0 : (⟨S6250, .f32⟩ : BufTy).Contents (Elt F) → (⟨S6250x1, .f32⟩ : BufTy).Contents (Elt F)),
    unary main_v144 main_v145 (broadcastInDim S6250x128 ![0, 1] bcast_S6250x1_S6250x128_0_1 : (⟨S6250x1, .f32⟩ : BufTy).Contents (Elt F) → (⟨S6250x128, .f32⟩ : BufTy).Contents (Elt F)),
    binary main_v49 main_v145 main_v146 (mulf : (⟨S6250x128, .f32⟩ : BufTy).Contents (Elt F) → (⟨S6250x128, .f32⟩ : BufTy).Contents (Elt F) → (⟨S6250x128, .f32⟩ : BufTy).Contents (Elt F)),
    nullary main_c_46 (constantI S_ 32 0#32),
    unary main_c_46 main_v147 (broadcastInDim S100000 ![] bcast_S_S100000 : (⟨S_, .i32⟩ : BufTy).Contents (Elt F) → (⟨S100000, .i32⟩ : BufTy).Contents (Elt F)),
    binary main_arg5 main_v147 main_v148 (cmpi .slt : (⟨S100000, .i32⟩ : BufTy).Contents (Elt F) → (⟨S100000, .i32⟩ : BufTy).Contents (Elt F) → (⟨S100000, .i1⟩ : BufTy).Contents (Elt F)),
    nullary main_c_47 (constantI S_ 32 6250#32),
    unary main_c_47 main_v149 (broadcastInDim S100000 ![] bcast_S_S100000 : (⟨S_, .i32⟩ : BufTy).Contents (Elt F) → (⟨S100000, .i32⟩ : BufTy).Contents (Elt F)),
    binary main_arg5 main_v149 main_v150 (addi : (⟨S100000, .i32⟩ : BufTy).Contents (Elt F) → (⟨S100000, .i32⟩ : BufTy).Contents (Elt F) → (⟨S100000, .i32⟩ : BufTy).Contents (Elt F)),
    ternary main_v148 main_v150 main_arg5 main_v151 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v151 main_v152 (broadcastInDim S100000x1 ![0] bcast_S100000_S100000x1_0 : (⟨S100000, .i32⟩ : BufTy).Contents (Elt F) → (⟨S100000x1, .i32⟩ : BufTy).Contents (Elt F)),
    binary main_v146 main_v152 main_v153 ((fun x i => Host.gather gather_S6250x128_S100000x1_S100000x128_1_0_n_n_0_1_1128 x i) : (⟨S6250x128, .f32⟩ : BufTy).Contents (Elt F) → (⟨S100000x1, .i32⟩ : BufTy).Contents (Elt F) → (⟨S100000x128, .f32⟩ : BufTy).Contents (Elt F)),
    nullary main_cst_48 (constant S_ .f32 0x00000000#32),
    unary main_cst_48 main_v154 (broadcastInDim S6250x128 ![] bcast_S_S6250x128 : (⟨S_, .f32⟩ : BufTy).Contents (Elt F) → (⟨S6250x128, .f32⟩ : BufTy).Contents (Elt F)),
    unary main_arg6 main_v155 (broadcastInDim S100000x1 ![0] bcast_S100000_S100000x1_0 : (⟨S100000, .i32⟩ : BufTy).Contents (Elt F) → (⟨S100000x1, .i32⟩ : BufTy).Contents (Elt F)),
    ternary main_v154 main_v155 main_v153 main_v156 ((fun x i u => Host.scatterAdd scatter_S6250x128_S100000x1_S100000x128_1_0_0_1 x i u) : (⟨S6250x128, .f32⟩ : BufTy).Contents (Elt F) → (⟨S100000x1, .i32⟩ : BufTy).Contents (Elt F) → (⟨S100000x128, .f32⟩ : BufTy).Contents (Elt F) → (⟨S6250x128, .f32⟩ : BufTy).Contents (Elt F)),
    unary main_v143 main_v157 (broadcastInDim S6250x1 ![0] bcast_S6250_S6250x1_0 : (⟨S6250, .f32⟩ : BufTy).Contents (Elt F) → (⟨S6250x1, .f32⟩ : BufTy).Contents (Elt F)),
    unary main_v157 main_v158 (broadcastInDim S6250x128 ![0, 1] bcast_S6250x1_S6250x128_0_1 : (⟨S6250x1, .f32⟩ : BufTy).Contents (Elt F) → (⟨S6250x128, .f32⟩ : BufTy).Contents (Elt F)),
    binary main_v156 main_v158 main_v159 (mulf : (⟨S6250x128, .f32⟩ : BufTy).Contents (Elt F) → (⟨S6250x128, .f32⟩ : BufTy).Contents (Elt F) → (⟨S6250x128, .f32⟩ : BufTy).Contents (Elt F)),
    binary main_v159 main_arg21 main_v160 ((fun l r => Host.dotGeneral dot_S6250x128_S128x128_S6250x128_1_0_0_1_n_n none l r) : (⟨S6250x128, .f32⟩ : BufTy).Contents (Elt F) → (⟨S128x128, .f32⟩ : BufTy).Contents (Elt F) → (⟨S6250x128, .f32⟩ : BufTy).Contents (Elt F)),
    unary main_arg22 main_v161 (broadcastInDim S1x128 ![1] bcast_S128_S1x128_1 : (⟨S128, .f32⟩ : BufTy).Contents (Elt F) → (⟨S1x128, .f32⟩ : BufTy).Contents (Elt F)),
    unary main_v161 main_v162 (broadcastInDim S6250x128 ![0, 1] bcast_S1x128_S6250x128_0_1 : (⟨S1x128, .f32⟩ : BufTy).Contents (Elt F) → (⟨S6250x128, .f32⟩ : BufTy).Contents (Elt F)),
    binary main_v160 main_v162 main_v163 (addf : (⟨S6250x128, .f32⟩ : BufTy).Contents (Elt F) → (⟨S6250x128, .f32⟩ : BufTy).Contents (Elt F) → (⟨S6250x128, .f32⟩ : BufTy).Contents (Elt F)) ]

abbrev rc8 : List (HloOp τ sig (Elt F)) :=
  [ binary main_v163 main_arg27 main_v164 ((fun l r => Host.dotGeneral dot_S6250x128_S128x128_S6250x128_1_0_0_1_n_n none l r) : (⟨S6250x128, .f32⟩ : BufTy).Contents (Elt F) → (⟨S128x128, .f32⟩ : BufTy).Contents (Elt F) → (⟨S6250x128, .f32⟩ : BufTy).Contents (Elt F)),
    unary main_arg28 main_v165 (broadcastInDim S1x128 ![1] bcast_S128_S1x128_1 : (⟨S128, .f32⟩ : BufTy).Contents (Elt F) → (⟨S1x128, .f32⟩ : BufTy).Contents (Elt F)),
    unary main_v165 main_v166 (broadcastInDim S6250x128 ![0, 1] bcast_S1x128_S6250x128_0_1 : (⟨S1x128, .f32⟩ : BufTy).Contents (Elt F) → (⟨S6250x128, .f32⟩ : BufTy).Contents (Elt F)),
    binary main_v164 main_v166 main_v167 (addf : (⟨S6250x128, .f32⟩ : BufTy).Contents (Elt F) → (⟨S6250x128, .f32⟩ : BufTy).Contents (Elt F) → (⟨S6250x128, .f32⟩ : BufTy).Contents (Elt F)) ]

abbrev rc9a : List (HloOp τ sig (Elt F)) :=
  [ nullary main_c_49 (constantI S_ 32 0#32),
    unary main_c_49 main_v168 (broadcastInDim S100000 ![] bcast_S_S100000 : (⟨S_, .i32⟩ : BufTy).Contents (Elt F) → (⟨S100000, .i32⟩ : BufTy).Contents (Elt F)),
    binary main_arg11 main_v168 main_v169 (cmpi .slt : (⟨S100000, .i32⟩ : BufTy).Contents (Elt F) → (⟨S100000, .i32⟩ : BufTy).Contents (Elt F) → (⟨S100000, .i1⟩ : BufTy).Contents (Elt F)),
    nullary main_c_50 (constantI S_ 32 6250#32),
    unary main_c_50 main_v170 (broadcastInDim S100000 ![] bcast_S_S100000 : (⟨S_, .i32⟩ : BufTy).Contents (Elt F) → (⟨S100000, .i32⟩ : BufTy).Contents (Elt F)),
    binary main_arg11 main_v170 main_v171 (addi : (⟨S100000, .i32⟩ : BufTy).Contents (Elt F) → (⟨S100000, .i32⟩ : BufTy).Contents (Elt F) → (⟨S100000, .i32⟩ : BufTy).Contents (Elt F)),
    ternary main_v169 main_v171 main_arg11 main_v172 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v172 main_v173 (broadcastInDim S100000x1 ![0] bcast_S100000_S100000x1_0 : (⟨S100000, .i32⟩ : BufTy).Contents (Elt F) → (⟨S100000x1, .i32⟩ : BufTy).Contents (Elt F)),
    binary main_v167 main_v173 main_v174 ((fun x i => Host.gather gather_S6250x128_S100000x1_S100000x128_1_0_n_n_0_1_1128 x i) : (⟨S6250x128, .f32⟩ : BufTy).Contents (Elt F) → (⟨S100000x1, .i32⟩ : BufTy).Contents (Elt F) → (⟨S100000x128, .f32⟩ : BufTy).Contents (Elt F)),
    nullary main_cst_51 (constant S_ .f32 0x00000000#32),
    unary main_cst_51 main_v175 (broadcastInDim S25000x128 ![] bcast_S_S25000x128 : (⟨S_, .f32⟩ : BufTy).Contents (Elt F) → (⟨S25000x128, .f32⟩ : BufTy).Contents (Elt F)),
    unary main_arg12 main_v176 (broadcastInDim S100000x1 ![0] bcast_S100000_S100000x1_0 : (⟨S100000, .i32⟩ : BufTy).Contents (Elt F) → (⟨S100000x1, .i32⟩ : BufTy).Contents (Elt F)),
    ternary main_v175 main_v176 main_v174 main_v177 ((fun x i u => Host.scatterAdd scatter_S25000x128_S100000x1_S100000x128_1_0_0_1 x i u) : (⟨S25000x128, .f32⟩ : BufTy).Contents (Elt F) → (⟨S100000x1, .i32⟩ : BufTy).Contents (Elt F) → (⟨S100000x128, .f32⟩ : BufTy).Contents (Elt F) → (⟨S25000x128, .f32⟩ : BufTy).Contents (Elt F)),
    nullary main_cst_52 (constant S_ .f32 0x3F800000#32),
    unary main_cst_52 main_v178 (broadcastInDim S100000 ![] bcast_S_S100000 : (⟨S_, .f32⟩ : BufTy).Contents (Elt F) → (⟨S100000, .f32⟩ : BufTy).Contents (Elt F)),
    nullary main_cst_53 (constant S_ .f32 0x00000000#32),
    unary main_cst_53 main_v179 (broadcastInDim S25000 ![] bcast_S_S25000 : (⟨S_, .f32⟩ : BufTy).Contents (Elt F) → (⟨S25000, .f32⟩ : BufTy).Contents (Elt F)),
    unary main_arg12 main_v180 (broadcastInDim S100000x1 ![0] bcast_S100000_S100000x1_0 : (⟨S100000, .i32⟩ : BufTy).Contents (Elt F) → (⟨S100000x1, .i32⟩ : BufTy).Contents (Elt F)),
    ternary main_v179 main_v180 main_v178 main_v181 ((fun x i u => Host.scatterAdd scatter_S25000_S100000x1_S100000_n_0_0_1 x i u) : (⟨S25000, .f32⟩ : BufTy).Contents (Elt F) → (⟨S100000x1, .i32⟩ : BufTy).Contents (Elt F) → (⟨S100000, .f32⟩ : BufTy).Contents (Elt F) → (⟨S25000, .f32⟩ : BufTy).Contents (Elt F)),
    nullary main_cst_54 (constant S_ .f32 0x3F800000#32),
    unary main_cst_54 main_v182 (broadcastInDim S25000 ![] bcast_S_S25000 : (⟨S_, .f32⟩ : BufTy).Contents (Elt F) → (⟨S25000, .f32⟩ : BufTy).Contents (Elt F)) ]

abbrev rc9b : List (HloOp τ sig (Elt F)) :=
  [ binary main_v181 main_v182 main_v183 (maximumf : (⟨S25000, .f32⟩ : BufTy).Contents (Elt F) → (⟨S25000, .f32⟩ : BufTy).Contents (Elt F) → (⟨S25000, .f32⟩ : BufTy).Contents (Elt F)),
    unary main_v183 main_v184 (broadcastInDim S25000x1 ![0] bcast_S25000_S25000x1_0 : (⟨S25000, .f32⟩ : BufTy).Contents (Elt F) → (⟨S25000x1, .f32⟩ : BufTy).Contents (Elt F)),
    unary main_v184 main_v185 (broadcastInDim S25000x128 ![0, 1] bcast_S25000x1_S25000x128_0_1 : (⟨S25000x1, .f32⟩ : BufTy).Contents (Elt F) → (⟨S25000x128, .f32⟩ : BufTy).Contents (Elt F)),
    binary main_v177 main_v185 main_v186 (Host.divf : (⟨S25000x128, .f32⟩ : BufTy).Contents (Elt F) → (⟨S25000x128, .f32⟩ : BufTy).Contents (Elt F) → (⟨S25000x128, .f32⟩ : BufTy).Contents (Elt F)) ]

abbrev rc10 : List (HloOp τ sig (Elt F)) :=
  [ binary main_v186 main_arg29 main_v187 ((fun l r => Host.dotGeneral dot_S25000x128_S128x128_S25000x128_1_0_0_1_n_n none l r) : (⟨S25000x128, .f32⟩ : BufTy).Contents (Elt F) → (⟨S128x128, .f32⟩ : BufTy).Contents (Elt F) → (⟨S25000x128, .f32⟩ : BufTy).Contents (Elt F)),
    unary main_arg30 main_v188 (broadcastInDim S1x128 ![1] bcast_S128_S1x128_1 : (⟨S128, .f32⟩ : BufTy).Contents (Elt F) → (⟨S1x128, .f32⟩ : BufTy).Contents (Elt F)),
    unary main_v188 main_v189 (broadcastInDim S25000x128 ![0, 1] bcast_S1x128_S25000x128_0_1 : (⟨S1x128, .f32⟩ : BufTy).Contents (Elt F) → (⟨S25000x128, .f32⟩ : BufTy).Contents (Elt F)),
    binary main_v187 main_v189 main_v190 (addf : (⟨S25000x128, .f32⟩ : BufTy).Contents (Elt F) → (⟨S25000x128, .f32⟩ : BufTy).Contents (Elt F) → (⟨S25000x128, .f32⟩ : BufTy).Contents (Elt F)) ]

abbrev rc11 : List (HloOp τ sig (Elt F)) :=
  [ nullary main_c_55 (constantI S_ 32 0#32),
    unary main_c_55 main_v191 (broadcastInDim S400000 ![] bcast_S_S400000 : (⟨S_, .i32⟩ : BufTy).Contents (Elt F) → (⟨S400000, .i32⟩ : BufTy).Contents (Elt F)),
    binary main_arg13 main_v191 main_v192 (cmpi .slt : (⟨S400000, .i32⟩ : BufTy).Contents (Elt F) → (⟨S400000, .i32⟩ : BufTy).Contents (Elt F) → (⟨S400000, .i1⟩ : BufTy).Contents (Elt F)),
    nullary main_c_56 (constantI S_ 32 25000#32),
    unary main_c_56 main_v193 (broadcastInDim S400000 ![] bcast_S_S400000 : (⟨S_, .i32⟩ : BufTy).Contents (Elt F) → (⟨S400000, .i32⟩ : BufTy).Contents (Elt F)),
    binary main_arg13 main_v193 main_v194 (addi : (⟨S400000, .i32⟩ : BufTy).Contents (Elt F) → (⟨S400000, .i32⟩ : BufTy).Contents (Elt F) → (⟨S400000, .i32⟩ : BufTy).Contents (Elt F)),
    ternary main_v192 main_v194 main_arg13 main_v195 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v195 main_v196 (broadcastInDim S400000x1 ![0] bcast_S400000_S400000x1_0 : (⟨S400000, .i32⟩ : BufTy).Contents (Elt F) → (⟨S400000x1, .i32⟩ : BufTy).Contents (Elt F)),
    binary main_v190 main_v196 main_v197 ((fun x i => Host.gather gather_S25000x128_S400000x1_S400000x128_1_0_n_n_0_1_1128 x i) : (⟨S25000x128, .f32⟩ : BufTy).Contents (Elt F) → (⟨S400000x1, .i32⟩ : BufTy).Contents (Elt F) → (⟨S400000x128, .f32⟩ : BufTy).Contents (Elt F)),
    nullary main_cst_57 (constant S_ .f32 0x00000000#32),
    unary main_cst_57 main_v198 (broadcastInDim S100000x128 ![] bcast_S_S100000x128 : (⟨S_, .f32⟩ : BufTy).Contents (Elt F) → (⟨S100000x128, .f32⟩ : BufTy).Contents (Elt F)),
    unary main_arg14 main_v199 (broadcastInDim S400000x1 ![0] bcast_S400000_S400000x1_0 : (⟨S400000, .i32⟩ : BufTy).Contents (Elt F) → (⟨S400000x1, .i32⟩ : BufTy).Contents (Elt F)),
    ternary main_v198 main_v199 main_v197 main_v200 ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F)),
    nullary main_cst_58 (constant S_ .f32 0x3F800000#32),
    unary main_cst_58 main_v201 (broadcastInDim S400000 ![] bcast_S_S400000 : (⟨S_, .f32⟩ : BufTy).Contents (Elt F) → (⟨S400000, .f32⟩ : BufTy).Contents (Elt F)),
    nullary main_cst_59 (constant S_ .f32 0x00000000#32),
    unary main_cst_59 main_v202 (broadcastInDim S100000 ![] bcast_S_S100000 : (⟨S_, .f32⟩ : BufTy).Contents (Elt F) → (⟨S100000, .f32⟩ : BufTy).Contents (Elt F)),
    unary main_arg14 main_v203 (broadcastInDim S400000x1 ![0] bcast_S400000_S400000x1_0 : (⟨S400000, .i32⟩ : BufTy).Contents (Elt F) → (⟨S400000x1, .i32⟩ : BufTy).Contents (Elt F)),
    ternary main_v202 main_v203 main_v201 main_v204 ((fun x i u => Host.scatterAdd scatter_S100000_S400000x1_S400000_n_0_0_1 x i u) : (⟨S100000, .f32⟩ : BufTy).Contents (Elt F) → (⟨S400000x1, .i32⟩ : BufTy).Contents (Elt F) → (⟨S400000, .f32⟩ : BufTy).Contents (Elt F) → (⟨S100000, .f32⟩ : BufTy).Contents (Elt F)),
    nullary main_cst_60 (constant S_ .f32 0x3F800000#32),
    unary main_cst_60 main_v205 (broadcastInDim S100000 ![] bcast_S_S100000 : (⟨S_, .f32⟩ : BufTy).Contents (Elt F) → (⟨S100000, .f32⟩ : BufTy).Contents (Elt F)),
    binary main_v204 main_v205 main_v206 (maximumf : (⟨S100000, .f32⟩ : BufTy).Contents (Elt F) → (⟨S100000, .f32⟩ : BufTy).Contents (Elt F) → (⟨S100000, .f32⟩ : BufTy).Contents (Elt F)),
    unary main_v206 main_v207 (broadcastInDim S100000x1 ![0] bcast_S100000_S100000x1_0 : (⟨S100000, .f32⟩ : BufTy).Contents (Elt F) → (⟨S100000x1, .f32⟩ : BufTy).Contents (Elt F)),
    unary main_v207 main_v208 (broadcastInDim S100000x128 ![0, 1] bcast_S100000x1_S100000x128_0_1 : (⟨S100000x1, .f32⟩ : BufTy).Contents (Elt F) → (⟨S100000x128, .f32⟩ : BufTy).Contents (Elt F)),
    binary main_v200 main_v208 main_v209 (Host.divf : (⟨S100000x128, .f32⟩ : BufTy).Contents (Elt F) → (⟨S100000x128, .f32⟩ : BufTy).Contents (Elt F) → (⟨S100000x128, .f32⟩ : BufTy).Contents (Elt F)) ]

abbrev rc12 : List (HloOp τ sig (Elt F)) :=
  [ binary main_v87 main_v209 main_v210 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    binary main_v210 main_arg31 main_v211 ((fun l r => Host.dotGeneral dot_S100000x256_S256x5_S100000x5_1_0_0_1_n_n none l r) : (⟨S100000x256, .f32⟩ : BufTy).Contents (Elt F) → (⟨S256x5, .f32⟩ : BufTy).Contents (Elt F) → (⟨S100000x5, .f32⟩ : BufTy).Contents (Elt F)),
    unary main_arg32 main_v212 (broadcastInDim S1x5 ![1] bcast_S5_S1x5_1 : (⟨S5, .f32⟩ : BufTy).Contents (Elt F) → (⟨S1x5, .f32⟩ : BufTy).Contents (Elt F)),
    unary main_v212 main_v213 (broadcastInDim S100000x5 ![0, 1] bcast_S1x5_S100000x5_0_1 : (⟨S1x5, .f32⟩ : BufTy).Contents (Elt F) → (⟨S100000x5, .f32⟩ : BufTy).Contents (Elt F)),
    binary main_v211 main_v213 main_v214 (addf : (⟨S100000x5, .f32⟩ : BufTy).Contents (Elt F) → (⟨S100000x5, .f32⟩ : BufTy).Contents (Elt F) → (⟨S100000x5, .f32⟩ : BufTy).Contents (Elt F)),
    nullary main_cst_61 (constant S_ .f32 0xFF800000#32),
    binary main_v214 main_cst_61 main_v215 ((fun x v => Host.reduce FloatOps.maximumf x v reducesTo_S100000x5_S100000_d1 h_S_) : (⟨S100000x5, .f32⟩ : BufTy).Contents (Elt F) → (⟨S_, .f32⟩ : BufTy).Contents (Elt F) → (⟨S100000, .f32⟩ : BufTy).Contents (Elt F)),
    nullary main_cst_62 (constant S_ .f32 0xFF800000#32),
    unary main_cst_62 main_v216 (broadcastInDim S100000 ![] bcast_S_S100000 : (⟨S_, .f32⟩ : BufTy).Contents (Elt F) → (⟨S100000, .f32⟩ : BufTy).Contents (Elt F)),
    binary main_v216 main_v215 main_v217 (maximumf : (⟨S100000, .f32⟩ : BufTy).Contents (Elt F) → (⟨S100000, .f32⟩ : BufTy).Contents (Elt F) → (⟨S100000, .f32⟩ : BufTy).Contents (Elt F)),
    unary main_v217 main_v218 (broadcastInDim S100000x1 ![0] bcast_S100000_S100000x1_0 : (⟨S100000, .f32⟩ : BufTy).Contents (Elt F) → (⟨S100000x1, .f32⟩ : BufTy).Contents (Elt F)),
    unary main_v218 main_v219 (broadcastInDim S100000x5 ![0, 1] bcast_S100000x1_S100000x5_0_1 : (⟨S100000x1, .f32⟩ : BufTy).Contents (Elt F) → (⟨S100000x5, .f32⟩ : BufTy).Contents (Elt F)),
    binary main_v214 main_v219 main_v220 (subf : (⟨S100000x5, .f32⟩ : BufTy).Contents (Elt F) → (⟨S100000x5, .f32⟩ : BufTy).Contents (Elt F) → (⟨S100000x5, .f32⟩ : BufTy).Contents (Elt F)),
    unary main_v220 main_v221 (Host.exp : (⟨S100000x5, .f32⟩ : BufTy).Contents (Elt F) → (⟨S100000x5, .f32⟩ : BufTy).Contents (Elt F)),
    nullary main_cst_63 (constant S_ .f32 0x00000000#32),
    binary main_v221 main_cst_63 main_v222 ((fun x v => Host.reduceAdd x v reducesTo_S100000x5_S100000_d1 h_S_) : (⟨S100000x5, .f32⟩ : BufTy).Contents (Elt F) → (⟨S_, .f32⟩ : BufTy).Contents (Elt F) → (⟨S100000, .f32⟩ : BufTy).Contents (Elt F)),
    unary main_v222 main_v223 (broadcastInDim S100000x1 ![0] bcast_S100000_S100000x1_0 : (⟨S100000, .f32⟩ : BufTy).Contents (Elt F) → (⟨S100000x1, .f32⟩ : BufTy).Contents (Elt F)),
    unary main_v223 main_v224 (broadcastInDim S100000x5 ![0, 1] bcast_S100000x1_S100000x5_0_1 : (⟨S100000x1, .f32⟩ : BufTy).Contents (Elt F) → (⟨S100000x5, .f32⟩ : BufTy).Contents (Elt F)),
    binary main_v221 main_v224 main_v225 (Host.divf : (⟨S100000x5, .f32⟩ : BufTy).Contents (Elt F) → (⟨S100000x5, .f32⟩ : BufTy).Contents (Elt F) → (⟨S100000x5, .f32⟩ : BufTy).Contents (Elt F)) ]

abbrev rc13a : List (HloOp τ sig (Elt F)) :=
  [ binary main_v125 main_v186 main_v226 ((fun a b => concatenate S25000x256 1 [⟨S25000x128, a⟩, ⟨S25000x128, b⟩] concatenates_S25000x128_S25000x128_S25000x256_d1) : (⟨S25000x128, .f32⟩ : BufTy).Contents (Elt F) → (⟨S25000x128, .f32⟩ : BufTy).Contents (Elt F) → (⟨S25000x256, .f32⟩ : BufTy).Contents (Elt F)),
    binary main_v226 main_arg33 main_v227 ((fun l r => Host.dotGeneral dot_S25000x256_S256x5_S25000x5_1_0_0_1_n_n none l r) : (⟨S25000x256, .f32⟩ : BufTy).Contents (Elt F) → (⟨S256x5, .f32⟩ : BufTy).Contents (Elt F) → (⟨S25000x5, .f32⟩ : BufTy).Contents (Elt F)),
    unary main_arg34 main_v228 (broadcastInDim S1x5 ![1] bcast_S5_S1x5_1 : (⟨S5, .f32⟩ : BufTy).Contents (Elt F) → (⟨S1x5, .f32⟩ : BufTy).Contents (Elt F)),
    unary main_v228 main_v229 (broadcastInDim S25000x5 ![0, 1] bcast_S1x5_S25000x5_0_1 : (⟨S1x5, .f32⟩ : BufTy).Contents (Elt F) → (⟨S25000x5, .f32⟩ : BufTy).Contents (Elt F)),
    binary main_v227 main_v229 main_v230 (addf : (⟨S25000x5, .f32⟩ : BufTy).Contents (Elt F) → (⟨S25000x5, .f32⟩ : BufTy).Contents (Elt F) → (⟨S25000x5, .f32⟩ : BufTy).Contents (Elt F)),
    nullary main_cst_64 (constant S_ .f32 0xFF800000#32),
    binary main_v230 main_cst_64 main_v231 ((fun x v => Host.reduce FloatOps.maximumf x v reducesTo_S25000x5_S25000_d1 h_S_) : (⟨S25000x5, .f32⟩ : BufTy).Contents (Elt F) → (⟨S_, .f32⟩ : BufTy).Contents (Elt F) → (⟨S25000, .f32⟩ : BufTy).Contents (Elt F)),
    nullary main_cst_65 (constant S_ .f32 0xFF800000#32) ]

abbrev rc13b : List (HloOp τ sig (Elt F)) :=
  [ unary main_cst_65 main_v232 (broadcastInDim S25000 ![] bcast_S_S25000 : (⟨S_, .f32⟩ : BufTy).Contents (Elt F) → (⟨S25000, .f32⟩ : BufTy).Contents (Elt F)),
    binary main_v232 main_v231 main_v233 (maximumf : (⟨S25000, .f32⟩ : BufTy).Contents (Elt F) → (⟨S25000, .f32⟩ : BufTy).Contents (Elt F) → (⟨S25000, .f32⟩ : BufTy).Contents (Elt F)),
    unary main_v233 main_v234 (broadcastInDim S25000x1 ![0] bcast_S25000_S25000x1_0 : (⟨S25000, .f32⟩ : BufTy).Contents (Elt F) → (⟨S25000x1, .f32⟩ : BufTy).Contents (Elt F)),
    unary main_v234 main_v235 (broadcastInDim S25000x5 ![0, 1] bcast_S25000x1_S25000x5_0_1 : (⟨S25000x1, .f32⟩ : BufTy).Contents (Elt F) → (⟨S25000x5, .f32⟩ : BufTy).Contents (Elt F)),
    binary main_v230 main_v235 main_v236 (subf : (⟨S25000x5, .f32⟩ : BufTy).Contents (Elt F) → (⟨S25000x5, .f32⟩ : BufTy).Contents (Elt F) → (⟨S25000x5, .f32⟩ : BufTy).Contents (Elt F)),
    unary main_v236 main_v237 (Host.exp : (⟨S25000x5, .f32⟩ : BufTy).Contents (Elt F) → (⟨S25000x5, .f32⟩ : BufTy).Contents (Elt F)),
    nullary main_cst_66 (constant S_ .f32 0x00000000#32),
    binary main_v237 main_cst_66 main_v238 ((fun x v => Host.reduceAdd x v reducesTo_S25000x5_S25000_d1 h_S_) : (⟨S25000x5, .f32⟩ : BufTy).Contents (Elt F) → (⟨S_, .f32⟩ : BufTy).Contents (Elt F) → (⟨S25000, .f32⟩ : BufTy).Contents (Elt F)),
    unary main_v238 main_v239 (broadcastInDim S25000x1 ![0] bcast_S25000_S25000x1_0 : (⟨S25000, .f32⟩ : BufTy).Contents (Elt F) → (⟨S25000x1, .f32⟩ : BufTy).Contents (Elt F)),
    unary main_v239 main_v240 (broadcastInDim S25000x5 ![0, 1] bcast_S25000x1_S25000x5_0_1 : (⟨S25000x1, .f32⟩ : BufTy).Contents (Elt F) → (⟨S25000x5, .f32⟩ : BufTy).Contents (Elt F)),
    binary main_v237 main_v240 main_v241 (Host.divf : (⟨S25000x5, .f32⟩ : BufTy).Contents (Elt F) → (⟨S25000x5, .f32⟩ : BufTy).Contents (Elt F) → (⟨S25000x5, .f32⟩ : BufTy).Contents (Elt F)) ]

abbrev rc14 : List (HloOp τ sig (Elt F)) :=
  [ binary main_v163 main_v163 main_v242 ((fun a b => concatenate S6250x256 1 [⟨S6250x128, a⟩, ⟨S6250x128, b⟩] concatenates_S6250x128_S6250x128_S6250x256_d1) : (⟨S6250x128, .f32⟩ : BufTy).Contents (Elt F) → (⟨S6250x128, .f32⟩ : BufTy).Contents (Elt F) → (⟨S6250x256, .f32⟩ : BufTy).Contents (Elt F)),
    binary main_v242 main_arg35 main_v243 ((fun l r => Host.dotGeneral dot_S6250x256_S256x5_S6250x5_1_0_0_1_n_n none l r) : (⟨S6250x256, .f32⟩ : BufTy).Contents (Elt F) → (⟨S256x5, .f32⟩ : BufTy).Contents (Elt F) → (⟨S6250x5, .f32⟩ : BufTy).Contents (Elt F)),
    unary main_arg36 main_v244 (broadcastInDim S1x5 ![1] bcast_S5_S1x5_1 : (⟨S5, .f32⟩ : BufTy).Contents (Elt F) → (⟨S1x5, .f32⟩ : BufTy).Contents (Elt F)),
    unary main_v244 main_v245 (broadcastInDim S6250x5 ![0, 1] bcast_S1x5_S6250x5_0_1 : (⟨S1x5, .f32⟩ : BufTy).Contents (Elt F) → (⟨S6250x5, .f32⟩ : BufTy).Contents (Elt F)),
    binary main_v243 main_v245 main_v246 (addf : (⟨S6250x5, .f32⟩ : BufTy).Contents (Elt F) → (⟨S6250x5, .f32⟩ : BufTy).Contents (Elt F) → (⟨S6250x5, .f32⟩ : BufTy).Contents (Elt F)),
    nullary main_cst_67 (constant S_ .f32 0xFF800000#32),
    binary main_v246 main_cst_67 main_v247 ((fun x v => Host.reduce FloatOps.maximumf x v reducesTo_S6250x5_S6250_d1 h_S_) : (⟨S6250x5, .f32⟩ : BufTy).Contents (Elt F) → (⟨S_, .f32⟩ : BufTy).Contents (Elt F) → (⟨S6250, .f32⟩ : BufTy).Contents (Elt F)),
    nullary main_cst_68 (constant S_ .f32 0xFF800000#32),
    unary main_cst_68 main_v248 (broadcastInDim S6250 ![] bcast_S_S6250 : (⟨S_, .f32⟩ : BufTy).Contents (Elt F) → (⟨S6250, .f32⟩ : BufTy).Contents (Elt F)),
    binary main_v248 main_v247 main_v249 (maximumf : (⟨S6250, .f32⟩ : BufTy).Contents (Elt F) → (⟨S6250, .f32⟩ : BufTy).Contents (Elt F) → (⟨S6250, .f32⟩ : BufTy).Contents (Elt F)),
    unary main_v249 main_v250 (broadcastInDim S6250x1 ![0] bcast_S6250_S6250x1_0 : (⟨S6250, .f32⟩ : BufTy).Contents (Elt F) → (⟨S6250x1, .f32⟩ : BufTy).Contents (Elt F)),
    unary main_v250 main_v251 (broadcastInDim S6250x5 ![0, 1] bcast_S6250x1_S6250x5_0_1 : (⟨S6250x1, .f32⟩ : BufTy).Contents (Elt F) → (⟨S6250x5, .f32⟩ : BufTy).Contents (Elt F)),
    binary main_v246 main_v251 main_v252 (subf : (⟨S6250x5, .f32⟩ : BufTy).Contents (Elt F) → (⟨S6250x5, .f32⟩ : BufTy).Contents (Elt F) → (⟨S6250x5, .f32⟩ : BufTy).Contents (Elt F)),
    unary main_v252 main_v253 (Host.exp : (⟨S6250x5, .f32⟩ : BufTy).Contents (Elt F) → (⟨S6250x5, .f32⟩ : BufTy).Contents (Elt F)),
    nullary main_cst_69 (constant S_ .f32 0x00000000#32),
    binary main_v253 main_cst_69 main_v254 ((fun x v => Host.reduceAdd x v reducesTo_S6250x5_S6250_d1 h_S_) : (⟨S6250x5, .f32⟩ : BufTy).Contents (Elt F) → (⟨S_, .f32⟩ : BufTy).Contents (Elt F) → (⟨S6250, .f32⟩ : BufTy).Contents (Elt F)),
    unary main_v254 main_v255 (broadcastInDim S6250x1 ![0] bcast_S6250_S6250x1_0 : (⟨S6250, .f32⟩ : BufTy).Contents (Elt F) → (⟨S6250x1, .f32⟩ : BufTy).Contents (Elt F)),
    unary main_v255 main_v256 (broadcastInDim S6250x5 ![0, 1] bcast_S6250x1_S6250x5_0_1 : (⟨S6250x1, .f32⟩ : BufTy).Contents (Elt F) → (⟨S6250x5, .f32⟩ : BufTy).Contents (Elt F)),
    binary main_v253 main_v256 main_v257 (Host.divf : (⟨S6250x5, .f32⟩ : BufTy).Contents (Elt F) → (⟨S6250x5, .f32⟩ : BufTy).Contents (Elt F) → (⟨S6250x5, .f32⟩ : BufTy).Contents (Elt F)) ]

abbrev rc15 : List (HloOp τ sig (Elt F)) :=
  [ nary ![main_v225, main_v241, main_v257] main_v258 (fun u => concatenate S131250x5 0 [⟨S100000x5, u 0⟩, ⟨S25000x5, u 1⟩, ⟨S6250x5, u 2⟩] concatenates_S100000x5_S25000x5_S6250x5_S131250x5_d0) ]

abbrev rc4 : List (HloOp τ sig (Elt F)) := rc4a ++ rc4b

abbrev rc6 : List (HloOp τ sig (Elt F)) := rc6a ++ rc6b

abbrev rc7 : List (HloOp τ sig (Elt F)) := rc7a ++ rc7b

abbrev rc9 : List (HloOp τ sig (Elt F)) := rc9a ++ rc9b

abbrev rc13 : List (HloOp τ sig (Elt F)) := rc13a ++ rc13b

theorem writesIn_append {l₁ l₂ : List (HloOp τ sig (Elt F))} {W₁ W₂ : List (Ref sig .tc)}
    (h₁ : Cert.LibAfter.WritesIn l₁ W₁) (h₂ : Cert.LibAfter.WritesIn l₂ W₂) : Cert.LibAfter.WritesIn (l₁ ++ l₂) (W₁ ++ W₂) := by
  unfold Cert.LibAfter.WritesIn at *
  rw [List.forall_iff_forall_mem] at *
  intro op hop
  rcases List.mem_append.mp hop with h | h
  · exact (h₁ op h).trans fun x hx => by
      rw [List.mem_toFinset, List.mem_map] at hx ⊢
      obtain ⟨y, hy, e⟩ := hx
      exact ⟨y, List.mem_append.mpr (Or.inl hy), e⟩
  · exact (h₂ op h).trans fun x hx => by
      rw [List.mem_toFinset, List.mem_map] at hx ⊢
      obtain ⟨y, hy, e⟩ := hx
      exact ⟨y, List.mem_append.mpr (Or.inr hy), e⟩

abbrev rcW_0 : List (Ref sig .tc) := [main_v0, main_v1, main_v2, main_v3]
theorem rc_0_writes : Cert.LibAfter.WritesIn (rc0 (F := F)) rcW_0 := by
  unfold Cert.LibAfter.WritesIn
  simp only [List.Forall, StableHlo.nullary_writes, StableHlo.unary_writes, StableHlo.binary_writes, StableHlo.ternary_writes,
    StableHlo.nary_writes, Finset.singleton_subset_iff, List.mem_toFinset]
  repeat' apply And.intro
  all_goals exact List.mem_map_of_mem (by decide)

abbrev rcW_1 : List (Ref sig .tc) := [main_v4, main_v5, main_v6, main_v7]
theorem rc_1_writes : Cert.LibAfter.WritesIn (rc1 (F := F)) rcW_1 := by
  unfold Cert.LibAfter.WritesIn
  simp only [List.Forall, StableHlo.nullary_writes, StableHlo.unary_writes, StableHlo.binary_writes, StableHlo.ternary_writes,
    StableHlo.nary_writes, Finset.singleton_subset_iff, List.mem_toFinset]
  repeat' apply And.intro
  all_goals exact List.mem_map_of_mem (by decide)

abbrev rcW_2 : List (Ref sig .tc) := [main_c, main_v8, main_v9, main_c_0, main_v10, main_v11, main_v12, main_v13, main_v14, main_cst, main_v15, main_v16, main_v17, main_cst_1, main_v18, main_cst_2, main_v19, main_v20, main_v21, main_cst_3, main_v22, main_v23, main_v24, main_v25, main_v26]
theorem rc_2_writes : Cert.LibAfter.WritesIn (rc2 (F := F)) rcW_2 := by
  unfold Cert.LibAfter.WritesIn
  simp only [List.Forall, StableHlo.nullary_writes, StableHlo.unary_writes, StableHlo.binary_writes, StableHlo.ternary_writes,
    StableHlo.nary_writes, Finset.singleton_subset_iff, List.mem_toFinset]
  repeat' apply And.intro
  all_goals exact List.mem_map_of_mem (by decide)

abbrev rcW_3 : List (Ref sig .tc) := [main_v27, main_v28, main_v29, main_v30]
theorem rc_3_writes : Cert.LibAfter.WritesIn (rc3 (F := F)) rcW_3 := by
  unfold Cert.LibAfter.WritesIn
  simp only [List.Forall, StableHlo.nullary_writes, StableHlo.unary_writes, StableHlo.binary_writes, StableHlo.ternary_writes,
    StableHlo.nary_writes, Finset.singleton_subset_iff, List.mem_toFinset]
  repeat' apply And.intro
  all_goals exact List.mem_map_of_mem (by decide)

abbrev rcW_4a : List (Ref sig .tc) := [main_c_4, main_v31, main_v32, main_c_5, main_v33, main_v34, main_v35, main_v36, main_v37, main_cst_6, main_v38, main_v39, main_v40, main_cst_7, main_v41, main_cst_8, main_v42, main_v43, main_v44, main_cst_9, main_v45, main_v46, main_v47]
theorem rc_4a_writes : Cert.LibAfter.WritesIn (rc4a (F := F)) rcW_4a := by
  unfold Cert.LibAfter.WritesIn
  simp only [List.Forall, StableHlo.nullary_writes, StableHlo.unary_writes, StableHlo.binary_writes, StableHlo.ternary_writes,
    StableHlo.nary_writes, Finset.singleton_subset_iff, List.mem_toFinset]
  repeat' apply And.intro
  all_goals exact List.mem_map_of_mem (by decide)

abbrev rcW_4b : List (Ref sig .tc) := [main_v48, main_v49]
theorem rc_4b_writes : Cert.LibAfter.WritesIn (rc4b (F := F)) rcW_4b := by
  unfold Cert.LibAfter.WritesIn
  simp only [List.Forall, StableHlo.nullary_writes, StableHlo.unary_writes, StableHlo.binary_writes, StableHlo.ternary_writes,
    StableHlo.nary_writes, Finset.singleton_subset_iff, List.mem_toFinset]
  repeat' apply And.intro
  all_goals exact List.mem_map_of_mem (by decide)

abbrev rcW_5 : List (Ref sig .tc) := [main_cst_10, main_v50, main_cst_11, main_v51, main_v52, main_v53, main_cst_12, main_v54, main_cst_13, main_v55, main_v56, main_v57, main_cst_14, main_v58, main_v59, main_cst_15, main_v60, main_v61, main_cst_16, main_call0_v0, main_call0_v1, main_v62, main_cst_17, main_v63, main_v64, main_cst_18, main_v65, main_v66, main_cst_19, main_call1_v0, main_call1_v1, main_v67, main_v68, main_v69, main_v70, main_c_20, main_v71, main_v72, main_c_21, main_v73, main_v74, main_v75, main_v76, main_v77, main_cst_22, main_v78, main_v79, main_v80, main_v81, main_v82, main_v83, main_v84, main_v85, main_v86, main_v87]
theorem rc_5_writes : Cert.LibAfter.WritesIn (rc5 (F := F)) rcW_5 := by
  unfold Cert.LibAfter.WritesIn
  simp only [List.Forall, StableHlo.nullary_writes, StableHlo.unary_writes, StableHlo.binary_writes, StableHlo.ternary_writes,
    StableHlo.nary_writes, Finset.singleton_subset_iff, List.mem_toFinset]
  repeat' apply And.intro
  all_goals exact List.mem_map_of_mem (by decide)

abbrev rcW_6a : List (Ref sig .tc) := [main_cst_23, main_v88, main_cst_24, main_v89, main_v90, main_v91, main_cst_25]
theorem rc_6a_writes : Cert.LibAfter.WritesIn (rc6a (F := F)) rcW_6a := by
  unfold Cert.LibAfter.WritesIn
  simp only [List.Forall, StableHlo.nullary_writes, StableHlo.unary_writes, StableHlo.binary_writes, StableHlo.ternary_writes,
    StableHlo.nary_writes, Finset.singleton_subset_iff, List.mem_toFinset]
  repeat' apply And.intro
  all_goals exact List.mem_map_of_mem (by decide)

abbrev rcW_6b : List (Ref sig .tc) := [main_v92, main_cst_26, main_v93, main_v94, main_v95, main_cst_27, main_v96, main_v97, main_cst_28, main_v98, main_v99, main_cst_29, main_call2_v0, main_call2_v1, main_v100, main_cst_30, main_v101, main_v102, main_cst_31, main_v103, main_v104, main_cst_32, main_call3_v0, main_call3_v1, main_v105, main_v106, main_v107, main_v108, main_c_33, main_v109, main_v110, main_c_34, main_v111, main_v112, main_v113, main_v114, main_v115, main_cst_35, main_v116, main_v117, main_v118, main_v119, main_v120, main_v121, main_v122, main_v123, main_v124, main_v125]
theorem rc_6b_writes : Cert.LibAfter.WritesIn (rc6b (F := F)) rcW_6b := by
  unfold Cert.LibAfter.WritesIn
  simp only [List.Forall, StableHlo.nullary_writes, StableHlo.unary_writes, StableHlo.binary_writes, StableHlo.ternary_writes,
    StableHlo.nary_writes, Finset.singleton_subset_iff, List.mem_toFinset]
  repeat' apply And.intro
  all_goals exact List.mem_map_of_mem (by decide)

abbrev rcW_7a : List (Ref sig .tc) := [main_cst_36, main_v126, main_cst_37, main_v127, main_v128, main_v129, main_cst_38, main_v130, main_cst_39, main_v131, main_v132, main_v133, main_cst_40, main_v134, main_v135, main_cst_41]
theorem rc_7a_writes : Cert.LibAfter.WritesIn (rc7a (F := F)) rcW_7a := by
  unfold Cert.LibAfter.WritesIn
  simp only [List.Forall, StableHlo.nullary_writes, StableHlo.unary_writes, StableHlo.binary_writes, StableHlo.ternary_writes,
    StableHlo.nary_writes, Finset.singleton_subset_iff, List.mem_toFinset]
  repeat' apply And.intro
  all_goals exact List.mem_map_of_mem (by decide)

abbrev rcW_7b : List (Ref sig .tc) := [main_v136, main_v137, main_cst_42, main_call4_v0, main_call4_v1, main_v138, main_cst_43, main_v139, main_v140, main_cst_44, main_v141, main_v142, main_cst_45, main_call5_v0, main_call5_v1, main_v143, main_v144, main_v145, main_v146, main_c_46, main_v147, main_v148, main_c_47, main_v149, main_v150, main_v151, main_v152, main_v153, main_cst_48, main_v154, main_v155, main_v156, main_v157, main_v158, main_v159, main_v160, main_v161, main_v162, main_v163]
theorem rc_7b_writes : Cert.LibAfter.WritesIn (rc7b (F := F)) rcW_7b := by
  unfold Cert.LibAfter.WritesIn
  simp only [List.Forall, StableHlo.nullary_writes, StableHlo.unary_writes, StableHlo.binary_writes, StableHlo.ternary_writes,
    StableHlo.nary_writes, Finset.singleton_subset_iff, List.mem_toFinset]
  repeat' apply And.intro
  all_goals exact List.mem_map_of_mem (by decide)

abbrev rcW_8 : List (Ref sig .tc) := [main_v164, main_v165, main_v166, main_v167]
theorem rc_8_writes : Cert.LibAfter.WritesIn (rc8 (F := F)) rcW_8 := by
  unfold Cert.LibAfter.WritesIn
  simp only [List.Forall, StableHlo.nullary_writes, StableHlo.unary_writes, StableHlo.binary_writes, StableHlo.ternary_writes,
    StableHlo.nary_writes, Finset.singleton_subset_iff, List.mem_toFinset]
  repeat' apply And.intro
  all_goals exact List.mem_map_of_mem (by decide)

abbrev rcW_9a : List (Ref sig .tc) := [main_c_49, main_v168, main_v169, main_c_50, main_v170, main_v171, main_v172, main_v173, main_v174, main_cst_51, main_v175, main_v176, main_v177, main_cst_52, main_v178, main_cst_53, main_v179, main_v180, main_v181, main_cst_54, main_v182]
theorem rc_9a_writes : Cert.LibAfter.WritesIn (rc9a (F := F)) rcW_9a := by
  unfold Cert.LibAfter.WritesIn
  simp only [List.Forall, StableHlo.nullary_writes, StableHlo.unary_writes, StableHlo.binary_writes, StableHlo.ternary_writes,
    StableHlo.nary_writes, Finset.singleton_subset_iff, List.mem_toFinset]
  repeat' apply And.intro
  all_goals exact List.mem_map_of_mem (by decide)

abbrev rcW_9b : List (Ref sig .tc) := [main_v183, main_v184, main_v185, main_v186]
theorem rc_9b_writes : Cert.LibAfter.WritesIn (rc9b (F := F)) rcW_9b := by
  unfold Cert.LibAfter.WritesIn
  simp only [List.Forall, StableHlo.nullary_writes, StableHlo.unary_writes, StableHlo.binary_writes, StableHlo.ternary_writes,
    StableHlo.nary_writes, Finset.singleton_subset_iff, List.mem_toFinset]
  repeat' apply And.intro
  all_goals exact List.mem_map_of_mem (by decide)

abbrev rcW_10 : List (Ref sig .tc) := [main_v187, main_v188, main_v189, main_v190]
theorem rc_10_writes : Cert.LibAfter.WritesIn (rc10 (F := F)) rcW_10 := by
  unfold Cert.LibAfter.WritesIn
  simp only [List.Forall, StableHlo.nullary_writes, StableHlo.unary_writes, StableHlo.binary_writes, StableHlo.ternary_writes,
    StableHlo.nary_writes, Finset.singleton_subset_iff, List.mem_toFinset]
  repeat' apply And.intro
  all_goals exact List.mem_map_of_mem (by decide)

abbrev rcW_11 : List (Ref sig .tc) := [main_c_55, main_v191, main_v192, main_c_56, main_v193, main_v194, main_v195, main_v196, main_v197, main_cst_57, main_v198, main_v199, main_v200, main_cst_58, main_v201, main_cst_59, main_v202, main_v203, main_v204, main_cst_60, main_v205, main_v206, main_v207, main_v208, main_v209]
theorem rc_11_writes : Cert.LibAfter.WritesIn (rc11 (F := F)) rcW_11 := by
  unfold Cert.LibAfter.WritesIn
  simp only [List.Forall, StableHlo.nullary_writes, StableHlo.unary_writes, StableHlo.binary_writes, StableHlo.ternary_writes,
    StableHlo.nary_writes, Finset.singleton_subset_iff, List.mem_toFinset]
  repeat' apply And.intro
  all_goals exact List.mem_map_of_mem (by decide)

abbrev rcW_12 : List (Ref sig .tc) := [main_v210, main_v211, main_v212, main_v213, main_v214, main_cst_61, main_v215, main_cst_62, main_v216, main_v217, main_v218, main_v219, main_v220, main_v221, main_cst_63, main_v222, main_v223, main_v224, main_v225]
theorem rc_12_writes : Cert.LibAfter.WritesIn (rc12 (F := F)) rcW_12 := by
  unfold Cert.LibAfter.WritesIn
  simp only [List.Forall, StableHlo.nullary_writes, StableHlo.unary_writes, StableHlo.binary_writes, StableHlo.ternary_writes,
    StableHlo.nary_writes, Finset.singleton_subset_iff, List.mem_toFinset]
  repeat' apply And.intro
  all_goals exact List.mem_map_of_mem (by decide)

abbrev rcW_13a : List (Ref sig .tc) := [main_v226, main_v227, main_v228, main_v229, main_v230, main_cst_64, main_v231, main_cst_65]
theorem rc_13a_writes : Cert.LibAfter.WritesIn (rc13a (F := F)) rcW_13a := by
  unfold Cert.LibAfter.WritesIn
  simp only [List.Forall, StableHlo.nullary_writes, StableHlo.unary_writes, StableHlo.binary_writes, StableHlo.ternary_writes,
    StableHlo.nary_writes, Finset.singleton_subset_iff, List.mem_toFinset]
  repeat' apply And.intro
  all_goals exact List.mem_map_of_mem (by decide)

abbrev rcW_13b : List (Ref sig .tc) := [main_v232, main_v233, main_v234, main_v235, main_v236, main_v237, main_cst_66, main_v238, main_v239, main_v240, main_v241]
theorem rc_13b_writes : Cert.LibAfter.WritesIn (rc13b (F := F)) rcW_13b := by
  unfold Cert.LibAfter.WritesIn
  simp only [List.Forall, StableHlo.nullary_writes, StableHlo.unary_writes, StableHlo.binary_writes, StableHlo.ternary_writes,
    StableHlo.nary_writes, Finset.singleton_subset_iff, List.mem_toFinset]
  repeat' apply And.intro
  all_goals exact List.mem_map_of_mem (by decide)

abbrev rcW_14 : List (Ref sig .tc) := [main_v242, main_v243, main_v244, main_v245, main_v246, main_cst_67, main_v247, main_cst_68, main_v248, main_v249, main_v250, main_v251, main_v252, main_v253, main_cst_69, main_v254, main_v255, main_v256, main_v257]
theorem rc_14_writes : Cert.LibAfter.WritesIn (rc14 (F := F)) rcW_14 := by
  unfold Cert.LibAfter.WritesIn
  simp only [List.Forall, StableHlo.nullary_writes, StableHlo.unary_writes, StableHlo.binary_writes, StableHlo.ternary_writes,
    StableHlo.nary_writes, Finset.singleton_subset_iff, List.mem_toFinset]
  repeat' apply And.intro
  all_goals exact List.mem_map_of_mem (by decide)

abbrev rcW_15 : List (Ref sig .tc) := [main_v258]
theorem rc_15_writes : Cert.LibAfter.WritesIn (rc15 (F := F)) rcW_15 := by
  unfold Cert.LibAfter.WritesIn
  simp only [List.Forall, StableHlo.nullary_writes, StableHlo.unary_writes, StableHlo.binary_writes, StableHlo.ternary_writes,
    StableHlo.nary_writes, Finset.singleton_subset_iff, List.mem_toFinset]
  repeat' apply And.intro
  all_goals exact List.mem_map_of_mem (by decide)

abbrev rcW_4 : List (Ref sig .tc) := rcW_4a ++ rcW_4b
theorem rc_4_writes : Cert.LibAfter.WritesIn (rc4 (F := F)) rcW_4 := writesIn_append rc_4a_writes rc_4b_writes

abbrev rcW_6 : List (Ref sig .tc) := rcW_6a ++ rcW_6b
theorem rc_6_writes : Cert.LibAfter.WritesIn (rc6 (F := F)) rcW_6 := writesIn_append rc_6a_writes rc_6b_writes

abbrev rcW_7 : List (Ref sig .tc) := rcW_7a ++ rcW_7b
theorem rc_7_writes : Cert.LibAfter.WritesIn (rc7 (F := F)) rcW_7 := writesIn_append rc_7a_writes rc_7b_writes

abbrev rcW_9 : List (Ref sig .tc) := rcW_9a ++ rcW_9b
theorem rc_9_writes : Cert.LibAfter.WritesIn (rc9 (F := F)) rcW_9 := writesIn_append rc_9a_writes rc_9b_writes

abbrev rcW_13 : List (Ref sig .tc) := rcW_13a ++ rcW_13b
theorem rc_13_writes : Cert.LibAfter.WritesIn (rc13 (F := F)) rcW_13 := writesIn_append rc_13a_writes rc_13b_writes

def R0 (m : (ℓ : Loc nD τ sig) → Buf (Elt F) ℓ) (c : Dev nD) : Valuation τ sig (Elt F) := launchContents m c

def R1 (m : (ℓ : Loc nD τ sig) → Buf (Elt F) ℓ) (c : Dev nD) : Valuation τ sig (Elt F) := StableHlo.after rc0 (R0 m c)

def R2 (m : (ℓ : Loc nD τ sig) → Buf (Elt F) ℓ) (c : Dev nD) : Valuation τ sig (Elt F) := StableHlo.after rc1 (R1 m c)

def R3 (m : (ℓ : Loc nD τ sig) → Buf (Elt F) ℓ) (c : Dev nD) : Valuation τ sig (Elt F) := StableHlo.after rc2 (R2 m c)

def R4 (m : (ℓ : Loc nD τ sig) → Buf (Elt F) ℓ) (c : Dev nD) : Valuation τ sig (Elt F) := StableHlo.after rc3 (R3 m c)

def R4h (m : (ℓ : Loc nD τ sig) → Buf (Elt F) ℓ) (c : Dev nD) : Valuation τ sig (Elt F) := StableHlo.after rc4a (R4 m c)

def R5 (m : (ℓ : Loc nD τ sig) → Buf (Elt F) ℓ) (c : Dev nD) : Valuation τ sig (Elt F) := StableHlo.after rc4b (R4h m c)

def R6 (m : (ℓ : Loc nD τ sig) → Buf (Elt F) ℓ) (c : Dev nD) : Valuation τ sig (Elt F) := StableHlo.after rc5 (R5 m c)

def R6h (m : (ℓ : Loc nD τ sig) → Buf (Elt F) ℓ) (c : Dev nD) : Valuation τ sig (Elt F) := StableHlo.after rc6a (R6 m c)

def R7 (m : (ℓ : Loc nD τ sig) → Buf (Elt F) ℓ) (c : Dev nD) : Valuation τ sig (Elt F) := StableHlo.after rc6b (R6h m c)

def R7h (m : (ℓ : Loc nD τ sig) → Buf (Elt F) ℓ) (c : Dev nD) : Valuation τ sig (Elt F) := StableHlo.after rc7a (R7 m c)

def R8 (m : (ℓ : Loc nD τ sig) → Buf (Elt F) ℓ) (c : Dev nD) : Valuation τ sig (Elt F) := StableHlo.after rc7b (R7h m c)

def R9 (m : (ℓ : Loc nD τ sig) → Buf (Elt F) ℓ) (c : Dev nD) : Valuation τ sig (Elt F) := StableHlo.after rc8 (R8 m c)

def R9h (m : (ℓ : Loc nD τ sig) → Buf (Elt F) ℓ) (c : Dev nD) : Valuation τ sig (Elt F) := StableHlo.after rc9a (R9 m c)

def R10 (m : (ℓ : Loc nD τ sig) → Buf (Elt F) ℓ) (c : Dev nD) : Valuation τ sig (Elt F) := StableHlo.after rc9b (R9h m c)

def R11 (m : (ℓ : Loc nD τ sig) → Buf (Elt F) ℓ) (c : Dev nD) : Valuation τ sig (Elt F) := StableHlo.after rc10 (R10 m c)

def R12 (m : (ℓ : Loc nD τ sig) → Buf (Elt F) ℓ) (c : Dev nD) : Valuation τ sig (Elt F) := StableHlo.after rc11 (R11 m c)

def R13 (m : (ℓ : Loc nD τ sig) → Buf (Elt F) ℓ) (c : Dev nD) : Valuation τ sig (Elt F) := StableHlo.after rc12 (R12 m c)

def R13h (m : (ℓ : Loc nD τ sig) → Buf (Elt F) ℓ) (c : Dev nD) : Valuation τ sig (Elt F) := StableHlo.after rc13a (R13 m c)

def R14 (m : (ℓ : Loc nD τ sig) → Buf (Elt F) ℓ) (c : Dev nD) : Valuation τ sig (Elt F) := StableHlo.after rc13b (R13h m c)

def R15 (m : (ℓ : Loc nD τ sig) → Buf (Elt F) ℓ) (c : Dev nD) : Valuation τ sig (Elt F) := StableHlo.after rc14 (R14 m c)

def R16 (m : (ℓ : Loc nD τ sig) → Buf (Elt F) ℓ) (c : Dev nD) : Valuation τ sig (Elt F) := StableHlo.after rc15 (R15 m c)

variable (m : (ℓ : Loc nD τ sig) → Buf (Elt F) ℓ) (c : Dev nD)

theorem R1_eq : R1 m c = StableHlo.after rc0 (R0 m c) := rfl
theorem R2_eq : R2 m c = StableHlo.after rc1 (R1 m c) := rfl
theorem R3_eq : R3 m c = StableHlo.after rc2 (R2 m c) := rfl
theorem R4_eq : R4 m c = StableHlo.after rc3 (R3 m c) := rfl
theorem R5_eq : R5 m c = StableHlo.after rc4 (R4 m c) := (Cert.LibAfter.after_append rc4a rc4b (R4 m c)).symm
theorem R6_eq : R6 m c = StableHlo.after rc5 (R5 m c) := rfl
theorem R7_eq : R7 m c = StableHlo.after rc6 (R6 m c) := (Cert.LibAfter.after_append rc6a rc6b (R6 m c)).symm
theorem R8_eq : R8 m c = StableHlo.after rc7 (R7 m c) := (Cert.LibAfter.after_append rc7a rc7b (R7 m c)).symm
theorem R9_eq : R9 m c = StableHlo.after rc8 (R8 m c) := rfl
theorem R10_eq : R10 m c = StableHlo.after rc9 (R9 m c) := (Cert.LibAfter.after_append rc9a rc9b (R9 m c)).symm
theorem R11_eq : R11 m c = StableHlo.after rc10 (R10 m c) := rfl
theorem R12_eq : R12 m c = StableHlo.after rc11 (R11 m c) := rfl
theorem R13_eq : R13 m c = StableHlo.after rc12 (R12 m c) := rfl
theorem R14_eq : R14 m c = StableHlo.after rc13 (R13 m c) := (Cert.LibAfter.after_append rc13a rc13b (R13 m c)).symm
theorem R15_eq : R15 m c = StableHlo.after rc14 (R14 m c) := rfl
theorem R16_eq : R16 m c = StableHlo.after rc15 (R15 m c) := rfl

theorem R_keep_0 {r : Ref sig .tc} (hr : r ∉ rcW_0) : R1 m c (Proc.devRef .tc r) = R0 m c (Proc.devRef .tc r) :=
  Cert.LibAfter.keep rc_0_writes (R0 m c) hr
theorem R_keep_1 {r : Ref sig .tc} (hr : r ∉ rcW_1) : R2 m c (Proc.devRef .tc r) = R1 m c (Proc.devRef .tc r) :=
  Cert.LibAfter.keep rc_1_writes (R1 m c) hr
theorem R_keep_2 {r : Ref sig .tc} (hr : r ∉ rcW_2) : R3 m c (Proc.devRef .tc r) = R2 m c (Proc.devRef .tc r) :=
  Cert.LibAfter.keep rc_2_writes (R2 m c) hr
theorem R_keep_3 {r : Ref sig .tc} (hr : r ∉ rcW_3) : R4 m c (Proc.devRef .tc r) = R3 m c (Proc.devRef .tc r) :=
  Cert.LibAfter.keep rc_3_writes (R3 m c) hr
theorem R_keep_4 {r : Ref sig .tc} (hr : r ∉ rcW_4) : R5 m c (Proc.devRef .tc r) = R4 m c (Proc.devRef .tc r) :=
  (Cert.LibAfter.keep rc_4b_writes (R4h m c) fun h => hr (List.mem_append.mpr (Or.inr h))).trans
    (Cert.LibAfter.keep rc_4a_writes (R4 m c) fun h => hr (List.mem_append.mpr (Or.inl h)))
theorem R_keep_5 {r : Ref sig .tc} (hr : r ∉ rcW_5) : R6 m c (Proc.devRef .tc r) = R5 m c (Proc.devRef .tc r) :=
  Cert.LibAfter.keep rc_5_writes (R5 m c) hr
theorem R_keep_6 {r : Ref sig .tc} (hr : r ∉ rcW_6) : R7 m c (Proc.devRef .tc r) = R6 m c (Proc.devRef .tc r) :=
  (Cert.LibAfter.keep rc_6b_writes (R6h m c) fun h => hr (List.mem_append.mpr (Or.inr h))).trans
    (Cert.LibAfter.keep rc_6a_writes (R6 m c) fun h => hr (List.mem_append.mpr (Or.inl h)))
theorem R_keep_7 {r : Ref sig .tc} (hr : r ∉ rcW_7) : R8 m c (Proc.devRef .tc r) = R7 m c (Proc.devRef .tc r) :=
  (Cert.LibAfter.keep rc_7b_writes (R7h m c) fun h => hr (List.mem_append.mpr (Or.inr h))).trans
    (Cert.LibAfter.keep rc_7a_writes (R7 m c) fun h => hr (List.mem_append.mpr (Or.inl h)))
theorem R_keep_8 {r : Ref sig .tc} (hr : r ∉ rcW_8) : R9 m c (Proc.devRef .tc r) = R8 m c (Proc.devRef .tc r) :=
  Cert.LibAfter.keep rc_8_writes (R8 m c) hr
theorem R_keep_9 {r : Ref sig .tc} (hr : r ∉ rcW_9) : R10 m c (Proc.devRef .tc r) = R9 m c (Proc.devRef .tc r) :=
  (Cert.LibAfter.keep rc_9b_writes (R9h m c) fun h => hr (List.mem_append.mpr (Or.inr h))).trans
    (Cert.LibAfter.keep rc_9a_writes (R9 m c) fun h => hr (List.mem_append.mpr (Or.inl h)))
theorem R_keep_10 {r : Ref sig .tc} (hr : r ∉ rcW_10) : R11 m c (Proc.devRef .tc r) = R10 m c (Proc.devRef .tc r) :=
  Cert.LibAfter.keep rc_10_writes (R10 m c) hr
theorem R_keep_11 {r : Ref sig .tc} (hr : r ∉ rcW_11) : R12 m c (Proc.devRef .tc r) = R11 m c (Proc.devRef .tc r) :=
  Cert.LibAfter.keep rc_11_writes (R11 m c) hr
theorem R_keep_12 {r : Ref sig .tc} (hr : r ∉ rcW_12) : R13 m c (Proc.devRef .tc r) = R12 m c (Proc.devRef .tc r) :=
  Cert.LibAfter.keep rc_12_writes (R12 m c) hr
theorem R_keep_13 {r : Ref sig .tc} (hr : r ∉ rcW_13) : R14 m c (Proc.devRef .tc r) = R13 m c (Proc.devRef .tc r) :=
  (Cert.LibAfter.keep rc_13b_writes (R13h m c) fun h => hr (List.mem_append.mpr (Or.inr h))).trans
    (Cert.LibAfter.keep rc_13a_writes (R13 m c) fun h => hr (List.mem_append.mpr (Or.inl h)))
theorem R_keep_14 {r : Ref sig .tc} (hr : r ∉ rcW_14) : R15 m c (Proc.devRef .tc r) = R14 m c (Proc.devRef .tc r) :=
  Cert.LibAfter.keep rc_14_writes (R14 m c) hr
theorem R_keep_15 {r : Ref sig .tc} (hr : r ∉ rcW_15) : R16 m c (Proc.devRef .tc r) = R15 m c (Proc.devRef .tc r) :=
  Cert.LibAfter.keep rc_15_writes (R15 m c) hr

end Cert.ReferenceIdeal.Hand

end
-- ==== Proof.Ref.Run.lean ====
import proofs.«162078_j40114994545134_1_alg».proof.Proof.Ref.Chunks

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev rcAll : List (HloOp τ sig (Elt F)) :=
  rc0 ++ (rc1 ++ (rc2 ++ (rc3 ++ (rc4 ++ (rc5 ++ (rc6 ++ (rc7 ++ (rc8 ++ (rc9 ++ (rc10 ++ (rc11 ++ (rc12 ++ (rc13 ++ (rc14 ++ rc15))))))))))))))

set_option maxRecDepth 8192 in
set_option maxHeartbeats 4000000 in

theorem main_part0_eq (c : Dev nD) : main_part0 (F := F) c = seq (rc0 ++ rc1 ++ rc2 ++ rc3 ++ rc4a) := rfl
set_option maxRecDepth 8192 in
set_option maxHeartbeats 4000000 in
theorem main_part1_eq (c : Dev nD) : main_part1 (F := F) c = seq (rc4b ++ rc5 ++ rc6a) := rfl
set_option maxRecDepth 8192 in
set_option maxHeartbeats 4000000 in
theorem main_part2_eq (c : Dev nD) : main_part2 (F := F) c = seq (rc6b ++ rc7a) := rfl
set_option maxRecDepth 8192 in
set_option maxHeartbeats 4000000 in
theorem main_part3_eq (c : Dev nD) : main_part3 (F := F) c = seq (rc7b ++ rc8 ++ rc9a) := rfl
set_option maxRecDepth 8192 in
set_option maxHeartbeats 4000000 in
theorem main_part4_eq (c : Dev nD) : main_part4 (F := F) c = seq (rc9b ++ rc10 ++ rc11 ++ rc12 ++ rc13a) := rfl
set_option maxRecDepth 8192 in
set_option maxHeartbeats 4000000 in
theorem main_part5_eq (c : Dev nD) : main_part5 (F := F) c = seq (rc13b ++ rc14 ++ rc15) := rfl

theorem main_eq (c : Dev nD) : main (F := F) c = seq rcAll := by
  have h : main (F := F) c = (main_part0 c >>= fun _ => main_part1 c >>= fun _ => main_part2 c >>= fun _ =>
      main_part3 c >>= fun _ => main_part4 c >>= fun _ => main_part5 c) := rfl
  rw [h, main_part0_eq, main_part1_eq, main_part2_eq, main_part3_eq, main_part4_eq, main_part5_eq]
  simp only [rcAll, rc4, rc6, rc7, rc9, rc13, seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem rc0_sub : (rc0 : List (HloOp τ sig (Elt F))).Forall fun op => op.bufs ⊆ tcRefs τ sig :=
  ⟨binary_bufs_sub .., unary_bufs_sub .., unary_bufs_sub .., binary_bufs_sub ..⟩
theorem rc1_sub : (rc1 : List (HloOp τ sig (Elt F))).Forall fun op => op.bufs ⊆ tcRefs τ sig :=
  ⟨binary_bufs_sub .., unary_bufs_sub .., unary_bufs_sub .., binary_bufs_sub ..⟩
theorem rc2_sub : (rc2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩
theorem rc3_sub : (rc3 : List (HloOp τ sig (Elt F))).Forall fun op => op.bufs ⊆ tcRefs τ sig :=
  ⟨binary_bufs_sub .., unary_bufs_sub .., unary_bufs_sub .., binary_bufs_sub ..⟩
theorem rc4a_sub : (rc4a : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub ..⟩
theorem rc4b_sub : (rc4b : List (HloOp τ sig (Elt F))).Forall fun op => op.bufs ⊆ tcRefs τ sig :=
  ⟨unary_bufs_sub .., binary_bufs_sub ..⟩
theorem rc5_sub : (rc5 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub ..⟩
theorem rc6a_sub : (rc6a : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub ..⟩
theorem rc6b_sub : (rc6b : List (HloOp τ sig (Elt F))).Forall fun op => op.bufs ⊆ tcRefs τ sig :=
  ⟨unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub ..⟩
theorem rc7a_sub : (rc7a : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., nullary_bufs_sub ..⟩
theorem rc7b_sub : (rc7b : List (HloOp τ sig (Elt F))).Forall fun op => op.bufs ⊆ tcRefs τ sig :=
  ⟨unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub ..⟩
theorem rc8_sub : (rc8 : List (HloOp τ sig (Elt F))).Forall fun op => op.bufs ⊆ tcRefs τ sig :=
  ⟨binary_bufs_sub .., unary_bufs_sub .., unary_bufs_sub .., binary_bufs_sub ..⟩
theorem rc9a_sub : (rc9a : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub ..⟩
theorem rc9b_sub : (rc9b : List (HloOp τ sig (Elt F))).Forall fun op => op.bufs ⊆ tcRefs τ sig :=
  ⟨binary_bufs_sub .., unary_bufs_sub .., unary_bufs_sub .., binary_bufs_sub ..⟩
theorem rc10_sub : (rc10 : List (HloOp τ sig (Elt F))).Forall fun op => op.bufs ⊆ tcRefs τ sig :=
  ⟨binary_bufs_sub .., unary_bufs_sub .., unary_bufs_sub .., binary_bufs_sub ..⟩
theorem rc11_sub : (rc11 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩
theorem rc12_sub : (rc12 : List (HloOp τ sig (Elt F))).Forall fun op => op.bufs ⊆ tcRefs τ sig :=
  ⟨binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
theorem rc13a_sub : (rc13a : List (HloOp τ sig (Elt F))).Forall fun op => op.bufs ⊆ tcRefs τ sig :=
  ⟨binary_bufs_sub .., binary_bufs_sub .., unary_bufs_sub .., unary_bufs_sub .., binary_bufs_sub .., nullary_bufs_sub .., binary_bufs_sub .., nullary_bufs_sub ..⟩
theorem rc13b_sub : (rc13b : List (HloOp τ sig (Elt F))).Forall fun op => op.bufs ⊆ tcRefs τ sig :=
  ⟨unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
theorem rc14_sub : (rc14 : List (HloOp τ sig (Elt F))).Forall fun op => op.bufs ⊆ tcRefs τ sig :=
  ⟨binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
theorem rc15_sub : (rc15 : List (HloOp τ sig (Elt F))).Forall fun op => op.bufs ⊆ tcRefs τ sig :=
  nary_bufs_sub ..
theorem rc4_sub : (rc4 : List (HloOp τ sig (Elt F))).Forall fun op => op.bufs ⊆ tcRefs τ sig :=
  List.forall_append.mpr ⟨rc4a_sub, rc4b_sub⟩
theorem rc6_sub : (rc6 : List (HloOp τ sig (Elt F))).Forall fun op => op.bufs ⊆ tcRefs τ sig :=
  List.forall_append.mpr ⟨rc6a_sub, rc6b_sub⟩
theorem rc7_sub : (rc7 : List (HloOp τ sig (Elt F))).Forall fun op => op.bufs ⊆ tcRefs τ sig :=
  List.forall_append.mpr ⟨rc7a_sub, rc7b_sub⟩
theorem rc9_sub : (rc9 : List (HloOp τ sig (Elt F))).Forall fun op => op.bufs ⊆ tcRefs τ sig :=
  List.forall_append.mpr ⟨rc9a_sub, rc9b_sub⟩
theorem rc13_sub : (rc13 : List (HloOp τ sig (Elt F))).Forall fun op => op.bufs ⊆ tcRefs τ sig :=
  List.forall_append.mpr ⟨rc13a_sub, rc13b_sub⟩
theorem rcAll_sub : (rcAll : List (HloOp τ sig (Elt F))).Forall fun op => op.bufs ⊆ tcRefs τ sig :=
  List.forall_append.mpr ⟨rc0_sub, List.forall_append.mpr ⟨rc1_sub, List.forall_append.mpr ⟨rc2_sub, List.forall_append.mpr ⟨rc3_sub, List.forall_append.mpr ⟨rc4_sub, List.forall_append.mpr ⟨rc5_sub, List.forall_append.mpr ⟨rc6_sub, List.forall_append.mpr ⟨rc7_sub, List.forall_append.mpr ⟨rc8_sub, List.forall_append.mpr ⟨rc9_sub, List.forall_append.mpr ⟨rc10_sub, List.forall_append.mpr ⟨rc11_sub, List.forall_append.mpr ⟨rc12_sub, List.forall_append.mpr ⟨rc13_sub, List.forall_append.mpr ⟨rc14_sub, rc15_sub⟩⟩⟩⟩⟩⟩⟩⟩⟩⟩⟩⟩⟩⟩⟩

theorem rc0_fresh : (rc0 : List (HloOp τ sig (Elt F))).Forall fun op => op.fresh = ∅ := by
  simp only [List.Forall]; repeat' constructor
theorem rc1_fresh : (rc1 : List (HloOp τ sig (Elt F))).Forall fun op => op.fresh = ∅ := by
  simp only [List.Forall]; repeat' constructor
theorem rc2_fresh : (rc2 : List (HloOp τ sig (Elt F))).Forall fun op => op.fresh = ∅ := by
  simp only [List.Forall]; repeat' constructor
theorem rc3_fresh : (rc3 : List (HloOp τ sig (Elt F))).Forall fun op => op.fresh = ∅ := by
  simp only [List.Forall]; repeat' constructor
theorem rc4a_fresh : (rc4a : List (HloOp τ sig (Elt F))).Forall fun op => op.fresh = ∅ := by
  simp only [List.Forall]; repeat' constructor
theorem rc4b_fresh : (rc4b : List (HloOp τ sig (Elt F))).Forall fun op => op.fresh = ∅ := by
  simp only [List.Forall]; repeat' constructor
theorem rc5_fresh : (rc5 : List (HloOp τ sig (Elt F))).Forall fun op => op.fresh = ∅ := by
  simp only [List.Forall]; repeat' constructor
theorem rc6a_fresh : (rc6a : List (HloOp τ sig (Elt F))).Forall fun op => op.fresh = ∅ := by
  simp only [List.Forall]; repeat' constructor
theorem rc6b_fresh : (rc6b : List (HloOp τ sig (Elt F))).Forall fun op => op.fresh = ∅ := by
  simp only [List.Forall]; repeat' constructor
theorem rc7a_fresh : (rc7a : List (HloOp τ sig (Elt F))).Forall fun op => op.fresh = ∅ := by
  simp only [List.Forall]; repeat' constructor
theorem rc7b_fresh : (rc7b : List (HloOp τ sig (Elt F))).Forall fun op => op.fresh = ∅ := by
  simp only [List.Forall]; repeat' constructor
theorem rc8_fresh : (rc8 : List (HloOp τ sig (Elt F))).Forall fun op => op.fresh = ∅ := by
  simp only [List.Forall]; repeat' constructor
theorem rc9a_fresh : (rc9a : List (HloOp τ sig (Elt F))).Forall fun op => op.fresh = ∅ := by
  simp only [List.Forall]; repeat' constructor
theorem rc9b_fresh : (rc9b : List (HloOp τ sig (Elt F))).Forall fun op => op.fresh = ∅ := by
  simp only [List.Forall]; repeat' constructor
theorem rc10_fresh : (rc10 : List (HloOp τ sig (Elt F))).Forall fun op => op.fresh = ∅ := by
  simp only [List.Forall]; repeat' constructor
theorem rc11_fresh : (rc11 : List (HloOp τ sig (Elt F))).Forall fun op => op.fresh = ∅ := by
  simp only [List.Forall]; repeat' constructor
theorem rc12_fresh : (rc12 : List (HloOp τ sig (Elt F))).Forall fun op => op.fresh = ∅ := by
  simp only [List.Forall]; repeat' constructor
theorem rc13a_fresh : (rc13a : List (HloOp τ sig (Elt F))).Forall fun op => op.fresh = ∅ := by
  simp only [List.Forall]; repeat' constructor
theorem rc13b_fresh : (rc13b : List (HloOp τ sig (Elt F))).Forall fun op => op.fresh = ∅ := by
  simp only [List.Forall]; repeat' constructor
theorem rc14_fresh : (rc14 : List (HloOp τ sig (Elt F))).Forall fun op => op.fresh = ∅ := by
  simp only [List.Forall]; repeat' constructor
theorem rc15_fresh : (rc15 : List (HloOp τ sig (Elt F))).Forall fun op => op.fresh = ∅ := by
  simp only [List.Forall]; repeat' constructor
theorem rc4_fresh : (rc4 : List (HloOp τ sig (Elt F))).Forall fun op => op.fresh = ∅ :=
  List.forall_append.mpr ⟨rc4a_fresh, rc4b_fresh⟩
theorem rc6_fresh : (rc6 : List (HloOp τ sig (Elt F))).Forall fun op => op.fresh = ∅ :=
  List.forall_append.mpr ⟨rc6a_fresh, rc6b_fresh⟩
theorem rc7_fresh : (rc7 : List (HloOp τ sig (Elt F))).Forall fun op => op.fresh = ∅ :=
  List.forall_append.mpr ⟨rc7a_fresh, rc7b_fresh⟩
theorem rc9_fresh : (rc9 : List (HloOp τ sig (Elt F))).Forall fun op => op.fresh = ∅ :=
  List.forall_append.mpr ⟨rc9a_fresh, rc9b_fresh⟩
theorem rc13_fresh : (rc13 : List (HloOp τ sig (Elt F))).Forall fun op => op.fresh = ∅ :=
  List.forall_append.mpr ⟨rc13a_fresh, rc13b_fresh⟩
theorem rcAll_fresh : (rcAll : List (HloOp τ sig (Elt F))).Forall fun op => op.fresh = ∅ :=
  List.forall_append.mpr ⟨rc0_fresh, List.forall_append.mpr ⟨rc1_fresh, List.forall_append.mpr ⟨rc2_fresh, List.forall_append.mpr ⟨rc3_fresh, List.forall_append.mpr ⟨rc4_fresh, List.forall_append.mpr ⟨rc5_fresh, List.forall_append.mpr ⟨rc6_fresh, List.forall_append.mpr ⟨rc7_fresh, List.forall_append.mpr ⟨rc8_fresh, List.forall_append.mpr ⟨rc9_fresh, List.forall_append.mpr ⟨rc10_fresh, List.forall_append.mpr ⟨rc11_fresh, List.forall_append.mpr ⟨rc12_fresh, List.forall_append.mpr ⟨rc13_fresh, List.forall_append.mpr ⟨rc14_fresh, rc15_fresh⟩⟩⟩⟩⟩⟩⟩⟩⟩⟩⟩⟩⟩⟩⟩

theorem after_all (m : (ℓ : Loc nD τ sig) → Buf (Elt F) ℓ) (c : Dev nD) : StableHlo.after rcAll (launchContents m c) = R16 m c := by
  simp only [rcAll, rc4, rc6, rc7, rc9, rc13, Cert.LibAfter.after_append]
  rfl

abbrev rcW_all : List (Ref sig .tc) :=
  rcW_0 ++ (rcW_1 ++ (rcW_2 ++ (rcW_3 ++ (rcW_4 ++ (rcW_5 ++ (rcW_6 ++ (rcW_7 ++ (rcW_8 ++ (rcW_9 ++ (rcW_10 ++ (rcW_11 ++ (rcW_12 ++ (rcW_13 ++ (rcW_14 ++ rcW_15))))))))))))))

theorem not_mem_append' {α : Type} {a : α} {l₁ l₂ : List α} (h : a ∉ l₁ ++ l₂) : a ∉ l₁ ∧ a ∉ l₂ :=
  ⟨fun x => h (List.mem_append_left _ x), fun x => h (List.mem_append_right _ x)⟩

theorem R16_keep (m : (ℓ : Loc nD τ sig) → Buf (Elt F) ℓ) (c : Dev nD) {r : Ref sig .tc} (hr : r ∉ rcW_all) :
    R16 m c (Proc.devRef .tc r) = m ((c.tc : Thread nD τ).loc r) := by
  obtain ⟨h0, hr⟩ := not_mem_append' hr
  obtain ⟨h1, hr⟩ := not_mem_append' hr
  obtain ⟨h2, hr⟩ := not_mem_append' hr
  obtain ⟨h3, hr⟩ := not_mem_append' hr
  obtain ⟨h4, hr⟩ := not_mem_append' hr
  obtain ⟨h5, hr⟩ := not_mem_append' hr
  obtain ⟨h6, hr⟩ := not_mem_append' hr
  obtain ⟨h7, hr⟩ := not_mem_append' hr
  obtain ⟨h8, hr⟩ := not_mem_append' hr
  obtain ⟨h9, hr⟩ := not_mem_append' hr
  obtain ⟨h10, hr⟩ := not_mem_append' hr
  obtain ⟨h11, hr⟩ := not_mem_append' hr
  obtain ⟨h12, hr⟩ := not_mem_append' hr
  obtain ⟨h13, hr⟩ := not_mem_append' hr
  obtain ⟨h14, h15⟩ := not_mem_append' hr
  rw [R_keep_15 m c h15, R_keep_14 m c h14, R_keep_13 m c h13, R_keep_12 m c h12, R_keep_11 m c h11, R_keep_10 m c h10, R_keep_9 m c h9, R_keep_8 m c h8, R_keep_7 m c h7, R_keep_6 m c h6, R_keep_5 m c h5, R_keep_4 m c h4, R_keep_3 m c h3, R_keep_2 m c h2, R_keep_1 m c h1, R_keep_0 m c h0]
  rfl

theorem arg0_nw : main_arg0 ∉ rcW_all := by decide
theorem arg1_nw : main_arg1 ∉ rcW_all := by decide
theorem arg2_nw : main_arg2 ∉ rcW_all := by decide
theorem arg3_nw : main_arg3 ∉ rcW_all := by decide
theorem arg4_nw : main_arg4 ∉ rcW_all := by decide
theorem arg5_nw : main_arg5 ∉ rcW_all := by decide
theorem arg6_nw : main_arg6 ∉ rcW_all := by decide
theorem arg7_nw : main_arg7 ∉ rcW_all := by decide
theorem arg8_nw : main_arg8 ∉ rcW_all := by decide
theorem arg9_nw : main_arg9 ∉ rcW_all := by decide
theorem arg10_nw : main_arg10 ∉ rcW_all := by decide
theorem arg11_nw : main_arg11 ∉ rcW_all := by decide
theorem arg12_nw : main_arg12 ∉ rcW_all := by decide
theorem arg13_nw : main_arg13 ∉ rcW_all := by decide
theorem arg14_nw : main_arg14 ∉ rcW_all := by decide
theorem arg15_nw : main_arg15 ∉ rcW_all := by decide
theorem arg16_nw : main_arg16 ∉ rcW_all := by decide
theorem arg17_nw : main_arg17 ∉ rcW_all := by decide
theorem arg18_nw : main_arg18 ∉ rcW_all := by decide
theorem arg19_nw : main_arg19 ∉ rcW_all := by decide
theorem arg20_nw : main_arg20 ∉ rcW_all := by decide
theorem arg21_nw : main_arg21 ∉ rcW_all := by decide
theorem arg22_nw : main_arg22 ∉ rcW_all := by decide
theorem arg23_nw : main_arg23 ∉ rcW_all := by decide
theorem arg24_nw : main_arg24 ∉ rcW_all := by decide
theorem arg25_nw : main_arg25 ∉ rcW_all := by decide
theorem arg26_nw : main_arg26 ∉ rcW_all := by decide
theorem arg27_nw : main_arg27 ∉ rcW_all := by decide
theorem arg28_nw : main_arg28 ∉ rcW_all := by decide
theorem arg29_nw : main_arg29 ∉ rcW_all := by decide
theorem arg30_nw : main_arg30 ∉ rcW_all := by decide
theorem arg31_nw : main_arg31 ∉ rcW_all := by decide
theorem arg32_nw : main_arg32 ∉ rcW_all := by decide
theorem arg33_nw : main_arg33 ∉ rcW_all := by decide
theorem arg34_nw : main_arg34 ∉ rcW_all := by decide
theorem arg35_nw : main_arg35 ∉ rcW_all := by decide
theorem arg36_nw : main_arg36 ∉ rcW_all := by decide

set_option maxRecDepth 8192 in

theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v258) = R16 m c (Proc.devRef .tc main_v258)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36) :=
  (θ_run defs _ _).mono (fun _ h c => ⟨(h c main_v258).trans (congrFun (after_all m c) _),
      (h c main_arg0).trans ((congrFun (after_all m c) _).trans (R16_keep m c arg0_nw)),
      (h c main_arg1).trans ((congrFun (after_all m c) _).trans (R16_keep m c arg1_nw)),
      (h c main_arg2).trans ((congrFun (after_all m c) _).trans (R16_keep m c arg2_nw)),
      (h c main_arg3).trans ((congrFun (after_all m c) _).trans (R16_keep m c arg3_nw)),
      (h c main_arg4).trans ((congrFun (after_all m c) _).trans (R16_keep m c arg4_nw)),
      (h c main_arg5).trans ((congrFun (after_all m c) _).trans (R16_keep m c arg5_nw)),
      (h c main_arg6).trans ((congrFun (after_all m c) _).trans (R16_keep m c arg6_nw)),
      (h c main_arg7).trans ((congrFun (after_all m c) _).trans (R16_keep m c arg7_nw)),
      (h c main_arg8).trans ((congrFun (after_all m c) _).trans (R16_keep m c arg8_nw)),
      (h c main_arg9).trans ((congrFun (after_all m c) _).trans (R16_keep m c arg9_nw)),
      (h c main_arg10).trans ((congrFun (after_all m c) _).trans (R16_keep m c arg10_nw)),
      (h c main_arg11).trans ((congrFun (after_all m c) _).trans (R16_keep m c arg11_nw)),
      (h c main_arg12).trans ((congrFun (after_all m c) _).trans (R16_keep m c arg12_nw)),
      (h c main_arg13).trans ((congrFun (after_all m c) _).trans (R16_keep m c arg13_nw)),
      (h c main_arg14).trans ((congrFun (after_all m c) _).trans (R16_keep m c arg14_nw)),
      (h c main_arg15).trans ((congrFun (after_all m c) _).trans (R16_keep m c arg15_nw)),
      (h c main_arg16).trans ((congrFun (after_all m c) _).trans (R16_keep m c arg16_nw)),
      (h c main_arg17).trans ((congrFun (after_all m c) _).trans (R16_keep m c arg17_nw)),
      (h c main_arg18).trans ((congrFun (after_all m c) _).trans (R16_keep m c arg18_nw)),
      (h c main_arg19).trans ((congrFun (after_all m c) _).trans (R16_keep m c arg19_nw)),
      (h c main_arg20).trans ((congrFun (after_all m c) _).trans (R16_keep m c arg20_nw)),
      (h c main_arg21).trans ((congrFun (after_all m c) _).trans (R16_keep m c arg21_nw)),
      (h c main_arg22).trans ((congrFun (after_all m c) _).trans (R16_keep m c arg22_nw)),
      (h c main_arg23).trans ((congrFun (after_all m c) _).trans (R16_keep m c arg23_nw)),
      (h c main_arg24).trans ((congrFun (after_all m c) _).trans (R16_keep m c arg24_nw)),
      (h c main_arg25).trans ((congrFun (after_all m c) _).trans (R16_keep m c arg25_nw)),
      (h c main_arg26).trans ((congrFun (after_all m c) _).trans (R16_keep m c arg26_nw)),
      (h c main_arg27).trans ((congrFun (after_all m c) _).trans (R16_keep m c arg27_nw)),
      (h c main_arg28).trans ((congrFun (after_all m c) _).trans (R16_keep m c arg28_nw)),
      (h c main_arg29).trans ((congrFun (after_all m c) _).trans (R16_keep m c arg29_nw)),
      (h c main_arg30).trans ((congrFun (after_all m c) _).trans (R16_keep m c arg30_nw)),
      (h c main_arg31).trans ((congrFun (after_all m c) _).trans (R16_keep m c arg31_nw)),
      (h c main_arg32).trans ((congrFun (after_all m c) _).trans (R16_keep m c arg32_nw)),
      (h c main_arg33).trans ((congrFun (after_all m c) _).trans (R16_keep m c arg33_nw)),
      (h c main_arg34).trans ((congrFun (after_all m c) _).trans (R16_keep m c arg34_nw)),
      (h c main_arg35).trans ((congrFun (after_all m c) _).trans (R16_keep m c arg35_nw)),
      (h c main_arg36).trans ((congrFun (after_all m c) _).trans (R16_keep m c arg36_nw))⟩)
    (run_seq scopedRefs_eq scopedSems_eq defs main (fun _ => rcAll) main_eq (fun _ => rcAll_sub) m ρ
      (fun _ => List.forall_iff_forall_mem.mp rcAll_fresh))

theorem frame_ref (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36) :=
  (θ_run defs _ _).mono (fun _ h c => (h c).2) (ref_run m ρ)

end Cert.ReferenceIdeal.Hand

end
-- ==== Proof.KI.Keep.lean ====
/-
  A boundary keeps what the item before it does not write: after a stretch of host operations every reference outside
  the stretch's written list holds what it held before; after a kernel region every reference but the region's output
  array does.
-/
import proofs.«162078_j40114994545134_1_alg».proof.Proof.KI.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.GenP

variable (m : (ℓ : Loc nD τ sig) → Buf (Elt F) ℓ)

theorem T1_of (c : Dev nD) (r : Ref sig .tc) (h : r ∉ hostOps0_W) : T1 m c r = V0 m c r := by
  rw [← V1_eq m c]; exact V1_of m c r h
theorem T2_of (c : Dev nD) (r : Ref sig .tc) (h : r ∉ ([main_v1] : List (Ref sig .tc))) : T2 m c r = T1 m c r := by
  rw [← V2_eq m c, ← V1_eq m c]; exact V2_of m (outs m) c r h
theorem T3_of (c : Dev nD) (r : Ref sig .tc) (h : r ∉ hostOps1_W) : T3 m c r = T2 m c r := by
  rw [← V3_eq m c, ← V2_eq m c]; exact V3_of m (outs m) c r h
theorem T4_of (c : Dev nD) (r : Ref sig .tc) (h : r ∉ ([main_v3] : List (Ref sig .tc))) : T4 m c r = T3 m c r := by
  rw [← V4_eq m c, ← V3_eq m c]; exact V4_of m (outs m) c r h
theorem T5_of (c : Dev nD) (r : Ref sig .tc) (h : r ∉ hostOps2_W) : T5 m c r = T4 m c r := by
  rw [← V5_eq m c, ← V4_eq m c]; exact V5_of m (outs m) c r h
theorem T6_of (c : Dev nD) (r : Ref sig .tc) (h : r ∉ ([main_v24] : List (Ref sig .tc))) : T6 m c r = T5 m c r := by
  rw [← V6_eq m c, ← V5_eq m c]; exact V6_of m (outs m) c r h
theorem T7_of (c : Dev nD) (r : Ref sig .tc) (h : r ∉ hostOps3_W) : T7 m c r = T6 m c r := by
  rw [← V7_eq m c, ← V6_eq m c]; exact V7_of m (outs m) c r h
theorem T8_of (c : Dev nD) (r : Ref sig .tc) (h : r ∉ hostOps3_1_W) : T8 m c r = T7 m c r := by
  rw [← V8_eq m c, ← V7_eq m c]; exact V8_of m (outs m) c r h
theorem T9_of (c : Dev nD) (r : Ref sig .tc) (h : r ∉ hostOps3_2_W) : T9 m c r = T8 m c r := by
  rw [← V9_eq m c, ← V8_eq m c]; exact V9_of m (outs m) c r h
theorem T10_of (c : Dev nD) (r : Ref sig .tc) (h : r ∉ hostOps3_3_W) : T10 m c r = T9 m c r := by
  rw [← V10_eq m c, ← V9_eq m c]; exact V10_of m (outs m) c r h
theorem T11_of (c : Dev nD) (r : Ref sig .tc) (h : r ∉ hostOps3_4_W) : T11 m c r = T10 m c r := by
  rw [← V11_eq m c, ← V10_eq m c]; exact V11_of m (outs m) c r h
theorem T12_of (c : Dev nD) (r : Ref sig .tc) (h : r ∉ ([main_v77] : List (Ref sig .tc))) : T12 m c r = T11 m c r := by
  rw [← V12_eq m c, ← V11_eq m c]; exact V12_of m (outs m) c r h
theorem T13_of (c : Dev nD) (r : Ref sig .tc) (h : r ∉ hostOps4_W) : T13 m c r = T12 m c r := by
  rw [← V13_eq m c, ← V12_eq m c]; exact V13_of m (outs m) c r h
theorem T14_of (c : Dev nD) (r : Ref sig .tc) (h : r ∉ hostOps4_1_W) : T14 m c r = T13 m c r := by
  rw [← V14_eq m c, ← V13_eq m c]; exact V14_of m (outs m) c r h
theorem T15_of (c : Dev nD) (r : Ref sig .tc) (h : r ∉ hostOps4_2_W) : T15 m c r = T14 m c r := by
  rw [← V15_eq m c, ← V14_eq m c]; exact V15_of m (outs m) c r h
theorem T16_of (c : Dev nD) (r : Ref sig .tc) (h : r ∉ hostOps4_3_W) : T16 m c r = T15 m c r := by
  rw [← V16_eq m c, ← V15_eq m c]; exact V16_of m (outs m) c r h
theorem T17_of (c : Dev nD) (r : Ref sig .tc) (h : r ∉ hostOps4_4_W) : T17 m c r = T16 m c r := by
  rw [← V17_eq m c, ← V16_eq m c]; exact V17_of m (outs m) c r h
theorem T18_of (c : Dev nD) (r : Ref sig .tc) (h : r ∉ ([main_v111] : List (Ref sig .tc))) : T18 m c r = T17 m c r := by
  rw [← V18_eq m c, ← V17_eq m c]; exact V18_of m (outs m) c r h
theorem T19_of (c : Dev nD) (r : Ref sig .tc) (h : r ∉ hostOps5_W) : T19 m c r = T18 m c r := by
  rw [← V19_eq m c, ← V18_eq m c]; exact V19_of m (outs m) c r h
theorem T20_of (c : Dev nD) (r : Ref sig .tc) (h : r ∉ hostOps5_1_W) : T20 m c r = T19 m c r := by
  rw [← V20_eq m c, ← V19_eq m c]; exact V20_of m (outs m) c r h
theorem T21_of (c : Dev nD) (r : Ref sig .tc) (h : r ∉ hostOps5_2_W) : T21 m c r = T20 m c r := by
  rw [← V21_eq m c, ← V20_eq m c]; exact V21_of m (outs m) c r h
theorem T22_of (c : Dev nD) (r : Ref sig .tc) (h : r ∉ hostOps5_3_W) : T22 m c r = T21 m c r := by
  rw [← V22_eq m c, ← V21_eq m c]; exact V22_of m (outs m) c r h
theorem T23_of (c : Dev nD) (r : Ref sig .tc) (h : r ∉ hostOps5_4_W) : T23 m c r = T22 m c r := by
  rw [← V23_eq m c, ← V22_eq m c]; exact V23_of m (outs m) c r h
theorem T24_of (c : Dev nD) (r : Ref sig .tc) (h : r ∉ ([main_v145] : List (Ref sig .tc))) : T24 m c r = T23 m c r := by
  rw [← V24_eq m c, ← V23_eq m c]; exact V24_of m (outs m) c r h
theorem T25_of (c : Dev nD) (r : Ref sig .tc) (h : r ∉ hostOps6_W) : T25 m c r = T24 m c r := by
  rw [← V25_eq m c, ← V24_eq m c]; exact V25_of m (outs m) c r h
theorem T26_of (c : Dev nD) (r : Ref sig .tc) (h : r ∉ ([main_v147] : List (Ref sig .tc))) : T26 m c r = T25 m c r := by
  rw [← V26_eq m c, ← V25_eq m c]; exact V26_of m (outs m) c r h
theorem T27_of (c : Dev nD) (r : Ref sig .tc) (h : r ∉ hostOps7_W) : T27 m c r = T26 m c r := by
  rw [← V27_eq m c, ← V26_eq m c]; exact V27_of m (outs m) c r h
theorem T28_of (c : Dev nD) (r : Ref sig .tc) (h : r ∉ ([main_v168] : List (Ref sig .tc))) : T28 m c r = T27 m c r := by
  rw [← V28_eq m c, ← V27_eq m c]; exact V28_of m (outs m) c r h
theorem T29_of (c : Dev nD) (r : Ref sig .tc) (h : r ∉ hostOps8_W) : T29 m c r = T28 m c r := by
  rw [← V29_eq m c, ← V28_eq m c]; exact V29_of m (outs m) c r h
theorem T30_of (c : Dev nD) (r : Ref sig .tc) (h : r ∉ ([main_v191] : List (Ref sig .tc))) : T30 m c r = T29 m c r := by
  rw [← V30_eq m c, ← V29_eq m c]; exact V30_of m (outs m) c r h
theorem T31_of (c : Dev nD) (r : Ref sig .tc) (h : r ∉ hostOps9_W) : T31 m c r = T30 m c r := by
  rw [← V31_eq m c, ← V30_eq m c]; exact V31_of m (outs m) c r h
theorem T32_of (c : Dev nD) (r : Ref sig .tc) (h : r ∉ ([main_v195] : List (Ref sig .tc))) : T32 m c r = T31 m c r := by
  rw [← V32_eq m c, ← V31_eq m c]; exact V32_of m (outs m) c r h
theorem T33_of (c : Dev nD) (r : Ref sig .tc) (h : r ∉ hostOps10_W) : T33 m c r = T32 m c r := by
  rw [← V33_eq m c, ← V32_eq m c]; exact V33_of m (outs m) c r h
theorem T34_of (c : Dev nD) (r : Ref sig .tc) (h : r ∉ ([main_v199] : List (Ref sig .tc))) : T34 m c r = T33 m c r := by
  rw [← V34_eq m c, ← V33_eq m c]; exact V34_of m (outs m) c r h
theorem T35_of (c : Dev nD) (r : Ref sig .tc) (h : r ∉ hostOps11_W) : T35 m c r = T34 m c r := by
  rw [← V35_eq m c, ← V34_eq m c]; exact V35_of m (outs m) c r h

end Cert.KernelIdeal.Hand

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev Mat (a b : Nat) : Type := (⟨2, ![a, b]⟩ : Shape).Idx → EReal

variable {M K N : Nat}

def lin (x : Mat M K) (w : Mat K N) (b : Mat 1 N) : Mat M N :=
  fun j => (∑ k : Fin K, x (ix2 (j 0) k) * w (ix2 k (j 1))) + b (ix2 (0 : Fin 1) (j 1))

def scaled (x : Mat M K) (s : Mat M 1) (w : Mat K N) (b : Mat 1 N) : Mat M N :=
  fun j => (∑ k : Fin K, (x (ix2 (j 0) k) * s (ix2 (j 0) (0 : Fin 1))) * w (ix2 k (j 1))) + b (ix2 (0 : Fin 1) (j 1))

def logits (g d : Mat M K) (wg wd : Mat K N) (b : Mat 1 N) : Mat M N :=
  fun j => ((∑ k : Fin K, g (ix2 (j 0) k) * wg (ix2 k (j 1))) + (∑ k : Fin K, d (ix2 (j 0) k) * wd (ix2 k (j 1))))
    + b (ix2 (0 : Fin 1) (j 1))

theorem lin_apply (x : Mat M K) (w : Mat K N) (b : Mat 1 N) (i : Fin M) (j : Fin N) :
    lin x w b (ix2 i j) = (∑ k : Fin K, x (ix2 i k) * w (ix2 k j)) + b (ix2 (0 : Fin 1) j) := rfl

theorem scaled_apply (x : Mat M K) (s : Mat M 1) (w : Mat K N) (b : Mat 1 N) (i : Fin M) (j : Fin N) :
    scaled x s w b (ix2 i j) = (∑ k : Fin K, (x (ix2 i k) * s (ix2 i (0 : Fin 1))) * w (ix2 k j)) + b (ix2 (0 : Fin 1) j) := rfl

theorem logits_apply (g d : Mat M K) (wg wd : Mat K N) (b : Mat 1 N) (i : Fin M) (j : Fin N) :
    logits g d wg wd b (ix2 i j)
      = ((∑ k : Fin K, g (ix2 i k) * wg (ix2 k j)) + (∑ k : Fin K, d (ix2 i k) * wd (ix2 k j))) + b (ix2 (0 : Fin 1) j) := rfl

end Cert.Spec

end
-- ==== Proof.LibDot.lean ====
import Idealize.ShloMosaic.PureOps.Ideal.Laws
import Idealize.ShloMosaic.Lib.ValueIdx

noncomputable section

namespace Cert.LibDot

open Idealize.ShloMosaic Idealize.ShloMosaic.ValueIdx

variable {M K N : Nat} (D : DotDims ⟨2, ![M, K]⟩ ⟨2, ![K, N]⟩ ⟨2, ![M, N]⟩)

theorem lhs_row (hlb : D.lhsBatch = []) (hln : D.lhsNonContracting = [0]) (j : (⟨2, ![M, N]⟩ : Shape).Idx) (k : D.contr.Idx) :
    (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

theorem lhs_col (hlc : D.lhsContracting = [1]) (j : (⟨2, ![M, N]⟩ : Shape).Idx) (k : D.contr.Idx) :
    (D.lhsIdx j k 1).val = (k ⟨0, by rw [D.rank_contr, hlc]; exact Nat.one_pos⟩).val :=
  D.lhsIdx_val_of_single hlc j k

theorem rhs_row (hrc : D.rhsContracting = [0]) (j : (⟨2, ![M, N]⟩ : Shape).Idx) (k : D.contr.Idx) :
    (D.rhsIdx j k 0).val = (k ⟨0, by rw [D.rank_contr, ← D.length_contracting, hrc]; exact Nat.one_pos⟩).val :=
  D.rhsIdx_val_of_single hrc j k

theorem rhs_col (hlb : D.lhsBatch = []) (hrb : D.rhsBatch = []) (hln : D.lhsNonContracting = [0]) (hrn : D.rhsNonContracting = [1])
    (j : (⟨2, ![M, N]⟩ : Shape).Idx) (k : D.contr.Idx) :
    (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  have h := D.size_contr 0 (by rw [hlc]; exact Nat.one_pos)
  rw [h]
  simp [hlc]

theorem sum_plain (hlc : D.lhsContracting = [1]) (hrc : D.rhsContracting = [0]) (hln : D.lhsNonContracting = [0])
    (hrn : D.rhsNonContracting = [1]) (hlb : D.lhsBatch = []) (hrb : D.rhsBatch = [])
    (l : (⟨2, ![M, K]⟩ : Shape).Idx → EReal) (r : (⟨2, ![K, N]⟩ : Shape).Idx → EReal) (a : Fin M) (b : Fin N) :
    ∑ k : D.contr.Idx, l (D.lhsIdx (ix2 a b) k) * r (D.rhsIdx (ix2 a b) k) = ∑ k : Fin K, l (ix2 a k) * r (ix2 k b) := by
  rw [← Equiv.sum_comp (contrEquiv1 D K (contr_rank D hlc) (contr_size D hlc)).symm]
  refine Finset.sum_congr rfl fun k _ => ?_
  have hk := contrEquiv1_symm_val D K (contr_rank D hlc) (contr_size D hlc) k
  have e1 : D.lhsIdx (ix2 a b) ((contrEquiv1 D K (contr_rank D hlc) (contr_size D hlc)).symm k) = ix2 a k := by
    funext x; refine Fin.ext ?_
    match x with
    | ⟨0, _⟩ => exact lhs_row D hlb hln _ _
    | ⟨1, _⟩ => exact (lhs_col D hlc _ _).trans hk
  have e2 : D.rhsIdx (ix2 a b) ((contrEquiv1 D K (contr_rank D hlc) (contr_size D hlc)).symm k) = ix2 k b := by
    funext x; refine Fin.ext ?_
    match x with
    | ⟨0, _⟩ => exact (rhs_row D hrc _ _).trans hk
    | ⟨1, _⟩ => exact rhs_col D hlb hrb hln hrn _ _
  rw [e1, e2]

theorem matmul_plain_apply {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) (a : Fin M) (b : Fin N) :
    matmul D prec l r (constant ⟨2, ![M, N]⟩ .f32 0x00000000#32) (ix2 a b) = ∑ k : Fin K, l (ix2 a k) * r (ix2 k b) := by
  show FloatOps.matmul D prec l r (constant ⟨2, ![M, N]⟩ .f32 0x00000000#32) (ix2 a b) = _
  rw [Ideal.matmul_constant_zero_apply]
  exact sum_plain D hlc hrc hln hrn hlb hrb l r a b

theorem dotGeneral_plain_apply {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) (a : Fin M) (b : Fin N) :
    Host.dotGeneral D prec l r (ix2 a b) = ∑ k : Fin K, l (ix2 a k) * r (ix2 k b) := by
  show FloatOps.dotGeneral D prec .single l r (ix2 a b) = _
  rw [Ideal.dotGeneral_apply]
  exact sum_plain D hlc hrc hln hrn hlb hrb l r a b

end Cert.LibDot

end
-- ==== Proof.RefLinear.lean ====
import Idealize.ShloMosaic.PureOps.Ideal.Laws
import Idealize.ShloMosaic.Lib.ValueIdx
import Idealize.ShloMosaic.Lib.Pipeline.Value
import proofs.«162078_j40114994545134_1_alg».proof.Proof.Spec
import proofs.«162078_j40114994545134_1_alg».proof.Proof.LibDot

noncomputable section

namespace Cert.RefLinear

open Idealize.ShloMosaic Idealize.ShloMosaic.ValueIdx

variable {M K N : Nat}

theorem broadcastTo_row_apply {α : Type} (v : (⟨2, ![1, N]⟩ : Shape).Idx → α)
    (h : (⟨2, ![1, N]⟩ : Shape).Broadcasts ⟨2, ![M, N]⟩) (p : Fin M) (q : Fin N) :
    broadcastTo ⟨2, ![M, N]⟩ v h (ix2 p q) = v (ix2 (0 : Fin 1) q) := by
  refine broadcastTo_apply v h (ix2 p q) (ix2 (0 : Fin 1) q) fun ax => ?_
  match ax with
  | ⟨0, _⟩ =>
    show (0 : ℕ) = if (1 : ℕ) = 1 then 0 else p.val
    rw [if_pos rfl]
  | ⟨1, _⟩ =>
    show q.val = if N = 1 then 0 else q.val
    split
    · have := q.isLt; omega
    · rfl

theorem broadcastInDim_row_apply {α : Type} (v : (⟨2, ![1, N]⟩ : Shape).Idx → α)
    (h : (⟨2, ![1, N]⟩ : Shape).BroadcastsInDim ⟨2, ![M, N]⟩ (![0, 1] : Fin 2 → Fin (⟨2, ![M, N]⟩ : Shape).rank))
    (p : Fin M) (q : Fin N) :
    broadcastInDim ⟨2, ![M, N]⟩ ![0, 1] h v (ix2 p q) = v (ix2 (0 : Fin 1) q) := by
  refine broadcastInDim_apply _ h v (ix2 p q) (ix2 (0 : Fin 1) q) fun ax => ?_
  match ax with
  | ⟨0, _⟩ =>
    show (0 : ℕ) = if (1 : ℕ) = 1 then 0 else p.val
    rw [if_pos rfl]
  | ⟨1, _⟩ =>
    show q.val = if N = 1 then 0 else q.val
    split
    · have := q.isLt; omega
    · rfl

theorem broadcastInDim_vector_apply {α : Type} (b : (⟨1, ![N]⟩ : Shape).Idx → α)
    (h : (⟨1, ![N]⟩ : Shape).BroadcastsInDim ⟨2, ![1, N]⟩ (![1] : Fin 1 → Fin (⟨2, ![1, N]⟩ : Shape).rank))
    (u : Fin 1) (q : Fin N) :
    broadcastInDim ⟨2, ![1, N]⟩ ![1] h b (ix2 u q) = b (ix1 q) := by
  refine broadcastInDim_apply _ h b (ix2 u q) (ix1 q) fun ax => ?_
  match ax with
  | ⟨0, _⟩ =>
    show q.val = if N = 1 then 0 else q.val
    split
    · have := q.isLt; omega
    · rfl

theorem rowOfVector_eq (b : FVec Ideal ⟨1, ![N]⟩ .f32) (h : (⟨1, ![N]⟩ : Shape).ShapeCasts ⟨2, ![1, N]⟩) :
    shapeCast ⟨2, ![1, N]⟩ b h = fun j => b (ix1 (j 1)) := by
  funext j
  obtain ⟨u, q, rfl⟩ : ∃ (u : Fin 1) (q : Fin N), j = ix2 u q := ⟨j 0, j 1, eq_ix2 j⟩
  exact shapeCast_apply b h _ _ (by
    have hu : u.val = 0 := by omega
    rw [Shape.rowMajor_val_one, Shape.rowMajor_val_two]
    show q.val = u.val * N + q.val
    rw [hu, Nat.zero_mul, Nat.zero_add])

section
variable (D : DotDims ⟨2, ![M, K]⟩ ⟨2, ![K, N]⟩ ⟨2, ![M, N]⟩)

theorem hostLin_eq (hlc : D.lhsContracting = [1]) (hrc : D.rhsContracting = [0]) (hln : D.lhsNonContracting = [0])
    (hrn : D.rhsNonContracting = [1]) (hlb : D.lhsBatch = []) (hrb : D.rhsBatch = [])
    (x : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ (![1] : Fin 1 → Fin (⟨2, ![1, N]⟩ : Shape).rank))
    (h2 : (⟨2, ![1, N]⟩ : Shape).BroadcastsInDim ⟨2, ![M, N]⟩ (![0, 1] : Fin 2 → Fin (⟨2, ![M, N]⟩ : Shape).rank)) :
    addf (Host.dotGeneral D none x w) (broadcastInDim ⟨2, ![M, N]⟩ ![0, 1] h2 (broadcastInDim ⟨2, ![1, N]⟩ ![1] h1 b))
      = Cert.Spec.lin x w (fun j => b (ix1 (j 1))) := by
  funext j
  obtain ⟨p, q, rfl⟩ : ∃ (p : Fin M) (q : Fin N), j = ix2 p q := ⟨j 0, j 1, eq_ix2 j⟩
  rw [Cert.Spec.lin_apply, addf_apply, Cert.LibDot.dotGeneral_plain_apply D hlc hrc hln hrn hlb hrb,
    broadcastInDim_row_apply, broadcastInDim_vector_apply]
  rfl

theorem bodyLin_eq (hlc : D.lhsContracting = [1]) (hrc : D.rhsContracting = [0]) (hln : D.lhsNonContracting = [0])
    (hrn : D.rhsNonContracting = [1]) (hlb : D.lhsBatch = []) (hrb : D.rhsBatch = [])
    (x : FVec Ideal ⟨2, ![M, K]⟩ .f32) (w : FVec Ideal ⟨2, ![K, N]⟩ .f32) (b : FVec Ideal ⟨2, ![1, N]⟩ .f32)
    (hn : FTy.bits .bf16 < FTy.bits .f32) (hs : (⟨2, ![1, N]⟩ : Shape).ShapeCasts ⟨2, ![1, N]⟩)
    (hb : (⟨2, ![1, N]⟩ : Shape).Broadcasts ⟨2, ![M, N]⟩) :
    addf (matmul D none (truncf .bf16 x hn) (truncf .bf16 w hn) (constant (F := Ideal) ⟨2, ![M, N]⟩ .f32 0x00000000#32))
        (broadcastTo ⟨2, ![M, N]⟩ (shapeCast ⟨2, ![1, N]⟩ b hs) hb)
      = Cert.Spec.lin x w b := by
  funext j
  obtain ⟨p, q, rfl⟩ : ∃ (p : Fin M) (q : Fin N), j = ix2 p q := ⟨j 0, j 1, eq_ix2 j⟩
  rw [Cert.Spec.lin_apply, addf_apply, Cert.LibDot.matmul_plain_apply D hlc hrc hln hrn hlb hrb,
    broadcastTo_row_apply, shapeCast_self]
  rfl

end

end Cert.RefLinear

end
-- ==== Proof.KI.Val0.lean ====
import proofs.«162078_j40114994545134_1_alg».proof.Proof.KI.Def0
import proofs.«162078_j40114994545134_1_alg».proof.Proof.Spec
import proofs.«162078_j40114994545134_1_alg».proof.Proof.LibDot
import proofs.«162078_j40114994545134_1_alg».proof.Proof.RefLinear
import proofs.«162078_j40114994545134_1_alg».proof.Proof.Gen.KernelIdeal.Launch
import proofs.«162078_j40114994545134_1_alg».proof.Proof.Gen.KernelIdeal.Skeleton
import proofs.«162078_j40114994545134_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

local notation "𝕄" => MT nD τ sig Unit (Elt Ideal) ℕ (UR sig nD τ) ℕ

variable (V : (c : Dev nD) → (b : Ref sig .tc) → Buf (Elt Ideal) ((c : Thread nD τ).loc b))

theorem zeroOff0 : (![0, 0] : Fin 2 → Nat) = fun _ => 0 := funext fun a => by fin_cases a <;> rfl

theorem pay0_eq (x0 : Vec Ideal S10000x32 .f32) (x1 : Vec Ideal S32x128 .f32) (x2 : Vec Ideal S1x128 .f32) :
    k0_pay1 (F := Ideal) x0 x1 x2 = Cert.Spec.lin x0 x1 x2 := by
  unfold k0_pay1
  exact Cert.RefLinear.bodyLin_eq dot_S10000x32_S32x128_S10000x128_1_0_0_1_n_n rfl rfl rfl rfl rfl rfl x0 x1 x2 _ _ _

theorem idx_facts0 : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

def row0 (t : Fin cfg0.N) (p : Fin 10000) : Fin 100000 :=
  ⟨t.val * 10000 + p.val, by have := t.isLt; have hN : cfg0.N = 10 := N_0; have := p.isLt; omega⟩

theorem emb0_o (t : Fin cfg0.N) (p : Fin 10000) (q : Fin 128) :
    ((cfg0.win 3).blk t).view.emb (ix2 p q) = ix2 (row0 t p) q := by
  obtain ⟨e0, e1, e2, e3, e4, e5, e6, e7⟩ := idx_facts0 t
  funext a; apply Fin.ext
  match a with
  | ⟨0, _⟩ => show win0_3.index t (0 : Fin 2) * 10000 + 1 * p.val = t.val * 10000 + p.val; omega
  | ⟨1, _⟩ => show win0_3.index t (1 : Fin 2) * 128 + 1 * q.val = q.val; omega

theorem emb0_x (t : Fin cfg0.N) (p : Fin 10000) (k : Fin 32) :
    ((cfg0.win 0).blk t).view.emb (ix2 p k) = ix2 (row0 t p) k := by
  obtain ⟨e0, e1, e2, e3, e4, e5, e6, e7⟩ := idx_facts0 t
  funext a; apply Fin.ext
  match a with
  | ⟨0, _⟩ => show win0_0.index t (0 : Fin 2) * 10000 + 1 * p.val = t.val * 10000 + p.val; omega
  | ⟨1, _⟩ => show win0_0.index t (1 : Fin 2) * 32 + 1 * k.val = k.val; omega

theorem emb0_w (t : Fin cfg0.N) (k : Fin 32) (q : Fin 128) :
    ((cfg0.win 1).blk t).view.emb (ix2 k q) = ix2 k q := by
  obtain ⟨e0, e1, e2, e3, e4, e5, e6, e7⟩ := idx_facts0 t
  funext a; apply Fin.ext
  match a with
  | ⟨0, _⟩ => show win0_1.index t (0 : Fin 2) * 32 + 1 * k.val = k.val; omega
  | ⟨1, _⟩ => show win0_1.index t (1 : Fin 2) * 128 + 1 * q.val = q.val; omega

theorem emb0_b (t : Fin cfg0.N) (u : Fin 1) (q : Fin 128) :
    ((cfg0.win 2).blk t).view.emb (ix2 u q) = ix2 u q := by
  obtain ⟨e0, e1, e2, e3, e4, e5, e6, e7⟩ := idx_facts0 t
  funext a; apply Fin.ext
  match a with
  | ⟨0, _⟩ => show win0_2.index t (0 : Fin 2) * 1 + 1 * u.val = u.val; omega
  | ⟨1, _⟩ => show win0_2.index t (1 : Fin 2) * 128 + 1 * q.val = q.val; omega

theorem iblk0_x_apply (c : Dev nD) (t : Fin cfg0.N) (p : Fin 10000) (k : Fin 32) :
    (iblk0 V c 0 t : Vec Ideal S10000x32 .f32) (ix2 p k) = (V c main_arg0 : S100000x32.Idx → EReal) (ix2 (row0 t p) k) := by
  rw [← emb0_x t p k]; rfl
theorem iblk0_w_apply (c : Dev nD) (t : Fin cfg0.N) (k : Fin 32) (q : Fin 128) :
    (iblk0 V c 1 t : Vec Ideal S32x128 .f32) (ix2 k q) = (V c main_arg15 : S32x128.Idx → EReal) (ix2 k q) := by
  conv_rhs => rw [← emb0_w t k q]
  rfl
theorem iblk0_b_apply (c : Dev nD) (t : Fin cfg0.N) (u : Fin 1) (q : Fin 128) :
    (iblk0 V c 2 t : Vec Ideal S1x128 .f32) (ix2 u q) = (V c main_v0 : S1x128.Idx → EReal) (ix2 u q) := by
  conv_rhs => rw [← emb0_b t u q]
  rfl

theorem lin_blocks0 (c : Dev nD) (t : Fin cfg0.N) (j : S10000x128.Idx) :
    Cert.Spec.lin (iblk0 V c 0 t : Vec Ideal S10000x32 .f32) (iblk0 V c 1 t : Vec Ideal S32x128 .f32)
        (iblk0 V c 2 t : Vec Ideal S1x128 .f32) j
      = Cert.Spec.lin (M := 100000) (K := 32) (N := 128) (V c main_arg0) (V c main_arg15) (V c main_v0)
          (((cfg0.win 3).blk t).view.emb j) := by
  obtain ⟨p, q, rfl⟩ : ∃ (p : Fin 10000) (q : Fin 128), j = ix2 p q := ⟨j 0, j 1, eq_ix2 j⟩
  rw [emb0_o t p q, Cert.Spec.lin_apply, Cert.Spec.lin_apply, iblk0_b_apply V c t 0 q]
  congr 1
  refine Finset.sum_congr rfl fun k _ => ?_
  rw [iblk0_x_apply V c t p k, iblk0_w_apply V c t k q]

theorem flushed0_eq (c : Dev nD) (t : Fin cfg0.N) :
    (dat0 V c).flushed 3 t = ((cfg0.win 3).blk t).view.read (Elt Ideal)
      (Cert.Spec.lin (M := 100000) (K := 32) (N := 128) (V c main_arg0) (V c main_arg15) (V c main_v0)) := by
  show (cfg0.win 3).cut (grid0.coords t) ((dat0 V c).after 3 t) = _
  rw [after0_3]
  unfold out0_3
  rw [View.canon_unit_zero zeroOff0]
  simp only [View.ld_unit_zero (S := S10000x32) zeroOff0, View.ld_unit_zero (S := S32x128) zeroOff0,
    View.ld_unit_zero (S := S1x128) zeroOff0]
  rw [pay0_eq]
  funext j
  exact lin_blocks0 V c t j

theorem mem_blk0 (t : Fin cfg0.N) (i : S100000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v1).slice (win0_3.rect t)).set ↔ _
  rw [View.set_slice_whole, Rect.mem_set_unit]
  exact Iff.rfl

theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 10 := N_0
  obtain ⟨t, ht⟩ : ∃ t : Fin cfg0.N, t.val = (i 0).val / 10000 := ⟨⟨(i 0).val / 10000, by omega⟩, rfl⟩
  obtain ⟨e0, e1, e2, e3, e4, e5, e6, e7⟩ := idx_facts0 t
  refine ⟨t, flush0_3 t, ?_⟩
  rw [mem_blk0]
  intro a
  match a with
  | ⟨0, _⟩ =>
    show win0_3.index t (0 : Fin 2) * 10000 ≤ (i 0).val ∧ (i 0).val < win0_3.index t (0 : Fin 2) * 10000 + 10000
    omega
  | ⟨1, _⟩ =>
    show win0_3.index t (1 : Fin 2) * 128 ≤ (i 1).val ∧ (i 1).val < win0_3.index t (1 : Fin 2) * 128 + 128
    omega

theorem final0 (c : Dev nD) :
    (dat0 (F := Ideal) V c).arrAt 3 cfg0.N
      = Cert.Spec.lin (M := 100000) (K := 32) (N := 128) (V c main_arg0) (V c main_arg15) (V c main_v0) :=
  (dat0 V c).arrAt_eq_of_cover 3 _ (fun t _ => flushed0_eq V c t) (fun i => cover0 i)

end Cert.KernelIdeal.Hand

end
-- ==== Proof.KI.Val1.lean ====
import proofs.«162078_j40114994545134_1_alg».proof.Proof.KI.Def1
import proofs.«162078_j40114994545134_1_alg».proof.Proof.Spec
import proofs.«162078_j40114994545134_1_alg».proof.Proof.LibDot
import proofs.«162078_j40114994545134_1_alg».proof.Proof.RefLinear
import proofs.«162078_j40114994545134_1_alg».proof.Proof.Gen.KernelIdeal.Launch
import proofs.«162078_j40114994545134_1_alg».proof.Proof.Gen.KernelIdeal.Skeleton
import proofs.«162078_j40114994545134_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

local notation "𝕄" => MT nD τ sig Unit (Elt Ideal) ℕ (UR sig nD τ) ℕ

local notation "rowsB" => (10000 : ℕ)
local notation "rowsA" => (100000 : ℕ)
local notation "nPts" => (10 : ℕ)
local notation "dK" => (128 : ℕ)
local notation "dN" => (128 : ℕ)

local notation "ShXb" => S10000x128
local notation "ShW" => S128x128
local notation "ShB" => S1x128
local notation "ShOb" => S10000x128
local notation "ShXa" => S100000x128
local notation "ShOa" => S100000x128

local notation "arrX" => main_v1
local notation "arrW" => main_arg23
local notation "arrB" => main_v2
local notation "arrO" => main_v3

local notation "dotB" => dot_S10000x128_S128x128_S10000x128_1_0_0_1_n_n

variable (V : (c : Dev nD) → (b : Ref sig .tc) → Buf (Elt Ideal) ((c : Thread nD τ).loc b))

theorem zeroOff1 : (![0, 0] : Fin 2 → Nat) = fun _ => 0 := funext fun a => by fin_cases a <;> rfl

theorem pay1_eq (x0 : Vec Ideal ShXb .f32) (x1 : Vec Ideal ShW .f32) (x2 : Vec Ideal ShB .f32) :
    k1_pay1 (F := Ideal) x0 x1 x2 = Cert.Spec.lin x0 x1 x2 := by
  unfold k1_pay1
  rw [shapeCast_self x0]
  exact Cert.RefLinear.bodyLin_eq dotB rfl rfl rfl rfl rfl rfl x0 x1 x2 _ _ _

theorem idx_facts1 : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

def row1 (t : Fin cfg1.N) (p : Fin rowsB) : Fin rowsA :=
  ⟨t.val * rowsB + p.val, by have := t.isLt; have hN : cfg1.N = nPts := N_1; have := p.isLt; omega⟩

theorem emb1_o (t : Fin cfg1.N) (p : Fin rowsB) (q : Fin dN) :
    ((cfg1.win 3).blk t).view.emb (ix2 p q) = ix2 (row1 t p) q := by
  obtain ⟨e0, e1, e2, e3, e4, e5, e6, e7⟩ := idx_facts1 t
  funext a; apply Fin.ext
  match a with
  | ⟨0, _⟩ => show win1_3.index t (0 : Fin 2) * rowsB + 1 * p.val = t.val * rowsB + p.val; omega
  | ⟨1, _⟩ => show win1_3.index t (1 : Fin 2) * dN + 1 * q.val = q.val; omega

theorem emb1_x (t : Fin cfg1.N) (p : Fin rowsB) (k : Fin dK) :
    ((cfg1.win 0).blk t).view.emb (ix2 p k) = ix2 (row1 t p) k := by
  obtain ⟨e0, e1, e2, e3, e4, e5, e6, e7⟩ := idx_facts1 t
  funext a; apply Fin.ext
  match a with
  | ⟨0, _⟩ => show win1_0.index t (0 : Fin 2) * rowsB + 1 * p.val = t.val * rowsB + p.val; omega
  | ⟨1, _⟩ => show win1_0.index t (1 : Fin 2) * dK + 1 * k.val = k.val; omega

theorem emb1_w (t : Fin cfg1.N) (k : Fin dK) (q : Fin dN) :
    ((cfg1.win 1).blk t).view.emb (ix2 k q) = ix2 k q := by
  obtain ⟨e0, e1, e2, e3, e4, e5, e6, e7⟩ := idx_facts1 t
  funext a; apply Fin.ext
  match a with
  | ⟨0, _⟩ => show win1_1.index t (0 : Fin 2) * dK + 1 * k.val = k.val; omega
  | ⟨1, _⟩ => show win1_1.index t (1 : Fin 2) * dN + 1 * q.val = q.val; omega

theorem emb1_b (t : Fin cfg1.N) (u : Fin 1) (q : Fin dN) :
    ((cfg1.win 2).blk t).view.emb (ix2 u q) = ix2 u q := by
  obtain ⟨e0, e1, e2, e3, e4, e5, e6, e7⟩ := idx_facts1 t
  funext a; apply Fin.ext
  match a with
  | ⟨0, _⟩ => show win1_2.index t (0 : Fin 2) * 1 + 1 * u.val = u.val; omega
  | ⟨1, _⟩ => show win1_2.index t (1 : Fin 2) * dN + 1 * q.val = q.val; omega

theorem iblk1_x_apply (c : Dev nD) (t : Fin cfg1.N) (p : Fin rowsB) (k : Fin dK) :
    (iblk1 V c 0 t : Vec Ideal ShXb .f32) (ix2 p k) = (V c arrX : Shape.Idx ShXa → EReal) (ix2 (row1 t p) k) := by
  rw [← emb1_x t p k]; rfl
theorem iblk1_w_apply (c : Dev nD) (t : Fin cfg1.N) (k : Fin dK) (q : Fin dN) :
    (iblk1 V c 1 t : Vec Ideal ShW .f32) (ix2 k q) = (V c arrW : Shape.Idx ShW → EReal) (ix2 k q) := by
  conv_rhs => rw [← emb1_w t k q]
  rfl
theorem iblk1_b_apply (c : Dev nD) (t : Fin cfg1.N) (u : Fin 1) (q : Fin dN) :
    (iblk1 V c 2 t : Vec Ideal ShB .f32) (ix2 u q) = (V c arrB : Shape.Idx ShB → EReal) (ix2 u q) := by
  conv_rhs => rw [← emb1_b t u q]
  rfl

theorem lin_blocks1 (c : Dev nD) (t : Fin cfg1.N) (j : Shape.Idx ShOb) :
    Cert.Spec.lin (iblk1 V c 0 t : Vec Ideal ShXb .f32) (iblk1 V c 1 t : Vec Ideal ShW .f32)
        (iblk1 V c 2 t : Vec Ideal ShB .f32) j
      = Cert.Spec.lin (M := rowsA) (K := dK) (N := dN) (V c arrX) (V c arrW) (V c arrB)
          (((cfg1.win 3).blk t).view.emb j) := by
  obtain ⟨p, q, rfl⟩ : ∃ (p : Fin rowsB) (q : Fin dN), j = ix2 p q := ⟨j 0, j 1, eq_ix2 j⟩
  rw [emb1_o t p q, Cert.Spec.lin_apply, Cert.Spec.lin_apply, iblk1_b_apply V c t 0 q]
  congr 1
  refine Finset.sum_congr rfl fun k _ => ?_
  rw [iblk1_x_apply V c t p k, iblk1_w_apply V c t k q]

theorem flushed1_eq (c : Dev nD) (t : Fin cfg1.N) :
    (dat1 V c).flushed 3 t = ((cfg1.win 3).blk t).view.read (Elt Ideal)
      (Cert.Spec.lin (M := rowsA) (K := dK) (N := dN) (V c arrX) (V c arrW) (V c arrB)) := by
  show (cfg1.win 3).cut (grid1.coords t) ((dat1 V c).after 3 t) = _
  rw [after1_3]
  unfold out1_3
  rw [View.canon_unit_zero zeroOff1]
  simp only [View.ld_unit_zero (S := ShXb) zeroOff1, View.ld_unit_zero (S := ShW) zeroOff1,
    View.ld_unit_zero (S := ShB) zeroOff1]
  rw [pay1_eq]
  funext j
  exact lin_blocks1 V c t j

theorem mem_blk1 (t : Fin cfg1.N) (i : Shape.Idx ShOa) :
    i ∈ ((cfg1.win 3).blk t).view.set ↔ ∀ a : Fin 2, win1_3.index t a * Shape.size ShOb a ≤ (i a).val
      ∧ (i a).val < win1_3.index t a * Shape.size ShOb a + Shape.size ShOb a := by
  show i ∈ ((View.whole arrO).slice (win1_3.rect t)).set ↔ _
  rw [View.set_slice_whole, Rect.mem_set_unit]
  exact Iff.rfl

theorem cover1 (i : Shape.Idx ShOa) :
    ∃ t : Fin cfg1.N, (cfg1.win 3).flush t = true ∧ i ∈ ((cfg1.win 3).blk t).view.set := by
  have hi0 : (i 0).val < rowsA := (i 0).isLt
  have hi1 : (i 1).val < dN := (i 1).isLt
  have hN : cfg1.N = nPts := N_1
  obtain ⟨t, ht⟩ : ∃ t : Fin cfg1.N, t.val = (i 0).val / rowsB := ⟨⟨(i 0).val / rowsB, by omega⟩, rfl⟩
  obtain ⟨e0, e1, e2, e3, e4, e5, e6, e7⟩ := idx_facts1 t
  refine ⟨t, flush1_3 t, ?_⟩
  rw [mem_blk1]
  intro a
  match a with
  | ⟨0, _⟩ =>
    show win1_3.index t (0 : Fin 2) * rowsB ≤ (i 0).val ∧ (i 0).val < win1_3.index t (0 : Fin 2) * rowsB + rowsB
    omega
  | ⟨1, _⟩ =>
    show win1_3.index t (1 : Fin 2) * dN ≤ (i 1).val ∧ (i 1).val < win1_3.index t (1 : Fin 2) * dN + dN
    omega

theorem final1 (c : Dev nD) :
    (dat1 (F := Ideal) V c).arrAt 3 cfg1.N
      = Cert.Spec.lin (M := rowsA) (K := dK) (N := dN) (V c arrX) (V c arrW) (V c arrB) :=
  (dat1 V c).arrAt_eq_of_cover 3 _ (fun t _ => flushed1_eq V c t) (fun i => cover1 i)

end Cert.KernelIdeal.Hand

end
-- ==== Proof.KI.Val2.lean ====
import proofs.«162078_j40114994545134_1_alg».proof.Proof.KI.Def2
import proofs.«162078_j40114994545134_1_alg».proof.Proof.Spec
import proofs.«162078_j40114994545134_1_alg».proof.Proof.LibDot
import proofs.«162078_j40114994545134_1_alg».proof.Proof.RefLinear
import proofs.«162078_j40114994545134_1_alg».proof.Proof.Gen.KernelIdeal.Launch
import proofs.«162078_j40114994545134_1_alg».proof.Proof.Gen.KernelIdeal.Skeleton
import proofs.«162078_j40114994545134_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

local notation "𝕄" => MT nD τ sig Unit (Elt Ideal) ℕ (UR sig nD τ) ℕ

local notation "rowsB" => (5000 : ℕ)
local notation "rowsA" => (25000 : ℕ)
local notation "nPts" => (5 : ℕ)
local notation "dK" => (128 : ℕ)
local notation "dN" => (128 : ℕ)

local notation "ShXb" => S5000x128
local notation "ShW" => S128x128
local notation "ShB" => S1x128
local notation "ShOb" => S5000x128
local notation "ShXa" => S25000x128
local notation "ShOa" => S25000x128

local notation "arrX" => main_v22
local notation "arrW" => main_arg25
local notation "arrB" => main_v23
local notation "arrO" => main_v24

local notation "dotB" => dot_S5000x128_S128x128_S5000x128_1_0_0_1_n_n

variable (V : (c : Dev nD) → (b : Ref sig .tc) → Buf (Elt Ideal) ((c : Thread nD τ).loc b))

theorem zeroOff2 : (![0, 0] : Fin 2 → Nat) = fun _ => 0 := funext fun a => by fin_cases a <;> rfl

theorem pay2_eq (x0 : Vec Ideal ShXb .f32) (x1 : Vec Ideal ShW .f32) (x2 : Vec Ideal ShB .f32) :
    k2_pay1 (F := Ideal) x0 x1 x2 = Cert.Spec.lin x0 x1 x2 := by
  unfold k2_pay1
  rw [shapeCast_self x0]
  exact Cert.RefLinear.bodyLin_eq dotB rfl rfl rfl rfl rfl rfl x0 x1 x2 _ _ _

theorem idx_facts2 : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = t.val
    ∧ win2_3.index t (1 : Fin 2) = 0 :=
  (by decide +kernel : ∀ t : Fin grid2.N, _)

def row2 (t : Fin cfg2.N) (p : Fin rowsB) : Fin rowsA :=
  ⟨t.val * rowsB + p.val, by have := t.isLt; have hN : cfg2.N = nPts := N_2; have := p.isLt; omega⟩

theorem emb2_o (t : Fin cfg2.N) (p : Fin rowsB) (q : Fin dN) :
    ((cfg2.win 3).blk t).view.emb (ix2 p q) = ix2 (row2 t p) q := by
  obtain ⟨e0, e1, e2, e3, e4, e5, e6, e7⟩ := idx_facts2 t
  funext a; apply Fin.ext
  match a with
  | ⟨0, _⟩ => show win2_3.index t (0 : Fin 2) * rowsB + 1 * p.val = t.val * rowsB + p.val; omega
  | ⟨1, _⟩ => show win2_3.index t (1 : Fin 2) * dN + 1 * q.val = q.val; omega

theorem emb2_x (t : Fin cfg2.N) (p : Fin rowsB) (k : Fin dK) :
    ((cfg2.win 0).blk t).view.emb (ix2 p k) = ix2 (row2 t p) k := by
  obtain ⟨e0, e1, e2, e3, e4, e5, e6, e7⟩ := idx_facts2 t
  funext a; apply Fin.ext
  match a with
  | ⟨0, _⟩ => show win2_0.index t (0 : Fin 2) * rowsB + 1 * p.val = t.val * rowsB + p.val; omega
  | ⟨1, _⟩ => show win2_0.index t (1 : Fin 2) * dK + 1 * k.val = k.val; omega

theorem emb2_w (t : Fin cfg2.N) (k : Fin dK) (q : Fin dN) :
    ((cfg2.win 1).blk t).view.emb (ix2 k q) = ix2 k q := by
  obtain ⟨e0, e1, e2, e3, e4, e5, e6, e7⟩ := idx_facts2 t
  funext a; apply Fin.ext
  match a with
  | ⟨0, _⟩ => show win2_1.index t (0 : Fin 2) * dK + 1 * k.val = k.val; omega
  | ⟨1, _⟩ => show win2_1.index t (1 : Fin 2) * dN + 1 * q.val = q.val; omega

theorem emb2_b (t : Fin cfg2.N) (u : Fin 1) (q : Fin dN) :
    ((cfg2.win 2).blk t).view.emb (ix2 u q) = ix2 u q := by
  obtain ⟨e0, e1, e2, e3, e4, e5, e6, e7⟩ := idx_facts2 t
  funext a; apply Fin.ext
  match a with
  | ⟨0, _⟩ => show win2_2.index t (0 : Fin 2) * 1 + 1 * u.val = u.val; omega
  | ⟨1, _⟩ => show win2_2.index t (1 : Fin 2) * dN + 1 * q.val = q.val; omega

theorem iblk2_x_apply (c : Dev nD) (t : Fin cfg2.N) (p : Fin rowsB) (k : Fin dK) :
    (iblk2 V c 0 t : Vec Ideal ShXb .f32) (ix2 p k) = (V c arrX : Shape.Idx ShXa → EReal) (ix2 (row2 t p) k) := by
  rw [← emb2_x t p k]; rfl
theorem iblk2_w_apply (c : Dev nD) (t : Fin cfg2.N) (k : Fin dK) (q : Fin dN) :
    (iblk2 V c 1 t : Vec Ideal ShW .f32) (ix2 k q) = (V c arrW : Shape.Idx ShW → EReal) (ix2 k q) := by
  conv_rhs => rw [← emb2_w t k q]
  rfl
theorem iblk2_b_apply (c : Dev nD) (t : Fin cfg2.N) (u : Fin 1) (q : Fin dN) :
    (iblk2 V c 2 t : Vec Ideal ShB .f32) (ix2 u q) = (V c arrB : Shape.Idx ShB → EReal) (ix2 u q) := by
  conv_rhs => rw [← emb2_b t u q]
  rfl

theorem lin_blocks2 (c : Dev nD) (t : Fin cfg2.N) (j : Shape.Idx ShOb) :
    Cert.Spec.lin (iblk2 V c 0 t : Vec Ideal ShXb .f32) (iblk2 V c 1 t : Vec Ideal ShW .f32)
        (iblk2 V c 2 t : Vec Ideal ShB .f32) j
      = Cert.Spec.lin (M := rowsA) (K := dK) (N := dN) (V c arrX) (V c arrW) (V c arrB)
          (((cfg2.win 3).blk t).view.emb j) := by
  obtain ⟨p, q, rfl⟩ : ∃ (p : Fin rowsB) (q : Fin dN), j = ix2 p q := ⟨j 0, j 1, eq_ix2 j⟩
  rw [emb2_o t p q, Cert.Spec.lin_apply, Cert.Spec.lin_apply, iblk2_b_apply V c t 0 q]
  congr 1
  refine Finset.sum_congr rfl fun k _ => ?_
  rw [iblk2_x_apply V c t p k, iblk2_w_apply V c t k q]

theorem flushed2_eq (c : Dev nD) (t : Fin cfg2.N) :
    (dat2 V c).flushed 3 t = ((cfg2.win 3).blk t).view.read (Elt Ideal)
      (Cert.Spec.lin (M := rowsA) (K := dK) (N := dN) (V c arrX) (V c arrW) (V c arrB)) := by
  show (cfg2.win 3).cut (grid2.coords t) ((dat2 V c).after 3 t) = _
  rw [after2_3]
  unfold out2_3
  rw [View.canon_unit_zero zeroOff2]
  simp only [View.ld_unit_zero (S := ShXb) zeroOff2, View.ld_unit_zero (S := ShW) zeroOff2,
    View.ld_unit_zero (S := ShB) zeroOff2]
  rw [pay2_eq]
  funext j
  exact lin_blocks2 V c t j

theorem mem_blk2 (t : Fin cfg2.N) (i : Shape.Idx ShOa) :
    i ∈ ((cfg2.win 3).blk t).view.set ↔ ∀ a : Fin 2, win2_3.index t a * Shape.size ShOb a ≤ (i a).val
      ∧ (i a).val < win2_3.index t a * Shape.size ShOb a + Shape.size ShOb a := by
  show i ∈ ((View.whole arrO).slice (win2_3.rect t)).set ↔ _
  rw [View.set_slice_whole, Rect.mem_set_unit]
  exact Iff.rfl

theorem cover2 (i : Shape.Idx ShOa) :
    ∃ t : Fin cfg2.N, (cfg2.win 3).flush t = true ∧ i ∈ ((cfg2.win 3).blk t).view.set := by
  have hi0 : (i 0).val < rowsA := (i 0).isLt
  have hi1 : (i 1).val < dN := (i 1).isLt
  have hN : cfg2.N = nPts := N_2
  obtain ⟨t, ht⟩ : ∃ t : Fin cfg2.N, t.val = (i 0).val / rowsB := ⟨⟨(i 0).val / rowsB, by omega⟩, rfl⟩
  obtain ⟨e0, e1, e2, e3, e4, e5, e6, e7⟩ := idx_facts2 t
  refine ⟨t, flush2_3 t, ?_⟩
  rw [mem_blk2]
  intro a
  match a with
  | ⟨0, _⟩ =>
    show win2_3.index t (0 : Fin 2) * rowsB ≤ (i 0).val ∧ (i 0).val < win2_3.index t (0 : Fin 2) * rowsB + rowsB
    omega
  | ⟨1, _⟩ =>
    show win2_3.index t (1 : Fin 2) * dN ≤ (i 1).val ∧ (i 1).val < win2_3.index t (1 : Fin 2) * dN + dN
    omega

theorem final2 (c : Dev nD) :
    (dat2 (F := Ideal) V c).arrAt 3 cfg2.N
      = Cert.Spec.lin (M := rowsA) (K := dK) (N := dN) (V c arrX) (V c arrW) (V c arrB) :=
  (dat2 V c).arrAt_eq_of_cover 3 _ (fun t _ => flushed2_eq V c t) (fun i => cover2 i)

end Cert.KernelIdeal.Hand

end
-- ==== Proof.Bridge.Encoder.lean ====
import proofs.«162078_j40114994545134_1_alg».proof.Proof.KI.Data
import proofs.«162078_j40114994545134_1_alg».proof.Proof.KI.Keep
import proofs.«162078_j40114994545134_1_alg».proof.Proof.KI.Val0
import proofs.«162078_j40114994545134_1_alg».proof.Proof.KI.Val1
import proofs.«162078_j40114994545134_1_alg».proof.Proof.KI.Val2
import proofs.«162078_j40114994545134_1_alg».proof.Proof.Ref.Chunks
import proofs.«162078_j40114994545134_1_alg».proof.Proof.RefLinear
import Idealize.ShloMosaic.Lib.StableHlo.Run

set_option maxRecDepth 16384

noncomputable section

namespace Cert.Bridge

open Idealize.ShloMosaic Idealize.ShloMosaic.TcCoe Idealize.ShloMosaic.ValueIdx
open Idealize.SL.Sem Idealize.ShloMosaic.StableHlo

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

theorem kAt1 (r : Ref Cert.KernelIdeal.sig .tc) (n1 : r ∉ Cert.KernelIdeal.GenP.hostOps0_W) :
    Cert.KernelIdeal.Hand.T1 m c (Proc.devRef .tc r) = m ((c.tc : Thread Cert.KernelIdeal.nD Cert.KernelIdeal.τ).loc r) :=
  Cert.KernelIdeal.Hand.T1_of m c r n1
theorem kAt2 (r : Ref Cert.KernelIdeal.sig .tc) (n1 : r ∉ Cert.KernelIdeal.GenP.hostOps0_W) (n2 : r ∉ ([Cert.KernelIdeal.main_v1] : List (Ref Cert.KernelIdeal.sig .tc))) :
    Cert.KernelIdeal.Hand.T2 m c (Proc.devRef .tc r) = m ((c.tc : Thread Cert.KernelIdeal.nD Cert.KernelIdeal.τ).loc r) :=
  (Cert.KernelIdeal.Hand.T2_of m c r n2).trans (kAt1 m c r n1)
theorem kAt3 (r : Ref Cert.KernelIdeal.sig .tc) (n1 : r ∉ Cert.KernelIdeal.GenP.hostOps0_W) (n2 : r ∉ ([Cert.KernelIdeal.main_v1] : List (Ref Cert.KernelIdeal.sig .tc))) (n3 : r ∉ Cert.KernelIdeal.GenP.hostOps1_W) :
    Cert.KernelIdeal.Hand.T3 m c (Proc.devRef .tc r) = m ((c.tc : Thread Cert.KernelIdeal.nD Cert.KernelIdeal.τ).loc r) :=
  (Cert.KernelIdeal.Hand.T3_of m c r n3).trans (kAt2 m c r n1 n2)
theorem kAt4 (r : Ref Cert.KernelIdeal.sig .tc) (n1 : r ∉ Cert.KernelIdeal.GenP.hostOps0_W) (n2 : r ∉ ([Cert.KernelIdeal.main_v1] : List (Ref Cert.KernelIdeal.sig .tc))) (n3 : r ∉ Cert.KernelIdeal.GenP.hostOps1_W) (n4 : r ∉ ([Cert.KernelIdeal.main_v3] : List (Ref Cert.KernelIdeal.sig .tc))) :
    Cert.KernelIdeal.Hand.T4 m c (Proc.devRef .tc r) = m ((c.tc : Thread Cert.KernelIdeal.nD Cert.KernelIdeal.τ).loc r) :=
  (Cert.KernelIdeal.Hand.T4_of m c r n4).trans (kAt3 m c r n1 n2 n3)
theorem kAt5 (r : Ref Cert.KernelIdeal.sig .tc) (n1 : r ∉ Cert.KernelIdeal.GenP.hostOps0_W) (n2 : r ∉ ([Cert.KernelIdeal.main_v1] : List (Ref Cert.KernelIdeal.sig .tc))) (n3 : r ∉ Cert.KernelIdeal.GenP.hostOps1_W) (n4 : r ∉ ([Cert.KernelIdeal.main_v3] : List (Ref Cert.KernelIdeal.sig .tc))) (n5 : r ∉ Cert.KernelIdeal.GenP.hostOps2_W) :
    Cert.KernelIdeal.Hand.T5 m c (Proc.devRef .tc r) = m ((c.tc : Thread Cert.KernelIdeal.nD Cert.KernelIdeal.τ).loc r) :=
  (Cert.KernelIdeal.Hand.T5_of m c r n5).trans (kAt4 m c r n1 n2 n3 n4)
theorem kAt6 (r : Ref Cert.KernelIdeal.sig .tc) (n1 : r ∉ Cert.KernelIdeal.GenP.hostOps0_W) (n2 : r ∉ ([Cert.KernelIdeal.main_v1] : List (Ref Cert.KernelIdeal.sig .tc))) (n3 : r ∉ Cert.KernelIdeal.GenP.hostOps1_W) (n4 : r ∉ ([Cert.KernelIdeal.main_v3] : List (Ref Cert.KernelIdeal.sig .tc))) (n5 : r ∉ Cert.KernelIdeal.GenP.hostOps2_W) (n6 : r ∉ ([Cert.KernelIdeal.main_v24] : List (Ref Cert.KernelIdeal.sig .tc))) :
    Cert.KernelIdeal.Hand.T6 m c (Proc.devRef .tc r) = m ((c.tc : Thread Cert.KernelIdeal.nD Cert.KernelIdeal.τ).loc r) :=
  (Cert.KernelIdeal.Hand.T6_of m c r n6).trans (kAt5 m c r n1 n2 n3 n4 n5)
theorem kAt7 (r : Ref Cert.KernelIdeal.sig .tc) (n1 : r ∉ Cert.KernelIdeal.GenP.hostOps0_W) (n2 : r ∉ ([Cert.KernelIdeal.main_v1] : List (Ref Cert.KernelIdeal.sig .tc))) (n3 : r ∉ Cert.KernelIdeal.GenP.hostOps1_W) (n4 : r ∉ ([Cert.KernelIdeal.main_v3] : List (Ref Cert.KernelIdeal.sig .tc))) (n5 : r ∉ Cert.KernelIdeal.GenP.hostOps2_W) (n6 : r ∉ ([Cert.KernelIdeal.main_v24] : List (Ref Cert.KernelIdeal.sig .tc))) (n7 : r ∉ Cert.KernelIdeal.GenP.hostOps3_W) :
    Cert.KernelIdeal.Hand.T7 m c (Proc.devRef .tc r) = m ((c.tc : Thread Cert.KernelIdeal.nD Cert.KernelIdeal.τ).loc r) :=
  (Cert.KernelIdeal.Hand.T7_of m c r n7).trans (kAt6 m c r n1 n2 n3 n4 n5 n6)

theorem rAt0 (r : Ref Cert.ReferenceIdeal.sig .tc) :
    Cert.ReferenceIdeal.Hand.R0 m' c (Proc.devRef .tc r) = m' ((c.tc : Thread Cert.ReferenceIdeal.nD Cert.ReferenceIdeal.τ).loc r) := rfl
theorem rAt1 (r : Ref Cert.ReferenceIdeal.sig .tc) (n0 : r ∉ Cert.ReferenceIdeal.Hand.rcW_0) :
    Cert.ReferenceIdeal.Hand.R1 m' c (Proc.devRef .tc r) = m' ((c.tc : Thread Cert.ReferenceIdeal.nD Cert.ReferenceIdeal.τ).loc r) :=
  (Cert.ReferenceIdeal.Hand.R_keep_0 m' c n0).trans (rAt0 m' c r )
theorem rAt2 (r : Ref Cert.ReferenceIdeal.sig .tc) (n0 : r ∉ Cert.ReferenceIdeal.Hand.rcW_0) (n1 : r ∉ Cert.ReferenceIdeal.Hand.rcW_1) :
    Cert.ReferenceIdeal.Hand.R2 m' c (Proc.devRef .tc r) = m' ((c.tc : Thread Cert.ReferenceIdeal.nD Cert.ReferenceIdeal.τ).loc r) :=
  (Cert.ReferenceIdeal.Hand.R_keep_1 m' c n1).trans (rAt1 m' c r n0)
theorem rAt3 (r : Ref Cert.ReferenceIdeal.sig .tc) (n0 : r ∉ Cert.ReferenceIdeal.Hand.rcW_0) (n1 : r ∉ Cert.ReferenceIdeal.Hand.rcW_1) (n2 : r ∉ Cert.ReferenceIdeal.Hand.rcW_2) :
    Cert.ReferenceIdeal.Hand.R3 m' c (Proc.devRef .tc r) = m' ((c.tc : Thread Cert.ReferenceIdeal.nD Cert.ReferenceIdeal.τ).loc r) :=
  (Cert.ReferenceIdeal.Hand.R_keep_2 m' c n2).trans (rAt2 m' c r n0 n1)
theorem rAt4 (r : Ref Cert.ReferenceIdeal.sig .tc) (n0 : r ∉ Cert.ReferenceIdeal.Hand.rcW_0) (n1 : r ∉ Cert.ReferenceIdeal.Hand.rcW_1) (n2 : r ∉ Cert.ReferenceIdeal.Hand.rcW_2) (n3 : r ∉ Cert.ReferenceIdeal.Hand.rcW_3) :
    Cert.ReferenceIdeal.Hand.R4 m' c (Proc.devRef .tc r) = m' ((c.tc : Thread Cert.ReferenceIdeal.nD Cert.ReferenceIdeal.τ).loc r) :=
  (Cert.ReferenceIdeal.Hand.R_keep_3 m' c n3).trans (rAt3 m' c r n0 n1 n2)

set_option maxHeartbeats 400000 in

theorem k0_bias :
    Cert.KernelIdeal.Hand.T1 m c (Proc.devRef .tc Cert.KernelIdeal.main_v0)
      = fun j => (m ((c.tc : Thread Cert.KernelIdeal.nD Cert.KernelIdeal.τ).loc Cert.KernelIdeal.main_arg16) : Cert.KernelIdeal.S128.Idx → EReal) (ix1 (j 1)) := by
  unfold Cert.KernelIdeal.Hand.T1
  show StableHlo.after Cert.KernelIdeal.Gen.hostOps0 _ (Proc.devRef .tc Cert.KernelIdeal.main_v0) = _
  after_results
  exact Cert.RefLinear.rowOfVector_eq (N := 128) _ _

set_option maxHeartbeats 400000 in

theorem k0_out :
    Cert.KernelIdeal.Hand.T2 m c (Proc.devRef .tc Cert.KernelIdeal.main_v1)
      = Cert.Spec.lin (M := 100000) (K := 32) (N := 128)
          (Cert.KernelIdeal.Hand.T1 m c (Proc.devRef .tc Cert.KernelIdeal.main_arg0)) (Cert.KernelIdeal.Hand.T1 m c (Proc.devRef .tc Cert.KernelIdeal.main_arg15)) (Cert.KernelIdeal.Hand.T1 m c (Proc.devRef .tc Cert.KernelIdeal.main_v0)) := by
  unfold Cert.KernelIdeal.Hand.T2
  rw [Function.update_self]
  unfold Cert.KernelIdeal.Hand.o0
  exact Cert.KernelIdeal.Hand.final0 (Cert.KernelIdeal.Hand.rd (Cert.KernelIdeal.Hand.T1 m)) c

set_option maxHeartbeats 400000 in

theorem r0_out :
    Cert.ReferenceIdeal.Hand.R1 m' c (Proc.devRef .tc Cert.ReferenceIdeal.main_v3)
      = Cert.Spec.lin (M := 100000) (K := 32) (N := 128)
          (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg15))
          (fun j => (m' ((c.tc : Thread Cert.ReferenceIdeal.nD Cert.ReferenceIdeal.τ).loc Cert.ReferenceIdeal.main_arg16) : Cert.ReferenceIdeal.S128.Idx → EReal) (ix1 (j 1))) := by
  unfold Cert.ReferenceIdeal.Hand.R1
  show StableHlo.after Cert.ReferenceIdeal.Hand.rc0 _ (Proc.devRef .tc Cert.ReferenceIdeal.main_v3) = _
  after_results
  exact Cert.RefLinear.hostLin_eq Cert.ReferenceIdeal.dot_S100000x32_S32x128_S100000x128_1_0_0_1_n_n rfl rfl rfl rfl rfl rfl _ _ _ _ _

set_option maxHeartbeats 400000 in

theorem h0 (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    Cert.KernelIdeal.Hand.T2 m c (Proc.devRef .tc Cert.KernelIdeal.main_v1) = Cert.ReferenceIdeal.Hand.R1 m' c (Proc.devRef .tc Cert.ReferenceIdeal.main_v3) := by
  rw [k0_out m c, r0_out m' c, kAt1 m c Cert.KernelIdeal.main_arg0 (by decide), kAt1 m c Cert.KernelIdeal.main_arg15 (by decide), k0_bias m c,
    h0, h15, h16]
  rfl

set_option maxHeartbeats 400000 in

theorem ke0_bias :
    Cert.KernelIdeal.Hand.T3 m c (Proc.devRef .tc Cert.KernelIdeal.main_v2)
      = fun j => (m ((c.tc : Thread Cert.KernelIdeal.nD Cert.KernelIdeal.τ).loc Cert.KernelIdeal.main_arg24) : Cert.KernelIdeal.S128.Idx → EReal) (ix1 (j 1)) := by
  unfold Cert.KernelIdeal.Hand.T3
  show StableHlo.after Cert.KernelIdeal.Gen.hostOps1 _ (Proc.devRef .tc Cert.KernelIdeal.main_v2) = _
  after_results
  rw [kAt2 m c Cert.KernelIdeal.main_arg24 (by decide) (by decide)]
  exact Cert.RefLinear.rowOfVector_eq (N := 128) _ _

set_option maxHeartbeats 400000 in

theorem ke0_out :
    Cert.KernelIdeal.Hand.T4 m c (Proc.devRef .tc Cert.KernelIdeal.main_v3)
      = Cert.Spec.lin (M := 100000) (K := 128) (N := 128)
          (Cert.KernelIdeal.Hand.T3 m c (Proc.devRef .tc Cert.KernelIdeal.main_v1)) (Cert.KernelIdeal.Hand.T3 m c (Proc.devRef .tc Cert.KernelIdeal.main_arg23)) (Cert.KernelIdeal.Hand.T3 m c (Proc.devRef .tc Cert.KernelIdeal.main_v2)) := by
  unfold Cert.KernelIdeal.Hand.T4
  rw [Function.update_self]
  unfold Cert.KernelIdeal.Hand.o1
  exact Cert.KernelIdeal.Hand.final1 (Cert.KernelIdeal.Hand.rd (Cert.KernelIdeal.Hand.T3 m)) c

set_option maxHeartbeats 400000 in

theorem re0_out :
    Cert.ReferenceIdeal.Hand.R2 m' c (Proc.devRef .tc Cert.ReferenceIdeal.main_v7)
      = Cert.Spec.lin (M := 100000) (K := 128) (N := 128)
          (Cert.ReferenceIdeal.Hand.R1 m' c (Proc.devRef .tc Cert.ReferenceIdeal.main_v3)) (m' ((c.tc : Thread Cert.ReferenceIdeal.nD Cert.ReferenceIdeal.τ).loc Cert.ReferenceIdeal.main_arg23))
          (fun j => (m' ((c.tc : Thread Cert.ReferenceIdeal.nD Cert.ReferenceIdeal.τ).loc Cert.ReferenceIdeal.main_arg24) : Cert.ReferenceIdeal.S128.Idx → EReal) (ix1 (j 1))) := by
  unfold Cert.ReferenceIdeal.Hand.R2
  show StableHlo.after Cert.ReferenceIdeal.Hand.rc1 _ (Proc.devRef .tc Cert.ReferenceIdeal.main_v7) = _
  after_results
  rw [rAt1 m' c Cert.ReferenceIdeal.main_arg23 (by decide), rAt1 m' c Cert.ReferenceIdeal.main_arg24 (by decide)]
  exact Cert.RefLinear.hostLin_eq Cert.ReferenceIdeal.dot_S100000x128_S128x128_S100000x128_1_0_0_1_n_n rfl rfl rfl rfl rfl rfl _ _ _ _ _

set_option maxHeartbeats 400000 in

theorem e0 (h_h0 : Cert.KernelIdeal.Hand.T2 m c (Proc.devRef .tc Cert.KernelIdeal.main_v1) = Cert.ReferenceIdeal.Hand.R1 m' c (Proc.devRef .tc Cert.ReferenceIdeal.main_v3))
    (h23 : m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23))
    (h24 : m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) :
    Cert.KernelIdeal.Hand.T4 m c (Proc.devRef .tc Cert.KernelIdeal.main_v3) = Cert.ReferenceIdeal.Hand.R2 m' c (Proc.devRef .tc Cert.ReferenceIdeal.main_v7) := by
  rw [ke0_out m c, re0_out m' c, ke0_bias m c, Cert.KernelIdeal.Hand.T3_of m c Cert.KernelIdeal.main_v1 (by decide), h_h0,
    kAt3 m c Cert.KernelIdeal.main_arg23 (by decide) (by decide) (by decide), h23, h24]
  rfl

set_option maxHeartbeats 400000 in

theorem mean1_chain {F : FTy → Type} [FloatOps F]
    (V : Valuation Cert.KernelIdeal.τ Cert.KernelIdeal.sig (Elt F))
    (V' : Valuation Cert.ReferenceIdeal.τ Cert.ReferenceIdeal.sig (Elt F))
    (hx : V (Proc.devRef .tc Cert.KernelIdeal.main_v3) = V' (Proc.devRef .tc Cert.ReferenceIdeal.main_v7))
    (hs : V (Proc.devRef .tc Cert.KernelIdeal.main_arg7) = V' (Proc.devRef .tc Cert.ReferenceIdeal.main_arg7))
    (hd : V (Proc.devRef .tc Cert.KernelIdeal.main_arg8) = V' (Proc.devRef .tc Cert.ReferenceIdeal.main_arg8)) :
    StableHlo.after Cert.KernelIdeal.Gen.hostOps2 V (Proc.devRef .tc Cert.KernelIdeal.main_v22)
      = StableHlo.after Cert.ReferenceIdeal.Hand.rc2 V' (Proc.devRef .tc Cert.ReferenceIdeal.main_v26) := by
  after_results_simp
  rw [hx, hs, hd]
  rfl

set_option maxHeartbeats 400000 in

theorem h1 (h_e0 : Cert.KernelIdeal.Hand.T4 m c (Proc.devRef .tc Cert.KernelIdeal.main_v3) = Cert.ReferenceIdeal.Hand.R2 m' c (Proc.devRef .tc Cert.ReferenceIdeal.main_v7))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.KernelIdeal.Hand.T5 m c (Proc.devRef .tc Cert.KernelIdeal.main_v22) = Cert.ReferenceIdeal.Hand.R3 m' c (Proc.devRef .tc Cert.ReferenceIdeal.main_v26) := by
  unfold Cert.KernelIdeal.Hand.T5 Cert.ReferenceIdeal.Hand.R3
  exact mean1_chain (Cert.KernelIdeal.Hand.T4 m c) (Cert.ReferenceIdeal.Hand.R2 m' c) h_e0
    ((kAt4 m c Cert.KernelIdeal.main_arg7 (by decide) (by decide) (by decide) (by decide)).trans (h7.symm.trans (rAt2 m' c Cert.ReferenceIdeal.main_arg7 (by decide) (by decide)).symm))
    ((kAt4 m c Cert.KernelIdeal.main_arg8 (by decide) (by decide) (by decide) (by decide)).trans (h8.symm.trans (rAt2 m' c Cert.ReferenceIdeal.main_arg8 (by decide) (by decide)).symm))

set_option maxHeartbeats 400000 in

theorem ke1_bias :
    Cert.KernelIdeal.Hand.T5 m c (Proc.devRef .tc Cert.KernelIdeal.main_v23)
      = fun j => (m ((c.tc : Thread Cert.KernelIdeal.nD Cert.KernelIdeal.τ).loc Cert.KernelIdeal.main_arg26) : Cert.KernelIdeal.S128.Idx → EReal) (ix1 (j 1)) := by
  unfold Cert.KernelIdeal.Hand.T5
  show StableHlo.after Cert.KernelIdeal.Gen.hostOps2 _ (Proc.devRef .tc Cert.KernelIdeal.main_v23) = _
  after_results_simp
  rw [kAt4 m c Cert.KernelIdeal.main_arg26 (by decide) (by decide) (by decide) (by decide)]
  exact Cert.RefLinear.rowOfVector_eq (N := 128) _ _

set_option maxHeartbeats 400000 in

theorem ke1_out :
    Cert.KernelIdeal.Hand.T6 m c (Proc.devRef .tc Cert.KernelIdeal.main_v24)
      = Cert.Spec.lin (M := 25000) (K := 128) (N := 128)
          (Cert.KernelIdeal.Hand.T5 m c (Proc.devRef .tc Cert.KernelIdeal.main_v22)) (Cert.KernelIdeal.Hand.T5 m c (Proc.devRef .tc Cert.KernelIdeal.main_arg25)) (Cert.KernelIdeal.Hand.T5 m c (Proc.devRef .tc Cert.KernelIdeal.main_v23)) := by
  unfold Cert.KernelIdeal.Hand.T6
  rw [Function.update_self]
  unfold Cert.KernelIdeal.Hand.o2
  exact Cert.KernelIdeal.Hand.final2 (Cert.KernelIdeal.Hand.rd (Cert.KernelIdeal.Hand.T5 m)) c

set_option maxHeartbeats 400000 in

theorem re1_out :
    Cert.ReferenceIdeal.Hand.R4 m' c (Proc.devRef .tc Cert.ReferenceIdeal.main_v30)
      = Cert.Spec.lin (M := 25000) (K := 128) (N := 128)
          (Cert.ReferenceIdeal.Hand.R3 m' c (Proc.devRef .tc Cert.ReferenceIdeal.main_v26)) (m' ((c.tc : Thread Cert.ReferenceIdeal.nD Cert.ReferenceIdeal.τ).loc Cert.ReferenceIdeal.main_arg25))
          (fun j => (m' ((c.tc : Thread Cert.ReferenceIdeal.nD Cert.ReferenceIdeal.τ).loc Cert.ReferenceIdeal.main_arg26) : Cert.ReferenceIdeal.S128.Idx → EReal) (ix1 (j 1))) := by
  unfold Cert.ReferenceIdeal.Hand.R4
  show StableHlo.after Cert.ReferenceIdeal.Hand.rc3 _ (Proc.devRef .tc Cert.ReferenceIdeal.main_v30) = _
  after_results
  rw [rAt3 m' c Cert.ReferenceIdeal.main_arg25 (by decide) (by decide) (by decide), rAt3 m' c Cert.ReferenceIdeal.main_arg26 (by decide) (by decide) (by decide)]
  exact Cert.RefLinear.hostLin_eq Cert.ReferenceIdeal.dot_S25000x128_S128x128_S25000x128_1_0_0_1_n_n rfl rfl rfl rfl rfl rfl _ _ _ _ _

set_option maxHeartbeats 400000 in

theorem e1 (h_h1 : Cert.KernelIdeal.Hand.T5 m c (Proc.devRef .tc Cert.KernelIdeal.main_v22) = Cert.ReferenceIdeal.Hand.R3 m' c (Proc.devRef .tc Cert.ReferenceIdeal.main_v26))
    (h25 : m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25))
    (h26 : m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) :
    Cert.KernelIdeal.Hand.T6 m c (Proc.devRef .tc Cert.KernelIdeal.main_v24) = Cert.ReferenceIdeal.Hand.R4 m' c (Proc.devRef .tc Cert.ReferenceIdeal.main_v30) := by
  rw [ke1_out m c, re1_out m' c, ke1_bias m c, h_h1,
    kAt5 m c Cert.KernelIdeal.main_arg25 (by decide) (by decide) (by decide) (by decide) (by decide), h25, h26]
  rfl

set_option maxHeartbeats 400000 in

theorem mean2_chain {F : FTy → Type} [FloatOps F]
    (V : Valuation Cert.KernelIdeal.τ Cert.KernelIdeal.sig (Elt F))
    (V' : Valuation Cert.ReferenceIdeal.τ Cert.ReferenceIdeal.sig (Elt F))
    (hx : V (Proc.devRef .tc Cert.KernelIdeal.main_v24) = V' (Proc.devRef .tc Cert.ReferenceIdeal.main_v30))
    (hs : V (Proc.devRef .tc Cert.KernelIdeal.main_arg9) = V' (Proc.devRef .tc Cert.ReferenceIdeal.main_arg9))
    (hd : V (Proc.devRef .tc Cert.KernelIdeal.main_arg10) = V' (Proc.devRef .tc Cert.ReferenceIdeal.main_arg10)) :
    StableHlo.after Cert.KernelIdeal.Gen.hostOps3 V (Proc.devRef .tc Cert.KernelIdeal.main_v43)
      = StableHlo.after Cert.ReferenceIdeal.Hand.rc4b (StableHlo.after Cert.ReferenceIdeal.Hand.rc4a V') (Proc.devRef .tc Cert.ReferenceIdeal.main_v49) := by
  after_results_simp
  rw [hx, hs, hd]
  rfl

set_option maxHeartbeats 400000 in

theorem h2 (h_e1 : Cert.KernelIdeal.Hand.T6 m c (Proc.devRef .tc Cert.KernelIdeal.main_v24) = Cert.ReferenceIdeal.Hand.R4 m' c (Proc.devRef .tc Cert.ReferenceIdeal.main_v30))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.KernelIdeal.Hand.T7 m c (Proc.devRef .tc Cert.KernelIdeal.main_v43) = Cert.ReferenceIdeal.Hand.R5 m' c (Proc.devRef .tc Cert.ReferenceIdeal.main_v49) := by
  unfold Cert.KernelIdeal.Hand.T7 Cert.ReferenceIdeal.Hand.R5 Cert.ReferenceIdeal.Hand.R4h
  exact mean2_chain (Cert.KernelIdeal.Hand.T6 m c) (Cert.ReferenceIdeal.Hand.R4 m' c) h_e1
    ((kAt6 m c Cert.KernelIdeal.main_arg9 (by decide) (by decide) (by decide) (by decide) (by decide) (by decide)).trans (h9.symm.trans (rAt4 m' c Cert.ReferenceIdeal.main_arg9 (by decide) (by decide) (by decide) (by decide)).symm))
    ((kAt6 m c Cert.KernelIdeal.main_arg10 (by decide) (by decide) (by decide) (by decide) (by decide) (by decide)).trans (h10.symm.trans (rAt4 m' c Cert.ReferenceIdeal.main_arg10 (by decide) (by decide) (by decide) (by decide)).symm))

end Cert.Bridge

end
-- ==== Proof.LibColumn.lean ====
import Idealize.ShloMosaic.Lib.Pipeline.Value
import Idealize.ShloMosaic.Lib.ValueIdx
import Idealize.ShloMosaic.Lib.ValueLayout

noncomputable section

namespace Cert.LibColumn

open Idealize.ShloMosaic Idealize.ShloMosaic.ValueIdx

variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

theorem column_of_vector_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

end Cert.LibColumn

end
-- ==== Proof.KI.Val3.lean ====
import proofs.«162078_j40114994545134_1_alg».proof.Proof.Gen.KernelIdeal.Launch
import proofs.«162078_j40114994545134_1_alg».proof.Proof.Gen.KernelIdeal.Skeleton
import proofs.«162078_j40114994545134_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import Idealize.ShloMosaic.Lib.ValueLayout
import proofs.«162078_j40114994545134_1_alg».proof.Proof.KI.Def3
import proofs.«162078_j40114994545134_1_alg».proof.Proof.Spec
import proofs.«162078_j40114994545134_1_alg».proof.Proof.LibDot
import proofs.«162078_j40114994545134_1_alg».proof.Proof.LibColumn

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

local notation "𝕄" => MT nD τ sig Unit (Elt F) ℕ (UR sig nD τ) ℕ

local notation "rowsB" => 10000
local notation "rowsA" => 100000
local notation "colsK" => 128
local notation "colsN" => 128
local notation "nPts" => 10

theorem hz3 : (![0, 0] : Fin 2 → Nat) = fun _ => 0 := funext fun a => by fin_cases a <;> rfl

theorem pay3_eq (x0 : Vec Ideal S10000x128 .f32) (x1 : Vec Ideal S10000x1 .f32) (x2 : Vec Ideal S128x128 .f32)
    (x3 : Vec Ideal S1x128 .f32) :
    k3_pay1 x0 x1 x2 x3 = Cert.Spec.scaled (M := rowsB) (K := colsK) (N := colsN) x0 x1 x2 x3 := by
  funext j
  obtain ⟨p, q, rfl⟩ : ∃ (p : Fin rowsB) (q : Fin colsN), j = ix2 p q := ⟨j 0, j 1, eq_ix2 j⟩
  rw [Cert.Spec.scaled_apply]
  unfold k3_pay1
  simp only [shapeCast_self]
  rw [addf_apply, Cert.LibDot.matmul_plain_apply dot_S10000x128_S128x128_S10000x128_1_0_0_1_n_n rfl rfl rfl rfl rfl rfl,
    broadcastTo_1b_ab_apply]
  congr 1
  refine Finset.sum_congr rfl fun k _ => ?_
  rw [truncf_apply, truncf_apply, mulf_apply, Cert.LibColumn.broadcastTo_a1_ab_apply]

variable (V : (c : Dev nD) → (b : Ref sig .tc) → Buf (Elt F) ((c : Thread nD τ).loc b))

theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

theorem row_lt3 (t : Fin cfg3.N) (p : Fin rowsB) : t.val * rowsB + p.val < rowsA := by
  have ht : t.val < nPts := Nat.lt_of_lt_of_eq t.isLt N_3
  have hp := p.isLt
  omega

theorem iblk3_0_apply (c : Dev nD) (t : Fin cfg3.N) (p : Fin rowsB) (k : Fin colsK) :
    (iblk3 V c 0 t : Vec F S10000x128 .f32) (ix2 p k)
      = (V c main_v74 : S100000x128.Idx → Elt F .f32) (ix2 ⟨t.val * rowsB + p.val, row_lt3 t p⟩ k) := by
  obtain ⟨e0, e1, -⟩ := idx_facts3 t
  unfold iblk3
  rw [View.read_apply]
  show V c main_v74 _ = V c main_v74 _
  congr 1
  funext a
  apply Fin.ext
  match a with
  | ⟨0, _⟩ => show win3_0.index t 0 * rowsB + 1 * p.val = t.val * rowsB + p.val; rw [e0]; omega
  | ⟨1, _⟩ => show win3_0.index t 1 * colsK + 1 * k.val = k.val; rw [e1]; omega

theorem iblk3_1_apply (c : Dev nD) (t : Fin cfg3.N) (p : Fin rowsB) (u : Fin 1) :
    (iblk3 V c 1 t : Vec F S10000x1 .f32) (ix2 p u)
      = (V c main_v76 : S100000x1.Idx → Elt F .f32) (ix2 ⟨t.val * rowsB + p.val, row_lt3 t p⟩ u) := by
  obtain ⟨-, -, e0, e1, -⟩ := idx_facts3 t
  unfold iblk3
  rw [View.read_apply]
  show V c main_v76 _ = V c main_v76 _
  congr 1
  funext a
  apply Fin.ext
  match a with
  | ⟨0, _⟩ => show win3_1.index t 0 * rowsB + 1 * p.val = t.val * rowsB + p.val; rw [e0]; omega
  | ⟨1, _⟩ => show win3_1.index t 1 * 1 + 1 * u.val = u.val; rw [e1]; omega

theorem iblk3_2_eq (c : Dev nD) (t : Fin cfg3.N) :
    (iblk3 V c 2 t : Vec F S128x128 .f32) = (V c main_arg17 : S128x128.Idx → Elt F .f32) := by
  obtain ⟨-, -, -, -, e0, e1, -⟩ := idx_facts3 t
  funext x
  unfold iblk3
  rw [View.read_apply]
  show V c main_arg17 _ = V c main_arg17 _
  congr 1
  funext a
  apply Fin.ext
  match a with
  | ⟨0, _⟩ => show win3_2.index t 0 * colsK + 1 * (x 0).val = (x 0).val; rw [e0]; omega
  | ⟨1, _⟩ => show win3_2.index t 1 * colsN + 1 * (x 1).val = (x 1).val; rw [e1]; omega

theorem iblk3_3_eq (c : Dev nD) (t : Fin cfg3.N) :
    (iblk3 V c 3 t : Vec F S1x128 .f32) = (V c main_v75 : S1x128.Idx → Elt F .f32) := by
  obtain ⟨-, -, -, -, -, -, e0, e1, -⟩ := idx_facts3 t
  funext x
  unfold iblk3
  rw [View.read_apply]
  show V c main_v75 _ = V c main_v75 _
  congr 1
  funext a
  apply Fin.ext
  match a with
  | ⟨0, _⟩ => show win3_3.index t 0 * 1 + 1 * (x 0).val = (x 0).val; rw [e0]; omega
  | ⟨1, _⟩ => show win3_3.index t 1 * colsN + 1 * (x 1).val = (x 1).val; rw [e1]; omega

theorem blk3_4_emb (t : Fin cfg3.N) (p : Fin rowsB) (q : Fin colsN) :
    (((cfg3.win 4).blk t).view.emb (ix2 p q) : S100000x128.Idx) = ix2 ⟨t.val * rowsB + p.val, row_lt3 t p⟩ q := by
  obtain ⟨-, -, -, -, -, -, -, -, e0, e1⟩ := idx_facts3 t
  funext a
  apply Fin.ext
  match a with
  | ⟨0, _⟩ => show win3_4.index t 0 * rowsB + 1 * p.val = t.val * rowsB + p.val; rw [e0]; omega
  | ⟨1, _⟩ => show win3_4.index t 1 * colsN + 1 * q.val = q.val; rw [e1]; omega

theorem rows3_eq (V : (c : Dev nD) → (b : Ref sig .tc) → Buf (Elt Ideal) ((c : Thread nD τ).loc b)) (c : Dev nD)
    (t : Fin cfg3.N) (p : Fin rowsB) (q : Fin colsN) :
    Cert.Spec.scaled (M := rowsB) (K := colsK) (N := colsN) (iblk3 V c 0 t) (iblk3 V c 1 t) (iblk3 V c 2 t) (iblk3 V c 3 t) (ix2 p q)
      = Cert.Spec.scaled (M := rowsA) (K := colsK) (N := colsN) (V c main_v74) (V c main_v76) (V c main_arg17) (V c main_v75)
          (ix2 ⟨t.val * rowsB + p.val, row_lt3 t p⟩ q) := by
  rw [Cert.Spec.scaled_apply, Cert.Spec.scaled_apply, iblk3_1_apply, iblk3_2_eq, iblk3_3_eq]
  congr 1
  refine Finset.sum_congr rfl fun k _ => ?_
  rw [iblk3_0_apply]

theorem flushed3_eq (V : (c : Dev nD) → (b : Ref sig .tc) → Buf (Elt Ideal) ((c : Thread nD τ).loc b)) (c : Dev nD)
    (t : Fin cfg3.N) :
    (cfg3.win 4).cut (grid3.coords t) ((dat3 (F := Ideal) V c).after 4 t)
      = ((cfg3.win 4).blk t).view.read (Elt Ideal)
          (Cert.Spec.scaled (M := rowsA) (K := colsK) (N := colsN) (V c main_v74) (V c main_v76) (V c main_arg17) (V c main_v75)) := by
  rw [after3_4]
  unfold out3_4
  rw [View.canon_unit_zero hz3]
  simp only [View.ld_unit_zero (S := S10000x128) hz3, View.ld_unit_zero (S := S10000x1) hz3,
    View.ld_unit_zero (S := S128x128) hz3, View.ld_unit_zero (S := S1x128) hz3]
  rw [pay3_eq]
  funext j
  obtain ⟨p, q, rfl⟩ : ∃ (p : Fin rowsB) (q : Fin colsN), j = ix2 p q := ⟨j 0, j 1, eq_ix2 j⟩
  rw [View.read_apply, blk3_4_emb]
  exact rows3_eq V c t p q

theorem mem_blk3_4 (t : Fin cfg3.N) (i : S100000x128.Idx) :
    i ∈ ((cfg3.win 4).blk t).view.set ↔ ∀ a : Fin 2, win3_4.index t a * S10000x128.size a ≤ (i a).val
      ∧ (i a).val < win3_4.index t a * S10000x128.size a + S10000x128.size a := by
  show i ∈ ((View.whole main_v77).slice (win3_4.rect t)).set ↔ _
  rw [View.set_slice_whole, Rect.mem_set_unit]
  exact Iff.rfl

theorem final3 (V : (c : Dev nD) → (b : Ref sig .tc) → Buf (Elt Ideal) ((c : Thread nD τ).loc b)) (c : Dev nD) :
    (dat3 (F := Ideal) V c).arrAt 4 cfg3.N
      = Cert.Spec.scaled (M := 100000) (K := 128) (N := 128) (V c main_v74) (V c main_v76) (V c main_arg17) (V c main_v75) :=
  (dat3 (F := Ideal) V c).arrAt_eq_of_cover 4 _ (fun t _ => flushed3_eq V c t) fun i => by
    have hi0 : (i 0).val < rowsA := (i 0).isLt
    have hi1 : (i 1).val < colsN := (i 1).isLt
    have hN : cfg3.N = nPts := N_3
    have ht : (i 0).val / rowsB < cfg3.N := by rw [hN]; omega
    obtain ⟨-, -, -, -, -, -, -, -, e0, e1⟩ := idx_facts3 ⟨(i 0).val / rowsB, ht⟩
    refine ⟨⟨(i 0).val / rowsB, ht⟩, flush3_4 _, ?_⟩
    rw [mem_blk3_4]
    intro a
    match a with
    | ⟨0, _⟩ =>
      show win3_4.index ⟨(i 0).val / rowsB, ht⟩ (0 : Fin 2) * rowsB ≤ (i 0).val
        ∧ (i 0).val < win3_4.index ⟨(i 0).val / rowsB, ht⟩ (0 : Fin 2) * rowsB + rowsB
      rw [e0]
      show (i 0).val / rowsB * rowsB ≤ (i 0).val ∧ (i 0).val < (i 0).val / rowsB * rowsB + rowsB
      omega
    | ⟨1, _⟩ =>
      show win3_4.index ⟨(i 0).val / rowsB, ht⟩ (1 : Fin 2) * colsN ≤ (i 1).val
        ∧ (i 1).val < win3_4.index ⟨(i 0).val / rowsB, ht⟩ (1 : Fin 2) * colsN + colsN
      rw [e1]
      omega

end Cert.KernelIdeal.Hand

end
-- ==== Proof.RefScaled.lean ====
import Idealize.ShloMosaic.PureOps.Ideal.Laws
import Idealize.ShloMosaic.Lib.Pipeline.Value
import Idealize.ShloMosaic.Lib.ValueIdx
import Idealize.ShloMosaic.Lib.ValueLayout
import proofs.«162078_j40114994545134_1_alg».proof.Proof.Spec
import proofs.«162078_j40114994545134_1_alg».proof.Proof.LibDot
import proofs.«162078_j40114994545134_1_alg».proof.Proof.LibColumn

noncomputable section

namespace Cert.RefScaled

open Idealize.ShloMosaic Idealize.ShloMosaic.ValueIdx

variable {α : Type}

theorem bcast_vector_column_apply {a : Nat} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

theorem bcast_column_apply {a b : Nat} (v : (⟨2, ![a, 1]⟩ : Shape).Idx → α)
    (h : (⟨2, ![a, 1]⟩ : Shape).BroadcastsInDim ⟨2, ![a, b]⟩ ![0, 1]) (i : Fin a) (k : Fin b) :
    broadcastInDim ⟨2, ![a, b]⟩ ![0, 1] h v (ix2 i k) = v (ix2 i (0 : Fin 1)) := by
  refine broadcastInDim_apply ![0, 1] h v (ix2 i k) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else k.val
    rw [if_pos rfl]

theorem bcast_vector_row_apply {b : Nat} (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) := by
  refine broadcastInDim_apply ![1] h x (ix2 u j) (ix1 j) fun ax => ?_
  match ax with
  | ⟨0, _⟩ =>
    show j.val = if b = 1 then 0 else j.val
    split
    · have := j.isLt; omega
    · rfl

theorem bcast_row_apply {a b : Nat} (v : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h v (ix2 i j) = v (ix2 (0 : Fin 1) j) := by
  refine broadcastInDim_apply ![0, 1] h v (ix2 i j) (ix2 (0 : Fin 1) j) fun ax => ?_
  match ax with
  | ⟨0, _⟩ =>
    show (0 : ℕ) = if (1 : ℕ) = 1 then 0 else i.val
    rw [if_pos rfl]
  | ⟨1, _⟩ =>
    show j.val = if b = 1 then 0 else j.val
    split
    · have := j.isLt; omega
    · rfl

theorem hostScaled_eq {M K N : Nat} (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (x : FVec Ideal ⟨2, ![M, K]⟩ .f32) (nd : FVec Ideal ⟨1, ![M]⟩ .f32) (w : FVec Ideal ⟨2, ![K, N]⟩ .f32)
    (b : FVec Ideal ⟨1, ![N]⟩ .f32)
    (hc1 : (⟨1, ![M]⟩ : Shape).BroadcastsInDim ⟨2, ![M, 1]⟩ ![0])
    (hc2 : (⟨2, ![M, 1]⟩ : Shape).BroadcastsInDim ⟨2, ![M, K]⟩ ![0, 1])
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral D none
            (mulf x (broadcastInDim ⟨2, ![M, K]⟩ ![0, 1] hc2 (broadcastInDim ⟨2, ![M, 1]⟩ ![0] hc1 nd))) w)
          (broadcastInDim ⟨2, ![M, N]⟩ ![0, 1] h2 (broadcastInDim ⟨2, ![1, N]⟩ ![1] h1 b))
      = Cert.Spec.scaled x (fun j => nd (ix1 (j 0))) w (fun j => b (ix1 (j 1))) := by
  funext j
  obtain ⟨p, q, rfl⟩ : ∃ (p : Fin M) (q : Fin N), j = ix2 p q := ⟨j 0, j 1, eq_ix2 j⟩
  rw [Cert.Spec.scaled_apply, addf_apply, Cert.LibDot.dotGeneral_plain_apply D hlc hrc hln hrn hlb hrb,
    bcast_row_apply, bcast_vector_row_apply]
  congr 1
  refine Finset.sum_congr rfl fun k _ => ?_
  rw [mulf_apply, bcast_column_apply, bcast_vector_column_apply]
  rfl

theorem columnOfVector_eq {M : Nat} (nd : FVec Ideal ⟨1, ![M]⟩ .f32) (h : (⟨1, ![M]⟩ : Shape).ShapeCasts ⟨2, ![M, 1]⟩) :
    shapeCast ⟨2, ![M, 1]⟩ nd h = fun j => nd (ix1 (j 0)) := by
  funext j
  obtain ⟨p, u, rfl⟩ : ∃ (p : Fin M) (u : Fin 1), j = ix2 p u := ⟨j 0, j 1, eq_ix2 j⟩
  exact Cert.LibColumn.shapeCast_a_a1_apply nd h p u

end Cert.RefScaled

end
-- ==== Proof.Bridge.Gcn0.lean ====
import proofs.«162078_j40114994545134_1_alg».proof.Proof.KI.Data
import proofs.«162078_j40114994545134_1_alg».proof.Proof.KI.Keep
import proofs.«162078_j40114994545134_1_alg».proof.Proof.KI.Val3
import proofs.«162078_j40114994545134_1_alg».proof.Proof.Ref.Chunks
import proofs.«162078_j40114994545134_1_alg».proof.Proof.RefLinear
import proofs.«162078_j40114994545134_1_alg».proof.Proof.RefScaled
import Idealize.ShloMosaic.Lib.StableHlo.Run

set_option maxRecDepth 16384

noncomputable section

namespace Cert.Bridge

open Idealize.ShloMosaic Idealize.ShloMosaic.TcCoe Idealize.ShloMosaic.ValueIdx
open Idealize.SL.Sem Idealize.ShloMosaic.StableHlo

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

theorem g0_kAt6 (r : Ref Cert.KernelIdeal.sig .tc) (n1 : r ∉ Cert.KernelIdeal.GenP.hostOps0_W) (n2 : r ∉ ([Cert.KernelIdeal.main_v1] : List (Ref Cert.KernelIdeal.sig .tc)))
    (n3 : r ∉ Cert.KernelIdeal.GenP.hostOps1_W) (n4 : r ∉ ([Cert.KernelIdeal.main_v3] : List (Ref Cert.KernelIdeal.sig .tc))) (n5 : r ∉ Cert.KernelIdeal.GenP.hostOps2_W)
    (n6 : r ∉ ([Cert.KernelIdeal.main_v24] : List (Ref Cert.KernelIdeal.sig .tc))) :
    Cert.KernelIdeal.Hand.T6 m c (Proc.devRef .tc r) = m ((c.tc : Thread Cert.KernelIdeal.nD Cert.KernelIdeal.τ).loc r) := by
  rw [Cert.KernelIdeal.Hand.T6_of m c r n6, Cert.KernelIdeal.Hand.T5_of m c r n5, Cert.KernelIdeal.Hand.T4_of m c r n4, Cert.KernelIdeal.Hand.T3_of m c r n3, Cert.KernelIdeal.Hand.T2_of m c r n2,
    Cert.KernelIdeal.Hand.T1_of m c r n1]

theorem g0_kAt10 (r : Ref Cert.KernelIdeal.sig .tc) (n1 : r ∉ Cert.KernelIdeal.GenP.hostOps0_W) (n2 : r ∉ ([Cert.KernelIdeal.main_v1] : List (Ref Cert.KernelIdeal.sig .tc)))
    (n3 : r ∉ Cert.KernelIdeal.GenP.hostOps1_W) (n4 : r ∉ ([Cert.KernelIdeal.main_v3] : List (Ref Cert.KernelIdeal.sig .tc))) (n5 : r ∉ Cert.KernelIdeal.GenP.hostOps2_W)
    (n6 : r ∉ ([Cert.KernelIdeal.main_v24] : List (Ref Cert.KernelIdeal.sig .tc))) (n7 : r ∉ Cert.KernelIdeal.GenP.hostOps3_W) (n8 : r ∉ Cert.KernelIdeal.GenP.hostOps3_1_W)
    (n9 : r ∉ Cert.KernelIdeal.GenP.hostOps3_2_W) (n10 : r ∉ Cert.KernelIdeal.GenP.hostOps3_3_W) :
    Cert.KernelIdeal.Hand.T10 m c (Proc.devRef .tc r) = m ((c.tc : Thread Cert.KernelIdeal.nD Cert.KernelIdeal.τ).loc r) := by
  rw [Cert.KernelIdeal.Hand.T10_of m c r n10, Cert.KernelIdeal.Hand.T9_of m c r n9, Cert.KernelIdeal.Hand.T8_of m c r n8, Cert.KernelIdeal.Hand.T7_of m c r n7]
  exact g0_kAt6 m c r n1 n2 n3 n4 n5 n6

theorem g0_rAt5 (r : Ref Cert.ReferenceIdeal.sig .tc) (n0 : r ∉ Cert.ReferenceIdeal.Hand.rcW_0) (n1 : r ∉ Cert.ReferenceIdeal.Hand.rcW_1) (n2 : r ∉ Cert.ReferenceIdeal.Hand.rcW_2) (n3 : r ∉ Cert.ReferenceIdeal.Hand.rcW_3)
    (n4 : r ∉ Cert.ReferenceIdeal.Hand.rcW_4) :
    Cert.ReferenceIdeal.Hand.R5 m' c (Proc.devRef .tc r) = m' ((c.tc : Thread Cert.ReferenceIdeal.nD Cert.ReferenceIdeal.τ).loc r) := by
  rw [Cert.ReferenceIdeal.Hand.R_keep_4 m' c n4, Cert.ReferenceIdeal.Hand.R_keep_3 m' c n3, Cert.ReferenceIdeal.Hand.R_keep_2 m' c n2, Cert.ReferenceIdeal.Hand.R_keep_1 m' c n1, Cert.ReferenceIdeal.Hand.R_keep_0 m' c n0]
  rfl

theorem g0_rAt6 (r : Ref Cert.ReferenceIdeal.sig .tc) (n0 : r ∉ Cert.ReferenceIdeal.Hand.rcW_0) (n1 : r ∉ Cert.ReferenceIdeal.Hand.rcW_1) (n2 : r ∉ Cert.ReferenceIdeal.Hand.rcW_2) (n3 : r ∉ Cert.ReferenceIdeal.Hand.rcW_3)
    (n4 : r ∉ Cert.ReferenceIdeal.Hand.rcW_4) (n5 : r ∉ Cert.ReferenceIdeal.Hand.rcW_5) :
    Cert.ReferenceIdeal.Hand.R6 m' c (Proc.devRef .tc r) = m' ((c.tc : Thread Cert.ReferenceIdeal.nD Cert.ReferenceIdeal.τ).loc r) :=
  (Cert.ReferenceIdeal.Hand.R_keep_5 m' c n5).trans (g0_rAt5 m' c r n0 n1 n2 n3 n4)

theorem g0_arg1_at6 (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) : Cert.KernelIdeal.Hand.T6 m c (Proc.devRef .tc Cert.KernelIdeal.main_arg1) = Cert.ReferenceIdeal.Hand.R5 m' c (Proc.devRef .tc Cert.ReferenceIdeal.main_arg1) :=
  (g0_kAt6 m c Cert.KernelIdeal.main_arg1 (by decide) (by decide) (by decide) (by decide) (by decide) (by decide)).trans
    (h1.symm.trans (g0_rAt5 m' c Cert.ReferenceIdeal.main_arg1 (by decide) (by decide) (by decide) (by decide) (by decide)).symm)
theorem g0_arg2_at6 (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) : Cert.KernelIdeal.Hand.T6 m c (Proc.devRef .tc Cert.KernelIdeal.main_arg2) = Cert.ReferenceIdeal.Hand.R5 m' c (Proc.devRef .tc Cert.ReferenceIdeal.main_arg2) :=
  (g0_kAt6 m c Cert.KernelIdeal.main_arg2 (by decide) (by decide) (by decide) (by decide) (by decide) (by decide)).trans
    (h2.symm.trans (g0_rAt5 m' c Cert.ReferenceIdeal.main_arg2 (by decide) (by decide) (by decide) (by decide) (by decide)).symm)

theorem g0_h0_at6 (h_h0 : Cert.KernelIdeal.Hand.T2 m c (Proc.devRef .tc Cert.KernelIdeal.main_v1) = Cert.ReferenceIdeal.Hand.R1 m' c (Proc.devRef .tc Cert.ReferenceIdeal.main_v3)) :
    Cert.KernelIdeal.Hand.T6 m c (Proc.devRef .tc Cert.KernelIdeal.main_v1) = Cert.ReferenceIdeal.Hand.R5 m' c (Proc.devRef .tc Cert.ReferenceIdeal.main_v3) := by
  rw [Cert.KernelIdeal.Hand.T6_of m c Cert.KernelIdeal.main_v1 (by decide), Cert.KernelIdeal.Hand.T5_of m c Cert.KernelIdeal.main_v1 (by decide), Cert.KernelIdeal.Hand.T4_of m c Cert.KernelIdeal.main_v1 (by decide),
    Cert.KernelIdeal.Hand.T3_of m c Cert.KernelIdeal.main_v1 (by decide), h_h0, Cert.ReferenceIdeal.Hand.R_keep_4 m' c (r := Cert.ReferenceIdeal.main_v3) (by decide),
    Cert.ReferenceIdeal.Hand.R_keep_3 m' c (r := Cert.ReferenceIdeal.main_v3) (by decide), Cert.ReferenceIdeal.Hand.R_keep_2 m' c (r := Cert.ReferenceIdeal.main_v3) (by decide),
    Cert.ReferenceIdeal.Hand.R_keep_1 m' c (r := Cert.ReferenceIdeal.main_v3) (by decide)]

set_option maxHeartbeats 2000000 in

theorem g0_nd_chain {F : FTy → Type} [FloatOps F]
    (V : Valuation Cert.KernelIdeal.τ Cert.KernelIdeal.sig (Elt F)) (V' : Valuation Cert.ReferenceIdeal.τ Cert.ReferenceIdeal.sig (Elt F))
    (hd : V (Proc.devRef .tc Cert.KernelIdeal.main_arg2) = V' (Proc.devRef .tc Cert.ReferenceIdeal.main_arg2)) :
    StableHlo.after Cert.KernelIdeal.Gen.hostOps3_3 (StableHlo.after Cert.KernelIdeal.Gen.hostOps3_2 (StableHlo.after Cert.KernelIdeal.Gen.hostOps3_1 (StableHlo.after Cert.KernelIdeal.Gen.hostOps3 V))) (Proc.devRef .tc Cert.KernelIdeal.main_v61)
      = StableHlo.after Cert.ReferenceIdeal.Hand.rc5 V' (Proc.devRef .tc Cert.ReferenceIdeal.main_v67) := by
  after_results_simp
  try simp only [TRef.ofBuf, TRef.toBuf, cast_eq]
  rw [hd]
  rfl

set_option maxHeartbeats 400000 in

theorem nd0 (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.KernelIdeal.Hand.T11 m c (Proc.devRef .tc Cert.KernelIdeal.main_v61) = Cert.ReferenceIdeal.Hand.R6 m' c (Proc.devRef .tc Cert.ReferenceIdeal.main_v67) := by
  rw [Cert.KernelIdeal.Hand.T11_of m c Cert.KernelIdeal.main_v61 (by decide)]
  unfold Cert.KernelIdeal.Hand.T10 Cert.KernelIdeal.Hand.T9 Cert.KernelIdeal.Hand.T8 Cert.KernelIdeal.Hand.T7 Cert.ReferenceIdeal.Hand.R6
  exact g0_nd_chain (Cert.KernelIdeal.Hand.T6 m c) (Cert.ReferenceIdeal.Hand.R5 m' c) (g0_arg2_at6 m m' c h2)

set_option maxHeartbeats 4000000 in

theorem g0_agg_chain {F : FTy → Type} [FloatOps F]
    (V : Valuation Cert.KernelIdeal.τ Cert.KernelIdeal.sig (Elt F)) (V' : Valuation Cert.ReferenceIdeal.τ Cert.ReferenceIdeal.sig (Elt F))
    (hx : V (Proc.devRef .tc Cert.KernelIdeal.main_v1) = V' (Proc.devRef .tc Cert.ReferenceIdeal.main_v3))
    (hs : V (Proc.devRef .tc Cert.KernelIdeal.main_arg1) = V' (Proc.devRef .tc Cert.ReferenceIdeal.main_arg1))
    (hd : V (Proc.devRef .tc Cert.KernelIdeal.main_arg2) = V' (Proc.devRef .tc Cert.ReferenceIdeal.main_arg2)) :
    StableHlo.after Cert.KernelIdeal.Gen.hostOps3_4 (StableHlo.after Cert.KernelIdeal.Gen.hostOps3_3 (StableHlo.after Cert.KernelIdeal.Gen.hostOps3_2 (StableHlo.after Cert.KernelIdeal.Gen.hostOps3_1 (StableHlo.after Cert.KernelIdeal.Gen.hostOps3 V)))) (Proc.devRef .tc Cert.KernelIdeal.main_v74)
      = StableHlo.after Cert.ReferenceIdeal.Hand.rc5 V' (Proc.devRef .tc Cert.ReferenceIdeal.main_v80) := by
  after_results_simp
  try simp only [TRef.ofBuf, TRef.toBuf, cast_eq]
  rw [hx, hs, hd]
  rfl

set_option maxHeartbeats 400000 in

theorem agg0 (h_h0 : Cert.KernelIdeal.Hand.T2 m c (Proc.devRef .tc Cert.KernelIdeal.main_v1) = Cert.ReferenceIdeal.Hand.R1 m' c (Proc.devRef .tc Cert.ReferenceIdeal.main_v3)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.KernelIdeal.Hand.T11 m c (Proc.devRef .tc Cert.KernelIdeal.main_v74) = Cert.ReferenceIdeal.Hand.R6 m' c (Proc.devRef .tc Cert.ReferenceIdeal.main_v80) := by
  unfold Cert.KernelIdeal.Hand.T11 Cert.KernelIdeal.Hand.T10 Cert.KernelIdeal.Hand.T9 Cert.KernelIdeal.Hand.T8 Cert.KernelIdeal.Hand.T7 Cert.ReferenceIdeal.Hand.R6
  exact g0_agg_chain (Cert.KernelIdeal.Hand.T6 m c) (Cert.ReferenceIdeal.Hand.R5 m' c) (g0_h0_at6 m m' c h_h0) (g0_arg1_at6 m m' c h1) (g0_arg2_at6 m m' c h2)

set_option maxHeartbeats 400000 in

theorem g0_k_col :
    Cert.KernelIdeal.Hand.T11 m c (Proc.devRef .tc Cert.KernelIdeal.main_v76)
      = fun j => (Cert.KernelIdeal.Hand.T11 m c (Proc.devRef .tc Cert.KernelIdeal.main_v61) : Cert.KernelIdeal.S100000.Idx → EReal) (ix1 (j 0)) := by
  unfold Cert.KernelIdeal.Hand.T11
  show StableHlo.after Cert.KernelIdeal.Gen.hostOps3_4 _ (Proc.devRef .tc Cert.KernelIdeal.main_v76) = _
  after_results
  exact Cert.RefScaled.columnOfVector_eq (M := 100000) _ _

set_option maxHeartbeats 400000 in

theorem g0_k_bias :
    Cert.KernelIdeal.Hand.T11 m c (Proc.devRef .tc Cert.KernelIdeal.main_v75)
      = fun j => (m ((c.tc : Thread Cert.KernelIdeal.nD Cert.KernelIdeal.τ).loc Cert.KernelIdeal.main_arg18) : Cert.KernelIdeal.S128.Idx → EReal) (ix1 (j 1)) := by
  unfold Cert.KernelIdeal.Hand.T11
  show StableHlo.after Cert.KernelIdeal.Gen.hostOps3_4 _ (Proc.devRef .tc Cert.KernelIdeal.main_v75) = _
  after_results
  rw [g0_kAt10 m c Cert.KernelIdeal.main_arg18 (by decide) (by decide) (by decide) (by decide) (by decide) (by decide) (by decide) (by decide) (by decide) (by decide)]
  exact Cert.RefLinear.rowOfVector_eq (N := 128) _ _

set_option maxHeartbeats 400000 in

theorem g0_k_out :
    Cert.KernelIdeal.Hand.T12 m c (Proc.devRef .tc Cert.KernelIdeal.main_v77)
      = Cert.Spec.scaled (M := 100000) (K := 128) (N := 128)
          (Cert.KernelIdeal.Hand.T11 m c (Proc.devRef .tc Cert.KernelIdeal.main_v74)) (Cert.KernelIdeal.Hand.T11 m c (Proc.devRef .tc Cert.KernelIdeal.main_v76)) (Cert.KernelIdeal.Hand.T11 m c (Proc.devRef .tc Cert.KernelIdeal.main_arg17)) (Cert.KernelIdeal.Hand.T11 m c (Proc.devRef .tc Cert.KernelIdeal.main_v75)) := by
  unfold Cert.KernelIdeal.Hand.T12
  rw [Function.update_self]
  unfold Cert.KernelIdeal.Hand.o3
  exact Cert.KernelIdeal.Hand.final3 (Cert.KernelIdeal.Hand.rd (Cert.KernelIdeal.Hand.T11 m)) c

set_option maxHeartbeats 2000000 in

theorem g0_layer_chain {F : FTy → Type} [FloatOps F] (V' : Valuation Cert.ReferenceIdeal.τ Cert.ReferenceIdeal.sig (Elt F)) :
    StableHlo.after Cert.ReferenceIdeal.Hand.rc5 V' (Proc.devRef .tc Cert.ReferenceIdeal.main_v87)
      = addf (Host.dotGeneral Cert.ReferenceIdeal.dot_S100000x128_S128x128_S100000x128_1_0_0_1_n_n none
            (mulf (StableHlo.after Cert.ReferenceIdeal.Hand.rc5 V' (Proc.devRef .tc Cert.ReferenceIdeal.main_v80))
              (broadcastInDim Cert.ReferenceIdeal.S100000x128 ![0, 1] Cert.ReferenceIdeal.Gen.bcast_S100000x1_S100000x128_0_1
                (broadcastInDim Cert.ReferenceIdeal.S100000x1 ![0] Cert.ReferenceIdeal.Gen.bcast_S100000_S100000x1_0 (StableHlo.after Cert.ReferenceIdeal.Hand.rc5 V' (Proc.devRef .tc Cert.ReferenceIdeal.main_v67)))))
            (V' (Proc.devRef .tc Cert.ReferenceIdeal.main_arg17)))
          (broadcastInDim Cert.ReferenceIdeal.S100000x128 ![0, 1] Cert.ReferenceIdeal.Gen.bcast_S1x128_S100000x128_0_1
            (broadcastInDim Cert.ReferenceIdeal.S1x128 ![1] Cert.ReferenceIdeal.Gen.bcast_S128_S1x128_1 (V' (Proc.devRef .tc Cert.ReferenceIdeal.main_arg18)))) := by
  after_results_simp
  all_goals (try simp only [TRef.ofBuf, TRef.toBuf, cast_eq])
  all_goals rfl

set_option maxHeartbeats 400000 in

theorem g0_r_out :
    Cert.ReferenceIdeal.Hand.R6 m' c (Proc.devRef .tc Cert.ReferenceIdeal.main_v87)
      = Cert.Spec.scaled (M := 100000) (K := 128) (N := 128)
          (Cert.ReferenceIdeal.Hand.R6 m' c (Proc.devRef .tc Cert.ReferenceIdeal.main_v80)) (fun j => (Cert.ReferenceIdeal.Hand.R6 m' c (Proc.devRef .tc Cert.ReferenceIdeal.main_v67) : Cert.ReferenceIdeal.S100000.Idx → EReal) (ix1 (j 0)))
          (m' ((c.tc : Thread Cert.ReferenceIdeal.nD Cert.ReferenceIdeal.τ).loc Cert.ReferenceIdeal.main_arg17)) (fun j => (m' ((c.tc : Thread Cert.ReferenceIdeal.nD Cert.ReferenceIdeal.τ).loc Cert.ReferenceIdeal.main_arg18) : Cert.ReferenceIdeal.S128.Idx → EReal) (ix1 (j 1))) := by
  unfold Cert.ReferenceIdeal.Hand.R6
  rw [g0_layer_chain (Cert.ReferenceIdeal.Hand.R5 m' c),
    g0_rAt5 m' c Cert.ReferenceIdeal.main_arg17 (by decide) (by decide) (by decide) (by decide) (by decide),
    g0_rAt5 m' c Cert.ReferenceIdeal.main_arg18 (by decide) (by decide) (by decide) (by decide) (by decide)]
  exact Cert.RefScaled.hostScaled_eq Cert.ReferenceIdeal.dot_S100000x128_S128x128_S100000x128_1_0_0_1_n_n rfl rfl rfl rfl rfl rfl _ _ _ _ _ _ _ _

set_option maxHeartbeats 400000 in

theorem g0f (h_agg : Cert.KernelIdeal.Hand.T11 m c (Proc.devRef .tc Cert.KernelIdeal.main_v74) = Cert.ReferenceIdeal.Hand.R6 m' c (Proc.devRef .tc Cert.ReferenceIdeal.main_v80))
    (h_nd : Cert.KernelIdeal.Hand.T11 m c (Proc.devRef .tc Cert.KernelIdeal.main_v61) = Cert.ReferenceIdeal.Hand.R6 m' c (Proc.devRef .tc Cert.ReferenceIdeal.main_v67)) (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) :
    Cert.KernelIdeal.Hand.T12 m c (Proc.devRef .tc Cert.KernelIdeal.main_v77) = Cert.ReferenceIdeal.Hand.R6 m' c (Proc.devRef .tc Cert.ReferenceIdeal.main_v87) := by
  rw [g0_k_out m c, g0_r_out m' c, g0_k_col m c, g0_k_bias m c, h_agg, h_nd,
    Cert.KernelIdeal.Hand.T11_of m c Cert.KernelIdeal.main_arg17 (by decide),
    g0_kAt10 m c Cert.KernelIdeal.main_arg17 (by decide) (by decide) (by decide) (by decide) (by decide) (by decide) (by decide) (by decide) (by decide) (by decide),
    h17, h18]
  rfl

end Cert.Bridge

end
-- ==== Proof.KI.Val4.lean ====
/-
  What the first graph-convolution layer's region leaves in its output array, as ONE function of the arrays it is
  entered with: `(x ⊙ s) · w + b` on whole arrays, `Cert.Spec.scaled`.

  The body's one store holds, at `(p, q)` of its block, `∑ k, (x (p, k) · s (p, 0)) · w (k, q) + b (0, q)` of its four
  loaded blocks (the narrowing before the matrix unit is the identity on extended reals). At grid point `t` the row
  windows (the features, the scale column, the output) sit at block row `t`, the weight and the bias at their one block:
  so row `p` of the block is row `t · rowsB + p` of the arrays, and what point `t` writes back is block `t` of the
  whole-array function. The point that covers row `r` is `r / rowsB`; the blocks fill the array.
-/
import proofs.«162078_j40114994545134_1_alg».proof.Proof.Gen.KernelIdeal.Launch
import proofs.«162078_j40114994545134_1_alg».proof.Proof.Gen.KernelIdeal.Skeleton
import proofs.«162078_j40114994545134_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import Idealize.ShloMosaic.Lib.ValueLayout
import proofs.«162078_j40114994545134_1_alg».proof.Proof.KI.Def4
import proofs.«162078_j40114994545134_1_alg».proof.Proof.Spec
import proofs.«162078_j40114994545134_1_alg».proof.Proof.LibDot
import proofs.«162078_j40114994545134_1_alg».proof.Proof.LibColumn

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

local notation "𝕄" => MT nD τ sig Unit (Elt F) ℕ (UR sig nD τ) ℕ

/- The sizes: rows of a block, rows of the arrays, the contracted width, the output width, the grid's points. -/
local notation "rowsB" => 5000
local notation "rowsA" => 25000
local notation "colsK" => 128
local notation "colsN" => 128
local notation "nPts" => 5

/-! ## The body's stored value at an index -/

theorem hz4 : (![0, 0] : Fin 2 → Nat) = fun _ => 0 := funext fun a => by fin_cases a <;> rfl

/-- The stored value is the layer's function of the four loaded blocks. -/
theorem pay4_eq (x0 : Vec Ideal S5000x128 .f32) (x1 : Vec Ideal S5000x1 .f32) (x2 : Vec Ideal S128x128 .f32)
    (x3 : Vec Ideal S1x128 .f32) :
    k4_pay1 x0 x1 x2 x3 = Cert.Spec.scaled (M := rowsB) (K := colsK) (N := colsN) x0 x1 x2 x3 := by
  funext j
  obtain ⟨p, q, rfl⟩ : ∃ (p : Fin rowsB) (q : Fin colsN), j = ix2 p q := ⟨j 0, j 1, eq_ix2 j⟩
  rw [Cert.Spec.scaled_apply]
  unfold k4_pay1
  simp only [shapeCast_self]
  rw [addf_apply, Cert.LibDot.matmul_plain_apply dot_S5000x128_S128x128_S5000x128_1_0_0_1_n_n rfl rfl rfl rfl rfl rfl,
    broadcastTo_1b_ab_apply]
  congr 1
  refine Finset.sum_congr rfl fun k _ => ?_
  rw [truncf_apply, truncf_apply, mulf_apply, Cert.LibColumn.broadcastTo_a1_ab_apply]

/-! ## The blocks at a grid point -/

variable (V : (c : Dev nD) → (b : Ref sig .tc) → Buf (Elt F) ((c : Thread nD τ).loc b))

/-- The printed index maps over the grid: the three row windows are at block row `t`, the weight and the bias at
    their one block. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- Row `p` of block `t` is a row of the array. -/
theorem row_lt4 (t : Fin cfg4.N) (p : Fin rowsB) : t.val * rowsB + p.val < rowsA := by
  have ht : t.val < nPts := Nat.lt_of_lt_of_eq t.isLt N_4
  have hp := p.isLt
  omega

/-- The feature window's block at point `t`: rows `t · rowsB …` of the aggregated features. -/
theorem iblk4_0_apply (c : Dev nD) (t : Fin cfg4.N) (p : Fin rowsB) (k : Fin colsK) :
    (iblk4 V c 0 t : Vec F S5000x128 .f32) (ix2 p k)
      = (V c main_v108 : S25000x128.Idx → Elt F .f32) (ix2 ⟨t.val * rowsB + p.val, row_lt4 t p⟩ k) := by
  obtain ⟨e0, e1, -⟩ := idx_facts4 t
  unfold iblk4
  rw [View.read_apply]
  show V c main_v108 _ = V c main_v108 _
  congr 1
  funext a
  apply Fin.ext
  match a with
  | ⟨0, _⟩ => show win4_0.index t 0 * rowsB + 1 * p.val = t.val * rowsB + p.val; rw [e0]; omega
  | ⟨1, _⟩ => show win4_0.index t 1 * colsK + 1 * k.val = k.val; rw [e1]; omega

/-- The scale window's block at point `t`: the same rows of the scale column. -/
theorem iblk4_1_apply (c : Dev nD) (t : Fin cfg4.N) (p : Fin rowsB) (u : Fin 1) :
    (iblk4 V c 1 t : Vec F S5000x1 .f32) (ix2 p u)
      = (V c main_v110 : S25000x1.Idx → Elt F .f32) (ix2 ⟨t.val * rowsB + p.val, row_lt4 t p⟩ u) := by
  obtain ⟨-, -, e0, e1, -⟩ := idx_facts4 t
  unfold iblk4
  rw [View.read_apply]
  show V c main_v110 _ = V c main_v110 _
  congr 1
  funext a
  apply Fin.ext
  match a with
  | ⟨0, _⟩ => show win4_1.index t 0 * rowsB + 1 * p.val = t.val * rowsB + p.val; rw [e0]; omega
  | ⟨1, _⟩ => show win4_1.index t 1 * 1 + 1 * u.val = u.val; rw [e1]; omega

/-- The weight window's one block is the weight. -/
theorem iblk4_2_eq (c : Dev nD) (t : Fin cfg4.N) :
    (iblk4 V c 2 t : Vec F S128x128 .f32) = (V c main_arg19 : S128x128.Idx → Elt F .f32) := by
  obtain ⟨-, -, -, -, e0, e1, -⟩ := idx_facts4 t
  funext x
  unfold iblk4
  rw [View.read_apply]
  show V c main_arg19 _ = V c main_arg19 _
  congr 1
  funext a
  apply Fin.ext
  match a with
  | ⟨0, _⟩ => show win4_2.index t 0 * colsK + 1 * (x 0).val = (x 0).val; rw [e0]; omega
  | ⟨1, _⟩ => show win4_2.index t 1 * colsN + 1 * (x 1).val = (x 1).val; rw [e1]; omega

/-- The bias window's one block is the bias row. -/
theorem iblk4_3_eq (c : Dev nD) (t : Fin cfg4.N) :
    (iblk4 V c 3 t : Vec F S1x128 .f32) = (V c main_v109 : S1x128.Idx → Elt F .f32) := by
  obtain ⟨-, -, -, -, -, -, e0, e1, -⟩ := idx_facts4 t
  funext x
  unfold iblk4
  rw [View.read_apply]
  show V c main_v109 _ = V c main_v109 _
  congr 1
  funext a
  apply Fin.ext
  match a with
  | ⟨0, _⟩ => show win4_3.index t 0 * 1 + 1 * (x 0).val = (x 0).val; rw [e0]; omega
  | ⟨1, _⟩ => show win4_3.index t 1 * colsN + 1 * (x 1).val = (x 1).val; rw [e1]; omega

/-- Where element `(p, q)` of the output's block at point `t` sits in the output array. -/
theorem blk4_4_emb (t : Fin cfg4.N) (p : Fin rowsB) (q : Fin colsN) :
    (((cfg4.win 4).blk t).view.emb (ix2 p q) : S25000x128.Idx) = ix2 ⟨t.val * rowsB + p.val, row_lt4 t p⟩ q := by
  obtain ⟨-, -, -, -, -, -, -, -, e0, e1⟩ := idx_facts4 t
  funext a
  apply Fin.ext
  match a with
  | ⟨0, _⟩ => show win4_4.index t 0 * rowsB + 1 * p.val = t.val * rowsB + p.val; rw [e0]; omega
  | ⟨1, _⟩ => show win4_4.index t 1 * colsN + 1 * q.val = q.val; rw [e1]; omega

/-! ## What a point writes back, and the array after the region -/

/-- The layer on the blocks at point `t`, at `(p, q)`, is the layer on the whole arrays at row `t · rowsB + p`. -/
theorem rows4_eq (V : (c : Dev nD) → (b : Ref sig .tc) → Buf (Elt Ideal) ((c : Thread nD τ).loc b)) (c : Dev nD)
    (t : Fin cfg4.N) (p : Fin rowsB) (q : Fin colsN) :
    Cert.Spec.scaled (M := rowsB) (K := colsK) (N := colsN) (iblk4 V c 0 t) (iblk4 V c 1 t) (iblk4 V c 2 t) (iblk4 V c 3 t) (ix2 p q)
      = Cert.Spec.scaled (M := rowsA) (K := colsK) (N := colsN) (V c main_v108) (V c main_v110) (V c main_arg19) (V c main_v109)
          (ix2 ⟨t.val * rowsB + p.val, row_lt4 t p⟩ q) := by
  rw [Cert.Spec.scaled_apply, Cert.Spec.scaled_apply, iblk4_1_apply, iblk4_2_eq, iblk4_3_eq]
  congr 1
  refine Finset.sum_congr rfl fun k _ => ?_
  rw [iblk4_0_apply]

/-- WHAT POINT `t` WRITES BACK is block `t` of the layer's function of the arrays the region is entered with. -/
theorem flushed4_eq (V : (c : Dev nD) → (b : Ref sig .tc) → Buf (Elt Ideal) ((c : Thread nD τ).loc b)) (c : Dev nD)
    (t : Fin cfg4.N) :
    (cfg4.win 4).cut (grid4.coords t) ((dat4 (F := Ideal) V c).after 4 t)
      = ((cfg4.win 4).blk t).view.read (Elt Ideal)
          (Cert.Spec.scaled (M := rowsA) (K := colsK) (N := colsN) (V c main_v108) (V c main_v110) (V c main_arg19) (V c main_v109)) := by
  rw [after4_4]
  unfold out4_4
  rw [View.canon_unit_zero hz4]
  simp only [View.ld_unit_zero (S := S5000x128) hz4, View.ld_unit_zero (S := S5000x1) hz4,
    View.ld_unit_zero (S := S128x128) hz4, View.ld_unit_zero (S := S1x128) hz4]
  rw [pay4_eq]
  funext j
  obtain ⟨p, q, rfl⟩ : ∃ (p : Fin rowsB) (q : Fin colsN), j = ix2 p q := ⟨j 0, j 1, eq_ix2 j⟩
  rw [View.read_apply, blk4_4_emb]
  exact rows4_eq V c t p q

/-- An index of the output array is in point `t`'s block iff each coordinate is in the block's range on its axis. -/
theorem mem_blk4_4 (t : Fin cfg4.N) (i : S25000x128.Idx) :
    i ∈ ((cfg4.win 4).blk t).view.set ↔ ∀ a : Fin 2, win4_4.index t a * S5000x128.size a ≤ (i a).val
      ∧ (i a).val < win4_4.index t a * S5000x128.size a + S5000x128.size a := by
  show i ∈ ((View.whole main_v111).slice (win4_4.rect t)).set ↔ _
  rw [View.set_slice_whole, Rect.mem_set_unit]
  exact Iff.rfl

/-- THE OUTPUT ARRAY after the region: the layer's function of the arrays the region is entered with. Row `r` is
    covered by point `r / rowsB`. -/
theorem final4 (V : (c : Dev nD) → (b : Ref sig .tc) → Buf (Elt Ideal) ((c : Thread nD τ).loc b)) (c : Dev nD) :
    (dat4 (F := Ideal) V c).arrAt 4 cfg4.N
      = Cert.Spec.scaled (M := 25000) (K := 128) (N := 128) (V c main_v108) (V c main_v110) (V c main_arg19) (V c main_v109) :=
  (dat4 (F := Ideal) V c).arrAt_eq_of_cover 4 _ (fun t _ => flushed4_eq V c t) fun i => by
    have hi0 : (i 0).val < rowsA := (i 0).isLt
    have hi1 : (i 1).val < colsN := (i 1).isLt
    have hN : cfg4.N = nPts := N_4
    have ht : (i 0).val / rowsB < cfg4.N := by rw [hN]; omega
    obtain ⟨-, -, -, -, -, -, -, -, e0, e1⟩ := idx_facts4 ⟨(i 0).val / rowsB, ht⟩
    refine ⟨⟨(i 0).val / rowsB, ht⟩, flush4_4 _, ?_⟩
    rw [mem_blk4_4]
    intro a
    match a with
    | ⟨0, _⟩ =>
      show win4_4.index ⟨(i 0).val / rowsB, ht⟩ (0 : Fin 2) * rowsB ≤ (i 0).val
        ∧ (i 0).val < win4_4.index ⟨(i 0).val / rowsB, ht⟩ (0 : Fin 2) * rowsB + rowsB
      rw [e0]
      show (i 0).val / rowsB * rowsB ≤ (i 0).val ∧ (i 0).val < (i 0).val / rowsB * rowsB + rowsB
      omega
    | ⟨1, _⟩ =>
      show win4_4.index ⟨(i 0).val / rowsB, ht⟩ (1 : Fin 2) * colsN ≤ (i 1).val
        ∧ (i 1).val < win4_4.index ⟨(i 0).val / rowsB, ht⟩ (1 : Fin 2) * colsN + colsN
      rw [e1]
      omega

end Cert.KernelIdeal.Hand

end
-- ==== Proof.Bridge.Gcn1.lean ====
import proofs.«162078_j40114994545134_1_alg».proof.Proof.KI.Data
import proofs.«162078_j40114994545134_1_alg».proof.Proof.KI.Keep
import proofs.«162078_j40114994545134_1_alg».proof.Proof.KI.Val4
import proofs.«162078_j40114994545134_1_alg».proof.Proof.Ref.Chunks
import proofs.«162078_j40114994545134_1_alg».proof.Proof.RefLinear
import proofs.«162078_j40114994545134_1_alg».proof.Proof.RefScaled
import Idealize.ShloMosaic.Lib.StableHlo.Run

set_option maxRecDepth 16384

noncomputable section

namespace Cert.Bridge

open Idealize.ShloMosaic Idealize.ShloMosaic.TcCoe Idealize.ShloMosaic.Tactic
open Idealize.SL.Sem
open Idealize.ShloMosaic.StableHlo Idealize.ShloMosaic.ValueIdx

namespace Gcn1

section Generic

variable {F : FTy → Type} [FloatOps F]

set_option maxHeartbeats 400000 in

theorem nd_chain (VK : Valuation Cert.KernelIdeal.τ Cert.KernelIdeal.sig (Elt F))
    (VR : Valuation Cert.ReferenceIdeal.τ Cert.ReferenceIdeal.sig (Elt F))
    (h4 : VK (Proc.devRef .tc Cert.KernelIdeal.main_arg4) = VR (Proc.devRef .tc Cert.ReferenceIdeal.main_arg4)) :
    StableHlo.after Cert.KernelIdeal.Gen.hostOps4_3 (StableHlo.after Cert.KernelIdeal.Gen.hostOps4_2
      (StableHlo.after Cert.KernelIdeal.Gen.hostOps4_1 (StableHlo.after Cert.KernelIdeal.Gen.hostOps4 VK)))
        (Proc.devRef .tc Cert.KernelIdeal.main_v95)
      = StableHlo.after Cert.ReferenceIdeal.Hand.rc6b (StableHlo.after Cert.ReferenceIdeal.Hand.rc6a VR)
        (Proc.devRef .tc Cert.ReferenceIdeal.main_v105) := by
  after_results_simp
  rw [h4]
  rfl

set_option maxHeartbeats 1000000 in

theorem agg_chain (VK : Valuation Cert.KernelIdeal.τ Cert.KernelIdeal.sig (Elt F))
    (VR : Valuation Cert.ReferenceIdeal.τ Cert.ReferenceIdeal.sig (Elt F))
    (h3 : VK (Proc.devRef .tc Cert.KernelIdeal.main_arg3) = VR (Proc.devRef .tc Cert.ReferenceIdeal.main_arg3))
    (h4 : VK (Proc.devRef .tc Cert.KernelIdeal.main_arg4) = VR (Proc.devRef .tc Cert.ReferenceIdeal.main_arg4))
    (hh : VK (Proc.devRef .tc Cert.KernelIdeal.main_v22) = VR (Proc.devRef .tc Cert.ReferenceIdeal.main_v26)) :
    StableHlo.after Cert.KernelIdeal.Gen.hostOps4_4 (StableHlo.after Cert.KernelIdeal.Gen.hostOps4_3 (StableHlo.after Cert.KernelIdeal.Gen.hostOps4_2
      (StableHlo.after Cert.KernelIdeal.Gen.hostOps4_1 (StableHlo.after Cert.KernelIdeal.Gen.hostOps4 VK))))
        (Proc.devRef .tc Cert.KernelIdeal.main_v108)
      = StableHlo.after Cert.ReferenceIdeal.Hand.rc6b (StableHlo.after Cert.ReferenceIdeal.Hand.rc6a VR)
        (Proc.devRef .tc Cert.ReferenceIdeal.main_v118) := by
  after_results_simp
  rw [h3, h4, hh]
  rfl

set_option maxHeartbeats 400000 in

theorem col_chain (VK : Valuation Cert.KernelIdeal.τ Cert.KernelIdeal.sig (Elt F)) :
    StableHlo.after Cert.KernelIdeal.Gen.hostOps4_4 VK (Proc.devRef .tc Cert.KernelIdeal.main_v110)
      = shapeCast Cert.KernelIdeal.S25000x1 (VK (Proc.devRef .tc Cert.KernelIdeal.main_v95)) Cert.KernelIdeal.Gen.shapeCasts_S25000_S25000x1 := by
  after_results_simp
  rfl

set_option maxHeartbeats 400000 in

theorem row_chain (VK : Valuation Cert.KernelIdeal.τ Cert.KernelIdeal.sig (Elt F)) :
    StableHlo.after Cert.KernelIdeal.Gen.hostOps4_4 VK (Proc.devRef .tc Cert.KernelIdeal.main_v109)
      = shapeCast Cert.KernelIdeal.S1x128 (VK (Proc.devRef .tc Cert.KernelIdeal.main_arg20)) Cert.KernelIdeal.Gen.shapeCasts_S128_S1x128 := by
  after_results_simp
  rfl

set_option maxHeartbeats 1000000 in

theorem layer_chain (VR : Valuation Cert.ReferenceIdeal.τ Cert.ReferenceIdeal.sig (Elt F)) :
    StableHlo.after Cert.ReferenceIdeal.Hand.rc6b VR (Proc.devRef .tc Cert.ReferenceIdeal.main_v125)
      = addf (Host.dotGeneral Cert.ReferenceIdeal.dot_S25000x128_S128x128_S25000x128_1_0_0_1_n_n none
            (mulf (StableHlo.after Cert.ReferenceIdeal.Hand.rc6b VR (Proc.devRef .tc Cert.ReferenceIdeal.main_v118))
              (broadcastInDim Cert.ReferenceIdeal.S25000x128 ![0, 1] Cert.ReferenceIdeal.Gen.bcast_S25000x1_S25000x128_0_1
                (broadcastInDim Cert.ReferenceIdeal.S25000x1 ![0] Cert.ReferenceIdeal.Gen.bcast_S25000_S25000x1_0
                  (StableHlo.after Cert.ReferenceIdeal.Hand.rc6b VR (Proc.devRef .tc Cert.ReferenceIdeal.main_v105)))))
            (VR (Proc.devRef .tc Cert.ReferenceIdeal.main_arg19)))
          (broadcastInDim Cert.ReferenceIdeal.S25000x128 ![0, 1] Cert.ReferenceIdeal.Gen.bcast_S1x128_S25000x128_0_1
            (broadcastInDim Cert.ReferenceIdeal.S1x128 ![1] Cert.ReferenceIdeal.Gen.bcast_S128_S1x128_1 (VR (Proc.devRef .tc Cert.ReferenceIdeal.main_arg20)))) := by
  after_results_simp

end Generic

open Cert.KernelIdeal.Hand Cert.ReferenceIdeal.Hand

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

set_option maxHeartbeats 400000 in
theorem k12_arg3 : T12 m c (Proc.devRef .tc Cert.KernelIdeal.main_arg3) = m ((c.tc : Thread Cert.KernelIdeal.nD Cert.KernelIdeal.τ).loc Cert.KernelIdeal.main_arg3) := by
  rw [T12_of m c _ (by decide), T11_of m c _ (by decide), T10_of m c _ (by decide), T9_of m c _ (by decide), T8_of m c _ (by decide), T7_of m c _ (by decide), T6_of m c _ (by decide), T5_of m c _ (by decide), T4_of m c _ (by decide), T3_of m c _ (by decide), T2_of m c _ (by decide), T1_of m c _ (by decide)]

set_option maxHeartbeats 400000 in
theorem k12_arg4 : T12 m c (Proc.devRef .tc Cert.KernelIdeal.main_arg4) = m ((c.tc : Thread Cert.KernelIdeal.nD Cert.KernelIdeal.τ).loc Cert.KernelIdeal.main_arg4) := by
  rw [T12_of m c _ (by decide), T11_of m c _ (by decide), T10_of m c _ (by decide), T9_of m c _ (by decide), T8_of m c _ (by decide), T7_of m c _ (by decide), T6_of m c _ (by decide), T5_of m c _ (by decide), T4_of m c _ (by decide), T3_of m c _ (by decide), T2_of m c _ (by decide), T1_of m c _ (by decide)]

set_option maxHeartbeats 400000 in
theorem k12_h1 : T12 m c (Proc.devRef .tc Cert.KernelIdeal.main_v22) = T5 m c (Proc.devRef .tc Cert.KernelIdeal.main_v22) := by
  rw [T12_of m c _ (by decide), T11_of m c _ (by decide), T10_of m c _ (by decide), T9_of m c _ (by decide), T8_of m c _ (by decide), T7_of m c _ (by decide), T6_of m c _ (by decide)]

set_option maxHeartbeats 400000 in
theorem k17_arg19 : T17 m c (Proc.devRef .tc Cert.KernelIdeal.main_arg19) = m ((c.tc : Thread Cert.KernelIdeal.nD Cert.KernelIdeal.τ).loc Cert.KernelIdeal.main_arg19) := by
  rw [T17_of m c _ (by decide), T16_of m c _ (by decide), T15_of m c _ (by decide), T14_of m c _ (by decide), T13_of m c _ (by decide), T12_of m c _ (by decide), T11_of m c _ (by decide), T10_of m c _ (by decide), T9_of m c _ (by decide), T8_of m c _ (by decide), T7_of m c _ (by decide), T6_of m c _ (by decide), T5_of m c _ (by decide), T4_of m c _ (by decide), T3_of m c _ (by decide), T2_of m c _ (by decide), T1_of m c _ (by decide)]

set_option maxHeartbeats 400000 in
theorem k16_arg20 : T16 m c (Proc.devRef .tc Cert.KernelIdeal.main_arg20) = m ((c.tc : Thread Cert.KernelIdeal.nD Cert.KernelIdeal.τ).loc Cert.KernelIdeal.main_arg20) := by
  rw [T16_of m c _ (by decide), T15_of m c _ (by decide), T14_of m c _ (by decide), T13_of m c _ (by decide), T12_of m c _ (by decide), T11_of m c _ (by decide), T10_of m c _ (by decide), T9_of m c _ (by decide), T8_of m c _ (by decide), T7_of m c _ (by decide), T6_of m c _ (by decide), T5_of m c _ (by decide), T4_of m c _ (by decide), T3_of m c _ (by decide), T2_of m c _ (by decide), T1_of m c _ (by decide)]

set_option maxHeartbeats 400000 in
theorem r6_arg3 : R6 m' c (Proc.devRef .tc Cert.ReferenceIdeal.main_arg3) = m' ((c.tc : Thread Cert.ReferenceIdeal.nD Cert.ReferenceIdeal.τ).loc Cert.ReferenceIdeal.main_arg3) := by
  rw [R_keep_5 m' c (by decide), R_keep_4 m' c (by decide), R_keep_3 m' c (by decide), R_keep_2 m' c (by decide), R_keep_1 m' c (by decide), R_keep_0 m' c (by decide)]
  rfl

set_option maxHeartbeats 400000 in
theorem r6_arg4 : R6 m' c (Proc.devRef .tc Cert.ReferenceIdeal.main_arg4) = m' ((c.tc : Thread Cert.ReferenceIdeal.nD Cert.ReferenceIdeal.τ).loc Cert.ReferenceIdeal.main_arg4) := by
  rw [R_keep_5 m' c (by decide), R_keep_4 m' c (by decide), R_keep_3 m' c (by decide), R_keep_2 m' c (by decide), R_keep_1 m' c (by decide), R_keep_0 m' c (by decide)]
  rfl

set_option maxHeartbeats 400000 in
theorem r6_h1 : R6 m' c (Proc.devRef .tc Cert.ReferenceIdeal.main_v26) = R3 m' c (Proc.devRef .tc Cert.ReferenceIdeal.main_v26) := by
  rw [R_keep_5 m' c (by decide), R_keep_4 m' c (by decide), R_keep_3 m' c (by decide)]

set_option maxHeartbeats 400000 in
theorem r6h_arg19 : R6h m' c (Proc.devRef .tc Cert.ReferenceIdeal.main_arg19) = m' ((c.tc : Thread Cert.ReferenceIdeal.nD Cert.ReferenceIdeal.τ).loc Cert.ReferenceIdeal.main_arg19) := by
  unfold R6h
  rw [Cert.LibAfter.keep rc_6a_writes (R6 m' c) (by decide), R_keep_5 m' c (by decide), R_keep_4 m' c (by decide), R_keep_3 m' c (by decide), R_keep_2 m' c (by decide), R_keep_1 m' c (by decide), R_keep_0 m' c (by decide)]
  rfl

set_option maxHeartbeats 400000 in
theorem r6h_arg20 : R6h m' c (Proc.devRef .tc Cert.ReferenceIdeal.main_arg20) = m' ((c.tc : Thread Cert.ReferenceIdeal.nD Cert.ReferenceIdeal.τ).loc Cert.ReferenceIdeal.main_arg20) := by
  unfold R6h
  rw [Cert.LibAfter.keep rc_6a_writes (R6 m' c) (by decide), R_keep_5 m' c (by decide), R_keep_4 m' c (by decide), R_keep_3 m' c (by decide), R_keep_2 m' c (by decide), R_keep_1 m' c (by decide), R_keep_0 m' c (by decide)]
  rfl

end Gcn1

open Gcn1

open Cert.KernelIdeal.Hand Cert.ReferenceIdeal.Hand

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

set_option maxHeartbeats 1000000 in

theorem nd1 (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    T17 m c (Proc.devRef .tc Cert.KernelIdeal.main_v95) = R7 m' c (Proc.devRef .tc Cert.ReferenceIdeal.main_v105) := by
  rw [T17_of m c Cert.KernelIdeal.main_v95 (by decide)]
  exact nd_chain (F := Ideal) (T12 m c) (R6 m' c) (by rw [k12_arg4 m c, r6_arg4 m' c]; exact h4.symm)

set_option maxHeartbeats 1000000 in

theorem agg1 (h_h1 : T5 m c (Proc.devRef .tc Cert.KernelIdeal.main_v22) = R3 m' c (Proc.devRef .tc Cert.ReferenceIdeal.main_v26))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    T17 m c (Proc.devRef .tc Cert.KernelIdeal.main_v108) = R7 m' c (Proc.devRef .tc Cert.ReferenceIdeal.main_v118) :=
  agg_chain (F := Ideal) (T12 m c) (R6 m' c) (by rw [k12_arg3 m c, r6_arg3 m' c]; exact h3.symm)
    (by rw [k12_arg4 m c, r6_arg4 m' c]; exact h4.symm) (by rw [k12_h1 m c, r6_h1 m' c]; exact h_h1)

set_option maxHeartbeats 1000000 in

theorem g1f (h_agg : T17 m c (Proc.devRef .tc Cert.KernelIdeal.main_v108) = R7 m' c (Proc.devRef .tc Cert.ReferenceIdeal.main_v118))
    (h_nd : T17 m c (Proc.devRef .tc Cert.KernelIdeal.main_v95) = R7 m' c (Proc.devRef .tc Cert.ReferenceIdeal.main_v105))
    (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (h20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) :
    T18 m c (Proc.devRef .tc Cert.KernelIdeal.main_v111) = R7 m' c (Proc.devRef .tc Cert.ReferenceIdeal.main_v125) := by
  have hk : T18 m c (Proc.devRef .tc Cert.KernelIdeal.main_v111)
      = Cert.Spec.scaled (M := 25000) (K := 128) (N := 128) (T17 m c (Proc.devRef .tc Cert.KernelIdeal.main_v108))
          (T17 m c (Proc.devRef .tc Cert.KernelIdeal.main_v110)) (T17 m c (Proc.devRef .tc Cert.KernelIdeal.main_arg19)) (T17 m c (Proc.devRef .tc Cert.KernelIdeal.main_v109)) := by
    unfold T18
    rw [Function.update_self]
    exact final4 (rd (T17 m)) c
  have hr : R7 m' c (Proc.devRef .tc Cert.ReferenceIdeal.main_v125)
      = Cert.Spec.scaled (M := 25000) (K := 128) (N := 128) (R7 m' c (Proc.devRef .tc Cert.ReferenceIdeal.main_v118))
          (fun j => (R7 m' c (Proc.devRef .tc Cert.ReferenceIdeal.main_v105)) (ix1 (j 0))) (R6h m' c (Proc.devRef .tc Cert.ReferenceIdeal.main_arg19))
          (fun j => (R6h m' c (Proc.devRef .tc Cert.ReferenceIdeal.main_arg20)) (ix1 (j 1))) := by
    refine (layer_chain (F := Ideal) (R6h m' c)).trans ?_
    exact Cert.RefScaled.hostScaled_eq (M := 25000) (K := 128) (N := 128)
      Cert.ReferenceIdeal.dot_S25000x128_S128x128_S25000x128_1_0_0_1_n_n rfl rfl rfl rfl rfl rfl _ _ _ _ _ _ _ _
  have e1 : (T17 m c (Proc.devRef .tc Cert.KernelIdeal.main_v110) : Cert.Spec.Mat 25000 1)
      = fun j => (R7 m' c (Proc.devRef .tc Cert.ReferenceIdeal.main_v105)) (ix1 (j 0)) := by
    rw [← h_nd, T17_of m c Cert.KernelIdeal.main_v95 (by decide)]
    exact (col_chain (F := Ideal) (T16 m c)).trans (Cert.RefScaled.columnOfVector_eq _ _)
  have e2 : (T17 m c (Proc.devRef .tc Cert.KernelIdeal.main_v109) : Cert.Spec.Mat 1 128)
      = fun j => (R6h m' c (Proc.devRef .tc Cert.ReferenceIdeal.main_arg20)) (ix1 (j 1)) := by
    rw [r6h_arg20 m' c, h20, ← k16_arg20 m c]
    exact (row_chain (F := Ideal) (T16 m c)).trans (Cert.RefLinear.rowOfVector_eq _ _)
  have e3 : T17 m c (Proc.devRef .tc Cert.KernelIdeal.main_arg19) = R6h m' c (Proc.devRef .tc Cert.ReferenceIdeal.main_arg19) := by
    rw [k17_arg19 m c, r6h_arg19 m' c, h19]
  rw [hk, hr, e1, e2, e3, h_agg]
  rfl

end Cert.Bridge

end
-- ==== Proof.KI.Val5.lean ====
/-
  What the first graph-convolution layer's region leaves in its output array, as ONE function of the arrays it is
  entered with: `(x ⊙ s) · w + b` on whole arrays, `Cert.Spec.scaled`.

  The body's one store holds, at `(p, q)` of its block, `∑ k, (x (p, k) · s (p, 0)) · w (k, q) + b (0, q)` of its four
  loaded blocks (the narrowing before the matrix unit is the identity on extended reals). At grid point `t` the row
  windows (the features, the scale column, the output) sit at block row `t`, the weight and the bias at their one block:
  so row `p` of the block is row `t · rowsB + p` of the arrays, and what point `t` writes back is block `t` of the
  whole-array function. The point that covers row `r` is `r / rowsB`; the blocks fill the array.
-/
import proofs.«162078_j40114994545134_1_alg».proof.Proof.Gen.KernelIdeal.Launch
import proofs.«162078_j40114994545134_1_alg».proof.Proof.Gen.KernelIdeal.Skeleton
import proofs.«162078_j40114994545134_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import Idealize.ShloMosaic.Lib.ValueLayout
import proofs.«162078_j40114994545134_1_alg».proof.Proof.KI.Def5
import proofs.«162078_j40114994545134_1_alg».proof.Proof.Spec
import proofs.«162078_j40114994545134_1_alg».proof.Proof.LibDot
import proofs.«162078_j40114994545134_1_alg».proof.Proof.LibColumn

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

local notation "𝕄" => MT nD τ sig Unit (Elt F) ℕ (UR sig nD τ) ℕ

/- The sizes: rows of a block, rows of the arrays, the contracted width, the output width, the grid's points. -/
local notation "rowsB" => 6250
local notation "rowsA" => 6250
local notation "colsK" => 128
local notation "colsN" => 128
local notation "nPts" => 1

/-! ## The body's stored value at an index -/

theorem hz5 : (![0, 0] : Fin 2 → Nat) = fun _ => 0 := funext fun a => by fin_cases a <;> rfl

/-- The stored value is the layer's function of the four loaded blocks. -/
theorem pay5_eq (x0 : Vec Ideal S6250x128 .f32) (x1 : Vec Ideal S6250x1 .f32) (x2 : Vec Ideal S128x128 .f32)
    (x3 : Vec Ideal S1x128 .f32) :
    k5_pay1 x0 x1 x2 x3 = Cert.Spec.scaled (M := rowsB) (K := colsK) (N := colsN) x0 x1 x2 x3 := by
  funext j
  obtain ⟨p, q, rfl⟩ : ∃ (p : Fin rowsB) (q : Fin colsN), j = ix2 p q := ⟨j 0, j 1, eq_ix2 j⟩
  rw [Cert.Spec.scaled_apply]
  unfold k5_pay1
  simp only [shapeCast_self]
  rw [addf_apply, Cert.LibDot.matmul_plain_apply dot_S6250x128_S128x128_S6250x128_1_0_0_1_n_n rfl rfl rfl rfl rfl rfl,
    broadcastTo_1b_ab_apply]
  congr 1
  refine Finset.sum_congr rfl fun k _ => ?_
  rw [truncf_apply, truncf_apply, mulf_apply, Cert.LibColumn.broadcastTo_a1_ab_apply]

/-! ## The blocks at a grid point -/

variable (V : (c : Dev nD) → (b : Ref sig .tc) → Buf (Elt F) ((c : Thread nD τ).loc b))

/-- The printed index maps over the grid: the three row windows are at block row `t`, the weight and the bias at
    their one block. -/
theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- Row `p` of block `t` is a row of the array. -/
theorem row_lt5 (t : Fin cfg5.N) (p : Fin rowsB) : t.val * rowsB + p.val < rowsA := by
  have ht : t.val < nPts := Nat.lt_of_lt_of_eq t.isLt N_5
  have hp := p.isLt
  omega

/-- The feature window's block at point `t`: rows `t · rowsB …` of the aggregated features. -/
theorem iblk5_0_apply (c : Dev nD) (t : Fin cfg5.N) (p : Fin rowsB) (k : Fin colsK) :
    (iblk5 V c 0 t : Vec F S6250x128 .f32) (ix2 p k)
      = (V c main_v142 : S6250x128.Idx → Elt F .f32) (ix2 ⟨t.val * rowsB + p.val, row_lt5 t p⟩ k) := by
  obtain ⟨e0, e1, -⟩ := idx_facts5 t
  unfold iblk5
  rw [View.read_apply]
  show V c main_v142 _ = V c main_v142 _
  congr 1
  funext a
  apply Fin.ext
  match a with
  | ⟨0, _⟩ => show win5_0.index t 0 * rowsB + 1 * p.val = t.val * rowsB + p.val; rw [e0]; omega
  | ⟨1, _⟩ => show win5_0.index t 1 * colsK + 1 * k.val = k.val; rw [e1]; omega

/-- The scale window's block at point `t`: the same rows of the scale column. -/
theorem iblk5_1_apply (c : Dev nD) (t : Fin cfg5.N) (p : Fin rowsB) (u : Fin 1) :
    (iblk5 V c 1 t : Vec F S6250x1 .f32) (ix2 p u)
      = (V c main_v144 : S6250x1.Idx → Elt F .f32) (ix2 ⟨t.val * rowsB + p.val, row_lt5 t p⟩ u) := by
  obtain ⟨-, -, e0, e1, -⟩ := idx_facts5 t
  unfold iblk5
  rw [View.read_apply]
  show V c main_v144 _ = V c main_v144 _
  congr 1
  funext a
  apply Fin.ext
  match a with
  | ⟨0, _⟩ => show win5_1.index t 0 * rowsB + 1 * p.val = t.val * rowsB + p.val; rw [e0]; omega
  | ⟨1, _⟩ => show win5_1.index t 1 * 1 + 1 * u.val = u.val; rw [e1]; omega

/-- The weight window's one block is the weight. -/
theorem iblk5_2_eq (c : Dev nD) (t : Fin cfg5.N) :
    (iblk5 V c 2 t : Vec F S128x128 .f32) = (V c main_arg21 : S128x128.Idx → Elt F .f32) := by
  obtain ⟨-, -, -, -, e0, e1, -⟩ := idx_facts5 t
  funext x
  unfold iblk5
  rw [View.read_apply]
  show V c main_arg21 _ = V c main_arg21 _
  congr 1
  funext a
  apply Fin.ext
  match a with
  | ⟨0, _⟩ => show win5_2.index t 0 * colsK + 1 * (x 0).val = (x 0).val; rw [e0]; omega
  | ⟨1, _⟩ => show win5_2.index t 1 * colsN + 1 * (x 1).val = (x 1).val; rw [e1]; omega

/-- The bias window's one block is the bias row. -/
theorem iblk5_3_eq (c : Dev nD) (t : Fin cfg5.N) :
    (iblk5 V c 3 t : Vec F S1x128 .f32) = (V c main_v143 : S1x128.Idx → Elt F .f32) := by
  obtain ⟨-, -, -, -, -, -, e0, e1, -⟩ := idx_facts5 t
  funext x
  unfold iblk5
  rw [View.read_apply]
  show V c main_v143 _ = V c main_v143 _
  congr 1
  funext a
  apply Fin.ext
  match a with
  | ⟨0, _⟩ => show win5_3.index t 0 * 1 + 1 * (x 0).val = (x 0).val; rw [e0]; omega
  | ⟨1, _⟩ => show win5_3.index t 1 * colsN + 1 * (x 1).val = (x 1).val; rw [e1]; omega

/-- Where element `(p, q)` of the output's block at point `t` sits in the output array. -/
theorem blk5_4_emb (t : Fin cfg5.N) (p : Fin rowsB) (q : Fin colsN) :
    (((cfg5.win 4).blk t).view.emb (ix2 p q) : S6250x128.Idx) = ix2 ⟨t.val * rowsB + p.val, row_lt5 t p⟩ q := by
  obtain ⟨-, -, -, -, -, -, -, -, e0, e1⟩ := idx_facts5 t
  funext a
  apply Fin.ext
  match a with
  | ⟨0, _⟩ => show win5_4.index t 0 * rowsB + 1 * p.val = t.val * rowsB + p.val; rw [e0]; omega
  | ⟨1, _⟩ => show win5_4.index t 1 * colsN + 1 * q.val = q.val; rw [e1]; omega

/-! ## What a point writes back, and the array after the region -/

/-- The layer on the blocks at point `t`, at `(p, q)`, is the layer on the whole arrays at row `t · rowsB + p`. -/
theorem rows5_eq (V : (c : Dev nD) → (b : Ref sig .tc) → Buf (Elt Ideal) ((c : Thread nD τ).loc b)) (c : Dev nD)
    (t : Fin cfg5.N) (p : Fin rowsB) (q : Fin colsN) :
    Cert.Spec.scaled (M := rowsB) (K := colsK) (N := colsN) (iblk5 V c 0 t) (iblk5 V c 1 t) (iblk5 V c 2 t) (iblk5 V c 3 t) (ix2 p q)
      = Cert.Spec.scaled (M := rowsA) (K := colsK) (N := colsN) (V c main_v142) (V c main_v144) (V c main_arg21) (V c main_v143)
          (ix2 ⟨t.val * rowsB + p.val, row_lt5 t p⟩ q) := by
  rw [Cert.Spec.scaled_apply, Cert.Spec.scaled_apply, iblk5_1_apply, iblk5_2_eq, iblk5_3_eq]
  congr 1
  refine Finset.sum_congr rfl fun k _ => ?_
  rw [iblk5_0_apply]

/-- WHAT POINT `t` WRITES BACK is block `t` of the layer's function of the arrays the region is entered with. -/
theorem flushed5_eq (V : (c : Dev nD) → (b : Ref sig .tc) → Buf (Elt Ideal) ((c : Thread nD τ).loc b)) (c : Dev nD)
    (t : Fin cfg5.N) :
    (cfg5.win 4).cut (grid5.coords t) ((dat5 (F := Ideal) V c).after 4 t)
      = ((cfg5.win 4).blk t).view.read (Elt Ideal)
          (Cert.Spec.scaled (M := rowsA) (K := colsK) (N := colsN) (V c main_v142) (V c main_v144) (V c main_arg21) (V c main_v143)) := by
  rw [after5_4]
  unfold out5_4
  rw [View.canon_unit_zero hz5]
  simp only [View.ld_unit_zero (S := S6250x128) hz5, View.ld_unit_zero (S := S6250x1) hz5,
    View.ld_unit_zero (S := S128x128) hz5, View.ld_unit_zero (S := S1x128) hz5]
  rw [pay5_eq]
  funext j
  obtain ⟨p, q, rfl⟩ : ∃ (p : Fin rowsB) (q : Fin colsN), j = ix2 p q := ⟨j 0, j 1, eq_ix2 j⟩
  rw [View.read_apply, blk5_4_emb]
  exact rows5_eq V c t p q

/-- An index of the output array is in point `t`'s block iff each coordinate is in the block's range on its axis. -/
theorem mem_blk5_4 (t : Fin cfg5.N) (i : S6250x128.Idx) :
    i ∈ ((cfg5.win 4).blk t).view.set ↔ ∀ a : Fin 2, win5_4.index t a * S6250x128.size a ≤ (i a).val
      ∧ (i a).val < win5_4.index t a * S6250x128.size a + S6250x128.size a := by
  show i ∈ ((View.whole main_v145).slice (win5_4.rect t)).set ↔ _
  rw [View.set_slice_whole, Rect.mem_set_unit]
  exact Iff.rfl

/-- THE OUTPUT ARRAY after the region: the layer's function of the arrays the region is entered with. Row `r` is
    covered by point `r / rowsB`. -/
theorem final5 (V : (c : Dev nD) → (b : Ref sig .tc) → Buf (Elt Ideal) ((c : Thread nD τ).loc b)) (c : Dev nD) :
    (dat5 (F := Ideal) V c).arrAt 4 cfg5.N
      = Cert.Spec.scaled (M := 6250) (K := 128) (N := 128) (V c main_v142) (V c main_v144) (V c main_arg21) (V c main_v143) :=
  (dat5 (F := Ideal) V c).arrAt_eq_of_cover 4 _ (fun t _ => flushed5_eq V c t) fun i => by
    have hi0 : (i 0).val < rowsA := (i 0).isLt
    have hi1 : (i 1).val < colsN := (i 1).isLt
    have hN : cfg5.N = nPts := N_5
    have ht : (i 0).val / rowsB < cfg5.N := by rw [hN]; omega
    obtain ⟨-, -, -, -, -, -, -, -, e0, e1⟩ := idx_facts5 ⟨(i 0).val / rowsB, ht⟩
    refine ⟨⟨(i 0).val / rowsB, ht⟩, flush5_4 _, ?_⟩
    rw [mem_blk5_4]
    intro a
    match a with
    | ⟨0, _⟩ =>
      show win5_4.index ⟨(i 0).val / rowsB, ht⟩ (0 : Fin 2) * rowsB ≤ (i 0).val
        ∧ (i 0).val < win5_4.index ⟨(i 0).val / rowsB, ht⟩ (0 : Fin 2) * rowsB + rowsB
      rw [e0]
      show (i 0).val / rowsB * rowsB ≤ (i 0).val ∧ (i 0).val < (i 0).val / rowsB * rowsB + rowsB
      omega
    | ⟨1, _⟩ =>
      show win5_4.index ⟨(i 0).val / rowsB, ht⟩ (1 : Fin 2) * colsN ≤ (i 1).val
        ∧ (i 1).val < win5_4.index ⟨(i 0).val / rowsB, ht⟩ (1 : Fin 2) * colsN + colsN
      rw [e1]
      omega

end Cert.KernelIdeal.Hand

end
-- ==== Proof.Bridge.Gcn2.lean ====
import proofs.«162078_j40114994545134_1_alg».proof.Proof.KI.Data
import proofs.«162078_j40114994545134_1_alg».proof.Proof.KI.Keep
import proofs.«162078_j40114994545134_1_alg».proof.Proof.KI.Val5
import proofs.«162078_j40114994545134_1_alg».proof.Proof.Ref.Chunks
import proofs.«162078_j40114994545134_1_alg».proof.Proof.RefLinear
import proofs.«162078_j40114994545134_1_alg».proof.Proof.RefScaled
import proofs.«162078_j40114994545134_1_alg».proof.Proof.LibAfter
import Idealize.ShloMosaic.Lib.StableHlo.Run

set_option maxRecDepth 16384

noncomputable section

namespace Cert.Bridge

open Idealize.ShloMosaic Idealize.ShloMosaic.TcCoe Idealize.ShloMosaic.ValueIdx
open Idealize.SL.Sem Idealize.ShloMosaic.StableHlo

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

namespace Gcn2

theorem kLaunch18 (r : Ref Cert.KernelIdeal.sig .tc)
    (n1 : r ∉ Cert.KernelIdeal.GenP.hostOps0_W)
    (n2 : r ∉ ([Cert.KernelIdeal.main_v1] : List (Ref Cert.KernelIdeal.sig .tc)))
    (n3 : r ∉ Cert.KernelIdeal.GenP.hostOps1_W)
    (n4 : r ∉ ([Cert.KernelIdeal.main_v3] : List (Ref Cert.KernelIdeal.sig .tc)))
    (n5 : r ∉ Cert.KernelIdeal.GenP.hostOps2_W)
    (n6 : r ∉ ([Cert.KernelIdeal.main_v24] : List (Ref Cert.KernelIdeal.sig .tc)))
    (n7 : r ∉ Cert.KernelIdeal.GenP.hostOps3_W)
    (n8 : r ∉ Cert.KernelIdeal.GenP.hostOps3_1_W)
    (n9 : r ∉ Cert.KernelIdeal.GenP.hostOps3_2_W)
    (n10 : r ∉ Cert.KernelIdeal.GenP.hostOps3_3_W)
    (n11 : r ∉ Cert.KernelIdeal.GenP.hostOps3_4_W)
    (n12 : r ∉ ([Cert.KernelIdeal.main_v77] : List (Ref Cert.KernelIdeal.sig .tc)))
    (n13 : r ∉ Cert.KernelIdeal.GenP.hostOps4_W)
    (n14 : r ∉ Cert.KernelIdeal.GenP.hostOps4_1_W)
    (n15 : r ∉ Cert.KernelIdeal.GenP.hostOps4_2_W)
    (n16 : r ∉ Cert.KernelIdeal.GenP.hostOps4_3_W)
    (n17 : r ∉ Cert.KernelIdeal.GenP.hostOps4_4_W)
    (n18 : r ∉ ([Cert.KernelIdeal.main_v111] : List (Ref Cert.KernelIdeal.sig .tc))) :
    Cert.KernelIdeal.Hand.T18 m c (Proc.devRef .tc r) = m ((c.tc : Thread Cert.KernelIdeal.nD Cert.KernelIdeal.τ).loc r) := by
  rw [Cert.KernelIdeal.Hand.T18_of m c r n18,
    Cert.KernelIdeal.Hand.T17_of m c r n17,
    Cert.KernelIdeal.Hand.T16_of m c r n16,
    Cert.KernelIdeal.Hand.T15_of m c r n15,
    Cert.KernelIdeal.Hand.T14_of m c r n14,
    Cert.KernelIdeal.Hand.T13_of m c r n13,
    Cert.KernelIdeal.Hand.T12_of m c r n12,
    Cert.KernelIdeal.Hand.T11_of m c r n11,
    Cert.KernelIdeal.Hand.T10_of m c r n10,
    Cert.KernelIdeal.Hand.T9_of m c r n9,
    Cert.KernelIdeal.Hand.T8_of m c r n8,
    Cert.KernelIdeal.Hand.T7_of m c r n7,
    Cert.KernelIdeal.Hand.T6_of m c r n6,
    Cert.KernelIdeal.Hand.T5_of m c r n5,
    Cert.KernelIdeal.Hand.T4_of m c r n4,
    Cert.KernelIdeal.Hand.T3_of m c r n3,
    Cert.KernelIdeal.Hand.T2_of m c r n2,
    Cert.KernelIdeal.Hand.T1_of m c r n1]

theorem rLaunch7 (r : Ref Cert.ReferenceIdeal.sig .tc)
    (n0 : r ∉ Cert.ReferenceIdeal.Hand.rcW_0)
    (n1 : r ∉ Cert.ReferenceIdeal.Hand.rcW_1)
    (n2 : r ∉ Cert.ReferenceIdeal.Hand.rcW_2)
    (n3 : r ∉ Cert.ReferenceIdeal.Hand.rcW_3)
    (n4 : r ∉ Cert.ReferenceIdeal.Hand.rcW_4)
    (n5 : r ∉ Cert.ReferenceIdeal.Hand.rcW_5)
    (n6 : r ∉ Cert.ReferenceIdeal.Hand.rcW_6) :
    Cert.ReferenceIdeal.Hand.R7 m' c (Proc.devRef .tc r) = m' ((c.tc : Thread Cert.ReferenceIdeal.nD Cert.ReferenceIdeal.τ).loc r) := by
  rw [Cert.ReferenceIdeal.Hand.R_keep_6 m' c n6,
    Cert.ReferenceIdeal.Hand.R_keep_5 m' c n5,
    Cert.ReferenceIdeal.Hand.R_keep_4 m' c n4,
    Cert.ReferenceIdeal.Hand.R_keep_3 m' c n3,
    Cert.ReferenceIdeal.Hand.R_keep_2 m' c n2,
    Cert.ReferenceIdeal.Hand.R_keep_1 m' c n1,
    Cert.ReferenceIdeal.Hand.R_keep_0 m' c n0]
  rfl

theorem kRows18 : Cert.KernelIdeal.Hand.T18 m c (Proc.devRef .tc Cert.KernelIdeal.main_v43) = Cert.KernelIdeal.Hand.T7 m c (Proc.devRef .tc Cert.KernelIdeal.main_v43) := by
  rw [Cert.KernelIdeal.Hand.T18_of m c Cert.KernelIdeal.main_v43 (by decide),
    Cert.KernelIdeal.Hand.T17_of m c Cert.KernelIdeal.main_v43 (by decide),
    Cert.KernelIdeal.Hand.T16_of m c Cert.KernelIdeal.main_v43 (by decide),
    Cert.KernelIdeal.Hand.T15_of m c Cert.KernelIdeal.main_v43 (by decide),
    Cert.KernelIdeal.Hand.T14_of m c Cert.KernelIdeal.main_v43 (by decide),
    Cert.KernelIdeal.Hand.T13_of m c Cert.KernelIdeal.main_v43 (by decide),
    Cert.KernelIdeal.Hand.T12_of m c Cert.KernelIdeal.main_v43 (by decide),
    Cert.KernelIdeal.Hand.T11_of m c Cert.KernelIdeal.main_v43 (by decide),
    Cert.KernelIdeal.Hand.T10_of m c Cert.KernelIdeal.main_v43 (by decide),
    Cert.KernelIdeal.Hand.T9_of m c Cert.KernelIdeal.main_v43 (by decide),
    Cert.KernelIdeal.Hand.T8_of m c Cert.KernelIdeal.main_v43 (by decide)]

theorem rRows7 : Cert.ReferenceIdeal.Hand.R7 m' c (Proc.devRef .tc Cert.ReferenceIdeal.main_v49) = Cert.ReferenceIdeal.Hand.R5 m' c (Proc.devRef .tc Cert.ReferenceIdeal.main_v49) := by
  rw [Cert.ReferenceIdeal.Hand.R_keep_6 m' c (r := Cert.ReferenceIdeal.main_v49) (by decide),
    Cert.ReferenceIdeal.Hand.R_keep_5 m' c (r := Cert.ReferenceIdeal.main_v49) (by decide)]

set_option maxHeartbeats 1000000 in

theorem nd_chain {F : FTy → Type} [FloatOps F]
    (V : Valuation Cert.KernelIdeal.τ Cert.KernelIdeal.sig (Elt F)) (V' : Valuation Cert.ReferenceIdeal.τ Cert.ReferenceIdeal.sig (Elt F))
    (hd : V (Proc.devRef .tc Cert.KernelIdeal.main_arg6) = V' (Proc.devRef .tc Cert.ReferenceIdeal.main_arg6)) :
    StableHlo.after Cert.KernelIdeal.Gen.hostOps5_3 (StableHlo.after Cert.KernelIdeal.Gen.hostOps5_2 (StableHlo.after Cert.KernelIdeal.Gen.hostOps5_1 (StableHlo.after Cert.KernelIdeal.Gen.hostOps5 V))) (Proc.devRef .tc Cert.KernelIdeal.main_v129)
      = StableHlo.after Cert.ReferenceIdeal.Hand.rc7b (StableHlo.after Cert.ReferenceIdeal.Hand.rc7a V') (Proc.devRef .tc Cert.ReferenceIdeal.main_v143) := by
  after_results_simp
  simp only [TRef.ofBuf, TRef.toBuf, cast_eq]
  rw [hd]
  rfl

set_option maxHeartbeats 1000000 in

theorem agg_chain {F : FTy → Type} [FloatOps F]
    (V : Valuation Cert.KernelIdeal.τ Cert.KernelIdeal.sig (Elt F)) (V' : Valuation Cert.ReferenceIdeal.τ Cert.ReferenceIdeal.sig (Elt F))
    (hx : V (Proc.devRef .tc Cert.KernelIdeal.main_v43) = V' (Proc.devRef .tc Cert.ReferenceIdeal.main_v49))
    (hs : V (Proc.devRef .tc Cert.KernelIdeal.main_arg5) = V' (Proc.devRef .tc Cert.ReferenceIdeal.main_arg5))
    (hd : V (Proc.devRef .tc Cert.KernelIdeal.main_arg6) = V' (Proc.devRef .tc Cert.ReferenceIdeal.main_arg6)) :
    StableHlo.after Cert.KernelIdeal.Gen.hostOps5_4 (StableHlo.after Cert.KernelIdeal.Gen.hostOps5_3 (StableHlo.after Cert.KernelIdeal.Gen.hostOps5_2 (StableHlo.after Cert.KernelIdeal.Gen.hostOps5_1 (StableHlo.after Cert.KernelIdeal.Gen.hostOps5 V)))) (Proc.devRef .tc Cert.KernelIdeal.main_v142)
      = StableHlo.after Cert.ReferenceIdeal.Hand.rc7b (StableHlo.after Cert.ReferenceIdeal.Hand.rc7a V') (Proc.devRef .tc Cert.ReferenceIdeal.main_v156) := by
  after_results_simp
  simp only [TRef.ofBuf, TRef.toBuf, cast_eq]
  rw [hx, hs, hd]
  rfl

end Gcn2

set_option maxHeartbeats 400000 in

theorem nd2 (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.KernelIdeal.Hand.T23 m c (Proc.devRef .tc Cert.KernelIdeal.main_v129) = Cert.ReferenceIdeal.Hand.R8 m' c (Proc.devRef .tc Cert.ReferenceIdeal.main_v143) := by
  rw [Cert.KernelIdeal.Hand.T23_of m c Cert.KernelIdeal.main_v129 (by decide)]
  unfold Cert.KernelIdeal.Hand.T22 Cert.KernelIdeal.Hand.T21 Cert.KernelIdeal.Hand.T20 Cert.KernelIdeal.Hand.T19 Cert.ReferenceIdeal.Hand.R8 Cert.ReferenceIdeal.Hand.R7h
  refine Gcn2.nd_chain (Cert.KernelIdeal.Hand.T18 m c) (Cert.ReferenceIdeal.Hand.R7 m' c) ?_
  rw [Gcn2.kLaunch18 m c Cert.KernelIdeal.main_arg6 (by decide) (by decide) (by decide) (by decide) (by decide) (by decide) (by decide) (by decide) (by decide) (by decide) (by decide) (by decide) (by decide) (by decide) (by decide) (by decide) (by decide) (by decide),
    Gcn2.rLaunch7 m' c Cert.ReferenceIdeal.main_arg6 (by decide) (by decide) (by decide) (by decide) (by decide) (by decide) (by decide), h6]

set_option maxHeartbeats 400000 in

theorem agg2 (h_h2 : Cert.KernelIdeal.Hand.T7 m c (Proc.devRef .tc Cert.KernelIdeal.main_v43) = Cert.ReferenceIdeal.Hand.R5 m' c (Proc.devRef .tc Cert.ReferenceIdeal.main_v49))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.KernelIdeal.Hand.T23 m c (Proc.devRef .tc Cert.KernelIdeal.main_v142) = Cert.ReferenceIdeal.Hand.R8 m' c (Proc.devRef .tc Cert.ReferenceIdeal.main_v156) := by
  unfold Cert.KernelIdeal.Hand.T23
  unfold Cert.KernelIdeal.Hand.T22 Cert.KernelIdeal.Hand.T21 Cert.KernelIdeal.Hand.T20 Cert.KernelIdeal.Hand.T19 Cert.ReferenceIdeal.Hand.R8 Cert.ReferenceIdeal.Hand.R7h
  refine Gcn2.agg_chain (Cert.KernelIdeal.Hand.T18 m c) (Cert.ReferenceIdeal.Hand.R7 m' c) ?_ ?_ ?_
  · rw [Gcn2.kRows18 m c, Gcn2.rRows7 m' c, h_h2]
  · rw [Gcn2.kLaunch18 m c Cert.KernelIdeal.main_arg5 (by decide) (by decide) (by decide) (by decide) (by decide) (by decide) (by decide) (by decide) (by decide) (by decide) (by decide) (by decide) (by decide) (by decide) (by decide) (by decide) (by decide) (by decide),
      Gcn2.rLaunch7 m' c Cert.ReferenceIdeal.main_arg5 (by decide) (by decide) (by decide) (by decide) (by decide) (by decide) (by decide), h5]
  · rw [Gcn2.kLaunch18 m c Cert.KernelIdeal.main_arg6 (by decide) (by decide) (by decide) (by decide) (by decide) (by decide) (by decide) (by decide) (by decide) (by decide) (by decide) (by decide) (by decide) (by decide) (by decide) (by decide) (by decide) (by decide),
      Gcn2.rLaunch7 m' c Cert.ReferenceIdeal.main_arg6 (by decide) (by decide) (by decide) (by decide) (by decide) (by decide) (by decide), h6]

namespace Gcn2

set_option maxHeartbeats 400000 in

theorem kCol :
    Cert.KernelIdeal.Hand.T23 m c (Proc.devRef .tc Cert.KernelIdeal.main_v144) = fun j => (Cert.KernelIdeal.Hand.T23 m c (Proc.devRef .tc Cert.KernelIdeal.main_v129) : Cert.KernelIdeal.S6250.Idx → EReal) (ix1 (j 0)) := by
  rw [Cert.KernelIdeal.Hand.T23_of m c Cert.KernelIdeal.main_v129 (by decide)]
  unfold Cert.KernelIdeal.Hand.T23
  after_results_simp
  exact Cert.RefScaled.columnOfVector_eq (M := 6250) _ _

set_option maxHeartbeats 400000 in

theorem kRow :
    Cert.KernelIdeal.Hand.T23 m c (Proc.devRef .tc Cert.KernelIdeal.main_v143) = fun j => (m ((c.tc : Thread Cert.KernelIdeal.nD Cert.KernelIdeal.τ).loc Cert.KernelIdeal.main_arg22) : Cert.KernelIdeal.S128.Idx → EReal) (ix1 (j 1)) := by
  unfold Cert.KernelIdeal.Hand.T23
  after_results_simp
  rw [Cert.KernelIdeal.Hand.T22_of m c Cert.KernelIdeal.main_arg22 (by decide),
    Cert.KernelIdeal.Hand.T21_of m c Cert.KernelIdeal.main_arg22 (by decide),
    Cert.KernelIdeal.Hand.T20_of m c Cert.KernelIdeal.main_arg22 (by decide),
    Cert.KernelIdeal.Hand.T19_of m c Cert.KernelIdeal.main_arg22 (by decide),
    Gcn2.kLaunch18 m c Cert.KernelIdeal.main_arg22 (by decide) (by decide) (by decide) (by decide) (by decide) (by decide) (by decide) (by decide) (by decide) (by decide) (by decide) (by decide) (by decide) (by decide) (by decide) (by decide) (by decide) (by decide)]
  exact Cert.RefLinear.rowOfVector_eq (N := 128) _ _

set_option maxHeartbeats 400000 in

theorem kWeight : Cert.KernelIdeal.Hand.T23 m c (Proc.devRef .tc Cert.KernelIdeal.main_arg21) = m ((c.tc : Thread Cert.KernelIdeal.nD Cert.KernelIdeal.τ).loc Cert.KernelIdeal.main_arg21) := by
  rw [Cert.KernelIdeal.Hand.T23_of m c Cert.KernelIdeal.main_arg21 (by decide),
    Cert.KernelIdeal.Hand.T22_of m c Cert.KernelIdeal.main_arg21 (by decide),
    Cert.KernelIdeal.Hand.T21_of m c Cert.KernelIdeal.main_arg21 (by decide),
    Cert.KernelIdeal.Hand.T20_of m c Cert.KernelIdeal.main_arg21 (by decide),
    Cert.KernelIdeal.Hand.T19_of m c Cert.KernelIdeal.main_arg21 (by decide),
    Gcn2.kLaunch18 m c Cert.KernelIdeal.main_arg21 (by decide) (by decide) (by decide) (by decide) (by decide) (by decide) (by decide) (by decide) (by decide) (by decide) (by decide) (by decide) (by decide) (by decide) (by decide) (by decide) (by decide) (by decide)]

set_option maxHeartbeats 400000 in

theorem kOut :
    Cert.KernelIdeal.Hand.T24 m c (Proc.devRef .tc Cert.KernelIdeal.main_v145)
      = Cert.Spec.scaled (M := 6250) (K := 128) (N := 128)
          (Cert.KernelIdeal.Hand.T23 m c (Proc.devRef .tc Cert.KernelIdeal.main_v142)) (Cert.KernelIdeal.Hand.T23 m c (Proc.devRef .tc Cert.KernelIdeal.main_v144)) (Cert.KernelIdeal.Hand.T23 m c (Proc.devRef .tc Cert.KernelIdeal.main_arg21)) (Cert.KernelIdeal.Hand.T23 m c (Proc.devRef .tc Cert.KernelIdeal.main_v143)) := by
  unfold Cert.KernelIdeal.Hand.T24
  rw [Function.update_self]
  unfold Cert.KernelIdeal.Hand.o5
  exact Cert.KernelIdeal.Hand.final5 (Cert.KernelIdeal.Hand.rd (Cert.KernelIdeal.Hand.T23 m)) c

set_option maxHeartbeats 1000000 in

theorem rOutTerm {F : FTy → Type} [FloatOps F] (V' : Valuation Cert.ReferenceIdeal.τ Cert.ReferenceIdeal.sig (Elt F)) :
    StableHlo.after Cert.ReferenceIdeal.Hand.rc7b V' (Proc.devRef .tc Cert.ReferenceIdeal.main_v163)
      = addf (Host.dotGeneral Cert.ReferenceIdeal.dot_S6250x128_S128x128_S6250x128_1_0_0_1_n_n none
          (mulf (StableHlo.after Cert.ReferenceIdeal.Hand.rc7b V' (Proc.devRef .tc Cert.ReferenceIdeal.main_v156))
            (broadcastInDim Cert.ReferenceIdeal.S6250x128 ![0, 1] Cert.ReferenceIdeal.Gen.bcast_S6250x1_S6250x128_0_1
              (broadcastInDim Cert.ReferenceIdeal.S6250x1 ![0] Cert.ReferenceIdeal.Gen.bcast_S6250_S6250x1_0 (StableHlo.after Cert.ReferenceIdeal.Hand.rc7b V' (Proc.devRef .tc Cert.ReferenceIdeal.main_v143)))))
          (V' (Proc.devRef .tc Cert.ReferenceIdeal.main_arg21)))
        (broadcastInDim Cert.ReferenceIdeal.S6250x128 ![0, 1] Cert.ReferenceIdeal.Gen.bcast_S1x128_S6250x128_0_1
          (broadcastInDim Cert.ReferenceIdeal.S1x128 ![1] Cert.ReferenceIdeal.Gen.bcast_S128_S1x128_1 (V' (Proc.devRef .tc Cert.ReferenceIdeal.main_arg22)))) := by
  after_results_simp

set_option maxHeartbeats 400000 in

theorem rOut :
    Cert.ReferenceIdeal.Hand.R8 m' c (Proc.devRef .tc Cert.ReferenceIdeal.main_v163)
      = Cert.Spec.scaled (M := 6250) (K := 128) (N := 128)
          (Cert.ReferenceIdeal.Hand.R8 m' c (Proc.devRef .tc Cert.ReferenceIdeal.main_v156)) (fun j => (Cert.ReferenceIdeal.Hand.R8 m' c (Proc.devRef .tc Cert.ReferenceIdeal.main_v143) : Cert.ReferenceIdeal.S6250.Idx → EReal) (ix1 (j 0)))
          (m' ((c.tc : Thread Cert.ReferenceIdeal.nD Cert.ReferenceIdeal.τ).loc Cert.ReferenceIdeal.main_arg21)) (fun j => (m' ((c.tc : Thread Cert.ReferenceIdeal.nD Cert.ReferenceIdeal.τ).loc Cert.ReferenceIdeal.main_arg22) : Cert.ReferenceIdeal.S128.Idx → EReal) (ix1 (j 1))) := by
  unfold Cert.ReferenceIdeal.Hand.R8
  have e21 : Cert.ReferenceIdeal.Hand.R7h m' c (Proc.devRef .tc Cert.ReferenceIdeal.main_arg21) = Cert.ReferenceIdeal.Hand.R7 m' c (Proc.devRef .tc Cert.ReferenceIdeal.main_arg21) :=
    Cert.LibAfter.keep Cert.ReferenceIdeal.Hand.rc_7a_writes (Cert.ReferenceIdeal.Hand.R7 m' c) (by decide)
  have e22 : Cert.ReferenceIdeal.Hand.R7h m' c (Proc.devRef .tc Cert.ReferenceIdeal.main_arg22) = Cert.ReferenceIdeal.Hand.R7 m' c (Proc.devRef .tc Cert.ReferenceIdeal.main_arg22) :=
    Cert.LibAfter.keep Cert.ReferenceIdeal.Hand.rc_7a_writes (Cert.ReferenceIdeal.Hand.R7 m' c) (by decide)
  rw [rOutTerm (Cert.ReferenceIdeal.Hand.R7h m' c), e21, e22,
    Gcn2.rLaunch7 m' c Cert.ReferenceIdeal.main_arg21 (by decide) (by decide) (by decide) (by decide) (by decide) (by decide) (by decide),
    Gcn2.rLaunch7 m' c Cert.ReferenceIdeal.main_arg22 (by decide) (by decide) (by decide) (by decide) (by decide) (by decide) (by decide)]
  exact Cert.RefScaled.hostScaled_eq Cert.ReferenceIdeal.dot_S6250x128_S128x128_S6250x128_1_0_0_1_n_n rfl rfl rfl rfl rfl rfl _ _ _ _ _ _ _ _

end Gcn2

set_option maxHeartbeats 400000 in

theorem g2f (h_agg : Cert.KernelIdeal.Hand.T23 m c (Proc.devRef .tc Cert.KernelIdeal.main_v142) = Cert.ReferenceIdeal.Hand.R8 m' c (Proc.devRef .tc Cert.ReferenceIdeal.main_v156))
    (h_nd : Cert.KernelIdeal.Hand.T23 m c (Proc.devRef .tc Cert.KernelIdeal.main_v129) = Cert.ReferenceIdeal.Hand.R8 m' c (Proc.devRef .tc Cert.ReferenceIdeal.main_v143))
    (h21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (h22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) :
    Cert.KernelIdeal.Hand.T24 m c (Proc.devRef .tc Cert.KernelIdeal.main_v145) = Cert.ReferenceIdeal.Hand.R8 m' c (Proc.devRef .tc Cert.ReferenceIdeal.main_v163) := by
  rw [Gcn2.kOut m c, Gcn2.rOut m' c, Gcn2.kCol m c, Gcn2.kRow m c, Gcn2.kWeight m c, h_agg, h_nd, h21, h22]
  rfl

end Cert.Bridge

end
-- ==== Proof.KI.Val6.lean ====
import proofs.«162078_j40114994545134_1_alg».proof.Proof.KI.Def6
import proofs.«162078_j40114994545134_1_alg».proof.Proof.Spec
import proofs.«162078_j40114994545134_1_alg».proof.Proof.LibDot
import proofs.«162078_j40114994545134_1_alg».proof.Proof.RefLinear
import proofs.«162078_j40114994545134_1_alg».proof.Proof.Gen.KernelIdeal.Launch
import proofs.«162078_j40114994545134_1_alg».proof.Proof.Gen.KernelIdeal.Skeleton
import proofs.«162078_j40114994545134_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

local notation "𝕄" => MT nD τ sig Unit (Elt Ideal) ℕ (UR sig nD τ) ℕ

local notation "rowsB" => (6250 : ℕ)
local notation "rowsA" => (6250 : ℕ)
local notation "nPts" => (1 : ℕ)
local notation "dK" => (128 : ℕ)
local notation "dN" => (128 : ℕ)

local notation "ShXb" => S6250x128
local notation "ShW" => S128x128
local notation "ShB" => S1x128
local notation "ShOb" => S6250x128
local notation "ShXa" => S6250x128
local notation "ShOa" => S6250x128

local notation "arrX" => main_v145
local notation "arrW" => main_arg27
local notation "arrB" => main_v146
local notation "arrO" => main_v147

local notation "dotB" => dot_S6250x128_S128x128_S6250x128_1_0_0_1_n_n

variable (V : (c : Dev nD) → (b : Ref sig .tc) → Buf (Elt Ideal) ((c : Thread nD τ).loc b))

theorem zeroOff6 : (![0, 0] : Fin 2 → Nat) = fun _ => 0 := funext fun a => by fin_cases a <;> rfl

theorem pay6_eq (x0 : Vec Ideal ShXb .f32) (x1 : Vec Ideal ShW .f32) (x2 : Vec Ideal ShB .f32) :
    k6_pay1 (F := Ideal) x0 x1 x2 = Cert.Spec.lin x0 x1 x2 := by
  unfold k6_pay1
  rw [shapeCast_self x0]
  exact Cert.RefLinear.bodyLin_eq dotB rfl rfl rfl rfl rfl rfl x0 x1 x2 _ _ _

theorem idx_facts6 : ∀ t : Fin cfg6.N, win6_0.index t (0 : Fin 2) = win6_3.index t (0 : Fin 2)
    ∧ win6_0.index t (1 : Fin 2) = 0
    ∧ win6_1.index t (0 : Fin 2) = 0
    ∧ win6_1.index t (1 : Fin 2) = 0
    ∧ win6_2.index t (0 : Fin 2) = 0
    ∧ win6_2.index t (1 : Fin 2) = 0
    ∧ win6_3.index t (0 : Fin 2) = t.val
    ∧ win6_3.index t (1 : Fin 2) = 0 :=
  (by decide +kernel : ∀ t : Fin grid6.N, _)

def row6 (t : Fin cfg6.N) (p : Fin rowsB) : Fin rowsA :=
  ⟨t.val * rowsB + p.val, by have := t.isLt; have hN : cfg6.N = nPts := N_6; have := p.isLt; omega⟩

theorem emb6_o (t : Fin cfg6.N) (p : Fin rowsB) (q : Fin dN) :
    ((cfg6.win 3).blk t).view.emb (ix2 p q) = ix2 (row6 t p) q := by
  obtain ⟨e0, e1, e2, e3, e4, e5, e6, e7⟩ := idx_facts6 t
  funext a; apply Fin.ext
  match a with
  | ⟨0, _⟩ => show win6_3.index t (0 : Fin 2) * rowsB + 1 * p.val = t.val * rowsB + p.val; omega
  | ⟨1, _⟩ => show win6_3.index t (1 : Fin 2) * dN + 1 * q.val = q.val; omega

theorem emb6_x (t : Fin cfg6.N) (p : Fin rowsB) (k : Fin dK) :
    ((cfg6.win 0).blk t).view.emb (ix2 p k) = ix2 (row6 t p) k := by
  obtain ⟨e0, e1, e2, e3, e4, e5, e6, e7⟩ := idx_facts6 t
  funext a; apply Fin.ext
  match a with
  | ⟨0, _⟩ => show win6_0.index t (0 : Fin 2) * rowsB + 1 * p.val = t.val * rowsB + p.val; omega
  | ⟨1, _⟩ => show win6_0.index t (1 : Fin 2) * dK + 1 * k.val = k.val; omega

theorem emb6_w (t : Fin cfg6.N) (k : Fin dK) (q : Fin dN) :
    ((cfg6.win 1).blk t).view.emb (ix2 k q) = ix2 k q := by
  obtain ⟨e0, e1, e2, e3, e4, e5, e6, e7⟩ := idx_facts6 t
  funext a; apply Fin.ext
  match a with
  | ⟨0, _⟩ => show win6_1.index t (0 : Fin 2) * dK + 1 * k.val = k.val; omega
  | ⟨1, _⟩ => show win6_1.index t (1 : Fin 2) * dN + 1 * q.val = q.val; omega

theorem emb6_b (t : Fin cfg6.N) (u : Fin 1) (q : Fin dN) :
    ((cfg6.win 2).blk t).view.emb (ix2 u q) = ix2 u q := by
  obtain ⟨e0, e1, e2, e3, e4, e5, e6, e7⟩ := idx_facts6 t
  funext a; apply Fin.ext
  match a with
  | ⟨0, _⟩ => show win6_2.index t (0 : Fin 2) * 1 + 1 * u.val = u.val; omega
  | ⟨1, _⟩ => show win6_2.index t (1 : Fin 2) * dN + 1 * q.val = q.val; omega

theorem iblk6_x_apply (c : Dev nD) (t : Fin cfg6.N) (p : Fin rowsB) (k : Fin dK) :
    (iblk6 V c 0 t : Vec Ideal ShXb .f32) (ix2 p k) = (V c arrX : Shape.Idx ShXa → EReal) (ix2 (row6 t p) k) := by
  rw [← emb6_x t p k]; rfl
theorem iblk6_w_apply (c : Dev nD) (t : Fin cfg6.N) (k : Fin dK) (q : Fin dN) :
    (iblk6 V c 1 t : Vec Ideal ShW .f32) (ix2 k q) = (V c arrW : Shape.Idx ShW → EReal) (ix2 k q) := by
  conv_rhs => rw [← emb6_w t k q]
  rfl
theorem iblk6_b_apply (c : Dev nD) (t : Fin cfg6.N) (u : Fin 1) (q : Fin dN) :
    (iblk6 V c 2 t : Vec Ideal ShB .f32) (ix2 u q) = (V c arrB : Shape.Idx ShB → EReal) (ix2 u q) := by
  conv_rhs => rw [← emb6_b t u q]
  rfl

theorem lin_blocks6 (c : Dev nD) (t : Fin cfg6.N) (j : Shape.Idx ShOb) :
    Cert.Spec.lin (iblk6 V c 0 t : Vec Ideal ShXb .f32) (iblk6 V c 1 t : Vec Ideal ShW .f32)
        (iblk6 V c 2 t : Vec Ideal ShB .f32) j
      = Cert.Spec.lin (M := rowsA) (K := dK) (N := dN) (V c arrX) (V c arrW) (V c arrB)
          (((cfg6.win 3).blk t).view.emb j) := by
  obtain ⟨p, q, rfl⟩ : ∃ (p : Fin rowsB) (q : Fin dN), j = ix2 p q := ⟨j 0, j 1, eq_ix2 j⟩
  rw [emb6_o t p q, Cert.Spec.lin_apply, Cert.Spec.lin_apply, iblk6_b_apply V c t 0 q]
  congr 1
  refine Finset.sum_congr rfl fun k _ => ?_
  rw [iblk6_x_apply V c t p k, iblk6_w_apply V c t k q]

theorem flushed6_eq (c : Dev nD) (t : Fin cfg6.N) :
    (dat6 V c).flushed 3 t = ((cfg6.win 3).blk t).view.read (Elt Ideal)
      (Cert.Spec.lin (M := rowsA) (K := dK) (N := dN) (V c arrX) (V c arrW) (V c arrB)) := by
  show (cfg6.win 3).cut (grid6.coords t) ((dat6 V c).after 3 t) = _
  rw [after6_3]
  unfold out6_3
  rw [View.canon_unit_zero zeroOff6]
  simp only [View.ld_unit_zero (S := ShXb) zeroOff6, View.ld_unit_zero (S := ShW) zeroOff6,
    View.ld_unit_zero (S := ShB) zeroOff6]
  rw [pay6_eq]
  funext j
  exact lin_blocks6 V c t j

theorem mem_blk6 (t : Fin cfg6.N) (i : Shape.Idx ShOa) :
    i ∈ ((cfg6.win 3).blk t).view.set ↔ ∀ a : Fin 2, win6_3.index t a * Shape.size ShOb a ≤ (i a).val
      ∧ (i a).val < win6_3.index t a * Shape.size ShOb a + Shape.size ShOb a := by
  show i ∈ ((View.whole arrO).slice (win6_3.rect t)).set ↔ _
  rw [View.set_slice_whole, Rect.mem_set_unit]
  exact Iff.rfl

theorem cover6 (i : Shape.Idx ShOa) :
    ∃ t : Fin cfg6.N, (cfg6.win 3).flush t = true ∧ i ∈ ((cfg6.win 3).blk t).view.set := by
  have hi0 : (i 0).val < rowsA := (i 0).isLt
  have hi1 : (i 1).val < dN := (i 1).isLt
  have hN : cfg6.N = nPts := N_6
  obtain ⟨t, ht⟩ : ∃ t : Fin cfg6.N, t.val = (i 0).val / rowsB := ⟨⟨(i 0).val / rowsB, by omega⟩, rfl⟩
  obtain ⟨e0, e1, e2, e3, e4, e5, e6, e7⟩ := idx_facts6 t
  refine ⟨t, flush6_3 t, ?_⟩
  rw [mem_blk6]
  intro a
  match a with
  | ⟨0, _⟩ =>
    show win6_3.index t (0 : Fin 2) * rowsB ≤ (i 0).val ∧ (i 0).val < win6_3.index t (0 : Fin 2) * rowsB + rowsB
    omega
  | ⟨1, _⟩ =>
    show win6_3.index t (1 : Fin 2) * dN ≤ (i 1).val ∧ (i 1).val < win6_3.index t (1 : Fin 2) * dN + dN
    omega

theorem final6 (c : Dev nD) :
    (dat6 (F := Ideal) V c).arrAt 3 cfg6.N
      = Cert.Spec.lin (M := rowsA) (K := dK) (N := dN) (V c arrX) (V c arrW) (V c arrB) :=
  (dat6 V c).arrAt_eq_of_cover 3 _ (fun t _ => flushed6_eq V c t) (fun i => cover6 i)

end Cert.KernelIdeal.Hand

end
-- ==== Proof.KI.Val7.lean ====
import proofs.«162078_j40114994545134_1_alg».proof.Proof.KI.Def7
import proofs.«162078_j40114994545134_1_alg».proof.Proof.Spec
import proofs.«162078_j40114994545134_1_alg».proof.Proof.LibDot
import proofs.«162078_j40114994545134_1_alg».proof.Proof.RefLinear
import proofs.«162078_j40114994545134_1_alg».proof.Proof.Gen.KernelIdeal.Launch
import proofs.«162078_j40114994545134_1_alg».proof.Proof.Gen.KernelIdeal.Skeleton
import proofs.«162078_j40114994545134_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

local notation "𝕄" => MT nD τ sig Unit (Elt Ideal) ℕ (UR sig nD τ) ℕ

local notation "rowsB" => (5000 : ℕ)
local notation "rowsA" => (25000 : ℕ)
local notation "nPts" => (5 : ℕ)
local notation "dK" => (128 : ℕ)
local notation "dN" => (128 : ℕ)

local notation "ShXb" => S5000x128
local notation "ShW" => S128x128
local notation "ShB" => S1x128
local notation "ShOb" => S5000x128
local notation "ShXa" => S25000x128
local notation "ShOa" => S25000x128

local notation "arrX" => main_v166
local notation "arrW" => main_arg29
local notation "arrB" => main_v167
local notation "arrO" => main_v168

local notation "dotB" => dot_S5000x128_S128x128_S5000x128_1_0_0_1_n_n

variable (V : (c : Dev nD) → (b : Ref sig .tc) → Buf (Elt Ideal) ((c : Thread nD τ).loc b))

theorem zeroOff7 : (![0, 0] : Fin 2 → Nat) = fun _ => 0 := funext fun a => by fin_cases a <;> rfl

theorem pay7_eq (x0 : Vec Ideal ShXb .f32) (x1 : Vec Ideal ShW .f32) (x2 : Vec Ideal ShB .f32) :
    k7_pay1 (F := Ideal) x0 x1 x2 = Cert.Spec.lin x0 x1 x2 := by
  unfold k7_pay1
  rw [shapeCast_self x0]
  exact Cert.RefLinear.bodyLin_eq dotB rfl rfl rfl rfl rfl rfl x0 x1 x2 _ _ _

theorem idx_facts7 : ∀ t : Fin cfg7.N, win7_0.index t (0 : Fin 2) = win7_3.index t (0 : Fin 2)
    ∧ win7_0.index t (1 : Fin 2) = 0
    ∧ win7_1.index t (0 : Fin 2) = 0
    ∧ win7_1.index t (1 : Fin 2) = 0
    ∧ win7_2.index t (0 : Fin 2) = 0
    ∧ win7_2.index t (1 : Fin 2) = 0
    ∧ win7_3.index t (0 : Fin 2) = t.val
    ∧ win7_3.index t (1 : Fin 2) = 0 :=
  (by decide +kernel : ∀ t : Fin grid7.N, _)

def row7 (t : Fin cfg7.N) (p : Fin rowsB) : Fin rowsA :=
  ⟨t.val * rowsB + p.val, by have := t.isLt; have hN : cfg7.N = nPts := N_7; have := p.isLt; omega⟩

theorem emb7_o (t : Fin cfg7.N) (p : Fin rowsB) (q : Fin dN) :
    ((cfg7.win 3).blk t).view.emb (ix2 p q) = ix2 (row7 t p) q := by
  obtain ⟨e0, e1, e2, e3, e4, e5, e6, e7⟩ := idx_facts7 t
  funext a; apply Fin.ext
  match a with
  | ⟨0, _⟩ => show win7_3.index t (0 : Fin 2) * rowsB + 1 * p.val = t.val * rowsB + p.val; omega
  | ⟨1, _⟩ => show win7_3.index t (1 : Fin 2) * dN + 1 * q.val = q.val; omega

theorem emb7_x (t : Fin cfg7.N) (p : Fin rowsB) (k : Fin dK) :
    ((cfg7.win 0).blk t).view.emb (ix2 p k) = ix2 (row7 t p) k := by
  obtain ⟨e0, e1, e2, e3, e4, e5, e6, e7⟩ := idx_facts7 t
  funext a; apply Fin.ext
  match a with
  | ⟨0, _⟩ => show win7_0.index t (0 : Fin 2) * rowsB + 1 * p.val = t.val * rowsB + p.val; omega
  | ⟨1, _⟩ => show win7_0.index t (1 : Fin 2) * dK + 1 * k.val = k.val; omega

theorem emb7_w (t : Fin cfg7.N) (k : Fin dK) (q : Fin dN) :
    ((cfg7.win 1).blk t).view.emb (ix2 k q) = ix2 k q := by
  obtain ⟨e0, e1, e2, e3, e4, e5, e6, e7⟩ := idx_facts7 t
  funext a; apply Fin.ext
  match a with
  | ⟨0, _⟩ => show win7_1.index t (0 : Fin 2) * dK + 1 * k.val = k.val; omega
  | ⟨1, _⟩ => show win7_1.index t (1 : Fin 2) * dN + 1 * q.val = q.val; omega

theorem emb7_b (t : Fin cfg7.N) (u : Fin 1) (q : Fin dN) :
    ((cfg7.win 2).blk t).view.emb (ix2 u q) = ix2 u q := by
  obtain ⟨e0, e1, e2, e3, e4, e5, e6, e7⟩ := idx_facts7 t
  funext a; apply Fin.ext
  match a with
  | ⟨0, _⟩ => show win7_2.index t (0 : Fin 2) * 1 + 1 * u.val = u.val; omega
  | ⟨1, _⟩ => show win7_2.index t (1 : Fin 2) * dN + 1 * q.val = q.val; omega

theorem iblk7_x_apply (c : Dev nD) (t : Fin cfg7.N) (p : Fin rowsB) (k : Fin dK) :
    (iblk7 V c 0 t : Vec Ideal ShXb .f32) (ix2 p k) = (V c arrX : Shape.Idx ShXa → EReal) (ix2 (row7 t p) k) := by
  rw [← emb7_x t p k]; rfl
theorem iblk7_w_apply (c : Dev nD) (t : Fin cfg7.N) (k : Fin dK) (q : Fin dN) :
    (iblk7 V c 1 t : Vec Ideal ShW .f32) (ix2 k q) = (V c arrW : Shape.Idx ShW → EReal) (ix2 k q) := by
  conv_rhs => rw [← emb7_w t k q]
  rfl
theorem iblk7_b_apply (c : Dev nD) (t : Fin cfg7.N) (u : Fin 1) (q : Fin dN) :
    (iblk7 V c 2 t : Vec Ideal ShB .f32) (ix2 u q) = (V c arrB : Shape.Idx ShB → EReal) (ix2 u q) := by
  conv_rhs => rw [← emb7_b t u q]
  rfl

theorem lin_blocks7 (c : Dev nD) (t : Fin cfg7.N) (j : Shape.Idx ShOb) :
    Cert.Spec.lin (iblk7 V c 0 t : Vec Ideal ShXb .f32) (iblk7 V c 1 t : Vec Ideal ShW .f32)
        (iblk7 V c 2 t : Vec Ideal ShB .f32) j
      = Cert.Spec.lin (M := rowsA) (K := dK) (N := dN) (V c arrX) (V c arrW) (V c arrB)
          (((cfg7.win 3).blk t).view.emb j) := by
  obtain ⟨p, q, rfl⟩ : ∃ (p : Fin rowsB) (q : Fin dN), j = ix2 p q := ⟨j 0, j 1, eq_ix2 j⟩
  rw [emb7_o t p q, Cert.Spec.lin_apply, Cert.Spec.lin_apply, iblk7_b_apply V c t 0 q]
  congr 1
  refine Finset.sum_congr rfl fun k _ => ?_
  rw [iblk7_x_apply V c t p k, iblk7_w_apply V c t k q]

theorem flushed7_eq (c : Dev nD) (t : Fin cfg7.N) :
    (dat7 V c).flushed 3 t = ((cfg7.win 3).blk t).view.read (Elt Ideal)
      (Cert.Spec.lin (M := rowsA) (K := dK) (N := dN) (V c arrX) (V c arrW) (V c arrB)) := by
  show (cfg7.win 3).cut (grid7.coords t) ((dat7 V c).after 3 t) = _
  rw [after7_3]
  unfold out7_3
  rw [View.canon_unit_zero zeroOff7]
  simp only [View.ld_unit_zero (S := ShXb) zeroOff7, View.ld_unit_zero (S := ShW) zeroOff7,
    View.ld_unit_zero (S := ShB) zeroOff7]
  rw [pay7_eq]
  funext j
  exact lin_blocks7 V c t j

theorem mem_blk7 (t : Fin cfg7.N) (i : Shape.Idx ShOa) :
    i ∈ ((cfg7.win 3).blk t).view.set ↔ ∀ a : Fin 2, win7_3.index t a * Shape.size ShOb a ≤ (i a).val
      ∧ (i a).val < win7_3.index t a * Shape.size ShOb a + Shape.size ShOb a := by
  show i ∈ ((View.whole arrO).slice (win7_3.rect t)).set ↔ _
  rw [View.set_slice_whole, Rect.mem_set_unit]
  exact Iff.rfl

theorem cover7 (i : Shape.Idx ShOa) :
    ∃ t : Fin cfg7.N, (cfg7.win 3).flush t = true ∧ i ∈ ((cfg7.win 3).blk t).view.set := by
  have hi0 : (i 0).val < rowsA := (i 0).isLt
  have hi1 : (i 1).val < dN := (i 1).isLt
  have hN : cfg7.N = nPts := N_7
  obtain ⟨t, ht⟩ : ∃ t : Fin cfg7.N, t.val = (i 0).val / rowsB := ⟨⟨(i 0).val / rowsB, by omega⟩, rfl⟩
  obtain ⟨e0, e1, e2, e3, e4, e5, e6, e7⟩ := idx_facts7 t
  refine ⟨t, flush7_3 t, ?_⟩
  rw [mem_blk7]
  intro a
  match a with
  | ⟨0, _⟩ =>
    show win7_3.index t (0 : Fin 2) * rowsB ≤ (i 0).val ∧ (i 0).val < win7_3.index t (0 : Fin 2) * rowsB + rowsB
    omega
  | ⟨1, _⟩ =>
    show win7_3.index t (1 : Fin 2) * dN ≤ (i 1).val ∧ (i 1).val < win7_3.index t (1 : Fin 2) * dN + dN
    omega

theorem final7 (c : Dev nD) :
    (dat7 (F := Ideal) V c).arrAt 3 cfg7.N
      = Cert.Spec.lin (M := rowsA) (K := dK) (N := dN) (V c arrX) (V c arrW) (V c arrB) :=
  (dat7 V c).arrAt_eq_of_cover 3 _ (fun t _ => flushed7_eq V c t) (fun i => cover7 i)

end Cert.KernelIdeal.Hand

end
-- ==== Proof.Bridge.Decoder.lean ====
import proofs.«162078_j40114994545134_1_alg».proof.Proof.KI.Data
import proofs.«162078_j40114994545134_1_alg».proof.Proof.KI.Keep
import proofs.«162078_j40114994545134_1_alg».proof.Proof.KI.Val6
import proofs.«162078_j40114994545134_1_alg».proof.Proof.KI.Val7
import proofs.«162078_j40114994545134_1_alg».proof.Proof.Ref.Chunks
import proofs.«162078_j40114994545134_1_alg».proof.Proof.Spec
import proofs.«162078_j40114994545134_1_alg».proof.Proof.RefLinear
import Idealize.ShloMosaic.Lib.StableHlo.Run
import Idealize.ShloMosaic.Lib.ValueIdx

set_option maxRecDepth 16384

noncomputable section

namespace Cert.Bridge

open Idealize.ShloMosaic Idealize.ShloMosaic.TcCoe Idealize.ShloMosaic.StableHlo Idealize.ShloMosaic.ValueIdx
open Cert.KernelIdeal.Hand (T24 T25 T26 T27 T28 T29 o6 o7 rd)
open Cert.ReferenceIdeal.Hand (R8 R9 R9h R10 R11 R12)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

macro "dec_carry_kernel" : tactic => `(tactic| repeat (first
  | (rw [Cert.KernelIdeal.Hand.T29_of]; rotate_left; decide) | (rw [Cert.KernelIdeal.Hand.T28_of]; rotate_left; decide)
  | (rw [Cert.KernelIdeal.Hand.T27_of]; rotate_left; decide) | (rw [Cert.KernelIdeal.Hand.T26_of]; rotate_left; decide)
  | (rw [Cert.KernelIdeal.Hand.T25_of]; rotate_left; decide) | (rw [Cert.KernelIdeal.Hand.T24_of]; rotate_left; decide)
  | (rw [Cert.KernelIdeal.Hand.T23_of]; rotate_left; decide) | (rw [Cert.KernelIdeal.Hand.T22_of]; rotate_left; decide)
  | (rw [Cert.KernelIdeal.Hand.T21_of]; rotate_left; decide) | (rw [Cert.KernelIdeal.Hand.T20_of]; rotate_left; decide)
  | (rw [Cert.KernelIdeal.Hand.T19_of]; rotate_left; decide) | (rw [Cert.KernelIdeal.Hand.T18_of]; rotate_left; decide)
  | (rw [Cert.KernelIdeal.Hand.T17_of]; rotate_left; decide) | (rw [Cert.KernelIdeal.Hand.T16_of]; rotate_left; decide)
  | (rw [Cert.KernelIdeal.Hand.T15_of]; rotate_left; decide) | (rw [Cert.KernelIdeal.Hand.T14_of]; rotate_left; decide)
  | (rw [Cert.KernelIdeal.Hand.T13_of]; rotate_left; decide) | (rw [Cert.KernelIdeal.Hand.T12_of]; rotate_left; decide)
  | (rw [Cert.KernelIdeal.Hand.T11_of]; rotate_left; decide) | (rw [Cert.KernelIdeal.Hand.T10_of]; rotate_left; decide)
  | (rw [Cert.KernelIdeal.Hand.T9_of]; rotate_left; decide) | (rw [Cert.KernelIdeal.Hand.T8_of]; rotate_left; decide)
  | (rw [Cert.KernelIdeal.Hand.T7_of]; rotate_left; decide) | (rw [Cert.KernelIdeal.Hand.T6_of]; rotate_left; decide)
  | (rw [Cert.KernelIdeal.Hand.T5_of]; rotate_left; decide) | (rw [Cert.KernelIdeal.Hand.T4_of]; rotate_left; decide)
  | (rw [Cert.KernelIdeal.Hand.T3_of]; rotate_left; decide) | (rw [Cert.KernelIdeal.Hand.T2_of]; rotate_left; decide)
  | (rw [Cert.KernelIdeal.Hand.T1_of]; rotate_left; decide)))

macro "dec_carry_ref" : tactic => `(tactic| repeat (first
  | (rw [Cert.ReferenceIdeal.Hand.R_keep_11]; rotate_left; decide) | (rw [Cert.ReferenceIdeal.Hand.R_keep_10]; rotate_left; decide)
  | (rw [Cert.ReferenceIdeal.Hand.R_keep_9]; rotate_left; decide) | (rw [Cert.ReferenceIdeal.Hand.R_keep_8]; rotate_left; decide)
  | (rw [Cert.ReferenceIdeal.Hand.R_keep_7]; rotate_left; decide) | (rw [Cert.ReferenceIdeal.Hand.R_keep_6]; rotate_left; decide)
  | (rw [Cert.ReferenceIdeal.Hand.R_keep_5]; rotate_left; decide) | (rw [Cert.ReferenceIdeal.Hand.R_keep_4]; rotate_left; decide)
  | (rw [Cert.ReferenceIdeal.Hand.R_keep_3]; rotate_left; decide) | (rw [Cert.ReferenceIdeal.Hand.R_keep_2]; rotate_left; decide)
  | (rw [Cert.ReferenceIdeal.Hand.R_keep_1]; rotate_left; decide) | (rw [Cert.ReferenceIdeal.Hand.R_keep_0]; rotate_left; decide)))

set_option maxHeartbeats 400000 in

theorem dec0_bias :
    T25 m c (Proc.devRef .tc Cert.KernelIdeal.main_v146) = fun j => (m ((c.tc : Thread Cert.KernelIdeal.nD Cert.KernelIdeal.τ).loc Cert.KernelIdeal.main_arg28) : (⟨1, ![128]⟩ : Shape).Idx → EReal) (ix1 (j 1)) := by
  unfold Cert.KernelIdeal.Hand.T25
  show StableHlo.after Cert.KernelIdeal.Gen.hostOps6 (T24 m c) (Proc.devRef .tc Cert.KernelIdeal.main_v146) = _
  after_results
  show shapeCast (⟨2, ![1, 128]⟩ : Shape) (T24 m c (Proc.devRef .tc Cert.KernelIdeal.main_arg28) : (⟨1, ![128]⟩ : Shape).Idx → EReal) _ = _
  rw [Cert.RefLinear.rowOfVector_eq]
  dec_carry_kernel
  try rfl

set_option maxHeartbeats 400000 in

theorem dec0_kernel :
    T26 m c (Proc.devRef .tc Cert.KernelIdeal.main_v147) = Cert.Spec.lin (M := 6250) (K := 128) (N := 128)
      (T24 m c (Proc.devRef .tc Cert.KernelIdeal.main_v145)) (m ((c.tc : Thread Cert.KernelIdeal.nD Cert.KernelIdeal.τ).loc Cert.KernelIdeal.main_arg27))
      (fun j => (m ((c.tc : Thread Cert.KernelIdeal.nD Cert.KernelIdeal.τ).loc Cert.KernelIdeal.main_arg28) : (⟨1, ![128]⟩ : Shape).Idx → EReal) (ix1 (j 1))) := by
  unfold Cert.KernelIdeal.Hand.T26
  show Function.update (T25 m c) (Proc.devRef .tc Cert.KernelIdeal.main_v147) (o6 m c) (Proc.devRef .tc Cert.KernelIdeal.main_v147) = _
  rw [Function.update_self]
  unfold Cert.KernelIdeal.Hand.o6
  rw [Cert.KernelIdeal.Hand.final6 (rd (T25 m)) c]
  show Cert.Spec.lin (M := 6250) (K := 128) (N := 128) (T25 m c (Proc.devRef .tc Cert.KernelIdeal.main_v145)) (T25 m c (Proc.devRef .tc Cert.KernelIdeal.main_arg27))
    (T25 m c (Proc.devRef .tc Cert.KernelIdeal.main_v146)) = _
  rw [dec0_bias m c, Cert.KernelIdeal.Hand.T25_of m c Cert.KernelIdeal.main_v145 (by decide)]
  dec_carry_kernel
  try rfl

set_option maxHeartbeats 400000 in

theorem dec0_ref :
    R9 m' c (Proc.devRef .tc Cert.ReferenceIdeal.main_v167) = Cert.Spec.lin (M := 6250) (K := 128) (N := 128)
      (R8 m' c (Proc.devRef .tc Cert.ReferenceIdeal.main_v163)) (m' ((c.tc : Thread Cert.ReferenceIdeal.nD Cert.ReferenceIdeal.τ).loc Cert.ReferenceIdeal.main_arg27))
      (fun j => (m' ((c.tc : Thread Cert.ReferenceIdeal.nD Cert.ReferenceIdeal.τ).loc Cert.ReferenceIdeal.main_arg28) : (⟨1, ![128]⟩ : Shape).Idx → EReal) (ix1 (j 1))) := by
  unfold Cert.ReferenceIdeal.Hand.R9
  show StableHlo.after Cert.ReferenceIdeal.Hand.rc8 (R8 m' c) (Proc.devRef .tc Cert.ReferenceIdeal.main_v167) = _
  after_results
  refine (Cert.RefLinear.hostLin_eq _ rfl rfl rfl rfl rfl rfl _ _ _ _ _).trans ?_
  dec_carry_ref
  try rfl

theorem dec0in
    (h_g2f : Cert.KernelIdeal.Hand.T24 m c (Proc.devRef .tc Cert.KernelIdeal.main_v145) = Cert.ReferenceIdeal.Hand.R8 m' c (Proc.devRef .tc Cert.ReferenceIdeal.main_v163))
    (h27 : m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27))
    (h28 : m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) :
    Cert.KernelIdeal.Hand.T26 m c (Proc.devRef .tc Cert.KernelIdeal.main_v147) = Cert.ReferenceIdeal.Hand.R9 m' c (Proc.devRef .tc Cert.ReferenceIdeal.main_v167) := by
  rw [dec0_kernel m c, dec0_ref m' c, h_g2f, h27, h28]

set_option maxHeartbeats 400000 in

theorem decMeanMid_chain {F : FTy → Type} [FloatOps F]
    (V : Valuation Cert.KernelIdeal.τ Cert.KernelIdeal.sig (Elt F)) (V' : Valuation Cert.ReferenceIdeal.τ Cert.ReferenceIdeal.sig (Elt F))
    (hx : V (Proc.devRef .tc Cert.KernelIdeal.main_v147) = V' (Proc.devRef .tc Cert.ReferenceIdeal.main_v167))
    (hs : V (Proc.devRef .tc Cert.KernelIdeal.main_arg11) = V' (Proc.devRef .tc Cert.ReferenceIdeal.main_arg11))
    (hd : V (Proc.devRef .tc Cert.KernelIdeal.main_arg12) = V' (Proc.devRef .tc Cert.ReferenceIdeal.main_arg12)) :
    StableHlo.after Cert.KernelIdeal.Gen.hostOps7 V (Proc.devRef .tc Cert.KernelIdeal.main_v166)
      = StableHlo.after Cert.ReferenceIdeal.Hand.rc9b (StableHlo.after Cert.ReferenceIdeal.Hand.rc9a V') (Proc.devRef .tc Cert.ReferenceIdeal.main_v186) := by
  after_results_simp
  rw [hx, hs, hd]
  rfl

set_option maxHeartbeats 400000 in

theorem d1
    (h_dec0in : Cert.KernelIdeal.Hand.T26 m c (Proc.devRef .tc Cert.KernelIdeal.main_v147) = Cert.ReferenceIdeal.Hand.R9 m' c (Proc.devRef .tc Cert.ReferenceIdeal.main_v167))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Cert.KernelIdeal.Hand.T27 m c (Proc.devRef .tc Cert.KernelIdeal.main_v166) = Cert.ReferenceIdeal.Hand.R10 m' c (Proc.devRef .tc Cert.ReferenceIdeal.main_v186) := by
  have a11 : T26 m c (Proc.devRef .tc Cert.KernelIdeal.main_arg11) = R9 m' c (Proc.devRef .tc Cert.ReferenceIdeal.main_arg11) := by
    dec_carry_kernel; dec_carry_ref; exact h11.symm
  have a12 : T26 m c (Proc.devRef .tc Cert.KernelIdeal.main_arg12) = R9 m' c (Proc.devRef .tc Cert.ReferenceIdeal.main_arg12) := by
    dec_carry_kernel; dec_carry_ref; exact h12.symm
  unfold Cert.KernelIdeal.Hand.T27 Cert.ReferenceIdeal.Hand.R10 Cert.ReferenceIdeal.Hand.R9h
  exact decMeanMid_chain (T26 m c) (R9 m' c) h_dec0in a11 a12

set_option maxHeartbeats 400000 in

theorem dec1_bias :
    T27 m c (Proc.devRef .tc Cert.KernelIdeal.main_v167) = fun j => (m ((c.tc : Thread Cert.KernelIdeal.nD Cert.KernelIdeal.τ).loc Cert.KernelIdeal.main_arg30) : (⟨1, ![128]⟩ : Shape).Idx → EReal) (ix1 (j 1)) := by
  unfold Cert.KernelIdeal.Hand.T27
  show StableHlo.after Cert.KernelIdeal.Gen.hostOps7 (T26 m c) (Proc.devRef .tc Cert.KernelIdeal.main_v167) = _
  after_results_simp
  show shapeCast (⟨2, ![1, 128]⟩ : Shape) (T26 m c (Proc.devRef .tc Cert.KernelIdeal.main_arg30) : (⟨1, ![128]⟩ : Shape).Idx → EReal) _ = _
  rw [Cert.RefLinear.rowOfVector_eq]
  dec_carry_kernel
  try rfl

set_option maxHeartbeats 400000 in

theorem dec1_kernel :
    T28 m c (Proc.devRef .tc Cert.KernelIdeal.main_v168) = Cert.Spec.lin (M := 25000) (K := 128) (N := 128)
      (T27 m c (Proc.devRef .tc Cert.KernelIdeal.main_v166)) (m ((c.tc : Thread Cert.KernelIdeal.nD Cert.KernelIdeal.τ).loc Cert.KernelIdeal.main_arg29))
      (fun j => (m ((c.tc : Thread Cert.KernelIdeal.nD Cert.KernelIdeal.τ).loc Cert.KernelIdeal.main_arg30) : (⟨1, ![128]⟩ : Shape).Idx → EReal) (ix1 (j 1))) := by
  unfold Cert.KernelIdeal.Hand.T28
  show Function.update (T27 m c) (Proc.devRef .tc Cert.KernelIdeal.main_v168) (o7 m c) (Proc.devRef .tc Cert.KernelIdeal.main_v168) = _
  rw [Function.update_self]
  unfold Cert.KernelIdeal.Hand.o7
  rw [Cert.KernelIdeal.Hand.final7 (rd (T27 m)) c]
  show Cert.Spec.lin (M := 25000) (K := 128) (N := 128) (T27 m c (Proc.devRef .tc Cert.KernelIdeal.main_v166)) (T27 m c (Proc.devRef .tc Cert.KernelIdeal.main_arg29))
    (T27 m c (Proc.devRef .tc Cert.KernelIdeal.main_v167)) = _
  rw [dec1_bias m c]
  dec_carry_kernel
  try rfl

set_option maxHeartbeats 400000 in

theorem dec1_ref :
    R11 m' c (Proc.devRef .tc Cert.ReferenceIdeal.main_v190) = Cert.Spec.lin (M := 25000) (K := 128) (N := 128)
      (R10 m' c (Proc.devRef .tc Cert.ReferenceIdeal.main_v186)) (m' ((c.tc : Thread Cert.ReferenceIdeal.nD Cert.ReferenceIdeal.τ).loc Cert.ReferenceIdeal.main_arg29))
      (fun j => (m' ((c.tc : Thread Cert.ReferenceIdeal.nD Cert.ReferenceIdeal.τ).loc Cert.ReferenceIdeal.main_arg30) : (⟨1, ![128]⟩ : Shape).Idx → EReal) (ix1 (j 1))) := by
  unfold Cert.ReferenceIdeal.Hand.R11
  show StableHlo.after Cert.ReferenceIdeal.Hand.rc10 (R10 m' c) (Proc.devRef .tc Cert.ReferenceIdeal.main_v190) = _
  after_results
  refine (Cert.RefLinear.hostLin_eq _ rfl rfl rfl rfl rfl rfl _ _ _ _ _).trans ?_
  dec_carry_ref
  try rfl

theorem dec1in
    (h_d1 : Cert.KernelIdeal.Hand.T27 m c (Proc.devRef .tc Cert.KernelIdeal.main_v166) = Cert.ReferenceIdeal.Hand.R10 m' c (Proc.devRef .tc Cert.ReferenceIdeal.main_v186))
    (h29 : m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29))
    (h30 : m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) :
    Cert.KernelIdeal.Hand.T28 m c (Proc.devRef .tc Cert.KernelIdeal.main_v168) = Cert.ReferenceIdeal.Hand.R11 m' c (Proc.devRef .tc Cert.ReferenceIdeal.main_v190) := by
  rw [dec1_kernel m c, dec1_ref m' c, h_d1, h29, h30]

set_option maxHeartbeats 400000 in

theorem decMeanFine_chain {F : FTy → Type} [FloatOps F]
    (V : Valuation Cert.KernelIdeal.τ Cert.KernelIdeal.sig (Elt F)) (V' : Valuation Cert.ReferenceIdeal.τ Cert.ReferenceIdeal.sig (Elt F))
    (hx : V (Proc.devRef .tc Cert.KernelIdeal.main_v168) = V' (Proc.devRef .tc Cert.ReferenceIdeal.main_v190))
    (hs : V (Proc.devRef .tc Cert.KernelIdeal.main_arg13) = V' (Proc.devRef .tc Cert.ReferenceIdeal.main_arg13))
    (hd : V (Proc.devRef .tc Cert.KernelIdeal.main_arg14) = V' (Proc.devRef .tc Cert.ReferenceIdeal.main_arg14)) :
    StableHlo.after Cert.KernelIdeal.Gen.hostOps8 V (Proc.devRef .tc Cert.KernelIdeal.main_v187)
      = StableHlo.after Cert.ReferenceIdeal.Hand.rc11 V' (Proc.devRef .tc Cert.ReferenceIdeal.main_v209) := by
  after_results_simp
  rw [hx, hs, hd]
  rfl

set_option maxHeartbeats 400000 in

theorem d0
    (h_dec1in : Cert.KernelIdeal.Hand.T28 m c (Proc.devRef .tc Cert.KernelIdeal.main_v168) = Cert.ReferenceIdeal.Hand.R11 m' c (Proc.devRef .tc Cert.ReferenceIdeal.main_v190))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Cert.KernelIdeal.Hand.T29 m c (Proc.devRef .tc Cert.KernelIdeal.main_v187) = Cert.ReferenceIdeal.Hand.R12 m' c (Proc.devRef .tc Cert.ReferenceIdeal.main_v209) := by
  have a13 : T28 m c (Proc.devRef .tc Cert.KernelIdeal.main_arg13) = R11 m' c (Proc.devRef .tc Cert.ReferenceIdeal.main_arg13) := by
    dec_carry_kernel; dec_carry_ref; exact h13.symm
  have a14 : T28 m c (Proc.devRef .tc Cert.KernelIdeal.main_arg14) = R11 m' c (Proc.devRef .tc Cert.ReferenceIdeal.main_arg14) := by
    dec_carry_kernel; dec_carry_ref; exact h14.symm
  unfold Cert.KernelIdeal.Hand.T29 Cert.ReferenceIdeal.Hand.R12
  exact decMeanFine_chain (T28 m c) (R11 m' c) h_dec1in a13 a14

end Cert.Bridge

end
-- ==== Proof.SpecSoftmax.lean ====
import proofs.«162078_j40114994545134_1_alg».proof.Proof.Spec

noncomputable section

namespace Cert.Spec

open Idealize.ShloMosaic Idealize.ShloMosaic.ValueIdx

variable {M N : Nat}

def rowMax (z : Mat M N) (i : Fin M) : EReal :=
  (Finset.univ : Finset (Fin N)).fold max (⊥ : EReal) (fun k => z (ix2 i k))

def rowExp (z : Mat M N) (i : Fin M) (j : Fin N) : EReal :=
  Ideal.exp (z (ix2 i j) - rowMax z i)

def softmaxRows (z : Mat M N) : Mat M N :=
  fun j => Ideal.div (rowExp z (j 0) (j 1)) (∑ k : Fin N, rowExp z (j 0) k)

theorem softmaxRows_apply (z : Mat M N) (i : Fin M) (j : Fin N) :
    softmaxRows z (ix2 i j) = Ideal.div (rowExp z i j) (∑ k : Fin N, rowExp z i k) := rfl

theorem softmaxRows_congr_row {M M' N : Nat} (z : Mat M N) (z' : Mat M' N) (i : Fin M) (i' : Fin M')
    (h : ∀ k, z (ix2 i k) = z' (ix2 i' k)) (j : Fin N) :
    softmaxRows z (ix2 i j) = softmaxRows z' (ix2 i' j) := by
  have hm : rowMax z i = rowMax z' i' := by
    unfold rowMax
    exact congrArg (fun f => Finset.fold max (⊥ : EReal) f (Finset.univ : Finset (Fin N))) (funext h)
  have he : ∀ k, rowExp z i k = rowExp z' i' k := fun k => by unfold rowExp; rw [h k, hm]
  rw [softmaxRows_apply, softmaxRows_apply, he j]
  exact congrArg (Ideal.div (rowExp z' i' j)) (Finset.sum_congr rfl fun k _ => he k)

theorem logits_congr_row {M M' K N : Nat} (g d : Mat M K) (g' d' : Mat M' K) (wg wd : Mat K N) (b : Mat 1 N)
    (i : Fin M) (i' : Fin M') (hg : ∀ k, g (ix2 i k) = g' (ix2 i' k)) (hd : ∀ k, d (ix2 i k) = d' (ix2 i' k)) (j : Fin N) :
    logits g d wg wd b (ix2 i j) = logits g' d' wg wd b (ix2 i' j) := by
  rw [logits_apply, logits_apply]
  simp only [hg, hd]

end Cert.Spec

end
-- ==== Proof.LibRowMax.lean ====
import Idealize.ShloMosaic.PureOps.Reduce
import Idealize.ShloMosaic.PureOps.Ideal.Laws
import Idealize.ShloMosaic.Lib.ValueIdx

noncomputable section

namespace Cert.LibRowMax

open Idealize.ShloMosaic Idealize.ShloMosaic.ValueIdx

theorem ofBits_neg_inf_f32 : Ideal.ofBits .f32 0xFF800000#32 = (⊥ : EReal) := by
  simp [Ideal.ofBits, Ideal.ieee]

theorem lift_row {m n : Nat} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

theorem hostReduce_max_row {m n : Nat} (x : FVec Ideal ⟨2, ![m, n]⟩ .f32)
    (h' : (⟨2, ![m, n]⟩ : Shape).ReducesTo [1] (⟨1, ![m]⟩ : Shape))
    (h : (⟨2, ![m, n]⟩ : Shape).Reduces [1] (⟨1, ![m]⟩ : Shape)) (hu : 0 < (⟨0, ![]⟩ : Shape).numel) (r : Fin m) :
    Host.reduce FloatOps.maximumf x (constant (⟨0, ![]⟩ : Shape) .f32 0xFF800000#32) h' hu (ix1 r)
      = (Finset.univ : Finset (Fin n)).fold max (⊥ : EReal) (fun J => x (ix2 r J)) := by
  rw [Host.reduce_eq_fold_single FloatOps.maximumf x _ h' h hu]
  have hf : (x ∘ h.lift (ix1 r)) = fun k : Fin n => x (ix2 r k) := funext fun k => congrArg x (lift_row h r k)
  have hi : (constant (⟨0, ![]⟩ : Shape) .f32 0xFF800000#32 : FVec Ideal ⟨0, ![]⟩ .f32) (Shape.Idx.first hu) = (⊥ : EReal) :=
    ofBits_neg_inf_f32
  rw [hi]
  exact congrArg (fun f => Finset.fold max (⊥ : EReal) f (Finset.univ : Finset (Fin n))) hf

end Cert.LibRowMax

end
-- ==== Proof.LibHead.lean ====
import proofs.«162078_j40114994545134_1_alg».proof.Proof.Spec
import proofs.«162078_j40114994545134_1_alg».proof.Proof.SpecSoftmax
import proofs.«162078_j40114994545134_1_alg».proof.Proof.LibDot
import proofs.«162078_j40114994545134_1_alg».proof.Proof.LibColumn
import proofs.«162078_j40114994545134_1_alg».proof.Proof.LibRowMax
import Idealize.ShloMosaic.Lib.Pipeline.Value
import Idealize.ShloMosaic.PureOps.Ideal.Laws

noncomputable section

namespace Cert.LibHead

open Idealize.ShloMosaic Idealize.ShloMosaic.ValueIdx Cert.Spec

variable {m k n : Nat}

theorem broadcastTo_1b_ab_apply {α : Type} (v : (⟨2, ![1, n]⟩ : Shape).Idx → α)
    (h : (⟨2, ![1, n]⟩ : Shape).Broadcasts ⟨2, ![m, n]⟩) (p : Fin m) (c : Fin n) :
    broadcastTo ⟨2, ![m, n]⟩ v h (ix2 p c) = v (ix2 (0 : Fin 1) c) := by
  refine broadcastTo_apply v h (ix2 p c) (ix2 (0 : Fin 1) c) fun ax => ?_
  match ax with
  | ⟨0, _⟩ =>
    show (0 : ℕ) = if (1 : ℕ) = 1 then 0 else p.val
    rw [if_pos rfl]
  | ⟨1, _⟩ =>
    show c.val = if n = 1 then 0 else c.val
    split
    · have := c.isLt; omega
    · rfl

theorem multiReduction_max_row (z : FVec Ideal ⟨2, ![m, n]⟩ .f32) (h : (⟨2, ![m, n]⟩ : Shape).Reduces [1] (⟨1, ![m]⟩ : Shape))
    (hφ : FKind.Formats .f32) (hacc : (0xFF800000#32 : BitVec 32) = FKind.maximumf.neutral .f32 hφ) (r : Fin m) :
    multiReduction .maximumf [1] ⟨1, ![m]⟩ z 0xFF800000#32 h hφ hacc (ix1 r) = rowMax z r := by
  rw [Ideal.multiReduction_maximumf_single]
  have hf : (z ∘ h.lift (ix1 r)) = fun c : Fin n => z (ix2 r c) := funext fun c => congrArg z (LibRowMax.lift_row h r c)
  have hi : FloatOps.ofBits (F := Ideal) .f32 0xFF800000#32 = (⊥ : EReal) := LibRowMax.ofBits_neg_inf_f32
  rw [hi]
  exact congrArg (fun f => Finset.fold max (⊥ : EReal) f (Finset.univ : Finset (Fin n))) hf

theorem multiReduction_add_row (e : FVec Ideal ⟨2, ![m, n]⟩ .f32) (h : (⟨2, ![m, n]⟩ : Shape).Reduces [1] (⟨1, ![m]⟩ : Shape))
    (hφ : FKind.Formats .f32) (hacc : (0x00000000#32 : BitVec 32) = FKind.add.neutral .f32 hφ) (r : Fin m) :
    multiReduction .add [1] ⟨1, ![m]⟩ e 0x00000000#32 h hφ hacc (ix1 r) = ∑ c : Fin n, e (ix2 r c) := by
  rw [Ideal.multiReduction_add_single]
  exact Finset.sum_congr rfl fun c _ => congrArg e (LibRowMax.lift_row h r c)

section Kernel

variable (D : DotDims ⟨2, ![m, k]⟩ ⟨2, ![k, n]⟩ ⟨2, ![m, n]⟩)
  (hxx : (⟨2, ![m, k]⟩ : Shape).ShapeCasts ⟨2, ![m, k]⟩) (hww : (⟨2, ![k, n]⟩ : Shape).ShapeCasts ⟨2, ![k, n]⟩)
  (hbb : (⟨2, ![1, n]⟩ : Shape).ShapeCasts ⟨2, ![1, n]⟩) (hbr : (⟨2, ![1, n]⟩ : Shape).Broadcasts ⟨2, ![m, n]⟩)
  (hlt : FTy.bf16.bits < FTy.f32.bits)
  (hr : (⟨2, ![m, n]⟩ : Shape).Reduces [1] (⟨1, ![m]⟩ : Shape))
  (hc : (⟨1, ![m]⟩ : Shape).ShapeCasts ⟨2, ![m, 1]⟩) (hb : (⟨2, ![m, 1]⟩ : Shape).Broadcasts ⟨2, ![m, n]⟩)
  (hφ : FKind.Formats .f32) (hmax : (0xFF800000#32 : BitVec 32) = FKind.maximumf.neutral .f32 hφ)
  (hφ' : FKind.Formats .f32) (hadd : (0x00000000#32 : BitVec 32) = FKind.add.neutral .f32 hφ')

def logitsKernel (g d : FVec Ideal ⟨2, ![m, k]⟩ .f32) (wg wd : FVec Ideal ⟨2, ![k, n]⟩ .f32) (b : FVec Ideal ⟨2, ![1, n]⟩ .f32) :
    FVec Ideal ⟨2, ![m, n]⟩ .f32 :=
  addf
    (addf
      (matmul D none (truncf .bf16 (shapeCast ⟨2, ![m, k]⟩ g hxx) hlt) (truncf .bf16 (shapeCast ⟨2, ![k, n]⟩ wg hww) hlt)
        (constant ⟨2, ![m, n]⟩ .f32 0x00000000#32))
      (matmul D none (truncf .bf16 (shapeCast ⟨2, ![m, k]⟩ d hxx) hlt) (truncf .bf16 (shapeCast ⟨2, ![k, n]⟩ wd hww) hlt)
        (constant ⟨2, ![m, n]⟩ .f32 0x00000000#32)))
    (broadcastTo ⟨2, ![m, n]⟩ (shapeCast ⟨2, ![1, n]⟩ b hbb) hbr)

def rowMaxKernel (z : FVec Ideal ⟨2, ![m, n]⟩ .f32) : FVec Ideal ⟨2, ![m, n]⟩ .f32 :=
  broadcastTo ⟨2, ![m, n]⟩
    (shapeCast ⟨2, ![m, 1]⟩
      (maximumf (broadcast ⟨1, ![m]⟩ (Scalar.ofBits (F := Ideal) .f32 0xFF800000#32))
        (multiReduction .maximumf [1] ⟨1, ![m]⟩ z 0xFF800000#32 hr hφ hmax)) hc) hb

def rowExpKernel (z : FVec Ideal ⟨2, ![m, n]⟩ .f32) : FVec Ideal ⟨2, ![m, n]⟩ .f32 :=
  exp (subf z (rowMaxKernel hr hc hb hφ hmax z))

def softmaxKernel (z : FVec Ideal ⟨2, ![m, n]⟩ .f32) : FVec Ideal ⟨2, ![m, n]⟩ .f32 :=
  divf (rowExpKernel hr hc hb hφ hmax z)
    (broadcastTo ⟨2, ![m, n]⟩
      (shapeCast ⟨2, ![m, 1]⟩
        (multiReduction .add [1] ⟨1, ![m]⟩ (rowExpKernel hr hc hb hφ hmax z) 0x00000000#32 hr hφ' hadd) hc) hb)

def headKernel (g d : FVec Ideal ⟨2, ![m, k]⟩ .f32) (wg wd : FVec Ideal ⟨2, ![k, n]⟩ .f32) (b : FVec Ideal ⟨2, ![1, n]⟩ .f32) :
    FVec Ideal ⟨2, ![m, n]⟩ .f32 :=
  softmaxKernel hr hc hb hφ hmax hφ' hadd (logitsKernel D hxx hww hbb hbr hlt g d wg wd b)

theorem logitsKernel_apply (hlc : D.lhsContracting = [1]) (hrc : D.rhsContracting = [0]) (hln : D.lhsNonContracting = [0])
    (hrn : D.rhsNonContracting = [1]) (hlb : D.lhsBatch = []) (hrb : D.rhsBatch = [])
    (g d : FVec Ideal ⟨2, ![m, k]⟩ .f32) (wg wd : FVec Ideal ⟨2, ![k, n]⟩ .f32) (b : FVec Ideal ⟨2, ![1, n]⟩ .f32)
    (p : Fin m) (q : Fin n) :
    logitsKernel D hxx hww hbb hbr hlt g d wg wd b (ix2 p q) = logits g d wg wd b (ix2 p q) := by
  unfold logitsKernel
  rw [addf_apply, addf_apply, shapeCast_self, shapeCast_self, shapeCast_self, shapeCast_self, shapeCast_self,
    LibDot.matmul_plain_apply D hlc hrc hln hrn hlb hrb, LibDot.matmul_plain_apply D hlc hrc hln hrn hlb hrb,
    broadcastTo_1b_ab_apply, logits_apply]
  rfl

theorem logitsKernel_eq (hlc : D.lhsContracting = [1]) (hrc : D.rhsContracting = [0]) (hln : D.lhsNonContracting = [0])
    (hrn : D.rhsNonContracting = [1]) (hlb : D.lhsBatch = []) (hrb : D.rhsBatch = [])
    (g d : FVec Ideal ⟨2, ![m, k]⟩ .f32) (wg wd : FVec Ideal ⟨2, ![k, n]⟩ .f32) (b : FVec Ideal ⟨2, ![1, n]⟩ .f32) :
    logitsKernel D hxx hww hbb hbr hlt g d wg wd b = logits g d wg wd b := by
  funext j
  rw [eq_ix2 j]
  exact logitsKernel_apply D hxx hww hbb hbr hlt hlc hrc hln hrn hlb hrb g d wg wd b (j 0) (j 1)

theorem rowMaxKernel_apply (z : FVec Ideal ⟨2, ![m, n]⟩ .f32) (p : Fin m) (q : Fin n) :
    rowMaxKernel hr hc hb hφ hmax z (ix2 p q) = rowMax z p := by
  unfold rowMaxKernel
  rw [LibColumn.column_of_vector_apply, maximumf_apply, broadcast_apply, multiReduction_max_row]
  show max (Ideal.ofBits .f32 0xFF800000#32) (rowMax z p) = rowMax z p
  rw [LibRowMax.ofBits_neg_inf_f32]
  exact max_bot_left _

theorem rowExpKernel_apply (z : FVec Ideal ⟨2, ![m, n]⟩ .f32) (p : Fin m) (q : Fin n) :
    rowExpKernel hr hc hb hφ hmax z (ix2 p q) = rowExp z p q := by
  unfold rowExpKernel
  show Ideal.exp (subf z (rowMaxKernel hr hc hb hφ hmax z) (ix2 p q)) = _
  rw [subf_apply, rowMaxKernel_apply]
  rfl

theorem softmaxKernel_apply (z : FVec Ideal ⟨2, ![m, n]⟩ .f32) (p : Fin m) (q : Fin n) :
    softmaxKernel hr hc hb hφ hmax hφ' hadd z (ix2 p q) = softmaxRows z (ix2 p q) := by
  unfold softmaxKernel
  rw [divf_apply, LibColumn.column_of_vector_apply, multiReduction_add_row, rowExpKernel_apply, softmaxRows_apply]
  exact congrArg (Ideal.div (rowExp z p q)) (Finset.sum_congr rfl fun c _ => rowExpKernel_apply hr hc hb hφ hmax z p c)

theorem headKernel_apply (hlc : D.lhsContracting = [1]) (hrc : D.rhsContracting = [0]) (hln : D.lhsNonContracting = [0])
    (hrn : D.rhsNonContracting = [1]) (hlb : D.lhsBatch = []) (hrb : D.rhsBatch = [])
    (g d : FVec Ideal ⟨2, ![m, k]⟩ .f32) (wg wd : FVec Ideal ⟨2, ![k, n]⟩ .f32) (b : FVec Ideal ⟨2, ![1, n]⟩ .f32)
    (p : Fin m) (q : Fin n) :
    headKernel D hxx hww hbb hbr hlt hr hc hb hφ hmax hφ' hadd g d wg wd b (ix2 p q)
      = softmaxRows (logits g d wg wd b) (ix2 p q) := by
  unfold headKernel
  rw [softmaxKernel_apply, logitsKernel_eq D hxx hww hbb hbr hlt hlc hrc hln hrn hlb hrb]

end Kernel

end Cert.LibHead

end
-- ==== Proof.KI.Val8.lean ====
import proofs.«162078_j40114994545134_1_alg».proof.Proof.KI.Def8
import proofs.«162078_j40114994545134_1_alg».proof.Proof.Spec
import proofs.«162078_j40114994545134_1_alg».proof.Proof.SpecSoftmax
import proofs.«162078_j40114994545134_1_alg».proof.Proof.LibHead
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

local notation "𝕄" => MT nD τ sig Unit (Elt Ideal) ℕ (UR sig nD τ) ℕ

theorem pay8_eq (x0 x1 : Vec Ideal S10000x128 .f32) (x2 x3 : Vec Ideal S128x5 .f32) (x4 : Vec Ideal S1x5 .f32) :
    k8_pay1 (F := Ideal) x0 x1 x2 x3 x4
      = Cert.LibHead.headKernel dot_S10000x128_S128x5_S10000x5_1_0_0_1_n_n shapeCasts_S10000x128_S10000x128
          shapeCasts_S128x5_S128x5 shapeCasts_S1x5_S1x5 broadcasts_S1x5_S10000x5 bitsLt_bf16_f32 reduces_S10000x5_S10000
          shapeCasts_S10000_S10000x1 broadcasts_S10000x1_S10000x5 (.inl rfl) rfl (.inl rfl) rfl x0 x1 x2 x3 x4 := rfl

theorem pay8_apply (x0 x1 : Vec Ideal S10000x128 .f32) (x2 x3 : Vec Ideal S128x5 .f32) (x4 : Vec Ideal S1x5 .f32)
    (p : Fin 10000) (q : Fin 5) :
    k8_pay1 (F := Ideal) x0 x1 x2 x3 x4 (ix2 p q) = Cert.Spec.softmaxRows (Cert.Spec.logits x0 x1 x2 x3 x4) (ix2 p q) := by
  rw [pay8_eq]
  exact Cert.LibHead.headKernel_apply _ _ _ _ _ _ _ _ _ _ _ _ _ rfl rfl rfl rfl rfl rfl x0 x1 x2 x3 x4 p q

variable (V : (c : Dev nD) → (b : Ref sig .tc) → Buf (Elt Ideal) ((c : Thread nD τ).loc b))

theorem hz8 : (![0, 0] : Fin 2 → Nat) = fun _ => 0 := funext fun a => by fin_cases a <;> rfl

theorem idx_facts8 : ∀ t : Fin cfg8.N,
    win8_0.index t (0 : Fin 2) = win8_5.index t (0 : Fin 2) ∧ win8_0.index t (1 : Fin 2) = 0
    ∧ win8_1.index t (0 : Fin 2) = win8_5.index t (0 : Fin 2) ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

abbrev G8 (c : Dev nD) : Cert.Spec.Mat 100000 5 :=
  Cert.Spec.softmaxRows (Cert.Spec.logits (M := 100000) (K := 128) (N := 5) (V c main_v77) (V c main_v187) (V c main_v188) (V c main_v189) (V c main_v190))

theorem iblk8_0_apply (c : Dev nD) (t : Fin cfg8.N) (p : Fin 10000) (r : Fin 128) (h : t.val * 10000 + p.val < 100000) :
    (iblk8 V c 0 t : Vec Ideal S10000x128 .f32) (ix2 p r)
      = (V c main_v77 : Cert.Spec.Mat 100000 128) (ix2 ⟨t.val * 10000 + p.val, h⟩ r) := by
  obtain ⟨e0, e1, -, -, -, -, -, -, -, -, e10, -⟩ := idx_facts8 t
  unfold iblk8
  rw [View.read_apply]
  show V c main_v77 _ = V c main_v77 _
  congr 1
  funext a
  apply Fin.ext
  match a with
  | ⟨0, _⟩ => show win8_0.index t 0 * 10000 + 1 * p.val = t.val * 10000 + p.val; rw [e0, e10]; omega
  | ⟨1, _⟩ => show win8_0.index t 1 * 128 + 1 * r.val = r.val; rw [e1]; omega

theorem iblk8_1_apply (c : Dev nD) (t : Fin cfg8.N) (p : Fin 10000) (r : Fin 128) (h : t.val * 10000 + p.val < 100000) :
    (iblk8 V c 1 t : Vec Ideal S10000x128 .f32) (ix2 p r)
      = (V c main_v187 : Cert.Spec.Mat 100000 128) (ix2 ⟨t.val * 10000 + p.val, h⟩ r) := by
  obtain ⟨-, -, e0, e1, -, -, -, -, -, -, e10, -⟩ := idx_facts8 t
  unfold iblk8
  rw [View.read_apply]
  show V c main_v187 _ = V c main_v187 _
  congr 1
  funext a
  apply Fin.ext
  match a with
  | ⟨0, _⟩ => show win8_1.index t 0 * 10000 + 1 * p.val = t.val * 10000 + p.val; rw [e0, e10]; omega
  | ⟨1, _⟩ => show win8_1.index t 1 * 128 + 1 * r.val = r.val; rw [e1]; omega

theorem iblk8_2_eq (c : Dev nD) (t : Fin cfg8.N) :
    (iblk8 V c 2 t : Vec Ideal S128x5 .f32) = (V c main_v188 : Cert.Spec.Mat 128 5) := by
  obtain ⟨-, -, -, -, e0, e1, -, -, -, -, -, -⟩ := idx_facts8 t
  funext j
  unfold iblk8
  rw [View.read_apply]
  show V c main_v188 _ = V c main_v188 _
  congr 1
  funext a
  apply Fin.ext
  match a with
  | ⟨0, _⟩ => show win8_2.index t 0 * 128 + 1 * (j 0).val = (j 0).val; rw [e0]; omega
  | ⟨1, _⟩ => show win8_2.index t 1 * 5 + 1 * (j 1).val = (j 1).val; rw [e1]; omega

theorem iblk8_3_eq (c : Dev nD) (t : Fin cfg8.N) :
    (iblk8 V c 3 t : Vec Ideal S128x5 .f32) = (V c main_v189 : Cert.Spec.Mat 128 5) := by
  obtain ⟨-, -, -, -, -, -, e0, e1, -, -, -, -⟩ := idx_facts8 t
  funext j
  unfold iblk8
  rw [View.read_apply]
  show V c main_v189 _ = V c main_v189 _
  congr 1
  funext a
  apply Fin.ext
  match a with
  | ⟨0, _⟩ => show win8_3.index t 0 * 128 + 1 * (j 0).val = (j 0).val; rw [e0]; omega
  | ⟨1, _⟩ => show win8_3.index t 1 * 5 + 1 * (j 1).val = (j 1).val; rw [e1]; omega

theorem iblk8_4_eq (c : Dev nD) (t : Fin cfg8.N) :
    (iblk8 V c 4 t : Vec Ideal S1x5 .f32) = (V c main_v190 : Cert.Spec.Mat 1 5) := by
  obtain ⟨-, -, -, -, -, -, -, -, e0, e1, -, -⟩ := idx_facts8 t
  funext j
  unfold iblk8
  rw [View.read_apply]
  show V c main_v190 _ = V c main_v190 _
  congr 1
  funext a
  apply Fin.ext
  match a with
  | ⟨0, _⟩ => show win8_4.index t 0 * 1 + 1 * (j 0).val = (j 0).val; rw [e0]; omega
  | ⟨1, _⟩ => show win8_4.index t 1 * 5 + 1 * (j 1).val = (j 1).val; rw [e1]; omega

theorem emb8_5 (t : Fin cfg8.N) (p : Fin 10000) (q : Fin 5) (h : t.val * 10000 + p.val < 100000) :
    ((cfg8.win 5).blk t).view.emb (ix2 p q) = (ix2 ⟨t.val * 10000 + p.val, h⟩ q : S100000x5.Idx) := by
  obtain ⟨-, -, -, -, -, -, -, -, -, -, e10, e11⟩ := idx_facts8 t
  funext a
  apply Fin.ext
  match a with
  | ⟨0, _⟩ => show win8_5.index t 0 * 10000 + 1 * p.val = t.val * 10000 + p.val; rw [e10]; omega
  | ⟨1, _⟩ => show win8_5.index t 1 * 5 + 1 * q.val = q.val; rw [e11]; omega

theorem flushed8_eq (c : Dev nD) (t : Fin cfg8.N) :
    (dat8 (F := Ideal) V c).flushed 5 t = ((cfg8.win 5).blk t).view.read (Elt Ideal) (G8 V c) := by
  have ht : t.val < grid8.N := t.isLt
  rw [N_8] at ht
  show (cfg8.win 5).cut (grid8.coords t) ((dat8 (F := Ideal) V c).after 5 t) = _
  rw [after8_5]
  unfold out8_5
  rw [View.canon_unit_zero hz8]
  simp only [View.ld_unit_zero (S := S10000x128) hz8, View.ld_unit_zero (S := S128x5) hz8, View.ld_unit_zero (S := S1x5) hz8]
  funext j
  obtain ⟨p, q, rfl⟩ : ∃ (p : Fin 10000) (q : Fin 5), j = ix2 p q := ⟨j 0, j 1, eq_ix2 j⟩
  have hrow : t.val * 10000 + p.val < 100000 := by have := p.isLt; omega
  show k8_pay1 (F := Ideal) (iblk8 V c 0 t) (iblk8 V c 1 t) (iblk8 V c 2 t) (iblk8 V c 3 t) (iblk8 V c 4 t) (ix2 p q)
      = G8 V c (((cfg8.win 5).blk t).view.emb (ix2 p q))
  rw [pay8_apply, emb8_5 t p q hrow, iblk8_2_eq, iblk8_3_eq, iblk8_4_eq]
  exact Cert.Spec.softmaxRows_congr_row _ _ p ⟨_, hrow⟩ (fun k =>
    Cert.Spec.logits_congr_row _ _ _ _ _ _ _ p ⟨_, hrow⟩ (fun r => iblk8_0_apply V c t p r hrow)
      (fun r => iblk8_1_apply V c t p r hrow) k) q

theorem mem_blk8 (t : Fin cfg8.N) (i : S100000x5.Idx) :
    i ∈ ((cfg8.win 5).blk t).view.set
      ↔ ∀ a : Fin 2, win8_5.index t a * S10000x5.size a ≤ (i a).val ∧ (i a).val < win8_5.index t a * S10000x5.size a + S10000x5.size a := by
  show i ∈ ((View.whole main_v191).slice (win8_5.rect t)).set ↔ _
  rw [View.set_slice_whole, Rect.mem_set_unit]
  exact Iff.rfl

theorem covered8 (i : S100000x5.Idx) :
    ∃ t : Fin cfg8.N, (cfg8.win 5).flush t = true ∧ i ∈ ((cfg8.win 5).blk t).view.set := by
  have hi0 : (i 0).val < 100000 := (i 0).isLt
  have hi1 : (i 1).val < 5 := (i 1).isLt
  have hq : (i 0).val / 10000 < grid8.N := by rw [N_8]; omega
  refine ⟨⟨(i 0).val / 10000, hq⟩, flush8_5 _, ?_⟩
  rw [mem_blk8]
  obtain ⟨-, -, -, -, -, -, -, -, -, -, e10, e11⟩ := idx_facts8 ⟨(i 0).val / 10000, hq⟩
  intro a
  match a with
  | ⟨0, _⟩ =>
    show win8_5.index ⟨(i 0).val / 10000, hq⟩ 0 * 10000 ≤ (i 0).val
      ∧ (i 0).val < win8_5.index ⟨(i 0).val / 10000, hq⟩ 0 * 10000 + 10000
    rw [e10]
    show (i 0).val / 10000 * 10000 ≤ (i 0).val ∧ (i 0).val < (i 0).val / 10000 * 10000 + 10000
    omega
  | ⟨1, _⟩ =>
    show win8_5.index ⟨(i 0).val / 10000, hq⟩ 1 * 5 ≤ (i 1).val ∧ (i 1).val < win8_5.index ⟨(i 0).val / 10000, hq⟩ 1 * 5 + 5
    rw [e11]
    omega

theorem final8 (V : (c : Dev nD) → (b : Ref sig .tc) → Buf (Elt Ideal) ((c : Thread nD τ).loc b)) (c : Dev nD) :
    (dat8 (F := Ideal) V c).arrAt 5 cfg8.N = Cert.Spec.softmaxRows (Cert.Spec.logits (M := 100000) (K := 128) (N := 5) (V c main_v77) (V c main_v187) (V c main_v188) (V c main_v189) (V c main_v190)) :=
  (dat8 (F := Ideal) V c).arrAt_eq_of_cover 5 (G8 V c) (fun t _ => flushed8_eq V c t) (covered8)

end Cert.KernelIdeal.Hand

end
-- ==== Proof.KI.Val9.lean ====
/-
  What an output head's region leaves in its output array: the row softmax of the two products plus bias, as one
  function of the five arrays the region is entered with.

  Three steps. The body's stored value is the head of its five loaded blocks, index by index (the kernel's spelling read
  at the ideal values). What a grid point writes back is therefore its block of rows of the whole-array function: the
  two feature blocks are the same rows of their arrays, the two weights and the bias are their whole arrays, and a row's
  softmax reads only that row. The grid's row blocks tile the array, so the array ends holding that function.
-/
import proofs.«162078_j40114994545134_1_alg».proof.Proof.KI.Def9
import proofs.«162078_j40114994545134_1_alg».proof.Proof.Spec
import proofs.«162078_j40114994545134_1_alg».proof.Proof.SpecSoftmax
import proofs.«162078_j40114994545134_1_alg».proof.Proof.LibHead
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

local notation "𝕄" => MT nD τ sig Unit (Elt Ideal) ℕ (UR sig nD τ) ℕ

/-- The body's stored value is the head, as the kernel spells it, of the five loaded blocks. -/
theorem pay9_eq (x0 x1 : Vec Ideal S5000x128 .f32) (x2 x3 : Vec Ideal S128x5 .f32) (x4 : Vec Ideal S1x5 .f32) :
    k9_pay1 (F := Ideal) x0 x1 x2 x3 x4
      = Cert.LibHead.headKernel dot_S5000x128_S128x5_S5000x5_1_0_0_1_n_n shapeCasts_S5000x128_S5000x128
          shapeCasts_S128x5_S128x5 shapeCasts_S1x5_S1x5 broadcasts_S1x5_S5000x5 bitsLt_bf16_f32 reduces_S5000x5_S5000
          shapeCasts_S5000_S5000x1 broadcasts_S5000x1_S5000x5 (.inl rfl) rfl (.inl rfl) rfl x0 x1 x2 x3 x4 := rfl

/-- Read at `(p, q)`: the row softmax of the logits of the five blocks. -/
theorem pay9_apply (x0 x1 : Vec Ideal S5000x128 .f32) (x2 x3 : Vec Ideal S128x5 .f32) (x4 : Vec Ideal S1x5 .f32)
    (p : Fin 5000) (q : Fin 5) :
    k9_pay1 (F := Ideal) x0 x1 x2 x3 x4 (ix2 p q) = Cert.Spec.softmaxRows (Cert.Spec.logits x0 x1 x2 x3 x4) (ix2 p q) := by
  rw [pay9_eq]
  exact Cert.LibHead.headKernel_apply _ _ _ _ _ _ _ _ _ _ _ _ _ rfl rfl rfl rfl rfl rfl x0 x1 x2 x3 x4 p q

variable (V : (c : Dev nD) → (b : Ref sig .tc) → Buf (Elt Ideal) ((c : Thread nD τ).loc b))

theorem hz9 : (![0, 0] : Fin 2 → Nat) = fun _ => 0 := funext fun a => by fin_cases a <;> rfl

/-- The printed index maps, decided once over the grid: the two feature windows move with the output window along the
    rows, the weights and the bias stay at their one block, and the output's block row is the point's number. -/
theorem idx_facts9 : ∀ t : Fin cfg9.N,
    win9_0.index t (0 : Fin 2) = win9_5.index t (0 : Fin 2) ∧ win9_0.index t (1 : Fin 2) = 0
    ∧ win9_1.index t (0 : Fin 2) = win9_5.index t (0 : Fin 2) ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = t.val ∧ win9_5.index t (1 : Fin 2) = 0 :=
  (by decide +kernel : ∀ t : Fin grid9.N, _)

/-- The whole-array function: the row softmax of the logits of the five arrays as the region finds them. -/
abbrev G9 (c : Dev nD) : Cert.Spec.Mat 25000 5 :=
  Cert.Spec.softmaxRows (Cert.Spec.logits (M := 25000) (K := 128) (N := 5) (V c main_v111) (V c main_v166) (V c main_v192) (V c main_v193) (V c main_v194))

/-- A feature block at point `t`, read at `(p, r)`, is its array at row `5000 t + p`. -/
theorem iblk9_0_apply (c : Dev nD) (t : Fin cfg9.N) (p : Fin 5000) (r : Fin 128) (h : t.val * 5000 + p.val < 25000) :
    (iblk9 V c 0 t : Vec Ideal S5000x128 .f32) (ix2 p r)
      = (V c main_v111 : Cert.Spec.Mat 25000 128) (ix2 ⟨t.val * 5000 + p.val, h⟩ r) := by
  obtain ⟨e0, e1, -, -, -, -, -, -, -, -, e10, -⟩ := idx_facts9 t
  unfold iblk9
  rw [View.read_apply]
  show V c main_v111 _ = V c main_v111 _
  congr 1
  funext a
  apply Fin.ext
  match a with
  | ⟨0, _⟩ => show win9_0.index t 0 * 5000 + 1 * p.val = t.val * 5000 + p.val; rw [e0, e10]; omega
  | ⟨1, _⟩ => show win9_0.index t 1 * 128 + 1 * r.val = r.val; rw [e1]; omega

theorem iblk9_1_apply (c : Dev nD) (t : Fin cfg9.N) (p : Fin 5000) (r : Fin 128) (h : t.val * 5000 + p.val < 25000) :
    (iblk9 V c 1 t : Vec Ideal S5000x128 .f32) (ix2 p r)
      = (V c main_v166 : Cert.Spec.Mat 25000 128) (ix2 ⟨t.val * 5000 + p.val, h⟩ r) := by
  obtain ⟨-, -, e0, e1, -, -, -, -, -, -, e10, -⟩ := idx_facts9 t
  unfold iblk9
  rw [View.read_apply]
  show V c main_v166 _ = V c main_v166 _
  congr 1
  funext a
  apply Fin.ext
  match a with
  | ⟨0, _⟩ => show win9_1.index t 0 * 5000 + 1 * p.val = t.val * 5000 + p.val; rw [e0, e10]; omega
  | ⟨1, _⟩ => show win9_1.index t 1 * 128 + 1 * r.val = r.val; rw [e1]; omega

/-- A weight's block at every point is its whole array. -/
theorem iblk9_2_eq (c : Dev nD) (t : Fin cfg9.N) :
    (iblk9 V c 2 t : Vec Ideal S128x5 .f32) = (V c main_v192 : Cert.Spec.Mat 128 5) := by
  obtain ⟨-, -, -, -, e0, e1, -, -, -, -, -, -⟩ := idx_facts9 t
  funext j
  unfold iblk9
  rw [View.read_apply]
  show V c main_v192 _ = V c main_v192 _
  congr 1
  funext a
  apply Fin.ext
  match a with
  | ⟨0, _⟩ => show win9_2.index t 0 * 128 + 1 * (j 0).val = (j 0).val; rw [e0]; omega
  | ⟨1, _⟩ => show win9_2.index t 1 * 5 + 1 * (j 1).val = (j 1).val; rw [e1]; omega

theorem iblk9_3_eq (c : Dev nD) (t : Fin cfg9.N) :
    (iblk9 V c 3 t : Vec Ideal S128x5 .f32) = (V c main_v193 : Cert.Spec.Mat 128 5) := by
  obtain ⟨-, -, -, -, -, -, e0, e1, -, -, -, -⟩ := idx_facts9 t
  funext j
  unfold iblk9
  rw [View.read_apply]
  show V c main_v193 _ = V c main_v193 _
  congr 1
  funext a
  apply Fin.ext
  match a with
  | ⟨0, _⟩ => show win9_3.index t 0 * 128 + 1 * (j 0).val = (j 0).val; rw [e0]; omega
  | ⟨1, _⟩ => show win9_3.index t 1 * 5 + 1 * (j 1).val = (j 1).val; rw [e1]; omega

/-- The bias's block at every point is its whole array. -/
theorem iblk9_4_eq (c : Dev nD) (t : Fin cfg9.N) :
    (iblk9 V c 4 t : Vec Ideal S1x5 .f32) = (V c main_v194 : Cert.Spec.Mat 1 5) := by
  obtain ⟨-, -, -, -, -, -, -, -, e0, e1, -, -⟩ := idx_facts9 t
  funext j
  unfold iblk9
  rw [View.read_apply]
  show V c main_v194 _ = V c main_v194 _
  congr 1
  funext a
  apply Fin.ext
  match a with
  | ⟨0, _⟩ => show win9_4.index t 0 * 1 + 1 * (j 0).val = (j 0).val; rw [e0]; omega
  | ⟨1, _⟩ => show win9_4.index t 1 * 5 + 1 * (j 1).val = (j 1).val; rw [e1]; omega

/-- Where the output block's `(p, q)` sits in the output array: row `5000 t + p`, column `q`. -/
theorem emb9_5 (t : Fin cfg9.N) (p : Fin 5000) (q : Fin 5) (h : t.val * 5000 + p.val < 25000) :
    ((cfg9.win 5).blk t).view.emb (ix2 p q) = (ix2 ⟨t.val * 5000 + p.val, h⟩ q : S25000x5.Idx) := by
  obtain ⟨-, -, -, -, -, -, -, -, -, -, e10, e11⟩ := idx_facts9 t
  funext a
  apply Fin.ext
  match a with
  | ⟨0, _⟩ => show win9_5.index t 0 * 5000 + 1 * p.val = t.val * 5000 + p.val; rw [e10]; omega
  | ⟨1, _⟩ => show win9_5.index t 1 * 5 + 1 * q.val = q.val; rw [e11]; omega

/-- WHAT POINT `t` WRITES BACK is its block of rows of the row softmax of the logits of the five arrays. -/
theorem flushed9_eq (c : Dev nD) (t : Fin cfg9.N) :
    (dat9 (F := Ideal) V c).flushed 5 t = ((cfg9.win 5).blk t).view.read (Elt Ideal) (G9 V c) := by
  have ht : t.val < grid9.N := t.isLt
  rw [N_9] at ht
  show (cfg9.win 5).cut (grid9.coords t) ((dat9 (F := Ideal) V c).after 5 t) = _
  rw [after9_5]
  unfold out9_5
  rw [View.canon_unit_zero hz9]
  simp only [View.ld_unit_zero (S := S5000x128) hz9, View.ld_unit_zero (S := S128x5) hz9, View.ld_unit_zero (S := S1x5) hz9]
  funext j
  obtain ⟨p, q, rfl⟩ : ∃ (p : Fin 5000) (q : Fin 5), j = ix2 p q := ⟨j 0, j 1, eq_ix2 j⟩
  have hrow : t.val * 5000 + p.val < 25000 := by have := p.isLt; omega
  show k9_pay1 (F := Ideal) (iblk9 V c 0 t) (iblk9 V c 1 t) (iblk9 V c 2 t) (iblk9 V c 3 t) (iblk9 V c 4 t) (ix2 p q)
      = G9 V c (((cfg9.win 5).blk t).view.emb (ix2 p q))
  rw [pay9_apply, emb9_5 t p q hrow, iblk9_2_eq, iblk9_3_eq, iblk9_4_eq]
  exact Cert.Spec.softmaxRows_congr_row _ _ p ⟨_, hrow⟩ (fun k =>
    Cert.Spec.logits_congr_row _ _ _ _ _ _ _ p ⟨_, hrow⟩ (fun r => iblk9_0_apply V c t p r hrow)
      (fun r => iblk9_1_apply V c t p r hrow) k) q

/-- An index of the output array is in point `t`'s block iff each coordinate is in the block's range on its axis. -/
theorem mem_blk9 (t : Fin cfg9.N) (i : S25000x5.Idx) :
    i ∈ ((cfg9.win 5).blk t).view.set
      ↔ ∀ a : Fin 2, win9_5.index t a * S5000x5.size a ≤ (i a).val ∧ (i a).val < win9_5.index t a * S5000x5.size a + S5000x5.size a := by
  show i ∈ ((View.whole main_v195).slice (win9_5.rect t)).set ↔ _
  rw [View.set_slice_whole, Rect.mem_set_unit]
  exact Iff.rfl

/-- Every row is in the block of the point numbered by the row over the block's height. -/
theorem covered9 (i : S25000x5.Idx) :
    ∃ t : Fin cfg9.N, (cfg9.win 5).flush t = true ∧ i ∈ ((cfg9.win 5).blk t).view.set := by
  have hi0 : (i 0).val < 25000 := (i 0).isLt
  have hi1 : (i 1).val < 5 := (i 1).isLt
  have hq : (i 0).val / 5000 < grid9.N := by rw [N_9]; omega
  refine ⟨⟨(i 0).val / 5000, hq⟩, flush9_5 _, ?_⟩
  rw [mem_blk9]
  obtain ⟨-, -, -, -, -, -, -, -, -, -, e10, e11⟩ := idx_facts9 ⟨(i 0).val / 5000, hq⟩
  intro a
  match a with
  | ⟨0, _⟩ =>
    show win9_5.index ⟨(i 0).val / 5000, hq⟩ 0 * 5000 ≤ (i 0).val
      ∧ (i 0).val < win9_5.index ⟨(i 0).val / 5000, hq⟩ 0 * 5000 + 5000
    rw [e10]
    show (i 0).val / 5000 * 5000 ≤ (i 0).val ∧ (i 0).val < (i 0).val / 5000 * 5000 + 5000
    omega
  | ⟨1, _⟩ =>
    show win9_5.index ⟨(i 0).val / 5000, hq⟩ 1 * 5 ≤ (i 1).val ∧ (i 1).val < win9_5.index ⟨(i 0).val / 5000, hq⟩ 1 * 5 + 5
    rw [e11]
    omega

/-- THE ARRAY after the region: the row softmax of the logits of the five arrays it was entered with. -/
theorem final9 (V : (c : Dev nD) → (b : Ref sig .tc) → Buf (Elt Ideal) ((c : Thread nD τ).loc b)) (c : Dev nD) :
    (dat9 (F := Ideal) V c).arrAt 5 cfg9.N = Cert.Spec.softmaxRows (Cert.Spec.logits (M := 25000) (K := 128) (N := 5) (V c main_v111) (V c main_v166) (V c main_v192) (V c main_v193) (V c main_v194)) :=
  (dat9 (F := Ideal) V c).arrAt_eq_of_cover 5 (G9 V c) (fun t _ => flushed9_eq V c t) (covered9)

end Cert.KernelIdeal.Hand

end
-- ==== Proof.KI.Val10.lean ====
/-
  What an output head's region leaves in its output array: the row softmax of the two products plus bias, as one
  function of the five arrays the region is entered with.

  Three steps. The body's stored value is the head of its five loaded blocks, index by index (the kernel's spelling read
  at the ideal values). What a grid point writes back is therefore its block of rows of the whole-array function: the
  two feature blocks are the same rows of their arrays, the two weights and the bias are their whole arrays, and a row's
  softmax reads only that row. The grid's row blocks tile the array, so the array ends holding that function.
-/
import proofs.«162078_j40114994545134_1_alg».proof.Proof.KI.Def10
import proofs.«162078_j40114994545134_1_alg».proof.Proof.Spec
import proofs.«162078_j40114994545134_1_alg».proof.Proof.SpecSoftmax
import proofs.«162078_j40114994545134_1_alg».proof.Proof.LibHead
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

local notation "𝕄" => MT nD τ sig Unit (Elt Ideal) ℕ (UR sig nD τ) ℕ

/-- The body's stored value is the head, as the kernel spells it, of the five loaded blocks. -/
theorem pay10_eq (x0 x1 : Vec Ideal S6250x128 .f32) (x2 x3 : Vec Ideal S128x5 .f32) (x4 : Vec Ideal S1x5 .f32) :
    k10_pay1 (F := Ideal) x0 x1 x2 x3 x4
      = Cert.LibHead.headKernel dot_S6250x128_S128x5_S6250x5_1_0_0_1_n_n shapeCasts_S6250x128_S6250x128
          shapeCasts_S128x5_S128x5 shapeCasts_S1x5_S1x5 broadcasts_S1x5_S6250x5 bitsLt_bf16_f32 reduces_S6250x5_S6250
          shapeCasts_S6250_S6250x1 broadcasts_S6250x1_S6250x5 (.inl rfl) rfl (.inl rfl) rfl x0 x1 x2 x3 x4 := rfl

/-- Read at `(p, q)`: the row softmax of the logits of the five blocks. -/
theorem pay10_apply (x0 x1 : Vec Ideal S6250x128 .f32) (x2 x3 : Vec Ideal S128x5 .f32) (x4 : Vec Ideal S1x5 .f32)
    (p : Fin 6250) (q : Fin 5) :
    k10_pay1 (F := Ideal) x0 x1 x2 x3 x4 (ix2 p q) = Cert.Spec.softmaxRows (Cert.Spec.logits x0 x1 x2 x3 x4) (ix2 p q) := by
  rw [pay10_eq]
  exact Cert.LibHead.headKernel_apply _ _ _ _ _ _ _ _ _ _ _ _ _ rfl rfl rfl rfl rfl rfl x0 x1 x2 x3 x4 p q

variable (V : (c : Dev nD) → (b : Ref sig .tc) → Buf (Elt Ideal) ((c : Thread nD τ).loc b))

theorem hz10 : (![0, 0] : Fin 2 → Nat) = fun _ => 0 := funext fun a => by fin_cases a <;> rfl

/-- The printed index maps, decided once over the grid: the two feature windows move with the output window along the
    rows, the weights and the bias stay at their one block, and the output's block row is the point's number. -/
theorem idx_facts10 : ∀ t : Fin cfg10.N,
    win10_0.index t (0 : Fin 2) = win10_5.index t (0 : Fin 2) ∧ win10_0.index t (1 : Fin 2) = 0
    ∧ win10_1.index t (0 : Fin 2) = win10_5.index t (0 : Fin 2) ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = t.val ∧ win10_5.index t (1 : Fin 2) = 0 :=
  (by decide +kernel : ∀ t : Fin grid10.N, _)

/-- The whole-array function: the row softmax of the logits of the five arrays as the region finds them. -/
abbrev G10 (c : Dev nD) : Cert.Spec.Mat 6250 5 :=
  Cert.Spec.softmaxRows (Cert.Spec.logits (M := 6250) (K := 128) (N := 5) (V c main_v145) (V c main_v145) (V c main_v196) (V c main_v197) (V c main_v198))

/-- A feature block at point `t`, read at `(p, r)`, is its array at row `6250 t + p`. -/
theorem iblk10_0_apply (c : Dev nD) (t : Fin cfg10.N) (p : Fin 6250) (r : Fin 128) (h : t.val * 6250 + p.val < 6250) :
    (iblk10 V c 0 t : Vec Ideal S6250x128 .f32) (ix2 p r)
      = (V c main_v145 : Cert.Spec.Mat 6250 128) (ix2 ⟨t.val * 6250 + p.val, h⟩ r) := by
  obtain ⟨e0, e1, -, -, -, -, -, -, -, -, e10, -⟩ := idx_facts10 t
  unfold iblk10
  rw [View.read_apply]
  show V c main_v145 _ = V c main_v145 _
  congr 1
  funext a
  apply Fin.ext
  match a with
  | ⟨0, _⟩ => show win10_0.index t 0 * 6250 + 1 * p.val = t.val * 6250 + p.val; rw [e0, e10]; omega
  | ⟨1, _⟩ => show win10_0.index t 1 * 128 + 1 * r.val = r.val; rw [e1]; omega

theorem iblk10_1_apply (c : Dev nD) (t : Fin cfg10.N) (p : Fin 6250) (r : Fin 128) (h : t.val * 6250 + p.val < 6250) :
    (iblk10 V c 1 t : Vec Ideal S6250x128 .f32) (ix2 p r)
      = (V c main_v145 : Cert.Spec.Mat 6250 128) (ix2 ⟨t.val * 6250 + p.val, h⟩ r) := by
  obtain ⟨-, -, e0, e1, -, -, -, -, -, -, e10, -⟩ := idx_facts10 t
  unfold iblk10
  rw [View.read_apply]
  show V c main_v145 _ = V c main_v145 _
  congr 1
  funext a
  apply Fin.ext
  match a with
  | ⟨0, _⟩ => show win10_1.index t 0 * 6250 + 1 * p.val = t.val * 6250 + p.val; rw [e0, e10]; omega
  | ⟨1, _⟩ => show win10_1.index t 1 * 128 + 1 * r.val = r.val; rw [e1]; omega

/-- A weight's block at every point is its whole array. -/
theorem iblk10_2_eq (c : Dev nD) (t : Fin cfg10.N) :
    (iblk10 V c 2 t : Vec Ideal S128x5 .f32) = (V c main_v196 : Cert.Spec.Mat 128 5) := by
  obtain ⟨-, -, -, -, e0, e1, -, -, -, -, -, -⟩ := idx_facts10 t
  funext j
  unfold iblk10
  rw [View.read_apply]
  show V c main_v196 _ = V c main_v196 _
  congr 1
  funext a
  apply Fin.ext
  match a with
  | ⟨0, _⟩ => show win10_2.index t 0 * 128 + 1 * (j 0).val = (j 0).val; rw [e0]; omega
  | ⟨1, _⟩ => show win10_2.index t 1 * 5 + 1 * (j 1).val = (j 1).val; rw [e1]; omega

theorem iblk10_3_eq (c : Dev nD) (t : Fin cfg10.N) :
    (iblk10 V c 3 t : Vec Ideal S128x5 .f32) = (V c main_v197 : Cert.Spec.Mat 128 5) := by
  obtain ⟨-, -, -, -, -, -, e0, e1, -, -, -, -⟩ := idx_facts10 t
  funext j
  unfold iblk10
  rw [View.read_apply]
  show V c main_v197 _ = V c main_v197 _
  congr 1
  funext a
  apply Fin.ext
  match a with
  | ⟨0, _⟩ => show win10_3.index t 0 * 128 + 1 * (j 0).val = (j 0).val; rw [e0]; omega
  | ⟨1, _⟩ => show win10_3.index t 1 * 5 + 1 * (j 1).val = (j 1).val; rw [e1]; omega

/-- The bias's block at every point is its whole array. -/
theorem iblk10_4_eq (c : Dev nD) (t : Fin cfg10.N) :
    (iblk10 V c 4 t : Vec Ideal S1x5 .f32) = (V c main_v198 : Cert.Spec.Mat 1 5) := by
  obtain ⟨-, -, -, -, -, -, -, -, e0, e1, -, -⟩ := idx_facts10 t
  funext j
  unfold iblk10
  rw [View.read_apply]
  show V c main_v198 _ = V c main_v198 _
  congr 1
  funext a
  apply Fin.ext
  match a with
  | ⟨0, _⟩ => show win10_4.index t 0 * 1 + 1 * (j 0).val = (j 0).val; rw [e0]; omega
  | ⟨1, _⟩ => show win10_4.index t 1 * 5 + 1 * (j 1).val = (j 1).val; rw [e1]; omega

/-- Where the output block's `(p, q)` sits in the output array: row `6250 t + p`, column `q`. -/
theorem emb10_5 (t : Fin cfg10.N) (p : Fin 6250) (q : Fin 5) (h : t.val * 6250 + p.val < 6250) :
    ((cfg10.win 5).blk t).view.emb (ix2 p q) = (ix2 ⟨t.val * 6250 + p.val, h⟩ q : S6250x5.Idx) := by
  obtain ⟨-, -, -, -, -, -, -, -, -, -, e10, e11⟩ := idx_facts10 t
  funext a
  apply Fin.ext
  match a with
  | ⟨0, _⟩ => show win10_5.index t 0 * 6250 + 1 * p.val = t.val * 6250 + p.val; rw [e10]; omega
  | ⟨1, _⟩ => show win10_5.index t 1 * 5 + 1 * q.val = q.val; rw [e11]; omega

/-- WHAT POINT `t` WRITES BACK is its block of rows of the row softmax of the logits of the five arrays. -/
theorem flushed10_eq (c : Dev nD) (t : Fin cfg10.N) :
    (dat10 (F := Ideal) V c).flushed 5 t = ((cfg10.win 5).blk t).view.read (Elt Ideal) (G10 V c) := by
  have ht : t.val < grid10.N := t.isLt
  rw [N_10] at ht
  show (cfg10.win 5).cut (grid10.coords t) ((dat10 (F := Ideal) V c).after 5 t) = _
  rw [after10_5]
  unfold out10_5
  rw [View.canon_unit_zero hz10]
  simp only [View.ld_unit_zero (S := S6250x128) hz10, View.ld_unit_zero (S := S128x5) hz10, View.ld_unit_zero (S := S1x5) hz10]
  funext j
  obtain ⟨p, q, rfl⟩ : ∃ (p : Fin 6250) (q : Fin 5), j = ix2 p q := ⟨j 0, j 1, eq_ix2 j⟩
  have hrow : t.val * 6250 + p.val < 6250 := by have := p.isLt; omega
  show k10_pay1 (F := Ideal) (iblk10 V c 0 t) (iblk10 V c 1 t) (iblk10 V c 2 t) (iblk10 V c 3 t) (iblk10 V c 4 t) (ix2 p q)
      = G10 V c (((cfg10.win 5).blk t).view.emb (ix2 p q))
  rw [pay10_apply, emb10_5 t p q hrow, iblk10_2_eq, iblk10_3_eq, iblk10_4_eq]
  exact Cert.Spec.softmaxRows_congr_row _ _ p ⟨_, hrow⟩ (fun k =>
    Cert.Spec.logits_congr_row _ _ _ _ _ _ _ p ⟨_, hrow⟩ (fun r => iblk10_0_apply V c t p r hrow)
      (fun r => iblk10_1_apply V c t p r hrow) k) q

/-- An index of the output array is in point `t`'s block iff each coordinate is in the block's range on its axis. -/
theorem mem_blk10 (t : Fin cfg10.N) (i : S6250x5.Idx) :
    i ∈ ((cfg10.win 5).blk t).view.set
      ↔ ∀ a : Fin 2, win10_5.index t a * S6250x5.size a ≤ (i a).val ∧ (i a).val < win10_5.index t a * S6250x5.size a + S6250x5.size a := by
  show i ∈ ((View.whole main_v199).slice (win10_5.rect t)).set ↔ _
  rw [View.set_slice_whole, Rect.mem_set_unit]
  exact Iff.rfl

/-- Every row is in the block of the point numbered by the row over the block's height. -/
theorem covered10 (i : S6250x5.Idx) :
    ∃ t : Fin cfg10.N, (cfg10.win 5).flush t = true ∧ i ∈ ((cfg10.win 5).blk t).view.set := by
  have hi0 : (i 0).val < 6250 := (i 0).isLt
  have hi1 : (i 1).val < 5 := (i 1).isLt
  have hq : (i 0).val / 6250 < grid10.N := by rw [N_10]; omega
  refine ⟨⟨(i 0).val / 6250, hq⟩, flush10_5 _, ?_⟩
  rw [mem_blk10]
  obtain ⟨-, -, -, -, -, -, -, -, -, -, e10, e11⟩ := idx_facts10 ⟨(i 0).val / 6250, hq⟩
  intro a
  match a with
  | ⟨0, _⟩ =>
    show win10_5.index ⟨(i 0).val / 6250, hq⟩ 0 * 6250 ≤ (i 0).val
      ∧ (i 0).val < win10_5.index ⟨(i 0).val / 6250, hq⟩ 0 * 6250 + 6250
    rw [e10]
    show (i 0).val / 6250 * 6250 ≤ (i 0).val ∧ (i 0).val < (i 0).val / 6250 * 6250 + 6250
    omega
  | ⟨1, _⟩ =>
    show win10_5.index ⟨(i 0).val / 6250, hq⟩ 1 * 5 ≤ (i 1).val ∧ (i 1).val < win10_5.index ⟨(i 0).val / 6250, hq⟩ 1 * 5 + 5
    rw [e11]
    omega

/-- THE ARRAY after the region: the row softmax of the logits of the five arrays it was entered with. -/
theorem final10 (V : (c : Dev nD) → (b : Ref sig .tc) → Buf (Elt Ideal) ((c : Thread nD τ).loc b)) (c : Dev nD) :
    (dat10 (F := Ideal) V c).arrAt 5 cfg10.N = Cert.Spec.softmaxRows (Cert.Spec.logits (M := 6250) (K := 128) (N := 5) (V c main_v145) (V c main_v145) (V c main_v196) (V c main_v197) (V c main_v198)) :=
  (dat10 (F := Ideal) V c).arrAt_eq_of_cover 5 (G10 V c) (fun t _ => flushed10_eq V c t) (covered10)

end Cert.KernelIdeal.Hand

end
-- ==== Proof.RefHead.lean ====
import proofs.«162078_j40114994545134_1_alg».proof.Proof.Spec
import proofs.«162078_j40114994545134_1_alg».proof.Proof.SpecSoftmax
import proofs.«162078_j40114994545134_1_alg».proof.Proof.LibDot
import proofs.«162078_j40114994545134_1_alg».proof.Proof.LibRowMax
import Idealize.ShloMosaic.Lib.Pipeline.Value
import Idealize.ShloMosaic.PureOps.Ideal.Laws

noncomputable section

namespace Cert.RefHead

open Idealize.ShloMosaic Idealize.ShloMosaic.ValueIdx Cert.Spec

variable {M K N : Nat}

abbrev upperRows (W : Mat (K + K) N) : Mat K N := fun j => W (ix2 (Fin.castAdd K (j 0)) (j 1))

abbrev lowerRows (W : Mat (K + K) N) : Mat K N := fun j => W (ix2 (Fin.natAdd K (j 0)) (j 1))

abbrev asRow (b : (⟨1, ![N]⟩ : Shape).Idx → EReal) : Mat 1 N := fun j => b (ix1 (j 1))

theorem slice_upper_eq (W : Mat (K + K) N) (h : (⟨2, ![K + K, N]⟩ : Shape).Slices ![0, 0] ⟨2, ![K, N]⟩) :
    extractStridedSlice ⟨2, ![K, N]⟩ ![0, 0] W h = upperRows W := by
  funext j
  refine extractStridedSlice_apply ![0, 0] W h j _ fun a => ?_
  match a with
  | ⟨0, _⟩ => show (j 0).val = 0 + (j 0).val; omega
  | ⟨1, _⟩ => show (j 1).val = 0 + (j 1).val; omega

theorem slice_lower_eq (W : Mat (K + K) N) (h : (⟨2, ![K + K, N]⟩ : Shape).Slices ![K, 0] ⟨2, ![K, N]⟩) :
    extractStridedSlice ⟨2, ![K, N]⟩ ![K, 0] W h = lowerRows W := by
  funext j
  refine extractStridedSlice_apply ![K, 0] W h j _ fun a => ?_
  match a with
  | ⟨0, _⟩ => show K + (j 0).val = K + (j 0).val; rfl
  | ⟨1, _⟩ => show (j 1).val = 0 + (j 1).val; omega

theorem reshape_row_eq (b : (⟨1, ![N]⟩ : Shape).Idx → EReal) (h : (⟨1, ![N]⟩ : Shape).ShapeCasts ⟨2, ![1, N]⟩) :
    shapeCast ⟨2, ![1, N]⟩ b h = asRow b := by
  funext j
  refine shapeCast_apply b h j (ix1 (j 1)) ?_
  have h0 : (j 0).val = 0 := by have h1 : (j 0).val < 1 := (j 0).isLt; omega
  rw [Shape.rowMajor_val_one, Shape.rowMajor_val_two]
  show (j 1).val = (j 0).val * N + (j 1).val
  rw [h0, Nat.zero_mul, Nat.zero_add]

theorem broadcastInDim_row_apply {α : Type} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  refine (broadcastInDim_apply ![0, 1] h2 _ (ix2 p q) (ix2 (0 : Fin 1) q) fun a => ?_).trans
    (broadcastInDim_apply ![1] h1 b (ix2 (0 : Fin 1) q) (ix1 q) fun a => ?_)
  · match a with
    | ⟨0, _⟩ =>
      show (0 : ℕ) = if (1 : ℕ) = 1 then 0 else p.val
      rw [if_pos rfl]
    | ⟨1, _⟩ =>
      show q.val = if N = 1 then 0 else q.val
      split
      · have := q.isLt; omega
      · rfl
  · match a with
    | ⟨0, _⟩ =>
      show q.val = if N = 1 then 0 else q.val
      split
      · have := q.isLt; omega
      · rfl

theorem broadcastInDim_col_apply {α : Type} (x : (⟨1, ![M]⟩ : Shape).Idx → α)
    (h1 : (⟨1, ![M]⟩ : Shape).BroadcastsInDim ⟨2, ![M, 1]⟩ ![0])
    (h2 : (⟨2, ![M, 1]⟩ : Shape).BroadcastsInDim ⟨2, ![M, N]⟩ ![0, 1]) (p : Fin M) (q : Fin N) :
    broadcastInDim ⟨2, ![M, N]⟩ ![0, 1] h2 (broadcastInDim ⟨2, ![M, 1]⟩ ![0] h1 x) (ix2 p q) = x (ix1 p) := by
  refine (broadcastInDim_apply ![0, 1] h2 _ (ix2 p q) (ix2 p (0 : Fin 1)) fun a => ?_).trans
    (broadcastInDim_apply ![0] h1 x (ix2 p (0 : Fin 1)) (ix1 p) fun a => ?_)
  · match a with
    | ⟨0, _⟩ =>
      show p.val = if M = 1 then 0 else p.val
      split
      · have := p.isLt; omega
      · rfl
    | ⟨1, _⟩ =>
      show (0 : ℕ) = if (1 : ℕ) = 1 then 0 else q.val
      rw [if_pos rfl]
  · match a with
    | ⟨0, _⟩ =>
      show p.val = if M = 1 then 0 else p.val
      split
      · have := p.isLt; omega
      · rfl

section Host

variable (hcat : Shape.Concatenates [(⟨2, ![M, K]⟩ : Shape), ⟨2, ![M, K]⟩] ⟨2, ![M, K + K]⟩ 1)
  (D : DotDims ⟨2, ![M, K + K]⟩ ⟨2, ![K + K, N]⟩ ⟨2, ![M, N]⟩)
  (hb1 : (⟨1, ![N]⟩ : Shape).BroadcastsInDim ⟨2, ![1, N]⟩ ![1])
  (hb2 : (⟨2, ![1, N]⟩ : Shape).BroadcastsInDim ⟨2, ![M, N]⟩ ![0, 1])
  (hred' : (⟨2, ![M, N]⟩ : Shape).ReducesTo [1] (⟨1, ![M]⟩ : Shape)) (hu : 0 < (⟨0, ![]⟩ : Shape).numel)
  (hb0 : (⟨0, ![]⟩ : Shape).BroadcastsInDim ⟨1, ![M]⟩ ![])
  (hc1 : (⟨1, ![M]⟩ : Shape).BroadcastsInDim ⟨2, ![M, 1]⟩ ![0])
  (hc2 : (⟨2, ![M, 1]⟩ : Shape).BroadcastsInDim ⟨2, ![M, N]⟩ ![0, 1])

def hostLogits (g d : FVec Ideal ⟨2, ![M, K]⟩ .f32) (W : FVec Ideal ⟨2, ![K + K, N]⟩ .f32) (b : FVec Ideal ⟨1, ![N]⟩ .f32) :
    FVec Ideal ⟨2, ![M, N]⟩ .f32 :=
  addf
    (Host.dotGeneral D none
      (concatenate ⟨2, ![M, K + K]⟩ 1 [⟨(⟨2, ![M, K]⟩ : Shape), g⟩, ⟨(⟨2, ![M, K]⟩ : Shape), d⟩] hcat) W)
    (broadcastInDim ⟨2, ![M, N]⟩ ![0, 1] hb2 (broadcastInDim ⟨2, ![1, N]⟩ ![1] hb1 b))

def hostRowMax (z : FVec Ideal ⟨2, ![M, N]⟩ .f32) : FVec Ideal ⟨2, ![M, N]⟩ .f32 :=
  broadcastInDim ⟨2, ![M, N]⟩ ![0, 1] hc2
    (broadcastInDim ⟨2, ![M, 1]⟩ ![0] hc1
      (maximumf (broadcastInDim ⟨1, ![M]⟩ ![] hb0 (constant (F := Ideal) ⟨0, ![]⟩ .f32 0xFF800000#32))
        (Host.reduce FloatOps.maximumf z (constant (F := Ideal) ⟨0, ![]⟩ .f32 0xFF800000#32) hred' hu)))

def hostRowExp (z : FVec Ideal ⟨2, ![M, N]⟩ .f32) : FVec Ideal ⟨2, ![M, N]⟩ .f32 :=
  Host.exp (subf z (hostRowMax hred' hu hb0 hc1 hc2 z))

def hostSoftmax (z : FVec Ideal ⟨2, ![M, N]⟩ .f32) : FVec Ideal ⟨2, ![M, N]⟩ .f32 :=
  Host.divf (hostRowExp hred' hu hb0 hc1 hc2 z)
    (broadcastInDim ⟨2, ![M, N]⟩ ![0, 1] hc2
      (broadcastInDim ⟨2, ![M, 1]⟩ ![0] hc1
        (Host.reduceAdd (hostRowExp hred' hu hb0 hc1 hc2 z) (constant (F := Ideal) ⟨0, ![]⟩ .f32 0x00000000#32) hred' hu)))

def hostHead (g d : FVec Ideal ⟨2, ![M, K]⟩ .f32) (W : FVec Ideal ⟨2, ![K + K, N]⟩ .f32) (b : FVec Ideal ⟨1, ![N]⟩ .f32) :
    FVec Ideal ⟨2, ![M, N]⟩ .f32 :=
  hostSoftmax hred' hu hb0 hc1 hc2 (hostLogits hcat D hb1 hb2 g d W b)

theorem concat_left_apply (g d : FVec Ideal ⟨2, ![M, K]⟩ .f32) (p : Fin M) (k : Fin K) :
    concatenate ⟨2, ![M, K + K]⟩ 1 [⟨(⟨2, ![M, K]⟩ : Shape), g⟩, ⟨(⟨2, ![M, K]⟩ : Shape), d⟩] hcat (ix2 p (Fin.castAdd K k))
      = g (ix2 p k) :=
  concatenate_pair_apply_left 1 g d hcat (ix2 p (Fin.castAdd K k)) rfl (ix2 p k) fun b => by
    match b with
    | ⟨0, _⟩ => rfl
    | ⟨1, _⟩ => rfl

theorem concat_right_apply (g d : FVec Ideal ⟨2, ![M, K]⟩ .f32) (p : Fin M) (k : Fin K) :
    concatenate ⟨2, ![M, K + K]⟩ 1 [⟨(⟨2, ![M, K]⟩ : Shape), g⟩, ⟨(⟨2, ![M, K]⟩ : Shape), d⟩] hcat (ix2 p (Fin.natAdd K k))
      = d (ix2 p k) :=
  concatenate_pair_apply_right 1 g d hcat (ix2 p (Fin.natAdd K k)) rfl rfl (ix2 p k)
    (fun b hne => by
      match b with
      | ⟨0, _⟩ => rfl
      | ⟨1, _⟩ => exact absurd rfl hne)
    (show k.val + K = K + k.val from Nat.add_comm _ _)

theorem hostLogits_apply (hlc : D.lhsContracting = [1]) (hrc : D.rhsContracting = [0]) (hln : D.lhsNonContracting = [0])
    (hrn : D.rhsNonContracting = [1]) (hlb : D.lhsBatch = []) (hrb : D.rhsBatch = [])
    (g d : FVec Ideal ⟨2, ![M, K]⟩ .f32) (W : FVec Ideal ⟨2, ![K + K, N]⟩ .f32) (b : FVec Ideal ⟨1, ![N]⟩ .f32)
    (p : Fin M) (q : Fin N) :
    hostLogits hcat D hb1 hb2 g d W b (ix2 p q) = logits g d (upperRows W) (lowerRows W) (asRow b) (ix2 p q) := by
  unfold hostLogits
  rw [addf_apply, LibDot.dotGeneral_plain_apply D hlc hrc hln hrn hlb hrb, broadcastInDim_row_apply, logits_apply,
    Fin.sum_univ_add]
  simp only [concat_left_apply, concat_right_apply]
  rfl

theorem hostLogits_eq (hlc : D.lhsContracting = [1]) (hrc : D.rhsContracting = [0]) (hln : D.lhsNonContracting = [0])
    (hrn : D.rhsNonContracting = [1]) (hlb : D.lhsBatch = []) (hrb : D.rhsBatch = [])
    (g d : FVec Ideal ⟨2, ![M, K]⟩ .f32) (W : FVec Ideal ⟨2, ![K + K, N]⟩ .f32) (b : FVec Ideal ⟨1, ![N]⟩ .f32) :
    hostLogits hcat D hb1 hb2 g d W b = logits g d (upperRows W) (lowerRows W) (asRow b) := by
  funext j
  rw [eq_ix2 j]
  exact hostLogits_apply hcat D hb1 hb2 hlc hrc hln hrn hlb hrb g d W b (j 0) (j 1)

theorem hostRowMax_apply (hred : (⟨2, ![M, N]⟩ : Shape).Reduces [1] (⟨1, ![M]⟩ : Shape)) (z : FVec Ideal ⟨2, ![M, N]⟩ .f32) (p : Fin M) (q : Fin N) :
    hostRowMax hred' hu hb0 hc1 hc2 z (ix2 p q) = rowMax z p := by
  unfold hostRowMax
  rw [broadcastInDim_col_apply, maximumf_apply, LibRowMax.hostReduce_max_row z hred' hred hu p]
  show max (Ideal.ofBits .f32 0xFF800000#32) (rowMax z p) = rowMax z p
  rw [LibRowMax.ofBits_neg_inf_f32]
  exact max_bot_left _

theorem hostRowExp_apply (hred : (⟨2, ![M, N]⟩ : Shape).Reduces [1] (⟨1, ![M]⟩ : Shape)) (z : FVec Ideal ⟨2, ![M, N]⟩ .f32) (p : Fin M) (q : Fin N) :
    hostRowExp hred' hu hb0 hc1 hc2 z (ix2 p q) = rowExp z p q := by
  unfold hostRowExp
  show Ideal.exp (subf z (hostRowMax hred' hu hb0 hc1 hc2 z) (ix2 p q)) = _
  rw [subf_apply, hostRowMax_apply hred' hu hb0 hc1 hc2 hred]
  rfl

theorem hostSoftmax_apply (hred : (⟨2, ![M, N]⟩ : Shape).Reduces [1] (⟨1, ![M]⟩ : Shape)) (z : FVec Ideal ⟨2, ![M, N]⟩ .f32) (p : Fin M) (q : Fin N) :
    hostSoftmax hred' hu hb0 hc1 hc2 z (ix2 p q) = softmaxRows z (ix2 p q) := by
  unfold hostSoftmax
  show Ideal.div (hostRowExp hred' hu hb0 hc1 hc2 z (ix2 p q)) _ = _
  rw [broadcastInDim_col_apply, hostRowExp_apply hred' hu hb0 hc1 hc2 hred, softmaxRows_apply]
  show Ideal.div _ (Ideal.hostReduceAdd hred' (hostRowExp hred' hu hb0 hc1 hc2 z) (Ideal.ofBits .f32 0x00000000#32) (ix1 p)) = _
  rw [Ideal.hostReduceAdd_single hred' hred, Ideal.ofBits_zero_f32, zero_add]
  exact congrArg (Ideal.div (rowExp z p q)) (Finset.sum_congr rfl fun c _ =>
    (congrArg (hostRowExp hred' hu hb0 hc1 hc2 z) (LibRowMax.lift_row hred p c)).trans
      (hostRowExp_apply hred' hu hb0 hc1 hc2 hred z p _))

theorem hostHead_eq (hred : (⟨2, ![M, N]⟩ : Shape).Reduces [1] (⟨1, ![M]⟩ : Shape)) (hlc : D.lhsContracting = [1]) (hrc : D.rhsContracting = [0]) (hln : D.lhsNonContracting = [0])
    (hrn : D.rhsNonContracting = [1]) (hlb : D.lhsBatch = []) (hrb : D.rhsBatch = [])
    (g d : FVec Ideal ⟨2, ![M, K]⟩ .f32) (W : FVec Ideal ⟨2, ![K + K, N]⟩ .f32) (b : FVec Ideal ⟨1, ![N]⟩ .f32) :
    hostHead hcat D hb1 hb2 hred' hu hb0 hc1 hc2 g d W b
      = softmaxRows (logits g d (upperRows W) (lowerRows W) (asRow b)) := by
  unfold hostHead
  rw [hostLogits_eq hcat D hb1 hb2 hlc hrc hln hrn hlb hrb]
  funext j
  obtain ⟨p, q, rfl⟩ : ∃ (p : Fin M) (q : Fin N), j = ix2 p q := ⟨j 0, j 1, eq_ix2 j⟩
  exact hostSoftmax_apply hred' hu hb0 hc1 hc2 hred _ p q

end Host

end Cert.RefHead

end
-- ==== Proof.Bridge.Heads.lean ====
import proofs.«162078_j40114994545134_1_alg».proof.Proof.KI.Data
import proofs.«162078_j40114994545134_1_alg».proof.Proof.KI.Keep
import proofs.«162078_j40114994545134_1_alg».proof.Proof.KI.Val8
import proofs.«162078_j40114994545134_1_alg».proof.Proof.KI.Val9
import proofs.«162078_j40114994545134_1_alg».proof.Proof.KI.Val10
import proofs.«162078_j40114994545134_1_alg».proof.Proof.Ref.Chunks
import proofs.«162078_j40114994545134_1_alg».proof.Proof.RefHead
import Idealize.ShloMosaic.Lib.StableHlo.Run

set_option maxRecDepth 16384

noncomputable section

namespace Cert.Bridge

open Idealize.ShloMosaic Idealize.ShloMosaic.TcCoe Idealize.SL.Sem Idealize.ShloMosaic.StableHlo
open Idealize.ShloMosaic.ValueIdx

namespace K

open Cert.KernelIdeal Cert.KernelIdeal.Gen Cert.KernelIdeal.GenP Cert.KernelIdeal.Hand

theorem cuts8 (W : Valuation τ sig (Elt Ideal)) :
    StableHlo.after hostOps8 W (Proc.devRef .tc main_v188) = Cert.RefHead.upperRows (K := 128) (N := 5) (W (Proc.devRef .tc main_arg31))
    ∧ StableHlo.after hostOps8 W (Proc.devRef .tc main_v189) = Cert.RefHead.lowerRows (K := 128) (N := 5) (W (Proc.devRef .tc main_arg31))
    ∧ StableHlo.after hostOps8 W (Proc.devRef .tc main_v190) = Cert.RefHead.asRow (N := 5) (W (Proc.devRef .tc main_arg32)) := by
  refine ⟨?_, ?_, ?_⟩
  · after_results
    exact Cert.RefHead.slice_upper_eq (K := 128) (N := 5) _ _
  · after_results
    exact Cert.RefHead.slice_lower_eq (K := 128) (N := 5) _ _
  · after_results
    exact Cert.RefHead.reshape_row_eq _ _

theorem cuts9 (W : Valuation τ sig (Elt Ideal)) :
    StableHlo.after hostOps9 W (Proc.devRef .tc main_v192) = Cert.RefHead.upperRows (K := 128) (N := 5) (W (Proc.devRef .tc main_arg33))
    ∧ StableHlo.after hostOps9 W (Proc.devRef .tc main_v193) = Cert.RefHead.lowerRows (K := 128) (N := 5) (W (Proc.devRef .tc main_arg33))
    ∧ StableHlo.after hostOps9 W (Proc.devRef .tc main_v194) = Cert.RefHead.asRow (N := 5) (W (Proc.devRef .tc main_arg34)) := by
  refine ⟨?_, ?_, ?_⟩
  · after_results
    exact Cert.RefHead.slice_upper_eq (K := 128) (N := 5) _ _
  · after_results
    exact Cert.RefHead.slice_lower_eq (K := 128) (N := 5) _ _
  · after_results
    exact Cert.RefHead.reshape_row_eq _ _

theorem cuts10 (W : Valuation τ sig (Elt Ideal)) :
    StableHlo.after hostOps10 W (Proc.devRef .tc main_v196) = Cert.RefHead.upperRows (K := 128) (N := 5) (W (Proc.devRef .tc main_arg35))
    ∧ StableHlo.after hostOps10 W (Proc.devRef .tc main_v197) = Cert.RefHead.lowerRows (K := 128) (N := 5) (W (Proc.devRef .tc main_arg35))
    ∧ StableHlo.after hostOps10 W (Proc.devRef .tc main_v198) = Cert.RefHead.asRow (N := 5) (W (Proc.devRef .tc main_arg36)) := by
  refine ⟨?_, ?_, ?_⟩
  · after_results
    exact Cert.RefHead.slice_upper_eq (K := 128) (N := 5) _ _
  · after_results
    exact Cert.RefHead.slice_lower_eq (K := 128) (N := 5) _ _
  · after_results
    exact Cert.RefHead.reshape_row_eq _ _

variable (m : (ℓ : Loc nD τ sig) → Buf (Elt Ideal) ℓ) (c : Dev nD)

theorem launch_T28 (r : Ref sig .tc)
    (h : r ∉ hostOps0_W ∧ r ∉ ([main_v1] : List (Ref sig .tc)) ∧ r ∉ hostOps1_W ∧ r ∉ ([main_v3] : List (Ref sig .tc)) ∧
      r ∉ hostOps2_W ∧ r ∉ ([main_v24] : List (Ref sig .tc)) ∧ r ∉ hostOps3_W ∧ r ∉ hostOps3_1_W ∧ r ∉ hostOps3_2_W ∧
      r ∉ hostOps3_3_W ∧ r ∉ hostOps3_4_W ∧ r ∉ ([main_v77] : List (Ref sig .tc)) ∧ r ∉ hostOps4_W ∧
      r ∉ hostOps4_1_W ∧ r ∉ hostOps4_2_W ∧ r ∉ hostOps4_3_W ∧ r ∉ hostOps4_4_W ∧
      r ∉ ([main_v111] : List (Ref sig .tc)) ∧ r ∉ hostOps5_W ∧ r ∉ hostOps5_1_W ∧ r ∉ hostOps5_2_W ∧
      r ∉ hostOps5_3_W ∧ r ∉ hostOps5_4_W ∧ r ∉ ([main_v145] : List (Ref sig .tc)) ∧ r ∉ hostOps6_W ∧
      r ∉ ([main_v147] : List (Ref sig .tc)) ∧ r ∉ hostOps7_W ∧ r ∉ ([main_v168] : List (Ref sig .tc))) :
    T28 m c r = m ((c.tc : Thread nD τ).loc r) := by
  obtain ⟨h1, h2, h3, h4, h5, h6, h7, h8, h9, h10, h11, h12, h13, h14, h15, h16, h17, h18, h19, h20, h21, h22, h23, h24, h25, h26, h27, h28⟩ := h
  rw [T28_of m c r h28, T27_of m c r h27, T26_of m c r h26, T25_of m c r h25, T24_of m c r h24, T23_of m c r h23,
    T22_of m c r h22, T21_of m c r h21, T20_of m c r h20, T19_of m c r h19, T18_of m c r h18, T17_of m c r h17,
    T16_of m c r h16, T15_of m c r h15, T14_of m c r h14, T13_of m c r h13, T12_of m c r h12, T11_of m c r h11,
    T10_of m c r h10, T9_of m c r h9, T8_of m c r h8, T7_of m c r h7, T6_of m c r h6, T5_of m c r h5,
    T4_of m c r h4, T3_of m c r h3, T2_of m c r h2, T1_of m c r h1]

theorem launch_T30 (r : Ref sig .tc)
    (h : r ∉ hostOps0_W ∧ r ∉ ([main_v1] : List (Ref sig .tc)) ∧ r ∉ hostOps1_W ∧ r ∉ ([main_v3] : List (Ref sig .tc)) ∧
      r ∉ hostOps2_W ∧ r ∉ ([main_v24] : List (Ref sig .tc)) ∧ r ∉ hostOps3_W ∧ r ∉ hostOps3_1_W ∧ r ∉ hostOps3_2_W ∧
      r ∉ hostOps3_3_W ∧ r ∉ hostOps3_4_W ∧ r ∉ ([main_v77] : List (Ref sig .tc)) ∧ r ∉ hostOps4_W ∧
      r ∉ hostOps4_1_W ∧ r ∉ hostOps4_2_W ∧ r ∉ hostOps4_3_W ∧ r ∉ hostOps4_4_W ∧
      r ∉ ([main_v111] : List (Ref sig .tc)) ∧ r ∉ hostOps5_W ∧ r ∉ hostOps5_1_W ∧ r ∉ hostOps5_2_W ∧
      r ∉ hostOps5_3_W ∧ r ∉ hostOps5_4_W ∧ r ∉ ([main_v145] : List (Ref sig .tc)) ∧ r ∉ hostOps6_W ∧
      r ∉ ([main_v147] : List (Ref sig .tc)) ∧ r ∉ hostOps7_W ∧ r ∉ ([main_v168] : List (Ref sig .tc)))
    (h29 : r ∉ hostOps8_W) (h30 : r ∉ ([main_v191] : List (Ref sig .tc))) :
    T30 m c r = m ((c.tc : Thread nD τ).loc r) := by
  rw [T30_of m c r h30, T29_of m c r h29]
  exact launch_T28 m c r h

theorem launch_T32 (r : Ref sig .tc)
    (h : r ∉ hostOps0_W ∧ r ∉ ([main_v1] : List (Ref sig .tc)) ∧ r ∉ hostOps1_W ∧ r ∉ ([main_v3] : List (Ref sig .tc)) ∧
      r ∉ hostOps2_W ∧ r ∉ ([main_v24] : List (Ref sig .tc)) ∧ r ∉ hostOps3_W ∧ r ∉ hostOps3_1_W ∧ r ∉ hostOps3_2_W ∧
      r ∉ hostOps3_3_W ∧ r ∉ hostOps3_4_W ∧ r ∉ ([main_v77] : List (Ref sig .tc)) ∧ r ∉ hostOps4_W ∧
      r ∉ hostOps4_1_W ∧ r ∉ hostOps4_2_W ∧ r ∉ hostOps4_3_W ∧ r ∉ hostOps4_4_W ∧
      r ∉ ([main_v111] : List (Ref sig .tc)) ∧ r ∉ hostOps5_W ∧ r ∉ hostOps5_1_W ∧ r ∉ hostOps5_2_W ∧
      r ∉ hostOps5_3_W ∧ r ∉ hostOps5_4_W ∧ r ∉ ([main_v145] : List (Ref sig .tc)) ∧ r ∉ hostOps6_W ∧
      r ∉ ([main_v147] : List (Ref sig .tc)) ∧ r ∉ hostOps7_W ∧ r ∉ ([main_v168] : List (Ref sig .tc)))
    (h29 : r ∉ hostOps8_W) (h30 : r ∉ ([main_v191] : List (Ref sig .tc))) (h31 : r ∉ hostOps9_W) (h32 : r ∉ ([main_v195] : List (Ref sig .tc))) :
    T32 m c r = m ((c.tc : Thread nD τ).loc r) := by
  rw [T32_of m c r h32, T31_of m c r h31]
  exact launch_T30 m c r h h29 h30

theorem v77_T29 : T29 m c (Proc.devRef .tc main_v77) = T12 m c (Proc.devRef .tc main_v77) := by
  rw [T29_of m c main_v77 (by decide), T28_of m c main_v77 (by decide), T27_of m c main_v77 (by decide),
    T26_of m c main_v77 (by decide), T25_of m c main_v77 (by decide), T24_of m c main_v77 (by decide),
    T23_of m c main_v77 (by decide), T22_of m c main_v77 (by decide), T21_of m c main_v77 (by decide),
    T20_of m c main_v77 (by decide), T19_of m c main_v77 (by decide), T18_of m c main_v77 (by decide),
    T17_of m c main_v77 (by decide), T16_of m c main_v77 (by decide), T15_of m c main_v77 (by decide),
    T14_of m c main_v77 (by decide), T13_of m c main_v77 (by decide)]

theorem v111_T31 : T31 m c (Proc.devRef .tc main_v111) = T18 m c (Proc.devRef .tc main_v111) := by
  rw [T31_of m c main_v111 (by decide), T30_of m c main_v111 (by decide), T29_of m c main_v111 (by decide),
    T28_of m c main_v111 (by decide), T27_of m c main_v111 (by decide), T26_of m c main_v111 (by decide),
    T25_of m c main_v111 (by decide), T24_of m c main_v111 (by decide), T23_of m c main_v111 (by decide),
    T22_of m c main_v111 (by decide), T21_of m c main_v111 (by decide), T20_of m c main_v111 (by decide),
    T19_of m c main_v111 (by decide)]

theorem v166_T31 : T31 m c (Proc.devRef .tc main_v166) = T27 m c (Proc.devRef .tc main_v166) := by
  rw [T31_of m c main_v166 (by decide), T30_of m c main_v166 (by decide), T29_of m c main_v166 (by decide),
    T28_of m c main_v166 (by decide)]

theorem v145_T33 : T33 m c (Proc.devRef .tc main_v145) = T24 m c (Proc.devRef .tc main_v145) := by
  rw [T33_of m c main_v145 (by decide), T32_of m c main_v145 (by decide), T31_of m c main_v145 (by decide),
    T30_of m c main_v145 (by decide), T29_of m c main_v145 (by decide), T28_of m c main_v145 (by decide),
    T27_of m c main_v145 (by decide), T26_of m c main_v145 (by decide), T25_of m c main_v145 (by decide)]

theorem v191_T34 : T34 m c (Proc.devRef .tc main_v191) = T30 m c (Proc.devRef .tc main_v191) := by
  rw [T34_of m c main_v191 (by decide), T33_of m c main_v191 (by decide), T32_of m c main_v191 (by decide),
    T31_of m c main_v191 (by decide)]

theorem v195_T34 : T34 m c (Proc.devRef .tc main_v195) = T32 m c (Proc.devRef .tc main_v195) := by
  rw [T34_of m c main_v195 (by decide), T33_of m c main_v195 (by decide)]

theorem out8 :
    T30 m c (Proc.devRef .tc main_v191)
      = Cert.Spec.softmaxRows (Cert.Spec.logits (M := 100000) (K := 128) (N := 5)
          (T12 m c (Proc.devRef .tc main_v77)) (T29 m c (Proc.devRef .tc main_v187))
          (Cert.RefHead.upperRows (K := 128) (N := 5) (m ((c.tc : Thread nD τ).loc main_arg31)))
          (Cert.RefHead.lowerRows (K := 128) (N := 5) (m ((c.tc : Thread nD τ).loc main_arg31)))
          (Cert.RefHead.asRow (N := 5) (m ((c.tc : Thread nD τ).loc main_arg32)))) := by
  have e1 : T29 m c (Proc.devRef .tc main_v188) = Cert.RefHead.upperRows (K := 128) (N := 5) (m ((c.tc : Thread nD τ).loc main_arg31)) := by
    refine (cuts8 (T28 m c)).1.trans ?_
    rw [launch_T28 m c main_arg31 (by (repeat' constructor) <;> decide)]
  have e2 : T29 m c (Proc.devRef .tc main_v189) = Cert.RefHead.lowerRows (K := 128) (N := 5) (m ((c.tc : Thread nD τ).loc main_arg31)) := by
    refine (cuts8 (T28 m c)).2.1.trans ?_
    rw [launch_T28 m c main_arg31 (by (repeat' constructor) <;> decide)]
  have e3 : T29 m c (Proc.devRef .tc main_v190) = Cert.RefHead.asRow (N := 5) (m ((c.tc : Thread nD τ).loc main_arg32)) := by
    refine (cuts8 (T28 m c)).2.2.trans ?_
    rw [launch_T28 m c main_arg32 (by (repeat' constructor) <;> decide)]
  unfold T30
  rw [Function.update_self]
  unfold o8
  rw [final8]
  show Cert.Spec.softmaxRows (Cert.Spec.logits (M := 100000) (K := 128) (N := 5)
    (T29 m c (Proc.devRef .tc main_v77)) (T29 m c (Proc.devRef .tc main_v187))
    (T29 m c (Proc.devRef .tc main_v188)) (T29 m c (Proc.devRef .tc main_v189)) (T29 m c (Proc.devRef .tc main_v190))) = _
  rw [e1, e2, e3, v77_T29 m c]

theorem out9 :
    T32 m c (Proc.devRef .tc main_v195)
      = Cert.Spec.softmaxRows (Cert.Spec.logits (M := 25000) (K := 128) (N := 5)
          (T18 m c (Proc.devRef .tc main_v111)) (T27 m c (Proc.devRef .tc main_v166))
          (Cert.RefHead.upperRows (K := 128) (N := 5) (m ((c.tc : Thread nD τ).loc main_arg33)))
          (Cert.RefHead.lowerRows (K := 128) (N := 5) (m ((c.tc : Thread nD τ).loc main_arg33)))
          (Cert.RefHead.asRow (N := 5) (m ((c.tc : Thread nD τ).loc main_arg34)))) := by
  have e1 : T31 m c (Proc.devRef .tc main_v192) = Cert.RefHead.upperRows (K := 128) (N := 5) (m ((c.tc : Thread nD τ).loc main_arg33)) := by
    refine (cuts9 (T30 m c)).1.trans ?_
    rw [launch_T30 m c main_arg33 (by (repeat' constructor) <;> decide) (by decide) (by decide)]
  have e2 : T31 m c (Proc.devRef .tc main_v193) = Cert.RefHead.lowerRows (K := 128) (N := 5) (m ((c.tc : Thread nD τ).loc main_arg33)) := by
    refine (cuts9 (T30 m c)).2.1.trans ?_
    rw [launch_T30 m c main_arg33 (by (repeat' constructor) <;> decide) (by decide) (by decide)]
  have e3 : T31 m c (Proc.devRef .tc main_v194) = Cert.RefHead.asRow (N := 5) (m ((c.tc : Thread nD τ).loc main_arg34)) := by
    refine (cuts9 (T30 m c)).2.2.trans ?_
    rw [launch_T30 m c main_arg34 (by (repeat' constructor) <;> decide) (by decide) (by decide)]
  unfold T32
  rw [Function.update_self]
  unfold o9
  rw [final9]
  show Cert.Spec.softmaxRows (Cert.Spec.logits (M := 25000) (K := 128) (N := 5)
    (T31 m c (Proc.devRef .tc main_v111)) (T31 m c (Proc.devRef .tc main_v166))
    (T31 m c (Proc.devRef .tc main_v192)) (T31 m c (Proc.devRef .tc main_v193)) (T31 m c (Proc.devRef .tc main_v194))) = _
  rw [e1, e2, e3, v111_T31 m c, v166_T31 m c]

theorem out10 :
    T34 m c (Proc.devRef .tc main_v199)
      = Cert.Spec.softmaxRows (Cert.Spec.logits (M := 6250) (K := 128) (N := 5)
          (T24 m c (Proc.devRef .tc main_v145)) (T24 m c (Proc.devRef .tc main_v145))
          (Cert.RefHead.upperRows (K := 128) (N := 5) (m ((c.tc : Thread nD τ).loc main_arg35)))
          (Cert.RefHead.lowerRows (K := 128) (N := 5) (m ((c.tc : Thread nD τ).loc main_arg35)))
          (Cert.RefHead.asRow (N := 5) (m ((c.tc : Thread nD τ).loc main_arg36)))) := by
  have e1 : T33 m c (Proc.devRef .tc main_v196) = Cert.RefHead.upperRows (K := 128) (N := 5) (m ((c.tc : Thread nD τ).loc main_arg35)) := by
    refine (cuts10 (T32 m c)).1.trans ?_
    rw [launch_T32 m c main_arg35 (by (repeat' constructor) <;> decide) (by decide) (by decide) (by decide) (by decide)]
  have e2 : T33 m c (Proc.devRef .tc main_v197) = Cert.RefHead.lowerRows (K := 128) (N := 5) (m ((c.tc : Thread nD τ).loc main_arg35)) := by
    refine (cuts10 (T32 m c)).2.1.trans ?_
    rw [launch_T32 m c main_arg35 (by (repeat' constructor) <;> decide) (by decide) (by decide) (by decide) (by decide)]
  have e3 : T33 m c (Proc.devRef .tc main_v198) = Cert.RefHead.asRow (N := 5) (m ((c.tc : Thread nD τ).loc main_arg36)) := by
    refine (cuts10 (T32 m c)).2.2.trans ?_
    rw [launch_T32 m c main_arg36 (by (repeat' constructor) <;> decide) (by decide) (by decide) (by decide) (by decide)]
  unfold T34
  rw [Function.update_self]
  unfold o10
  rw [final10]
  show Cert.Spec.softmaxRows (Cert.Spec.logits (M := 6250) (K := 128) (N := 5)
    (T33 m c (Proc.devRef .tc main_v145)) (T33 m c (Proc.devRef .tc main_v145))
    (T33 m c (Proc.devRef .tc main_v196)) (T33 m c (Proc.devRef .tc main_v197)) (T33 m c (Proc.devRef .tc main_v198))) = _
  rw [e1, e2, e3, v145_T33 m c]

theorem res :
    T35 m c (Proc.devRef .tc main_v200)
      = concatenate S131250x5 0 [⟨S100000x5, T30 m c (Proc.devRef .tc main_v191)⟩, ⟨S25000x5, T32 m c (Proc.devRef .tc main_v195)⟩,
          ⟨S6250x5, T34 m c (Proc.devRef .tc main_v199)⟩] concatenates_S100000x5_S25000x5_S6250x5_S131250x5_d0 := by
  show StableHlo.after hostOps11 (T34 m c) (Proc.devRef .tc main_v200) = _
  after_results
  show concatenate S131250x5 0 [⟨S100000x5, T34 m c (Proc.devRef .tc main_v191)⟩, ⟨S25000x5, T34 m c (Proc.devRef .tc main_v195)⟩,
    ⟨S6250x5, T34 m c (Proc.devRef .tc main_v199)⟩] concatenates_S100000x5_S25000x5_S6250x5_S131250x5_d0 = _
  rw [v191_T34 m c, v195_T34 m c]

end K

namespace R

open Cert.ReferenceIdeal Cert.ReferenceIdeal.Gen Cert.ReferenceIdeal.Hand

set_option maxHeartbeats 1000000 in

theorem head12 (W : Valuation τ sig (Elt Ideal)) :
    StableHlo.after rc12 W (Proc.devRef .tc main_v225)
      = Cert.RefHead.hostHead (M := 100000) (K := 128) (N := 5) concatenates_S100000x128_S100000x128_S100000x256_d1
          dot_S100000x256_S256x5_S100000x5_1_0_0_1_n_n bcast_S5_S1x5_1 bcast_S1x5_S100000x5_0_1 reducesTo_S100000x5_S100000_d1 h_S_
          bcast_S_S100000 bcast_S100000_S100000x1_0 bcast_S100000x1_S100000x5_0_1
          (W (Proc.devRef .tc main_v87)) (W (Proc.devRef .tc main_v209)) (W (Proc.devRef .tc main_arg31)) (W (Proc.devRef .tc main_arg32)) := by
  after_results
  rfl

set_option maxHeartbeats 1000000 in

theorem head13 (W : Valuation τ sig (Elt Ideal)) :
    StableHlo.after rc13b (StableHlo.after rc13a W) (Proc.devRef .tc main_v241)
      = Cert.RefHead.hostHead (M := 25000) (K := 128) (N := 5) concatenates_S25000x128_S25000x128_S25000x256_d1
          dot_S25000x256_S256x5_S25000x5_1_0_0_1_n_n bcast_S5_S1x5_1 bcast_S1x5_S25000x5_0_1 reducesTo_S25000x5_S25000_d1 h_S_
          bcast_S_S25000 bcast_S25000_S25000x1_0 bcast_S25000x1_S25000x5_0_1
          (W (Proc.devRef .tc main_v125)) (W (Proc.devRef .tc main_v186)) (W (Proc.devRef .tc main_arg33)) (W (Proc.devRef .tc main_arg34)) := by
  after_results
  rfl

set_option maxHeartbeats 1000000 in

theorem head14 (W : Valuation τ sig (Elt Ideal)) :
    StableHlo.after rc14 W (Proc.devRef .tc main_v257)
      = Cert.RefHead.hostHead (M := 6250) (K := 128) (N := 5) concatenates_S6250x128_S6250x128_S6250x256_d1
          dot_S6250x256_S256x5_S6250x5_1_0_0_1_n_n bcast_S5_S1x5_1 bcast_S1x5_S6250x5_0_1 reducesTo_S6250x5_S6250_d1 h_S_
          bcast_S_S6250 bcast_S6250_S6250x1_0 bcast_S6250x1_S6250x5_0_1
          (W (Proc.devRef .tc main_v163)) (W (Proc.devRef .tc main_v163)) (W (Proc.devRef .tc main_arg35)) (W (Proc.devRef .tc main_arg36)) := by
  after_results
  rfl

variable (m' : (ℓ : Loc nD τ sig) → Buf (Elt Ideal) ℓ) (c : Dev nD)

theorem launch_R12 (r : Ref sig .tc) (h : r ∉ rcW_0 ∧ r ∉ rcW_1 ∧ r ∉ rcW_2 ∧ r ∉ rcW_3 ∧ r ∉ rcW_4 ∧ r ∉ rcW_5 ∧ r ∉ rcW_6 ∧ r ∉ rcW_7 ∧ r ∉ rcW_8 ∧
      r ∉ rcW_9 ∧ r ∉ rcW_10 ∧ r ∉ rcW_11) :
    R12 m' c (Proc.devRef .tc r) = m' ((c.tc : Thread nD τ).loc r) := by
  obtain ⟨h0, h1, h2, h3, h4, h5, h6, h7, h8, h9, h10, h11⟩ := h
  rw [R_keep_11 m' c h11, R_keep_10 m' c h10, R_keep_9 m' c h9, R_keep_8 m' c h8, R_keep_7 m' c h7, R_keep_6 m' c h6,
    R_keep_5 m' c h5, R_keep_4 m' c h4, R_keep_3 m' c h3, R_keep_2 m' c h2, R_keep_1 m' c h1, R_keep_0 m' c h0]
  rfl

theorem launch_R13 (r : Ref sig .tc) (h : r ∉ rcW_0 ∧ r ∉ rcW_1 ∧ r ∉ rcW_2 ∧ r ∉ rcW_3 ∧ r ∉ rcW_4 ∧ r ∉ rcW_5 ∧ r ∉ rcW_6 ∧ r ∉ rcW_7 ∧ r ∉ rcW_8 ∧
      r ∉ rcW_9 ∧ r ∉ rcW_10 ∧ r ∉ rcW_11)
    (h12 : r ∉ rcW_12) : R13 m' c (Proc.devRef .tc r) = m' ((c.tc : Thread nD τ).loc r) := by
  rw [R_keep_12 m' c h12]
  exact launch_R12 m' c r h

theorem launch_R14 (r : Ref sig .tc) (h : r ∉ rcW_0 ∧ r ∉ rcW_1 ∧ r ∉ rcW_2 ∧ r ∉ rcW_3 ∧ r ∉ rcW_4 ∧ r ∉ rcW_5 ∧ r ∉ rcW_6 ∧ r ∉ rcW_7 ∧ r ∉ rcW_8 ∧
      r ∉ rcW_9 ∧ r ∉ rcW_10 ∧ r ∉ rcW_11)
    (h12 : r ∉ rcW_12) (h13 : r ∉ rcW_13) : R14 m' c (Proc.devRef .tc r) = m' ((c.tc : Thread nD τ).loc r) := by
  rw [R_keep_13 m' c h13]
  exact launch_R13 m' c r h h12

theorem v87_R12 : R12 m' c (Proc.devRef .tc main_v87) = R6 m' c (Proc.devRef .tc main_v87) := by
  rw [R_keep_11 m' c (r := main_v87) (by decide), R_keep_10 m' c (r := main_v87) (by decide),
    R_keep_9 m' c (r := main_v87) (by decide), R_keep_8 m' c (r := main_v87) (by decide),
    R_keep_7 m' c (r := main_v87) (by decide), R_keep_6 m' c (r := main_v87) (by decide)]

theorem v125_R13 : R13 m' c (Proc.devRef .tc main_v125) = R7 m' c (Proc.devRef .tc main_v125) := by
  rw [R_keep_12 m' c (r := main_v125) (by decide), R_keep_11 m' c (r := main_v125) (by decide),
    R_keep_10 m' c (r := main_v125) (by decide), R_keep_9 m' c (r := main_v125) (by decide),
    R_keep_8 m' c (r := main_v125) (by decide), R_keep_7 m' c (r := main_v125) (by decide)]

theorem v186_R13 : R13 m' c (Proc.devRef .tc main_v186) = R10 m' c (Proc.devRef .tc main_v186) := by
  rw [R_keep_12 m' c (r := main_v186) (by decide), R_keep_11 m' c (r := main_v186) (by decide),
    R_keep_10 m' c (r := main_v186) (by decide)]

theorem v163_R14 : R14 m' c (Proc.devRef .tc main_v163) = R8 m' c (Proc.devRef .tc main_v163) := by
  rw [R_keep_13 m' c (r := main_v163) (by decide), R_keep_12 m' c (r := main_v163) (by decide),
    R_keep_11 m' c (r := main_v163) (by decide), R_keep_10 m' c (r := main_v163) (by decide),
    R_keep_9 m' c (r := main_v163) (by decide), R_keep_8 m' c (r := main_v163) (by decide)]

theorem v225_R15 : R15 m' c (Proc.devRef .tc main_v225) = R13 m' c (Proc.devRef .tc main_v225) := by
  rw [R_keep_14 m' c (r := main_v225) (by decide), R_keep_13 m' c (r := main_v225) (by decide)]

theorem v241_R15 : R15 m' c (Proc.devRef .tc main_v241) = R14 m' c (Proc.devRef .tc main_v241) := by
  rw [R_keep_14 m' c (r := main_v241) (by decide)]

theorem out12 :
    R13 m' c (Proc.devRef .tc main_v225)
      = Cert.Spec.softmaxRows (Cert.Spec.logits (M := 100000) (K := 128) (N := 5)
          (R6 m' c (Proc.devRef .tc main_v87)) (R12 m' c (Proc.devRef .tc main_v209))
          (Cert.RefHead.upperRows (K := 128) (N := 5) (m' ((c.tc : Thread nD τ).loc main_arg31)))
          (Cert.RefHead.lowerRows (K := 128) (N := 5) (m' ((c.tc : Thread nD τ).loc main_arg31)))
          (Cert.RefHead.asRow (N := 5) (m' ((c.tc : Thread nD τ).loc main_arg32)))) := by
  refine (head12 (R12 m' c)).trans ?_
  rw [Cert.RefHead.hostHead_eq (M := 100000) (K := 128) (N := 5) _ _ _ _ _ _ _ _ _ (by decide) rfl rfl rfl rfl rfl rfl,
    v87_R12 m' c,
    launch_R12 m' c main_arg31 (by (repeat' constructor) <;> decide),
    launch_R12 m' c main_arg32 (by (repeat' constructor) <;> decide)]

theorem out13 :
    R14 m' c (Proc.devRef .tc main_v241)
      = Cert.Spec.softmaxRows (Cert.Spec.logits (M := 25000) (K := 128) (N := 5)
          (R7 m' c (Proc.devRef .tc main_v125)) (R10 m' c (Proc.devRef .tc main_v186))
          (Cert.RefHead.upperRows (K := 128) (N := 5) (m' ((c.tc : Thread nD τ).loc main_arg33)))
          (Cert.RefHead.lowerRows (K := 128) (N := 5) (m' ((c.tc : Thread nD τ).loc main_arg33)))
          (Cert.RefHead.asRow (N := 5) (m' ((c.tc : Thread nD τ).loc main_arg34)))) := by
  refine (head13 (R13 m' c)).trans ?_
  rw [Cert.RefHead.hostHead_eq (M := 25000) (K := 128) (N := 5) _ _ _ _ _ _ _ _ _ (by decide) rfl rfl rfl rfl rfl rfl,
    v125_R13 m' c, v186_R13 m' c,
    launch_R13 m' c main_arg33 (by (repeat' constructor) <;> decide) (by decide),
    launch_R13 m' c main_arg34 (by (repeat' constructor) <;> decide) (by decide)]

theorem out14 :
    R15 m' c (Proc.devRef .tc main_v257)
      = Cert.Spec.softmaxRows (Cert.Spec.logits (M := 6250) (K := 128) (N := 5)
          (R8 m' c (Proc.devRef .tc main_v163)) (R8 m' c (Proc.devRef .tc main_v163))
          (Cert.RefHead.upperRows (K := 128) (N := 5) (m' ((c.tc : Thread nD τ).loc main_arg35)))
          (Cert.RefHead.lowerRows (K := 128) (N := 5) (m' ((c.tc : Thread nD τ).loc main_arg35)))
          (Cert.RefHead.asRow (N := 5) (m' ((c.tc : Thread nD τ).loc main_arg36)))) := by
  refine (head14 (R14 m' c)).trans ?_
  rw [Cert.RefHead.hostHead_eq (M := 6250) (K := 128) (N := 5) _ _ _ _ _ _ _ _ _ (by decide) rfl rfl rfl rfl rfl rfl,
    v163_R14 m' c,
    launch_R14 m' c main_arg35 (by (repeat' constructor) <;> decide) (by decide) (by decide),
    launch_R14 m' c main_arg36 (by (repeat' constructor) <;> decide) (by decide) (by decide)]

theorem res :
    R16 m' c (Proc.devRef .tc main_v258)
      = concatenate S131250x5 0 [⟨S100000x5, R13 m' c (Proc.devRef .tc main_v225)⟩, ⟨S25000x5, R14 m' c (Proc.devRef .tc main_v241)⟩,
          ⟨S6250x5, R15 m' c (Proc.devRef .tc main_v257)⟩] concatenates_S100000x5_S25000x5_S6250x5_S131250x5_d0 := by
  show StableHlo.after rc15 (R15 m' c) (Proc.devRef .tc main_v258) = _
  after_results
  show concatenate S131250x5 0 [⟨S100000x5, R15 m' c (Proc.devRef .tc main_v225)⟩, ⟨S25000x5, R15 m' c (Proc.devRef .tc main_v241)⟩,
    ⟨S6250x5, R15 m' c (Proc.devRef .tc main_v257)⟩] concatenates_S100000x5_S25000x5_S6250x5_S131250x5_d0 = _
  rw [v225_R15 m' c, v241_R15 m' c]

end R

section Nodes

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

theorem o0
    (h_g0f : Cert.KernelIdeal.Hand.T12 m c (Proc.devRef .tc Cert.KernelIdeal.main_v77)
      = Cert.ReferenceIdeal.Hand.R6 m' c (Proc.devRef .tc Cert.ReferenceIdeal.main_v87))
    (h_d0 : Cert.KernelIdeal.Hand.T29 m c (Proc.devRef .tc Cert.KernelIdeal.main_v187)
      = Cert.ReferenceIdeal.Hand.R12 m' c (Proc.devRef .tc Cert.ReferenceIdeal.main_v209))
    (h31 : m' ((c.tc : Thread Cert.ReferenceIdeal.nD Cert.ReferenceIdeal.τ).loc Cert.ReferenceIdeal.main_arg31)
      = m ((c.tc : Thread Cert.KernelIdeal.nD Cert.KernelIdeal.τ).loc Cert.KernelIdeal.main_arg31))
    (h32 : m' ((c.tc : Thread Cert.ReferenceIdeal.nD Cert.ReferenceIdeal.τ).loc Cert.ReferenceIdeal.main_arg32)
      = m ((c.tc : Thread Cert.KernelIdeal.nD Cert.KernelIdeal.τ).loc Cert.KernelIdeal.main_arg32)) :
    Cert.KernelIdeal.Hand.T30 m c (Proc.devRef .tc Cert.KernelIdeal.main_v191)
      = Cert.ReferenceIdeal.Hand.R13 m' c (Proc.devRef .tc Cert.ReferenceIdeal.main_v225) := by
  rw [K.out8 m c, R.out12 m' c, h_g0f, h_d0, h31, h32]

theorem o1
    (h_g1f : Cert.KernelIdeal.Hand.T18 m c (Proc.devRef .tc Cert.KernelIdeal.main_v111)
      = Cert.ReferenceIdeal.Hand.R7 m' c (Proc.devRef .tc Cert.ReferenceIdeal.main_v125))
    (h_d1 : Cert.KernelIdeal.Hand.T27 m c (Proc.devRef .tc Cert.KernelIdeal.main_v166)
      = Cert.ReferenceIdeal.Hand.R10 m' c (Proc.devRef .tc Cert.ReferenceIdeal.main_v186))
    (h33 : m' ((c.tc : Thread Cert.ReferenceIdeal.nD Cert.ReferenceIdeal.τ).loc Cert.ReferenceIdeal.main_arg33)
      = m ((c.tc : Thread Cert.KernelIdeal.nD Cert.KernelIdeal.τ).loc Cert.KernelIdeal.main_arg33))
    (h34 : m' ((c.tc : Thread Cert.ReferenceIdeal.nD Cert.ReferenceIdeal.τ).loc Cert.ReferenceIdeal.main_arg34)
      = m ((c.tc : Thread Cert.KernelIdeal.nD Cert.KernelIdeal.τ).loc Cert.KernelIdeal.main_arg34)) :
    Cert.KernelIdeal.Hand.T32 m c (Proc.devRef .tc Cert.KernelIdeal.main_v195)
      = Cert.ReferenceIdeal.Hand.R14 m' c (Proc.devRef .tc Cert.ReferenceIdeal.main_v241) := by
  rw [K.out9 m c, R.out13 m' c, h_g1f, h_d1, h33, h34]

theorem o2
    (h_g2f : Cert.KernelIdeal.Hand.T24 m c (Proc.devRef .tc Cert.KernelIdeal.main_v145)
      = Cert.ReferenceIdeal.Hand.R8 m' c (Proc.devRef .tc Cert.ReferenceIdeal.main_v163))
    (h35 : m' ((c.tc : Thread Cert.ReferenceIdeal.nD Cert.ReferenceIdeal.τ).loc Cert.ReferenceIdeal.main_arg35)
      = m ((c.tc : Thread Cert.KernelIdeal.nD Cert.KernelIdeal.τ).loc Cert.KernelIdeal.main_arg35))
    (h36 : m' ((c.tc : Thread Cert.ReferenceIdeal.nD Cert.ReferenceIdeal.τ).loc Cert.ReferenceIdeal.main_arg36)
      = m ((c.tc : Thread Cert.KernelIdeal.nD Cert.KernelIdeal.τ).loc Cert.KernelIdeal.main_arg36)) :
    Cert.KernelIdeal.Hand.T34 m c (Proc.devRef .tc Cert.KernelIdeal.main_v199)
      = Cert.ReferenceIdeal.Hand.R15 m' c (Proc.devRef .tc Cert.ReferenceIdeal.main_v257) := by
  rw [K.out10 m c, R.out14 m' c, h_g2f, h35, h36]

theorem result
    (h_o0 : Cert.KernelIdeal.Hand.T30 m c (Proc.devRef .tc Cert.KernelIdeal.main_v191)
      = Cert.ReferenceIdeal.Hand.R13 m' c (Proc.devRef .tc Cert.ReferenceIdeal.main_v225))
    (h_o1 : Cert.KernelIdeal.Hand.T32 m c (Proc.devRef .tc Cert.KernelIdeal.main_v195)
      = Cert.ReferenceIdeal.Hand.R14 m' c (Proc.devRef .tc Cert.ReferenceIdeal.main_v241))
    (h_o2 : Cert.KernelIdeal.Hand.T34 m c (Proc.devRef .tc Cert.KernelIdeal.main_v199)
      = Cert.ReferenceIdeal.Hand.R15 m' c (Proc.devRef .tc Cert.ReferenceIdeal.main_v257)) :
    Cert.KernelIdeal.Hand.T35 m c (Proc.devRef .tc Cert.KernelIdeal.main_v200)
      = Cert.ReferenceIdeal.Hand.R16 m' c (Proc.devRef .tc Cert.ReferenceIdeal.main_v258) := by
  rw [K.res m c, R.res m' c, h_o0, h_o1, h_o2]

end Nodes

end Cert.Bridge

end
-- ==== Proof.Bridge.Final.lean ====
import proofs.«162078_j40114994545134_1_alg».proof.Proof.Bridge.Encoder
import proofs.«162078_j40114994545134_1_alg».proof.Proof.Bridge.Gcn0
import proofs.«162078_j40114994545134_1_alg».proof.Proof.Bridge.Gcn1
import proofs.«162078_j40114994545134_1_alg».proof.Proof.Bridge.Gcn2
import proofs.«162078_j40114994545134_1_alg».proof.Proof.Bridge.Decoder
import proofs.«162078_j40114994545134_1_alg».proof.Proof.Bridge.Heads
import Idealize.ShloMosaic.PureOps.Ideal

noncomputable section

namespace Cert.Bridge

open Idealize.ShloMosaic Idealize.ShloMosaic.TcCoe Idealize.SL.Sem

variable (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)

theorem results_eq
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)) :
    Cert.KernelIdeal.Hand.T35 m c (Proc.devRef .tc Cert.KernelIdeal.main_v200) = Cert.ReferenceIdeal.Hand.R16 m' c (Proc.devRef .tc Cert.ReferenceIdeal.main_v258) := by
  obtain ⟨a0, a1, a2, a3, a4, a5, a6, a7, a8, a9, a10, a11, a12, a13, a14, a15, a16, a17, a18, a19, a20, a21, a22, a23, a24, a25, a26, a27, a28, a29, a30, a31, a32, a33, a34, a35, a36⟩ := hagree
  have n_h0 := h0 m m' c a0 a15 a16
  have n_e0 := e0 m m' c n_h0 a23 a24
  have n_h1 := h1 m m' c n_e0 a7 a8
  have n_e1 := e1 m m' c n_h1 a25 a26
  have n_h2 := h2 m m' c n_e1 a9 a10
  have n_agg0 := agg0 m m' c n_h0 a1 a2
  have n_nd0 := nd0 m m' c a1 a2
  have n_g0f := g0f m m' c n_agg0 n_nd0 a17 a18
  have n_agg1 := agg1 m m' c n_h1 a3 a4
  have n_nd1 := nd1 m m' c a3 a4
  have n_g1f := g1f m m' c n_agg1 n_nd1 a19 a20
  have n_agg2 := agg2 m m' c n_h2 a5 a6
  have n_nd2 := nd2 m m' c a5 a6
  have n_g2f := g2f m m' c n_agg2 n_nd2 a21 a22
  have n_dec0in := dec0in m m' c n_g2f a27 a28
  have n_d1 := d1 m m' c n_dec0in a11 a12
  have n_dec1in := dec1in m m' c n_d1 a29 a30
  have n_d0 := d0 m m' c n_dec1in a13 a14
  have n_o0 := o0 m m' c n_g0f n_d0 a31 a32
  have n_o1 := o1 m m' c n_g1f n_d1 a33 a34
  have n_o2 := o2 m m' c n_g2f a35 a36
  exact result m m' c n_o0 n_o1 n_o2

end Cert.Bridge

end
-- ==== Proof.lean ====
import proofs.«162078_j40114994545134_1_alg».proof.Defs
import proofs.«162078_j40114994545134_1_alg».proof.Proof.Gen.Kernel
import proofs.«162078_j40114994545134_1_alg».proof.Proof.Gen.KernelIdeal
import proofs.«162078_j40114994545134_1_alg».proof.Proof.Gen.ReferenceIdeal
import proofs.«162078_j40114994545134_1_alg».proof.Proof.Gen.Pre_finite_inputs
import proofs.«162078_j40114994545134_1_alg».proof.Proof.K.Run
import proofs.«162078_j40114994545134_1_alg».proof.Proof.KI.Run
import proofs.«162078_j40114994545134_1_alg».proof.Proof.Ref.Run
import proofs.«162078_j40114994545134_1_alg».proof.Proof.Bridge.Final
import Idealize.ShloMosaic.Adequacy
import Idealize.ShloMosaic.Init

noncomputable section

namespace Cert.Proof

open Idealize.ShloMosaic Idealize.SL.Sem

theorem frame_k : Cert.frame_Kernel := fun m g _ =>
  (θ_run Cert.Kernel.defs _ _).mono (fun _ h c => (h c).2) (Cert.Kernel.Hand.run_main (F := Bits) m g)

theorem frame_ki : Cert.frame_KernelIdeal := fun m g _ =>
  (θ_run Cert.KernelIdeal.defs _ _).mono (fun _ h c => (h c).2) (Cert.KernelIdeal.Hand.run_main (F := Ideal) m g)

theorem frame_ri : Cert.frame_ReferenceIdeal := fun m g _ => Cert.ReferenceIdeal.Hand.frame_ref (F := Ideal) m g

theorem preserves : Cert.preserves_Kernel_KernelIdeal := trivial

theorem algebraic : Cert.algebraic_KernelIdeal_ReferenceIdeal := fun m g m' g' _ hagree =>
  ⟨fun c => Cert.KernelIdeal.Hand.T35 m c (Proc.devRef .tc Cert.KernelIdeal.main_v200),
    Cert.KernelIdeal.Hand.run_main (F := Ideal) m g,
    (θ_run Cert.ReferenceIdeal.defs _ _).mono
      (fun _ h c => ⟨(h c).1.trans (Cert.Bridge.results_eq m m' c (hagree c)).symm, (h c).2⟩)
      (Cert.ReferenceIdeal.Hand.ref_run (F := Ideal) m' g')⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
